-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S_ : Shape := ⟨0, ![]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  reducesTo_S_S_d : S_.ReducesTo [] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : IVec S1600000 32) (main_v12 : IVec S_ 1) (main_v15 : IVec S_ 1) : IVec S_ 1 :=
  let main_v16 : IVec S_ 1 := andi main_v12 main_v15
  let main_c_6 : IVec S_ 32 := constantI S_ 32 100000#32
  let main_v17 : IVec S1600000 32 := broadcastInDim S1600000 ![] bcast_S_S1600000 main_c_6
  let main_v18 : IVec S1600000 1 := cmpi .slt main_arg4 main_v17
  let main_c_7 : IVec S_ 1 := constantI S_ 1 1#1
  let main_v19 : IVec S_ 1 := (fun x v => Host.reduce IntOp.andi x v reducesTo_S1600000_S_d0 h_S_) main_v18 main_c_7
  let main_v20 : IVec S_ 1 := andi main_v16 main_v19
  main_v20

def fn {F : FTy → Type} [FloatOps F] (main_arg0 : FVec F S100000x64 .f32) (main_arg1 : FVec F S_ .f32) (main_arg2 : FVec F S1600000 .f32) (main_arg3 : IVec S1600000 32) (main_arg4 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S1600000 .f32 := Host.absf main_arg2
  let main_cst_2 : FVec F S_ .f32 := constant S_ .f32 0x7F800000#32
  let main_v9 : FVec F S1600000 .f32 := broadcastInDim S1600000 ![] bcast_S_S1600000 main_cst_2
  let main_v10 : IVec S1600000 1 := cmpf .olt main_v8 main_v9
  let main_c_3 : IVec S_ 1 := constantI S_ 1 1#1
  let main_v11 : IVec S_ 1 := (fun x v => Host.reduce IntOp.andi x v reducesTo_S1600000_S_d0 h_S_) main_v10 main_c_3
  let main_v12 : IVec S_ 1 := andi main_v7 main_v11
  let main_c_4 : IVec S_ 32 := constantI S_ 32 0#32
  let main_v13 : IVec S1600000 32 := broadcastInDim S1600000 ![] bcast_S_S1600000 main_c_4
  let main_v14 : IVec S1600000 1 := cmpi .sge main_arg4 main_v13
  let main_c_5 : IVec S_ 1 := constantI S_ 1 1#1
  let main_v15 : IVec S_ 1 := (fun x v => Host.reduce IntOp.andi x v reducesTo_S1600000_S_d0 h_S_) main_v14 main_c_5
  fn_part1 (F := F) main_arg4 main_v12 main_v15
-- ==== Kernel.lean ====
abbrev S100000x64 : Shape := ⟨2, ![100000, 64]⟩
abbrev S_ : Shape := ⟨0, ![]⟩
abbrev S1600000 : Shape := ⟨1, ![1600000]⟩
abbrev S1600000x1 : Shape := ⟨2, ![1600000, 1]⟩
abbrev S1600000x64 : Shape := ⟨2, ![1600000, 64]⟩
abbrev S256 : Shape := ⟨1, ![256]⟩
abbrev S256x1 : Shape := ⟨2, ![256, 1]⟩
abbrev S256x64 : Shape := ⟨2, ![256, 64]⟩
abbrev S8 : Shape := ⟨1, ![8]⟩
abbrev S1 : Shape := ⟨1, ![1]⟩
abbrev S1x64 : Shape := ⟨2, ![1, 64]⟩
abbrev S64 : Shape := ⟨1, ![64]⟩
abbrev S1x1 : Shape := ⟨2, ![1, 1]⟩
abbrev S5000x64 : Shape := ⟨2, ![5000, 64]⟩

abbrev nBuf : Space → Nat
  | .hbm => 30
  | .vmem => 15
  | .smem => 4
  | _ => 0

abbrev bufTy : (tb : Table) → Fin (tcTables nBuf tb) → BufTy
  | .hbm, ⟨0, _⟩ => ⟨S100000x64, .f32⟩
  | .hbm, ⟨1, _⟩ => ⟨S_, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S1600000x1, .f32⟩
  | .hbm, ⟨6, _⟩ => ⟨S1600000x64, .f32⟩
  | .hbm, ⟨7, _⟩ => ⟨S_, .f32⟩
  | .hbm, ⟨8, _⟩ => ⟨S100000x64, .f32⟩
  | .hbm, ⟨9, _⟩ => ⟨S1600000x1, .i32⟩
  | .hbm, ⟨10, _⟩ => ⟨S100000x64, .f32⟩
  | .hbm, ⟨11, _⟩ => ⟨S1600000x64, .f32⟩
  | .hbm, ⟨12, _⟩ => ⟨S_, .f32⟩
  | .hbm, ⟨13, _⟩ => ⟨S100000x64, .f32⟩
  | .hbm, ⟨14, _⟩ => ⟨S1600000x1, .i32⟩
  | .hbm, ⟨15, _⟩ => ⟨S100000x64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1x1, .f32⟩
  | .hbm, ⟨29, _⟩ => ⟨S100000x64, .f32⟩
  | .local _ .vmem, ⟨0, _⟩ => ⟨S256x1, .f32⟩
  | .local _ .vmem, ⟨1, _⟩ => ⟨S256x1, .f32⟩
  | .local _ .vmem, ⟨2, _⟩ => ⟨S256x64, .f32⟩
  | .local _ .vmem, ⟨3, _⟩ => ⟨S256x64, .f32⟩
  | .local _ .vmem, ⟨4, _⟩ => ⟨S256x1, .f32⟩
  | .local _ .vmem, ⟨5, _⟩ => ⟨S256x1, .f32⟩
  | .local _ .vmem, ⟨6, _⟩ => ⟨S256x64, .f32⟩
  | .local _ .vmem, ⟨7, _⟩ => ⟨S256x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S1x1, .f32⟩
  | .local _ .vmem, ⟨13, _⟩ => ⟨S5000x64, .f32⟩
  | .local _ .vmem, ⟨14, _⟩ => ⟨S5000x64, .f32⟩
  | .local _ .smem, ⟨0, _⟩ => ⟨S256, .i32⟩
  | .local _ .smem, ⟨1, _⟩ => ⟨S256, .i32⟩
  | .local _ .smem, ⟨2, _⟩ => ⟨S256, .i32⟩
  | .local _ .smem, ⟨3, _⟩ => ⟨S256, .i32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc0_stg0_0 : Ref sig .tc := ⟨.smem, 0, rfl⟩
abbrev cc0_stg0_1 : Ref sig .tc := ⟨.smem, 1, rfl⟩
abbrev cc1_stg0_0 : Ref sig .tc := ⟨.smem, 2, rfl⟩
abbrev cc1_stg0_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem3_1 : DmaSem sig := 34

abbrev nD : Nat := 1
abbrev τ : Topo := Topo.v7x

variable {F : FTy → Type} [FloatOps F]

abbrev grid0 : Pipeline.Grid := ⟨1, ![6250], ![false]⟩

def k0_off1 (v0 : BitVec 32) : Fin 2 → Nat :=
  let c0_i32_2 : BitVec 32 := 0#32
  ![v0.toNat, 0]

def k0_chk1 (v0 : BitVec 32) : Prop :=
  (∀ a, (k0_off1 v0) a + S1x64.size a ≤ S100000x64.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x64.size a ≤ S100000x64.size a := fun v0 k0_hw1 => k0_hw1

def k0_off2 (v7 : BitVec 32) : Fin 2 → Nat :=
  let c0_i32_5 : BitVec 32 := 0#32
  ![v7.toNat, 0]

def k0_chk2 (v7 : BitVec 32) : Prop :=
  (∀ a, (k0_off2 v7) a + S1x64.size a ≤ S100000x64.size a)
instance k0_chk2.dec : ∀ (v7 : BitVec 32), Decidable (k0_chk2 v7) := fun v7 => decidable_of_iff' _ (Iff.of_eq (k0_chk2.eq_1 v7))
theorem k0_off2_inb : ∀ (v7 : BitVec 32) (k0_hw2 : k0_chk2 v7), ∀ a, (k0_off2 v7) a + S1x64.size a ≤ S100000x64.size a := fun v7 k0_hw2 => k0_hw2

def k0_off3 (v14 : BitVec 32) : Fin 2 → Nat :=
  let c0_i32_8 : BitVec 32 := 0#32
  ![v14.toNat, 0]

def k0_chk3 (v14 : BitVec 32) : Prop :=
  (∀ a, (k0_off3 v14) a + S1x64.size a ≤ S100000x64.size a)
instance k0_chk3.dec : ∀ (v14 : BitVec 32), Decidable (k0_chk3 v14) := fun v14 => decidable_of_iff' _ (Iff.of_eq (k0_chk3.eq_1 v14))
theorem k0_off3_inb : ∀ (v14 : BitVec 32) (k0_hw3 : k0_chk3 v14), ∀ a, (k0_off3 v14) a + S1x64.size a ≤ S100000x64.size a := fun v14 k0_hw3 => k0_hw3

def k0_off4 (v21 : BitVec 32) : Fin 2 → Nat :=
  let c0_i32_11 : BitVec 32 := 0#32
  ![v21.toNat, 0]

def k0_chk4 (v21 : BitVec 32) : Prop :=
  (∀ a, (k0_off4 v21) a + S1x64.size a ≤ S100000x64.size a)
instance k0_chk4.dec : ∀ (v21 : BitVec 32), Decidable (k0_chk4 v21) := fun v21 => decidable_of_iff' _ (Iff.of_eq (k0_chk4.eq_1 v21))
theorem k0_off4_inb : ∀ (v21 : BitVec 32) (k0_hw4 : k0_chk4 v21), ∀ a, (k0_off4 v21) a + S1x64.size a ≤ S100000x64.size a := fun v21 k0_hw4 => k0_hw4

def k0_off5 (v28 : BitVec 32) : Fin 2 → Nat :=
  let c0_i32_14 : BitVec 32 := 0#32
  ![v28.toNat, 0]

def k0_chk5 (v28 : BitVec 32) : Prop :=
  (∀ a, (k0_off5 v28) a + S1x64.size a ≤ S100000x64.size a)
instance k0_chk5.dec : ∀ (v28 : BitVec 32), Decidable (k0_chk5 v28) := fun v28 => decidable_of_iff' _ (Iff.of_eq (k0_chk5.eq_1 v28))
theorem k0_off5_inb : ∀ (v28 : BitVec 32) (k0_hw5 : k0_chk5 v28), ∀ a, (k0_off5 v28) a + S1x64.size a ≤ S100000x64.size a := fun v28 k0_hw5 => k0_hw5

def k0_off6 (v35 : BitVec 32) : Fin 2 → Nat :=
  let c0_i32_17 : BitVec 32 := 0#32
  ![v35.toNat, 0]

def k0_chk6 (v35 : BitVec 32) : Prop :=
  (∀ a, (k0_off6 v35) a + S1x64.size a ≤ S100000x64.size a)
instance k0_chk6.dec : ∀ (v35 : BitVec 32), Decidable (k0_chk6 v35) := fun v35 => decidable_of_iff' _ (Iff.of_eq (k0_chk6.eq_1 v35))
theorem k0_off6_inb : ∀ (v35 : BitVec 32) (k0_hw6 : k0_chk6 v35), ∀ a, (k0_off6 v35) a + S1x64.size a ≤ S100000x64.size a := fun v35 k0_hw6 => k0_hw6

def k0_off7 (v42 : BitVec 32) : Fin 2 → Nat :=
  let c0_i32_20 : BitVec 32 := 0#32
  ![v42.toNat, 0]

def k0_chk7 (v42 : BitVec 32) : Prop :=
  (∀ a, (k0_off7 v42) a + S1x64.size a ≤ S100000x64.size a)
instance k0_chk7.dec : ∀ (v42 : BitVec 32), Decidable (k0_chk7 v42) := fun v42 => decidable_of_iff' _ (Iff.of_eq (k0_chk7.eq_1 v42))
theorem k0_off7_inb : ∀ (v42 : BitVec 32) (k0_hw7 : k0_chk7 v42), ∀ a, (k0_off7 v42) a + S1x64.size a ≤ S100000x64.size a := fun v42 k0_hw7 => k0_hw7

def k0_off8 (v49 : BitVec 32) : Fin 2 → Nat :=
  let c0_i32_23 : BitVec 32 := 0#32
  ![v49.toNat, 0]

def k0_chk8 (v49 : BitVec 32) : Prop :=
  (∀ a, (k0_off8 v49) a + S1x64.size a ≤ S100000x64.size a)
instance k0_chk8.dec : ∀ (v49 : BitVec 32), Decidable (k0_chk8 v49) := fun v49 => decidable_of_iff' _ (Iff.of_eq (k0_chk8.eq_1 v49))
theorem k0_off8_inb : ∀ (v49 : BitVec 32) (k0_hw8 : k0_chk8 v49), ∀ a, (k0_off8 v49) a + S1x64.size a ≤ S100000x64.size a := fun v49 k0_hw8 => k0_hw8

def k0_off9 (v62 : BitVec 32) : Fin 2 → Nat :=
  let c0_i32_31 : BitVec 32 := 0#32
  ![v62.toNat, 0]

def k0_chk9 (v62 : BitVec 32) : Prop :=
  (∀ a, (k0_off9 v62) a + S1x64.size a ≤ S100000x64.size a)
instance k0_chk9.dec : ∀ (v62 : BitVec 32), Decidable (k0_chk9 v62) := fun v62 => decidable_of_iff' _ (Iff.of_eq (k0_chk9.eq_1 v62))
theorem k0_off9_inb : ∀ (v62 : BitVec 32) (k0_hw9 : k0_chk9 v62), ∀ a, (k0_off9 v62) a + S1x64.size a ≤ S100000x64.size a := fun v62 k0_hw9 => k0_hw9

def k0_off10 (v75 : BitVec 32) : Fin 2 → Nat :=
  let c0_i32_39 : BitVec 32 := 0#32
  ![v75.toNat, 0]

def k0_chk10 (v75 : BitVec 32) : Prop :=
  (∀ a, (k0_off10 v75) a + S1x64.size a ≤ S100000x64.size a)
instance k0_chk10.dec : ∀ (v75 : BitVec 32), Decidable (k0_chk10 v75) := fun v75 => decidable_of_iff' _ (Iff.of_eq (k0_chk10.eq_1 v75))
theorem k0_off10_inb : ∀ (v75 : BitVec 32) (k0_hw10 : k0_chk10 v75), ∀ a, (k0_off10 v75) a + S1x64.size a ≤ S100000x64.size a := fun v75 k0_hw10 => k0_hw10

def k0_off11 (v88 : BitVec 32) : Fin 2 → Nat :=
  let c0_i32_47 : BitVec 32 := 0#32
  ![v88.toNat, 0]

def k0_chk11 (v88 : BitVec 32) : Prop :=
  (∀ a, (k0_off11 v88) a + S1x64.size a ≤ S100000x64.size a)
instance k0_chk11.dec : ∀ (v88 : BitVec 32), Decidable (k0_chk11 v88) := fun v88 => decidable_of_iff' _ (Iff.of_eq (k0_chk11.eq_1 v88))
theorem k0_off11_inb : ∀ (v88 : BitVec 32) (k0_hw11 : k0_chk11 v88), ∀ a, (k0_off11 v88) a + S1x64.size a ≤ S100000x64.size a := fun v88 k0_hw11 => k0_hw11

def k0_off12 (v101 : BitVec 32) : Fin 2 → Nat :=
  let c0_i32_55 : BitVec 32 := 0#32
  ![v101.toNat, 0]

def k0_chk12 (v101 : BitVec 32) : Prop :=
  (∀ a, (k0_off12 v101) a + S1x64.size a ≤ S100000x64.size a)
instance k0_chk12.dec : ∀ (v101 : BitVec 32), Decidable (k0_chk12 v101) := fun v101 => decidable_of_iff' _ (Iff.of_eq (k0_chk12.eq_1 v101))
theorem k0_off12_inb : ∀ (v101 : BitVec 32) (k0_hw12 : k0_chk12 v101), ∀ a, (k0_off12 v101) a + S1x64.size a ≤ S100000x64.size a := fun v101 k0_hw12 => k0_hw12

def k0_off13 (v114 : BitVec 32) : Fin 2 → Nat :=
  let c0_i32_63 : BitVec 32 := 0#32
  ![v114.toNat, 0]

def k0_chk13 (v114 : BitVec 32) : Prop :=
  (∀ a, (k0_off13 v114) a + S1x64.size a ≤ S100000x64.size a)
instance k0_chk13.dec : ∀ (v114 : BitVec 32), Decidable (k0_chk13 v114) := fun v114 => decidable_of_iff' _ (Iff.of_eq (k0_chk13.eq_1 v114))
theorem k0_off13_inb : ∀ (v114 : BitVec 32) (k0_hw13 : k0_chk13 v114), ∀ a, (k0_off13 v114) a + S1x64.size a ≤ S100000x64.size a := fun v114 k0_hw13 => k0_hw13

def k0_off14 (v127 : BitVec 32) : Fin 2 → Nat :=
  let c0_i32_71 : BitVec 32 := 0#32
  ![v127.toNat, 0]

def k0_chk14 (v127 : BitVec 32) : Prop :=
  (∀ a, (k0_off14 v127) a + S1x64.size a ≤ S100000x64.size a)
instance k0_chk14.dec : ∀ (v127 : BitVec 32), Decidable (k0_chk14 v127) := fun v127 => decidable_of_iff' _ (Iff.of_eq (k0_chk14.eq_1 v127))
theorem k0_off14_inb : ∀ (v127 : BitVec 32) (k0_hw14 : k0_chk14 v127), ∀ a, (k0_off14 v127) a + S1x64.size a ≤ S100000x64.size a := fun v127 k0_hw14 => k0_hw14

def k0_off15 (v140 : BitVec 32) : Fin 2 → Nat :=
  let c0_i32_79 : BitVec 32 := 0#32
  ![v140.toNat, 0]

def k0_chk15 (v140 : BitVec 32) : Prop :=
  (∀ a, (k0_off15 v140) a + S1x64.size a ≤ S100000x64.size a)
instance k0_chk15.dec : ∀ (v140 : BitVec 32), Decidable (k0_chk15 v140) := fun v140 => decidable_of_iff' _ (Iff.of_eq (k0_chk15.eq_1 v140))
theorem k0_off15_inb : ∀ (v140 : BitVec 32) (k0_hw15 : k0_chk15 v140), ∀ a, (k0_off15 v140) a + S1x64.size a ≤ S100000x64.size a := fun v140 k0_hw15 => k0_hw15

def k0_off16 (v153 : BitVec 32) : Fin 2 → Nat :=
  let c0_i32_87 : BitVec 32 := 0#32
  ![v153.toNat, 0]

def k0_chk16 (v153 : BitVec 32) : Prop :=
  (∀ a, (k0_off16 v153) a + S1x64.size a ≤ S100000x64.size a)
instance k0_chk16.dec : ∀ (v153 : BitVec 32), Decidable (k0_chk16 v153) := fun v153 => decidable_of_iff' _ (Iff.of_eq (k0_chk16.eq_1 v153))
theorem k0_off16_inb : ∀ (v153 : BitVec 32) (k0_hw16 : k0_chk16 v153), ∀ a, (k0_off16 v153) a + S1x64.size a ≤ S100000x64.size a := fun v153 k0_hw16 => k0_hw16

def k0_off17 (v166 : BitVec 32) : Fin 2 → Nat :=
  let c0_i32_95 : BitVec 32 := 0#32
  ![v166.toNat, 0]

def k0_chk17 (v166 : BitVec 32) : Prop :=
  (∀ a, (k0_off17 v166) a + S1x64.size a ≤ S100000x64.size a)
instance k0_chk17.dec : ∀ (v166 : BitVec 32), Decidable (k0_chk17 v166) := fun v166 => decidable_of_iff' _ (Iff.of_eq (k0_chk17.eq_1 v166))
theorem k0_off17_inb : ∀ (v166 : BitVec 32) (k0_hw17 : k0_chk17 v166), ∀ a, (k0_off17 v166) a + S1x64.size a ≤ S100000x64.size a := fun v166 k0_hw17 => k0_hw17

def k0_off18 (v179 : BitVec 32) : Fin 2 → Nat :=
  let c0_i32_103 : BitVec 32 := 0#32
  ![v179.toNat, 0]

def k0_chk18 (v179 : BitVec 32) : Prop :=
  (∀ a, (k0_off18 v179) a + S1x64.size a ≤ S100000x64.size a)
instance k0_chk18.dec : ∀ (v179 : BitVec 32), Decidable (k0_chk18 v179) := fun v179 => decidable_of_iff' _ (Iff.of_eq (k0_chk18.eq_1 v179))
theorem k0_off18_inb : ∀ (v179 : BitVec 32) (k0_hw18 : k0_chk18 v179), ∀ a, (k0_off18 v179) a + S1x64.size a ≤ S100000x64.size a := fun v179 k0_hw18 => k0_hw18

def k0_off19 (v192 : BitVec 32) : Fin 2 → Nat :=
  let c0_i32_111 : BitVec 32 := 0#32
  ![v192.toNat, 0]

def k0_chk19 (v192 : BitVec 32) : Prop :=
  (∀ a, (k0_off19 v192) a + S1x64.size a ≤ S100000x64.size a)
instance k0_chk19.dec : ∀ (v192 : BitVec 32), Decidable (k0_chk19 v192) := fun v192 => decidable_of_iff' _ (Iff.of_eq (k0_chk19.eq_1 v192))
theorem k0_off19_inb : ∀ (v192 : BitVec 32) (k0_hw19 : k0_chk19 v192), ∀ a, (k0_off19 v192) a + S1x64.size a ≤ S100000x64.size a := fun v192 k0_hw19 => k0_hw19

def k0_off20 (v205 : BitVec 32) : Fin 2 → Nat :=
  let c0_i32_119 : BitVec 32 := 0#32
  ![v205.toNat, 0]

def k0_chk20 (v205 : BitVec 32) : Prop :=
  (∀ a, (k0_off20 v205) a + S1x64.size a ≤ S100000x64.size a)
instance k0_chk20.dec : ∀ (v205 : BitVec 32), Decidable (k0_chk20 v205) := fun v205 => decidable_of_iff' _ (Iff.of_eq (k0_chk20.eq_1 v205))
theorem k0_off20_inb : ∀ (v205 : BitVec 32) (k0_hw20 : k0_chk20 v205), ∀ a, (k0_off20 v205) a + S1x64.size a ≤ S100000x64.size a := fun v205 k0_hw20 => k0_hw20

def k0_off21 (v218 : BitVec 32) : Fin 2 → Nat :=
  let c0_i32_127 : BitVec 32 := 0#32
  ![v218.toNat, 0]

def k0_chk21 (v218 : BitVec 32) : Prop :=
  (∀ a, (k0_off21 v218) a + S1x64.size a ≤ S100000x64.size a)
instance k0_chk21.dec : ∀ (v218 : BitVec 32), Decidable (k0_chk21 v218) := fun v218 => decidable_of_iff' _ (Iff.of_eq (k0_chk21.eq_1 v218))
theorem k0_off21_inb : ∀ (v218 : BitVec 32) (k0_hw21 : k0_chk21 v218), ∀ a, (k0_off21 v218) a + S1x64.size a ≤ S100000x64.size a := fun v218 k0_hw21 => k0_hw21

def k0_off22 (v231 : BitVec 32) : Fin 2 → Nat :=
  let c0_i32_135 : BitVec 32 := 0#32
  ![v231.toNat, 0]

def k0_chk22 (v231 : BitVec 32) : Prop :=
  (∀ a, (k0_off22 v231) a + S1x64.size a ≤ S100000x64.size a)
instance k0_chk22.dec : ∀ (v231 : BitVec 32), Decidable (k0_chk22 v231) := fun v231 => decidable_of_iff' _ (Iff.of_eq (k0_chk22.eq_1 v231))
theorem k0_off22_inb : ∀ (v231 : BitVec 32) (k0_hw22 : k0_chk22 v231), ∀ a, (k0_off22 v231) a + S1x64.size a ≤ S100000x64.size a := fun v231 k0_hw22 => k0_hw22

def k0_off23 (v244 : BitVec 32) : Fin 2 → Nat :=
  let c0_i32_143 : BitVec 32 := 0#32
  ![v244.toNat, 0]

def k0_chk23 (v244 : BitVec 32) : Prop :=
  (∀ a, (k0_off23 v244) a + S1x64.size a ≤ S100000x64.size a)
instance k0_chk23.dec : ∀ (v244 : BitVec 32), Decidable (k0_chk23 v244) := fun v244 => decidable_of_iff' _ (Iff.of_eq (k0_chk23.eq_1 v244))
theorem k0_off23_inb : ∀ (v244 : BitVec 32) (k0_hw23 : k0_chk23 v244), ∀ a, (k0_off23 v244) a + S1x64.size a ≤ S100000x64.size a := fun v244 k0_hw23 => k0_hw23

def k0_off24 (v257 : BitVec 32) : Fin 2 → Nat :=
  let c0_i32_151 : BitVec 32 := 0#32
  ![v257.toNat, 0]

def k0_chk24 (v257 : BitVec 32) : Prop :=
  (∀ a, (k0_off24 v257) a + S1x64.size a ≤ S100000x64.size a)
instance k0_chk24.dec : ∀ (v257 : BitVec 32), Decidable (k0_chk24 v257) := fun v257 => decidable_of_iff' _ (Iff.of_eq (k0_chk24.eq_1 v257))
theorem k0_off24_inb : ∀ (v257 : BitVec 32) (k0_hw24 : k0_chk24 v257), ∀ a, (k0_off24 v257) a + S1x64.size a ≤ S100000x64.size a := fun v257 k0_hw24 => k0_hw24

def k0_off25 (v270 : BitVec 32) : Fin 2 → Nat :=
  let c0_i32_159 : BitVec 32 := 0#32
  ![v270.toNat, 0]

def k0_chk25 (v270 : BitVec 32) : Prop :=
  (∀ a, (k0_off25 v270) a + S1x64.size a ≤ S100000x64.size a)
instance k0_chk25.dec : ∀ (v270 : BitVec 32), Decidable (k0_chk25 v270) := fun v270 => decidable_of_iff' _ (Iff.of_eq (k0_chk25.eq_1 v270))
theorem k0_off25_inb : ∀ (v270 : BitVec 32) (k0_hw25 : k0_chk25 v270), ∀ a, (k0_off25 v270) a + S1x64.size a ≤ S100000x64.size a := fun v270 k0_hw25 => k0_hw25

def k0_off26 (v283 : BitVec 32) : Fin 2 → Nat :=
  let c0_i32_167 : BitVec 32 := 0#32
  ![v283.toNat, 0]

def k0_chk26 (v283 : BitVec 32) : Prop :=
  (∀ a, (k0_off26 v283) a + S1x64.size a ≤ S100000x64.size a)
instance k0_chk26.dec : ∀ (v283 : BitVec 32), Decidable (k0_chk26 v283) := fun v283 => decidable_of_iff' _ (Iff.of_eq (k0_chk26.eq_1 v283))
theorem k0_off26_inb : ∀ (v283 : BitVec 32) (k0_hw26 : k0_chk26 v283), ∀ a, (k0_off26 v283) a + S1x64.size a ≤ S100000x64.size a := fun v283 k0_hw26 => k0_hw26

def k0_off27 (v296 : BitVec 32) : Fin 2 → Nat :=
  let c0_i32_175 : BitVec 32 := 0#32
  ![v296.toNat, 0]

def k0_chk27 (v296 : BitVec 32) : Prop :=
  (∀ a, (k0_off27 v296) a + S1x64.size a ≤ S100000x64.size a)
instance k0_chk27.dec : ∀ (v296 : BitVec 32), Decidable (k0_chk27 v296) := fun v296 => decidable_of_iff' _ (Iff.of_eq (k0_chk27.eq_1 v296))
theorem k0_off27_inb : ∀ (v296 : BitVec 32) (k0_hw27 : k0_chk27 v296), ∀ a, (k0_off27 v296) a + S1x64.size a ≤ S100000x64.size a := fun v296 k0_hw27 => k0_hw27

def k0_off28 (v309 : BitVec 32) : Fin 2 → Nat :=
  let c0_i32_183 : BitVec 32 := 0#32
  ![v309.toNat, 0]

def k0_chk28 (v309 : BitVec 32) : Prop :=
  (∀ a, (k0_off28 v309) a + S1x64.size a ≤ S100000x64.size a)
instance k0_chk28.dec : ∀ (v309 : BitVec 32), Decidable (k0_chk28 v309) := fun v309 => decidable_of_iff' _ (Iff.of_eq (k0_chk28.eq_1 v309))
theorem k0_off28_inb : ∀ (v309 : BitVec 32) (k0_hw28 : k0_chk28 v309), ∀ a, (k0_off28 v309) a + S1x64.size a ≤ S100000x64.size a := fun v309 k0_hw28 => k0_hw28

def k0_off29 (v322 : BitVec 32) : Fin 2 → Nat :=
  let c0_i32_191 : BitVec 32 := 0#32
  ![v322.toNat, 0]

def k0_chk29 (v322 : BitVec 32) : Prop :=
  (∀ a, (k0_off29 v322) a + S1x64.size a ≤ S100000x64.size a)
instance k0_chk29.dec : ∀ (v322 : BitVec 32), Decidable (k0_chk29 v322) := fun v322 => decidable_of_iff' _ (Iff.of_eq (k0_chk29.eq_1 v322))
theorem k0_off29_inb : ∀ (v322 : BitVec 32) (k0_hw29 : k0_chk29 v322), ∀ a, (k0_off29 v322) a + S1x64.size a ≤ S100000x64.size a := fun v322 k0_hw29 => k0_hw29

def k0_off30 (v335 : BitVec 32) : Fin 2 → Nat :=
  let c0_i32_199 : BitVec 32 := 0#32
  ![v335.toNat, 0]

def k0_chk30 (v335 : BitVec 32) : Prop :=
  (∀ a, (k0_off30 v335) a + S1x64.size a ≤ S100000x64.size a)
instance k0_chk30.dec : ∀ (v335 : BitVec 32), Decidable (k0_chk30 v335) := fun v335 => decidable_of_iff' _ (Iff.of_eq (k0_chk30.eq_1 v335))
theorem k0_off30_inb : ∀ (v335 : BitVec 32) (k0_hw30 : k0_chk30 v335), ∀ a, (k0_off30 v335) a + S1x64.size a ≤ S100000x64.size a := fun v335 k0_hw30 => k0_hw30

def k0_off31 (v348 : BitVec 32) : Fin 2 → Nat :=
  let c0_i32_207 : BitVec 32 := 0#32
  ![v348.toNat, 0]

def k0_chk31 (v348 : BitVec 32) : Prop :=
  (∀ a, (k0_off31 v348) a + S1x64.size a ≤ S100000x64.size a)
instance k0_chk31.dec : ∀ (v348 : BitVec 32), Decidable (k0_chk31 v348) := fun v348 => decidable_of_iff' _ (Iff.of_eq (k0_chk31.eq_1 v348))
theorem k0_off31_inb : ∀ (v348 : BitVec 32) (k0_hw31 : k0_chk31 v348), ∀ a, (k0_off31 v348) a + S1x64.size a ≤ S100000x64.size a := fun v348 k0_hw31 => k0_hw31

def k0_off32 (v361 : BitVec 32) : Fin 2 → Nat :=
  let c0_i32_215 : BitVec 32 := 0#32
  ![v361.toNat, 0]

def k0_chk32 (v361 : BitVec 32) : Prop :=
  (∀ a, (k0_off32 v361) a + S1x64.size a ≤ S100000x64.size a)
instance k0_chk32.dec : ∀ (v361 : BitVec 32), Decidable (k0_chk32 v361) := fun v361 => decidable_of_iff' _ (Iff.of_eq (k0_chk32.eq_1 v361))
theorem k0_off32_inb : ∀ (v361 : BitVec 32) (k0_hw32 : k0_chk32 v361), ∀ a, (k0_off32 v361) a + S1x64.size a ≤ S100000x64.size a := fun v361 k0_hw32 => k0_hw32

def k0_off33 (v374 : BitVec 32) : Fin 2 → Nat :=
  let c0_i32_223 : BitVec 32 := 0#32
  ![v374.toNat, 0]

def k0_chk33 (v374 : BitVec 32) : Prop :=
  (∀ a, (k0_off33 v374) a + S1x64.size a ≤ S100000x64.size a)
instance k0_chk33.dec : ∀ (v374 : BitVec 32), Decidable (k0_chk33 v374) := fun v374 => decidable_of_iff' _ (Iff.of_eq (k0_chk33.eq_1 v374))
theorem k0_off33_inb : ∀ (v374 : BitVec 32) (k0_hw33 : k0_chk33 v374), ∀ a, (k0_off33 v374) a + S1x64.size a ≤ S100000x64.size a := fun v374 k0_hw33 => k0_hw33

def k0_off34 (v387 : BitVec 32) : Fin 2 → Nat :=
  let c0_i32_231 : BitVec 32 := 0#32
  ![v387.toNat, 0]

def k0_chk34 (v387 : BitVec 32) : Prop :=
  (∀ a, (k0_off34 v387) a + S1x64.size a ≤ S100000x64.size a)
instance k0_chk34.dec : ∀ (v387 : BitVec 32), Decidable (k0_chk34 v387) := fun v387 => decidable_of_iff' _ (Iff.of_eq (k0_chk34.eq_1 v387))
theorem k0_off34_inb : ∀ (v387 : BitVec 32) (k0_hw34 : k0_chk34 v387), ∀ a, (k0_off34 v387) a + S1x64.size a ≤ S100000x64.size a := fun v387 k0_hw34 => k0_hw34

def k0_off35 (v400 : BitVec 32) : Fin 2 → Nat :=
  let c0_i32_239 : BitVec 32 := 0#32
  ![v400.toNat, 0]

def k0_chk35 (v400 : BitVec 32) : Prop :=
  (∀ a, (k0_off35 v400) a + S1x64.size a ≤ S100000x64.size a)
instance k0_chk35.dec : ∀ (v400 : BitVec 32), Decidable (k0_chk35 v400) := fun v400 => decidable_of_iff' _ (Iff.of_eq (k0_chk35.eq_1 v400))
theorem k0_off35_inb : ∀ (v400 : BitVec 32) (k0_hw35 : k0_chk35 v400), ∀ a, (k0_off35 v400) a + S1x64.size a ≤ S100000x64.size a := fun v400 k0_hw35 => k0_hw35

def k0_off36 (v413 : BitVec 32) : Fin 2 → Nat :=
  let c0_i32_247 : BitVec 32 := 0#32
  ![v413.toNat, 0]

def k0_chk36 (v413 : BitVec 32) : Prop :=
  (∀ a, (k0_off36 v413) a + S1x64.size a ≤ S100000x64.size a)
instance k0_chk36.dec : ∀ (v413 : BitVec 32), Decidable (k0_chk36 v413) := fun v413 => decidable_of_iff' _ (Iff.of_eq (k0_chk36.eq_1 v413))
theorem k0_off36_inb : ∀ (v413 : BitVec 32) (k0_hw36 : k0_chk36 v413), ∀ a, (k0_off36 v413) a + S1x64.size a ≤ S100000x64.size a := fun v413 k0_hw36 => k0_hw36

def k0_off37 (v426 : BitVec 32) : Fin 2 → Nat :=
  let c0_i32_255 : BitVec 32 := 0#32
  ![v426.toNat, 0]

def k0_chk37 (v426 : BitVec 32) : Prop :=
  (∀ a, (k0_off37 v426) a + S1x64.size a ≤ S100000x64.size a)
instance k0_chk37.dec : ∀ (v426 : BitVec 32), Decidable (k0_chk37 v426) := fun v426 => decidable_of_iff' _ (Iff.of_eq (k0_chk37.eq_1 v426))
theorem k0_off37_inb : ∀ (v426 : BitVec 32) (k0_hw37 : k0_chk37 v426), ∀ a, (k0_off37 v426) a + S1x64.size a ≤ S100000x64.size a := fun v426 k0_hw37 => k0_hw37

def k0_off38 (v439 : BitVec 32) : Fin 2 → Nat :=
  let c0_i32_263 : BitVec 32 := 0#32
  ![v439.toNat, 0]

def k0_chk38 (v439 : BitVec 32) : Prop :=
  (∀ a, (k0_off38 v439) a + S1x64.size a ≤ S100000x64.size a)
instance k0_chk38.dec : ∀ (v439 : BitVec 32), Decidable (k0_chk38 v439) := fun v439 => decidable_of_iff' _ (Iff.of_eq (k0_chk38.eq_1 v439))
theorem k0_off38_inb : ∀ (v439 : BitVec 32) (k0_hw38 : k0_chk38 v439), ∀ a, (k0_off38 v439) a + S1x64.size a ≤ S100000x64.size a := fun v439 k0_hw38 => k0_hw38

def k0_off39 (v452 : BitVec 32) : Fin 2 → Nat :=
  let c0_i32_271 : BitVec 32 := 0#32
  ![v452.toNat, 0]

def k0_chk39 (v452 : BitVec 32) : Prop :=
  (∀ a, (k0_off39 v452) a + S1x64.size a ≤ S100000x64.size a)
instance k0_chk39.dec : ∀ (v452 : BitVec 32), Decidable (k0_chk39 v452) := fun v452 => decidable_of_iff' _ (Iff.of_eq (k0_chk39.eq_1 v452))
theorem k0_off39_inb : ∀ (v452 : BitVec 32) (k0_hw39 : k0_chk39 v452), ∀ a, (k0_off39 v452) a + S1x64.size a ≤ S100000x64.size a := fun v452 k0_hw39 => k0_hw39

def k0_off40 (v465 : BitVec 32) : Fin 2 → Nat :=
  let c0_i32_279 : BitVec 32 := 0#32
  ![v465.toNat, 0]

def k0_chk40 (v465 : BitVec 32) : Prop :=
  (∀ a, (k0_off40 v465) a + S1x64.size a ≤ S100000x64.size a)
instance k0_chk40.dec : ∀ (v465 : BitVec 32), Decidable (k0_chk40 v465) := fun v465 => decidable_of_iff' _ (Iff.of_eq (k0_chk40.eq_1 v465))
theorem k0_off40_inb : ∀ (v465 : BitVec 32) (k0_hw40 : k0_chk40 v465), ∀ a, (k0_off40 v465) a + S1x64.size a ≤ S100000x64.size a := fun v465 k0_hw40 => k0_hw40

def k0_off41 (v478 : BitVec 32) : Fin 2 → Nat :=
  let c0_i32_287 : BitVec 32 := 0#32
  ![v478.toNat, 0]

def k0_chk41 (v478 : BitVec 32) : Prop :=
  (∀ a, (k0_off41 v478) a + S1x64.size a ≤ S100000x64.size a)
instance k0_chk41.dec : ∀ (v478 : BitVec 32), Decidable (k0_chk41 v478) := fun v478 => decidable_of_iff' _ (Iff.of_eq (k0_chk41.eq_1 v478))
theorem k0_off41_inb : ∀ (v478 : BitVec 32) (k0_hw41 : k0_chk41 v478), ∀ a, (k0_off41 v478) a + S1x64.size a ≤ S100000x64.size a := fun v478 k0_hw41 => k0_hw41

def k0_off42 (v491 : BitVec 32) : Fin 2 → Nat :=
  let c0_i32_295 : BitVec 32 := 0#32
  ![v491.toNat, 0]

def k0_chk42 (v491 : BitVec 32) : Prop :=
  (∀ a, (k0_off42 v491) a + S1x64.size a ≤ S100000x64.size a)
instance k0_chk42.dec : ∀ (v491 : BitVec 32), Decidable (k0_chk42 v491) := fun v491 => decidable_of_iff' _ (Iff.of_eq (k0_chk42.eq_1 v491))
theorem k0_off42_inb : ∀ (v491 : BitVec 32) (k0_hw42 : k0_chk42 v491), ∀ a, (k0_off42 v491) a + S1x64.size a ≤ S100000x64.size a := fun v491 k0_hw42 => k0_hw42

def k0_off43 (v504 : BitVec 32) : Fin 2 → Nat :=
  let c0_i32_303 : BitVec 32 := 0#32
  ![v504.toNat, 0]

def k0_chk43 (v504 : BitVec 32) : Prop :=
  (∀ a, (k0_off43 v504) a + S1x64.size a ≤ S100000x64.size a)
instance k0_chk43.dec : ∀ (v504 : BitVec 32), Decidable (k0_chk43 v504) := fun v504 => decidable_of_iff' _ (Iff.of_eq (k0_chk43.eq_1 v504))
theorem k0_off43_inb : ∀ (v504 : BitVec 32) (k0_hw43 : k0_chk43 v504), ∀ a, (k0_off43 v504) a + S1x64.size a ≤ S100000x64.size a := fun v504 k0_hw43 => k0_hw43

def k0_off44 (v517 : BitVec 32) : Fin 2 → Nat :=
  let c0_i32_311 : BitVec 32 := 0#32
  ![v517.toNat, 0]

def k0_chk44 (v517 : BitVec 32) : Prop :=
  (∀ a, (k0_off44 v517) a + S1x64.size a ≤ S100000x64.size a)
instance k0_chk44.dec : ∀ (v517 : BitVec 32), Decidable (k0_chk44 v517) := fun v517 => decidable_of_iff' _ (Iff.of_eq (k0_chk44.eq_1 v517))
theorem k0_off44_inb : ∀ (v517 : BitVec 32) (k0_hw44 : k0_chk44 v517), ∀ a, (k0_off44 v517) a + S1x64.size a ≤ S100000x64.size a := fun v517 k0_hw44 => k0_hw44

def k0_off45 (v530 : BitVec 32) : Fin 2 → Nat :=
  let c0_i32_319 : BitVec 32 := 0#32
  ![v530.toNat, 0]

def k0_chk45 (v530 : BitVec 32) : Prop :=
  (∀ a, (k0_off45 v530) a + S1x64.size a ≤ S100000x64.size a)
instance k0_chk45.dec : ∀ (v530 : BitVec 32), Decidable (k0_chk45 v530) := fun v530 => decidable_of_iff' _ (Iff.of_eq (k0_chk45.eq_1 v530))
theorem k0_off45_inb : ∀ (v530 : BitVec 32) (k0_hw45 : k0_chk45 v530), ∀ a, (k0_off45 v530) a + S1x64.size a ≤ S100000x64.size a := fun v530 k0_hw45 => k0_hw45

def k0_off46 (v543 : BitVec 32) : Fin 2 → Nat :=
  let c0_i32_327 : BitVec 32 := 0#32
  ![v543.toNat, 0]

def k0_chk46 (v543 : BitVec 32) : Prop :=
  (∀ a, (k0_off46 v543) a + S1x64.size a ≤ S100000x64.size a)
instance k0_chk46.dec : ∀ (v543 : BitVec 32), Decidable (k0_chk46 v543) := fun v543 => decidable_of_iff' _ (Iff.of_eq (k0_chk46.eq_1 v543))
theorem k0_off46_inb : ∀ (v543 : BitVec 32) (k0_hw46 : k0_chk46 v543), ∀ a, (k0_off46 v543) a + S1x64.size a ≤ S100000x64.size a := fun v543 k0_hw46 => k0_hw46

def k0_off47 (v556 : BitVec 32) : Fin 2 → Nat :=
  let c0_i32_335 : BitVec 32 := 0#32
  ![v556.toNat, 0]

def k0_chk47 (v556 : BitVec 32) : Prop :=
  (∀ a, (k0_off47 v556) a + S1x64.size a ≤ S100000x64.size a)
instance k0_chk47.dec : ∀ (v556 : BitVec 32), Decidable (k0_chk47 v556) := fun v556 => decidable_of_iff' _ (Iff.of_eq (k0_chk47.eq_1 v556))
theorem k0_off47_inb : ∀ (v556 : BitVec 32) (k0_hw47 : k0_chk47 v556), ∀ a, (k0_off47 v556) a + S1x64.size a ≤ S100000x64.size a := fun v556 k0_hw47 => k0_hw47

def k0_off48 (v569 : BitVec 32) : Fin 2 → Nat :=
  let c0_i32_343 : BitVec 32 := 0#32
  ![v569.toNat, 0]

def k0_chk48 (v569 : BitVec 32) : Prop :=
  (∀ a, (k0_off48 v569) a + S1x64.size a ≤ S100000x64.size a)
instance k0_chk48.dec : ∀ (v569 : BitVec 32), Decidable (k0_chk48 v569) := fun v569 => decidable_of_iff' _ (Iff.of_eq (k0_chk48.eq_1 v569))
theorem k0_off48_inb : ∀ (v569 : BitVec 32) (k0_hw48 : k0_chk48 v569), ∀ a, (k0_off48 v569) a + S1x64.size a ≤ S100000x64.size a := fun v569 k0_hw48 => k0_hw48

def k0_off49 (v582 : BitVec 32) : Fin 2 → Nat :=
  let c0_i32_351 : BitVec 32 := 0#32
  ![v582.toNat, 0]

def k0_chk49 (v582 : BitVec 32) : Prop :=
  (∀ a, (k0_off49 v582) a + S1x64.size a ≤ S100000x64.size a)
instance k0_chk49.dec : ∀ (v582 : BitVec 32), Decidable (k0_chk49 v582) := fun v582 => decidable_of_iff' _ (Iff.of_eq (k0_chk49.eq_1 v582))
theorem k0_off49_inb : ∀ (v582 : BitVec 32) (k0_hw49 : k0_chk49 v582), ∀ a, (k0_off49 v582) a + S1x64.size a ≤ S100000x64.size a := fun v582 k0_hw49 => k0_hw49

def k0_off50 (v595 : BitVec 32) : Fin 2 → Nat :=
  let c0_i32_359 : BitVec 32 := 0#32
  ![v595.toNat, 0]

def k0_chk50 (v595 : BitVec 32) : Prop :=
  (∀ a, (k0_off50 v595) a + S1x64.size a ≤ S100000x64.size a)
instance k0_chk50.dec : ∀ (v595 : BitVec 32), Decidable (k0_chk50 v595) := fun v595 => decidable_of_iff' _ (Iff.of_eq (k0_chk50.eq_1 v595))
theorem k0_off50_inb : ∀ (v595 : BitVec 32) (k0_hw50 : k0_chk50 v595), ∀ a, (k0_off50 v595) a + S1x64.size a ≤ S100000x64.size a := fun v595 k0_hw50 => k0_hw50

def k0_off51 (v608 : BitVec 32) : Fin 2 → Nat :=
  let c0_i32_367 : BitVec 32 := 0#32
  ![v608.toNat, 0]

def k0_chk51 (v608 : BitVec 32) : Prop :=
  (∀ a, (k0_off51 v608) a + S1x64.size a ≤ S100000x64.size a)
instance k0_chk51.dec : ∀ (v608 : BitVec 32), Decidable (k0_chk51 v608) := fun v608 => decidable_of_iff' _ (Iff.of_eq (k0_chk51.eq_1 v608))
theorem k0_off51_inb : ∀ (v608 : BitVec 32) (k0_hw51 : k0_chk51 v608), ∀ a, (k0_off51 v608) a + S1x64.size a ≤ S100000x64.size a := fun v608 k0_hw51 => k0_hw51

def k0_off52 (v621 : BitVec 32) : Fin 2 → Nat :=
  let c0_i32_375 : BitVec 32 := 0#32
  ![v621.toNat, 0]

def k0_chk52 (v621 : BitVec 32) : Prop :=
  (∀ a, (k0_off52 v621) a + S1x64.size a ≤ S100000x64.size a)
instance k0_chk52.dec : ∀ (v621 : BitVec 32), Decidable (k0_chk52 v621) := fun v621 => decidable_of_iff' _ (Iff.of_eq (k0_chk52.eq_1 v621))
theorem k0_off52_inb : ∀ (v621 : BitVec 32) (k0_hw52 : k0_chk52 v621), ∀ a, (k0_off52 v621) a + S1x64.size a ≤ S100000x64.size a := fun v621 k0_hw52 => k0_hw52

def k0_off53 (v634 : BitVec 32) : Fin 2 → Nat :=
  let c0_i32_383 : BitVec 32 := 0#32
  ![v634.toNat, 0]

def k0_chk53 (v634 : BitVec 32) : Prop :=
  (∀ a, (k0_off53 v634) a + S1x64.size a ≤ S100000x64.size a)
instance k0_chk53.dec : ∀ (v634 : BitVec 32), Decidable (k0_chk53 v634) := fun v634 => decidable_of_iff' _ (Iff.of_eq (k0_chk53.eq_1 v634))
theorem k0_off53_inb : ∀ (v634 : BitVec 32) (k0_hw53 : k0_chk53 v634), ∀ a, (k0_off53 v634) a + S1x64.size a ≤ S100000x64.size a := fun v634 k0_hw53 => k0_hw53

def k0_off54 (v647 : BitVec 32) : Fin 2 → Nat :=
  let c0_i32_391 : BitVec 32 := 0#32
  ![v647.toNat, 0]

def k0_chk54 (v647 : BitVec 32) : Prop :=
  (∀ a, (k0_off54 v647) a + S1x64.size a ≤ S100000x64.size a)
instance k0_chk54.dec : ∀ (v647 : BitVec 32), Decidable (k0_chk54 v647) := fun v647 => decidable_of_iff' _ (Iff.of_eq (k0_chk54.eq_1 v647))
theorem k0_off54_inb : ∀ (v647 : BitVec 32) (k0_hw54 : k0_chk54 v647), ∀ a, (k0_off54 v647) a + S1x64.size a ≤ S100000x64.size a := fun v647 k0_hw54 => k0_hw54

def k0_off55 (v660 : BitVec 32) : Fin 2 → Nat :=
  let c0_i32_399 : BitVec 32 := 0#32
  ![v660.toNat, 0]

def k0_chk55 (v660 : BitVec 32) : Prop :=
  (∀ a, (k0_off55 v660) a + S1x64.size a ≤ S100000x64.size a)
instance k0_chk55.dec : ∀ (v660 : BitVec 32), Decidable (k0_chk55 v660) := fun v660 => decidable_of_iff' _ (Iff.of_eq (k0_chk55.eq_1 v660))
theorem k0_off55_inb : ∀ (v660 : BitVec 32) (k0_hw55 : k0_chk55 v660), ∀ a, (k0_off55 v660) a + S1x64.size a ≤ S100000x64.size a := fun v660 k0_hw55 => k0_hw55

def k0_off56 (v673 : BitVec 32) : Fin 2 → Nat :=
  let c0_i32_407 : BitVec 32 := 0#32
  ![v673.toNat, 0]

def k0_chk56 (v673 : BitVec 32) : Prop :=
  (∀ a, (k0_off56 v673) a + S1x64.size a ≤ S100000x64.size a)
instance k0_chk56.dec : ∀ (v673 : BitVec 32), Decidable (k0_chk56 v673) := fun v673 => decidable_of_iff' _ (Iff.of_eq (k0_chk56.eq_1 v673))
theorem k0_off56_inb : ∀ (v673 : BitVec 32) (k0_hw56 : k0_chk56 v673), ∀ a, (k0_off56 v673) a + S1x64.size a ≤ S100000x64.size a := fun v673 k0_hw56 => k0_hw56

def k0_off57 (v686 : BitVec 32) : Fin 2 → Nat :=
  let c0_i32_415 : BitVec 32 := 0#32
  ![v686.toNat, 0]

def k0_chk57 (v686 : BitVec 32) : Prop :=
  (∀ a, (k0_off57 v686) a + S1x64.size a ≤ S100000x64.size a)
instance k0_chk57.dec : ∀ (v686 : BitVec 32), Decidable (k0_chk57 v686) := fun v686 => decidable_of_iff' _ (Iff.of_eq (k0_chk57.eq_1 v686))
theorem k0_off57_inb : ∀ (v686 : BitVec 32) (k0_hw57 : k0_chk57 v686), ∀ a, (k0_off57 v686) a + S1x64.size a ≤ S100000x64.size a := fun v686 k0_hw57 => k0_hw57

def k0_off58 (v699 : BitVec 32) : Fin 2 → Nat :=
  let c0_i32_423 : BitVec 32 := 0#32
  ![v699.toNat, 0]

def k0_chk58 (v699 : BitVec 32) : Prop :=
  (∀ a, (k0_off58 v699) a + S1x64.size a ≤ S100000x64.size a)
instance k0_chk58.dec : ∀ (v699 : BitVec 32), Decidable (k0_chk58 v699) := fun v699 => decidable_of_iff' _ (Iff.of_eq (k0_chk58.eq_1 v699))
theorem k0_off58_inb : ∀ (v699 : BitVec 32) (k0_hw58 : k0_chk58 v699), ∀ a, (k0_off58 v699) a + S1x64.size a ≤ S100000x64.size a := fun v699 k0_hw58 => k0_hw58

def k0_off59 (v712 : BitVec 32) : Fin 2 → Nat :=
  let c0_i32_431 : BitVec 32 := 0#32
  ![v712.toNat, 0]

def k0_chk59 (v712 : BitVec 32) : Prop :=
  (∀ a, (k0_off59 v712) a + S1x64.size a ≤ S100000x64.size a)
instance k0_chk59.dec : ∀ (v712 : BitVec 32), Decidable (k0_chk59 v712) := fun v712 => decidable_of_iff' _ (Iff.of_eq (k0_chk59.eq_1 v712))
theorem k0_off59_inb : ∀ (v712 : BitVec 32) (k0_hw59 : k0_chk59 v712), ∀ a, (k0_off59 v712) a + S1x64.size a ≤ S100000x64.size a := fun v712 k0_hw59 => k0_hw59

def k0_off60 (v725 : BitVec 32) : Fin 2 → Nat :=
  let c0_i32_439 : BitVec 32 := 0#32
  ![v725.toNat, 0]

def k0_chk60 (v725 : BitVec 32) : Prop :=
  (∀ a, (k0_off60 v725) a + S1x64.size a ≤ S100000x64.size a)
instance k0_chk60.dec : ∀ (v725 : BitVec 32), Decidable (k0_chk60 v725) := fun v725 => decidable_of_iff' _ (Iff.of_eq (k0_chk60.eq_1 v725))
theorem k0_off60_inb : ∀ (v725 : BitVec 32) (k0_hw60 : k0_chk60 v725), ∀ a, (k0_off60 v725) a + S1x64.size a ≤ S100000x64.size a := fun v725 k0_hw60 => k0_hw60

def k0_off61 (v738 : BitVec 32) : Fin 2 → Nat :=
  let c0_i32_447 : BitVec 32 := 0#32
  ![v738.toNat, 0]

def k0_chk61 (v738 : BitVec 32) : Prop :=
  (∀ a, (k0_off61 v738) a + S1x64.size a ≤ S100000x64.size a)
instance k0_chk61.dec : ∀ (v738 : BitVec 32), Decidable (k0_chk61 v738) := fun v738 => decidable_of_iff' _ (Iff.of_eq (k0_chk61.eq_1 v738))
theorem k0_off61_inb : ∀ (v738 : BitVec 32) (k0_hw61 : k0_chk61 v738), ∀ a, (k0_off61 v738) a + S1x64.size a ≤ S100000x64.size a := fun v738 k0_hw61 => k0_hw61

def k0_off62 (v751 : BitVec 32) : Fin 2 → Nat :=
  let c0_i32_455 : BitVec 32 := 0#32
  ![v751.toNat, 0]

def k0_chk62 (v751 : BitVec 32) : Prop :=
  (∀ a, (k0_off62 v751) a + S1x64.size a ≤ S100000x64.size a)
instance k0_chk62.dec : ∀ (v751 : BitVec 32), Decidable (k0_chk62 v751) := fun v751 => decidable_of_iff' _ (Iff.of_eq (k0_chk62.eq_1 v751))
theorem k0_off62_inb : ∀ (v751 : BitVec 32) (k0_hw62 : k0_chk62 v751), ∀ a, (k0_off62 v751) a + S1x64.size a ≤ S100000x64.size a := fun v751 k0_hw62 => k0_hw62

def k0_off63 (v764 : BitVec 32) : Fin 2 → Nat :=
  let c0_i32_463 : BitVec 32 := 0#32
  ![v764.toNat, 0]

def k0_chk63 (v764 : BitVec 32) : Prop :=
  (∀ a, (k0_off63 v764) a + S1x64.size a ≤ S100000x64.size a)
instance k0_chk63.dec : ∀ (v764 : BitVec 32), Decidable (k0_chk63 v764) := fun v764 => decidable_of_iff' _ (Iff.of_eq (k0_chk63.eq_1 v764))
theorem k0_off63_inb : ∀ (v764 : BitVec 32) (k0_hw63 : k0_chk63 v764), ∀ a, (k0_off63 v764) a + S1x64.size a ≤ S100000x64.size a := fun v764 k0_hw63 => k0_hw63

def k0_off64 (v777 : BitVec 32) : Fin 2 → Nat :=
  let c0_i32_471 : BitVec 32 := 0#32
  ![v777.toNat, 0]

def k0_chk64 (v777 : BitVec 32) : Prop :=
  (∀ a, (k0_off64 v777) a + S1x64.size a ≤ S100000x64.size a)
instance k0_chk64.dec : ∀ (v777 : BitVec 32), Decidable (k0_chk64 v777) := fun v777 => decidable_of_iff' _ (Iff.of_eq (k0_chk64.eq_1 v777))
theorem k0_off64_inb : ∀ (v777 : BitVec 32) (k0_hw64 : k0_chk64 v777), ∀ a, (k0_off64 v777) a + S1x64.size a ≤ S100000x64.size a := fun v777 k0_hw64 => k0_hw64

def k0_off65 (v790 : BitVec 32) : Fin 2 → Nat :=
  let c0_i32_479 : BitVec 32 := 0#32
  ![v790.toNat, 0]

def k0_chk65 (v790 : BitVec 32) : Prop :=
  (∀ a, (k0_off65 v790) a + S1x64.size a ≤ S100000x64.size a)
instance k0_chk65.dec : ∀ (v790 : BitVec 32), Decidable (k0_chk65 v790) := fun v790 => decidable_of_iff' _ (Iff.of_eq (k0_chk65.eq_1 v790))
theorem k0_off65_inb : ∀ (v790 : BitVec 32) (k0_hw65 : k0_chk65 v790), ∀ a, (k0_off65 v790) a + S1x64.size a ≤ S100000x64.size a := fun v790 k0_hw65 => k0_hw65

def k0_off66 (v803 : BitVec 32) : Fin 2 → Nat :=
  let c0_i32_487 : BitVec 32 := 0#32
  ![v803.toNat, 0]

def k0_chk66 (v803 : BitVec 32) : Prop :=
  (∀ a, (k0_off66 v803) a + S1x64.size a ≤ S100000x64.size a)
instance k0_chk66.dec : ∀ (v803 : BitVec 32), Decidable (k0_chk66 v803) := fun v803 => decidable_of_iff' _ (Iff.of_eq (k0_chk66.eq_1 v803))
theorem k0_off66_inb : ∀ (v803 : BitVec 32) (k0_hw66 : k0_chk66 v803), ∀ a, (k0_off66 v803) a + S1x64.size a ≤ S100000x64.size a := fun v803 k0_hw66 => k0_hw66

def k0_off67 (v816 : BitVec 32) : Fin 2 → Nat :=
  let c0_i32_495 : BitVec 32 := 0#32
  ![v816.toNat, 0]

def k0_chk67 (v816 : BitVec 32) : Prop :=
  (∀ a, (k0_off67 v816) a + S1x64.size a ≤ S100000x64.size a)
instance k0_chk67.dec : ∀ (v816 : BitVec 32), Decidable (k0_chk67 v816) := fun v816 => decidable_of_iff' _ (Iff.of_eq (k0_chk67.eq_1 v816))
theorem k0_off67_inb : ∀ (v816 : BitVec 32) (k0_hw67 : k0_chk67 v816), ∀ a, (k0_off67 v816) a + S1x64.size a ≤ S100000x64.size a := fun v816 k0_hw67 => k0_hw67

def k0_off68 (v829 : BitVec 32) : Fin 2 → Nat :=
  let c0_i32_503 : BitVec 32 := 0#32
  ![v829.toNat, 0]

def k0_chk68 (v829 : BitVec 32) : Prop :=
  (∀ a, (k0_off68 v829) a + S1x64.size a ≤ S100000x64.size a)
instance k0_chk68.dec : ∀ (v829 : BitVec 32), Decidable (k0_chk68 v829) := fun v829 => decidable_of_iff' _ (Iff.of_eq (k0_chk68.eq_1 v829))
theorem k0_off68_inb : ∀ (v829 : BitVec 32) (k0_hw68 : k0_chk68 v829), ∀ a, (k0_off68 v829) a + S1x64.size a ≤ S100000x64.size a := fun v829 k0_hw68 => k0_hw68

def k0_off69 (v842 : BitVec 32) : Fin 2 → Nat :=
  let c0_i32_511 : BitVec 32 := 0#32
  ![v842.toNat, 0]

def k0_chk69 (v842 : BitVec 32) : Prop :=
  (∀ a, (k0_off69 v842) a + S1x64.size a ≤ S100000x64.size a)
instance k0_chk69.dec : ∀ (v842 : BitVec 32), Decidable (k0_chk69 v842) := fun v842 => decidable_of_iff' _ (Iff.of_eq (k0_chk69.eq_1 v842))
theorem k0_off69_inb : ∀ (v842 : BitVec 32) (k0_hw69 : k0_chk69 v842), ∀ a, (k0_off69 v842) a + S1x64.size a ≤ S100000x64.size a := fun v842 k0_hw69 => k0_hw69

def k0_off70 (v855 : BitVec 32) : Fin 2 → Nat :=
  let c0_i32_519 : BitVec 32 := 0#32
  ![v855.toNat, 0]

def k0_chk70 (v855 : BitVec 32) : Prop :=
  (∀ a, (k0_off70 v855) a + S1x64.size a ≤ S100000x64.size a)
instance k0_chk70.dec : ∀ (v855 : BitVec 32), Decidable (k0_chk70 v855) := fun v855 => decidable_of_iff' _ (Iff.of_eq (k0_chk70.eq_1 v855))
theorem k0_off70_inb : ∀ (v855 : BitVec 32) (k0_hw70 : k0_chk70 v855), ∀ a, (k0_off70 v855) a + S1x64.size a ≤ S100000x64.size a := fun v855 k0_hw70 => k0_hw70

def k0_off71 (v868 : BitVec 32) : Fin 2 → Nat :=
  let c0_i32_527 : BitVec 32 := 0#32
  ![v868.toNat, 0]

def k0_chk71 (v868 : BitVec 32) : Prop :=
  (∀ a, (k0_off71 v868) a + S1x64.size a ≤ S100000x64.size a)
instance k0_chk71.dec : ∀ (v868 : BitVec 32), Decidable (k0_chk71 v868) := fun v868 => decidable_of_iff' _ (Iff.of_eq (k0_chk71.eq_1 v868))
theorem k0_off71_inb : ∀ (v868 : BitVec 32) (k0_hw71 : k0_chk71 v868), ∀ a, (k0_off71 v868) a + S1x64.size a ≤ S100000x64.size a := fun v868 k0_hw71 => k0_hw71

def k0_off72 (v881 : BitVec 32) : Fin 2 → Nat :=
  let c0_i32_535 : BitVec 32 := 0#32
  ![v881.toNat, 0]

def k0_chk72 (v881 : BitVec 32) : Prop :=
  (∀ a, (k0_off72 v881) a + S1x64.size a ≤ S100000x64.size a)
instance k0_chk72.dec : ∀ (v881 : BitVec 32), Decidable (k0_chk72 v881) := fun v881 => decidable_of_iff' _ (Iff.of_eq (k0_chk72.eq_1 v881))
theorem k0_off72_inb : ∀ (v881 : BitVec 32) (k0_hw72 : k0_chk72 v881), ∀ a, (k0_off72 v881) a + S1x64.size a ≤ S100000x64.size a := fun v881 k0_hw72 => k0_hw72

def k0_off73 (v894 : BitVec 32) : Fin 2 → Nat :=
  let c0_i32_543 : BitVec 32 := 0#32
  ![v894.toNat, 0]

def k0_chk73 (v894 : BitVec 32) : Prop :=
  (∀ a, (k0_off73 v894) a + S1x64.size a ≤ S100000x64.size a)
instance k0_chk73.dec : ∀ (v894 : BitVec 32), Decidable (k0_chk73 v894) := fun v894 => decidable_of_iff' _ (Iff.of_eq (k0_chk73.eq_1 v894))
theorem k0_off73_inb : ∀ (v894 : BitVec 32) (k0_hw73 : k0_chk73 v894), ∀ a, (k0_off73 v894) a + S1x64.size a ≤ S100000x64.size a := fun v894 k0_hw73 => k0_hw73

def k0_off74 (v907 : BitVec 32) : Fin 2 → Nat :=
  let c0_i32_551 : BitVec 32 := 0#32
  ![v907.toNat, 0]

def k0_chk74 (v907 : BitVec 32) : Prop :=
  (∀ a, (k0_off74 v907) a + S1x64.size a ≤ S100000x64.size a)
instance k0_chk74.dec : ∀ (v907 : BitVec 32), Decidable (k0_chk74 v907) := fun v907 => decidable_of_iff' _ (Iff.of_eq (k0_chk74.eq_1 v907))
theorem k0_off74_inb : ∀ (v907 : BitVec 32) (k0_hw74 : k0_chk74 v907), ∀ a, (k0_off74 v907) a + S1x64.size a ≤ S100000x64.size a := fun v907 k0_hw74 => k0_hw74

def k0_off75 (v920 : BitVec 32) : Fin 2 → Nat :=
  let c0_i32_559 : BitVec 32 := 0#32
  ![v920.toNat, 0]

def k0_chk75 (v920 : BitVec 32) : Prop :=
  (∀ a, (k0_off75 v920) a + S1x64.size a ≤ S100000x64.size a)
instance k0_chk75.dec : ∀ (v920 : BitVec 32), Decidable (k0_chk75 v920) := fun v920 => decidable_of_iff' _ (Iff.of_eq (k0_chk75.eq_1 v920))
theorem k0_off75_inb : ∀ (v920 : BitVec 32) (k0_hw75 : k0_chk75 v920), ∀ a, (k0_off75 v920) a + S1x64.size a ≤ S100000x64.size a := fun v920 k0_hw75 => k0_hw75

def k0_off76 (v933 : BitVec 32) : Fin 2 → Nat :=
  let c0_i32_567 : BitVec 32 := 0#32
  ![v933.toNat, 0]

def k0_chk76 (v933 : BitVec 32) : Prop :=
  (∀ a, (k0_off76 v933) a + S1x64.size a ≤ S100000x64.size a)
instance k0_chk76.dec : ∀ (v933 : BitVec 32), Decidable (k0_chk76 v933) := fun v933 => decidable_of_iff' _ (Iff.of_eq (k0_chk76.eq_1 v933))
theorem k0_off76_inb : ∀ (v933 : BitVec 32) (k0_hw76 : k0_chk76 v933), ∀ a, (k0_off76 v933) a + S1x64.size a ≤ S100000x64.size a := fun v933 k0_hw76 => k0_hw76

def k0_off77 (v946 : BitVec 32) : Fin 2 → Nat :=
  let c0_i32_575 : BitVec 32 := 0#32
  ![v946.toNat, 0]

def k0_chk77 (v946 : BitVec 32) : Prop :=
  (∀ a, (k0_off77 v946) a + S1x64.size a ≤ S100000x64.size a)
instance k0_chk77.dec : ∀ (v946 : BitVec 32), Decidable (k0_chk77 v946) := fun v946 => decidable_of_iff' _ (Iff.of_eq (k0_chk77.eq_1 v946))
theorem k0_off77_inb : ∀ (v946 : BitVec 32) (k0_hw77 : k0_chk77 v946), ∀ a, (k0_off77 v946) a + S1x64.size a ≤ S100000x64.size a := fun v946 k0_hw77 => k0_hw77

def k0_off78 (v959 : BitVec 32) : Fin 2 → Nat :=
  let c0_i32_583 : BitVec 32 := 0#32
  ![v959.toNat, 0]

def k0_chk78 (v959 : BitVec 32) : Prop :=
  (∀ a, (k0_off78 v959) a + S1x64.size a ≤ S100000x64.size a)
instance k0_chk78.dec : ∀ (v959 : BitVec 32), Decidable (k0_chk78 v959) := fun v959 => decidable_of_iff' _ (Iff.of_eq (k0_chk78.eq_1 v959))
theorem k0_off78_inb : ∀ (v959 : BitVec 32) (k0_hw78 : k0_chk78 v959), ∀ a, (k0_off78 v959) a + S1x64.size a ≤ S100000x64.size a := fun v959 k0_hw78 => k0_hw78

def k0_off79 (v972 : BitVec 32) : Fin 2 → Nat :=
  let c0_i32_591 : BitVec 32 := 0#32
  ![v972.toNat, 0]

def k0_chk79 (v972 : BitVec 32) : Prop :=
  (∀ a, (k0_off79 v972) a + S1x64.size a ≤ S100000x64.size a)
instance k0_chk79.dec : ∀ (v972 : BitVec 32), Decidable (k0_chk79 v972) := fun v972 => decidable_of_iff' _ (Iff.of_eq (k0_chk79.eq_1 v972))
theorem k0_off79_inb : ∀ (v972 : BitVec 32) (k0_hw79 : k0_chk79 v972), ∀ a, (k0_off79 v972) a + S1x64.size a ≤ S100000x64.size a := fun v972 k0_hw79 => k0_hw79

def k0_off80 (v985 : BitVec 32) : Fin 2 → Nat :=
  let c0_i32_599 : BitVec 32 := 0#32
  ![v985.toNat, 0]

def k0_chk80 (v985 : BitVec 32) : Prop :=
  (∀ a, (k0_off80 v985) a + S1x64.size a ≤ S100000x64.size a)
instance k0_chk80.dec : ∀ (v985 : BitVec 32), Decidable (k0_chk80 v985) := fun v985 => decidable_of_iff' _ (Iff.of_eq (k0_chk80.eq_1 v985))
theorem k0_off80_inb : ∀ (v985 : BitVec 32) (k0_hw80 : k0_chk80 v985), ∀ a, (k0_off80 v985) a + S1x64.size a ≤ S100000x64.size a := fun v985 k0_hw80 => k0_hw80

def k0_off81 (v998 : BitVec 32) : Fin 2 → Nat :=
  let c0_i32_607 : BitVec 32 := 0#32
  ![v998.toNat, 0]

def k0_chk81 (v998 : BitVec 32) : Prop :=
  (∀ a, (k0_off81 v998) a + S1x64.size a ≤ S100000x64.size a)
instance k0_chk81.dec : ∀ (v998 : BitVec 32), Decidable (k0_chk81 v998) := fun v998 => decidable_of_iff' _ (Iff.of_eq (k0_chk81.eq_1 v998))
theorem k0_off81_inb : ∀ (v998 : BitVec 32) (k0_hw81 : k0_chk81 v998), ∀ a, (k0_off81 v998) a + S1x64.size a ≤ S100000x64.size a := fun v998 k0_hw81 => k0_hw81

def k0_off82 (v1011 : BitVec 32) : Fin 2 → Nat :=
  let c0_i32_615 : BitVec 32 := 0#32
  ![v1011.toNat, 0]

def k0_chk82 (v1011 : BitVec 32) : Prop :=
  (∀ a, (k0_off82 v1011) a + S1x64.size a ≤ S100000x64.size a)
instance k0_chk82.dec : ∀ (v1011 : BitVec 32), Decidable (k0_chk82 v1011) := fun v1011 => decidable_of_iff' _ (Iff.of_eq (k0_chk82.eq_1 v1011))
theorem k0_off82_inb : ∀ (v1011 : BitVec 32) (k0_hw82 : k0_chk82 v1011), ∀ a, (k0_off82 v1011) a + S1x64.size a ≤ S100000x64.size a := fun v1011 k0_hw82 => k0_hw82

def k0_off83 (v1024 : BitVec 32) : Fin 2 → Nat :=
  let c0_i32_623 : BitVec 32 := 0#32
  ![v1024.toNat, 0]

def k0_chk83 (v1024 : BitVec 32) : Prop :=
  (∀ a, (k0_off83 v1024) a + S1x64.size a ≤ S100000x64.size a)
instance k0_chk83.dec : ∀ (v1024 : BitVec 32), Decidable (k0_chk83 v1024) := fun v1024 => decidable_of_iff' _ (Iff.of_eq (k0_chk83.eq_1 v1024))
theorem k0_off83_inb : ∀ (v1024 : BitVec 32) (k0_hw83 : k0_chk83 v1024), ∀ a, (k0_off83 v1024) a + S1x64.size a ≤ S100000x64.size a := fun v1024 k0_hw83 => k0_hw83

def k0_off84 (v1037 : BitVec 32) : Fin 2 → Nat :=
  let c0_i32_631 : BitVec 32 := 0#32
  ![v1037.toNat, 0]

def k0_chk84 (v1037 : BitVec 32) : Prop :=
  (∀ a, (k0_off84 v1037) a + S1x64.size a ≤ S100000x64.size a)
instance k0_chk84.dec : ∀ (v1037 : BitVec 32), Decidable (k0_chk84 v1037) := fun v1037 => decidable_of_iff' _ (Iff.of_eq (k0_chk84.eq_1 v1037))
theorem k0_off84_inb : ∀ (v1037 : BitVec 32) (k0_hw84 : k0_chk84 v1037), ∀ a, (k0_off84 v1037) a + S1x64.size a ≤ S100000x64.size a := fun v1037 k0_hw84 => k0_hw84

def k0_off85 (v1050 : BitVec 32) : Fin 2 → Nat :=
  let c0_i32_639 : BitVec 32 := 0#32
  ![v1050.toNat, 0]

def k0_chk85 (v1050 : BitVec 32) : Prop :=
  (∀ a, (k0_off85 v1050) a + S1x64.size a ≤ S100000x64.size a)
instance k0_chk85.dec : ∀ (v1050 : BitVec 32), Decidable (k0_chk85 v1050) := fun v1050 => decidable_of_iff' _ (Iff.of_eq (k0_chk85.eq_1 v1050))
theorem k0_off85_inb : ∀ (v1050 : BitVec 32) (k0_hw85 : k0_chk85 v1050), ∀ a, (k0_off85 v1050) a + S1x64.size a ≤ S100000x64.size a := fun v1050 k0_hw85 => k0_hw85

def k0_off86 (v1063 : BitVec 32) : Fin 2 → Nat :=
  let c0_i32_647 : BitVec 32 := 0#32
  ![v1063.toNat, 0]

def k0_chk86 (v1063 : BitVec 32) : Prop :=
  (∀ a, (k0_off86 v1063) a + S1x64.size a ≤ S100000x64.size a)
instance k0_chk86.dec : ∀ (v1063 : BitVec 32), Decidable (k0_chk86 v1063) := fun v1063 => decidable_of_iff' _ (Iff.of_eq (k0_chk86.eq_1 v1063))
theorem k0_off86_inb : ∀ (v1063 : BitVec 32) (k0_hw86 : k0_chk86 v1063), ∀ a, (k0_off86 v1063) a + S1x64.size a ≤ S100000x64.size a := fun v1063 k0_hw86 => k0_hw86

def k0_off87 (v1076 : BitVec 32) : Fin 2 → Nat :=
  let c0_i32_655 : BitVec 32 := 0#32
  ![v1076.toNat, 0]

def k0_chk87 (v1076 : BitVec 32) : Prop :=
  (∀ a, (k0_off87 v1076) a + S1x64.size a ≤ S100000x64.size a)
instance k0_chk87.dec : ∀ (v1076 : BitVec 32), Decidable (k0_chk87 v1076) := fun v1076 => decidable_of_iff' _ (Iff.of_eq (k0_chk87.eq_1 v1076))
theorem k0_off87_inb : ∀ (v1076 : BitVec 32) (k0_hw87 : k0_chk87 v1076), ∀ a, (k0_off87 v1076) a + S1x64.size a ≤ S100000x64.size a := fun v1076 k0_hw87 => k0_hw87

def k0_off88 (v1089 : BitVec 32) : Fin 2 → Nat :=
  let c0_i32_663 : BitVec 32 := 0#32
  ![v1089.toNat, 0]

def k0_chk88 (v1089 : BitVec 32) : Prop :=
  (∀ a, (k0_off88 v1089) a + S1x64.size a ≤ S100000x64.size a)
instance k0_chk88.dec : ∀ (v1089 : BitVec 32), Decidable (k0_chk88 v1089) := fun v1089 => decidable_of_iff' _ (Iff.of_eq (k0_chk88.eq_1 v1089))
theorem k0_off88_inb : ∀ (v1089 : BitVec 32) (k0_hw88 : k0_chk88 v1089), ∀ a, (k0_off88 v1089) a + S1x64.size a ≤ S100000x64.size a := fun v1089 k0_hw88 => k0_hw88

def k0_off89 (v1102 : BitVec 32) : Fin 2 → Nat :=
  let c0_i32_671 : BitVec 32 := 0#32
  ![v1102.toNat, 0]

def k0_chk89 (v1102 : BitVec 32) : Prop :=
  (∀ a, (k0_off89 v1102) a + S1x64.size a ≤ S100000x64.size a)
instance k0_chk89.dec : ∀ (v1102 : BitVec 32), Decidable (k0_chk89 v1102) := fun v1102 => decidable_of_iff' _ (Iff.of_eq (k0_chk89.eq_1 v1102))
theorem k0_off89_inb : ∀ (v1102 : BitVec 32) (k0_hw89 : k0_chk89 v1102), ∀ a, (k0_off89 v1102) a + S1x64.size a ≤ S100000x64.size a := fun v1102 k0_hw89 => k0_hw89

def k0_off90 (v1115 : BitVec 32) : Fin 2 → Nat :=
  let c0_i32_679 : BitVec 32 := 0#32
  ![v1115.toNat, 0]

def k0_chk90 (v1115 : BitVec 32) : Prop :=
  (∀ a, (k0_off90 v1115) a + S1x64.size a ≤ S100000x64.size a)
instance k0_chk90.dec : ∀ (v1115 : BitVec 32), Decidable (k0_chk90 v1115) := fun v1115 => decidable_of_iff' _ (Iff.of_eq (k0_chk90.eq_1 v1115))
theorem k0_off90_inb : ∀ (v1115 : BitVec 32) (k0_hw90 : k0_chk90 v1115), ∀ a, (k0_off90 v1115) a + S1x64.size a ≤ S100000x64.size a := fun v1115 k0_hw90 => k0_hw90

def k0_off91 (v1128 : BitVec 32) : Fin 2 → Nat :=
  let c0_i32_687 : BitVec 32 := 0#32
  ![v1128.toNat, 0]

def k0_chk91 (v1128 : BitVec 32) : Prop :=
  (∀ a, (k0_off91 v1128) a + S1x64.size a ≤ S100000x64.size a)
instance k0_chk91.dec : ∀ (v1128 : BitVec 32), Decidable (k0_chk91 v1128) := fun v1128 => decidable_of_iff' _ (Iff.of_eq (k0_chk91.eq_1 v1128))
theorem k0_off91_inb : ∀ (v1128 : BitVec 32) (k0_hw91 : k0_chk91 v1128), ∀ a, (k0_off91 v1128) a + S1x64.size a ≤ S100000x64.size a := fun v1128 k0_hw91 => k0_hw91

def k0_off92 (v1141 : BitVec 32) : Fin 2 → Nat :=
  let c0_i32_695 : BitVec 32 := 0#32
  ![v1141.toNat, 0]

def k0_chk92 (v1141 : BitVec 32) : Prop :=
  (∀ a, (k0_off92 v1141) a + S1x64.size a ≤ S100000x64.size a)
instance k0_chk92.dec : ∀ (v1141 : BitVec 32), Decidable (k0_chk92 v1141) := fun v1141 => decidable_of_iff' _ (Iff.of_eq (k0_chk92.eq_1 v1141))
theorem k0_off92_inb : ∀ (v1141 : BitVec 32) (k0_hw92 : k0_chk92 v1141), ∀ a, (k0_off92 v1141) a + S1x64.size a ≤ S100000x64.size a := fun v1141 k0_hw92 => k0_hw92

def k0_off93 (v1154 : BitVec 32) : Fin 2 → Nat :=
  let c0_i32_703 : BitVec 32 := 0#32
  ![v1154.toNat, 0]

def k0_chk93 (v1154 : BitVec 32) : Prop :=
  (∀ a, (k0_off93 v1154) a + S1x64.size a ≤ S100000x64.size a)
instance k0_chk93.dec : ∀ (v1154 : BitVec 32), Decidable (k0_chk93 v1154) := fun v1154 => decidable_of_iff' _ (Iff.of_eq (k0_chk93.eq_1 v1154))
theorem k0_off93_inb : ∀ (v1154 : BitVec 32) (k0_hw93 : k0_chk93 v1154), ∀ a, (k0_off93 v1154) a + S1x64.size a ≤ S100000x64.size a := fun v1154 k0_hw93 => k0_hw93

def k0_off94 (v1167 : BitVec 32) : Fin 2 → Nat :=
  let c0_i32_711 : BitVec 32 := 0#32
  ![v1167.toNat, 0]

def k0_chk94 (v1167 : BitVec 32) : Prop :=
  (∀ a, (k0_off94 v1167) a + S1x64.size a ≤ S100000x64.size a)
instance k0_chk94.dec : ∀ (v1167 : BitVec 32), Decidable (k0_chk94 v1167) := fun v1167 => decidable_of_iff' _ (Iff.of_eq (k0_chk94.eq_1 v1167))
theorem k0_off94_inb : ∀ (v1167 : BitVec 32) (k0_hw94 : k0_chk94 v1167), ∀ a, (k0_off94 v1167) a + S1x64.size a ≤ S100000x64.size a := fun v1167 k0_hw94 => k0_hw94

def k0_off95 (v1180 : BitVec 32) : Fin 2 → Nat :=
  let c0_i32_719 : BitVec 32 := 0#32
  ![v1180.toNat, 0]

def k0_chk95 (v1180 : BitVec 32) : Prop :=
  (∀ a, (k0_off95 v1180) a + S1x64.size a ≤ S100000x64.size a)
instance k0_chk95.dec : ∀ (v1180 : BitVec 32), Decidable (k0_chk95 v1180) := fun v1180 => decidable_of_iff' _ (Iff.of_eq (k0_chk95.eq_1 v1180))
theorem k0_off95_inb : ∀ (v1180 : BitVec 32) (k0_hw95 : k0_chk95 v1180), ∀ a, (k0_off95 v1180) a + S1x64.size a ≤ S100000x64.size a := fun v1180 k0_hw95 => k0_hw95

def k0_off96 (v1193 : BitVec 32) : Fin 2 → Nat :=
  let c0_i32_727 : BitVec 32 := 0#32
  ![v1193.toNat, 0]

def k0_chk96 (v1193 : BitVec 32) : Prop :=
  (∀ a, (k0_off96 v1193) a + S1x64.size a ≤ S100000x64.size a)
instance k0_chk96.dec : ∀ (v1193 : BitVec 32), Decidable (k0_chk96 v1193) := fun v1193 => decidable_of_iff' _ (Iff.of_eq (k0_chk96.eq_1 v1193))
theorem k0_off96_inb : ∀ (v1193 : BitVec 32) (k0_hw96 : k0_chk96 v1193), ∀ a, (k0_off96 v1193) a + S1x64.size a ≤ S100000x64.size a := fun v1193 k0_hw96 => k0_hw96

def k0_off97 (v1206 : BitVec 32) : Fin 2 → Nat :=
  let c0_i32_735 : BitVec 32 := 0#32
  ![v1206.toNat, 0]

def k0_chk97 (v1206 : BitVec 32) : Prop :=
  (∀ a, (k0_off97 v1206) a + S1x64.size a ≤ S100000x64.size a)
instance k0_chk97.dec : ∀ (v1206 : BitVec 32), Decidable (k0_chk97 v1206) := fun v1206 => decidable_of_iff' _ (Iff.of_eq (k0_chk97.eq_1 v1206))
theorem k0_off97_inb : ∀ (v1206 : BitVec 32) (k0_hw97 : k0_chk97 v1206), ∀ a, (k0_off97 v1206) a + S1x64.size a ≤ S100000x64.size a := fun v1206 k0_hw97 => k0_hw97

def k0_off98 (v1219 : BitVec 32) : Fin 2 → Nat :=
  let c0_i32_743 : BitVec 32 := 0#32
  ![v1219.toNat, 0]

def k0_chk98 (v1219 : BitVec 32) : Prop :=
  (∀ a, (k0_off98 v1219) a + S1x64.size a ≤ S100000x64.size a)
instance k0_chk98.dec : ∀ (v1219 : BitVec 32), Decidable (k0_chk98 v1219) := fun v1219 => decidable_of_iff' _ (Iff.of_eq (k0_chk98.eq_1 v1219))
theorem k0_off98_inb : ∀ (v1219 : BitVec 32) (k0_hw98 : k0_chk98 v1219), ∀ a, (k0_off98 v1219) a + S1x64.size a ≤ S100000x64.size a := fun v1219 k0_hw98 => k0_hw98

def k0_off99 (v1232 : BitVec 32) : Fin 2 → Nat :=
  let c0_i32_751 : BitVec 32 := 0#32
  ![v1232.toNat, 0]

def k0_chk99 (v1232 : BitVec 32) : Prop :=
  (∀ a, (k0_off99 v1232) a + S1x64.size a ≤ S100000x64.size a)
instance k0_chk99.dec : ∀ (v1232 : BitVec 32), Decidable (k0_chk99 v1232) := fun v1232 => decidable_of_iff' _ (Iff.of_eq (k0_chk99.eq_1 v1232))
theorem k0_off99_inb : ∀ (v1232 : BitVec 32) (k0_hw99 : k0_chk99 v1232), ∀ a, (k0_off99 v1232) a + S1x64.size a ≤ S100000x64.size a := fun v1232 k0_hw99 => k0_hw99

def k0_off100 (v1245 : BitVec 32) : Fin 2 → Nat :=
  let c0_i32_759 : BitVec 32 := 0#32
  ![v1245.toNat, 0]

def k0_chk100 (v1245 : BitVec 32) : Prop :=
  (∀ a, (k0_off100 v1245) a + S1x64.size a ≤ S100000x64.size a)
instance k0_chk100.dec : ∀ (v1245 : BitVec 32), Decidable (k0_chk100 v1245) := fun v1245 => decidable_of_iff' _ (Iff.of_eq (k0_chk100.eq_1 v1245))
theorem k0_off100_inb : ∀ (v1245 : BitVec 32) (k0_hw100 : k0_chk100 v1245), ∀ a, (k0_off100 v1245) a + S1x64.size a ≤ S100000x64.size a := fun v1245 k0_hw100 => k0_hw100

def k0_off101 (v1258 : BitVec 32) : Fin 2 → Nat :=
  let c0_i32_767 : BitVec 32 := 0#32
  ![v1258.toNat, 0]

def k0_chk101 (v1258 : BitVec 32) : Prop :=
  (∀ a, (k0_off101 v1258) a + S1x64.size a ≤ S100000x64.size a)
instance k0_chk101.dec : ∀ (v1258 : BitVec 32), Decidable (k0_chk101 v1258) := fun v1258 => decidable_of_iff' _ (Iff.of_eq (k0_chk101.eq_1 v1258))
theorem k0_off101_inb : ∀ (v1258 : BitVec 32) (k0_hw101 : k0_chk101 v1258), ∀ a, (k0_off101 v1258) a + S1x64.size a ≤ S100000x64.size a := fun v1258 k0_hw101 => k0_hw101

def k0_off102 (v1271 : BitVec 32) : Fin 2 → Nat :=
  let c0_i32_775 : BitVec 32 := 0#32
  ![v1271.toNat, 0]

def k0_chk102 (v1271 : BitVec 32) : Prop :=
  (∀ a, (k0_off102 v1271) a + S1x64.size a ≤ S100000x64.size a)
instance k0_chk102.dec : ∀ (v1271 : BitVec 32), Decidable (k0_chk102 v1271) := fun v1271 => decidable_of_iff' _ (Iff.of_eq (k0_chk102.eq_1 v1271))
theorem k0_off102_inb : ∀ (v1271 : BitVec 32) (k0_hw102 : k0_chk102 v1271), ∀ a, (k0_off102 v1271) a + S1x64.size a ≤ S100000x64.size a := fun v1271 k0_hw102 => k0_hw102

def k0_off103 (v1284 : BitVec 32) : Fin 2 → Nat :=
  let c0_i32_783 : BitVec 32 := 0#32
  ![v1284.toNat, 0]

def k0_chk103 (v1284 : BitVec 32) : Prop :=
  (∀ a, (k0_off103 v1284) a + S1x64.size a ≤ S100000x64.size a)
instance k0_chk103.dec : ∀ (v1284 : BitVec 32), Decidable (k0_chk103 v1284) := fun v1284 => decidable_of_iff' _ (Iff.of_eq (k0_chk103.eq_1 v1284))
theorem k0_off103_inb : ∀ (v1284 : BitVec 32) (k0_hw103 : k0_chk103 v1284), ∀ a, (k0_off103 v1284) a + S1x64.size a ≤ S100000x64.size a := fun v1284 k0_hw103 => k0_hw103

def k0_off104 (v1297 : BitVec 32) : Fin 2 → Nat :=
  let c0_i32_791 : BitVec 32 := 0#32
  ![v1297.toNat, 0]

def k0_chk104 (v1297 : BitVec 32) : Prop :=
  (∀ a, (k0_off104 v1297) a + S1x64.size a ≤ S100000x64.size a)
instance k0_chk104.dec : ∀ (v1297 : BitVec 32), Decidable (k0_chk104 v1297) := fun v1297 => decidable_of_iff' _ (Iff.of_eq (k0_chk104.eq_1 v1297))
theorem k0_off104_inb : ∀ (v1297 : BitVec 32) (k0_hw104 : k0_chk104 v1297), ∀ a, (k0_off104 v1297) a + S1x64.size a ≤ S100000x64.size a := fun v1297 k0_hw104 => k0_hw104

def k0_off105 (v1310 : BitVec 32) : Fin 2 → Nat :=
  let c0_i32_799 : BitVec 32 := 0#32
  ![v1310.toNat, 0]

def k0_chk105 (v1310 : BitVec 32) : Prop :=
  (∀ a, (k0_off105 v1310) a + S1x64.size a ≤ S100000x64.size a)
instance k0_chk105.dec : ∀ (v1310 : BitVec 32), Decidable (k0_chk105 v1310) := fun v1310 => decidable_of_iff' _ (Iff.of_eq (k0_chk105.eq_1 v1310))
theorem k0_off105_inb : ∀ (v1310 : BitVec 32) (k0_hw105 : k0_chk105 v1310), ∀ a, (k0_off105 v1310) a + S1x64.size a ≤ S100000x64.size a := fun v1310 k0_hw105 => k0_hw105

def k0_off106 (v1323 : BitVec 32) : Fin 2 → Nat :=
  let c0_i32_807 : BitVec 32 := 0#32
  ![v1323.toNat, 0]

def k0_chk106 (v1323 : BitVec 32) : Prop :=
  (∀ a, (k0_off106 v1323) a + S1x64.size a ≤ S100000x64.size a)
instance k0_chk106.dec : ∀ (v1323 : BitVec 32), Decidable (k0_chk106 v1323) := fun v1323 => decidable_of_iff' _ (Iff.of_eq (k0_chk106.eq_1 v1323))
theorem k0_off106_inb : ∀ (v1323 : BitVec 32) (k0_hw106 : k0_chk106 v1323), ∀ a, (k0_off106 v1323) a + S1x64.size a ≤ S100000x64.size a := fun v1323 k0_hw106 => k0_hw106

def k0_off107 (v1336 : BitVec 32) : Fin 2 → Nat :=
  let c0_i32_815 : BitVec 32 := 0#32
  ![v1336.toNat, 0]

def k0_chk107 (v1336 : BitVec 32) : Prop :=
  (∀ a, (k0_off107 v1336) a + S1x64.size a ≤ S100000x64.size a)
instance k0_chk107.dec : ∀ (v1336 : BitVec 32), Decidable (k0_chk107 v1336) := fun v1336 => decidable_of_iff' _ (Iff.of_eq (k0_chk107.eq_1 v1336))
theorem k0_off107_inb : ∀ (v1336 : BitVec 32) (k0_hw107 : k0_chk107 v1336), ∀ a, (k0_off107 v1336) a + S1x64.size a ≤ S100000x64.size a := fun v1336 k0_hw107 => k0_hw107

def k0_off108 (v1349 : BitVec 32) : Fin 2 → Nat :=
  let c0_i32_823 : BitVec 32 := 0#32
  ![v1349.toNat, 0]

def k0_chk108 (v1349 : BitVec 32) : Prop :=
  (∀ a, (k0_off108 v1349) a + S1x64.size a ≤ S100000x64.size a)
instance k0_chk108.dec : ∀ (v1349 : BitVec 32), Decidable (k0_chk108 v1349) := fun v1349 => decidable_of_iff' _ (Iff.of_eq (k0_chk108.eq_1 v1349))
theorem k0_off108_inb : ∀ (v1349 : BitVec 32) (k0_hw108 : k0_chk108 v1349), ∀ a, (k0_off108 v1349) a + S1x64.size a ≤ S100000x64.size a := fun v1349 k0_hw108 => k0_hw108

def k0_off109 (v1362 : BitVec 32) : Fin 2 → Nat :=
  let c0_i32_831 : BitVec 32 := 0#32
  ![v1362.toNat, 0]

def k0_chk109 (v1362 : BitVec 32) : Prop :=
  (∀ a, (k0_off109 v1362) a + S1x64.size a ≤ S100000x64.size a)
instance k0_chk109.dec : ∀ (v1362 : BitVec 32), Decidable (k0_chk109 v1362) := fun v1362 => decidable_of_iff' _ (Iff.of_eq (k0_chk109.eq_1 v1362))
theorem k0_off109_inb : ∀ (v1362 : BitVec 32) (k0_hw109 : k0_chk109 v1362), ∀ a, (k0_off109 v1362) a + S1x64.size a ≤ S100000x64.size a := fun v1362 k0_hw109 => k0_hw109

def k0_off110 (v1375 : BitVec 32) : Fin 2 → Nat :=
  let c0_i32_839 : BitVec 32 := 0#32
  ![v1375.toNat, 0]

def k0_chk110 (v1375 : BitVec 32) : Prop :=
  (∀ a, (k0_off110 v1375) a + S1x64.size a ≤ S100000x64.size a)
instance k0_chk110.dec : ∀ (v1375 : BitVec 32), Decidable (k0_chk110 v1375) := fun v1375 => decidable_of_iff' _ (Iff.of_eq (k0_chk110.eq_1 v1375))
theorem k0_off110_inb : ∀ (v1375 : BitVec 32) (k0_hw110 : k0_chk110 v1375), ∀ a, (k0_off110 v1375) a + S1x64.size a ≤ S100000x64.size a := fun v1375 k0_hw110 => k0_hw110

def k0_off111 (v1388 : BitVec 32) : Fin 2 → Nat :=
  let c0_i32_847 : BitVec 32 := 0#32
  ![v1388.toNat, 0]

def k0_chk111 (v1388 : BitVec 32) : Prop :=
  (∀ a, (k0_off111 v1388) a + S1x64.size a ≤ S100000x64.size a)
instance k0_chk111.dec : ∀ (v1388 : BitVec 32), Decidable (k0_chk111 v1388) := fun v1388 => decidable_of_iff' _ (Iff.of_eq (k0_chk111.eq_1 v1388))
theorem k0_off111_inb : ∀ (v1388 : BitVec 32) (k0_hw111 : k0_chk111 v1388), ∀ a, (k0_off111 v1388) a + S1x64.size a ≤ S100000x64.size a := fun v1388 k0_hw111 => k0_hw111

def k0_off112 (v1401 : BitVec 32) : Fin 2 → Nat :=
  let c0_i32_855 : BitVec 32 := 0#32
  ![v1401.toNat, 0]

def k0_chk112 (v1401 : BitVec 32) : Prop :=
  (∀ a, (k0_off112 v1401) a + S1x64.size a ≤ S100000x64.size a)
instance k0_chk112.dec : ∀ (v1401 : BitVec 32), Decidable (k0_chk112 v1401) := fun v1401 => decidable_of_iff' _ (Iff.of_eq (k0_chk112.eq_1 v1401))
theorem k0_off112_inb : ∀ (v1401 : BitVec 32) (k0_hw112 : k0_chk112 v1401), ∀ a, (k0_off112 v1401) a + S1x64.size a ≤ S100000x64.size a := fun v1401 k0_hw112 => k0_hw112

def k0_off113 (v1414 : BitVec 32) : Fin 2 → Nat :=
  let c0_i32_863 : BitVec 32 := 0#32
  ![v1414.toNat, 0]

def k0_chk113 (v1414 : BitVec 32) : Prop :=
  (∀ a, (k0_off113 v1414) a + S1x64.size a ≤ S100000x64.size a)
instance k0_chk113.dec : ∀ (v1414 : BitVec 32), Decidable (k0_chk113 v1414) := fun v1414 => decidable_of_iff' _ (Iff.of_eq (k0_chk113.eq_1 v1414))
theorem k0_off113_inb : ∀ (v1414 : BitVec 32) (k0_hw113 : k0_chk113 v1414), ∀ a, (k0_off113 v1414) a + S1x64.size a ≤ S100000x64.size a := fun v1414 k0_hw113 => k0_hw113

def k0_off114 (v1427 : BitVec 32) : Fin 2 → Nat :=
  let c0_i32_871 : BitVec 32 := 0#32
  ![v1427.toNat, 0]

def k0_chk114 (v1427 : BitVec 32) : Prop :=
  (∀ a, (k0_off114 v1427) a + S1x64.size a ≤ S100000x64.size a)
instance k0_chk114.dec : ∀ (v1427 : BitVec 32), Decidable (k0_chk114 v1427) := fun v1427 => decidable_of_iff' _ (Iff.of_eq (k0_chk114.eq_1 v1427))
theorem k0_off114_inb : ∀ (v1427 : BitVec 32) (k0_hw114 : k0_chk114 v1427), ∀ a, (k0_off114 v1427) a + S1x64.size a ≤ S100000x64.size a := fun v1427 k0_hw114 => k0_hw114

def k0_off115 (v1440 : BitVec 32) : Fin 2 → Nat :=
  let c0_i32_879 : BitVec 32 := 0#32
  ![v1440.toNat, 0]

def k0_chk115 (v1440 : BitVec 32) : Prop :=
  (∀ a, (k0_off115 v1440) a + S1x64.size a ≤ S100000x64.size a)
instance k0_chk115.dec : ∀ (v1440 : BitVec 32), Decidable (k0_chk115 v1440) := fun v1440 => decidable_of_iff' _ (Iff.of_eq (k0_chk115.eq_1 v1440))
theorem k0_off115_inb : ∀ (v1440 : BitVec 32) (k0_hw115 : k0_chk115 v1440), ∀ a, (k0_off115 v1440) a + S1x64.size a ≤ S100000x64.size a := fun v1440 k0_hw115 => k0_hw115

def k0_off116 (v1453 : BitVec 32) : Fin 2 → Nat :=
  let c0_i32_887 : BitVec 32 := 0#32
  ![v1453.toNat, 0]

def k0_chk116 (v1453 : BitVec 32) : Prop :=
  (∀ a, (k0_off116 v1453) a + S1x64.size a ≤ S100000x64.size a)
instance k0_chk116.dec : ∀ (v1453 : BitVec 32), Decidable (k0_chk116 v1453) := fun v1453 => decidable_of_iff' _ (Iff.of_eq (k0_chk116.eq_1 v1453))
theorem k0_off116_inb : ∀ (v1453 : BitVec 32) (k0_hw116 : k0_chk116 v1453), ∀ a, (k0_off116 v1453) a + S1x64.size a ≤ S100000x64.size a := fun v1453 k0_hw116 => k0_hw116

def k0_off117 (v1466 : BitVec 32) : Fin 2 → Nat :=
  let c0_i32_895 : BitVec 32 := 0#32
  ![v1466.toNat, 0]

def k0_chk117 (v1466 : BitVec 32) : Prop :=
  (∀ a, (k0_off117 v1466) a + S1x64.size a ≤ S100000x64.size a)
instance k0_chk117.dec : ∀ (v1466 : BitVec 32), Decidable (k0_chk117 v1466) := fun v1466 => decidable_of_iff' _ (Iff.of_eq (k0_chk117.eq_1 v1466))
theorem k0_off117_inb : ∀ (v1466 : BitVec 32) (k0_hw117 : k0_chk117 v1466), ∀ a, (k0_off117 v1466) a + S1x64.size a ≤ S100000x64.size a := fun v1466 k0_hw117 => k0_hw117

def k0_off118 (v1479 : BitVec 32) : Fin 2 → Nat :=
  let c0_i32_903 : BitVec 32 := 0#32
  ![v1479.toNat, 0]

def k0_chk118 (v1479 : BitVec 32) : Prop :=
  (∀ a, (k0_off118 v1479) a + S1x64.size a ≤ S100000x64.size a)
instance k0_chk118.dec : ∀ (v1479 : BitVec 32), Decidable (k0_chk118 v1479) := fun v1479 => decidable_of_iff' _ (Iff.of_eq (k0_chk118.eq_1 v1479))
theorem k0_off118_inb : ∀ (v1479 : BitVec 32) (k0_hw118 : k0_chk118 v1479), ∀ a, (k0_off118 v1479) a + S1x64.size a ≤ S100000x64.size a := fun v1479 k0_hw118 => k0_hw118

def k0_off119 (v1492 : BitVec 32) : Fin 2 → Nat :=
  let c0_i32_911 : BitVec 32 := 0#32
  ![v1492.toNat, 0]

def k0_chk119 (v1492 : BitVec 32) : Prop :=
  (∀ a, (k0_off119 v1492) a + S1x64.size a ≤ S100000x64.size a)
instance k0_chk119.dec : ∀ (v1492 : BitVec 32), Decidable (k0_chk119 v1492) := fun v1492 => decidable_of_iff' _ (Iff.of_eq (k0_chk119.eq_1 v1492))
theorem k0_off119_inb : ∀ (v1492 : BitVec 32) (k0_hw119 : k0_chk119 v1492), ∀ a, (k0_off119 v1492) a + S1x64.size a ≤ S100000x64.size a := fun v1492 k0_hw119 => k0_hw119

def k0_off120 (v1505 : BitVec 32) : Fin 2 → Nat :=
  let c0_i32_919 : BitVec 32 := 0#32
  ![v1505.toNat, 0]

def k0_chk120 (v1505 : BitVec 32) : Prop :=
  (∀ a, (k0_off120 v1505) a + S1x64.size a ≤ S100000x64.size a)
instance k0_chk120.dec : ∀ (v1505 : BitVec 32), Decidable (k0_chk120 v1505) := fun v1505 => decidable_of_iff' _ (Iff.of_eq (k0_chk120.eq_1 v1505))
theorem k0_off120_inb : ∀ (v1505 : BitVec 32) (k0_hw120 : k0_chk120 v1505), ∀ a, (k0_off120 v1505) a + S1x64.size a ≤ S100000x64.size a := fun v1505 k0_hw120 => k0_hw120

def k0_off121 (v1518 : BitVec 32) : Fin 2 → Nat :=
  let c0_i32_927 : BitVec 32 := 0#32
  ![v1518.toNat, 0]

def k0_chk121 (v1518 : BitVec 32) : Prop :=
  (∀ a, (k0_off121 v1518) a + S1x64.size a ≤ S100000x64.size a)
instance k0_chk121.dec : ∀ (v1518 : BitVec 32), Decidable (k0_chk121 v1518) := fun v1518 => decidable_of_iff' _ (Iff.of_eq (k0_chk121.eq_1 v1518))
theorem k0_off121_inb : ∀ (v1518 : BitVec 32) (k0_hw121 : k0_chk121 v1518), ∀ a, (k0_off121 v1518) a + S1x64.size a ≤ S100000x64.size a := fun v1518 k0_hw121 => k0_hw121

def k0_off122 (v1531 : BitVec 32) : Fin 2 → Nat :=
  let c0_i32_935 : BitVec 32 := 0#32
  ![v1531.toNat, 0]

def k0_chk122 (v1531 : BitVec 32) : Prop :=
  (∀ a, (k0_off122 v1531) a + S1x64.size a ≤ S100000x64.size a)
instance k0_chk122.dec : ∀ (v1531 : BitVec 32), Decidable (k0_chk122 v1531) := fun v1531 => decidable_of_iff' _ (Iff.of_eq (k0_chk122.eq_1 v1531))
theorem k0_off122_inb : ∀ (v1531 : BitVec 32) (k0_hw122 : k0_chk122 v1531), ∀ a, (k0_off122 v1531) a + S1x64.size a ≤ S100000x64.size a := fun v1531 k0_hw122 => k0_hw122

def k0_off123 (v1544 : BitVec 32) : Fin 2 → Nat :=
  let c0_i32_943 : BitVec 32 := 0#32
  ![v1544.toNat, 0]

def k0_chk123 (v1544 : BitVec 32) : Prop :=
  (∀ a, (k0_off123 v1544) a + S1x64.size a ≤ S100000x64.size a)
instance k0_chk123.dec : ∀ (v1544 : BitVec 32), Decidable (k0_chk123 v1544) := fun v1544 => decidable_of_iff' _ (Iff.of_eq (k0_chk123.eq_1 v1544))
theorem k0_off123_inb : ∀ (v1544 : BitVec 32) (k0_hw123 : k0_chk123 v1544), ∀ a, (k0_off123 v1544) a + S1x64.size a ≤ S100000x64.size a := fun v1544 k0_hw123 => k0_hw123

def k0_off124 (v1557 : BitVec 32) : Fin 2 → Nat :=
  let c0_i32_951 : BitVec 32 := 0#32
  ![v1557.toNat, 0]

def k0_chk124 (v1557 : BitVec 32) : Prop :=
  (∀ a, (k0_off124 v1557) a + S1x64.size a ≤ S100000x64.size a)
instance k0_chk124.dec : ∀ (v1557 : BitVec 32), Decidable (k0_chk124 v1557) := fun v1557 => decidable_of_iff' _ (Iff.of_eq (k0_chk124.eq_1 v1557))
theorem k0_off124_inb : ∀ (v1557 : BitVec 32) (k0_hw124 : k0_chk124 v1557), ∀ a, (k0_off124 v1557) a + S1x64.size a ≤ S100000x64.size a := fun v1557 k0_hw124 => k0_hw124

def k0_off125 (v1570 : BitVec 32) : Fin 2 → Nat :=
  let c0_i32_959 : BitVec 32 := 0#32
  ![v1570.toNat, 0]

def k0_chk125 (v1570 : BitVec 32) : Prop :=
  (∀ a, (k0_off125 v1570) a + S1x64.size a ≤ S100000x64.size a)
instance k0_chk125.dec : ∀ (v1570 : BitVec 32), Decidable (k0_chk125 v1570) := fun v1570 => decidable_of_iff' _ (Iff.of_eq (k0_chk125.eq_1 v1570))
theorem k0_off125_inb : ∀ (v1570 : BitVec 32) (k0_hw125 : k0_chk125 v1570), ∀ a, (k0_off125 v1570) a + S1x64.size a ≤ S100000x64.size a := fun v1570 k0_hw125 => k0_hw125

def k0_off126 (v1583 : BitVec 32) : Fin 2 → Nat :=
  let c0_i32_967 : BitVec 32 := 0#32
  ![v1583.toNat, 0]

def k0_chk126 (v1583 : BitVec 32) : Prop :=
  (∀ a, (k0_off126 v1583) a + S1x64.size a ≤ S100000x64.size a)
instance k0_chk126.dec : ∀ (v1583 : BitVec 32), Decidable (k0_chk126 v1583) := fun v1583 => decidable_of_iff' _ (Iff.of_eq (k0_chk126.eq_1 v1583))
theorem k0_off126_inb : ∀ (v1583 : BitVec 32) (k0_hw126 : k0_chk126 v1583), ∀ a, (k0_off126 v1583) a + S1x64.size a ≤ S100000x64.size a := fun v1583 k0_hw126 => k0_hw126

def k0_off127 (v1596 : BitVec 32) : Fin 2 → Nat :=
  let c0_i32_975 : BitVec 32 := 0#32
  ![v1596.toNat, 0]

def k0_chk127 (v1596 : BitVec 32) : Prop :=
  (∀ a, (k0_off127 v1596) a + S1x64.size a ≤ S100000x64.size a)
instance k0_chk127.dec : ∀ (v1596 : BitVec 32), Decidable (k0_chk127 v1596) := fun v1596 => decidable_of_iff' _ (Iff.of_eq (k0_chk127.eq_1 v1596))
theorem k0_off127_inb : ∀ (v1596 : BitVec 32) (k0_hw127 : k0_chk127 v1596), ∀ a, (k0_off127 v1596) a + S1x64.size a ≤ S100000x64.size a := fun v1596 k0_hw127 => k0_hw127

def k0_off128 (v1609 : BitVec 32) : Fin 2 → Nat :=
  let c0_i32_983 : BitVec 32 := 0#32
  ![v1609.toNat, 0]

def k0_chk128 (v1609 : BitVec 32) : Prop :=
  (∀ a, (k0_off128 v1609) a + S1x64.size a ≤ S100000x64.size a)
instance k0_chk128.dec : ∀ (v1609 : BitVec 32), Decidable (k0_chk128 v1609) := fun v1609 => decidable_of_iff' _ (Iff.of_eq (k0_chk128.eq_1 v1609))
theorem k0_off128_inb : ∀ (v1609 : BitVec 32) (k0_hw128 : k0_chk128 v1609), ∀ a, (k0_off128 v1609) a + S1x64.size a ≤ S100000x64.size a := fun v1609 k0_hw128 => k0_hw128

def k0_off129 (v1622 : BitVec 32) : Fin 2 → Nat :=
  let c0_i32_991 : BitVec 32 := 0#32
  ![v1622.toNat, 0]

def k0_chk129 (v1622 : BitVec 32) : Prop :=
  (∀ a, (k0_off129 v1622) a + S1x64.size a ≤ S100000x64.size a)
instance k0_chk129.dec : ∀ (v1622 : BitVec 32), Decidable (k0_chk129 v1622) := fun v1622 => decidable_of_iff' _ (Iff.of_eq (k0_chk129.eq_1 v1622))
theorem k0_off129_inb : ∀ (v1622 : BitVec 32) (k0_hw129 : k0_chk129 v1622), ∀ a, (k0_off129 v1622) a + S1x64.size a ≤ S100000x64.size a := fun v1622 k0_hw129 => k0_hw129

def k0_off130 (v1635 : BitVec 32) : Fin 2 → Nat :=
  let c0_i32_999 : BitVec 32 := 0#32
  ![v1635.toNat, 0]

def k0_chk130 (v1635 : BitVec 32) : Prop :=
  (∀ a, (k0_off130 v1635) a + S1x64.size a ≤ S100000x64.size a)
instance k0_chk130.dec : ∀ (v1635 : BitVec 32), Decidable (k0_chk130 v1635) := fun v1635 => decidable_of_iff' _ (Iff.of_eq (k0_chk130.eq_1 v1635))
theorem k0_off130_inb : ∀ (v1635 : BitVec 32) (k0_hw130 : k0_chk130 v1635), ∀ a, (k0_off130 v1635) a + S1x64.size a ≤ S100000x64.size a := fun v1635 k0_hw130 => k0_hw130

def k0_off131 (v1648 : BitVec 32) : Fin 2 → Nat :=
  let c0_i32_1007 : BitVec 32 := 0#32
  ![v1648.toNat, 0]

def k0_chk131 (v1648 : BitVec 32) : Prop :=
  (∀ a, (k0_off131 v1648) a + S1x64.size a ≤ S100000x64.size a)
instance k0_chk131.dec : ∀ (v1648 : BitVec 32), Decidable (k0_chk131 v1648) := fun v1648 => decidable_of_iff' _ (Iff.of_eq (k0_chk131.eq_1 v1648))
theorem k0_off131_inb : ∀ (v1648 : BitVec 32) (k0_hw131 : k0_chk131 v1648), ∀ a, (k0_off131 v1648) a + S1x64.size a ≤ S100000x64.size a := fun v1648 k0_hw131 => k0_hw131

def k0_off132 (v1661 : BitVec 32) : Fin 2 → Nat :=
  let c0_i32_1015 : BitVec 32 := 0#32
  ![v1661.toNat, 0]

def k0_chk132 (v1661 : BitVec 32) : Prop :=
  (∀ a, (k0_off132 v1661) a + S1x64.size a ≤ S100000x64.size a)
instance k0_chk132.dec : ∀ (v1661 : BitVec 32), Decidable (k0_chk132 v1661) := fun v1661 => decidable_of_iff' _ (Iff.of_eq (k0_chk132.eq_1 v1661))
theorem k0_off132_inb : ∀ (v1661 : BitVec 32) (k0_hw132 : k0_chk132 v1661), ∀ a, (k0_off132 v1661) a + S1x64.size a ≤ S100000x64.size a := fun v1661 k0_hw132 => k0_hw132

def k0_off133 (v1674 : BitVec 32) : Fin 2 → Nat :=
  let c0_i32_1023 : BitVec 32 := 0#32
  ![v1674.toNat, 0]

def k0_chk133 (v1674 : BitVec 32) : Prop :=
  (∀ a, (k0_off133 v1674) a + S1x64.size a ≤ S100000x64.size a)
instance k0_chk133.dec : ∀ (v1674 : BitVec 32), Decidable (k0_chk133 v1674) := fun v1674 => decidable_of_iff' _ (Iff.of_eq (k0_chk133.eq_1 v1674))
theorem k0_off133_inb : ∀ (v1674 : BitVec 32) (k0_hw133 : k0_chk133 v1674), ∀ a, (k0_off133 v1674) a + S1x64.size a ≤ S100000x64.size a := fun v1674 k0_hw133 => k0_hw133

def k0_off134 (v1687 : BitVec 32) : Fin 2 → Nat :=
  let c0_i32_1031 : BitVec 32 := 0#32
  ![v1687.toNat, 0]

def k0_chk134 (v1687 : BitVec 32) : Prop :=
  (∀ a, (k0_off134 v1687) a + S1x64.size a ≤ S100000x64.size a)
instance k0_chk134.dec : ∀ (v1687 : BitVec 32), Decidable (k0_chk134 v1687) := fun v1687 => decidable_of_iff' _ (Iff.of_eq (k0_chk134.eq_1 v1687))
theorem k0_off134_inb : ∀ (v1687 : BitVec 32) (k0_hw134 : k0_chk134 v1687), ∀ a, (k0_off134 v1687) a + S1x64.size a ≤ S100000x64.size a := fun v1687 k0_hw134 => k0_hw134

def k0_off135 (v1700 : BitVec 32) : Fin 2 → Nat :=
  let c0_i32_1039 : BitVec 32 := 0#32
  ![v1700.toNat, 0]

def k0_chk135 (v1700 : BitVec 32) : Prop :=
  (∀ a, (k0_off135 v1700) a + S1x64.size a ≤ S100000x64.size a)
instance k0_chk135.dec : ∀ (v1700 : BitVec 32), Decidable (k0_chk135 v1700) := fun v1700 => decidable_of_iff' _ (Iff.of_eq (k0_chk135.eq_1 v1700))
theorem k0_off135_inb : ∀ (v1700 : BitVec 32) (k0_hw135 : k0_chk135 v1700), ∀ a, (k0_off135 v1700) a + S1x64.size a ≤ S100000x64.size a := fun v1700 k0_hw135 => k0_hw135

def k0_off136 (v1713 : BitVec 32) : Fin 2 → Nat :=
  let c0_i32_1047 : BitVec 32 := 0#32
  ![v1713.toNat, 0]

def k0_chk136 (v1713 : BitVec 32) : Prop :=
  (∀ a, (k0_off136 v1713) a + S1x64.size a ≤ S100000x64.size a)
instance k0_chk136.dec : ∀ (v1713 : BitVec 32), Decidable (k0_chk136 v1713) := fun v1713 => decidable_of_iff' _ (Iff.of_eq (k0_chk136.eq_1 v1713))
theorem k0_off136_inb : ∀ (v1713 : BitVec 32) (k0_hw136 : k0_chk136 v1713), ∀ a, (k0_off136 v1713) a + S1x64.size a ≤ S100000x64.size a := fun v1713 k0_hw136 => k0_hw136

def k0_off137 (v1726 : BitVec 32) : Fin 2 → Nat :=
  let c0_i32_1055 : BitVec 32 := 0#32
  ![v1726.toNat, 0]

def k0_chk137 (v1726 : BitVec 32) : Prop :=
  (∀ a, (k0_off137 v1726) a + S1x64.size a ≤ S100000x64.size a)
instance k0_chk137.dec : ∀ (v1726 : BitVec 32), Decidable (k0_chk137 v1726) := fun v1726 => decidable_of_iff' _ (Iff.of_eq (k0_chk137.eq_1 v1726))
theorem k0_off137_inb : ∀ (v1726 : BitVec 32) (k0_hw137 : k0_chk137 v1726), ∀ a, (k0_off137 v1726) a + S1x64.size a ≤ S100000x64.size a := fun v1726 k0_hw137 => k0_hw137

def k0_off138 (v1739 : BitVec 32) : Fin 2 → Nat :=
  let c0_i32_1063 : BitVec 32 := 0#32
  ![v1739.toNat, 0]

def k0_chk138 (v1739 : BitVec 32) : Prop :=
  (∀ a, (k0_off138 v1739) a + S1x64.size a ≤ S100000x64.size a)
instance k0_chk138.dec : ∀ (v1739 : BitVec 32), Decidable (k0_chk138 v1739) := fun v1739 => decidable_of_iff' _ (Iff.of_eq (k0_chk138.eq_1 v1739))
theorem k0_off138_inb : ∀ (v1739 : BitVec 32) (k0_hw138 : k0_chk138 v1739), ∀ a, (k0_off138 v1739) a + S1x64.size a ≤ S100000x64.size a := fun v1739 k0_hw138 => k0_hw138

def k0_off139 (v1752 : BitVec 32) : Fin 2 → Nat :=
  let c0_i32_1071 : BitVec 32 := 0#32
  ![v1752.toNat, 0]

def k0_chk139 (v1752 : BitVec 32) : Prop :=
  (∀ a, (k0_off139 v1752) a + S1x64.size a ≤ S100000x64.size a)
instance k0_chk139.dec : ∀ (v1752 : BitVec 32), Decidable (k0_chk139 v1752) := fun v1752 => decidable_of_iff' _ (Iff.of_eq (k0_chk139.eq_1 v1752))
theorem k0_off139_inb : ∀ (v1752 : BitVec 32) (k0_hw139 : k0_chk139 v1752), ∀ a, (k0_off139 v1752) a + S1x64.size a ≤ S100000x64.size a := fun v1752 k0_hw139 => k0_hw139

def k0_off140 (v1765 : BitVec 32) : Fin 2 → Nat :=
  let c0_i32_1079 : BitVec 32 := 0#32
  ![v1765.toNat, 0]

def k0_chk140 (v1765 : BitVec 32) : Prop :=
  (∀ a, (k0_off140 v1765) a + S1x64.size a ≤ S100000x64.size a)
instance k0_chk140.dec : ∀ (v1765 : BitVec 32), Decidable (k0_chk140 v1765) := fun v1765 => decidable_of_iff' _ (Iff.of_eq (k0_chk140.eq_1 v1765))
theorem k0_off140_inb : ∀ (v1765 : BitVec 32) (k0_hw140 : k0_chk140 v1765), ∀ a, (k0_off140 v1765) a + S1x64.size a ≤ S100000x64.size a := fun v1765 k0_hw140 => k0_hw140

def k0_off141 (v1778 : BitVec 32) : Fin 2 → Nat :=
  let c0_i32_1087 : BitVec 32 := 0#32
  ![v1778.toNat, 0]

def k0_chk141 (v1778 : BitVec 32) : Prop :=
  (∀ a, (k0_off141 v1778) a + S1x64.size a ≤ S100000x64.size a)
instance k0_chk141.dec : ∀ (v1778 : BitVec 32), Decidable (k0_chk141 v1778) := fun v1778 => decidable_of_iff' _ (Iff.of_eq (k0_chk141.eq_1 v1778))
theorem k0_off141_inb : ∀ (v1778 : BitVec 32) (k0_hw141 : k0_chk141 v1778), ∀ a, (k0_off141 v1778) a + S1x64.size a ≤ S100000x64.size a := fun v1778 k0_hw141 => k0_hw141

def k0_off142 (v1791 : BitVec 32) : Fin 2 → Nat :=
  let c0_i32_1095 : BitVec 32 := 0#32
  ![v1791.toNat, 0]

def k0_chk142 (v1791 : BitVec 32) : Prop :=
  (∀ a, (k0_off142 v1791) a + S1x64.size a ≤ S100000x64.size a)
instance k0_chk142.dec : ∀ (v1791 : BitVec 32), Decidable (k0_chk142 v1791) := fun v1791 => decidable_of_iff' _ (Iff.of_eq (k0_chk142.eq_1 v1791))
theorem k0_off142_inb : ∀ (v1791 : BitVec 32) (k0_hw142 : k0_chk142 v1791), ∀ a, (k0_off142 v1791) a + S1x64.size a ≤ S100000x64.size a := fun v1791 k0_hw142 => k0_hw142

def k0_off143 (v1804 : BitVec 32) : Fin 2 → Nat :=
  let c0_i32_1103 : BitVec 32 := 0#32
  ![v1804.toNat, 0]

def k0_chk143 (v1804 : BitVec 32) : Prop :=
  (∀ a, (k0_off143 v1804) a + S1x64.size a ≤ S100000x64.size a)
instance k0_chk143.dec : ∀ (v1804 : BitVec 32), Decidable (k0_chk143 v1804) := fun v1804 => decidable_of_iff' _ (Iff.of_eq (k0_chk143.eq_1 v1804))
theorem k0_off143_inb : ∀ (v1804 : BitVec 32) (k0_hw143 : k0_chk143 v1804), ∀ a, (k0_off143 v1804) a + S1x64.size a ≤ S100000x64.size a := fun v1804 k0_hw143 => k0_hw143

def k0_off144 (v1817 : BitVec 32) : Fin 2 → Nat :=
  let c0_i32_1111 : BitVec 32 := 0#32
  ![v1817.toNat, 0]

def k0_chk144 (v1817 : BitVec 32) : Prop :=
  (∀ a, (k0_off144 v1817) a + S1x64.size a ≤ S100000x64.size a)
instance k0_chk144.dec : ∀ (v1817 : BitVec 32), Decidable (k0_chk144 v1817) := fun v1817 => decidable_of_iff' _ (Iff.of_eq (k0_chk144.eq_1 v1817))
theorem k0_off144_inb : ∀ (v1817 : BitVec 32) (k0_hw144 : k0_chk144 v1817), ∀ a, (k0_off144 v1817) a + S1x64.size a ≤ S100000x64.size a := fun v1817 k0_hw144 => k0_hw144

def k0_off145 (v1830 : BitVec 32) : Fin 2 → Nat :=
  let c0_i32_1119 : BitVec 32 := 0#32
  ![v1830.toNat, 0]

def k0_chk145 (v1830 : BitVec 32) : Prop :=
  (∀ a, (k0_off145 v1830) a + S1x64.size a ≤ S100000x64.size a)
instance k0_chk145.dec : ∀ (v1830 : BitVec 32), Decidable (k0_chk145 v1830) := fun v1830 => decidable_of_iff' _ (Iff.of_eq (k0_chk145.eq_1 v1830))
theorem k0_off145_inb : ∀ (v1830 : BitVec 32) (k0_hw145 : k0_chk145 v1830), ∀ a, (k0_off145 v1830) a + S1x64.size a ≤ S100000x64.size a := fun v1830 k0_hw145 => k0_hw145

def k0_off146 (v1843 : BitVec 32) : Fin 2 → Nat :=
  let c0_i32_1127 : BitVec 32 := 0#32
  ![v1843.toNat, 0]

def k0_chk146 (v1843 : BitVec 32) : Prop :=
  (∀ a, (k0_off146 v1843) a + S1x64.size a ≤ S100000x64.size a)
instance k0_chk146.dec : ∀ (v1843 : BitVec 32), Decidable (k0_chk146 v1843) := fun v1843 => decidable_of_iff' _ (Iff.of_eq (k0_chk146.eq_1 v1843))
theorem k0_off146_inb : ∀ (v1843 : BitVec 32) (k0_hw146 : k0_chk146 v1843), ∀ a, (k0_off146 v1843) a + S1x64.size a ≤ S100000x64.size a := fun v1843 k0_hw146 => k0_hw146

def k0_off147 (v1856 : BitVec 32) : Fin 2 → Nat :=
  let c0_i32_1135 : BitVec 32 := 0#32
  ![v1856.toNat, 0]

def k0_chk147 (v1856 : BitVec 32) : Prop :=
  (∀ a, (k0_off147 v1856) a + S1x64.size a ≤ S100000x64.size a)
instance k0_chk147.dec : ∀ (v1856 : BitVec 32), Decidable (k0_chk147 v1856) := fun v1856 => decidable_of_iff' _ (Iff.of_eq (k0_chk147.eq_1 v1856))
theorem k0_off147_inb : ∀ (v1856 : BitVec 32) (k0_hw147 : k0_chk147 v1856), ∀ a, (k0_off147 v1856) a + S1x64.size a ≤ S100000x64.size a := fun v1856 k0_hw147 => k0_hw147

def k0_off148 (v1869 : BitVec 32) : Fin 2 → Nat :=
  let c0_i32_1143 : BitVec 32 := 0#32
  ![v1869.toNat, 0]

def k0_chk148 (v1869 : BitVec 32) : Prop :=
  (∀ a, (k0_off148 v1869) a + S1x64.size a ≤ S100000x64.size a)
instance k0_chk148.dec : ∀ (v1869 : BitVec 32), Decidable (k0_chk148 v1869) := fun v1869 => decidable_of_iff' _ (Iff.of_eq (k0_chk148.eq_1 v1869))
theorem k0_off148_inb : ∀ (v1869 : BitVec 32) (k0_hw148 : k0_chk148 v1869), ∀ a, (k0_off148 v1869) a + S1x64.size a ≤ S100000x64.size a := fun v1869 k0_hw148 => k0_hw148

def k0_off149 (v1882 : BitVec 32) : Fin 2 → Nat :=
  let c0_i32_1151 : BitVec 32 := 0#32
  ![v1882.toNat, 0]

def k0_chk149 (v1882 : BitVec 32) : Prop :=
  (∀ a, (k0_off149 v1882) a + S1x64.size a ≤ S100000x64.size a)
instance k0_chk149.dec : ∀ (v1882 : BitVec 32), Decidable (k0_chk149 v1882) := fun v1882 => decidable_of_iff' _ (Iff.of_eq (k0_chk149.eq_1 v1882))
theorem k0_off149_inb : ∀ (v1882 : BitVec 32) (k0_hw149 : k0_chk149 v1882), ∀ a, (k0_off149 v1882) a + S1x64.size a ≤ S100000x64.size a := fun v1882 k0_hw149 => k0_hw149

def k0_off150 (v1895 : BitVec 32) : Fin 2 → Nat :=
  let c0_i32_1159 : BitVec 32 := 0#32
  ![v1895.toNat, 0]

def k0_chk150 (v1895 : BitVec 32) : Prop :=
  (∀ a, (k0_off150 v1895) a + S1x64.size a ≤ S100000x64.size a)
instance k0_chk150.dec : ∀ (v1895 : BitVec 32), Decidable (k0_chk150 v1895) := fun v1895 => decidable_of_iff' _ (Iff.of_eq (k0_chk150.eq_1 v1895))
theorem k0_off150_inb : ∀ (v1895 : BitVec 32) (k0_hw150 : k0_chk150 v1895), ∀ a, (k0_off150 v1895) a + S1x64.size a ≤ S100000x64.size a := fun v1895 k0_hw150 => k0_hw150

def k0_off151 (v1908 : BitVec 32) : Fin 2 → Nat :=
  let c0_i32_1167 : BitVec 32 := 0#32
  ![v1908.toNat, 0]

def k0_chk151 (v1908 : BitVec 32) : Prop :=
  (∀ a, (k0_off151 v1908) a + S1x64.size a ≤ S100000x64.size a)
instance k0_chk151.dec : ∀ (v1908 : BitVec 32), Decidable (k0_chk151 v1908) := fun v1908 => decidable_of_iff' _ (Iff.of_eq (k0_chk151.eq_1 v1908))
theorem k0_off151_inb : ∀ (v1908 : BitVec 32) (k0_hw151 : k0_chk151 v1908), ∀ a, (k0_off151 v1908) a + S1x64.size a ≤ S100000x64.size a := fun v1908 k0_hw151 => k0_hw151

def k0_off152 (v1921 : BitVec 32) : Fin 2 → Nat :=
  let c0_i32_1175 : BitVec 32 := 0#32
  ![v1921.toNat, 0]

def k0_chk152 (v1921 : BitVec 32) : Prop :=
  (∀ a, (k0_off152 v1921) a + S1x64.size a ≤ S100000x64.size a)
instance k0_chk152.dec : ∀ (v1921 : BitVec 32), Decidable (k0_chk152 v1921) := fun v1921 => decidable_of_iff' _ (Iff.of_eq (k0_chk152.eq_1 v1921))
theorem k0_off152_inb : ∀ (v1921 : BitVec 32) (k0_hw152 : k0_chk152 v1921), ∀ a, (k0_off152 v1921) a + S1x64.size a ≤ S100000x64.size a := fun v1921 k0_hw152 => k0_hw152

def k0_off153 (v1934 : BitVec 32) : Fin 2 → Nat :=
  let c0_i32_1183 : BitVec 32 := 0#32
  ![v1934.toNat, 0]

def k0_chk153 (v1934 : BitVec 32) : Prop :=
  (∀ a, (k0_off153 v1934) a + S1x64.size a ≤ S100000x64.size a)
instance k0_chk153.dec : ∀ (v1934 : BitVec 32), Decidable (k0_chk153 v1934) := fun v1934 => decidable_of_iff' _ (Iff.of_eq (k0_chk153.eq_1 v1934))
theorem k0_off153_inb : ∀ (v1934 : BitVec 32) (k0_hw153 : k0_chk153 v1934), ∀ a, (k0_off153 v1934) a + S1x64.size a ≤ S100000x64.size a := fun v1934 k0_hw153 => k0_hw153

def k0_off154 (v1947 : BitVec 32) : Fin 2 → Nat :=
  let c0_i32_1191 : BitVec 32 := 0#32
  ![v1947.toNat, 0]

def k0_chk154 (v1947 : BitVec 32) : Prop :=
  (∀ a, (k0_off154 v1947) a + S1x64.size a ≤ S100000x64.size a)
instance k0_chk154.dec : ∀ (v1947 : BitVec 32), Decidable (k0_chk154 v1947) := fun v1947 => decidable_of_iff' _ (Iff.of_eq (k0_chk154.eq_1 v1947))
theorem k0_off154_inb : ∀ (v1947 : BitVec 32) (k0_hw154 : k0_chk154 v1947), ∀ a, (k0_off154 v1947) a + S1x64.size a ≤ S100000x64.size a := fun v1947 k0_hw154 => k0_hw154

def k0_off155 (v1960 : BitVec 32) : Fin 2 → Nat :=
  let c0_i32_1199 : BitVec 32 := 0#32
  ![v1960.toNat, 0]

def k0_chk155 (v1960 : BitVec 32) : Prop :=
  (∀ a, (k0_off155 v1960) a + S1x64.size a ≤ S100000x64.size a)
instance k0_chk155.dec : ∀ (v1960 : BitVec 32), Decidable (k0_chk155 v1960) := fun v1960 => decidable_of_iff' _ (Iff.of_eq (k0_chk155.eq_1 v1960))
theorem k0_off155_inb : ∀ (v1960 : BitVec 32) (k0_hw155 : k0_chk155 v1960), ∀ a, (k0_off155 v1960) a + S1x64.size a ≤ S100000x64.size a := fun v1960 k0_hw155 => k0_hw155

def k0_off156 (v1973 : BitVec 32) : Fin 2 → Nat :=
  let c0_i32_1207 : BitVec 32 := 0#32
  ![v1973.toNat, 0]

def k0_chk156 (v1973 : BitVec 32) : Prop :=
  (∀ a, (k0_off156 v1973) a + S1x64.size a ≤ S100000x64.size a)
instance k0_chk156.dec : ∀ (v1973 : BitVec 32), Decidable (k0_chk156 v1973) := fun v1973 => decidable_of_iff' _ (Iff.of_eq (k0_chk156.eq_1 v1973))
theorem k0_off156_inb : ∀ (v1973 : BitVec 32) (k0_hw156 : k0_chk156 v1973), ∀ a, (k0_off156 v1973) a + S1x64.size a ≤ S100000x64.size a := fun v1973 k0_hw156 => k0_hw156

def k0_off157 (v1986 : BitVec 32) : Fin 2 → Nat :=
  let c0_i32_1215 : BitVec 32 := 0#32
  ![v1986.toNat, 0]

def k0_chk157 (v1986 : BitVec 32) : Prop :=
  (∀ a, (k0_off157 v1986) a + S1x64.size a ≤ S100000x64.size a)
instance k0_chk157.dec : ∀ (v1986 : BitVec 32), Decidable (k0_chk157 v1986) := fun v1986 => decidable_of_iff' _ (Iff.of_eq (k0_chk157.eq_1 v1986))
theorem k0_off157_inb : ∀ (v1986 : BitVec 32) (k0_hw157 : k0_chk157 v1986), ∀ a, (k0_off157 v1986) a + S1x64.size a ≤ S100000x64.size a := fun v1986 k0_hw157 => k0_hw157

def k0_off158 (v1999 : BitVec 32) : Fin 2 → Nat :=
  let c0_i32_1223 : BitVec 32 := 0#32
  ![v1999.toNat, 0]

def k0_chk158 (v1999 : BitVec 32) : Prop :=
  (∀ a, (k0_off158 v1999) a + S1x64.size a ≤ S100000x64.size a)
instance k0_chk158.dec : ∀ (v1999 : BitVec 32), Decidable (k0_chk158 v1999) := fun v1999 => decidable_of_iff' _ (Iff.of_eq (k0_chk158.eq_1 v1999))
theorem k0_off158_inb : ∀ (v1999 : BitVec 32) (k0_hw158 : k0_chk158 v1999), ∀ a, (k0_off158 v1999) a + S1x64.size a ≤ S100000x64.size a := fun v1999 k0_hw158 => k0_hw158

def k0_off159 (v2012 : BitVec 32) : Fin 2 → Nat :=
  let c0_i32_1231 : BitVec 32 := 0#32
  ![v2012.toNat, 0]

def k0_chk159 (v2012 : BitVec 32) : Prop :=
  (∀ a, (k0_off159 v2012) a + S1x64.size a ≤ S100000x64.size a)
instance k0_chk159.dec : ∀ (v2012 : BitVec 32), Decidable (k0_chk159 v2012) := fun v2012 => decidable_of_iff' _ (Iff.of_eq (k0_chk159.eq_1 v2012))
theorem k0_off159_inb : ∀ (v2012 : BitVec 32) (k0_hw159 : k0_chk159 v2012), ∀ a, (k0_off159 v2012) a + S1x64.size a ≤ S100000x64.size a := fun v2012 k0_hw159 => k0_hw159

def k0_off160 (v2025 : BitVec 32) : Fin 2 → Nat :=
  let c0_i32_1239 : BitVec 32 := 0#32
  ![v2025.toNat, 0]

def k0_chk160 (v2025 : BitVec 32) : Prop :=
  (∀ a, (k0_off160 v2025) a + S1x64.size a ≤ S100000x64.size a)
instance k0_chk160.dec : ∀ (v2025 : BitVec 32), Decidable (k0_chk160 v2025) := fun v2025 => decidable_of_iff' _ (Iff.of_eq (k0_chk160.eq_1 v2025))
theorem k0_off160_inb : ∀ (v2025 : BitVec 32) (k0_hw160 : k0_chk160 v2025), ∀ a, (k0_off160 v2025) a + S1x64.size a ≤ S100000x64.size a := fun v2025 k0_hw160 => k0_hw160

def k0_off161 (v2038 : BitVec 32) : Fin 2 → Nat :=
  let c0_i32_1247 : BitVec 32 := 0#32
  ![v2038.toNat, 0]

def k0_chk161 (v2038 : BitVec 32) : Prop :=
  (∀ a, (k0_off161 v2038) a + S1x64.size a ≤ S100000x64.size a)
instance k0_chk161.dec : ∀ (v2038 : BitVec 32), Decidable (k0_chk161 v2038) := fun v2038 => decidable_of_iff' _ (Iff.of_eq (k0_chk161.eq_1 v2038))
theorem k0_off161_inb : ∀ (v2038 : BitVec 32) (k0_hw161 : k0_chk161 v2038), ∀ a, (k0_off161 v2038) a + S1x64.size a ≤ S100000x64.size a := fun v2038 k0_hw161 => k0_hw161

def k0_off162 (v2051 : BitVec 32) : Fin 2 → Nat :=
  let c0_i32_1255 : BitVec 32 := 0#32
  ![v2051.toNat, 0]

def k0_chk162 (v2051 : BitVec 32) : Prop :=
  (∀ a, (k0_off162 v2051) a + S1x64.size a ≤ S100000x64.size a)
instance k0_chk162.dec : ∀ (v2051 : BitVec 32), Decidable (k0_chk162 v2051) := fun v2051 => decidable_of_iff' _ (Iff.of_eq (k0_chk162.eq_1 v2051))
theorem k0_off162_inb : ∀ (v2051 : BitVec 32) (k0_hw162 : k0_chk162 v2051), ∀ a, (k0_off162 v2051) a + S1x64.size a ≤ S100000x64.size a := fun v2051 k0_hw162 => k0_hw162

def k0_off163 (v2064 : BitVec 32) : Fin 2 → Nat :=
  let c0_i32_1263 : BitVec 32 := 0#32
  ![v2064.toNat, 0]

def k0_chk163 (v2064 : BitVec 32) : Prop :=
  (∀ a, (k0_off163 v2064) a + S1x64.size a ≤ S100000x64.size a)
instance k0_chk163.dec : ∀ (v2064 : BitVec 32), Decidable (k0_chk163 v2064) := fun v2064 => decidable_of_iff' _ (Iff.of_eq (k0_chk163.eq_1 v2064))
theorem k0_off163_inb : ∀ (v2064 : BitVec 32) (k0_hw163 : k0_chk163 v2064), ∀ a, (k0_off163 v2064) a + S1x64.size a ≤ S100000x64.size a := fun v2064 k0_hw163 => k0_hw163

def k0_off164 (v2077 : BitVec 32) : Fin 2 → Nat :=
  let c0_i32_1271 : BitVec 32 := 0#32
  ![v2077.toNat, 0]

def k0_chk164 (v2077 : BitVec 32) : Prop :=
  (∀ a, (k0_off164 v2077) a + S1x64.size a ≤ S100000x64.size a)
instance k0_chk164.dec : ∀ (v2077 : BitVec 32), Decidable (k0_chk164 v2077) := fun v2077 => decidable_of_iff' _ (Iff.of_eq (k0_chk164.eq_1 v2077))
theorem k0_off164_inb : ∀ (v2077 : BitVec 32) (k0_hw164 : k0_chk164 v2077), ∀ a, (k0_off164 v2077) a + S1x64.size a ≤ S100000x64.size a := fun v2077 k0_hw164 => k0_hw164

def k0_off165 (v2090 : BitVec 32) : Fin 2 → Nat :=
  let c0_i32_1279 : BitVec 32 := 0#32
  ![v2090.toNat, 0]

def k0_chk165 (v2090 : BitVec 32) : Prop :=
  (∀ a, (k0_off165 v2090) a + S1x64.size a ≤ S100000x64.size a)
instance k0_chk165.dec : ∀ (v2090 : BitVec 32), Decidable (k0_chk165 v2090) := fun v2090 => decidable_of_iff' _ (Iff.of_eq (k0_chk165.eq_1 v2090))
theorem k0_off165_inb : ∀ (v2090 : BitVec 32) (k0_hw165 : k0_chk165 v2090), ∀ a, (k0_off165 v2090) a + S1x64.size a ≤ S100000x64.size a := fun v2090 k0_hw165 => k0_hw165

def k0_off166 (v2103 : BitVec 32) : Fin 2 → Nat :=
  let c0_i32_1287 : BitVec 32 := 0#32
  ![v2103.toNat, 0]

def k0_chk166 (v2103 : BitVec 32) : Prop :=
  (∀ a, (k0_off166 v2103) a + S1x64.size a ≤ S100000x64.size a)
instance k0_chk166.dec : ∀ (v2103 : BitVec 32), Decidable (k0_chk166 v2103) := fun v2103 => decidable_of_iff' _ (Iff.of_eq (k0_chk166.eq_1 v2103))
theorem k0_off166_inb : ∀ (v2103 : BitVec 32) (k0_hw166 : k0_chk166 v2103), ∀ a, (k0_off166 v2103) a + S1x64.size a ≤ S100000x64.size a := fun v2103 k0_hw166 => k0_hw166

def k0_off167 (v2116 : BitVec 32) : Fin 2 → Nat :=
  let c0_i32_1295 : BitVec 32 := 0#32
  ![v2116.toNat, 0]

def k0_chk167 (v2116 : BitVec 32) : Prop :=
  (∀ a, (k0_off167 v2116) a + S1x64.size a ≤ S100000x64.size a)
instance k0_chk167.dec : ∀ (v2116 : BitVec 32), Decidable (k0_chk167 v2116) := fun v2116 => decidable_of_iff' _ (Iff.of_eq (k0_chk167.eq_1 v2116))
theorem k0_off167_inb : ∀ (v2116 : BitVec 32) (k0_hw167 : k0_chk167 v2116), ∀ a, (k0_off167 v2116) a + S1x64.size a ≤ S100000x64.size a := fun v2116 k0_hw167 => k0_hw167

def k0_off168 (v2129 : BitVec 32) : Fin 2 → Nat :=
  let c0_i32_1303 : BitVec 32 := 0#32
  ![v2129.toNat, 0]

def k0_chk168 (v2129 : BitVec 32) : Prop :=
  (∀ a, (k0_off168 v2129) a + S1x64.size a ≤ S100000x64.size a)
instance k0_chk168.dec : ∀ (v2129 : BitVec 32), Decidable (k0_chk168 v2129) := fun v2129 => decidable_of_iff' _ (Iff.of_eq (k0_chk168.eq_1 v2129))
theorem k0_off168_inb : ∀ (v2129 : BitVec 32) (k0_hw168 : k0_chk168 v2129), ∀ a, (k0_off168 v2129) a + S1x64.size a ≤ S100000x64.size a := fun v2129 k0_hw168 => k0_hw168

def k0_off169 (v2142 : BitVec 32) : Fin 2 → Nat :=
  let c0_i32_1311 : BitVec 32 := 0#32
  ![v2142.toNat, 0]

def k0_chk169 (v2142 : BitVec 32) : Prop :=
  (∀ a, (k0_off169 v2142) a + S1x64.size a ≤ S100000x64.size a)
instance k0_chk169.dec : ∀ (v2142 : BitVec 32), Decidable (k0_chk169 v2142) := fun v2142 => decidable_of_iff' _ (Iff.of_eq (k0_chk169.eq_1 v2142))
theorem k0_off169_inb : ∀ (v2142 : BitVec 32) (k0_hw169 : k0_chk169 v2142), ∀ a, (k0_off169 v2142) a + S1x64.size a ≤ S100000x64.size a := fun v2142 k0_hw169 => k0_hw169

def k0_off170 (v2155 : BitVec 32) : Fin 2 → Nat :=
  let c0_i32_1319 : BitVec 32 := 0#32
  ![v2155.toNat, 0]

def k0_chk170 (v2155 : BitVec 32) : Prop :=
  (∀ a, (k0_off170 v2155) a + S1x64.size a ≤ S100000x64.size a)
instance k0_chk170.dec : ∀ (v2155 : BitVec 32), Decidable (k0_chk170 v2155) := fun v2155 => decidable_of_iff' _ (Iff.of_eq (k0_chk170.eq_1 v2155))
theorem k0_off170_inb : ∀ (v2155 : BitVec 32) (k0_hw170 : k0_chk170 v2155), ∀ a, (k0_off170 v2155) a + S1x64.size a ≤ S100000x64.size a := fun v2155 k0_hw170 => k0_hw170

def k0_off171 (v2168 : BitVec 32) : Fin 2 → Nat :=
  let c0_i32_1327 : BitVec 32 := 0#32
  ![v2168.toNat, 0]

def k0_chk171 (v2168 : BitVec 32) : Prop :=
  (∀ a, (k0_off171 v2168) a + S1x64.size a ≤ S100000x64.size a)
instance k0_chk171.dec : ∀ (v2168 : BitVec 32), Decidable (k0_chk171 v2168) := fun v2168 => decidable_of_iff' _ (Iff.of_eq (k0_chk171.eq_1 v2168))
theorem k0_off171_inb : ∀ (v2168 : BitVec 32) (k0_hw171 : k0_chk171 v2168), ∀ a, (k0_off171 v2168) a + S1x64.size a ≤ S100000x64.size a := fun v2168 k0_hw171 => k0_hw171

def k0_off172 (v2181 : BitVec 32) : Fin 2 → Nat :=
  let c0_i32_1335 : BitVec 32 := 0#32
  ![v2181.toNat, 0]

def k0_chk172 (v2181 : BitVec 32) : Prop :=
  (∀ a, (k0_off172 v2181) a + S1x64.size a ≤ S100000x64.size a)
instance k0_chk172.dec : ∀ (v2181 : BitVec 32), Decidable (k0_chk172 v2181) := fun v2181 => decidable_of_iff' _ (Iff.of_eq (k0_chk172.eq_1 v2181))
theorem k0_off172_inb : ∀ (v2181 : BitVec 32) (k0_hw172 : k0_chk172 v2181), ∀ a, (k0_off172 v2181) a + S1x64.size a ≤ S100000x64.size a := fun v2181 k0_hw172 => k0_hw172

def k0_off173 (v2194 : BitVec 32) : Fin 2 → Nat :=
  let c0_i32_1343 : BitVec 32 := 0#32
  ![v2194.toNat, 0]

def k0_chk173 (v2194 : BitVec 32) : Prop :=
  (∀ a, (k0_off173 v2194) a + S1x64.size a ≤ S100000x64.size a)
instance k0_chk173.dec : ∀ (v2194 : BitVec 32), Decidable (k0_chk173 v2194) := fun v2194 => decidable_of_iff' _ (Iff.of_eq (k0_chk173.eq_1 v2194))
theorem k0_off173_inb : ∀ (v2194 : BitVec 32) (k0_hw173 : k0_chk173 v2194), ∀ a, (k0_off173 v2194) a + S1x64.size a ≤ S100000x64.size a := fun v2194 k0_hw173 => k0_hw173

def k0_off174 (v2207 : BitVec 32) : Fin 2 → Nat :=
  let c0_i32_1351 : BitVec 32 := 0#32
  ![v2207.toNat, 0]

def k0_chk174 (v2207 : BitVec 32) : Prop :=
  (∀ a, (k0_off174 v2207) a + S1x64.size a ≤ S100000x64.size a)
instance k0_chk174.dec : ∀ (v2207 : BitVec 32), Decidable (k0_chk174 v2207) := fun v2207 => decidable_of_iff' _ (Iff.of_eq (k0_chk174.eq_1 v2207))
theorem k0_off174_inb : ∀ (v2207 : BitVec 32) (k0_hw174 : k0_chk174 v2207), ∀ a, (k0_off174 v2207) a + S1x64.size a ≤ S100000x64.size a := fun v2207 k0_hw174 => k0_hw174

def k0_off175 (v2220 : BitVec 32) : Fin 2 → Nat :=
  let c0_i32_1359 : BitVec 32 := 0#32
  ![v2220.toNat, 0]

def k0_chk175 (v2220 : BitVec 32) : Prop :=
  (∀ a, (k0_off175 v2220) a + S1x64.size a ≤ S100000x64.size a)
instance k0_chk175.dec : ∀ (v2220 : BitVec 32), Decidable (k0_chk175 v2220) := fun v2220 => decidable_of_iff' _ (Iff.of_eq (k0_chk175.eq_1 v2220))
theorem k0_off175_inb : ∀ (v2220 : BitVec 32) (k0_hw175 : k0_chk175 v2220), ∀ a, (k0_off175 v2220) a + S1x64.size a ≤ S100000x64.size a := fun v2220 k0_hw175 => k0_hw175

def k0_off176 (v2233 : BitVec 32) : Fin 2 → Nat :=
  let c0_i32_1367 : BitVec 32 := 0#32
  ![v2233.toNat, 0]

def k0_chk176 (v2233 : BitVec 32) : Prop :=
  (∀ a, (k0_off176 v2233) a + S1x64.size a ≤ S100000x64.size a)
instance k0_chk176.dec : ∀ (v2233 : BitVec 32), Decidable (k0_chk176 v2233) := fun v2233 => decidable_of_iff' _ (Iff.of_eq (k0_chk176.eq_1 v2233))
theorem k0_off176_inb : ∀ (v2233 : BitVec 32) (k0_hw176 : k0_chk176 v2233), ∀ a, (k0_off176 v2233) a + S1x64.size a ≤ S100000x64.size a := fun v2233 k0_hw176 => k0_hw176

def k0_off177 (v2246 : BitVec 32) : Fin 2 → Nat :=
  let c0_i32_1375 : BitVec 32 := 0#32
  ![v2246.toNat, 0]

def k0_chk177 (v2246 : BitVec 32) : Prop :=
  (∀ a, (k0_off177 v2246) a + S1x64.size a ≤ S100000x64.size a)
instance k0_chk177.dec : ∀ (v2246 : BitVec 32), Decidable (k0_chk177 v2246) := fun v2246 => decidable_of_iff' _ (Iff.of_eq (k0_chk177.eq_1 v2246))
theorem k0_off177_inb : ∀ (v2246 : BitVec 32) (k0_hw177 : k0_chk177 v2246), ∀ a, (k0_off177 v2246) a + S1x64.size a ≤ S100000x64.size a := fun v2246 k0_hw177 => k0_hw177

def k0_off178 (v2259 : BitVec 32) : Fin 2 → Nat :=
  let c0_i32_1383 : BitVec 32 := 0#32
  ![v2259.toNat, 0]

def k0_chk178 (v2259 : BitVec 32) : Prop :=
  (∀ a, (k0_off178 v2259) a + S1x64.size a ≤ S100000x64.size a)
instance k0_chk178.dec : ∀ (v2259 : BitVec 32), Decidable (k0_chk178 v2259) := fun v2259 => decidable_of_iff' _ (Iff.of_eq (k0_chk178.eq_1 v2259))
theorem k0_off178_inb : ∀ (v2259 : BitVec 32) (k0_hw178 : k0_chk178 v2259), ∀ a, (k0_off178 v2259) a + S1x64.size a ≤ S100000x64.size a := fun v2259 k0_hw178 => k0_hw178

def k0_off179 (v2272 : BitVec 32) : Fin 2 → Nat :=
  let c0_i32_1391 : BitVec 32 := 0#32
  ![v2272.toNat, 0]

def k0_chk179 (v2272 : BitVec 32) : Prop :=
  (∀ a, (k0_off179 v2272) a + S1x64.size a ≤ S100000x64.size a)
instance k0_chk179.dec : ∀ (v2272 : BitVec 32), Decidable (k0_chk179 v2272) := fun v2272 => decidable_of_iff' _ (Iff.of_eq (k0_chk179.eq_1 v2272))
theorem k0_off179_inb : ∀ (v2272 : BitVec 32) (k0_hw179 : k0_chk179 v2272), ∀ a, (k0_off179 v2272) a + S1x64.size a ≤ S100000x64.size a := fun v2272 k0_hw179 => k0_hw179

def k0_off180 (v2285 : BitVec 32) : Fin 2 → Nat :=
  let c0_i32_1399 : BitVec 32 := 0#32
  ![v2285.toNat, 0]

def k0_chk180 (v2285 : BitVec 32) : Prop :=
  (∀ a, (k0_off180 v2285) a + S1x64.size a ≤ S100000x64.size a)
instance k0_chk180.dec : ∀ (v2285 : BitVec 32), Decidable (k0_chk180 v2285) := fun v2285 => decidable_of_iff' _ (Iff.of_eq (k0_chk180.eq_1 v2285))
theorem k0_off180_inb : ∀ (v2285 : BitVec 32) (k0_hw180 : k0_chk180 v2285), ∀ a, (k0_off180 v2285) a + S1x64.size a ≤ S100000x64.size a := fun v2285 k0_hw180 => k0_hw180

def k0_off181 (v2298 : BitVec 32) : Fin 2 → Nat :=
  let c0_i32_1407 : BitVec 32 := 0#32
  ![v2298.toNat, 0]

def k0_chk181 (v2298 : BitVec 32) : Prop :=
  (∀ a, (k0_off181 v2298) a + S1x64.size a ≤ S100000x64.size a)
instance k0_chk181.dec : ∀ (v2298 : BitVec 32), Decidable (k0_chk181 v2298) := fun v2298 => decidable_of_iff' _ (Iff.of_eq (k0_chk181.eq_1 v2298))
theorem k0_off181_inb : ∀ (v2298 : BitVec 32) (k0_hw181 : k0_chk181 v2298), ∀ a, (k0_off181 v2298) a + S1x64.size a ≤ S100000x64.size a := fun v2298 k0_hw181 => k0_hw181

def k0_off182 (v2311 : BitVec 32) : Fin 2 → Nat :=
  let c0_i32_1415 : BitVec 32 := 0#32
  ![v2311.toNat, 0]

def k0_chk182 (v2311 : BitVec 32) : Prop :=
  (∀ a, (k0_off182 v2311) a + S1x64.size a ≤ S100000x64.size a)
instance k0_chk182.dec : ∀ (v2311 : BitVec 32), Decidable (k0_chk182 v2311) := fun v2311 => decidable_of_iff' _ (Iff.of_eq (k0_chk182.eq_1 v2311))
theorem k0_off182_inb : ∀ (v2311 : BitVec 32) (k0_hw182 : k0_chk182 v2311), ∀ a, (k0_off182 v2311) a + S1x64.size a ≤ S100000x64.size a := fun v2311 k0_hw182 => k0_hw182

def k0_off183 (v2324 : BitVec 32) : Fin 2 → Nat :=
  let c0_i32_1423 : BitVec 32 := 0#32
  ![v2324.toNat, 0]

def k0_chk183 (v2324 : BitVec 32) : Prop :=
  (∀ a, (k0_off183 v2324) a + S1x64.size a ≤ S100000x64.size a)
instance k0_chk183.dec : ∀ (v2324 : BitVec 32), Decidable (k0_chk183 v2324) := fun v2324 => decidable_of_iff' _ (Iff.of_eq (k0_chk183.eq_1 v2324))
theorem k0_off183_inb : ∀ (v2324 : BitVec 32) (k0_hw183 : k0_chk183 v2324), ∀ a, (k0_off183 v2324) a + S1x64.size a ≤ S100000x64.size a := fun v2324 k0_hw183 => k0_hw183

def k0_off184 (v2337 : BitVec 32) : Fin 2 → Nat :=
  let c0_i32_1431 : BitVec 32 := 0#32
  ![v2337.toNat, 0]

def k0_chk184 (v2337 : BitVec 32) : Prop :=
  (∀ a, (k0_off184 v2337) a + S1x64.size a ≤ S100000x64.size a)
instance k0_chk184.dec : ∀ (v2337 : BitVec 32), Decidable (k0_chk184 v2337) := fun v2337 => decidable_of_iff' _ (Iff.of_eq (k0_chk184.eq_1 v2337))
theorem k0_off184_inb : ∀ (v2337 : BitVec 32) (k0_hw184 : k0_chk184 v2337), ∀ a, (k0_off184 v2337) a + S1x64.size a ≤ S100000x64.size a := fun v2337 k0_hw184 => k0_hw184

def k0_off185 (v2350 : BitVec 32) : Fin 2 → Nat :=
  let c0_i32_1439 : BitVec 32 := 0#32
  ![v2350.toNat, 0]

def k0_chk185 (v2350 : BitVec 32) : Prop :=
  (∀ a, (k0_off185 v2350) a + S1x64.size a ≤ S100000x64.size a)
instance k0_chk185.dec : ∀ (v2350 : BitVec 32), Decidable (k0_chk185 v2350) := fun v2350 => decidable_of_iff' _ (Iff.of_eq (k0_chk185.eq_1 v2350))
theorem k0_off185_inb : ∀ (v2350 : BitVec 32) (k0_hw185 : k0_chk185 v2350), ∀ a, (k0_off185 v2350) a + S1x64.size a ≤ S100000x64.size a := fun v2350 k0_hw185 => k0_hw185

def k0_off186 (v2363 : BitVec 32) : Fin 2 → Nat :=
  let c0_i32_1447 : BitVec 32 := 0#32
  ![v2363.toNat, 0]

def k0_chk186 (v2363 : BitVec 32) : Prop :=
  (∀ a, (k0_off186 v2363) a + S1x64.size a ≤ S100000x64.size a)
instance k0_chk186.dec : ∀ (v2363 : BitVec 32), Decidable (k0_chk186 v2363) := fun v2363 => decidable_of_iff' _ (Iff.of_eq (k0_chk186.eq_1 v2363))
theorem k0_off186_inb : ∀ (v2363 : BitVec 32) (k0_hw186 : k0_chk186 v2363), ∀ a, (k0_off186 v2363) a + S1x64.size a ≤ S100000x64.size a := fun v2363 k0_hw186 => k0_hw186

def k0_off187 (v2376 : BitVec 32) : Fin 2 → Nat :=
  let c0_i32_1455 : BitVec 32 := 0#32
  ![v2376.toNat, 0]

def k0_chk187 (v2376 : BitVec 32) : Prop :=
  (∀ a, (k0_off187 v2376) a + S1x64.size a ≤ S100000x64.size a)
instance k0_chk187.dec : ∀ (v2376 : BitVec 32), Decidable (k0_chk187 v2376) := fun v2376 => decidable_of_iff' _ (Iff.of_eq (k0_chk187.eq_1 v2376))
theorem k0_off187_inb : ∀ (v2376 : BitVec 32) (k0_hw187 : k0_chk187 v2376), ∀ a, (k0_off187 v2376) a + S1x64.size a ≤ S100000x64.size a := fun v2376 k0_hw187 => k0_hw187

def k0_off188 (v2389 : BitVec 32) : Fin 2 → Nat :=
  let c0_i32_1463 : BitVec 32 := 0#32
  ![v2389.toNat, 0]

def k0_chk188 (v2389 : BitVec 32) : Prop :=
  (∀ a, (k0_off188 v2389) a + S1x64.size a ≤ S100000x64.size a)
instance k0_chk188.dec : ∀ (v2389 : BitVec 32), Decidable (k0_chk188 v2389) := fun v2389 => decidable_of_iff' _ (Iff.of_eq (k0_chk188.eq_1 v2389))
theorem k0_off188_inb : ∀ (v2389 : BitVec 32) (k0_hw188 : k0_chk188 v2389), ∀ a, (k0_off188 v2389) a + S1x64.size a ≤ S100000x64.size a := fun v2389 k0_hw188 => k0_hw188

def k0_off189 (v2402 : BitVec 32) : Fin 2 → Nat :=
  let c0_i32_1471 : BitVec 32 := 0#32
  ![v2402.toNat, 0]

def k0_chk189 (v2402 : BitVec 32) : Prop :=
  (∀ a, (k0_off189 v2402) a + S1x64.size a ≤ S100000x64.size a)
instance k0_chk189.dec : ∀ (v2402 : BitVec 32), Decidable (k0_chk189 v2402) := fun v2402 => decidable_of_iff' _ (Iff.of_eq (k0_chk189.eq_1 v2402))
theorem k0_off189_inb : ∀ (v2402 : BitVec 32) (k0_hw189 : k0_chk189 v2402), ∀ a, (k0_off189 v2402) a + S1x64.size a ≤ S100000x64.size a := fun v2402 k0_hw189 => k0_hw189

def k0_off190 (v2415 : BitVec 32) : Fin 2 → Nat :=
  let c0_i32_1479 : BitVec 32 := 0#32
  ![v2415.toNat, 0]

def k0_chk190 (v2415 : BitVec 32) : Prop :=
  (∀ a, (k0_off190 v2415) a + S1x64.size a ≤ S100000x64.size a)
instance k0_chk190.dec : ∀ (v2415 : BitVec 32), Decidable (k0_chk190 v2415) := fun v2415 => decidable_of_iff' _ (Iff.of_eq (k0_chk190.eq_1 v2415))
theorem k0_off190_inb : ∀ (v2415 : BitVec 32) (k0_hw190 : k0_chk190 v2415), ∀ a, (k0_off190 v2415) a + S1x64.size a ≤ S100000x64.size a := fun v2415 k0_hw190 => k0_hw190

def k0_off191 (v2428 : BitVec 32) : Fin 2 → Nat :=
  let c0_i32_1487 : BitVec 32 := 0#32
  ![v2428.toNat, 0]

def k0_chk191 (v2428 : BitVec 32) : Prop :=
  (∀ a, (k0_off191 v2428) a + S1x64.size a ≤ S100000x64.size a)
instance k0_chk191.dec : ∀ (v2428 : BitVec 32), Decidable (k0_chk191 v2428) := fun v2428 => decidable_of_iff' _ (Iff.of_eq (k0_chk191.eq_1 v2428))
theorem k0_off191_inb : ∀ (v2428 : BitVec 32) (k0_hw191 : k0_chk191 v2428), ∀ a, (k0_off191 v2428) a + S1x64.size a ≤ S100000x64.size a := fun v2428 k0_hw191 => k0_hw191

def k0_off192 (v2441 : BitVec 32) : Fin 2 → Nat :=
  let c0_i32_1495 : BitVec 32 := 0#32
  ![v2441.toNat, 0]

def k0_chk192 (v2441 : BitVec 32) : Prop :=
  (∀ a, (k0_off192 v2441) a + S1x64.size a ≤ S100000x64.size a)
instance k0_chk192.dec : ∀ (v2441 : BitVec 32), Decidable (k0_chk192 v2441) := fun v2441 => decidable_of_iff' _ (Iff.of_eq (k0_chk192.eq_1 v2441))
theorem k0_off192_inb : ∀ (v2441 : BitVec 32) (k0_hw192 : k0_chk192 v2441), ∀ a, (k0_off192 v2441) a + S1x64.size a ≤ S100000x64.size a := fun v2441 k0_hw192 => k0_hw192

def k0_off193 (v2454 : BitVec 32) : Fin 2 → Nat :=
  let c0_i32_1503 : BitVec 32 := 0#32
  ![v2454.toNat, 0]

def k0_chk193 (v2454 : BitVec 32) : Prop :=
  (∀ a, (k0_off193 v2454) a + S1x64.size a ≤ S100000x64.size a)
instance k0_chk193.dec : ∀ (v2454 : BitVec 32), Decidable (k0_chk193 v2454) := fun v2454 => decidable_of_iff' _ (Iff.of_eq (k0_chk193.eq_1 v2454))
theorem k0_off193_inb : ∀ (v2454 : BitVec 32) (k0_hw193 : k0_chk193 v2454), ∀ a, (k0_off193 v2454) a + S1x64.size a ≤ S100000x64.size a := fun v2454 k0_hw193 => k0_hw193

def k0_off194 (v2467 : BitVec 32) : Fin 2 → Nat :=
  let c0_i32_1511 : BitVec 32 := 0#32
  ![v2467.toNat, 0]

def k0_chk194 (v2467 : BitVec 32) : Prop :=
  (∀ a, (k0_off194 v2467) a + S1x64.size a ≤ S100000x64.size a)
instance k0_chk194.dec : ∀ (v2467 : BitVec 32), Decidable (k0_chk194 v2467) := fun v2467 => decidable_of_iff' _ (Iff.of_eq (k0_chk194.eq_1 v2467))
theorem k0_off194_inb : ∀ (v2467 : BitVec 32) (k0_hw194 : k0_chk194 v2467), ∀ a, (k0_off194 v2467) a + S1x64.size a ≤ S100000x64.size a := fun v2467 k0_hw194 => k0_hw194

def k0_off195 (v2480 : BitVec 32) : Fin 2 → Nat :=
  let c0_i32_1519 : BitVec 32 := 0#32
  ![v2480.toNat, 0]

def k0_chk195 (v2480 : BitVec 32) : Prop :=
  (∀ a, (k0_off195 v2480) a + S1x64.size a ≤ S100000x64.size a)
instance k0_chk195.dec : ∀ (v2480 : BitVec 32), Decidable (k0_chk195 v2480) := fun v2480 => decidable_of_iff' _ (Iff.of_eq (k0_chk195.eq_1 v2480))
theorem k0_off195_inb : ∀ (v2480 : BitVec 32) (k0_hw195 : k0_chk195 v2480), ∀ a, (k0_off195 v2480) a + S1x64.size a ≤ S100000x64.size a := fun v2480 k0_hw195 => k0_hw195

def k0_off196 (v2493 : BitVec 32) : Fin 2 → Nat :=
  let c0_i32_1527 : BitVec 32 := 0#32
  ![v2493.toNat, 0]

def k0_chk196 (v2493 : BitVec 32) : Prop :=
  (∀ a, (k0_off196 v2493) a + S1x64.size a ≤ S100000x64.size a)
instance k0_chk196.dec : ∀ (v2493 : BitVec 32), Decidable (k0_chk196 v2493) := fun v2493 => decidable_of_iff' _ (Iff.of_eq (k0_chk196.eq_1 v2493))
theorem k0_off196_inb : ∀ (v2493 : BitVec 32) (k0_hw196 : k0_chk196 v2493), ∀ a, (k0_off196 v2493) a + S1x64.size a ≤ S100000x64.size a := fun v2493 k0_hw196 => k0_hw196

def k0_off197 (v2506 : BitVec 32) : Fin 2 → Nat :=
  let c0_i32_1535 : BitVec 32 := 0#32
  ![v2506.toNat, 0]

def k0_chk197 (v2506 : BitVec 32) : Prop :=
  (∀ a, (k0_off197 v2506) a + S1x64.size a ≤ S100000x64.size a)
instance k0_chk197.dec : ∀ (v2506 : BitVec 32), Decidable (k0_chk197 v2506) := fun v2506 => decidable_of_iff' _ (Iff.of_eq (k0_chk197.eq_1 v2506))
theorem k0_off197_inb : ∀ (v2506 : BitVec 32) (k0_hw197 : k0_chk197 v2506), ∀ a, (k0_off197 v2506) a + S1x64.size a ≤ S100000x64.size a := fun v2506 k0_hw197 => k0_hw197

def k0_off198 (v2519 : BitVec 32) : Fin 2 → Nat :=
  let c0_i32_1543 : BitVec 32 := 0#32
  ![v2519.toNat, 0]

def k0_chk198 (v2519 : BitVec 32) : Prop :=
  (∀ a, (k0_off198 v2519) a + S1x64.size a ≤ S100000x64.size a)
instance k0_chk198.dec : ∀ (v2519 : BitVec 32), Decidable (k0_chk198 v2519) := fun v2519 => decidable_of_iff' _ (Iff.of_eq (k0_chk198.eq_1 v2519))
theorem k0_off198_inb : ∀ (v2519 : BitVec 32) (k0_hw198 : k0_chk198 v2519), ∀ a, (k0_off198 v2519) a + S1x64.size a ≤ S100000x64.size a := fun v2519 k0_hw198 => k0_hw198

def k0_off199 (v2532 : BitVec 32) : Fin 2 → Nat :=
  let c0_i32_1551 : BitVec 32 := 0#32
  ![v2532.toNat, 0]

def k0_chk199 (v2532 : BitVec 32) : Prop :=
  (∀ a, (k0_off199 v2532) a + S1x64.size a ≤ S100000x64.size a)
instance k0_chk199.dec : ∀ (v2532 : BitVec 32), Decidable (k0_chk199 v2532) := fun v2532 => decidable_of_iff' _ (Iff.of_eq (k0_chk199.eq_1 v2532))
theorem k0_off199_inb : ∀ (v2532 : BitVec 32) (k0_hw199 : k0_chk199 v2532), ∀ a, (k0_off199 v2532) a + S1x64.size a ≤ S100000x64.size a := fun v2532 k0_hw199 => k0_hw199

def k0_off200 (v2545 : BitVec 32) : Fin 2 → Nat :=
  let c0_i32_1559 : BitVec 32 := 0#32
  ![v2545.toNat, 0]

def k0_chk200 (v2545 : BitVec 32) : Prop :=
  (∀ a, (k0_off200 v2545) a + S1x64.size a ≤ S100000x64.size a)
instance k0_chk200.dec : ∀ (v2545 : BitVec 32), Decidable (k0_chk200 v2545) := fun v2545 => decidable_of_iff' _ (Iff.of_eq (k0_chk200.eq_1 v2545))
theorem k0_off200_inb : ∀ (v2545 : BitVec 32) (k0_hw200 : k0_chk200 v2545), ∀ a, (k0_off200 v2545) a + S1x64.size a ≤ S100000x64.size a := fun v2545 k0_hw200 => k0_hw200

def k0_off201 (v2558 : BitVec 32) : Fin 2 → Nat :=
  let c0_i32_1567 : BitVec 32 := 0#32
  ![v2558.toNat, 0]

def k0_chk201 (v2558 : BitVec 32) : Prop :=
  (∀ a, (k0_off201 v2558) a + S1x64.size a ≤ S100000x64.size a)
instance k0_chk201.dec : ∀ (v2558 : BitVec 32), Decidable (k0_chk201 v2558) := fun v2558 => decidable_of_iff' _ (Iff.of_eq (k0_chk201.eq_1 v2558))
theorem k0_off201_inb : ∀ (v2558 : BitVec 32) (k0_hw201 : k0_chk201 v2558), ∀ a, (k0_off201 v2558) a + S1x64.size a ≤ S100000x64.size a := fun v2558 k0_hw201 => k0_hw201

def k0_off202 (v2571 : BitVec 32) : Fin 2 → Nat :=
  let c0_i32_1575 : BitVec 32 := 0#32
  ![v2571.toNat, 0]

def k0_chk202 (v2571 : BitVec 32) : Prop :=
  (∀ a, (k0_off202 v2571) a + S1x64.size a ≤ S100000x64.size a)
instance k0_chk202.dec : ∀ (v2571 : BitVec 32), Decidable (k0_chk202 v2571) := fun v2571 => decidable_of_iff' _ (Iff.of_eq (k0_chk202.eq_1 v2571))
theorem k0_off202_inb : ∀ (v2571 : BitVec 32) (k0_hw202 : k0_chk202 v2571), ∀ a, (k0_off202 v2571) a + S1x64.size a ≤ S100000x64.size a := fun v2571 k0_hw202 => k0_hw202

def k0_off203 (v2584 : BitVec 32) : Fin 2 → Nat :=
  let c0_i32_1583 : BitVec 32 := 0#32
  ![v2584.toNat, 0]

def k0_chk203 (v2584 : BitVec 32) : Prop :=
  (∀ a, (k0_off203 v2584) a + S1x64.size a ≤ S100000x64.size a)
instance k0_chk203.dec : ∀ (v2584 : BitVec 32), Decidable (k0_chk203 v2584) := fun v2584 => decidable_of_iff' _ (Iff.of_eq (k0_chk203.eq_1 v2584))
theorem k0_off203_inb : ∀ (v2584 : BitVec 32) (k0_hw203 : k0_chk203 v2584), ∀ a, (k0_off203 v2584) a + S1x64.size a ≤ S100000x64.size a := fun v2584 k0_hw203 => k0_hw203

def k0_off204 (v2597 : BitVec 32) : Fin 2 → Nat :=
  let c0_i32_1591 : BitVec 32 := 0#32
  ![v2597.toNat, 0]

def k0_chk204 (v2597 : BitVec 32) : Prop :=
  (∀ a, (k0_off204 v2597) a + S1x64.size a ≤ S100000x64.size a)
instance k0_chk204.dec : ∀ (v2597 : BitVec 32), Decidable (k0_chk204 v2597) := fun v2597 => decidable_of_iff' _ (Iff.of_eq (k0_chk204.eq_1 v2597))
theorem k0_off204_inb : ∀ (v2597 : BitVec 32) (k0_hw204 : k0_chk204 v2597), ∀ a, (k0_off204 v2597) a + S1x64.size a ≤ S100000x64.size a := fun v2597 k0_hw204 => k0_hw204

def k0_off205 (v2610 : BitVec 32) : Fin 2 → Nat :=
  let c0_i32_1599 : BitVec 32 := 0#32
  ![v2610.toNat, 0]

def k0_chk205 (v2610 : BitVec 32) : Prop :=
  (∀ a, (k0_off205 v2610) a + S1x64.size a ≤ S100000x64.size a)
instance k0_chk205.dec : ∀ (v2610 : BitVec 32), Decidable (k0_chk205 v2610) := fun v2610 => decidable_of_iff' _ (Iff.of_eq (k0_chk205.eq_1 v2610))
theorem k0_off205_inb : ∀ (v2610 : BitVec 32) (k0_hw205 : k0_chk205 v2610), ∀ a, (k0_off205 v2610) a + S1x64.size a ≤ S100000x64.size a := fun v2610 k0_hw205 => k0_hw205

def k0_off206 (v2623 : BitVec 32) : Fin 2 → Nat :=
  let c0_i32_1607 : BitVec 32 := 0#32
  ![v2623.toNat, 0]

def k0_chk206 (v2623 : BitVec 32) : Prop :=
  (∀ a, (k0_off206 v2623) a + S1x64.size a ≤ S100000x64.size a)
instance k0_chk206.dec : ∀ (v2623 : BitVec 32), Decidable (k0_chk206 v2623) := fun v2623 => decidable_of_iff' _ (Iff.of_eq (k0_chk206.eq_1 v2623))
theorem k0_off206_inb : ∀ (v2623 : BitVec 32) (k0_hw206 : k0_chk206 v2623), ∀ a, (k0_off206 v2623) a + S1x64.size a ≤ S100000x64.size a := fun v2623 k0_hw206 => k0_hw206

def k0_off207 (v2636 : BitVec 32) : Fin 2 → Nat :=
  let c0_i32_1615 : BitVec 32 := 0#32
  ![v2636.toNat, 0]

def k0_chk207 (v2636 : BitVec 32) : Prop :=
  (∀ a, (k0_off207 v2636) a + S1x64.size a ≤ S100000x64.size a)
instance k0_chk207.dec : ∀ (v2636 : BitVec 32), Decidable (k0_chk207 v2636) := fun v2636 => decidable_of_iff' _ (Iff.of_eq (k0_chk207.eq_1 v2636))
theorem k0_off207_inb : ∀ (v2636 : BitVec 32) (k0_hw207 : k0_chk207 v2636), ∀ a, (k0_off207 v2636) a + S1x64.size a ≤ S100000x64.size a := fun v2636 k0_hw207 => k0_hw207

def k0_off208 (v2649 : BitVec 32) : Fin 2 → Nat :=
  let c0_i32_1623 : BitVec 32 := 0#32
  ![v2649.toNat, 0]

def k0_chk208 (v2649 : BitVec 32) : Prop :=
  (∀ a, (k0_off208 v2649) a + S1x64.size a ≤ S100000x64.size a)
instance k0_chk208.dec : ∀ (v2649 : BitVec 32), Decidable (k0_chk208 v2649) := fun v2649 => decidable_of_iff' _ (Iff.of_eq (k0_chk208.eq_1 v2649))
theorem k0_off208_inb : ∀ (v2649 : BitVec 32) (k0_hw208 : k0_chk208 v2649), ∀ a, (k0_off208 v2649) a + S1x64.size a ≤ S100000x64.size a := fun v2649 k0_hw208 => k0_hw208

def k0_off209 (v2662 : BitVec 32) : Fin 2 → Nat :=
  let c0_i32_1631 : BitVec 32 := 0#32
  ![v2662.toNat, 0]

def k0_chk209 (v2662 : BitVec 32) : Prop :=
  (∀ a, (k0_off209 v2662) a + S1x64.size a ≤ S100000x64.size a)
instance k0_chk209.dec : ∀ (v2662 : BitVec 32), Decidable (k0_chk209 v2662) := fun v2662 => decidable_of_iff' _ (Iff.of_eq (k0_chk209.eq_1 v2662))
theorem k0_off209_inb : ∀ (v2662 : BitVec 32) (k0_hw209 : k0_chk209 v2662), ∀ a, (k0_off209 v2662) a + S1x64.size a ≤ S100000x64.size a := fun v2662 k0_hw209 => k0_hw209

def k0_off210 (v2675 : BitVec 32) : Fin 2 → Nat :=
  let c0_i32_1639 : BitVec 32 := 0#32
  ![v2675.toNat, 0]

def k0_chk210 (v2675 : BitVec 32) : Prop :=
  (∀ a, (k0_off210 v2675) a + S1x64.size a ≤ S100000x64.size a)
instance k0_chk210.dec : ∀ (v2675 : BitVec 32), Decidable (k0_chk210 v2675) := fun v2675 => decidable_of_iff' _ (Iff.of_eq (k0_chk210.eq_1 v2675))
theorem k0_off210_inb : ∀ (v2675 : BitVec 32) (k0_hw210 : k0_chk210 v2675), ∀ a, (k0_off210 v2675) a + S1x64.size a ≤ S100000x64.size a := fun v2675 k0_hw210 => k0_hw210

def k0_off211 (v2688 : BitVec 32) : Fin 2 → Nat :=
  let c0_i32_1647 : BitVec 32 := 0#32
  ![v2688.toNat, 0]

def k0_chk211 (v2688 : BitVec 32) : Prop :=
  (∀ a, (k0_off211 v2688) a + S1x64.size a ≤ S100000x64.size a)
instance k0_chk211.dec : ∀ (v2688 : BitVec 32), Decidable (k0_chk211 v2688) := fun v2688 => decidable_of_iff' _ (Iff.of_eq (k0_chk211.eq_1 v2688))
theorem k0_off211_inb : ∀ (v2688 : BitVec 32) (k0_hw211 : k0_chk211 v2688), ∀ a, (k0_off211 v2688) a + S1x64.size a ≤ S100000x64.size a := fun v2688 k0_hw211 => k0_hw211

def k0_off212 (v2701 : BitVec 32) : Fin 2 → Nat :=
  let c0_i32_1655 : BitVec 32 := 0#32
  ![v2701.toNat, 0]

def k0_chk212 (v2701 : BitVec 32) : Prop :=
  (∀ a, (k0_off212 v2701) a + S1x64.size a ≤ S100000x64.size a)
instance k0_chk212.dec : ∀ (v2701 : BitVec 32), Decidable (k0_chk212 v2701) := fun v2701 => decidable_of_iff' _ (Iff.of_eq (k0_chk212.eq_1 v2701))
theorem k0_off212_inb : ∀ (v2701 : BitVec 32) (k0_hw212 : k0_chk212 v2701), ∀ a, (k0_off212 v2701) a + S1x64.size a ≤ S100000x64.size a := fun v2701 k0_hw212 => k0_hw212

def k0_off213 (v2714 : BitVec 32) : Fin 2 → Nat :=
  let c0_i32_1663 : BitVec 32 := 0#32
  ![v2714.toNat, 0]

def k0_chk213 (v2714 : BitVec 32) : Prop :=
  (∀ a, (k0_off213 v2714) a + S1x64.size a ≤ S100000x64.size a)
instance k0_chk213.dec : ∀ (v2714 : BitVec 32), Decidable (k0_chk213 v2714) := fun v2714 => decidable_of_iff' _ (Iff.of_eq (k0_chk213.eq_1 v2714))
theorem k0_off213_inb : ∀ (v2714 : BitVec 32) (k0_hw213 : k0_chk213 v2714), ∀ a, (k0_off213 v2714) a + S1x64.size a ≤ S100000x64.size a := fun v2714 k0_hw213 => k0_hw213

def k0_off214 (v2727 : BitVec 32) : Fin 2 → Nat :=
  let c0_i32_1671 : BitVec 32 := 0#32
  ![v2727.toNat, 0]

def k0_chk214 (v2727 : BitVec 32) : Prop :=
  (∀ a, (k0_off214 v2727) a + S1x64.size a ≤ S100000x64.size a)
instance k0_chk214.dec : ∀ (v2727 : BitVec 32), Decidable (k0_chk214 v2727) := fun v2727 => decidable_of_iff' _ (Iff.of_eq (k0_chk214.eq_1 v2727))
theorem k0_off214_inb : ∀ (v2727 : BitVec 32) (k0_hw214 : k0_chk214 v2727), ∀ a, (k0_off214 v2727) a + S1x64.size a ≤ S100000x64.size a := fun v2727 k0_hw214 => k0_hw214

def k0_off215 (v2740 : BitVec 32) : Fin 2 → Nat :=
  let c0_i32_1679 : BitVec 32 := 0#32
  ![v2740.toNat, 0]

def k0_chk215 (v2740 : BitVec 32) : Prop :=
  (∀ a, (k0_off215 v2740) a + S1x64.size a ≤ S100000x64.size a)
instance k0_chk215.dec : ∀ (v2740 : BitVec 32), Decidable (k0_chk215 v2740) := fun v2740 => decidable_of_iff' _ (Iff.of_eq (k0_chk215.eq_1 v2740))
theorem k0_off215_inb : ∀ (v2740 : BitVec 32) (k0_hw215 : k0_chk215 v2740), ∀ a, (k0_off215 v2740) a + S1x64.size a ≤ S100000x64.size a := fun v2740 k0_hw215 => k0_hw215

def k0_off216 (v2753 : BitVec 32) : Fin 2 → Nat :=
  let c0_i32_1687 : BitVec 32 := 0#32
  ![v2753.toNat, 0]

def k0_chk216 (v2753 : BitVec 32) : Prop :=
  (∀ a, (k0_off216 v2753) a + S1x64.size a ≤ S100000x64.size a)
instance k0_chk216.dec : ∀ (v2753 : BitVec 32), Decidable (k0_chk216 v2753) := fun v2753 => decidable_of_iff' _ (Iff.of_eq (k0_chk216.eq_1 v2753))
theorem k0_off216_inb : ∀ (v2753 : BitVec 32) (k0_hw216 : k0_chk216 v2753), ∀ a, (k0_off216 v2753) a + S1x64.size a ≤ S100000x64.size a := fun v2753 k0_hw216 => k0_hw216

def k0_off217 (v2766 : BitVec 32) : Fin 2 → Nat :=
  let c0_i32_1695 : BitVec 32 := 0#32
  ![v2766.toNat, 0]

def k0_chk217 (v2766 : BitVec 32) : Prop :=
  (∀ a, (k0_off217 v2766) a + S1x64.size a ≤ S100000x64.size a)
instance k0_chk217.dec : ∀ (v2766 : BitVec 32), Decidable (k0_chk217 v2766) := fun v2766 => decidable_of_iff' _ (Iff.of_eq (k0_chk217.eq_1 v2766))
theorem k0_off217_inb : ∀ (v2766 : BitVec 32) (k0_hw217 : k0_chk217 v2766), ∀ a, (k0_off217 v2766) a + S1x64.size a ≤ S100000x64.size a := fun v2766 k0_hw217 => k0_hw217

def k0_off218 (v2779 : BitVec 32) : Fin 2 → Nat :=
  let c0_i32_1703 : BitVec 32 := 0#32
  ![v2779.toNat, 0]

def k0_chk218 (v2779 : BitVec 32) : Prop :=
  (∀ a, (k0_off218 v2779) a + S1x64.size a ≤ S100000x64.size a)
instance k0_chk218.dec : ∀ (v2779 : BitVec 32), Decidable (k0_chk218 v2779) := fun v2779 => decidable_of_iff' _ (Iff.of_eq (k0_chk218.eq_1 v2779))
theorem k0_off218_inb : ∀ (v2779 : BitVec 32) (k0_hw218 : k0_chk218 v2779), ∀ a, (k0_off218 v2779) a + S1x64.size a ≤ S100000x64.size a := fun v2779 k0_hw218 => k0_hw218

def k0_off219 (v2792 : BitVec 32) : Fin 2 → Nat :=
  let c0_i32_1711 : BitVec 32 := 0#32
  ![v2792.toNat, 0]

def k0_chk219 (v2792 : BitVec 32) : Prop :=
  (∀ a, (k0_off219 v2792) a + S1x64.size a ≤ S100000x64.size a)
instance k0_chk219.dec : ∀ (v2792 : BitVec 32), Decidable (k0_chk219 v2792) := fun v2792 => decidable_of_iff' _ (Iff.of_eq (k0_chk219.eq_1 v2792))
theorem k0_off219_inb : ∀ (v2792 : BitVec 32) (k0_hw219 : k0_chk219 v2792), ∀ a, (k0_off219 v2792) a + S1x64.size a ≤ S100000x64.size a := fun v2792 k0_hw219 => k0_hw219

def k0_off220 (v2805 : BitVec 32) : Fin 2 → Nat :=
  let c0_i32_1719 : BitVec 32 := 0#32
  ![v2805.toNat, 0]

def k0_chk220 (v2805 : BitVec 32) : Prop :=
  (∀ a, (k0_off220 v2805) a + S1x64.size a ≤ S100000x64.size a)
instance k0_chk220.dec : ∀ (v2805 : BitVec 32), Decidable (k0_chk220 v2805) := fun v2805 => decidable_of_iff' _ (Iff.of_eq (k0_chk220.eq_1 v2805))
theorem k0_off220_inb : ∀ (v2805 : BitVec 32) (k0_hw220 : k0_chk220 v2805), ∀ a, (k0_off220 v2805) a + S1x64.size a ≤ S100000x64.size a := fun v2805 k0_hw220 => k0_hw220

def k0_off221 (v2818 : BitVec 32) : Fin 2 → Nat :=
  let c0_i32_1727 : BitVec 32 := 0#32
  ![v2818.toNat, 0]

def k0_chk221 (v2818 : BitVec 32) : Prop :=
  (∀ a, (k0_off221 v2818) a + S1x64.size a ≤ S100000x64.size a)
instance k0_chk221.dec : ∀ (v2818 : BitVec 32), Decidable (k0_chk221 v2818) := fun v2818 => decidable_of_iff' _ (Iff.of_eq (k0_chk221.eq_1 v2818))
theorem k0_off221_inb : ∀ (v2818 : BitVec 32) (k0_hw221 : k0_chk221 v2818), ∀ a, (k0_off221 v2818) a + S1x64.size a ≤ S100000x64.size a := fun v2818 k0_hw221 => k0_hw221

def k0_off222 (v2831 : BitVec 32) : Fin 2 → Nat :=
  let c0_i32_1735 : BitVec 32 := 0#32
  ![v2831.toNat, 0]

def k0_chk222 (v2831 : BitVec 32) : Prop :=
  (∀ a, (k0_off222 v2831) a + S1x64.size a ≤ S100000x64.size a)
instance k0_chk222.dec : ∀ (v2831 : BitVec 32), Decidable (k0_chk222 v2831) := fun v2831 => decidable_of_iff' _ (Iff.of_eq (k0_chk222.eq_1 v2831))
theorem k0_off222_inb : ∀ (v2831 : BitVec 32) (k0_hw222 : k0_chk222 v2831), ∀ a, (k0_off222 v2831) a + S1x64.size a ≤ S100000x64.size a := fun v2831 k0_hw222 => k0_hw222

def k0_off223 (v2844 : BitVec 32) : Fin 2 → Nat :=
  let c0_i32_1743 : BitVec 32 := 0#32
  ![v2844.toNat, 0]

def k0_chk223 (v2844 : BitVec 32) : Prop :=
  (∀ a, (k0_off223 v2844) a + S1x64.size a ≤ S100000x64.size a)
instance k0_chk223.dec : ∀ (v2844 : BitVec 32), Decidable (k0_chk223 v2844) := fun v2844 => decidable_of_iff' _ (Iff.of_eq (k0_chk223.eq_1 v2844))
theorem k0_off223_inb : ∀ (v2844 : BitVec 32) (k0_hw223 : k0_chk223 v2844), ∀ a, (k0_off223 v2844) a + S1x64.size a ≤ S100000x64.size a := fun v2844 k0_hw223 => k0_hw223

def k0_off224 (v2857 : BitVec 32) : Fin 2 → Nat :=
  let c0_i32_1751 : BitVec 32 := 0#32
  ![v2857.toNat, 0]

def k0_chk224 (v2857 : BitVec 32) : Prop :=
  (∀ a, (k0_off224 v2857) a + S1x64.size a ≤ S100000x64.size a)
instance k0_chk224.dec : ∀ (v2857 : BitVec 32), Decidable (k0_chk224 v2857) := fun v2857 => decidable_of_iff' _ (Iff.of_eq (k0_chk224.eq_1 v2857))
theorem k0_off224_inb : ∀ (v2857 : BitVec 32) (k0_hw224 : k0_chk224 v2857), ∀ a, (k0_off224 v2857) a + S1x64.size a ≤ S100000x64.size a := fun v2857 k0_hw224 => k0_hw224

def k0_off225 (v2870 : BitVec 32) : Fin 2 → Nat :=
  let c0_i32_1759 : BitVec 32 := 0#32
  ![v2870.toNat, 0]

def k0_chk225 (v2870 : BitVec 32) : Prop :=
  (∀ a, (k0_off225 v2870) a + S1x64.size a ≤ S100000x64.size a)
instance k0_chk225.dec : ∀ (v2870 : BitVec 32), Decidable (k0_chk225 v2870) := fun v2870 => decidable_of_iff' _ (Iff.of_eq (k0_chk225.eq_1 v2870))
theorem k0_off225_inb : ∀ (v2870 : BitVec 32) (k0_hw225 : k0_chk225 v2870), ∀ a, (k0_off225 v2870) a + S1x64.size a ≤ S100000x64.size a := fun v2870 k0_hw225 => k0_hw225

def k0_off226 (v2883 : BitVec 32) : Fin 2 → Nat :=
  let c0_i32_1767 : BitVec 32 := 0#32
  ![v2883.toNat, 0]

def k0_chk226 (v2883 : BitVec 32) : Prop :=
  (∀ a, (k0_off226 v2883) a + S1x64.size a ≤ S100000x64.size a)
instance k0_chk226.dec : ∀ (v2883 : BitVec 32), Decidable (k0_chk226 v2883) := fun v2883 => decidable_of_iff' _ (Iff.of_eq (k0_chk226.eq_1 v2883))
theorem k0_off226_inb : ∀ (v2883 : BitVec 32) (k0_hw226 : k0_chk226 v2883), ∀ a, (k0_off226 v2883) a + S1x64.size a ≤ S100000x64.size a := fun v2883 k0_hw226 => k0_hw226

def k0_off227 (v2896 : BitVec 32) : Fin 2 → Nat :=
  let c0_i32_1775 : BitVec 32 := 0#32
  ![v2896.toNat, 0]

def k0_chk227 (v2896 : BitVec 32) : Prop :=
  (∀ a, (k0_off227 v2896) a + S1x64.size a ≤ S100000x64.size a)
instance k0_chk227.dec : ∀ (v2896 : BitVec 32), Decidable (k0_chk227 v2896) := fun v2896 => decidable_of_iff' _ (Iff.of_eq (k0_chk227.eq_1 v2896))
theorem k0_off227_inb : ∀ (v2896 : BitVec 32) (k0_hw227 : k0_chk227 v2896), ∀ a, (k0_off227 v2896) a + S1x64.size a ≤ S100000x64.size a := fun v2896 k0_hw227 => k0_hw227

def k0_off228 (v2909 : BitVec 32) : Fin 2 → Nat :=
  let c0_i32_1783 : BitVec 32 := 0#32
  ![v2909.toNat, 0]

def k0_chk228 (v2909 : BitVec 32) : Prop :=
  (∀ a, (k0_off228 v2909) a + S1x64.size a ≤ S100000x64.size a)
instance k0_chk228.dec : ∀ (v2909 : BitVec 32), Decidable (k0_chk228 v2909) := fun v2909 => decidable_of_iff' _ (Iff.of_eq (k0_chk228.eq_1 v2909))
theorem k0_off228_inb : ∀ (v2909 : BitVec 32) (k0_hw228 : k0_chk228 v2909), ∀ a, (k0_off228 v2909) a + S1x64.size a ≤ S100000x64.size a := fun v2909 k0_hw228 => k0_hw228

def k0_off229 (v2922 : BitVec 32) : Fin 2 → Nat :=
  let c0_i32_1791 : BitVec 32 := 0#32
  ![v2922.toNat, 0]

def k0_chk229 (v2922 : BitVec 32) : Prop :=
  (∀ a, (k0_off229 v2922) a + S1x64.size a ≤ S100000x64.size a)
instance k0_chk229.dec : ∀ (v2922 : BitVec 32), Decidable (k0_chk229 v2922) := fun v2922 => decidable_of_iff' _ (Iff.of_eq (k0_chk229.eq_1 v2922))
theorem k0_off229_inb : ∀ (v2922 : BitVec 32) (k0_hw229 : k0_chk229 v2922), ∀ a, (k0_off229 v2922) a + S1x64.size a ≤ S100000x64.size a := fun v2922 k0_hw229 => k0_hw229

def k0_off230 (v2935 : BitVec 32) : Fin 2 → Nat :=
  let c0_i32_1799 : BitVec 32 := 0#32
  ![v2935.toNat, 0]

def k0_chk230 (v2935 : BitVec 32) : Prop :=
  (∀ a, (k0_off230 v2935) a + S1x64.size a ≤ S100000x64.size a)
instance k0_chk230.dec : ∀ (v2935 : BitVec 32), Decidable (k0_chk230 v2935) := fun v2935 => decidable_of_iff' _ (Iff.of_eq (k0_chk230.eq_1 v2935))
theorem k0_off230_inb : ∀ (v2935 : BitVec 32) (k0_hw230 : k0_chk230 v2935), ∀ a, (k0_off230 v2935) a + S1x64.size a ≤ S100000x64.size a := fun v2935 k0_hw230 => k0_hw230

def k0_off231 (v2948 : BitVec 32) : Fin 2 → Nat :=
  let c0_i32_1807 : BitVec 32 := 0#32
  ![v2948.toNat, 0]

def k0_chk231 (v2948 : BitVec 32) : Prop :=
  (∀ a, (k0_off231 v2948) a + S1x64.size a ≤ S100000x64.size a)
instance k0_chk231.dec : ∀ (v2948 : BitVec 32), Decidable (k0_chk231 v2948) := fun v2948 => decidable_of_iff' _ (Iff.of_eq (k0_chk231.eq_1 v2948))
theorem k0_off231_inb : ∀ (v2948 : BitVec 32) (k0_hw231 : k0_chk231 v2948), ∀ a, (k0_off231 v2948) a + S1x64.size a ≤ S100000x64.size a := fun v2948 k0_hw231 => k0_hw231

def k0_off232 (v2961 : BitVec 32) : Fin 2 → Nat :=
  let c0_i32_1815 : BitVec 32 := 0#32
  ![v2961.toNat, 0]

def k0_chk232 (v2961 : BitVec 32) : Prop :=
  (∀ a, (k0_off232 v2961) a + S1x64.size a ≤ S100000x64.size a)
instance k0_chk232.dec : ∀ (v2961 : BitVec 32), Decidable (k0_chk232 v2961) := fun v2961 => decidable_of_iff' _ (Iff.of_eq (k0_chk232.eq_1 v2961))
theorem k0_off232_inb : ∀ (v2961 : BitVec 32) (k0_hw232 : k0_chk232 v2961), ∀ a, (k0_off232 v2961) a + S1x64.size a ≤ S100000x64.size a := fun v2961 k0_hw232 => k0_hw232

def k0_off233 (v2974 : BitVec 32) : Fin 2 → Nat :=
  let c0_i32_1823 : BitVec 32 := 0#32
  ![v2974.toNat, 0]

def k0_chk233 (v2974 : BitVec 32) : Prop :=
  (∀ a, (k0_off233 v2974) a + S1x64.size a ≤ S100000x64.size a)
instance k0_chk233.dec : ∀ (v2974 : BitVec 32), Decidable (k0_chk233 v2974) := fun v2974 => decidable_of_iff' _ (Iff.of_eq (k0_chk233.eq_1 v2974))
theorem k0_off233_inb : ∀ (v2974 : BitVec 32) (k0_hw233 : k0_chk233 v2974), ∀ a, (k0_off233 v2974) a + S1x64.size a ≤ S100000x64.size a := fun v2974 k0_hw233 => k0_hw233

def k0_off234 (v2987 : BitVec 32) : Fin 2 → Nat :=
  let c0_i32_1831 : BitVec 32 := 0#32
  ![v2987.toNat, 0]

def k0_chk234 (v2987 : BitVec 32) : Prop :=
  (∀ a, (k0_off234 v2987) a + S1x64.size a ≤ S100000x64.size a)
instance k0_chk234.dec : ∀ (v2987 : BitVec 32), Decidable (k0_chk234 v2987) := fun v2987 => decidable_of_iff' _ (Iff.of_eq (k0_chk234.eq_1 v2987))
theorem k0_off234_inb : ∀ (v2987 : BitVec 32) (k0_hw234 : k0_chk234 v2987), ∀ a, (k0_off234 v2987) a + S1x64.size a ≤ S100000x64.size a := fun v2987 k0_hw234 => k0_hw234

def k0_off235 (v3000 : BitVec 32) : Fin 2 → Nat :=
  let c0_i32_1839 : BitVec 32 := 0#32
  ![v3000.toNat, 0]

def k0_chk235 (v3000 : BitVec 32) : Prop :=
  (∀ a, (k0_off235 v3000) a + S1x64.size a ≤ S100000x64.size a)
instance k0_chk235.dec : ∀ (v3000 : BitVec 32), Decidable (k0_chk235 v3000) := fun v3000 => decidable_of_iff' _ (Iff.of_eq (k0_chk235.eq_1 v3000))
theorem k0_off235_inb : ∀ (v3000 : BitVec 32) (k0_hw235 : k0_chk235 v3000), ∀ a, (k0_off235 v3000) a + S1x64.size a ≤ S100000x64.size a := fun v3000 k0_hw235 => k0_hw235

def k0_off236 (v3013 : BitVec 32) : Fin 2 → Nat :=
  let c0_i32_1847 : BitVec 32 := 0#32
  ![v3013.toNat, 0]

def k0_chk236 (v3013 : BitVec 32) : Prop :=
  (∀ a, (k0_off236 v3013) a + S1x64.size a ≤ S100000x64.size a)
instance k0_chk236.dec : ∀ (v3013 : BitVec 32), Decidable (k0_chk236 v3013) := fun v3013 => decidable_of_iff' _ (Iff.of_eq (k0_chk236.eq_1 v3013))
theorem k0_off236_inb : ∀ (v3013 : BitVec 32) (k0_hw236 : k0_chk236 v3013), ∀ a, (k0_off236 v3013) a + S1x64.size a ≤ S100000x64.size a := fun v3013 k0_hw236 => k0_hw236

def k0_off237 (v3026 : BitVec 32) : Fin 2 → Nat :=
  let c0_i32_1855 : BitVec 32 := 0#32
  ![v3026.toNat, 0]

def k0_chk237 (v3026 : BitVec 32) : Prop :=
  (∀ a, (k0_off237 v3026) a + S1x64.size a ≤ S100000x64.size a)
instance k0_chk237.dec : ∀ (v3026 : BitVec 32), Decidable (k0_chk237 v3026) := fun v3026 => decidable_of_iff' _ (Iff.of_eq (k0_chk237.eq_1 v3026))
theorem k0_off237_inb : ∀ (v3026 : BitVec 32) (k0_hw237 : k0_chk237 v3026), ∀ a, (k0_off237 v3026) a + S1x64.size a ≤ S100000x64.size a := fun v3026 k0_hw237 => k0_hw237

def k0_off238 (v3039 : BitVec 32) : Fin 2 → Nat :=
  let c0_i32_1863 : BitVec 32 := 0#32
  ![v3039.toNat, 0]

def k0_chk238 (v3039 : BitVec 32) : Prop :=
  (∀ a, (k0_off238 v3039) a + S1x64.size a ≤ S100000x64.size a)
instance k0_chk238.dec : ∀ (v3039 : BitVec 32), Decidable (k0_chk238 v3039) := fun v3039 => decidable_of_iff' _ (Iff.of_eq (k0_chk238.eq_1 v3039))
theorem k0_off238_inb : ∀ (v3039 : BitVec 32) (k0_hw238 : k0_chk238 v3039), ∀ a, (k0_off238 v3039) a + S1x64.size a ≤ S100000x64.size a := fun v3039 k0_hw238 => k0_hw238

def k0_off239 (v3052 : BitVec 32) : Fin 2 → Nat :=
  let c0_i32_1871 : BitVec 32 := 0#32
  ![v3052.toNat, 0]

def k0_chk239 (v3052 : BitVec 32) : Prop :=
  (∀ a, (k0_off239 v3052) a + S1x64.size a ≤ S100000x64.size a)
instance k0_chk239.dec : ∀ (v3052 : BitVec 32), Decidable (k0_chk239 v3052) := fun v3052 => decidable_of_iff' _ (Iff.of_eq (k0_chk239.eq_1 v3052))
theorem k0_off239_inb : ∀ (v3052 : BitVec 32) (k0_hw239 : k0_chk239 v3052), ∀ a, (k0_off239 v3052) a + S1x64.size a ≤ S100000x64.size a := fun v3052 k0_hw239 => k0_hw239

def k0_off240 (v3065 : BitVec 32) : Fin 2 → Nat :=
  let c0_i32_1879 : BitVec 32 := 0#32
  ![v3065.toNat, 0]

def k0_chk240 (v3065 : BitVec 32) : Prop :=
  (∀ a, (k0_off240 v3065) a + S1x64.size a ≤ S100000x64.size a)
instance k0_chk240.dec : ∀ (v3065 : BitVec 32), Decidable (k0_chk240 v3065) := fun v3065 => decidable_of_iff' _ (Iff.of_eq (k0_chk240.eq_1 v3065))
theorem k0_off240_inb : ∀ (v3065 : BitVec 32) (k0_hw240 : k0_chk240 v3065), ∀ a, (k0_off240 v3065) a + S1x64.size a ≤ S100000x64.size a := fun v3065 k0_hw240 => k0_hw240

def k0_off241 (v3078 : BitVec 32) : Fin 2 → Nat :=
  let c0_i32_1887 : BitVec 32 := 0#32
  ![v3078.toNat, 0]

def k0_chk241 (v3078 : BitVec 32) : Prop :=
  (∀ a, (k0_off241 v3078) a + S1x64.size a ≤ S100000x64.size a)
instance k0_chk241.dec : ∀ (v3078 : BitVec 32), Decidable (k0_chk241 v3078) := fun v3078 => decidable_of_iff' _ (Iff.of_eq (k0_chk241.eq_1 v3078))
theorem k0_off241_inb : ∀ (v3078 : BitVec 32) (k0_hw241 : k0_chk241 v3078), ∀ a, (k0_off241 v3078) a + S1x64.size a ≤ S100000x64.size a := fun v3078 k0_hw241 => k0_hw241

def k0_off242 (v3091 : BitVec 32) : Fin 2 → Nat :=
  let c0_i32_1895 : BitVec 32 := 0#32
  ![v3091.toNat, 0]

def k0_chk242 (v3091 : BitVec 32) : Prop :=
  (∀ a, (k0_off242 v3091) a + S1x64.size a ≤ S100000x64.size a)
instance k0_chk242.dec : ∀ (v3091 : BitVec 32), Decidable (k0_chk242 v3091) := fun v3091 => decidable_of_iff' _ (Iff.of_eq (k0_chk242.eq_1 v3091))
theorem k0_off242_inb : ∀ (v3091 : BitVec 32) (k0_hw242 : k0_chk242 v3091), ∀ a, (k0_off242 v3091) a + S1x64.size a ≤ S100000x64.size a := fun v3091 k0_hw242 => k0_hw242

def k0_off243 (v3104 : BitVec 32) : Fin 2 → Nat :=
  let c0_i32_1903 : BitVec 32 := 0#32
  ![v3104.toNat, 0]

def k0_chk243 (v3104 : BitVec 32) : Prop :=
  (∀ a, (k0_off243 v3104) a + S1x64.size a ≤ S100000x64.size a)
instance k0_chk243.dec : ∀ (v3104 : BitVec 32), Decidable (k0_chk243 v3104) := fun v3104 => decidable_of_iff' _ (Iff.of_eq (k0_chk243.eq_1 v3104))
theorem k0_off243_inb : ∀ (v3104 : BitVec 32) (k0_hw243 : k0_chk243 v3104), ∀ a, (k0_off243 v3104) a + S1x64.size a ≤ S100000x64.size a := fun v3104 k0_hw243 => k0_hw243

def k0_off244 (v3117 : BitVec 32) : Fin 2 → Nat :=
  let c0_i32_1911 : BitVec 32 := 0#32
  ![v3117.toNat, 0]

def k0_chk244 (v3117 : BitVec 32) : Prop :=
  (∀ a, (k0_off244 v3117) a + S1x64.size a ≤ S100000x64.size a)
instance k0_chk244.dec : ∀ (v3117 : BitVec 32), Decidable (k0_chk244 v3117) := fun v3117 => decidable_of_iff' _ (Iff.of_eq (k0_chk244.eq_1 v3117))
theorem k0_off244_inb : ∀ (v3117 : BitVec 32) (k0_hw244 : k0_chk244 v3117), ∀ a, (k0_off244 v3117) a + S1x64.size a ≤ S100000x64.size a := fun v3117 k0_hw244 => k0_hw244

def k0_off245 (v3130 : BitVec 32) : Fin 2 → Nat :=
  let c0_i32_1919 : BitVec 32 := 0#32
  ![v3130.toNat, 0]

def k0_chk245 (v3130 : BitVec 32) : Prop :=
  (∀ a, (k0_off245 v3130) a + S1x64.size a ≤ S100000x64.size a)
instance k0_chk245.dec : ∀ (v3130 : BitVec 32), Decidable (k0_chk245 v3130) := fun v3130 => decidable_of_iff' _ (Iff.of_eq (k0_chk245.eq_1 v3130))
theorem k0_off245_inb : ∀ (v3130 : BitVec 32) (k0_hw245 : k0_chk245 v3130), ∀ a, (k0_off245 v3130) a + S1x64.size a ≤ S100000x64.size a := fun v3130 k0_hw245 => k0_hw245

def k0_off246 (v3143 : BitVec 32) : Fin 2 → Nat :=
  let c0_i32_1927 : BitVec 32 := 0#32
  ![v3143.toNat, 0]

def k0_chk246 (v3143 : BitVec 32) : Prop :=
  (∀ a, (k0_off246 v3143) a + S1x64.size a ≤ S100000x64.size a)
instance k0_chk246.dec : ∀ (v3143 : BitVec 32), Decidable (k0_chk246 v3143) := fun v3143 => decidable_of_iff' _ (Iff.of_eq (k0_chk246.eq_1 v3143))
theorem k0_off246_inb : ∀ (v3143 : BitVec 32) (k0_hw246 : k0_chk246 v3143), ∀ a, (k0_off246 v3143) a + S1x64.size a ≤ S100000x64.size a := fun v3143 k0_hw246 => k0_hw246

def k0_off247 (v3156 : BitVec 32) : Fin 2 → Nat :=
  let c0_i32_1935 : BitVec 32 := 0#32
  ![v3156.toNat, 0]

def k0_chk247 (v3156 : BitVec 32) : Prop :=
  (∀ a, (k0_off247 v3156) a + S1x64.size a ≤ S100000x64.size a)
instance k0_chk247.dec : ∀ (v3156 : BitVec 32), Decidable (k0_chk247 v3156) := fun v3156 => decidable_of_iff' _ (Iff.of_eq (k0_chk247.eq_1 v3156))
theorem k0_off247_inb : ∀ (v3156 : BitVec 32) (k0_hw247 : k0_chk247 v3156), ∀ a, (k0_off247 v3156) a + S1x64.size a ≤ S100000x64.size a := fun v3156 k0_hw247 => k0_hw247

def k0_off248 (v3169 : BitVec 32) : Fin 2 → Nat :=
  let c0_i32_1943 : BitVec 32 := 0#32
  ![v3169.toNat, 0]

def k0_chk248 (v3169 : BitVec 32) : Prop :=
  (∀ a, (k0_off248 v3169) a + S1x64.size a ≤ S100000x64.size a)
instance k0_chk248.dec : ∀ (v3169 : BitVec 32), Decidable (k0_chk248 v3169) := fun v3169 => decidable_of_iff' _ (Iff.of_eq (k0_chk248.eq_1 v3169))
theorem k0_off248_inb : ∀ (v3169 : BitVec 32) (k0_hw248 : k0_chk248 v3169), ∀ a, (k0_off248 v3169) a + S1x64.size a ≤ S100000x64.size a := fun v3169 k0_hw248 => k0_hw248

def k0_off249 (v3182 : BitVec 32) : Fin 2 → Nat :=
  let c0_i32_1951 : BitVec 32 := 0#32
  ![v3182.toNat, 0]

def k0_chk249 (v3182 : BitVec 32) : Prop :=
  (∀ a, (k0_off249 v3182) a + S1x64.size a ≤ S100000x64.size a)
instance k0_chk249.dec : ∀ (v3182 : BitVec 32), Decidable (k0_chk249 v3182) := fun v3182 => decidable_of_iff' _ (Iff.of_eq (k0_chk249.eq_1 v3182))
theorem k0_off249_inb : ∀ (v3182 : BitVec 32) (k0_hw249 : k0_chk249 v3182), ∀ a, (k0_off249 v3182) a + S1x64.size a ≤ S100000x64.size a := fun v3182 k0_hw249 => k0_hw249

def k0_off250 (v3195 : BitVec 32) : Fin 2 → Nat :=
  let c0_i32_1959 : BitVec 32 := 0#32
  ![v3195.toNat, 0]

def k0_chk250 (v3195 : BitVec 32) : Prop :=
  (∀ a, (k0_off250 v3195) a + S1x64.size a ≤ S100000x64.size a)
instance k0_chk250.dec : ∀ (v3195 : BitVec 32), Decidable (k0_chk250 v3195) := fun v3195 => decidable_of_iff' _ (Iff.of_eq (k0_chk250.eq_1 v3195))
theorem k0_off250_inb : ∀ (v3195 : BitVec 32) (k0_hw250 : k0_chk250 v3195), ∀ a, (k0_off250 v3195) a + S1x64.size a ≤ S100000x64.size a := fun v3195 k0_hw250 => k0_hw250

def k0_off251 (v3208 : BitVec 32) : Fin 2 → Nat :=
  let c0_i32_1967 : BitVec 32 := 0#32
  ![v3208.toNat, 0]

def k0_chk251 (v3208 : BitVec 32) : Prop :=
  (∀ a, (k0_off251 v3208) a + S1x64.size a ≤ S100000x64.size a)
instance k0_chk251.dec : ∀ (v3208 : BitVec 32), Decidable (k0_chk251 v3208) := fun v3208 => decidable_of_iff' _ (Iff.of_eq (k0_chk251.eq_1 v3208))
theorem k0_off251_inb : ∀ (v3208 : BitVec 32) (k0_hw251 : k0_chk251 v3208), ∀ a, (k0_off251 v3208) a + S1x64.size a ≤ S100000x64.size a := fun v3208 k0_hw251 => k0_hw251

def k0_off252 (v3221 : BitVec 32) : Fin 2 → Nat :=
  let c0_i32_1975 : BitVec 32 := 0#32
  ![v3221.toNat, 0]

def k0_chk252 (v3221 : BitVec 32) : Prop :=
  (∀ a, (k0_off252 v3221) a + S1x64.size a ≤ S100000x64.size a)
instance k0_chk252.dec : ∀ (v3221 : BitVec 32), Decidable (k0_chk252 v3221) := fun v3221 => decidable_of_iff' _ (Iff.of_eq (k0_chk252.eq_1 v3221))
theorem k0_off252_inb : ∀ (v3221 : BitVec 32) (k0_hw252 : k0_chk252 v3221), ∀ a, (k0_off252 v3221) a + S1x64.size a ≤ S100000x64.size a := fun v3221 k0_hw252 => k0_hw252

def k0_off253 (v3234 : BitVec 32) : Fin 2 → Nat :=
  let c0_i32_1983 : BitVec 32 := 0#32
  ![v3234.toNat, 0]

def k0_chk253 (v3234 : BitVec 32) : Prop :=
  (∀ a, (k0_off253 v3234) a + S1x64.size a ≤ S100000x64.size a)
instance k0_chk253.dec : ∀ (v3234 : BitVec 32), Decidable (k0_chk253 v3234) := fun v3234 => decidable_of_iff' _ (Iff.of_eq (k0_chk253.eq_1 v3234))
theorem k0_off253_inb : ∀ (v3234 : BitVec 32) (k0_hw253 : k0_chk253 v3234), ∀ a, (k0_off253 v3234) a + S1x64.size a ≤ S100000x64.size a := fun v3234 k0_hw253 => k0_hw253

def k0_off254 (v3247 : BitVec 32) : Fin 2 → Nat :=
  let c0_i32_1991 : BitVec 32 := 0#32
  ![v3247.toNat, 0]

def k0_chk254 (v3247 : BitVec 32) : Prop :=
  (∀ a, (k0_off254 v3247) a + S1x64.size a ≤ S100000x64.size a)
instance k0_chk254.dec : ∀ (v3247 : BitVec 32), Decidable (k0_chk254 v3247) := fun v3247 => decidable_of_iff' _ (Iff.of_eq (k0_chk254.eq_1 v3247))
theorem k0_off254_inb : ∀ (v3247 : BitVec 32) (k0_hw254 : k0_chk254 v3247), ∀ a, (k0_off254 v3247) a + S1x64.size a ≤ S100000x64.size a := fun v3247 k0_hw254 => k0_hw254

def k0_off255 (v3260 : BitVec 32) : Fin 2 → Nat :=
  let c0_i32_1999 : BitVec 32 := 0#32
  ![v3260.toNat, 0]

def k0_chk255 (v3260 : BitVec 32) : Prop :=
  (∀ a, (k0_off255 v3260) a + S1x64.size a ≤ S100000x64.size a)
instance k0_chk255.dec : ∀ (v3260 : BitVec 32), Decidable (k0_chk255 v3260) := fun v3260 => decidable_of_iff' _ (Iff.of_eq (k0_chk255.eq_1 v3260))
theorem k0_off255_inb : ∀ (v3260 : BitVec 32) (k0_hw255 : k0_chk255 v3260), ∀ a, (k0_off255 v3260) a + S1x64.size a ≤ S100000x64.size a := fun v3260 k0_hw255 => k0_hw255

def k0_off256 (v3273 : BitVec 32) : Fin 2 → Nat :=
  let c0_i32_2007 : BitVec 32 := 0#32
  ![v3273.toNat, 0]

def k0_chk256 (v3273 : BitVec 32) : Prop :=
  (∀ a, (k0_off256 v3273) a + S1x64.size a ≤ S100000x64.size a)
instance k0_chk256.dec : ∀ (v3273 : BitVec 32), Decidable (k0_chk256 v3273) := fun v3273 => decidable_of_iff' _ (Iff.of_eq (k0_chk256.eq_1 v3273))
theorem k0_off256_inb : ∀ (v3273 : BitVec 32) (k0_hw256 : k0_chk256 v3273), ∀ a, (k0_off256 v3273) a + S1x64.size a ≤ S100000x64.size a := fun v3273 k0_hw256 => k0_hw256

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![6250], ![false]⟩

def k1_off1 (v0 : BitVec 32) : Fin 2 → Nat :=
  let c0_i32_2 : BitVec 32 := 0#32
  ![v0.toNat, 0]

def k1_chk1 (v0 : BitVec 32) : Prop :=
  (∀ a, (k1_off1 v0) a + S1x64.size a ≤ S100000x64.size a)
instance k1_chk1.dec : ∀ (v0 : BitVec 32), Decidable (k1_chk1 v0) := fun v0 => decidable_of_iff' _ (Iff.of_eq (k1_chk1.eq_1 v0))
theorem k1_off1_inb : ∀ (v0 : BitVec 32) (k1_hw1 : k1_chk1 v0), ∀ a, (k1_off1 v0) a + S1x64.size a ≤ S100000x64.size a := fun v0 k1_hw1 => k1_hw1

def k1_off2 (v7 : BitVec 32) : Fin 2 → Nat :=
  let c0_i32_5 : BitVec 32 := 0#32
  ![v7.toNat, 0]

def k1_chk2 (v7 : BitVec 32) : Prop :=
  (∀ a, (k1_off2 v7) a + S1x64.size a ≤ S100000x64.size a)
instance k1_chk2.dec : ∀ (v7 : BitVec 32), Decidable (k1_chk2 v7) := fun v7 => decidable_of_iff' _ (Iff.of_eq (k1_chk2.eq_1 v7))
theorem k1_off2_inb : ∀ (v7 : BitVec 32) (k1_hw2 : k1_chk2 v7), ∀ a, (k1_off2 v7) a + S1x64.size a ≤ S100000x64.size a := fun v7 k1_hw2 => k1_hw2

def k1_off3 (v14 : BitVec 32) : Fin 2 → Nat :=
  let c0_i32_8 : BitVec 32 := 0#32
  ![v14.toNat, 0]

def k1_chk3 (v14 : BitVec 32) : Prop :=
  (∀ a, (k1_off3 v14) a + S1x64.size a ≤ S100000x64.size a)
instance k1_chk3.dec : ∀ (v14 : BitVec 32), Decidable (k1_chk3 v14) := fun v14 => decidable_of_iff' _ (Iff.of_eq (k1_chk3.eq_1 v14))
theorem k1_off3_inb : ∀ (v14 : BitVec 32) (k1_hw3 : k1_chk3 v14), ∀ a, (k1_off3 v14) a + S1x64.size a ≤ S100000x64.size a := fun v14 k1_hw3 => k1_hw3

def k1_off4 (v21 : BitVec 32) : Fin 2 → Nat :=
  let c0_i32_11 : BitVec 32 := 0#32
  ![v21.toNat, 0]

def k1_chk4 (v21 : BitVec 32) : Prop :=
  (∀ a, (k1_off4 v21) a + S1x64.size a ≤ S100000x64.size a)
instance k1_chk4.dec : ∀ (v21 : BitVec 32), Decidable (k1_chk4 v21) := fun v21 => decidable_of_iff' _ (Iff.of_eq (k1_chk4.eq_1 v21))
theorem k1_off4_inb : ∀ (v21 : BitVec 32) (k1_hw4 : k1_chk4 v21), ∀ a, (k1_off4 v21) a + S1x64.size a ≤ S100000x64.size a := fun v21 k1_hw4 => k1_hw4

def k1_off5 (v28 : BitVec 32) : Fin 2 → Nat :=
  let c0_i32_14 : BitVec 32 := 0#32
  ![v28.toNat, 0]

def k1_chk5 (v28 : BitVec 32) : Prop :=
  (∀ a, (k1_off5 v28) a + S1x64.size a ≤ S100000x64.size a)
instance k1_chk5.dec : ∀ (v28 : BitVec 32), Decidable (k1_chk5 v28) := fun v28 => decidable_of_iff' _ (Iff.of_eq (k1_chk5.eq_1 v28))
theorem k1_off5_inb : ∀ (v28 : BitVec 32) (k1_hw5 : k1_chk5 v28), ∀ a, (k1_off5 v28) a + S1x64.size a ≤ S100000x64.size a := fun v28 k1_hw5 => k1_hw5

def k1_off6 (v35 : BitVec 32) : Fin 2 → Nat :=
  let c0_i32_17 : BitVec 32 := 0#32
  ![v35.toNat, 0]

def k1_chk6 (v35 : BitVec 32) : Prop :=
  (∀ a, (k1_off6 v35) a + S1x64.size a ≤ S100000x64.size a)
instance k1_chk6.dec : ∀ (v35 : BitVec 32), Decidable (k1_chk6 v35) := fun v35 => decidable_of_iff' _ (Iff.of_eq (k1_chk6.eq_1 v35))
theorem k1_off6_inb : ∀ (v35 : BitVec 32) (k1_hw6 : k1_chk6 v35), ∀ a, (k1_off6 v35) a + S1x64.size a ≤ S100000x64.size a := fun v35 k1_hw6 => k1_hw6

def k1_off7 (v42 : BitVec 32) : Fin 2 → Nat :=
  let c0_i32_20 : BitVec 32 := 0#32
  ![v42.toNat, 0]

def k1_chk7 (v42 : BitVec 32) : Prop :=
  (∀ a, (k1_off7 v42) a + S1x64.size a ≤ S100000x64.size a)
instance k1_chk7.dec : ∀ (v42 : BitVec 32), Decidable (k1_chk7 v42) := fun v42 => decidable_of_iff' _ (Iff.of_eq (k1_chk7.eq_1 v42))
theorem k1_off7_inb : ∀ (v42 : BitVec 32) (k1_hw7 : k1_chk7 v42), ∀ a, (k1_off7 v42) a + S1x64.size a ≤ S100000x64.size a := fun v42 k1_hw7 => k1_hw7

def k1_off8 (v49 : BitVec 32) : Fin 2 → Nat :=
  let c0_i32_23 : BitVec 32 := 0#32
  ![v49.toNat, 0]

def k1_chk8 (v49 : BitVec 32) : Prop :=
  (∀ a, (k1_off8 v49) a + S1x64.size a ≤ S100000x64.size a)
instance k1_chk8.dec : ∀ (v49 : BitVec 32), Decidable (k1_chk8 v49) := fun v49 => decidable_of_iff' _ (Iff.of_eq (k1_chk8.eq_1 v49))
theorem k1_off8_inb : ∀ (v49 : BitVec 32) (k1_hw8 : k1_chk8 v49), ∀ a, (k1_off8 v49) a + S1x64.size a ≤ S100000x64.size a := fun v49 k1_hw8 => k1_hw8

def k1_off9 (v62 : BitVec 32) : Fin 2 → Nat :=
  let c0_i32_31 : BitVec 32 := 0#32
  ![v62.toNat, 0]

def k1_chk9 (v62 : BitVec 32) : Prop :=
  (∀ a, (k1_off9 v62) a + S1x64.size a ≤ S100000x64.size a)
instance k1_chk9.dec : ∀ (v62 : BitVec 32), Decidable (k1_chk9 v62) := fun v62 => decidable_of_iff' _ (Iff.of_eq (k1_chk9.eq_1 v62))
theorem k1_off9_inb : ∀ (v62 : BitVec 32) (k1_hw9 : k1_chk9 v62), ∀ a, (k1_off9 v62) a + S1x64.size a ≤ S100000x64.size a := fun v62 k1_hw9 => k1_hw9

def k1_off10 (v75 : BitVec 32) : Fin 2 → Nat :=
  let c0_i32_39 : BitVec 32 := 0#32
  ![v75.toNat, 0]

def k1_chk10 (v75 : BitVec 32) : Prop :=
  (∀ a, (k1_off10 v75) a + S1x64.size a ≤ S100000x64.size a)
instance k1_chk10.dec : ∀ (v75 : BitVec 32), Decidable (k1_chk10 v75) := fun v75 => decidable_of_iff' _ (Iff.of_eq (k1_chk10.eq_1 v75))
theorem k1_off10_inb : ∀ (v75 : BitVec 32) (k1_hw10 : k1_chk10 v75), ∀ a, (k1_off10 v75) a + S1x64.size a ≤ S100000x64.size a := fun v75 k1_hw10 => k1_hw10

def k1_off11 (v88 : BitVec 32) : Fin 2 → Nat :=
  let c0_i32_47 : BitVec 32 := 0#32
  ![v88.toNat, 0]

def k1_chk11 (v88 : BitVec 32) : Prop :=
  (∀ a, (k1_off11 v88) a + S1x64.size a ≤ S100000x64.size a)
instance k1_chk11.dec : ∀ (v88 : BitVec 32), Decidable (k1_chk11 v88) := fun v88 => decidable_of_iff' _ (Iff.of_eq (k1_chk11.eq_1 v88))
theorem k1_off11_inb : ∀ (v88 : BitVec 32) (k1_hw11 : k1_chk11 v88), ∀ a, (k1_off11 v88) a + S1x64.size a ≤ S100000x64.size a := fun v88 k1_hw11 => k1_hw11

def k1_off12 (v101 : BitVec 32) : Fin 2 → Nat :=
  let c0_i32_55 : BitVec 32 := 0#32
  ![v101.toNat, 0]

def k1_chk12 (v101 : BitVec 32) : Prop :=
  (∀ a, (k1_off12 v101) a + S1x64.size a ≤ S100000x64.size a)
instance k1_chk12.dec : ∀ (v101 : BitVec 32), Decidable (k1_chk12 v101) := fun v101 => decidable_of_iff' _ (Iff.of_eq (k1_chk12.eq_1 v101))
theorem k1_off12_inb : ∀ (v101 : BitVec 32) (k1_hw12 : k1_chk12 v101), ∀ a, (k1_off12 v101) a + S1x64.size a ≤ S100000x64.size a := fun v101 k1_hw12 => k1_hw12

def k1_off13 (v114 : BitVec 32) : Fin 2 → Nat :=
  let c0_i32_63 : BitVec 32 := 0#32
  ![v114.toNat, 0]

def k1_chk13 (v114 : BitVec 32) : Prop :=
  (∀ a, (k1_off13 v114) a + S1x64.size a ≤ S100000x64.size a)
instance k1_chk13.dec : ∀ (v114 : BitVec 32), Decidable (k1_chk13 v114) := fun v114 => decidable_of_iff' _ (Iff.of_eq (k1_chk13.eq_1 v114))
theorem k1_off13_inb : ∀ (v114 : BitVec 32) (k1_hw13 : k1_chk13 v114), ∀ a, (k1_off13 v114) a + S1x64.size a ≤ S100000x64.size a := fun v114 k1_hw13 => k1_hw13

def k1_off14 (v127 : BitVec 32) : Fin 2 → Nat :=
  let c0_i32_71 : BitVec 32 := 0#32
  ![v127.toNat, 0]

def k1_chk14 (v127 : BitVec 32) : Prop :=
  (∀ a, (k1_off14 v127) a + S1x64.size a ≤ S100000x64.size a)
instance k1_chk14.dec : ∀ (v127 : BitVec 32), Decidable (k1_chk14 v127) := fun v127 => decidable_of_iff' _ (Iff.of_eq (k1_chk14.eq_1 v127))
theorem k1_off14_inb : ∀ (v127 : BitVec 32) (k1_hw14 : k1_chk14 v127), ∀ a, (k1_off14 v127) a + S1x64.size a ≤ S100000x64.size a := fun v127 k1_hw14 => k1_hw14

def k1_off15 (v140 : BitVec 32) : Fin 2 → Nat :=
  let c0_i32_79 : BitVec 32 := 0#32
  ![v140.toNat, 0]

def k1_chk15 (v140 : BitVec 32) : Prop :=
  (∀ a, (k1_off15 v140) a + S1x64.size a ≤ S100000x64.size a)
instance k1_chk15.dec : ∀ (v140 : BitVec 32), Decidable (k1_chk15 v140) := fun v140 => decidable_of_iff' _ (Iff.of_eq (k1_chk15.eq_1 v140))
theorem k1_off15_inb : ∀ (v140 : BitVec 32) (k1_hw15 : k1_chk15 v140), ∀ a, (k1_off15 v140) a + S1x64.size a ≤ S100000x64.size a := fun v140 k1_hw15 => k1_hw15

def k1_off16 (v153 : BitVec 32) : Fin 2 → Nat :=
  let c0_i32_87 : BitVec 32 := 0#32
  ![v153.toNat, 0]

def k1_chk16 (v153 : BitVec 32) : Prop :=
  (∀ a, (k1_off16 v153) a + S1x64.size a ≤ S100000x64.size a)
instance k1_chk16.dec : ∀ (v153 : BitVec 32), Decidable (k1_chk16 v153) := fun v153 => decidable_of_iff' _ (Iff.of_eq (k1_chk16.eq_1 v153))
theorem k1_off16_inb : ∀ (v153 : BitVec 32) (k1_hw16 : k1_chk16 v153), ∀ a, (k1_off16 v153) a + S1x64.size a ≤ S100000x64.size a := fun v153 k1_hw16 => k1_hw16

def k1_off17 (v166 : BitVec 32) : Fin 2 → Nat :=
  let c0_i32_95 : BitVec 32 := 0#32
  ![v166.toNat, 0]

def k1_chk17 (v166 : BitVec 32) : Prop :=
  (∀ a, (k1_off17 v166) a + S1x64.size a ≤ S100000x64.size a)
instance k1_chk17.dec : ∀ (v166 : BitVec 32), Decidable (k1_chk17 v166) := fun v166 => decidable_of_iff' _ (Iff.of_eq (k1_chk17.eq_1 v166))
theorem k1_off17_inb : ∀ (v166 : BitVec 32) (k1_hw17 : k1_chk17 v166), ∀ a, (k1_off17 v166) a + S1x64.size a ≤ S100000x64.size a := fun v166 k1_hw17 => k1_hw17

def k1_off18 (v179 : BitVec 32) : Fin 2 → Nat :=
  let c0_i32_103 : BitVec 32 := 0#32
  ![v179.toNat, 0]

def k1_chk18 (v179 : BitVec 32) : Prop :=
  (∀ a, (k1_off18 v179) a + S1x64.size a ≤ S100000x64.size a)
instance k1_chk18.dec : ∀ (v179 : BitVec 32), Decidable (k1_chk18 v179) := fun v179 => decidable_of_iff' _ (Iff.of_eq (k1_chk18.eq_1 v179))
theorem k1_off18_inb : ∀ (v179 : BitVec 32) (k1_hw18 : k1_chk18 v179), ∀ a, (k1_off18 v179) a + S1x64.size a ≤ S100000x64.size a := fun v179 k1_hw18 => k1_hw18

def k1_off19 (v192 : BitVec 32) : Fin 2 → Nat :=
  let c0_i32_111 : BitVec 32 := 0#32
  ![v192.toNat, 0]

def k1_chk19 (v192 : BitVec 32) : Prop :=
  (∀ a, (k1_off19 v192) a + S1x64.size a ≤ S100000x64.size a)
instance k1_chk19.dec : ∀ (v192 : BitVec 32), Decidable (k1_chk19 v192) := fun v192 => decidable_of_iff' _ (Iff.of_eq (k1_chk19.eq_1 v192))
theorem k1_off19_inb : ∀ (v192 : BitVec 32) (k1_hw19 : k1_chk19 v192), ∀ a, (k1_off19 v192) a + S1x64.size a ≤ S100000x64.size a := fun v192 k1_hw19 => k1_hw19

def k1_off20 (v205 : BitVec 32) : Fin 2 → Nat :=
  let c0_i32_119 : BitVec 32 := 0#32
  ![v205.toNat, 0]

def k1_chk20 (v205 : BitVec 32) : Prop :=
  (∀ a, (k1_off20 v205) a + S1x64.size a ≤ S100000x64.size a)
instance k1_chk20.dec : ∀ (v205 : BitVec 32), Decidable (k1_chk20 v205) := fun v205 => decidable_of_iff' _ (Iff.of_eq (k1_chk20.eq_1 v205))
theorem k1_off20_inb : ∀ (v205 : BitVec 32) (k1_hw20 : k1_chk20 v205), ∀ a, (k1_off20 v205) a + S1x64.size a ≤ S100000x64.size a := fun v205 k1_hw20 => k1_hw20

def k1_off21 (v218 : BitVec 32) : Fin 2 → Nat :=
  let c0_i32_127 : BitVec 32 := 0#32
  ![v218.toNat, 0]

def k1_chk21 (v218 : BitVec 32) : Prop :=
  (∀ a, (k1_off21 v218) a + S1x64.size a ≤ S100000x64.size a)
instance k1_chk21.dec : ∀ (v218 : BitVec 32), Decidable (k1_chk21 v218) := fun v218 => decidable_of_iff' _ (Iff.of_eq (k1_chk21.eq_1 v218))
theorem k1_off21_inb : ∀ (v218 : BitVec 32) (k1_hw21 : k1_chk21 v218), ∀ a, (k1_off21 v218) a + S1x64.size a ≤ S100000x64.size a := fun v218 k1_hw21 => k1_hw21

def k1_off22 (v231 : BitVec 32) : Fin 2 → Nat :=
  let c0_i32_135 : BitVec 32 := 0#32
  ![v231.toNat, 0]

def k1_chk22 (v231 : BitVec 32) : Prop :=
  (∀ a, (k1_off22 v231) a + S1x64.size a ≤ S100000x64.size a)
instance k1_chk22.dec : ∀ (v231 : BitVec 32), Decidable (k1_chk22 v231) := fun v231 => decidable_of_iff' _ (Iff.of_eq (k1_chk22.eq_1 v231))
theorem k1_off22_inb : ∀ (v231 : BitVec 32) (k1_hw22 : k1_chk22 v231), ∀ a, (k1_off22 v231) a + S1x64.size a ≤ S100000x64.size a := fun v231 k1_hw22 => k1_hw22

def k1_off23 (v244 : BitVec 32) : Fin 2 → Nat :=
  let c0_i32_143 : BitVec 32 := 0#32
  ![v244.toNat, 0]

def k1_chk23 (v244 : BitVec 32) : Prop :=
  (∀ a, (k1_off23 v244) a + S1x64.size a ≤ S100000x64.size a)
instance k1_chk23.dec : ∀ (v244 : BitVec 32), Decidable (k1_chk23 v244) := fun v244 => decidable_of_iff' _ (Iff.of_eq (k1_chk23.eq_1 v244))
theorem k1_off23_inb : ∀ (v244 : BitVec 32) (k1_hw23 : k1_chk23 v244), ∀ a, (k1_off23 v244) a + S1x64.size a ≤ S100000x64.size a := fun v244 k1_hw23 => k1_hw23

def k1_off24 (v257 : BitVec 32) : Fin 2 → Nat :=
  let c0_i32_151 : BitVec 32 := 0#32
  ![v257.toNat, 0]

def k1_chk24 (v257 : BitVec 32) : Prop :=
  (∀ a, (k1_off24 v257) a + S1x64.size a ≤ S100000x64.size a)
instance k1_chk24.dec : ∀ (v257 : BitVec 32), Decidable (k1_chk24 v257) := fun v257 => decidable_of_iff' _ (Iff.of_eq (k1_chk24.eq_1 v257))
theorem k1_off24_inb : ∀ (v257 : BitVec 32) (k1_hw24 : k1_chk24 v257), ∀ a, (k1_off24 v257) a + S1x64.size a ≤ S100000x64.size a := fun v257 k1_hw24 => k1_hw24

def k1_off25 (v270 : BitVec 32) : Fin 2 → Nat :=
  let c0_i32_159 : BitVec 32 := 0#32
  ![v270.toNat, 0]

def k1_chk25 (v270 : BitVec 32) : Prop :=
  (∀ a, (k1_off25 v270) a + S1x64.size a ≤ S100000x64.size a)
instance k1_chk25.dec : ∀ (v270 : BitVec 32), Decidable (k1_chk25 v270) := fun v270 => decidable_of_iff' _ (Iff.of_eq (k1_chk25.eq_1 v270))
theorem k1_off25_inb : ∀ (v270 : BitVec 32) (k1_hw25 : k1_chk25 v270), ∀ a, (k1_off25 v270) a + S1x64.size a ≤ S100000x64.size a := fun v270 k1_hw25 => k1_hw25

def k1_off26 (v283 : BitVec 32) : Fin 2 → Nat :=
  let c0_i32_167 : BitVec 32 := 0#32
  ![v283.toNat, 0]

def k1_chk26 (v283 : BitVec 32) : Prop :=
  (∀ a, (k1_off26 v283) a + S1x64.size a ≤ S100000x64.size a)
instance k1_chk26.dec : ∀ (v283 : BitVec 32), Decidable (k1_chk26 v283) := fun v283 => decidable_of_iff' _ (Iff.of_eq (k1_chk26.eq_1 v283))
theorem k1_off26_inb : ∀ (v283 : BitVec 32) (k1_hw26 : k1_chk26 v283), ∀ a, (k1_off26 v283) a + S1x64.size a ≤ S100000x64.size a := fun v283 k1_hw26 => k1_hw26

def k1_off27 (v296 : BitVec 32) : Fin 2 → Nat :=
  let c0_i32_175 : BitVec 32 := 0#32
  ![v296.toNat, 0]

def k1_chk27 (v296 : BitVec 32) : Prop :=
  (∀ a, (k1_off27 v296) a + S1x64.size a ≤ S100000x64.size a)
instance k1_chk27.dec : ∀ (v296 : BitVec 32), Decidable (k1_chk27 v296) := fun v296 => decidable_of_iff' _ (Iff.of_eq (k1_chk27.eq_1 v296))
theorem k1_off27_inb : ∀ (v296 : BitVec 32) (k1_hw27 : k1_chk27 v296), ∀ a, (k1_off27 v296) a + S1x64.size a ≤ S100000x64.size a := fun v296 k1_hw27 => k1_hw27

def k1_off28 (v309 : BitVec 32) : Fin 2 → Nat :=
  let c0_i32_183 : BitVec 32 := 0#32
  ![v309.toNat, 0]

def k1_chk28 (v309 : BitVec 32) : Prop :=
  (∀ a, (k1_off28 v309) a + S1x64.size a ≤ S100000x64.size a)
instance k1_chk28.dec : ∀ (v309 : BitVec 32), Decidable (k1_chk28 v309) := fun v309 => decidable_of_iff' _ (Iff.of_eq (k1_chk28.eq_1 v309))
theorem k1_off28_inb : ∀ (v309 : BitVec 32) (k1_hw28 : k1_chk28 v309), ∀ a, (k1_off28 v309) a + S1x64.size a ≤ S100000x64.size a := fun v309 k1_hw28 => k1_hw28

def k1_off29 (v322 : BitVec 32) : Fin 2 → Nat :=
  let c0_i32_191 : BitVec 32 := 0#32
  ![v322.toNat, 0]

def k1_chk29 (v322 : BitVec 32) : Prop :=
  (∀ a, (k1_off29 v322) a + S1x64.size a ≤ S100000x64.size a)
instance k1_chk29.dec : ∀ (v322 : BitVec 32), Decidable (k1_chk29 v322) := fun v322 => decidable_of_iff' _ (Iff.of_eq (k1_chk29.eq_1 v322))
theorem k1_off29_inb : ∀ (v322 : BitVec 32) (k1_hw29 : k1_chk29 v322), ∀ a, (k1_off29 v322) a + S1x64.size a ≤ S100000x64.size a := fun v322 k1_hw29 => k1_hw29

def k1_off30 (v335 : BitVec 32) : Fin 2 → Nat :=
  let c0_i32_199 : BitVec 32 := 0#32
  ![v335.toNat, 0]

def k1_chk30 (v335 : BitVec 32) : Prop :=
  (∀ a, (k1_off30 v335) a + S1x64.size a ≤ S100000x64.size a)
instance k1_chk30.dec : ∀ (v335 : BitVec 32), Decidable (k1_chk30 v335) := fun v335 => decidable_of_iff' _ (Iff.of_eq (k1_chk30.eq_1 v335))
theorem k1_off30_inb : ∀ (v335 : BitVec 32) (k1_hw30 : k1_chk30 v335), ∀ a, (k1_off30 v335) a + S1x64.size a ≤ S100000x64.size a := fun v335 k1_hw30 => k1_hw30

def k1_off31 (v348 : BitVec 32) : Fin 2 → Nat :=
  let c0_i32_207 : BitVec 32 := 0#32
  ![v348.toNat, 0]

def k1_chk31 (v348 : BitVec 32) : Prop :=
  (∀ a, (k1_off31 v348) a + S1x64.size a ≤ S100000x64.size a)
instance k1_chk31.dec : ∀ (v348 : BitVec 32), Decidable (k1_chk31 v348) := fun v348 => decidable_of_iff' _ (Iff.of_eq (k1_chk31.eq_1 v348))
theorem k1_off31_inb : ∀ (v348 : BitVec 32) (k1_hw31 : k1_chk31 v348), ∀ a, (k1_off31 v348) a + S1x64.size a ≤ S100000x64.size a := fun v348 k1_hw31 => k1_hw31

def k1_off32 (v361 : BitVec 32) : Fin 2 → Nat :=
  let c0_i32_215 : BitVec 32 := 0#32
  ![v361.toNat, 0]

def k1_chk32 (v361 : BitVec 32) : Prop :=
  (∀ a, (k1_off32 v361) a + S1x64.size a ≤ S100000x64.size a)
instance k1_chk32.dec : ∀ (v361 : BitVec 32), Decidable (k1_chk32 v361) := fun v361 => decidable_of_iff' _ (Iff.of_eq (k1_chk32.eq_1 v361))
theorem k1_off32_inb : ∀ (v361 : BitVec 32) (k1_hw32 : k1_chk32 v361), ∀ a, (k1_off32 v361) a + S1x64.size a ≤ S100000x64.size a := fun v361 k1_hw32 => k1_hw32

def k1_off33 (v374 : BitVec 32) : Fin 2 → Nat :=
  let c0_i32_223 : BitVec 32 := 0#32
  ![v374.toNat, 0]

def k1_chk33 (v374 : BitVec 32) : Prop :=
  (∀ a, (k1_off33 v374) a + S1x64.size a ≤ S100000x64.size a)
instance k1_chk33.dec : ∀ (v374 : BitVec 32), Decidable (k1_chk33 v374) := fun v374 => decidable_of_iff' _ (Iff.of_eq (k1_chk33.eq_1 v374))
theorem k1_off33_inb : ∀ (v374 : BitVec 32) (k1_hw33 : k1_chk33 v374), ∀ a, (k1_off33 v374) a + S1x64.size a ≤ S100000x64.size a := fun v374 k1_hw33 => k1_hw33

def k1_off34 (v387 : BitVec 32) : Fin 2 → Nat :=
  let c0_i32_231 : BitVec 32 := 0#32
  ![v387.toNat, 0]

def k1_chk34 (v387 : BitVec 32) : Prop :=
  (∀ a, (k1_off34 v387) a + S1x64.size a ≤ S100000x64.size a)
instance k1_chk34.dec : ∀ (v387 : BitVec 32), Decidable (k1_chk34 v387) := fun v387 => decidable_of_iff' _ (Iff.of_eq (k1_chk34.eq_1 v387))
theorem k1_off34_inb : ∀ (v387 : BitVec 32) (k1_hw34 : k1_chk34 v387), ∀ a, (k1_off34 v387) a + S1x64.size a ≤ S100000x64.size a := fun v387 k1_hw34 => k1_hw34

def k1_off35 (v400 : BitVec 32) : Fin 2 → Nat :=
  let c0_i32_239 : BitVec 32 := 0#32
  ![v400.toNat, 0]

def k1_chk35 (v400 : BitVec 32) : Prop :=
  (∀ a, (k1_off35 v400) a + S1x64.size a ≤ S100000x64.size a)
instance k1_chk35.dec : ∀ (v400 : BitVec 32), Decidable (k1_chk35 v400) := fun v400 => decidable_of_iff' _ (Iff.of_eq (k1_chk35.eq_1 v400))
theorem k1_off35_inb : ∀ (v400 : BitVec 32) (k1_hw35 : k1_chk35 v400), ∀ a, (k1_off35 v400) a + S1x64.size a ≤ S100000x64.size a := fun v400 k1_hw35 => k1_hw35

def k1_off36 (v413 : BitVec 32) : Fin 2 → Nat :=
  let c0_i32_247 : BitVec 32 := 0#32
  ![v413.toNat, 0]

def k1_chk36 (v413 : BitVec 32) : Prop :=
  (∀ a, (k1_off36 v413) a + S1x64.size a ≤ S100000x64.size a)
instance k1_chk36.dec : ∀ (v413 : BitVec 32), Decidable (k1_chk36 v413) := fun v413 => decidable_of_iff' _ (Iff.of_eq (k1_chk36.eq_1 v413))
theorem k1_off36_inb : ∀ (v413 : BitVec 32) (k1_hw36 : k1_chk36 v413), ∀ a, (k1_off36 v413) a + S1x64.size a ≤ S100000x64.size a := fun v413 k1_hw36 => k1_hw36

def k1_off37 (v426 : BitVec 32) : Fin 2 → Nat :=
  let c0_i32_255 : BitVec 32 := 0#32
  ![v426.toNat, 0]

def k1_chk37 (v426 : BitVec 32) : Prop :=
  (∀ a, (k1_off37 v426) a + S1x64.size a ≤ S100000x64.size a)
instance k1_chk37.dec : ∀ (v426 : BitVec 32), Decidable (k1_chk37 v426) := fun v426 => decidable_of_iff' _ (Iff.of_eq (k1_chk37.eq_1 v426))
theorem k1_off37_inb : ∀ (v426 : BitVec 32) (k1_hw37 : k1_chk37 v426), ∀ a, (k1_off37 v426) a + S1x64.size a ≤ S100000x64.size a := fun v426 k1_hw37 => k1_hw37

def k1_off38 (v439 : BitVec 32) : Fin 2 → Nat :=
  let c0_i32_263 : BitVec 32 := 0#32
  ![v439.toNat, 0]

def k1_chk38 (v439 : BitVec 32) : Prop :=
  (∀ a, (k1_off38 v439) a + S1x64.size a ≤ S100000x64.size a)
instance k1_chk38.dec : ∀ (v439 : BitVec 32), Decidable (k1_chk38 v439) := fun v439 => decidable_of_iff' _ (Iff.of_eq (k1_chk38.eq_1 v439))
theorem k1_off38_inb : ∀ (v439 : BitVec 32) (k1_hw38 : k1_chk38 v439), ∀ a, (k1_off38 v439) a + S1x64.size a ≤ S100000x64.size a := fun v439 k1_hw38 => k1_hw38

def k1_off39 (v452 : BitVec 32) : Fin 2 → Nat :=
  let c0_i32_271 : BitVec 32 := 0#32
  ![v452.toNat, 0]

def k1_chk39 (v452 : BitVec 32) : Prop :=
  (∀ a, (k1_off39 v452) a + S1x64.size a ≤ S100000x64.size a)
instance k1_chk39.dec : ∀ (v452 : BitVec 32), Decidable (k1_chk39 v452) := fun v452 => decidable_of_iff' _ (Iff.of_eq (k1_chk39.eq_1 v452))
theorem k1_off39_inb : ∀ (v452 : BitVec 32) (k1_hw39 : k1_chk39 v452), ∀ a, (k1_off39 v452) a + S1x64.size a ≤ S100000x64.size a := fun v452 k1_hw39 => k1_hw39

def k1_off40 (v465 : BitVec 32) : Fin 2 → Nat :=
  let c0_i32_279 : BitVec 32 := 0#32
  ![v465.toNat, 0]

def k1_chk40 (v465 : BitVec 32) : Prop :=
  (∀ a, (k1_off40 v465) a + S1x64.size a ≤ S100000x64.size a)
instance k1_chk40.dec : ∀ (v465 : BitVec 32), Decidable (k1_chk40 v465) := fun v465 => decidable_of_iff' _ (Iff.of_eq (k1_chk40.eq_1 v465))
theorem k1_off40_inb : ∀ (v465 : BitVec 32) (k1_hw40 : k1_chk40 v465), ∀ a, (k1_off40 v465) a + S1x64.size a ≤ S100000x64.size a := fun v465 k1_hw40 => k1_hw40

def k1_off41 (v478 : BitVec 32) : Fin 2 → Nat :=
  let c0_i32_287 : BitVec 32 := 0#32
  ![v478.toNat, 0]

def k1_chk41 (v478 : BitVec 32) : Prop :=
  (∀ a, (k1_off41 v478) a + S1x64.size a ≤ S100000x64.size a)
instance k1_chk41.dec : ∀ (v478 : BitVec 32), Decidable (k1_chk41 v478) := fun v478 => decidable_of_iff' _ (Iff.of_eq (k1_chk41.eq_1 v478))
theorem k1_off41_inb : ∀ (v478 : BitVec 32) (k1_hw41 : k1_chk41 v478), ∀ a, (k1_off41 v478) a + S1x64.size a ≤ S100000x64.size a := fun v478 k1_hw41 => k1_hw41

def k1_off42 (v491 : BitVec 32) : Fin 2 → Nat :=
  let c0_i32_295 : BitVec 32 := 0#32
  ![v491.toNat, 0]

def k1_chk42 (v491 : BitVec 32) : Prop :=
  (∀ a, (k1_off42 v491) a + S1x64.size a ≤ S100000x64.size a)
instance k1_chk42.dec : ∀ (v491 : BitVec 32), Decidable (k1_chk42 v491) := fun v491 => decidable_of_iff' _ (Iff.of_eq (k1_chk42.eq_1 v491))
theorem k1_off42_inb : ∀ (v491 : BitVec 32) (k1_hw42 : k1_chk42 v491), ∀ a, (k1_off42 v491) a + S1x64.size a ≤ S100000x64.size a := fun v491 k1_hw42 => k1_hw42

def k1_off43 (v504 : BitVec 32) : Fin 2 → Nat :=
  let c0_i32_303 : BitVec 32 := 0#32
  ![v504.toNat, 0]

def k1_chk43 (v504 : BitVec 32) : Prop :=
  (∀ a, (k1_off43 v504) a + S1x64.size a ≤ S100000x64.size a)
instance k1_chk43.dec : ∀ (v504 : BitVec 32), Decidable (k1_chk43 v504) := fun v504 => decidable_of_iff' _ (Iff.of_eq (k1_chk43.eq_1 v504))
theorem k1_off43_inb : ∀ (v504 : BitVec 32) (k1_hw43 : k1_chk43 v504), ∀ a, (k1_off43 v504) a + S1x64.size a ≤ S100000x64.size a := fun v504 k1_hw43 => k1_hw43

def k1_off44 (v517 : BitVec 32) : Fin 2 → Nat :=
  let c0_i32_311 : BitVec 32 := 0#32
  ![v517.toNat, 0]

def k1_chk44 (v517 : BitVec 32) : Prop :=
  (∀ a, (k1_off44 v517) a + S1x64.size a ≤ S100000x64.size a)
instance k1_chk44.dec : ∀ (v517 : BitVec 32), Decidable (k1_chk44 v517) := fun v517 => decidable_of_iff' _ (Iff.of_eq (k1_chk44.eq_1 v517))
theorem k1_off44_inb : ∀ (v517 : BitVec 32) (k1_hw44 : k1_chk44 v517), ∀ a, (k1_off44 v517) a + S1x64.size a ≤ S100000x64.size a := fun v517 k1_hw44 => k1_hw44

def k1_off45 (v530 : BitVec 32) : Fin 2 → Nat :=
  let c0_i32_319 : BitVec 32 := 0#32
  ![v530.toNat, 0]

def k1_chk45 (v530 : BitVec 32) : Prop :=
  (∀ a, (k1_off45 v530) a + S1x64.size a ≤ S100000x64.size a)
instance k1_chk45.dec : ∀ (v530 : BitVec 32), Decidable (k1_chk45 v530) := fun v530 => decidable_of_iff' _ (Iff.of_eq (k1_chk45.eq_1 v530))
theorem k1_off45_inb : ∀ (v530 : BitVec 32) (k1_hw45 : k1_chk45 v530), ∀ a, (k1_off45 v530) a + S1x64.size a ≤ S100000x64.size a := fun v530 k1_hw45 => k1_hw45

def k1_off46 (v543 : BitVec 32) : Fin 2 → Nat :=
  let c0_i32_327 : BitVec 32 := 0#32
  ![v543.toNat, 0]

def k1_chk46 (v543 : BitVec 32) : Prop :=
  (∀ a, (k1_off46 v543) a + S1x64.size a ≤ S100000x64.size a)
instance k1_chk46.dec : ∀ (v543 : BitVec 32), Decidable (k1_chk46 v543) := fun v543 => decidable_of_iff' _ (Iff.of_eq (k1_chk46.eq_1 v543))
theorem k1_off46_inb : ∀ (v543 : BitVec 32) (k1_hw46 : k1_chk46 v543), ∀ a, (k1_off46 v543) a + S1x64.size a ≤ S100000x64.size a := fun v543 k1_hw46 => k1_hw46

def k1_off47 (v556 : BitVec 32) : Fin 2 → Nat :=
  let c0_i32_335 : BitVec 32 := 0#32
  ![v556.toNat, 0]

def k1_chk47 (v556 : BitVec 32) : Prop :=
  (∀ a, (k1_off47 v556) a + S1x64.size a ≤ S100000x64.size a)
instance k1_chk47.dec : ∀ (v556 : BitVec 32), Decidable (k1_chk47 v556) := fun v556 => decidable_of_iff' _ (Iff.of_eq (k1_chk47.eq_1 v556))
theorem k1_off47_inb : ∀ (v556 : BitVec 32) (k1_hw47 : k1_chk47 v556), ∀ a, (k1_off47 v556) a + S1x64.size a ≤ S100000x64.size a := fun v556 k1_hw47 => k1_hw47

def k1_off48 (v569 : BitVec 32) : Fin 2 → Nat :=
  let c0_i32_343 : BitVec 32 := 0#32
  ![v569.toNat, 0]

def k1_chk48 (v569 : BitVec 32) : Prop :=
  (∀ a, (k1_off48 v569) a + S1x64.size a ≤ S100000x64.size a)
instance k1_chk48.dec : ∀ (v569 : BitVec 32), Decidable (k1_chk48 v569) := fun v569 => decidable_of_iff' _ (Iff.of_eq (k1_chk48.eq_1 v569))
theorem k1_off48_inb : ∀ (v569 : BitVec 32) (k1_hw48 : k1_chk48 v569), ∀ a, (k1_off48 v569) a + S1x64.size a ≤ S100000x64.size a := fun v569 k1_hw48 => k1_hw48

def k1_off49 (v582 : BitVec 32) : Fin 2 → Nat :=
  let c0_i32_351 : BitVec 32 := 0#32
  ![v582.toNat, 0]

def k1_chk49 (v582 : BitVec 32) : Prop :=
  (∀ a, (k1_off49 v582) a + S1x64.size a ≤ S100000x64.size a)
instance k1_chk49.dec : ∀ (v582 : BitVec 32), Decidable (k1_chk49 v582) := fun v582 => decidable_of_iff' _ (Iff.of_eq (k1_chk49.eq_1 v582))
theorem k1_off49_inb : ∀ (v582 : BitVec 32) (k1_hw49 : k1_chk49 v582), ∀ a, (k1_off49 v582) a + S1x64.size a ≤ S100000x64.size a := fun v582 k1_hw49 => k1_hw49

def k1_off50 (v595 : BitVec 32) : Fin 2 → Nat :=
  let c0_i32_359 : BitVec 32 := 0#32
  ![v595.toNat, 0]

def k1_chk50 (v595 : BitVec 32) : Prop :=
  (∀ a, (k1_off50 v595) a + S1x64.size a ≤ S100000x64.size a)
instance k1_chk50.dec : ∀ (v595 : BitVec 32), Decidable (k1_chk50 v595) := fun v595 => decidable_of_iff' _ (Iff.of_eq (k1_chk50.eq_1 v595))
theorem k1_off50_inb : ∀ (v595 : BitVec 32) (k1_hw50 : k1_chk50 v595), ∀ a, (k1_off50 v595) a + S1x64.size a ≤ S100000x64.size a := fun v595 k1_hw50 => k1_hw50

def k1_off51 (v608 : BitVec 32) : Fin 2 → Nat :=
  let c0_i32_367 : BitVec 32 := 0#32
  ![v608.toNat, 0]

def k1_chk51 (v608 : BitVec 32) : Prop :=
  (∀ a, (k1_off51 v608) a + S1x64.size a ≤ S100000x64.size a)
instance k1_chk51.dec : ∀ (v608 : BitVec 32), Decidable (k1_chk51 v608) := fun v608 => decidable_of_iff' _ (Iff.of_eq (k1_chk51.eq_1 v608))
theorem k1_off51_inb : ∀ (v608 : BitVec 32) (k1_hw51 : k1_chk51 v608), ∀ a, (k1_off51 v608) a + S1x64.size a ≤ S100000x64.size a := fun v608 k1_hw51 => k1_hw51

def k1_off52 (v621 : BitVec 32) : Fin 2 → Nat :=
  let c0_i32_375 : BitVec 32 := 0#32
  ![v621.toNat, 0]

def k1_chk52 (v621 : BitVec 32) : Prop :=
  (∀ a, (k1_off52 v621) a + S1x64.size a ≤ S100000x64.size a)
instance k1_chk52.dec : ∀ (v621 : BitVec 32), Decidable (k1_chk52 v621) := fun v621 => decidable_of_iff' _ (Iff.of_eq (k1_chk52.eq_1 v621))
theorem k1_off52_inb : ∀ (v621 : BitVec 32) (k1_hw52 : k1_chk52 v621), ∀ a, (k1_off52 v621) a + S1x64.size a ≤ S100000x64.size a := fun v621 k1_hw52 => k1_hw52

def k1_off53 (v634 : BitVec 32) : Fin 2 → Nat :=
  let c0_i32_383 : BitVec 32 := 0#32
  ![v634.toNat, 0]

def k1_chk53 (v634 : BitVec 32) : Prop :=
  (∀ a, (k1_off53 v634) a + S1x64.size a ≤ S100000x64.size a)
instance k1_chk53.dec : ∀ (v634 : BitVec 32), Decidable (k1_chk53 v634) := fun v634 => decidable_of_iff' _ (Iff.of_eq (k1_chk53.eq_1 v634))
theorem k1_off53_inb : ∀ (v634 : BitVec 32) (k1_hw53 : k1_chk53 v634), ∀ a, (k1_off53 v634) a + S1x64.size a ≤ S100000x64.size a := fun v634 k1_hw53 => k1_hw53

def k1_off54 (v647 : BitVec 32) : Fin 2 → Nat :=
  let c0_i32_391 : BitVec 32 := 0#32
  ![v647.toNat, 0]

def k1_chk54 (v647 : BitVec 32) : Prop :=
  (∀ a, (k1_off54 v647) a + S1x64.size a ≤ S100000x64.size a)
instance k1_chk54.dec : ∀ (v647 : BitVec 32), Decidable (k1_chk54 v647) := fun v647 => decidable_of_iff' _ (Iff.of_eq (k1_chk54.eq_1 v647))
theorem k1_off54_inb : ∀ (v647 : BitVec 32) (k1_hw54 : k1_chk54 v647), ∀ a, (k1_off54 v647) a + S1x64.size a ≤ S100000x64.size a := fun v647 k1_hw54 => k1_hw54

def k1_off55 (v660 : BitVec 32) : Fin 2 → Nat :=
  let c0_i32_399 : BitVec 32 := 0#32
  ![v660.toNat, 0]

def k1_chk55 (v660 : BitVec 32) : Prop :=
  (∀ a, (k1_off55 v660) a + S1x64.size a ≤ S100000x64.size a)
instance k1_chk55.dec : ∀ (v660 : BitVec 32), Decidable (k1_chk55 v660) := fun v660 => decidable_of_iff' _ (Iff.of_eq (k1_chk55.eq_1 v660))
theorem k1_off55_inb : ∀ (v660 : BitVec 32) (k1_hw55 : k1_chk55 v660), ∀ a, (k1_off55 v660) a + S1x64.size a ≤ S100000x64.size a := fun v660 k1_hw55 => k1_hw55

def k1_off56 (v673 : BitVec 32) : Fin 2 → Nat :=
  let c0_i32_407 : BitVec 32 := 0#32
  ![v673.toNat, 0]

def k1_chk56 (v673 : BitVec 32) : Prop :=
  (∀ a, (k1_off56 v673) a + S1x64.size a ≤ S100000x64.size a)
instance k1_chk56.dec : ∀ (v673 : BitVec 32), Decidable (k1_chk56 v673) := fun v673 => decidable_of_iff' _ (Iff.of_eq (k1_chk56.eq_1 v673))
theorem k1_off56_inb : ∀ (v673 : BitVec 32) (k1_hw56 : k1_chk56 v673), ∀ a, (k1_off56 v673) a + S1x64.size a ≤ S100000x64.size a := fun v673 k1_hw56 => k1_hw56

def k1_off57 (v686 : BitVec 32) : Fin 2 → Nat :=
  let c0_i32_415 : BitVec 32 := 0#32
  ![v686.toNat, 0]

def k1_chk57 (v686 : BitVec 32) : Prop :=
  (∀ a, (k1_off57 v686) a + S1x64.size a ≤ S100000x64.size a)
instance k1_chk57.dec : ∀ (v686 : BitVec 32), Decidable (k1_chk57 v686) := fun v686 => decidable_of_iff' _ (Iff.of_eq (k1_chk57.eq_1 v686))
theorem k1_off57_inb : ∀ (v686 : BitVec 32) (k1_hw57 : k1_chk57 v686), ∀ a, (k1_off57 v686) a + S1x64.size a ≤ S100000x64.size a := fun v686 k1_hw57 => k1_hw57

def k1_off58 (v699 : BitVec 32) : Fin 2 → Nat :=
  let c0_i32_423 : BitVec 32 := 0#32
  ![v699.toNat, 0]

def k1_chk58 (v699 : BitVec 32) : Prop :=
  (∀ a, (k1_off58 v699) a + S1x64.size a ≤ S100000x64.size a)
instance k1_chk58.dec : ∀ (v699 : BitVec 32), Decidable (k1_chk58 v699) := fun v699 => decidable_of_iff' _ (Iff.of_eq (k1_chk58.eq_1 v699))
theorem k1_off58_inb : ∀ (v699 : BitVec 32) (k1_hw58 : k1_chk58 v699), ∀ a, (k1_off58 v699) a + S1x64.size a ≤ S100000x64.size a := fun v699 k1_hw58 => k1_hw58

def k1_off59 (v712 : BitVec 32) : Fin 2 → Nat :=
  let c0_i32_431 : BitVec 32 := 0#32
  ![v712.toNat, 0]

def k1_chk59 (v712 : BitVec 32) : Prop :=
  (∀ a, (k1_off59 v712) a + S1x64.size a ≤ S100000x64.size a)
instance k1_chk59.dec : ∀ (v712 : BitVec 32), Decidable (k1_chk59 v712) := fun v712 => decidable_of_iff' _ (Iff.of_eq (k1_chk59.eq_1 v712))
theorem k1_off59_inb : ∀ (v712 : BitVec 32) (k1_hw59 : k1_chk59 v712), ∀ a, (k1_off59 v712) a + S1x64.size a ≤ S100000x64.size a := fun v712 k1_hw59 => k1_hw59

def k1_off60 (v725 : BitVec 32) : Fin 2 → Nat :=
  let c0_i32_439 : BitVec 32 := 0#32
  ![v725.toNat, 0]

def k1_chk60 (v725 : BitVec 32) : Prop :=
  (∀ a, (k1_off60 v725) a + S1x64.size a ≤ S100000x64.size a)
instance k1_chk60.dec : ∀ (v725 : BitVec 32), Decidable (k1_chk60 v725) := fun v725 => decidable_of_iff' _ (Iff.of_eq (k1_chk60.eq_1 v725))
theorem k1_off60_inb : ∀ (v725 : BitVec 32) (k1_hw60 : k1_chk60 v725), ∀ a, (k1_off60 v725) a + S1x64.size a ≤ S100000x64.size a := fun v725 k1_hw60 => k1_hw60

def k1_off61 (v738 : BitVec 32) : Fin 2 → Nat :=
  let c0_i32_447 : BitVec 32 := 0#32
  ![v738.toNat, 0]

def k1_chk61 (v738 : BitVec 32) : Prop :=
  (∀ a, (k1_off61 v738) a + S1x64.size a ≤ S100000x64.size a)
instance k1_chk61.dec : ∀ (v738 : BitVec 32), Decidable (k1_chk61 v738) := fun v738 => decidable_of_iff' _ (Iff.of_eq (k1_chk61.eq_1 v738))
theorem k1_off61_inb : ∀ (v738 : BitVec 32) (k1_hw61 : k1_chk61 v738), ∀ a, (k1_off61 v738) a + S1x64.size a ≤ S100000x64.size a := fun v738 k1_hw61 => k1_hw61

def k1_off62 (v751 : BitVec 32) : Fin 2 → Nat :=
  let c0_i32_455 : BitVec 32 := 0#32
  ![v751.toNat, 0]

def k1_chk62 (v751 : BitVec 32) : Prop :=
  (∀ a, (k1_off62 v751) a + S1x64.size a ≤ S100000x64.size a)
instance k1_chk62.dec : ∀ (v751 : BitVec 32), Decidable (k1_chk62 v751) := fun v751 => decidable_of_iff' _ (Iff.of_eq (k1_chk62.eq_1 v751))
theorem k1_off62_inb : ∀ (v751 : BitVec 32) (k1_hw62 : k1_chk62 v751), ∀ a, (k1_off62 v751) a + S1x64.size a ≤ S100000x64.size a := fun v751 k1_hw62 => k1_hw62

def k1_off63 (v764 : BitVec 32) : Fin 2 → Nat :=
  let c0_i32_463 : BitVec 32 := 0#32
  ![v764.toNat, 0]

def k1_chk63 (v764 : BitVec 32) : Prop :=
  (∀ a, (k1_off63 v764) a + S1x64.size a ≤ S100000x64.size a)
instance k1_chk63.dec : ∀ (v764 : BitVec 32), Decidable (k1_chk63 v764) := fun v764 => decidable_of_iff' _ (Iff.of_eq (k1_chk63.eq_1 v764))
theorem k1_off63_inb : ∀ (v764 : BitVec 32) (k1_hw63 : k1_chk63 v764), ∀ a, (k1_off63 v764) a + S1x64.size a ≤ S100000x64.size a := fun v764 k1_hw63 => k1_hw63

def k1_off64 (v777 : BitVec 32) : Fin 2 → Nat :=
  let c0_i32_471 : BitVec 32 := 0#32
  ![v777.toNat, 0]

def k1_chk64 (v777 : BitVec 32) : Prop :=
  (∀ a, (k1_off64 v777) a + S1x64.size a ≤ S100000x64.size a)
instance k1_chk64.dec : ∀ (v777 : BitVec 32), Decidable (k1_chk64 v777) := fun v777 => decidable_of_iff' _ (Iff.of_eq (k1_chk64.eq_1 v777))
theorem k1_off64_inb : ∀ (v777 : BitVec 32) (k1_hw64 : k1_chk64 v777), ∀ a, (k1_off64 v777) a + S1x64.size a ≤ S100000x64.size a := fun v777 k1_hw64 => k1_hw64

def k1_off65 (v790 : BitVec 32) : Fin 2 → Nat :=
  let c0_i32_479 : BitVec 32 := 0#32
  ![v790.toNat, 0]

def k1_chk65 (v790 : BitVec 32) : Prop :=
  (∀ a, (k1_off65 v790) a + S1x64.size a ≤ S100000x64.size a)
instance k1_chk65.dec : ∀ (v790 : BitVec 32), Decidable (k1_chk65 v790) := fun v790 => decidable_of_iff' _ (Iff.of_eq (k1_chk65.eq_1 v790))
theorem k1_off65_inb : ∀ (v790 : BitVec 32) (k1_hw65 : k1_chk65 v790), ∀ a, (k1_off65 v790) a + S1x64.size a ≤ S100000x64.size a := fun v790 k1_hw65 => k1_hw65

def k1_off66 (v803 : BitVec 32) : Fin 2 → Nat :=
  let c0_i32_487 : BitVec 32 := 0#32
  ![v803.toNat, 0]

def k1_chk66 (v803 : BitVec 32) : Prop :=
  (∀ a, (k1_off66 v803) a + S1x64.size a ≤ S100000x64.size a)
instance k1_chk66.dec : ∀ (v803 : BitVec 32), Decidable (k1_chk66 v803) := fun v803 => decidable_of_iff' _ (Iff.of_eq (k1_chk66.eq_1 v803))
theorem k1_off66_inb : ∀ (v803 : BitVec 32) (k1_hw66 : k1_chk66 v803), ∀ a, (k1_off66 v803) a + S1x64.size a ≤ S100000x64.size a := fun v803 k1_hw66 => k1_hw66

def k1_off67 (v816 : BitVec 32) : Fin 2 → Nat :=
  let c0_i32_495 : BitVec 32 := 0#32
  ![v816.toNat, 0]

def k1_chk67 (v816 : BitVec 32) : Prop :=
  (∀ a, (k1_off67 v816) a + S1x64.size a ≤ S100000x64.size a)
instance k1_chk67.dec : ∀ (v816 : BitVec 32), Decidable (k1_chk67 v816) := fun v816 => decidable_of_iff' _ (Iff.of_eq (k1_chk67.eq_1 v816))
theorem k1_off67_inb : ∀ (v816 : BitVec 32) (k1_hw67 : k1_chk67 v816), ∀ a, (k1_off67 v816) a + S1x64.size a ≤ S100000x64.size a := fun v816 k1_hw67 => k1_hw67

def k1_off68 (v829 : BitVec 32) : Fin 2 → Nat :=
  let c0_i32_503 : BitVec 32 := 0#32
  ![v829.toNat, 0]

def k1_chk68 (v829 : BitVec 32) : Prop :=
  (∀ a, (k1_off68 v829) a + S1x64.size a ≤ S100000x64.size a)
instance k1_chk68.dec : ∀ (v829 : BitVec 32), Decidable (k1_chk68 v829) := fun v829 => decidable_of_iff' _ (Iff.of_eq (k1_chk68.eq_1 v829))
theorem k1_off68_inb : ∀ (v829 : BitVec 32) (k1_hw68 : k1_chk68 v829), ∀ a, (k1_off68 v829) a + S1x64.size a ≤ S100000x64.size a := fun v829 k1_hw68 => k1_hw68

def k1_off69 (v842 : BitVec 32) : Fin 2 → Nat :=
  let c0_i32_511 : BitVec 32 := 0#32
  ![v842.toNat, 0]

def k1_chk69 (v842 : BitVec 32) : Prop :=
  (∀ a, (k1_off69 v842) a + S1x64.size a ≤ S100000x64.size a)
instance k1_chk69.dec : ∀ (v842 : BitVec 32), Decidable (k1_chk69 v842) := fun v842 => decidable_of_iff' _ (Iff.of_eq (k1_chk69.eq_1 v842))
theorem k1_off69_inb : ∀ (v842 : BitVec 32) (k1_hw69 : k1_chk69 v842), ∀ a, (k1_off69 v842) a + S1x64.size a ≤ S100000x64.size a := fun v842 k1_hw69 => k1_hw69

def k1_off70 (v855 : BitVec 32) : Fin 2 → Nat :=
  let c0_i32_519 : BitVec 32 := 0#32
  ![v855.toNat, 0]

def k1_chk70 (v855 : BitVec 32) : Prop :=
  (∀ a, (k1_off70 v855) a + S1x64.size a ≤ S100000x64.size a)
instance k1_chk70.dec : ∀ (v855 : BitVec 32), Decidable (k1_chk70 v855) := fun v855 => decidable_of_iff' _ (Iff.of_eq (k1_chk70.eq_1 v855))
theorem k1_off70_inb : ∀ (v855 : BitVec 32) (k1_hw70 : k1_chk70 v855), ∀ a, (k1_off70 v855) a + S1x64.size a ≤ S100000x64.size a := fun v855 k1_hw70 => k1_hw70

def k1_off71 (v868 : BitVec 32) : Fin 2 → Nat :=
  let c0_i32_527 : BitVec 32 := 0#32
  ![v868.toNat, 0]

def k1_chk71 (v868 : BitVec 32) : Prop :=
  (∀ a, (k1_off71 v868) a + S1x64.size a ≤ S100000x64.size a)
instance k1_chk71.dec : ∀ (v868 : BitVec 32), Decidable (k1_chk71 v868) := fun v868 => decidable_of_iff' _ (Iff.of_eq (k1_chk71.eq_1 v868))
theorem k1_off71_inb : ∀ (v868 : BitVec 32) (k1_hw71 : k1_chk71 v868), ∀ a, (k1_off71 v868) a + S1x64.size a ≤ S100000x64.size a := fun v868 k1_hw71 => k1_hw71

def k1_off72 (v881 : BitVec 32) : Fin 2 → Nat :=
  let c0_i32_535 : BitVec 32 := 0#32
  ![v881.toNat, 0]

def k1_chk72 (v881 : BitVec 32) : Prop :=
  (∀ a, (k1_off72 v881) a + S1x64.size a ≤ S100000x64.size a)
instance k1_chk72.dec : ∀ (v881 : BitVec 32), Decidable (k1_chk72 v881) := fun v881 => decidable_of_iff' _ (Iff.of_eq (k1_chk72.eq_1 v881))
theorem k1_off72_inb : ∀ (v881 : BitVec 32) (k1_hw72 : k1_chk72 v881), ∀ a, (k1_off72 v881) a + S1x64.size a ≤ S100000x64.size a := fun v881 k1_hw72 => k1_hw72

def k1_off73 (v894 : BitVec 32) : Fin 2 → Nat :=
  let c0_i32_543 : BitVec 32 := 0#32
  ![v894.toNat, 0]

def k1_chk73 (v894 : BitVec 32) : Prop :=
  (∀ a, (k1_off73 v894) a + S1x64.size a ≤ S100000x64.size a)
instance k1_chk73.dec : ∀ (v894 : BitVec 32), Decidable (k1_chk73 v894) := fun v894 => decidable_of_iff' _ (Iff.of_eq (k1_chk73.eq_1 v894))
theorem k1_off73_inb : ∀ (v894 : BitVec 32) (k1_hw73 : k1_chk73 v894), ∀ a, (k1_off73 v894) a + S1x64.size a ≤ S100000x64.size a := fun v894 k1_hw73 => k1_hw73

def k1_off74 (v907 : BitVec 32) : Fin 2 → Nat :=
  let c0_i32_551 : BitVec 32 := 0#32
  ![v907.toNat, 0]

def k1_chk74 (v907 : BitVec 32) : Prop :=
  (∀ a, (k1_off74 v907) a + S1x64.size a ≤ S100000x64.size a)
instance k1_chk74.dec : ∀ (v907 : BitVec 32), Decidable (k1_chk74 v907) := fun v907 => decidable_of_iff' _ (Iff.of_eq (k1_chk74.eq_1 v907))
theorem k1_off74_inb : ∀ (v907 : BitVec 32) (k1_hw74 : k1_chk74 v907), ∀ a, (k1_off74 v907) a + S1x64.size a ≤ S100000x64.size a := fun v907 k1_hw74 => k1_hw74

def k1_off75 (v920 : BitVec 32) : Fin 2 → Nat :=
  let c0_i32_559 : BitVec 32 := 0#32
  ![v920.toNat, 0]

def k1_chk75 (v920 : BitVec 32) : Prop :=
  (∀ a, (k1_off75 v920) a + S1x64.size a ≤ S100000x64.size a)
instance k1_chk75.dec : ∀ (v920 : BitVec 32), Decidable (k1_chk75 v920) := fun v920 => decidable_of_iff' _ (Iff.of_eq (k1_chk75.eq_1 v920))
theorem k1_off75_inb : ∀ (v920 : BitVec 32) (k1_hw75 : k1_chk75 v920), ∀ a, (k1_off75 v920) a + S1x64.size a ≤ S100000x64.size a := fun v920 k1_hw75 => k1_hw75

def k1_off76 (v933 : BitVec 32) : Fin 2 → Nat :=
  let c0_i32_567 : BitVec 32 := 0#32
  ![v933.toNat, 0]

def k1_chk76 (v933 : BitVec 32) : Prop :=
  (∀ a, (k1_off76 v933) a + S1x64.size a ≤ S100000x64.size a)
instance k1_chk76.dec : ∀ (v933 : BitVec 32), Decidable (k1_chk76 v933) := fun v933 => decidable_of_iff' _ (Iff.of_eq (k1_chk76.eq_1 v933))
theorem k1_off76_inb : ∀ (v933 : BitVec 32) (k1_hw76 : k1_chk76 v933), ∀ a, (k1_off76 v933) a + S1x64.size a ≤ S100000x64.size a := fun v933 k1_hw76 => k1_hw76

def k1_off77 (v946 : BitVec 32) : Fin 2 → Nat :=
  let c0_i32_575 : BitVec 32 := 0#32
  ![v946.toNat, 0]

def k1_chk77 (v946 : BitVec 32) : Prop :=
  (∀ a, (k1_off77 v946) a + S1x64.size a ≤ S100000x64.size a)
instance k1_chk77.dec : ∀ (v946 : BitVec 32), Decidable (k1_chk77 v946) := fun v946 => decidable_of_iff' _ (Iff.of_eq (k1_chk77.eq_1 v946))
theorem k1_off77_inb : ∀ (v946 : BitVec 32) (k1_hw77 : k1_chk77 v946), ∀ a, (k1_off77 v946) a + S1x64.size a ≤ S100000x64.size a := fun v946 k1_hw77 => k1_hw77

def k1_off78 (v959 : BitVec 32) : Fin 2 → Nat :=
  let c0_i32_583 : BitVec 32 := 0#32
  ![v959.toNat, 0]

def k1_chk78 (v959 : BitVec 32) : Prop :=
  (∀ a, (k1_off78 v959) a + S1x64.size a ≤ S100000x64.size a)
instance k1_chk78.dec : ∀ (v959 : BitVec 32), Decidable (k1_chk78 v959) := fun v959 => decidable_of_iff' _ (Iff.of_eq (k1_chk78.eq_1 v959))
theorem k1_off78_inb : ∀ (v959 : BitVec 32) (k1_hw78 : k1_chk78 v959), ∀ a, (k1_off78 v959) a + S1x64.size a ≤ S100000x64.size a := fun v959 k1_hw78 => k1_hw78

def k1_off79 (v972 : BitVec 32) : Fin 2 → Nat :=
  let c0_i32_591 : BitVec 32 := 0#32
  ![v972.toNat, 0]

def k1_chk79 (v972 : BitVec 32) : Prop :=
  (∀ a, (k1_off79 v972) a + S1x64.size a ≤ S100000x64.size a)
instance k1_chk79.dec : ∀ (v972 : BitVec 32), Decidable (k1_chk79 v972) := fun v972 => decidable_of_iff' _ (Iff.of_eq (k1_chk79.eq_1 v972))
theorem k1_off79_inb : ∀ (v972 : BitVec 32) (k1_hw79 : k1_chk79 v972), ∀ a, (k1_off79 v972) a + S1x64.size a ≤ S100000x64.size a := fun v972 k1_hw79 => k1_hw79

def k1_off80 (v985 : BitVec 32) : Fin 2 → Nat :=
  let c0_i32_599 : BitVec 32 := 0#32
  ![v985.toNat, 0]

def k1_chk80 (v985 : BitVec 32) : Prop :=
  (∀ a, (k1_off80 v985) a + S1x64.size a ≤ S100000x64.size a)
instance k1_chk80.dec : ∀ (v985 : BitVec 32), Decidable (k1_chk80 v985) := fun v985 => decidable_of_iff' _ (Iff.of_eq (k1_chk80.eq_1 v985))
theorem k1_off80_inb : ∀ (v985 : BitVec 32) (k1_hw80 : k1_chk80 v985), ∀ a, (k1_off80 v985) a + S1x64.size a ≤ S100000x64.size a := fun v985 k1_hw80 => k1_hw80

def k1_off81 (v998 : BitVec 32) : Fin 2 → Nat :=
  let c0_i32_607 : BitVec 32 := 0#32
  ![v998.toNat, 0]

def k1_chk81 (v998 : BitVec 32) : Prop :=
  (∀ a, (k1_off81 v998) a + S1x64.size a ≤ S100000x64.size a)
instance k1_chk81.dec : ∀ (v998 : BitVec 32), Decidable (k1_chk81 v998) := fun v998 => decidable_of_iff' _ (Iff.of_eq (k1_chk81.eq_1 v998))
theorem k1_off81_inb : ∀ (v998 : BitVec 32) (k1_hw81 : k1_chk81 v998), ∀ a, (k1_off81 v998) a + S1x64.size a ≤ S100000x64.size a := fun v998 k1_hw81 => k1_hw81

def k1_off82 (v1011 : BitVec 32) : Fin 2 → Nat :=
  let c0_i32_615 : BitVec 32 := 0#32
  ![v1011.toNat, 0]

def k1_chk82 (v1011 : BitVec 32) : Prop :=
  (∀ a, (k1_off82 v1011) a + S1x64.size a ≤ S100000x64.size a)
instance k1_chk82.dec : ∀ (v1011 : BitVec 32), Decidable (k1_chk82 v1011) := fun v1011 => decidable_of_iff' _ (Iff.of_eq (k1_chk82.eq_1 v1011))
theorem k1_off82_inb : ∀ (v1011 : BitVec 32) (k1_hw82 : k1_chk82 v1011), ∀ a, (k1_off82 v1011) a + S1x64.size a ≤ S100000x64.size a := fun v1011 k1_hw82 => k1_hw82

def k1_off83 (v1024 : BitVec 32) : Fin 2 → Nat :=
  let c0_i32_623 : BitVec 32 := 0#32
  ![v1024.toNat, 0]

def k1_chk83 (v1024 : BitVec 32) : Prop :=
  (∀ a, (k1_off83 v1024) a + S1x64.size a ≤ S100000x64.size a)
instance k1_chk83.dec : ∀ (v1024 : BitVec 32), Decidable (k1_chk83 v1024) := fun v1024 => decidable_of_iff' _ (Iff.of_eq (k1_chk83.eq_1 v1024))
theorem k1_off83_inb : ∀ (v1024 : BitVec 32) (k1_hw83 : k1_chk83 v1024), ∀ a, (k1_off83 v1024) a + S1x64.size a ≤ S100000x64.size a := fun v1024 k1_hw83 => k1_hw83

def k1_off84 (v1037 : BitVec 32) : Fin 2 → Nat :=
  let c0_i32_631 : BitVec 32 := 0#32
  ![v1037.toNat, 0]

def k1_chk84 (v1037 : BitVec 32) : Prop :=
  (∀ a, (k1_off84 v1037) a + S1x64.size a ≤ S100000x64.size a)
instance k1_chk84.dec : ∀ (v1037 : BitVec 32), Decidable (k1_chk84 v1037) := fun v1037 => decidable_of_iff' _ (Iff.of_eq (k1_chk84.eq_1 v1037))
theorem k1_off84_inb : ∀ (v1037 : BitVec 32) (k1_hw84 : k1_chk84 v1037), ∀ a, (k1_off84 v1037) a + S1x64.size a ≤ S100000x64.size a := fun v1037 k1_hw84 => k1_hw84

def k1_off85 (v1050 : BitVec 32) : Fin 2 → Nat :=
  let c0_i32_639 : BitVec 32 := 0#32
  ![v1050.toNat, 0]

def k1_chk85 (v1050 : BitVec 32) : Prop :=
  (∀ a, (k1_off85 v1050) a + S1x64.size a ≤ S100000x64.size a)
instance k1_chk85.dec : ∀ (v1050 : BitVec 32), Decidable (k1_chk85 v1050) := fun v1050 => decidable_of_iff' _ (Iff.of_eq (k1_chk85.eq_1 v1050))
theorem k1_off85_inb : ∀ (v1050 : BitVec 32) (k1_hw85 : k1_chk85 v1050), ∀ a, (k1_off85 v1050) a + S1x64.size a ≤ S100000x64.size a := fun v1050 k1_hw85 => k1_hw85

def k1_off86 (v1063 : BitVec 32) : Fin 2 → Nat :=
  let c0_i32_647 : BitVec 32 := 0#32
  ![v1063.toNat, 0]

def k1_chk86 (v1063 : BitVec 32) : Prop :=
  (∀ a, (k1_off86 v1063) a + S1x64.size a ≤ S100000x64.size a)
instance k1_chk86.dec : ∀ (v1063 : BitVec 32), Decidable (k1_chk86 v1063) := fun v1063 => decidable_of_iff' _ (Iff.of_eq (k1_chk86.eq_1 v1063))
theorem k1_off86_inb : ∀ (v1063 : BitVec 32) (k1_hw86 : k1_chk86 v1063), ∀ a, (k1_off86 v1063) a + S1x64.size a ≤ S100000x64.size a := fun v1063 k1_hw86 => k1_hw86

def k1_off87 (v1076 : BitVec 32) : Fin 2 → Nat :=
  let c0_i32_655 : BitVec 32 := 0#32
  ![v1076.toNat, 0]

def k1_chk87 (v1076 : BitVec 32) : Prop :=
  (∀ a, (k1_off87 v1076) a + S1x64.size a ≤ S100000x64.size a)
instance k1_chk87.dec : ∀ (v1076 : BitVec 32), Decidable (k1_chk87 v1076) := fun v1076 => decidable_of_iff' _ (Iff.of_eq (k1_chk87.eq_1 v1076))
theorem k1_off87_inb : ∀ (v1076 : BitVec 32) (k1_hw87 : k1_chk87 v1076), ∀ a, (k1_off87 v1076) a + S1x64.size a ≤ S100000x64.size a := fun v1076 k1_hw87 => k1_hw87

def k1_off88 (v1089 : BitVec 32) : Fin 2 → Nat :=
  let c0_i32_663 : BitVec 32 := 0#32
  ![v1089.toNat, 0]

def k1_chk88 (v1089 : BitVec 32) : Prop :=
  (∀ a, (k1_off88 v1089) a + S1x64.size a ≤ S100000x64.size a)
instance k1_chk88.dec : ∀ (v1089 : BitVec 32), Decidable (k1_chk88 v1089) := fun v1089 => decidable_of_iff' _ (Iff.of_eq (k1_chk88.eq_1 v1089))
theorem k1_off88_inb : ∀ (v1089 : BitVec 32) (k1_hw88 : k1_chk88 v1089), ∀ a, (k1_off88 v1089) a + S1x64.size a ≤ S100000x64.size a := fun v1089 k1_hw88 => k1_hw88

def k1_off89 (v1102 : BitVec 32) : Fin 2 → Nat :=
  let c0_i32_671 : BitVec 32 := 0#32
  ![v1102.toNat, 0]

def k1_chk89 (v1102 : BitVec 32) : Prop :=
  (∀ a, (k1_off89 v1102) a + S1x64.size a ≤ S100000x64.size a)
instance k1_chk89.dec : ∀ (v1102 : BitVec 32), Decidable (k1_chk89 v1102) := fun v1102 => decidable_of_iff' _ (Iff.of_eq (k1_chk89.eq_1 v1102))
theorem k1_off89_inb : ∀ (v1102 : BitVec 32) (k1_hw89 : k1_chk89 v1102), ∀ a, (k1_off89 v1102) a + S1x64.size a ≤ S100000x64.size a := fun v1102 k1_hw89 => k1_hw89

def k1_off90 (v1115 : BitVec 32) : Fin 2 → Nat :=
  let c0_i32_679 : BitVec 32 := 0#32
  ![v1115.toNat, 0]

def k1_chk90 (v1115 : BitVec 32) : Prop :=
  (∀ a, (k1_off90 v1115) a + S1x64.size a ≤ S100000x64.size a)
instance k1_chk90.dec : ∀ (v1115 : BitVec 32), Decidable (k1_chk90 v1115) := fun v1115 => decidable_of_iff' _ (Iff.of_eq (k1_chk90.eq_1 v1115))
theorem k1_off90_inb : ∀ (v1115 : BitVec 32) (k1_hw90 : k1_chk90 v1115), ∀ a, (k1_off90 v1115) a + S1x64.size a ≤ S100000x64.size a := fun v1115 k1_hw90 => k1_hw90

def k1_off91 (v1128 : BitVec 32) : Fin 2 → Nat :=
  let c0_i32_687 : BitVec 32 := 0#32
  ![v1128.toNat, 0]

def k1_chk91 (v1128 : BitVec 32) : Prop :=
  (∀ a, (k1_off91 v1128) a + S1x64.size a ≤ S100000x64.size a)
instance k1_chk91.dec : ∀ (v1128 : BitVec 32), Decidable (k1_chk91 v1128) := fun v1128 => decidable_of_iff' _ (Iff.of_eq (k1_chk91.eq_1 v1128))
theorem k1_off91_inb : ∀ (v1128 : BitVec 32) (k1_hw91 : k1_chk91 v1128), ∀ a, (k1_off91 v1128) a + S1x64.size a ≤ S100000x64.size a := fun v1128 k1_hw91 => k1_hw91

def k1_off92 (v1141 : BitVec 32) : Fin 2 → Nat :=
  let c0_i32_695 : BitVec 32 := 0#32
  ![v1141.toNat, 0]

def k1_chk92 (v1141 : BitVec 32) : Prop :=
  (∀ a, (k1_off92 v1141) a + S1x64.size a ≤ S100000x64.size a)
instance k1_chk92.dec : ∀ (v1141 : BitVec 32), Decidable (k1_chk92 v1141) := fun v1141 => decidable_of_iff' _ (Iff.of_eq (k1_chk92.eq_1 v1141))
theorem k1_off92_inb : ∀ (v1141 : BitVec 32) (k1_hw92 : k1_chk92 v1141), ∀ a, (k1_off92 v1141) a + S1x64.size a ≤ S100000x64.size a := fun v1141 k1_hw92 => k1_hw92

def k1_off93 (v1154 : BitVec 32) : Fin 2 → Nat :=
  let c0_i32_703 : BitVec 32 := 0#32
  ![v1154.toNat, 0]

def k1_chk93 (v1154 : BitVec 32) : Prop :=
  (∀ a, (k1_off93 v1154) a + S1x64.size a ≤ S100000x64.size a)
instance k1_chk93.dec : ∀ (v1154 : BitVec 32), Decidable (k1_chk93 v1154) := fun v1154 => decidable_of_iff' _ (Iff.of_eq (k1_chk93.eq_1 v1154))
theorem k1_off93_inb : ∀ (v1154 : BitVec 32) (k1_hw93 : k1_chk93 v1154), ∀ a, (k1_off93 v1154) a + S1x64.size a ≤ S100000x64.size a := fun v1154 k1_hw93 => k1_hw93

def k1_off94 (v1167 : BitVec 32) : Fin 2 → Nat :=
  let c0_i32_711 : BitVec 32 := 0#32
  ![v1167.toNat, 0]

def k1_chk94 (v1167 : BitVec 32) : Prop :=
  (∀ a, (k1_off94 v1167) a + S1x64.size a ≤ S100000x64.size a)
instance k1_chk94.dec : ∀ (v1167 : BitVec 32), Decidable (k1_chk94 v1167) := fun v1167 => decidable_of_iff' _ (Iff.of_eq (k1_chk94.eq_1 v1167))
theorem k1_off94_inb : ∀ (v1167 : BitVec 32) (k1_hw94 : k1_chk94 v1167), ∀ a, (k1_off94 v1167) a + S1x64.size a ≤ S100000x64.size a := fun v1167 k1_hw94 => k1_hw94

def k1_off95 (v1180 : BitVec 32) : Fin 2 → Nat :=
  let c0_i32_719 : BitVec 32 := 0#32
  ![v1180.toNat, 0]

def k1_chk95 (v1180 : BitVec 32) : Prop :=
  (∀ a, (k1_off95 v1180) a + S1x64.size a ≤ S100000x64.size a)
instance k1_chk95.dec : ∀ (v1180 : BitVec 32), Decidable (k1_chk95 v1180) := fun v1180 => decidable_of_iff' _ (Iff.of_eq (k1_chk95.eq_1 v1180))
theorem k1_off95_inb : ∀ (v1180 : BitVec 32) (k1_hw95 : k1_chk95 v1180), ∀ a, (k1_off95 v1180) a + S1x64.size a ≤ S100000x64.size a := fun v1180 k1_hw95 => k1_hw95

def k1_off96 (v1193 : BitVec 32) : Fin 2 → Nat :=
  let c0_i32_727 : BitVec 32 := 0#32
  ![v1193.toNat, 0]

def k1_chk96 (v1193 : BitVec 32) : Prop :=
  (∀ a, (k1_off96 v1193) a + S1x64.size a ≤ S100000x64.size a)
instance k1_chk96.dec : ∀ (v1193 : BitVec 32), Decidable (k1_chk96 v1193) := fun v1193 => decidable_of_iff' _ (Iff.of_eq (k1_chk96.eq_1 v1193))
theorem k1_off96_inb : ∀ (v1193 : BitVec 32) (k1_hw96 : k1_chk96 v1193), ∀ a, (k1_off96 v1193) a + S1x64.size a ≤ S100000x64.size a := fun v1193 k1_hw96 => k1_hw96

def k1_off97 (v1206 : BitVec 32) : Fin 2 → Nat :=
  let c0_i32_735 : BitVec 32 := 0#32
  ![v1206.toNat, 0]

def k1_chk97 (v1206 : BitVec 32) : Prop :=
  (∀ a, (k1_off97 v1206) a + S1x64.size a ≤ S100000x64.size a)
instance k1_chk97.dec : ∀ (v1206 : BitVec 32), Decidable (k1_chk97 v1206) := fun v1206 => decidable_of_iff' _ (Iff.of_eq (k1_chk97.eq_1 v1206))
theorem k1_off97_inb : ∀ (v1206 : BitVec 32) (k1_hw97 : k1_chk97 v1206), ∀ a, (k1_off97 v1206) a + S1x64.size a ≤ S100000x64.size a := fun v1206 k1_hw97 => k1_hw97

def k1_off98 (v1219 : BitVec 32) : Fin 2 → Nat :=
  let c0_i32_743 : BitVec 32 := 0#32
  ![v1219.toNat, 0]

def k1_chk98 (v1219 : BitVec 32) : Prop :=
  (∀ a, (k1_off98 v1219) a + S1x64.size a ≤ S100000x64.size a)
instance k1_chk98.dec : ∀ (v1219 : BitVec 32), Decidable (k1_chk98 v1219) := fun v1219 => decidable_of_iff' _ (Iff.of_eq (k1_chk98.eq_1 v1219))
theorem k1_off98_inb : ∀ (v1219 : BitVec 32) (k1_hw98 : k1_chk98 v1219), ∀ a, (k1_off98 v1219) a + S1x64.size a ≤ S100000x64.size a := fun v1219 k1_hw98 => k1_hw98

def k1_off99 (v1232 : BitVec 32) : Fin 2 → Nat :=
  let c0_i32_751 : BitVec 32 := 0#32
  ![v1232.toNat, 0]

def k1_chk99 (v1232 : BitVec 32) : Prop :=
  (∀ a, (k1_off99 v1232) a + S1x64.size a ≤ S100000x64.size a)
instance k1_chk99.dec : ∀ (v1232 : BitVec 32), Decidable (k1_chk99 v1232) := fun v1232 => decidable_of_iff' _ (Iff.of_eq (k1_chk99.eq_1 v1232))
theorem k1_off99_inb : ∀ (v1232 : BitVec 32) (k1_hw99 : k1_chk99 v1232), ∀ a, (k1_off99 v1232) a + S1x64.size a ≤ S100000x64.size a := fun v1232 k1_hw99 => k1_hw99

def k1_off100 (v1245 : BitVec 32) : Fin 2 → Nat :=
  let c0_i32_759 : BitVec 32 := 0#32
  ![v1245.toNat, 0]

def k1_chk100 (v1245 : BitVec 32) : Prop :=
  (∀ a, (k1_off100 v1245) a + S1x64.size a ≤ S100000x64.size a)
instance k1_chk100.dec : ∀ (v1245 : BitVec 32), Decidable (k1_chk100 v1245) := fun v1245 => decidable_of_iff' _ (Iff.of_eq (k1_chk100.eq_1 v1245))
theorem k1_off100_inb : ∀ (v1245 : BitVec 32) (k1_hw100 : k1_chk100 v1245), ∀ a, (k1_off100 v1245) a + S1x64.size a ≤ S100000x64.size a := fun v1245 k1_hw100 => k1_hw100

def k1_off101 (v1258 : BitVec 32) : Fin 2 → Nat :=
  let c0_i32_767 : BitVec 32 := 0#32
  ![v1258.toNat, 0]

def k1_chk101 (v1258 : BitVec 32) : Prop :=
  (∀ a, (k1_off101 v1258) a + S1x64.size a ≤ S100000x64.size a)
instance k1_chk101.dec : ∀ (v1258 : BitVec 32), Decidable (k1_chk101 v1258) := fun v1258 => decidable_of_iff' _ (Iff.of_eq (k1_chk101.eq_1 v1258))
theorem k1_off101_inb : ∀ (v1258 : BitVec 32) (k1_hw101 : k1_chk101 v1258), ∀ a, (k1_off101 v1258) a + S1x64.size a ≤ S100000x64.size a := fun v1258 k1_hw101 => k1_hw101

def k1_off102 (v1271 : BitVec 32) : Fin 2 → Nat :=
  let c0_i32_775 : BitVec 32 := 0#32
  ![v1271.toNat, 0]

def k1_chk102 (v1271 : BitVec 32) : Prop :=
  (∀ a, (k1_off102 v1271) a + S1x64.size a ≤ S100000x64.size a)
instance k1_chk102.dec : ∀ (v1271 : BitVec 32), Decidable (k1_chk102 v1271) := fun v1271 => decidable_of_iff' _ (Iff.of_eq (k1_chk102.eq_1 v1271))
theorem k1_off102_inb : ∀ (v1271 : BitVec 32) (k1_hw102 : k1_chk102 v1271), ∀ a, (k1_off102 v1271) a + S1x64.size a ≤ S100000x64.size a := fun v1271 k1_hw102 => k1_hw102

def k1_off103 (v1284 : BitVec 32) : Fin 2 → Nat :=
  let c0_i32_783 : BitVec 32 := 0#32
  ![v1284.toNat, 0]

def k1_chk103 (v1284 : BitVec 32) : Prop :=
  (∀ a, (k1_off103 v1284) a + S1x64.size a ≤ S100000x64.size a)
instance k1_chk103.dec : ∀ (v1284 : BitVec 32), Decidable (k1_chk103 v1284) := fun v1284 => decidable_of_iff' _ (Iff.of_eq (k1_chk103.eq_1 v1284))
theorem k1_off103_inb : ∀ (v1284 : BitVec 32) (k1_hw103 : k1_chk103 v1284), ∀ a, (k1_off103 v1284) a + S1x64.size a ≤ S100000x64.size a := fun v1284 k1_hw103 => k1_hw103

def k1_off104 (v1297 : BitVec 32) : Fin 2 → Nat :=
  let c0_i32_791 : BitVec 32 := 0#32
  ![v1297.toNat, 0]

def k1_chk104 (v1297 : BitVec 32) : Prop :=
  (∀ a, (k1_off104 v1297) a + S1x64.size a ≤ S100000x64.size a)
instance k1_chk104.dec : ∀ (v1297 : BitVec 32), Decidable (k1_chk104 v1297) := fun v1297 => decidable_of_iff' _ (Iff.of_eq (k1_chk104.eq_1 v1297))
theorem k1_off104_inb : ∀ (v1297 : BitVec 32) (k1_hw104 : k1_chk104 v1297), ∀ a, (k1_off104 v1297) a + S1x64.size a ≤ S100000x64.size a := fun v1297 k1_hw104 => k1_hw104

def k1_off105 (v1310 : BitVec 32) : Fin 2 → Nat :=
  let c0_i32_799 : BitVec 32 := 0#32
  ![v1310.toNat, 0]

def k1_chk105 (v1310 : BitVec 32) : Prop :=
  (∀ a, (k1_off105 v1310) a + S1x64.size a ≤ S100000x64.size a)
instance k1_chk105.dec : ∀ (v1310 : BitVec 32), Decidable (k1_chk105 v1310) := fun v1310 => decidable_of_iff' _ (Iff.of_eq (k1_chk105.eq_1 v1310))
theorem k1_off105_inb : ∀ (v1310 : BitVec 32) (k1_hw105 : k1_chk105 v1310), ∀ a, (k1_off105 v1310) a + S1x64.size a ≤ S100000x64.size a := fun v1310 k1_hw105 => k1_hw105

def k1_off106 (v1323 : BitVec 32) : Fin 2 → Nat :=
  let c0_i32_807 : BitVec 32 := 0#32
  ![v1323.toNat, 0]

def k1_chk106 (v1323 : BitVec 32) : Prop :=
  (∀ a, (k1_off106 v1323) a + S1x64.size a ≤ S100000x64.size a)
instance k1_chk106.dec : ∀ (v1323 : BitVec 32), Decidable (k1_chk106 v1323) := fun v1323 => decidable_of_iff' _ (Iff.of_eq (k1_chk106.eq_1 v1323))
theorem k1_off106_inb : ∀ (v1323 : BitVec 32) (k1_hw106 : k1_chk106 v1323), ∀ a, (k1_off106 v1323) a + S1x64.size a ≤ S100000x64.size a := fun v1323 k1_hw106 => k1_hw106

def k1_off107 (v1336 : BitVec 32) : Fin 2 → Nat :=
  let c0_i32_815 : BitVec 32 := 0#32
  ![v1336.toNat, 0]

def k1_chk107 (v1336 : BitVec 32) : Prop :=
  (∀ a, (k1_off107 v1336) a + S1x64.size a ≤ S100000x64.size a)
instance k1_chk107.dec : ∀ (v1336 : BitVec 32), Decidable (k1_chk107 v1336) := fun v1336 => decidable_of_iff' _ (Iff.of_eq (k1_chk107.eq_1 v1336))
theorem k1_off107_inb : ∀ (v1336 : BitVec 32) (k1_hw107 : k1_chk107 v1336), ∀ a, (k1_off107 v1336) a + S1x64.size a ≤ S100000x64.size a := fun v1336 k1_hw107 => k1_hw107

def k1_off108 (v1349 : BitVec 32) : Fin 2 → Nat :=
  let c0_i32_823 : BitVec 32 := 0#32
  ![v1349.toNat, 0]

def k1_chk108 (v1349 : BitVec 32) : Prop :=
  (∀ a, (k1_off108 v1349) a + S1x64.size a ≤ S100000x64.size a)
instance k1_chk108.dec : ∀ (v1349 : BitVec 32), Decidable (k1_chk108 v1349) := fun v1349 => decidable_of_iff' _ (Iff.of_eq (k1_chk108.eq_1 v1349))
theorem k1_off108_inb : ∀ (v1349 : BitVec 32) (k1_hw108 : k1_chk108 v1349), ∀ a, (k1_off108 v1349) a + S1x64.size a ≤ S100000x64.size a := fun v1349 k1_hw108 => k1_hw108

def k1_off109 (v1362 : BitVec 32) : Fin 2 → Nat :=
  let c0_i32_831 : BitVec 32 := 0#32
  ![v1362.toNat, 0]

def k1_chk109 (v1362 : BitVec 32) : Prop :=
  (∀ a, (k1_off109 v1362) a + S1x64.size a ≤ S100000x64.size a)
instance k1_chk109.dec : ∀ (v1362 : BitVec 32), Decidable (k1_chk109 v1362) := fun v1362 => decidable_of_iff' _ (Iff.of_eq (k1_chk109.eq_1 v1362))
theorem k1_off109_inb : ∀ (v1362 : BitVec 32) (k1_hw109 : k1_chk109 v1362), ∀ a, (k1_off109 v1362) a + S1x64.size a ≤ S100000x64.size a := fun v1362 k1_hw109 => k1_hw109

def k1_off110 (v1375 : BitVec 32) : Fin 2 → Nat :=
  let c0_i32_839 : BitVec 32 := 0#32
  ![v1375.toNat, 0]

def k1_chk110 (v1375 : BitVec 32) : Prop :=
  (∀ a, (k1_off110 v1375) a + S1x64.size a ≤ S100000x64.size a)
instance k1_chk110.dec : ∀ (v1375 : BitVec 32), Decidable (k1_chk110 v1375) := fun v1375 => decidable_of_iff' _ (Iff.of_eq (k1_chk110.eq_1 v1375))
theorem k1_off110_inb : ∀ (v1375 : BitVec 32) (k1_hw110 : k1_chk110 v1375), ∀ a, (k1_off110 v1375) a + S1x64.size a ≤ S100000x64.size a := fun v1375 k1_hw110 => k1_hw110

def k1_off111 (v1388 : BitVec 32) : Fin 2 → Nat :=
  let c0_i32_847 : BitVec 32 := 0#32
  ![v1388.toNat, 0]

def k1_chk111 (v1388 : BitVec 32) : Prop :=
  (∀ a, (k1_off111 v1388) a + S1x64.size a ≤ S100000x64.size a)
instance k1_chk111.dec : ∀ (v1388 : BitVec 32), Decidable (k1_chk111 v1388) := fun v1388 => decidable_of_iff' _ (Iff.of_eq (k1_chk111.eq_1 v1388))
theorem k1_off111_inb : ∀ (v1388 : BitVec 32) (k1_hw111 : k1_chk111 v1388), ∀ a, (k1_off111 v1388) a + S1x64.size a ≤ S100000x64.size a := fun v1388 k1_hw111 => k1_hw111

def k1_off112 (v1401 : BitVec 32) : Fin 2 → Nat :=
  let c0_i32_855 : BitVec 32 := 0#32
  ![v1401.toNat, 0]

def k1_chk112 (v1401 : BitVec 32) : Prop :=
  (∀ a, (k1_off112 v1401) a + S1x64.size a ≤ S100000x64.size a)
instance k1_chk112.dec : ∀ (v1401 : BitVec 32), Decidable (k1_chk112 v1401) := fun v1401 => decidable_of_iff' _ (Iff.of_eq (k1_chk112.eq_1 v1401))
theorem k1_off112_inb : ∀ (v1401 : BitVec 32) (k1_hw112 : k1_chk112 v1401), ∀ a, (k1_off112 v1401) a + S1x64.size a ≤ S100000x64.size a := fun v1401 k1_hw112 => k1_hw112

def k1_off113 (v1414 : BitVec 32) : Fin 2 → Nat :=
  let c0_i32_863 : BitVec 32 := 0#32
  ![v1414.toNat, 0]

def k1_chk113 (v1414 : BitVec 32) : Prop :=
  (∀ a, (k1_off113 v1414) a + S1x64.size a ≤ S100000x64.size a)
instance k1_chk113.dec : ∀ (v1414 : BitVec 32), Decidable (k1_chk113 v1414) := fun v1414 => decidable_of_iff' _ (Iff.of_eq (k1_chk113.eq_1 v1414))
theorem k1_off113_inb : ∀ (v1414 : BitVec 32) (k1_hw113 : k1_chk113 v1414), ∀ a, (k1_off113 v1414) a + S1x64.size a ≤ S100000x64.size a := fun v1414 k1_hw113 => k1_hw113

def k1_off114 (v1427 : BitVec 32) : Fin 2 → Nat :=
  let c0_i32_871 : BitVec 32 := 0#32
  ![v1427.toNat, 0]

def k1_chk114 (v1427 : BitVec 32) : Prop :=
  (∀ a, (k1_off114 v1427) a + S1x64.size a ≤ S100000x64.size a)
instance k1_chk114.dec : ∀ (v1427 : BitVec 32), Decidable (k1_chk114 v1427) := fun v1427 => decidable_of_iff' _ (Iff.of_eq (k1_chk114.eq_1 v1427))
theorem k1_off114_inb : ∀ (v1427 : BitVec 32) (k1_hw114 : k1_chk114 v1427), ∀ a, (k1_off114 v1427) a + S1x64.size a ≤ S100000x64.size a := fun v1427 k1_hw114 => k1_hw114

def k1_off115 (v1440 : BitVec 32) : Fin 2 → Nat :=
  let c0_i32_879 : BitVec 32 := 0#32
  ![v1440.toNat, 0]

def k1_chk115 (v1440 : BitVec 32) : Prop :=
  (∀ a, (k1_off115 v1440) a + S1x64.size a ≤ S100000x64.size a)
instance k1_chk115.dec : ∀ (v1440 : BitVec 32), Decidable (k1_chk115 v1440) := fun v1440 => decidable_of_iff' _ (Iff.of_eq (k1_chk115.eq_1 v1440))
theorem k1_off115_inb : ∀ (v1440 : BitVec 32) (k1_hw115 : k1_chk115 v1440), ∀ a, (k1_off115 v1440) a + S1x64.size a ≤ S100000x64.size a := fun v1440 k1_hw115 => k1_hw115

def k1_off116 (v1453 : BitVec 32) : Fin 2 → Nat :=
  let c0_i32_887 : BitVec 32 := 0#32
  ![v1453.toNat, 0]

def k1_chk116 (v1453 : BitVec 32) : Prop :=
  (∀ a, (k1_off116 v1453) a + S1x64.size a ≤ S100000x64.size a)
instance k1_chk116.dec : ∀ (v1453 : BitVec 32), Decidable (k1_chk116 v1453) := fun v1453 => decidable_of_iff' _ (Iff.of_eq (k1_chk116.eq_1 v1453))
theorem k1_off116_inb : ∀ (v1453 : BitVec 32) (k1_hw116 : k1_chk116 v1453), ∀ a, (k1_off116 v1453) a + S1x64.size a ≤ S100000x64.size a := fun v1453 k1_hw116 => k1_hw116

def k1_off117 (v1466 : BitVec 32) : Fin 2 → Nat :=
  let c0_i32_895 : BitVec 32 := 0#32
  ![v1466.toNat, 0]

def k1_chk117 (v1466 : BitVec 32) : Prop :=
  (∀ a, (k1_off117 v1466) a + S1x64.size a ≤ S100000x64.size a)
instance k1_chk117.dec : ∀ (v1466 : BitVec 32), Decidable (k1_chk117 v1466) := fun v1466 => decidable_of_iff' _ (Iff.of_eq (k1_chk117.eq_1 v1466))
theorem k1_off117_inb : ∀ (v1466 : BitVec 32) (k1_hw117 : k1_chk117 v1466), ∀ a, (k1_off117 v1466) a + S1x64.size a ≤ S100000x64.size a := fun v1466 k1_hw117 => k1_hw117

def k1_off118 (v1479 : BitVec 32) : Fin 2 → Nat :=
  let c0_i32_903 : BitVec 32 := 0#32
  ![v1479.toNat, 0]

def k1_chk118 (v1479 : BitVec 32) : Prop :=
  (∀ a, (k1_off118 v1479) a + S1x64.size a ≤ S100000x64.size a)
instance k1_chk118.dec : ∀ (v1479 : BitVec 32), Decidable (k1_chk118 v1479) := fun v1479 => decidable_of_iff' _ (Iff.of_eq (k1_chk118.eq_1 v1479))
theorem k1_off118_inb : ∀ (v1479 : BitVec 32) (k1_hw118 : k1_chk118 v1479), ∀ a, (k1_off118 v1479) a + S1x64.size a ≤ S100000x64.size a := fun v1479 k1_hw118 => k1_hw118

def k1_off119 (v1492 : BitVec 32) : Fin 2 → Nat :=
  let c0_i32_911 : BitVec 32 := 0#32
  ![v1492.toNat, 0]

def k1_chk119 (v1492 : BitVec 32) : Prop :=
  (∀ a, (k1_off119 v1492) a + S1x64.size a ≤ S100000x64.size a)
instance k1_chk119.dec : ∀ (v1492 : BitVec 32), Decidable (k1_chk119 v1492) := fun v1492 => decidable_of_iff' _ (Iff.of_eq (k1_chk119.eq_1 v1492))
theorem k1_off119_inb : ∀ (v1492 : BitVec 32) (k1_hw119 : k1_chk119 v1492), ∀ a, (k1_off119 v1492) a + S1x64.size a ≤ S100000x64.size a := fun v1492 k1_hw119 => k1_hw119

def k1_off120 (v1505 : BitVec 32) : Fin 2 → Nat :=
  let c0_i32_919 : BitVec 32 := 0#32
  ![v1505.toNat, 0]

def k1_chk120 (v1505 : BitVec 32) : Prop :=
  (∀ a, (k1_off120 v1505) a + S1x64.size a ≤ S100000x64.size a)
instance k1_chk120.dec : ∀ (v1505 : BitVec 32), Decidable (k1_chk120 v1505) := fun v1505 => decidable_of_iff' _ (Iff.of_eq (k1_chk120.eq_1 v1505))
theorem k1_off120_inb : ∀ (v1505 : BitVec 32) (k1_hw120 : k1_chk120 v1505), ∀ a, (k1_off120 v1505) a + S1x64.size a ≤ S100000x64.size a := fun v1505 k1_hw120 => k1_hw120

def k1_off121 (v1518 : BitVec 32) : Fin 2 → Nat :=
  let c0_i32_927 : BitVec 32 := 0#32
  ![v1518.toNat, 0]

def k1_chk121 (v1518 : BitVec 32) : Prop :=
  (∀ a, (k1_off121 v1518) a + S1x64.size a ≤ S100000x64.size a)
instance k1_chk121.dec : ∀ (v1518 : BitVec 32), Decidable (k1_chk121 v1518) := fun v1518 => decidable_of_iff' _ (Iff.of_eq (k1_chk121.eq_1 v1518))
theorem k1_off121_inb : ∀ (v1518 : BitVec 32) (k1_hw121 : k1_chk121 v1518), ∀ a, (k1_off121 v1518) a + S1x64.size a ≤ S100000x64.size a := fun v1518 k1_hw121 => k1_hw121

def k1_off122 (v1531 : BitVec 32) : Fin 2 → Nat :=
  let c0_i32_935 : BitVec 32 := 0#32
  ![v1531.toNat, 0]

def k1_chk122 (v1531 : BitVec 32) : Prop :=
  (∀ a, (k1_off122 v1531) a + S1x64.size a ≤ S100000x64.size a)
instance k1_chk122.dec : ∀ (v1531 : BitVec 32), Decidable (k1_chk122 v1531) := fun v1531 => decidable_of_iff' _ (Iff.of_eq (k1_chk122.eq_1 v1531))
theorem k1_off122_inb : ∀ (v1531 : BitVec 32) (k1_hw122 : k1_chk122 v1531), ∀ a, (k1_off122 v1531) a + S1x64.size a ≤ S100000x64.size a := fun v1531 k1_hw122 => k1_hw122

def k1_off123 (v1544 : BitVec 32) : Fin 2 → Nat :=
  let c0_i32_943 : BitVec 32 := 0#32
  ![v1544.toNat, 0]

def k1_chk123 (v1544 : BitVec 32) : Prop :=
  (∀ a, (k1_off123 v1544) a + S1x64.size a ≤ S100000x64.size a)
instance k1_chk123.dec : ∀ (v1544 : BitVec 32), Decidable (k1_chk123 v1544) := fun v1544 => decidable_of_iff' _ (Iff.of_eq (k1_chk123.eq_1 v1544))
theorem k1_off123_inb : ∀ (v1544 : BitVec 32) (k1_hw123 : k1_chk123 v1544), ∀ a, (k1_off123 v1544) a + S1x64.size a ≤ S100000x64.size a := fun v1544 k1_hw123 => k1_hw123

def k1_off124 (v1557 : BitVec 32) : Fin 2 → Nat :=
  let c0_i32_951 : BitVec 32 := 0#32
  ![v1557.toNat, 0]

def k1_chk124 (v1557 : BitVec 32) : Prop :=
  (∀ a, (k1_off124 v1557) a + S1x64.size a ≤ S100000x64.size a)
instance k1_chk124.dec : ∀ (v1557 : BitVec 32), Decidable (k1_chk124 v1557) := fun v1557 => decidable_of_iff' _ (Iff.of_eq (k1_chk124.eq_1 v1557))
theorem k1_off124_inb : ∀ (v1557 : BitVec 32) (k1_hw124 : k1_chk124 v1557), ∀ a, (k1_off124 v1557) a + S1x64.size a ≤ S100000x64.size a := fun v1557 k1_hw124 => k1_hw124

def k1_off125 (v1570 : BitVec 32) : Fin 2 → Nat :=
  let c0_i32_959 : BitVec 32 := 0#32
  ![v1570.toNat, 0]

def k1_chk125 (v1570 : BitVec 32) : Prop :=
  (∀ a, (k1_off125 v1570) a + S1x64.size a ≤ S100000x64.size a)
instance k1_chk125.dec : ∀ (v1570 : BitVec 32), Decidable (k1_chk125 v1570) := fun v1570 => decidable_of_iff' _ (Iff.of_eq (k1_chk125.eq_1 v1570))
theorem k1_off125_inb : ∀ (v1570 : BitVec 32) (k1_hw125 : k1_chk125 v1570), ∀ a, (k1_off125 v1570) a + S1x64.size a ≤ S100000x64.size a := fun v1570 k1_hw125 => k1_hw125

def k1_off126 (v1583 : BitVec 32) : Fin 2 → Nat :=
  let c0_i32_967 : BitVec 32 := 0#32
  ![v1583.toNat, 0]

def k1_chk126 (v1583 : BitVec 32) : Prop :=
  (∀ a, (k1_off126 v1583) a + S1x64.size a ≤ S100000x64.size a)
instance k1_chk126.dec : ∀ (v1583 : BitVec 32), Decidable (k1_chk126 v1583) := fun v1583 => decidable_of_iff' _ (Iff.of_eq (k1_chk126.eq_1 v1583))
theorem k1_off126_inb : ∀ (v1583 : BitVec 32) (k1_hw126 : k1_chk126 v1583), ∀ a, (k1_off126 v1583) a + S1x64.size a ≤ S100000x64.size a := fun v1583 k1_hw126 => k1_hw126

def k1_off127 (v1596 : BitVec 32) : Fin 2 → Nat :=
  let c0_i32_975 : BitVec 32 := 0#32
  ![v1596.toNat, 0]

def k1_chk127 (v1596 : BitVec 32) : Prop :=
  (∀ a, (k1_off127 v1596) a + S1x64.size a ≤ S100000x64.size a)
instance k1_chk127.dec : ∀ (v1596 : BitVec 32), Decidable (k1_chk127 v1596) := fun v1596 => decidable_of_iff' _ (Iff.of_eq (k1_chk127.eq_1 v1596))
theorem k1_off127_inb : ∀ (v1596 : BitVec 32) (k1_hw127 : k1_chk127 v1596), ∀ a, (k1_off127 v1596) a + S1x64.size a ≤ S100000x64.size a := fun v1596 k1_hw127 => k1_hw127

def k1_off128 (v1609 : BitVec 32) : Fin 2 → Nat :=
  let c0_i32_983 : BitVec 32 := 0#32
  ![v1609.toNat, 0]

def k1_chk128 (v1609 : BitVec 32) : Prop :=
  (∀ a, (k1_off128 v1609) a + S1x64.size a ≤ S100000x64.size a)
instance k1_chk128.dec : ∀ (v1609 : BitVec 32), Decidable (k1_chk128 v1609) := fun v1609 => decidable_of_iff' _ (Iff.of_eq (k1_chk128.eq_1 v1609))
theorem k1_off128_inb : ∀ (v1609 : BitVec 32) (k1_hw128 : k1_chk128 v1609), ∀ a, (k1_off128 v1609) a + S1x64.size a ≤ S100000x64.size a := fun v1609 k1_hw128 => k1_hw128

def k1_off129 (v1622 : BitVec 32) : Fin 2 → Nat :=
  let c0_i32_991 : BitVec 32 := 0#32
  ![v1622.toNat, 0]

def k1_chk129 (v1622 : BitVec 32) : Prop :=
  (∀ a, (k1_off129 v1622) a + S1x64.size a ≤ S100000x64.size a)
instance k1_chk129.dec : ∀ (v1622 : BitVec 32), Decidable (k1_chk129 v1622) := fun v1622 => decidable_of_iff' _ (Iff.of_eq (k1_chk129.eq_1 v1622))
theorem k1_off129_inb : ∀ (v1622 : BitVec 32) (k1_hw129 : k1_chk129 v1622), ∀ a, (k1_off129 v1622) a + S1x64.size a ≤ S100000x64.size a := fun v1622 k1_hw129 => k1_hw129

def k1_off130 (v1635 : BitVec 32) : Fin 2 → Nat :=
  let c0_i32_999 : BitVec 32 := 0#32
  ![v1635.toNat, 0]

def k1_chk130 (v1635 : BitVec 32) : Prop :=
  (∀ a, (k1_off130 v1635) a + S1x64.size a ≤ S100000x64.size a)
instance k1_chk130.dec : ∀ (v1635 : BitVec 32), Decidable (k1_chk130 v1635) := fun v1635 => decidable_of_iff' _ (Iff.of_eq (k1_chk130.eq_1 v1635))
theorem k1_off130_inb : ∀ (v1635 : BitVec 32) (k1_hw130 : k1_chk130 v1635), ∀ a, (k1_off130 v1635) a + S1x64.size a ≤ S100000x64.size a := fun v1635 k1_hw130 => k1_hw130

def k1_off131 (v1648 : BitVec 32) : Fin 2 → Nat :=
  let c0_i32_1007 : BitVec 32 := 0#32
  ![v1648.toNat, 0]

def k1_chk131 (v1648 : BitVec 32) : Prop :=
  (∀ a, (k1_off131 v1648) a + S1x64.size a ≤ S100000x64.size a)
instance k1_chk131.dec : ∀ (v1648 : BitVec 32), Decidable (k1_chk131 v1648) := fun v1648 => decidable_of_iff' _ (Iff.of_eq (k1_chk131.eq_1 v1648))
theorem k1_off131_inb : ∀ (v1648 : BitVec 32) (k1_hw131 : k1_chk131 v1648), ∀ a, (k1_off131 v1648) a + S1x64.size a ≤ S100000x64.size a := fun v1648 k1_hw131 => k1_hw131

def k1_off132 (v1661 : BitVec 32) : Fin 2 → Nat :=
  let c0_i32_1015 : BitVec 32 := 0#32
  ![v1661.toNat, 0]

def k1_chk132 (v1661 : BitVec 32) : Prop :=
  (∀ a, (k1_off132 v1661) a + S1x64.size a ≤ S100000x64.size a)
instance k1_chk132.dec : ∀ (v1661 : BitVec 32), Decidable (k1_chk132 v1661) := fun v1661 => decidable_of_iff' _ (Iff.of_eq (k1_chk132.eq_1 v1661))
theorem k1_off132_inb : ∀ (v1661 : BitVec 32) (k1_hw132 : k1_chk132 v1661), ∀ a, (k1_off132 v1661) a + S1x64.size a ≤ S100000x64.size a := fun v1661 k1_hw132 => k1_hw132

def k1_off133 (v1674 : BitVec 32) : Fin 2 → Nat :=
  let c0_i32_1023 : BitVec 32 := 0#32
  ![v1674.toNat, 0]

def k1_chk133 (v1674 : BitVec 32) : Prop :=
  (∀ a, (k1_off133 v1674) a + S1x64.size a ≤ S100000x64.size a)
instance k1_chk133.dec : ∀ (v1674 : BitVec 32), Decidable (k1_chk133 v1674) := fun v1674 => decidable_of_iff' _ (Iff.of_eq (k1_chk133.eq_1 v1674))
theorem k1_off133_inb : ∀ (v1674 : BitVec 32) (k1_hw133 : k1_chk133 v1674), ∀ a, (k1_off133 v1674) a + S1x64.size a ≤ S100000x64.size a := fun v1674 k1_hw133 => k1_hw133

def k1_off134 (v1687 : BitVec 32) : Fin 2 → Nat :=
  let c0_i32_1031 : BitVec 32 := 0#32
  ![v1687.toNat, 0]

def k1_chk134 (v1687 : BitVec 32) : Prop :=
  (∀ a, (k1_off134 v1687) a + S1x64.size a ≤ S100000x64.size a)
instance k1_chk134.dec : ∀ (v1687 : BitVec 32), Decidable (k1_chk134 v1687) := fun v1687 => decidable_of_iff' _ (Iff.of_eq (k1_chk134.eq_1 v1687))
theorem k1_off134_inb : ∀ (v1687 : BitVec 32) (k1_hw134 : k1_chk134 v1687), ∀ a, (k1_off134 v1687) a + S1x64.size a ≤ S100000x64.size a := fun v1687 k1_hw134 => k1_hw134

def k1_off135 (v1700 : BitVec 32) : Fin 2 → Nat :=
  let c0_i32_1039 : BitVec 32 := 0#32
  ![v1700.toNat, 0]

def k1_chk135 (v1700 : BitVec 32) : Prop :=
  (∀ a, (k1_off135 v1700) a + S1x64.size a ≤ S100000x64.size a)
instance k1_chk135.dec : ∀ (v1700 : BitVec 32), Decidable (k1_chk135 v1700) := fun v1700 => decidable_of_iff' _ (Iff.of_eq (k1_chk135.eq_1 v1700))
theorem k1_off135_inb : ∀ (v1700 : BitVec 32) (k1_hw135 : k1_chk135 v1700), ∀ a, (k1_off135 v1700) a + S1x64.size a ≤ S100000x64.size a := fun v1700 k1_hw135 => k1_hw135

def k1_off136 (v1713 : BitVec 32) : Fin 2 → Nat :=
  let c0_i32_1047 : BitVec 32 := 0#32
  ![v1713.toNat, 0]

def k1_chk136 (v1713 : BitVec 32) : Prop :=
  (∀ a, (k1_off136 v1713) a + S1x64.size a ≤ S100000x64.size a)
instance k1_chk136.dec : ∀ (v1713 : BitVec 32), Decidable (k1_chk136 v1713) := fun v1713 => decidable_of_iff' _ (Iff.of_eq (k1_chk136.eq_1 v1713))
theorem k1_off136_inb : ∀ (v1713 : BitVec 32) (k1_hw136 : k1_chk136 v1713), ∀ a, (k1_off136 v1713) a + S1x64.size a ≤ S100000x64.size a := fun v1713 k1_hw136 => k1_hw136

def k1_off137 (v1726 : BitVec 32) : Fin 2 → Nat :=
  let c0_i32_1055 : BitVec 32 := 0#32
  ![v1726.toNat, 0]

def k1_chk137 (v1726 : BitVec 32) : Prop :=
  (∀ a, (k1_off137 v1726) a + S1x64.size a ≤ S100000x64.size a)
instance k1_chk137.dec : ∀ (v1726 : BitVec 32), Decidable (k1_chk137 v1726) := fun v1726 => decidable_of_iff' _ (Iff.of_eq (k1_chk137.eq_1 v1726))
theorem k1_off137_inb : ∀ (v1726 : BitVec 32) (k1_hw137 : k1_chk137 v1726), ∀ a, (k1_off137 v1726) a + S1x64.size a ≤ S100000x64.size a := fun v1726 k1_hw137 => k1_hw137

def k1_off138 (v1739 : BitVec 32) : Fin 2 → Nat :=
  let c0_i32_1063 : BitVec 32 := 0#32
  ![v1739.toNat, 0]

def k1_chk138 (v1739 : BitVec 32) : Prop :=
  (∀ a, (k1_off138 v1739) a + S1x64.size a ≤ S100000x64.size a)
instance k1_chk138.dec : ∀ (v1739 : BitVec 32), Decidable (k1_chk138 v1739) := fun v1739 => decidable_of_iff' _ (Iff.of_eq (k1_chk138.eq_1 v1739))
theorem k1_off138_inb : ∀ (v1739 : BitVec 32) (k1_hw138 : k1_chk138 v1739), ∀ a, (k1_off138 v1739) a + S1x64.size a ≤ S100000x64.size a := fun v1739 k1_hw138 => k1_hw138

def k1_off139 (v1752 : BitVec 32) : Fin 2 → Nat :=
  let c0_i32_1071 : BitVec 32 := 0#32
  ![v1752.toNat, 0]

def k1_chk139 (v1752 : BitVec 32) : Prop :=
  (∀ a, (k1_off139 v1752) a + S1x64.size a ≤ S100000x64.size a)
instance k1_chk139.dec : ∀ (v1752 : BitVec 32), Decidable (k1_chk139 v1752) := fun v1752 => decidable_of_iff' _ (Iff.of_eq (k1_chk139.eq_1 v1752))
theorem k1_off139_inb : ∀ (v1752 : BitVec 32) (k1_hw139 : k1_chk139 v1752), ∀ a, (k1_off139 v1752) a + S1x64.size a ≤ S100000x64.size a := fun v1752 k1_hw139 => k1_hw139

def k1_off140 (v1765 : BitVec 32) : Fin 2 → Nat :=
  let c0_i32_1079 : BitVec 32 := 0#32
  ![v1765.toNat, 0]

def k1_chk140 (v1765 : BitVec 32) : Prop :=
  (∀ a, (k1_off140 v1765) a + S1x64.size a ≤ S100000x64.size a)
instance k1_chk140.dec : ∀ (v1765 : BitVec 32), Decidable (k1_chk140 v1765) := fun v1765 => decidable_of_iff' _ (Iff.of_eq (k1_chk140.eq_1 v1765))
theorem k1_off140_inb : ∀ (v1765 : BitVec 32) (k1_hw140 : k1_chk140 v1765), ∀ a, (k1_off140 v1765) a + S1x64.size a ≤ S100000x64.size a := fun v1765 k1_hw140 => k1_hw140

def k1_off141 (v1778 : BitVec 32) : Fin 2 → Nat :=
  let c0_i32_1087 : BitVec 32 := 0#32
  ![v1778.toNat, 0]

def k1_chk141 (v1778 : BitVec 32) : Prop :=
  (∀ a, (k1_off141 v1778) a + S1x64.size a ≤ S100000x64.size a)
instance k1_chk141.dec : ∀ (v1778 : BitVec 32), Decidable (k1_chk141 v1778) := fun v1778 => decidable_of_iff' _ (Iff.of_eq (k1_chk141.eq_1 v1778))
theorem k1_off141_inb : ∀ (v1778 : BitVec 32) (k1_hw141 : k1_chk141 v1778), ∀ a, (k1_off141 v1778) a + S1x64.size a ≤ S100000x64.size a := fun v1778 k1_hw141 => k1_hw141

def k1_off142 (v1791 : BitVec 32) : Fin 2 → Nat :=
  let c0_i32_1095 : BitVec 32 := 0#32
  ![v1791.toNat, 0]

def k1_chk142 (v1791 : BitVec 32) : Prop :=
  (∀ a, (k1_off142 v1791) a + S1x64.size a ≤ S100000x64.size a)
instance k1_chk142.dec : ∀ (v1791 : BitVec 32), Decidable (k1_chk142 v1791) := fun v1791 => decidable_of_iff' _ (Iff.of_eq (k1_chk142.eq_1 v1791))
theorem k1_off142_inb : ∀ (v1791 : BitVec 32) (k1_hw142 : k1_chk142 v1791), ∀ a, (k1_off142 v1791) a + S1x64.size a ≤ S100000x64.size a := fun v1791 k1_hw142 => k1_hw142

def k1_off143 (v1804 : BitVec 32) : Fin 2 → Nat :=
  let c0_i32_1103 : BitVec 32 := 0#32
  ![v1804.toNat, 0]

def k1_chk143 (v1804 : BitVec 32) : Prop :=
  (∀ a, (k1_off143 v1804) a + S1x64.size a ≤ S100000x64.size a)
instance k1_chk143.dec : ∀ (v1804 : BitVec 32), Decidable (k1_chk143 v1804) := fun v1804 => decidable_of_iff' _ (Iff.of_eq (k1_chk143.eq_1 v1804))
theorem k1_off143_inb : ∀ (v1804 : BitVec 32) (k1_hw143 : k1_chk143 v1804), ∀ a, (k1_off143 v1804) a + S1x64.size a ≤ S100000x64.size a := fun v1804 k1_hw143 => k1_hw143

def k1_off144 (v1817 : BitVec 32) : Fin 2 → Nat :=
  let c0_i32_1111 : BitVec 32 := 0#32
  ![v1817.toNat, 0]

def k1_chk144 (v1817 : BitVec 32) : Prop :=
  (∀ a, (k1_off144 v1817) a + S1x64.size a ≤ S100000x64.size a)
instance k1_chk144.dec : ∀ (v1817 : BitVec 32), Decidable (k1_chk144 v1817) := fun v1817 => decidable_of_iff' _ (Iff.of_eq (k1_chk144.eq_1 v1817))
theorem k1_off144_inb : ∀ (v1817 : BitVec 32) (k1_hw144 : k1_chk144 v1817), ∀ a, (k1_off144 v1817) a + S1x64.size a ≤ S100000x64.size a := fun v1817 k1_hw144 => k1_hw144

def k1_off145 (v1830 : BitVec 32) : Fin 2 → Nat :=
  let c0_i32_1119 : BitVec 32 := 0#32
  ![v1830.toNat, 0]

def k1_chk145 (v1830 : BitVec 32) : Prop :=
  (∀ a, (k1_off145 v1830) a + S1x64.size a ≤ S100000x64.size a)
instance k1_chk145.dec : ∀ (v1830 : BitVec 32), Decidable (k1_chk145 v1830) := fun v1830 => decidable_of_iff' _ (Iff.of_eq (k1_chk145.eq_1 v1830))
theorem k1_off145_inb : ∀ (v1830 : BitVec 32) (k1_hw145 : k1_chk145 v1830), ∀ a, (k1_off145 v1830) a + S1x64.size a ≤ S100000x64.size a := fun v1830 k1_hw145 => k1_hw145

def k1_off146 (v1843 : BitVec 32) : Fin 2 → Nat :=
  let c0_i32_1127 : BitVec 32 := 0#32
  ![v1843.toNat, 0]

def k1_chk146 (v1843 : BitVec 32) : Prop :=
  (∀ a, (k1_off146 v1843) a + S1x64.size a ≤ S100000x64.size a)
instance k1_chk146.dec : ∀ (v1843 : BitVec 32), Decidable (k1_chk146 v1843) := fun v1843 => decidable_of_iff' _ (Iff.of_eq (k1_chk146.eq_1 v1843))
theorem k1_off146_inb : ∀ (v1843 : BitVec 32) (k1_hw146 : k1_chk146 v1843), ∀ a, (k1_off146 v1843) a + S1x64.size a ≤ S100000x64.size a := fun v1843 k1_hw146 => k1_hw146

def k1_off147 (v1856 : BitVec 32) : Fin 2 → Nat :=
  let c0_i32_1135 : BitVec 32 := 0#32
  ![v1856.toNat, 0]

def k1_chk147 (v1856 : BitVec 32) : Prop :=
  (∀ a, (k1_off147 v1856) a + S1x64.size a ≤ S100000x64.size a)
instance k1_chk147.dec : ∀ (v1856 : BitVec 32), Decidable (k1_chk147 v1856) := fun v1856 => decidable_of_iff' _ (Iff.of_eq (k1_chk147.eq_1 v1856))
theorem k1_off147_inb : ∀ (v1856 : BitVec 32) (k1_hw147 : k1_chk147 v1856), ∀ a, (k1_off147 v1856) a + S1x64.size a ≤ S100000x64.size a := fun v1856 k1_hw147 => k1_hw147

def k1_off148 (v1869 : BitVec 32) : Fin 2 → Nat :=
  let c0_i32_1143 : BitVec 32 := 0#32
  ![v1869.toNat, 0]

def k1_chk148 (v1869 : BitVec 32) : Prop :=
  (∀ a, (k1_off148 v1869) a + S1x64.size a ≤ S100000x64.size a)
instance k1_chk148.dec : ∀ (v1869 : BitVec 32), Decidable (k1_chk148 v1869) := fun v1869 => decidable_of_iff' _ (Iff.of_eq (k1_chk148.eq_1 v1869))
theorem k1_off148_inb : ∀ (v1869 : BitVec 32) (k1_hw148 : k1_chk148 v1869), ∀ a, (k1_off148 v1869) a + S1x64.size a ≤ S100000x64.size a := fun v1869 k1_hw148 => k1_hw148

def k1_off149 (v1882 : BitVec 32) : Fin 2 → Nat :=
  let c0_i32_1151 : BitVec 32 := 0#32
  ![v1882.toNat, 0]

def k1_chk149 (v1882 : BitVec 32) : Prop :=
  (∀ a, (k1_off149 v1882) a + S1x64.size a ≤ S100000x64.size a)
instance k1_chk149.dec : ∀ (v1882 : BitVec 32), Decidable (k1_chk149 v1882) := fun v1882 => decidable_of_iff' _ (Iff.of_eq (k1_chk149.eq_1 v1882))
theorem k1_off149_inb : ∀ (v1882 : BitVec 32) (k1_hw149 : k1_chk149 v1882), ∀ a, (k1_off149 v1882) a + S1x64.size a ≤ S100000x64.size a := fun v1882 k1_hw149 => k1_hw149

def k1_off150 (v1895 : BitVec 32) : Fin 2 → Nat :=
  let c0_i32_1159 : BitVec 32 := 0#32
  ![v1895.toNat, 0]

def k1_chk150 (v1895 : BitVec 32) : Prop :=
  (∀ a, (k1_off150 v1895) a + S1x64.size a ≤ S100000x64.size a)
instance k1_chk150.dec : ∀ (v1895 : BitVec 32), Decidable (k1_chk150 v1895) := fun v1895 => decidable_of_iff' _ (Iff.of_eq (k1_chk150.eq_1 v1895))
theorem k1_off150_inb : ∀ (v1895 : BitVec 32) (k1_hw150 : k1_chk150 v1895), ∀ a, (k1_off150 v1895) a + S1x64.size a ≤ S100000x64.size a := fun v1895 k1_hw150 => k1_hw150

def k1_off151 (v1908 : BitVec 32) : Fin 2 → Nat :=
  let c0_i32_1167 : BitVec 32 := 0#32
  ![v1908.toNat, 0]

def k1_chk151 (v1908 : BitVec 32) : Prop :=
  (∀ a, (k1_off151 v1908) a + S1x64.size a ≤ S100000x64.size a)
instance k1_chk151.dec : ∀ (v1908 : BitVec 32), Decidable (k1_chk151 v1908) := fun v1908 => decidable_of_iff' _ (Iff.of_eq (k1_chk151.eq_1 v1908))
theorem k1_off151_inb : ∀ (v1908 : BitVec 32) (k1_hw151 : k1_chk151 v1908), ∀ a, (k1_off151 v1908) a + S1x64.size a ≤ S100000x64.size a := fun v1908 k1_hw151 => k1_hw151

def k1_off152 (v1921 : BitVec 32) : Fin 2 → Nat :=
  let c0_i32_1175 : BitVec 32 := 0#32
  ![v1921.toNat, 0]

def k1_chk152 (v1921 : BitVec 32) : Prop :=
  (∀ a, (k1_off152 v1921) a + S1x64.size a ≤ S100000x64.size a)
instance k1_chk152.dec : ∀ (v1921 : BitVec 32), Decidable (k1_chk152 v1921) := fun v1921 => decidable_of_iff' _ (Iff.of_eq (k1_chk152.eq_1 v1921))
theorem k1_off152_inb : ∀ (v1921 : BitVec 32) (k1_hw152 : k1_chk152 v1921), ∀ a, (k1_off152 v1921) a + S1x64.size a ≤ S100000x64.size a := fun v1921 k1_hw152 => k1_hw152

def k1_off153 (v1934 : BitVec 32) : Fin 2 → Nat :=
  let c0_i32_1183 : BitVec 32 := 0#32
  ![v1934.toNat, 0]

def k1_chk153 (v1934 : BitVec 32) : Prop :=
  (∀ a, (k1_off153 v1934) a + S1x64.size a ≤ S100000x64.size a)
instance k1_chk153.dec : ∀ (v1934 : BitVec 32), Decidable (k1_chk153 v1934) := fun v1934 => decidable_of_iff' _ (Iff.of_eq (k1_chk153.eq_1 v1934))
theorem k1_off153_inb : ∀ (v1934 : BitVec 32) (k1_hw153 : k1_chk153 v1934), ∀ a, (k1_off153 v1934) a + S1x64.size a ≤ S100000x64.size a := fun v1934 k1_hw153 => k1_hw153

def k1_off154 (v1947 : BitVec 32) : Fin 2 → Nat :=
  let c0_i32_1191 : BitVec 32 := 0#32
  ![v1947.toNat, 0]

def k1_chk154 (v1947 : BitVec 32) : Prop :=
  (∀ a, (k1_off154 v1947) a + S1x64.size a ≤ S100000x64.size a)
instance k1_chk154.dec : ∀ (v1947 : BitVec 32), Decidable (k1_chk154 v1947) := fun v1947 => decidable_of_iff' _ (Iff.of_eq (k1_chk154.eq_1 v1947))
theorem k1_off154_inb : ∀ (v1947 : BitVec 32) (k1_hw154 : k1_chk154 v1947), ∀ a, (k1_off154 v1947) a + S1x64.size a ≤ S100000x64.size a := fun v1947 k1_hw154 => k1_hw154

def k1_off155 (v1960 : BitVec 32) : Fin 2 → Nat :=
  let c0_i32_1199 : BitVec 32 := 0#32
  ![v1960.toNat, 0]

def k1_chk155 (v1960 : BitVec 32) : Prop :=
  (∀ a, (k1_off155 v1960) a + S1x64.size a ≤ S100000x64.size a)
instance k1_chk155.dec : ∀ (v1960 : BitVec 32), Decidable (k1_chk155 v1960) := fun v1960 => decidable_of_iff' _ (Iff.of_eq (k1_chk155.eq_1 v1960))
theorem k1_off155_inb : ∀ (v1960 : BitVec 32) (k1_hw155 : k1_chk155 v1960), ∀ a, (k1_off155 v1960) a + S1x64.size a ≤ S100000x64.size a := fun v1960 k1_hw155 => k1_hw155

def k1_off156 (v1973 : BitVec 32) : Fin 2 → Nat :=
  let c0_i32_1207 : BitVec 32 := 0#32
  ![v1973.toNat, 0]

def k1_chk156 (v1973 : BitVec 32) : Prop :=
  (∀ a, (k1_off156 v1973) a + S1x64.size a ≤ S100000x64.size a)
instance k1_chk156.dec : ∀ (v1973 : BitVec 32), Decidable (k1_chk156 v1973) := fun v1973 => decidable_of_iff' _ (Iff.of_eq (k1_chk156.eq_1 v1973))
theorem k1_off156_inb : ∀ (v1973 : BitVec 32) (k1_hw156 : k1_chk156 v1973), ∀ a, (k1_off156 v1973) a + S1x64.size a ≤ S100000x64.size a := fun v1973 k1_hw156 => k1_hw156

def k1_off157 (v1986 : BitVec 32) : Fin 2 → Nat :=
  let c0_i32_1215 : BitVec 32 := 0#32
  ![v1986.toNat, 0]

def k1_chk157 (v1986 : BitVec 32) : Prop :=
  (∀ a, (k1_off157 v1986) a + S1x64.size a ≤ S100000x64.size a)
instance k1_chk157.dec : ∀ (v1986 : BitVec 32), Decidable (k1_chk157 v1986) := fun v1986 => decidable_of_iff' _ (Iff.of_eq (k1_chk157.eq_1 v1986))
theorem k1_off157_inb : ∀ (v1986 : BitVec 32) (k1_hw157 : k1_chk157 v1986), ∀ a, (k1_off157 v1986) a + S1x64.size a ≤ S100000x64.size a := fun v1986 k1_hw157 => k1_hw157

def k1_off158 (v1999 : BitVec 32) : Fin 2 → Nat :=
  let c0_i32_1223 : BitVec 32 := 0#32
  ![v1999.toNat, 0]

def k1_chk158 (v1999 : BitVec 32) : Prop :=
  (∀ a, (k1_off158 v1999) a + S1x64.size a ≤ S100000x64.size a)
instance k1_chk158.dec : ∀ (v1999 : BitVec 32), Decidable (k1_chk158 v1999) := fun v1999 => decidable_of_iff' _ (Iff.of_eq (k1_chk158.eq_1 v1999))
theorem k1_off158_inb : ∀ (v1999 : BitVec 32) (k1_hw158 : k1_chk158 v1999), ∀ a, (k1_off158 v1999) a + S1x64.size a ≤ S100000x64.size a := fun v1999 k1_hw158 => k1_hw158

def k1_off159 (v2012 : BitVec 32) : Fin 2 → Nat :=
  let c0_i32_1231 : BitVec 32 := 0#32
  ![v2012.toNat, 0]

def k1_chk159 (v2012 : BitVec 32) : Prop :=
  (∀ a, (k1_off159 v2012) a + S1x64.size a ≤ S100000x64.size a)
instance k1_chk159.dec : ∀ (v2012 : BitVec 32), Decidable (k1_chk159 v2012) := fun v2012 => decidable_of_iff' _ (Iff.of_eq (k1_chk159.eq_1 v2012))
theorem k1_off159_inb : ∀ (v2012 : BitVec 32) (k1_hw159 : k1_chk159 v2012), ∀ a, (k1_off159 v2012) a + S1x64.size a ≤ S100000x64.size a := fun v2012 k1_hw159 => k1_hw159

def k1_off160 (v2025 : BitVec 32) : Fin 2 → Nat :=
  let c0_i32_1239 : BitVec 32 := 0#32
  ![v2025.toNat, 0]

def k1_chk160 (v2025 : BitVec 32) : Prop :=
  (∀ a, (k1_off160 v2025) a + S1x64.size a ≤ S100000x64.size a)
instance k1_chk160.dec : ∀ (v2025 : BitVec 32), Decidable (k1_chk160 v2025) := fun v2025 => decidable_of_iff' _ (Iff.of_eq (k1_chk160.eq_1 v2025))
theorem k1_off160_inb : ∀ (v2025 : BitVec 32) (k1_hw160 : k1_chk160 v2025), ∀ a, (k1_off160 v2025) a + S1x64.size a ≤ S100000x64.size a := fun v2025 k1_hw160 => k1_hw160

def k1_off161 (v2038 : BitVec 32) : Fin 2 → Nat :=
  let c0_i32_1247 : BitVec 32 := 0#32
  ![v2038.toNat, 0]

def k1_chk161 (v2038 : BitVec 32) : Prop :=
  (∀ a, (k1_off161 v2038) a + S1x64.size a ≤ S100000x64.size a)
instance k1_chk161.dec : ∀ (v2038 : BitVec 32), Decidable (k1_chk161 v2038) := fun v2038 => decidable_of_iff' _ (Iff.of_eq (k1_chk161.eq_1 v2038))
theorem k1_off161_inb : ∀ (v2038 : BitVec 32) (k1_hw161 : k1_chk161 v2038), ∀ a, (k1_off161 v2038) a + S1x64.size a ≤ S100000x64.size a := fun v2038 k1_hw161 => k1_hw161

def k1_off162 (v2051 : BitVec 32) : Fin 2 → Nat :=
  let c0_i32_1255 : BitVec 32 := 0#32
  ![v2051.toNat, 0]

def k1_chk162 (v2051 : BitVec 32) : Prop :=
  (∀ a, (k1_off162 v2051) a + S1x64.size a ≤ S100000x64.size a)
instance k1_chk162.dec : ∀ (v2051 : BitVec 32), Decidable (k1_chk162 v2051) := fun v2051 => decidable_of_iff' _ (Iff.of_eq (k1_chk162.eq_1 v2051))
theorem k1_off162_inb : ∀ (v2051 : BitVec 32) (k1_hw162 : k1_chk162 v2051), ∀ a, (k1_off162 v2051) a + S1x64.size a ≤ S100000x64.size a := fun v2051 k1_hw162 => k1_hw162

def k1_off163 (v2064 : BitVec 32) : Fin 2 → Nat :=
  let c0_i32_1263 : BitVec 32 := 0#32
  ![v2064.toNat, 0]

def k1_chk163 (v2064 : BitVec 32) : Prop :=
  (∀ a, (k1_off163 v2064) a + S1x64.size a ≤ S100000x64.size a)
instance k1_chk163.dec : ∀ (v2064 : BitVec 32), Decidable (k1_chk163 v2064) := fun v2064 => decidable_of_iff' _ (Iff.of_eq (k1_chk163.eq_1 v2064))
theorem k1_off163_inb : ∀ (v2064 : BitVec 32) (k1_hw163 : k1_chk163 v2064), ∀ a, (k1_off163 v2064) a + S1x64.size a ≤ S100000x64.size a := fun v2064 k1_hw163 => k1_hw163

def k1_off164 (v2077 : BitVec 32) : Fin 2 → Nat :=
  let c0_i32_1271 : BitVec 32 := 0#32
  ![v2077.toNat, 0]

def k1_chk164 (v2077 : BitVec 32) : Prop :=
  (∀ a, (k1_off164 v2077) a + S1x64.size a ≤ S100000x64.size a)
instance k1_chk164.dec : ∀ (v2077 : BitVec 32), Decidable (k1_chk164 v2077) := fun v2077 => decidable_of_iff' _ (Iff.of_eq (k1_chk164.eq_1 v2077))
theorem k1_off164_inb : ∀ (v2077 : BitVec 32) (k1_hw164 : k1_chk164 v2077), ∀ a, (k1_off164 v2077) a + S1x64.size a ≤ S100000x64.size a := fun v2077 k1_hw164 => k1_hw164

def k1_off165 (v2090 : BitVec 32) : Fin 2 → Nat :=
  let c0_i32_1279 : BitVec 32 := 0#32
  ![v2090.toNat, 0]

def k1_chk165 (v2090 : BitVec 32) : Prop :=
  (∀ a, (k1_off165 v2090) a + S1x64.size a ≤ S100000x64.size a)
instance k1_chk165.dec : ∀ (v2090 : BitVec 32), Decidable (k1_chk165 v2090) := fun v2090 => decidable_of_iff' _ (Iff.of_eq (k1_chk165.eq_1 v2090))
theorem k1_off165_inb : ∀ (v2090 : BitVec 32) (k1_hw165 : k1_chk165 v2090), ∀ a, (k1_off165 v2090) a + S1x64.size a ≤ S100000x64.size a := fun v2090 k1_hw165 => k1_hw165

def k1_off166 (v2103 : BitVec 32) : Fin 2 → Nat :=
  let c0_i32_1287 : BitVec 32 := 0#32
  ![v2103.toNat, 0]

def k1_chk166 (v2103 : BitVec 32) : Prop :=
  (∀ a, (k1_off166 v2103) a + S1x64.size a ≤ S100000x64.size a)
instance k1_chk166.dec : ∀ (v2103 : BitVec 32), Decidable (k1_chk166 v2103) := fun v2103 => decidable_of_iff' _ (Iff.of_eq (k1_chk166.eq_1 v2103))
theorem k1_off166_inb : ∀ (v2103 : BitVec 32) (k1_hw166 : k1_chk166 v2103), ∀ a, (k1_off166 v2103) a + S1x64.size a ≤ S100000x64.size a := fun v2103 k1_hw166 => k1_hw166

def k1_off167 (v2116 : BitVec 32) : Fin 2 → Nat :=
  let c0_i32_1295 : BitVec 32 := 0#32
  ![v2116.toNat, 0]

def k1_chk167 (v2116 : BitVec 32) : Prop :=
  (∀ a, (k1_off167 v2116) a + S1x64.size a ≤ S100000x64.size a)
instance k1_chk167.dec : ∀ (v2116 : BitVec 32), Decidable (k1_chk167 v2116) := fun v2116 => decidable_of_iff' _ (Iff.of_eq (k1_chk167.eq_1 v2116))
theorem k1_off167_inb : ∀ (v2116 : BitVec 32) (k1_hw167 : k1_chk167 v2116), ∀ a, (k1_off167 v2116) a + S1x64.size a ≤ S100000x64.size a := fun v2116 k1_hw167 => k1_hw167

def k1_off168 (v2129 : BitVec 32) : Fin 2 → Nat :=
  let c0_i32_1303 : BitVec 32 := 0#32
  ![v2129.toNat, 0]

def k1_chk168 (v2129 : BitVec 32) : Prop :=
  (∀ a, (k1_off168 v2129) a + S1x64.size a ≤ S100000x64.size a)
instance k1_chk168.dec : ∀ (v2129 : BitVec 32), Decidable (k1_chk168 v2129) := fun v2129 => decidable_of_iff' _ (Iff.of_eq (k1_chk168.eq_1 v2129))
theorem k1_off168_inb : ∀ (v2129 : BitVec 32) (k1_hw168 : k1_chk168 v2129), ∀ a, (k1_off168 v2129) a + S1x64.size a ≤ S100000x64.size a := fun v2129 k1_hw168 => k1_hw168

def k1_off169 (v2142 : BitVec 32) : Fin 2 → Nat :=
  let c0_i32_1311 : BitVec 32 := 0#32
  ![v2142.toNat, 0]

def k1_chk169 (v2142 : BitVec 32) : Prop :=
  (∀ a, (k1_off169 v2142) a + S1x64.size a ≤ S100000x64.size a)
instance k1_chk169.dec : ∀ (v2142 : BitVec 32), Decidable (k1_chk169 v2142) := fun v2142 => decidable_of_iff' _ (Iff.of_eq (k1_chk169.eq_1 v2142))
theorem k1_off169_inb : ∀ (v2142 : BitVec 32) (k1_hw169 : k1_chk169 v2142), ∀ a, (k1_off169 v2142) a + S1x64.size a ≤ S100000x64.size a := fun v2142 k1_hw169 => k1_hw169

def k1_off170 (v2155 : BitVec 32) : Fin 2 → Nat :=
  let c0_i32_1319 : BitVec 32 := 0#32
  ![v2155.toNat, 0]

def k1_chk170 (v2155 : BitVec 32) : Prop :=
  (∀ a, (k1_off170 v2155) a + S1x64.size a ≤ S100000x64.size a)
instance k1_chk170.dec : ∀ (v2155 : BitVec 32), Decidable (k1_chk170 v2155) := fun v2155 => decidable_of_iff' _ (Iff.of_eq (k1_chk170.eq_1 v2155))
theorem k1_off170_inb : ∀ (v2155 : BitVec 32) (k1_hw170 : k1_chk170 v2155), ∀ a, (k1_off170 v2155) a + S1x64.size a ≤ S100000x64.size a := fun v2155 k1_hw170 => k1_hw170

def k1_off171 (v2168 : BitVec 32) : Fin 2 → Nat :=
  let c0_i32_1327 : BitVec 32 := 0#32
  ![v2168.toNat, 0]

def k1_chk171 (v2168 : BitVec 32) : Prop :=
  (∀ a, (k1_off171 v2168) a + S1x64.size a ≤ S100000x64.size a)
instance k1_chk171.dec : ∀ (v2168 : BitVec 32), Decidable (k1_chk171 v2168) := fun v2168 => decidable_of_iff' _ (Iff.of_eq (k1_chk171.eq_1 v2168))
theorem k1_off171_inb : ∀ (v2168 : BitVec 32) (k1_hw171 : k1_chk171 v2168), ∀ a, (k1_off171 v2168) a + S1x64.size a ≤ S100000x64.size a := fun v2168 k1_hw171 => k1_hw171

def k1_off172 (v2181 : BitVec 32) : Fin 2 → Nat :=
  let c0_i32_1335 : BitVec 32 := 0#32
  ![v2181.toNat, 0]

def k1_chk172 (v2181 : BitVec 32) : Prop :=
  (∀ a, (k1_off172 v2181) a + S1x64.size a ≤ S100000x64.size a)
instance k1_chk172.dec : ∀ (v2181 : BitVec 32), Decidable (k1_chk172 v2181) := fun v2181 => decidable_of_iff' _ (Iff.of_eq (k1_chk172.eq_1 v2181))
theorem k1_off172_inb : ∀ (v2181 : BitVec 32) (k1_hw172 : k1_chk172 v2181), ∀ a, (k1_off172 v2181) a + S1x64.size a ≤ S100000x64.size a := fun v2181 k1_hw172 => k1_hw172

def k1_off173 (v2194 : BitVec 32) : Fin 2 → Nat :=
  let c0_i32_1343 : BitVec 32 := 0#32
  ![v2194.toNat, 0]

def k1_chk173 (v2194 : BitVec 32) : Prop :=
  (∀ a, (k1_off173 v2194) a + S1x64.size a ≤ S100000x64.size a)
instance k1_chk173.dec : ∀ (v2194 : BitVec 32), Decidable (k1_chk173 v2194) := fun v2194 => decidable_of_iff' _ (Iff.of_eq (k1_chk173.eq_1 v2194))
theorem k1_off173_inb : ∀ (v2194 : BitVec 32) (k1_hw173 : k1_chk173 v2194), ∀ a, (k1_off173 v2194) a + S1x64.size a ≤ S100000x64.size a := fun v2194 k1_hw173 => k1_hw173

def k1_off174 (v2207 : BitVec 32) : Fin 2 → Nat :=
  let c0_i32_1351 : BitVec 32 := 0#32
  ![v2207.toNat, 0]

def k1_chk174 (v2207 : BitVec 32) : Prop :=
  (∀ a, (k1_off174 v2207) a + S1x64.size a ≤ S100000x64.size a)
instance k1_chk174.dec : ∀ (v2207 : BitVec 32), Decidable (k1_chk174 v2207) := fun v2207 => decidable_of_iff' _ (Iff.of_eq (k1_chk174.eq_1 v2207))
theorem k1_off174_inb : ∀ (v2207 : BitVec 32) (k1_hw174 : k1_chk174 v2207), ∀ a, (k1_off174 v2207) a + S1x64.size a ≤ S100000x64.size a := fun v2207 k1_hw174 => k1_hw174

def k1_off175 (v2220 : BitVec 32) : Fin 2 → Nat :=
  let c0_i32_1359 : BitVec 32 := 0#32
  ![v2220.toNat, 0]

def k1_chk175 (v2220 : BitVec 32) : Prop :=
  (∀ a, (k1_off175 v2220) a + S1x64.size a ≤ S100000x64.size a)
instance k1_chk175.dec : ∀ (v2220 : BitVec 32), Decidable (k1_chk175 v2220) := fun v2220 => decidable_of_iff' _ (Iff.of_eq (k1_chk175.eq_1 v2220))
theorem k1_off175_inb : ∀ (v2220 : BitVec 32) (k1_hw175 : k1_chk175 v2220), ∀ a, (k1_off175 v2220) a + S1x64.size a ≤ S100000x64.size a := fun v2220 k1_hw175 => k1_hw175

def k1_off176 (v2233 : BitVec 32) : Fin 2 → Nat :=
  let c0_i32_1367 : BitVec 32 := 0#32
  ![v2233.toNat, 0]

def k1_chk176 (v2233 : BitVec 32) : Prop :=
  (∀ a, (k1_off176 v2233) a + S1x64.size a ≤ S100000x64.size a)
instance k1_chk176.dec : ∀ (v2233 : BitVec 32), Decidable (k1_chk176 v2233) := fun v2233 => decidable_of_iff' _ (Iff.of_eq (k1_chk176.eq_1 v2233))
theorem k1_off176_inb : ∀ (v2233 : BitVec 32) (k1_hw176 : k1_chk176 v2233), ∀ a, (k1_off176 v2233) a + S1x64.size a ≤ S100000x64.size a := fun v2233 k1_hw176 => k1_hw176

def k1_off177 (v2246 : BitVec 32) : Fin 2 → Nat :=
  let c0_i32_1375 : BitVec 32 := 0#32
  ![v2246.toNat, 0]

def k1_chk177 (v2246 : BitVec 32) : Prop :=
  (∀ a, (k1_off177 v2246) a + S1x64.size a ≤ S100000x64.size a)
instance k1_chk177.dec : ∀ (v2246 : BitVec 32), Decidable (k1_chk177 v2246) := fun v2246 => decidable_of_iff' _ (Iff.of_eq (k1_chk177.eq_1 v2246))
theorem k1_off177_inb : ∀ (v2246 : BitVec 32) (k1_hw177 : k1_chk177 v2246), ∀ a, (k1_off177 v2246) a + S1x64.size a ≤ S100000x64.size a := fun v2246 k1_hw177 => k1_hw177

def k1_off178 (v2259 : BitVec 32) : Fin 2 → Nat :=
  let c0_i32_1383 : BitVec 32 := 0#32
  ![v2259.toNat, 0]

def k1_chk178 (v2259 : BitVec 32) : Prop :=
  (∀ a, (k1_off178 v2259) a + S1x64.size a ≤ S100000x64.size a)
instance k1_chk178.dec : ∀ (v2259 : BitVec 32), Decidable (k1_chk178 v2259) := fun v2259 => decidable_of_iff' _ (Iff.of_eq (k1_chk178.eq_1 v2259))
theorem k1_off178_inb : ∀ (v2259 : BitVec 32) (k1_hw178 : k1_chk178 v2259), ∀ a, (k1_off178 v2259) a + S1x64.size a ≤ S100000x64.size a := fun v2259 k1_hw178 => k1_hw178

def k1_off179 (v2272 : BitVec 32) : Fin 2 → Nat :=
  let c0_i32_1391 : BitVec 32 := 0#32
  ![v2272.toNat, 0]

def k1_chk179 (v2272 : BitVec 32) : Prop :=
  (∀ a, (k1_off179 v2272) a + S1x64.size a ≤ S100000x64.size a)
instance k1_chk179.dec : ∀ (v2272 : BitVec 32), Decidable (k1_chk179 v2272) := fun v2272 => decidable_of_iff' _ (Iff.of_eq (k1_chk179.eq_1 v2272))
theorem k1_off179_inb : ∀ (v2272 : BitVec 32) (k1_hw179 : k1_chk179 v2272), ∀ a, (k1_off179 v2272) a + S1x64.size a ≤ S100000x64.size a := fun v2272 k1_hw179 => k1_hw179

def k1_off180 (v2285 : BitVec 32) : Fin 2 → Nat :=
  let c0_i32_1399 : BitVec 32 := 0#32
  ![v2285.toNat, 0]

def k1_chk180 (v2285 : BitVec 32) : Prop :=
  (∀ a, (k1_off180 v2285) a + S1x64.size a ≤ S100000x64.size a)
instance k1_chk180.dec : ∀ (v2285 : BitVec 32), Decidable (k1_chk180 v2285) := fun v2285 => decidable_of_iff' _ (Iff.of_eq (k1_chk180.eq_1 v2285))
theorem k1_off180_inb : ∀ (v2285 : BitVec 32) (k1_hw180 : k1_chk180 v2285), ∀ a, (k1_off180 v2285) a + S1x64.size a ≤ S100000x64.size a := fun v2285 k1_hw180 => k1_hw180

def k1_off181 (v2298 : BitVec 32) : Fin 2 → Nat :=
  let c0_i32_1407 : BitVec 32 := 0#32
  ![v2298.toNat, 0]

def k1_chk181 (v2298 : BitVec 32) : Prop :=
  (∀ a, (k1_off181 v2298) a + S1x64.size a ≤ S100000x64.size a)
instance k1_chk181.dec : ∀ (v2298 : BitVec 32), Decidable (k1_chk181 v2298) := fun v2298 => decidable_of_iff' _ (Iff.of_eq (k1_chk181.eq_1 v2298))
theorem k1_off181_inb : ∀ (v2298 : BitVec 32) (k1_hw181 : k1_chk181 v2298), ∀ a, (k1_off181 v2298) a + S1x64.size a ≤ S100000x64.size a := fun v2298 k1_hw181 => k1_hw181

def k1_off182 (v2311 : BitVec 32) : Fin 2 → Nat :=
  let c0_i32_1415 : BitVec 32 := 0#32
  ![v2311.toNat, 0]

def k1_chk182 (v2311 : BitVec 32) : Prop :=
  (∀ a, (k1_off182 v2311) a + S1x64.size a ≤ S100000x64.size a)
instance k1_chk182.dec : ∀ (v2311 : BitVec 32), Decidable (k1_chk182 v2311) := fun v2311 => decidable_of_iff' _ (Iff.of_eq (k1_chk182.eq_1 v2311))
theorem k1_off182_inb : ∀ (v2311 : BitVec 32) (k1_hw182 : k1_chk182 v2311), ∀ a, (k1_off182 v2311) a + S1x64.size a ≤ S100000x64.size a := fun v2311 k1_hw182 => k1_hw182

def k1_off183 (v2324 : BitVec 32) : Fin 2 → Nat :=
  let c0_i32_1423 : BitVec 32 := 0#32
  ![v2324.toNat, 0]

def k1_chk183 (v2324 : BitVec 32) : Prop :=
  (∀ a, (k1_off183 v2324) a + S1x64.size a ≤ S100000x64.size a)
instance k1_chk183.dec : ∀ (v2324 : BitVec 32), Decidable (k1_chk183 v2324) := fun v2324 => decidable_of_iff' _ (Iff.of_eq (k1_chk183.eq_1 v2324))
theorem k1_off183_inb : ∀ (v2324 : BitVec 32) (k1_hw183 : k1_chk183 v2324), ∀ a, (k1_off183 v2324) a + S1x64.size a ≤ S100000x64.size a := fun v2324 k1_hw183 => k1_hw183

def k1_off184 (v2337 : BitVec 32) : Fin 2 → Nat :=
  let c0_i32_1431 : BitVec 32 := 0#32
  ![v2337.toNat, 0]

def k1_chk184 (v2337 : BitVec 32) : Prop :=
  (∀ a, (k1_off184 v2337) a + S1x64.size a ≤ S100000x64.size a)
instance k1_chk184.dec : ∀ (v2337 : BitVec 32), Decidable (k1_chk184 v2337) := fun v2337 => decidable_of_iff' _ (Iff.of_eq (k1_chk184.eq_1 v2337))
theorem k1_off184_inb : ∀ (v2337 : BitVec 32) (k1_hw184 : k1_chk184 v2337), ∀ a, (k1_off184 v2337) a + S1x64.size a ≤ S100000x64.size a := fun v2337 k1_hw184 => k1_hw184

def k1_off185 (v2350 : BitVec 32) : Fin 2 → Nat :=
  let c0_i32_1439 : BitVec 32 := 0#32
  ![v2350.toNat, 0]

def k1_chk185 (v2350 : BitVec 32) : Prop :=
  (∀ a, (k1_off185 v2350) a + S1x64.size a ≤ S100000x64.size a)
instance k1_chk185.dec : ∀ (v2350 : BitVec 32), Decidable (k1_chk185 v2350) := fun v2350 => decidable_of_iff' _ (Iff.of_eq (k1_chk185.eq_1 v2350))
theorem k1_off185_inb : ∀ (v2350 : BitVec 32) (k1_hw185 : k1_chk185 v2350), ∀ a, (k1_off185 v2350) a + S1x64.size a ≤ S100000x64.size a := fun v2350 k1_hw185 => k1_hw185

def k1_off186 (v2363 : BitVec 32) : Fin 2 → Nat :=
  let c0_i32_1447 : BitVec 32 := 0#32
  ![v2363.toNat, 0]

def k1_chk186 (v2363 : BitVec 32) : Prop :=
  (∀ a, (k1_off186 v2363) a + S1x64.size a ≤ S100000x64.size a)
instance k1_chk186.dec : ∀ (v2363 : BitVec 32), Decidable (k1_chk186 v2363) := fun v2363 => decidable_of_iff' _ (Iff.of_eq (k1_chk186.eq_1 v2363))
theorem k1_off186_inb : ∀ (v2363 : BitVec 32) (k1_hw186 : k1_chk186 v2363), ∀ a, (k1_off186 v2363) a + S1x64.size a ≤ S100000x64.size a := fun v2363 k1_hw186 => k1_hw186

def k1_off187 (v2376 : BitVec 32) : Fin 2 → Nat :=
  let c0_i32_1455 : BitVec 32 := 0#32
  ![v2376.toNat, 0]

def k1_chk187 (v2376 : BitVec 32) : Prop :=
  (∀ a, (k1_off187 v2376) a + S1x64.size a ≤ S100000x64.size a)
instance k1_chk187.dec : ∀ (v2376 : BitVec 32), Decidable (k1_chk187 v2376) := fun v2376 => decidable_of_iff' _ (Iff.of_eq (k1_chk187.eq_1 v2376))
theorem k1_off187_inb : ∀ (v2376 : BitVec 32) (k1_hw187 : k1_chk187 v2376), ∀ a, (k1_off187 v2376) a + S1x64.size a ≤ S100000x64.size a := fun v2376 k1_hw187 => k1_hw187

def k1_off188 (v2389 : BitVec 32) : Fin 2 → Nat :=
  let c0_i32_1463 : BitVec 32 := 0#32
  ![v2389.toNat, 0]

def k1_chk188 (v2389 : BitVec 32) : Prop :=
  (∀ a, (k1_off188 v2389) a + S1x64.size a ≤ S100000x64.size a)
instance k1_chk188.dec : ∀ (v2389 : BitVec 32), Decidable (k1_chk188 v2389) := fun v2389 => decidable_of_iff' _ (Iff.of_eq (k1_chk188.eq_1 v2389))
theorem k1_off188_inb : ∀ (v2389 : BitVec 32) (k1_hw188 : k1_chk188 v2389), ∀ a, (k1_off188 v2389) a + S1x64.size a ≤ S100000x64.size a := fun v2389 k1_hw188 => k1_hw188

def k1_off189 (v2402 : BitVec 32) : Fin 2 → Nat :=
  let c0_i32_1471 : BitVec 32 := 0#32
  ![v2402.toNat, 0]

def k1_chk189 (v2402 : BitVec 32) : Prop :=
  (∀ a, (k1_off189 v2402) a + S1x64.size a ≤ S100000x64.size a)
instance k1_chk189.dec : ∀ (v2402 : BitVec 32), Decidable (k1_chk189 v2402) := fun v2402 => decidable_of_iff' _ (Iff.of_eq (k1_chk189.eq_1 v2402))
theorem k1_off189_inb : ∀ (v2402 : BitVec 32) (k1_hw189 : k1_chk189 v2402), ∀ a, (k1_off189 v2402) a + S1x64.size a ≤ S100000x64.size a := fun v2402 k1_hw189 => k1_hw189

def k1_off190 (v2415 : BitVec 32) : Fin 2 → Nat :=
  let c0_i32_1479 : BitVec 32 := 0#32
  ![v2415.toNat, 0]

def k1_chk190 (v2415 : BitVec 32) : Prop :=
  (∀ a, (k1_off190 v2415) a + S1x64.size a ≤ S100000x64.size a)
instance k1_chk190.dec : ∀ (v2415 : BitVec 32), Decidable (k1_chk190 v2415) := fun v2415 => decidable_of_iff' _ (Iff.of_eq (k1_chk190.eq_1 v2415))
theorem k1_off190_inb : ∀ (v2415 : BitVec 32) (k1_hw190 : k1_chk190 v2415), ∀ a, (k1_off190 v2415) a + S1x64.size a ≤ S100000x64.size a := fun v2415 k1_hw190 => k1_hw190

def k1_off191 (v2428 : BitVec 32) : Fin 2 → Nat :=
  let c0_i32_1487 : BitVec 32 := 0#32
  ![v2428.toNat, 0]

def k1_chk191 (v2428 : BitVec 32) : Prop :=
  (∀ a, (k1_off191 v2428) a + S1x64.size a ≤ S100000x64.size a)
instance k1_chk191.dec : ∀ (v2428 : BitVec 32), Decidable (k1_chk191 v2428) := fun v2428 => decidable_of_iff' _ (Iff.of_eq (k1_chk191.eq_1 v2428))
theorem k1_off191_inb : ∀ (v2428 : BitVec 32) (k1_hw191 : k1_chk191 v2428), ∀ a, (k1_off191 v2428) a + S1x64.size a ≤ S100000x64.size a := fun v2428 k1_hw191 => k1_hw191

def k1_off192 (v2441 : BitVec 32) : Fin 2 → Nat :=
  let c0_i32_1495 : BitVec 32 := 0#32
  ![v2441.toNat, 0]

def k1_chk192 (v2441 : BitVec 32) : Prop :=
  (∀ a, (k1_off192 v2441) a + S1x64.size a ≤ S100000x64.size a)
instance k1_chk192.dec : ∀ (v2441 : BitVec 32), Decidable (k1_chk192 v2441) := fun v2441 => decidable_of_iff' _ (Iff.of_eq (k1_chk192.eq_1 v2441))
theorem k1_off192_inb : ∀ (v2441 : BitVec 32) (k1_hw192 : k1_chk192 v2441), ∀ a, (k1_off192 v2441) a + S1x64.size a ≤ S100000x64.size a := fun v2441 k1_hw192 => k1_hw192

def k1_off193 (v2454 : BitVec 32) : Fin 2 → Nat :=
  let c0_i32_1503 : BitVec 32 := 0#32
  ![v2454.toNat, 0]

def k1_chk193 (v2454 : BitVec 32) : Prop :=
  (∀ a, (k1_off193 v2454) a + S1x64.size a ≤ S100000x64.size a)
instance k1_chk193.dec : ∀ (v2454 : BitVec 32), Decidable (k1_chk193 v2454) := fun v2454 => decidable_of_iff' _ (Iff.of_eq (k1_chk193.eq_1 v2454))
theorem k1_off193_inb : ∀ (v2454 : BitVec 32) (k1_hw193 : k1_chk193 v2454), ∀ a, (k1_off193 v2454) a + S1x64.size a ≤ S100000x64.size a := fun v2454 k1_hw193 => k1_hw193

def k1_off194 (v2467 : BitVec 32) : Fin 2 → Nat :=
  let c0_i32_1511 : BitVec 32 := 0#32
  ![v2467.toNat, 0]

def k1_chk194 (v2467 : BitVec 32) : Prop :=
  (∀ a, (k1_off194 v2467) a + S1x64.size a ≤ S100000x64.size a)
instance k1_chk194.dec : ∀ (v2467 : BitVec 32), Decidable (k1_chk194 v2467) := fun v2467 => decidable_of_iff' _ (Iff.of_eq (k1_chk194.eq_1 v2467))
theorem k1_off194_inb : ∀ (v2467 : BitVec 32) (k1_hw194 : k1_chk194 v2467), ∀ a, (k1_off194 v2467) a + S1x64.size a ≤ S100000x64.size a := fun v2467 k1_hw194 => k1_hw194

def k1_off195 (v2480 : BitVec 32) : Fin 2 → Nat :=
  let c0_i32_1519 : BitVec 32 := 0#32
  ![v2480.toNat, 0]

def k1_chk195 (v2480 : BitVec 32) : Prop :=
  (∀ a, (k1_off195 v2480) a + S1x64.size a ≤ S100000x64.size a)
instance k1_chk195.dec : ∀ (v2480 : BitVec 32), Decidable (k1_chk195 v2480) := fun v2480 => decidable_of_iff' _ (Iff.of_eq (k1_chk195.eq_1 v2480))
theorem k1_off195_inb : ∀ (v2480 : BitVec 32) (k1_hw195 : k1_chk195 v2480), ∀ a, (k1_off195 v2480) a + S1x64.size a ≤ S100000x64.size a := fun v2480 k1_hw195 => k1_hw195

def k1_off196 (v2493 : BitVec 32) : Fin 2 → Nat :=
  let c0_i32_1527 : BitVec 32 := 0#32
  ![v2493.toNat, 0]

def k1_chk196 (v2493 : BitVec 32) : Prop :=
  (∀ a, (k1_off196 v2493) a + S1x64.size a ≤ S100000x64.size a)
instance k1_chk196.dec : ∀ (v2493 : BitVec 32), Decidable (k1_chk196 v2493) := fun v2493 => decidable_of_iff' _ (Iff.of_eq (k1_chk196.eq_1 v2493))
theorem k1_off196_inb : ∀ (v2493 : BitVec 32) (k1_hw196 : k1_chk196 v2493), ∀ a, (k1_off196 v2493) a + S1x64.size a ≤ S100000x64.size a := fun v2493 k1_hw196 => k1_hw196

def k1_off197 (v2506 : BitVec 32) : Fin 2 → Nat :=
  let c0_i32_1535 : BitVec 32 := 0#32
  ![v2506.toNat, 0]

def k1_chk197 (v2506 : BitVec 32) : Prop :=
  (∀ a, (k1_off197 v2506) a + S1x64.size a ≤ S100000x64.size a)
instance k1_chk197.dec : ∀ (v2506 : BitVec 32), Decidable (k1_chk197 v2506) := fun v2506 => decidable_of_iff' _ (Iff.of_eq (k1_chk197.eq_1 v2506))
theorem k1_off197_inb : ∀ (v2506 : BitVec 32) (k1_hw197 : k1_chk197 v2506), ∀ a, (k1_off197 v2506) a + S1x64.size a ≤ S100000x64.size a := fun v2506 k1_hw197 => k1_hw197

def k1_off198 (v2519 : BitVec 32) : Fin 2 → Nat :=
  let c0_i32_1543 : BitVec 32 := 0#32
  ![v2519.toNat, 0]

def k1_chk198 (v2519 : BitVec 32) : Prop :=
  (∀ a, (k1_off198 v2519) a + S1x64.size a ≤ S100000x64.size a)
instance k1_chk198.dec : ∀ (v2519 : BitVec 32), Decidable (k1_chk198 v2519) := fun v2519 => decidable_of_iff' _ (Iff.of_eq (k1_chk198.eq_1 v2519))
theorem k1_off198_inb : ∀ (v2519 : BitVec 32) (k1_hw198 : k1_chk198 v2519), ∀ a, (k1_off198 v2519) a + S1x64.size a ≤ S100000x64.size a := fun v2519 k1_hw198 => k1_hw198

def k1_off199 (v2532 : BitVec 32) : Fin 2 → Nat :=
  let c0_i32_1551 : BitVec 32 := 0#32
  ![v2532.toNat, 0]

def k1_chk199 (v2532 : BitVec 32) : Prop :=
  (∀ a, (k1_off199 v2532) a + S1x64.size a ≤ S100000x64.size a)
instance k1_chk199.dec : ∀ (v2532 : BitVec 32), Decidable (k1_chk199 v2532) := fun v2532 => decidable_of_iff' _ (Iff.of_eq (k1_chk199.eq_1 v2532))
theorem k1_off199_inb : ∀ (v2532 : BitVec 32) (k1_hw199 : k1_chk199 v2532), ∀ a, (k1_off199 v2532) a + S1x64.size a ≤ S100000x64.size a := fun v2532 k1_hw199 => k1_hw199

def k1_off200 (v2545 : BitVec 32) : Fin 2 → Nat :=
  let c0_i32_1559 : BitVec 32 := 0#32
  ![v2545.toNat, 0]

def k1_chk200 (v2545 : BitVec 32) : Prop :=
  (∀ a, (k1_off200 v2545) a + S1x64.size a ≤ S100000x64.size a)
instance k1_chk200.dec : ∀ (v2545 : BitVec 32), Decidable (k1_chk200 v2545) := fun v2545 => decidable_of_iff' _ (Iff.of_eq (k1_chk200.eq_1 v2545))
theorem k1_off200_inb : ∀ (v2545 : BitVec 32) (k1_hw200 : k1_chk200 v2545), ∀ a, (k1_off200 v2545) a + S1x64.size a ≤ S100000x64.size a := fun v2545 k1_hw200 => k1_hw200

def k1_off201 (v2558 : BitVec 32) : Fin 2 → Nat :=
  let c0_i32_1567 : BitVec 32 := 0#32
  ![v2558.toNat, 0]

def k1_chk201 (v2558 : BitVec 32) : Prop :=
  (∀ a, (k1_off201 v2558) a + S1x64.size a ≤ S100000x64.size a)
instance k1_chk201.dec : ∀ (v2558 : BitVec 32), Decidable (k1_chk201 v2558) := fun v2558 => decidable_of_iff' _ (Iff.of_eq (k1_chk201.eq_1 v2558))
theorem k1_off201_inb : ∀ (v2558 : BitVec 32) (k1_hw201 : k1_chk201 v2558), ∀ a, (k1_off201 v2558) a + S1x64.size a ≤ S100000x64.size a := fun v2558 k1_hw201 => k1_hw201

def k1_off202 (v2571 : BitVec 32) : Fin 2 → Nat :=
  let c0_i32_1575 : BitVec 32 := 0#32
  ![v2571.toNat, 0]

def k1_chk202 (v2571 : BitVec 32) : Prop :=
  (∀ a, (k1_off202 v2571) a + S1x64.size a ≤ S100000x64.size a)
instance k1_chk202.dec : ∀ (v2571 : BitVec 32), Decidable (k1_chk202 v2571) := fun v2571 => decidable_of_iff' _ (Iff.of_eq (k1_chk202.eq_1 v2571))
theorem k1_off202_inb : ∀ (v2571 : BitVec 32) (k1_hw202 : k1_chk202 v2571), ∀ a, (k1_off202 v2571) a + S1x64.size a ≤ S100000x64.size a := fun v2571 k1_hw202 => k1_hw202

def k1_off203 (v2584 : BitVec 32) : Fin 2 → Nat :=
  let c0_i32_1583 : BitVec 32 := 0#32
  ![v2584.toNat, 0]

def k1_chk203 (v2584 : BitVec 32) : Prop :=
  (∀ a, (k1_off203 v2584) a + S1x64.size a ≤ S100000x64.size a)
instance k1_chk203.dec : ∀ (v2584 : BitVec 32), Decidable (k1_chk203 v2584) := fun v2584 => decidable_of_iff' _ (Iff.of_eq (k1_chk203.eq_1 v2584))
theorem k1_off203_inb : ∀ (v2584 : BitVec 32) (k1_hw203 : k1_chk203 v2584), ∀ a, (k1_off203 v2584) a + S1x64.size a ≤ S100000x64.size a := fun v2584 k1_hw203 => k1_hw203

def k1_off204 (v2597 : BitVec 32) : Fin 2 → Nat :=
  let c0_i32_1591 : BitVec 32 := 0#32
  ![v2597.toNat, 0]

def k1_chk204 (v2597 : BitVec 32) : Prop :=
  (∀ a, (k1_off204 v2597) a + S1x64.size a ≤ S100000x64.size a)
instance k1_chk204.dec : ∀ (v2597 : BitVec 32), Decidable (k1_chk204 v2597) := fun v2597 => decidable_of_iff' _ (Iff.of_eq (k1_chk204.eq_1 v2597))
theorem k1_off204_inb : ∀ (v2597 : BitVec 32) (k1_hw204 : k1_chk204 v2597), ∀ a, (k1_off204 v2597) a + S1x64.size a ≤ S100000x64.size a := fun v2597 k1_hw204 => k1_hw204

def k1_off205 (v2610 : BitVec 32) : Fin 2 → Nat :=
  let c0_i32_1599 : BitVec 32 := 0#32
  ![v2610.toNat, 0]

def k1_chk205 (v2610 : BitVec 32) : Prop :=
  (∀ a, (k1_off205 v2610) a + S1x64.size a ≤ S100000x64.size a)
instance k1_chk205.dec : ∀ (v2610 : BitVec 32), Decidable (k1_chk205 v2610) := fun v2610 => decidable_of_iff' _ (Iff.of_eq (k1_chk205.eq_1 v2610))
theorem k1_off205_inb : ∀ (v2610 : BitVec 32) (k1_hw205 : k1_chk205 v2610), ∀ a, (k1_off205 v2610) a + S1x64.size a ≤ S100000x64.size a := fun v2610 k1_hw205 => k1_hw205

def k1_off206 (v2623 : BitVec 32) : Fin 2 → Nat :=
  let c0_i32_1607 : BitVec 32 := 0#32
  ![v2623.toNat, 0]

def k1_chk206 (v2623 : BitVec 32) : Prop :=
  (∀ a, (k1_off206 v2623) a + S1x64.size a ≤ S100000x64.size a)
instance k1_chk206.dec : ∀ (v2623 : BitVec 32), Decidable (k1_chk206 v2623) := fun v2623 => decidable_of_iff' _ (Iff.of_eq (k1_chk206.eq_1 v2623))
theorem k1_off206_inb : ∀ (v2623 : BitVec 32) (k1_hw206 : k1_chk206 v2623), ∀ a, (k1_off206 v2623) a + S1x64.size a ≤ S100000x64.size a := fun v2623 k1_hw206 => k1_hw206

def k1_off207 (v2636 : BitVec 32) : Fin 2 → Nat :=
  let c0_i32_1615 : BitVec 32 := 0#32
  ![v2636.toNat, 0]

def k1_chk207 (v2636 : BitVec 32) : Prop :=
  (∀ a, (k1_off207 v2636) a + S1x64.size a ≤ S100000x64.size a)
instance k1_chk207.dec : ∀ (v2636 : BitVec 32), Decidable (k1_chk207 v2636) := fun v2636 => decidable_of_iff' _ (Iff.of_eq (k1_chk207.eq_1 v2636))
theorem k1_off207_inb : ∀ (v2636 : BitVec 32) (k1_hw207 : k1_chk207 v2636), ∀ a, (k1_off207 v2636) a + S1x64.size a ≤ S100000x64.size a := fun v2636 k1_hw207 => k1_hw207

def k1_off208 (v2649 : BitVec 32) : Fin 2 → Nat :=
  let c0_i32_1623 : BitVec 32 := 0#32
  ![v2649.toNat, 0]

def k1_chk208 (v2649 : BitVec 32) : Prop :=
  (∀ a, (k1_off208 v2649) a + S1x64.size a ≤ S100000x64.size a)
instance k1_chk208.dec : ∀ (v2649 : BitVec 32), Decidable (k1_chk208 v2649) := fun v2649 => decidable_of_iff' _ (Iff.of_eq (k1_chk208.eq_1 v2649))
theorem k1_off208_inb : ∀ (v2649 : BitVec 32) (k1_hw208 : k1_chk208 v2649), ∀ a, (k1_off208 v2649) a + S1x64.size a ≤ S100000x64.size a := fun v2649 k1_hw208 => k1_hw208

def k1_off209 (v2662 : BitVec 32) : Fin 2 → Nat :=
  let c0_i32_1631 : BitVec 32 := 0#32
  ![v2662.toNat, 0]

def k1_chk209 (v2662 : BitVec 32) : Prop :=
  (∀ a, (k1_off209 v2662) a + S1x64.size a ≤ S100000x64.size a)
instance k1_chk209.dec : ∀ (v2662 : BitVec 32), Decidable (k1_chk209 v2662) := fun v2662 => decidable_of_iff' _ (Iff.of_eq (k1_chk209.eq_1 v2662))
theorem k1_off209_inb : ∀ (v2662 : BitVec 32) (k1_hw209 : k1_chk209 v2662), ∀ a, (k1_off209 v2662) a + S1x64.size a ≤ S100000x64.size a := fun v2662 k1_hw209 => k1_hw209

def k1_off210 (v2675 : BitVec 32) : Fin 2 → Nat :=
  let c0_i32_1639 : BitVec 32 := 0#32
  ![v2675.toNat, 0]

def k1_chk210 (v2675 : BitVec 32) : Prop :=
  (∀ a, (k1_off210 v2675) a + S1x64.size a ≤ S100000x64.size a)
instance k1_chk210.dec : ∀ (v2675 : BitVec 32), Decidable (k1_chk210 v2675) := fun v2675 => decidable_of_iff' _ (Iff.of_eq (k1_chk210.eq_1 v2675))
theorem k1_off210_inb : ∀ (v2675 : BitVec 32) (k1_hw210 : k1_chk210 v2675), ∀ a, (k1_off210 v2675) a + S1x64.size a ≤ S100000x64.size a := fun v2675 k1_hw210 => k1_hw210

def k1_off211 (v2688 : BitVec 32) : Fin 2 → Nat :=
  let c0_i32_1647 : BitVec 32 := 0#32
  ![v2688.toNat, 0]

def k1_chk211 (v2688 : BitVec 32) : Prop :=
  (∀ a, (k1_off211 v2688) a + S1x64.size a ≤ S100000x64.size a)
instance k1_chk211.dec : ∀ (v2688 : BitVec 32), Decidable (k1_chk211 v2688) := fun v2688 => decidable_of_iff' _ (Iff.of_eq (k1_chk211.eq_1 v2688))
theorem k1_off211_inb : ∀ (v2688 : BitVec 32) (k1_hw211 : k1_chk211 v2688), ∀ a, (k1_off211 v2688) a + S1x64.size a ≤ S100000x64.size a := fun v2688 k1_hw211 => k1_hw211

def k1_off212 (v2701 : BitVec 32) : Fin 2 → Nat :=
  let c0_i32_1655 : BitVec 32 := 0#32
  ![v2701.toNat, 0]

def k1_chk212 (v2701 : BitVec 32) : Prop :=
  (∀ a, (k1_off212 v2701) a + S1x64.size a ≤ S100000x64.size a)
instance k1_chk212.dec : ∀ (v2701 : BitVec 32), Decidable (k1_chk212 v2701) := fun v2701 => decidable_of_iff' _ (Iff.of_eq (k1_chk212.eq_1 v2701))
theorem k1_off212_inb : ∀ (v2701 : BitVec 32) (k1_hw212 : k1_chk212 v2701), ∀ a, (k1_off212 v2701) a + S1x64.size a ≤ S100000x64.size a := fun v2701 k1_hw212 => k1_hw212

def k1_off213 (v2714 : BitVec 32) : Fin 2 → Nat :=
  let c0_i32_1663 : BitVec 32 := 0#32
  ![v2714.toNat, 0]

def k1_chk213 (v2714 : BitVec 32) : Prop :=
  (∀ a, (k1_off213 v2714) a + S1x64.size a ≤ S100000x64.size a)
instance k1_chk213.dec : ∀ (v2714 : BitVec 32), Decidable (k1_chk213 v2714) := fun v2714 => decidable_of_iff' _ (Iff.of_eq (k1_chk213.eq_1 v2714))
theorem k1_off213_inb : ∀ (v2714 : BitVec 32) (k1_hw213 : k1_chk213 v2714), ∀ a, (k1_off213 v2714) a + S1x64.size a ≤ S100000x64.size a := fun v2714 k1_hw213 => k1_hw213

def k1_off214 (v2727 : BitVec 32) : Fin 2 → Nat :=
  let c0_i32_1671 : BitVec 32 := 0#32
  ![v2727.toNat, 0]

def k1_chk214 (v2727 : BitVec 32) : Prop :=
  (∀ a, (k1_off214 v2727) a + S1x64.size a ≤ S100000x64.size a)
instance k1_chk214.dec : ∀ (v2727 : BitVec 32), Decidable (k1_chk214 v2727) := fun v2727 => decidable_of_iff' _ (Iff.of_eq (k1_chk214.eq_1 v2727))
theorem k1_off214_inb : ∀ (v2727 : BitVec 32) (k1_hw214 : k1_chk214 v2727), ∀ a, (k1_off214 v2727) a + S1x64.size a ≤ S100000x64.size a := fun v2727 k1_hw214 => k1_hw214

def k1_off215 (v2740 : BitVec 32) : Fin 2 → Nat :=
  let c0_i32_1679 : BitVec 32 := 0#32
  ![v2740.toNat, 0]

def k1_chk215 (v2740 : BitVec 32) : Prop :=
  (∀ a, (k1_off215 v2740) a + S1x64.size a ≤ S100000x64.size a)
instance k1_chk215.dec : ∀ (v2740 : BitVec 32), Decidable (k1_chk215 v2740) := fun v2740 => decidable_of_iff' _ (Iff.of_eq (k1_chk215.eq_1 v2740))
theorem k1_off215_inb : ∀ (v2740 : BitVec 32) (k1_hw215 : k1_chk215 v2740), ∀ a, (k1_off215 v2740) a + S1x64.size a ≤ S100000x64.size a := fun v2740 k1_hw215 => k1_hw215

def k1_off216 (v2753 : BitVec 32) : Fin 2 → Nat :=
  let c0_i32_1687 : BitVec 32 := 0#32
  ![v2753.toNat, 0]

def k1_chk216 (v2753 : BitVec 32) : Prop :=
  (∀ a, (k1_off216 v2753) a + S1x64.size a ≤ S100000x64.size a)
instance k1_chk216.dec : ∀ (v2753 : BitVec 32), Decidable (k1_chk216 v2753) := fun v2753 => decidable_of_iff' _ (Iff.of_eq (k1_chk216.eq_1 v2753))
theorem k1_off216_inb : ∀ (v2753 : BitVec 32) (k1_hw216 : k1_chk216 v2753), ∀ a, (k1_off216 v2753) a + S1x64.size a ≤ S100000x64.size a := fun v2753 k1_hw216 => k1_hw216

def k1_off217 (v2766 : BitVec 32) : Fin 2 → Nat :=
  let c0_i32_1695 : BitVec 32 := 0#32
  ![v2766.toNat, 0]

def k1_chk217 (v2766 : BitVec 32) : Prop :=
  (∀ a, (k1_off217 v2766) a + S1x64.size a ≤ S100000x64.size a)
instance k1_chk217.dec : ∀ (v2766 : BitVec 32), Decidable (k1_chk217 v2766) := fun v2766 => decidable_of_iff' _ (Iff.of_eq (k1_chk217.eq_1 v2766))
theorem k1_off217_inb : ∀ (v2766 : BitVec 32) (k1_hw217 : k1_chk217 v2766), ∀ a, (k1_off217 v2766) a + S1x64.size a ≤ S100000x64.size a := fun v2766 k1_hw217 => k1_hw217

def k1_off218 (v2779 : BitVec 32) : Fin 2 → Nat :=
  let c0_i32_1703 : BitVec 32 := 0#32
  ![v2779.toNat, 0]

def k1_chk218 (v2779 : BitVec 32) : Prop :=
  (∀ a, (k1_off218 v2779) a + S1x64.size a ≤ S100000x64.size a)
instance k1_chk218.dec : ∀ (v2779 : BitVec 32), Decidable (k1_chk218 v2779) := fun v2779 => decidable_of_iff' _ (Iff.of_eq (k1_chk218.eq_1 v2779))
theorem k1_off218_inb : ∀ (v2779 : BitVec 32) (k1_hw218 : k1_chk218 v2779), ∀ a, (k1_off218 v2779) a + S1x64.size a ≤ S100000x64.size a := fun v2779 k1_hw218 => k1_hw218

def k1_off219 (v2792 : BitVec 32) : Fin 2 → Nat :=
  let c0_i32_1711 : BitVec 32 := 0#32
  ![v2792.toNat, 0]

def k1_chk219 (v2792 : BitVec 32) : Prop :=
  (∀ a, (k1_off219 v2792) a + S1x64.size a ≤ S100000x64.size a)
instance k1_chk219.dec : ∀ (v2792 : BitVec 32), Decidable (k1_chk219 v2792) := fun v2792 => decidable_of_iff' _ (Iff.of_eq (k1_chk219.eq_1 v2792))
theorem k1_off219_inb : ∀ (v2792 : BitVec 32) (k1_hw219 : k1_chk219 v2792), ∀ a, (k1_off219 v2792) a + S1x64.size a ≤ S100000x64.size a := fun v2792 k1_hw219 => k1_hw219

def k1_off220 (v2805 : BitVec 32) : Fin 2 → Nat :=
  let c0_i32_1719 : BitVec 32 := 0#32
  ![v2805.toNat, 0]

def k1_chk220 (v2805 : BitVec 32) : Prop :=
  (∀ a, (k1_off220 v2805) a + S1x64.size a ≤ S100000x64.size a)
instance k1_chk220.dec : ∀ (v2805 : BitVec 32), Decidable (k1_chk220 v2805) := fun v2805 => decidable_of_iff' _ (Iff.of_eq (k1_chk220.eq_1 v2805))
theorem k1_off220_inb : ∀ (v2805 : BitVec 32) (k1_hw220 : k1_chk220 v2805), ∀ a, (k1_off220 v2805) a + S1x64.size a ≤ S100000x64.size a := fun v2805 k1_hw220 => k1_hw220

def k1_off221 (v2818 : BitVec 32) : Fin 2 → Nat :=
  let c0_i32_1727 : BitVec 32 := 0#32
  ![v2818.toNat, 0]

def k1_chk221 (v2818 : BitVec 32) : Prop :=
  (∀ a, (k1_off221 v2818) a + S1x64.size a ≤ S100000x64.size a)
instance k1_chk221.dec : ∀ (v2818 : BitVec 32), Decidable (k1_chk221 v2818) := fun v2818 => decidable_of_iff' _ (Iff.of_eq (k1_chk221.eq_1 v2818))
theorem k1_off221_inb : ∀ (v2818 : BitVec 32) (k1_hw221 : k1_chk221 v2818), ∀ a, (k1_off221 v2818) a + S1x64.size a ≤ S100000x64.size a := fun v2818 k1_hw221 => k1_hw221

def k1_off222 (v2831 : BitVec 32) : Fin 2 → Nat :=
  let c0_i32_1735 : BitVec 32 := 0#32
  ![v2831.toNat, 0]

def k1_chk222 (v2831 : BitVec 32) : Prop :=
  (∀ a, (k1_off222 v2831) a + S1x64.size a ≤ S100000x64.size a)
instance k1_chk222.dec : ∀ (v2831 : BitVec 32), Decidable (k1_chk222 v2831) := fun v2831 => decidable_of_iff' _ (Iff.of_eq (k1_chk222.eq_1 v2831))
theorem k1_off222_inb : ∀ (v2831 : BitVec 32) (k1_hw222 : k1_chk222 v2831), ∀ a, (k1_off222 v2831) a + S1x64.size a ≤ S100000x64.size a := fun v2831 k1_hw222 => k1_hw222

def k1_off223 (v2844 : BitVec 32) : Fin 2 → Nat :=
  let c0_i32_1743 : BitVec 32 := 0#32
  ![v2844.toNat, 0]

def k1_chk223 (v2844 : BitVec 32) : Prop :=
  (∀ a, (k1_off223 v2844) a + S1x64.size a ≤ S100000x64.size a)
instance k1_chk223.dec : ∀ (v2844 : BitVec 32), Decidable (k1_chk223 v2844) := fun v2844 => decidable_of_iff' _ (Iff.of_eq (k1_chk223.eq_1 v2844))
theorem k1_off223_inb : ∀ (v2844 : BitVec 32) (k1_hw223 : k1_chk223 v2844), ∀ a, (k1_off223 v2844) a + S1x64.size a ≤ S100000x64.size a := fun v2844 k1_hw223 => k1_hw223

def k1_off224 (v2857 : BitVec 32) : Fin 2 → Nat :=
  let c0_i32_1751 : BitVec 32 := 0#32
  ![v2857.toNat, 0]

def k1_chk224 (v2857 : BitVec 32) : Prop :=
  (∀ a, (k1_off224 v2857) a + S1x64.size a ≤ S100000x64.size a)
instance k1_chk224.dec : ∀ (v2857 : BitVec 32), Decidable (k1_chk224 v2857) := fun v2857 => decidable_of_iff' _ (Iff.of_eq (k1_chk224.eq_1 v2857))
theorem k1_off224_inb : ∀ (v2857 : BitVec 32) (k1_hw224 : k1_chk224 v2857), ∀ a, (k1_off224 v2857) a + S1x64.size a ≤ S100000x64.size a := fun v2857 k1_hw224 => k1_hw224

def k1_off225 (v2870 : BitVec 32) : Fin 2 → Nat :=
  let c0_i32_1759 : BitVec 32 := 0#32
  ![v2870.toNat, 0]

def k1_chk225 (v2870 : BitVec 32) : Prop :=
  (∀ a, (k1_off225 v2870) a + S1x64.size a ≤ S100000x64.size a)
instance k1_chk225.dec : ∀ (v2870 : BitVec 32), Decidable (k1_chk225 v2870) := fun v2870 => decidable_of_iff' _ (Iff.of_eq (k1_chk225.eq_1 v2870))
theorem k1_off225_inb : ∀ (v2870 : BitVec 32) (k1_hw225 : k1_chk225 v2870), ∀ a, (k1_off225 v2870) a + S1x64.size a ≤ S100000x64.size a := fun v2870 k1_hw225 => k1_hw225

def k1_off226 (v2883 : BitVec 32) : Fin 2 → Nat :=
  let c0_i32_1767 : BitVec 32 := 0#32
  ![v2883.toNat, 0]

def k1_chk226 (v2883 : BitVec 32) : Prop :=
  (∀ a, (k1_off226 v2883) a + S1x64.size a ≤ S100000x64.size a)
instance k1_chk226.dec : ∀ (v2883 : BitVec 32), Decidable (k1_chk226 v2883) := fun v2883 => decidable_of_iff' _ (Iff.of_eq (k1_chk226.eq_1 v2883))
theorem k1_off226_inb : ∀ (v2883 : BitVec 32) (k1_hw226 : k1_chk226 v2883), ∀ a, (k1_off226 v2883) a + S1x64.size a ≤ S100000x64.size a := fun v2883 k1_hw226 => k1_hw226

def k1_off227 (v2896 : BitVec 32) : Fin 2 → Nat :=
  let c0_i32_1775 : BitVec 32 := 0#32
  ![v2896.toNat, 0]

def k1_chk227 (v2896 : BitVec 32) : Prop :=
  (∀ a, (k1_off227 v2896) a + S1x64.size a ≤ S100000x64.size a)
instance k1_chk227.dec : ∀ (v2896 : BitVec 32), Decidable (k1_chk227 v2896) := fun v2896 => decidable_of_iff' _ (Iff.of_eq (k1_chk227.eq_1 v2896))
theorem k1_off227_inb : ∀ (v2896 : BitVec 32) (k1_hw227 : k1_chk227 v2896), ∀ a, (k1_off227 v2896) a + S1x64.size a ≤ S100000x64.size a := fun v2896 k1_hw227 => k1_hw227

def k1_off228 (v2909 : BitVec 32) : Fin 2 → Nat :=
  let c0_i32_1783 : BitVec 32 := 0#32
  ![v2909.toNat, 0]

def k1_chk228 (v2909 : BitVec 32) : Prop :=
  (∀ a, (k1_off228 v2909) a + S1x64.size a ≤ S100000x64.size a)
instance k1_chk228.dec : ∀ (v2909 : BitVec 32), Decidable (k1_chk228 v2909) := fun v2909 => decidable_of_iff' _ (Iff.of_eq (k1_chk228.eq_1 v2909))
theorem k1_off228_inb : ∀ (v2909 : BitVec 32) (k1_hw228 : k1_chk228 v2909), ∀ a, (k1_off228 v2909) a + S1x64.size a ≤ S100000x64.size a := fun v2909 k1_hw228 => k1_hw228

def k1_off229 (v2922 : BitVec 32) : Fin 2 → Nat :=
  let c0_i32_1791 : BitVec 32 := 0#32
  ![v2922.toNat, 0]

def k1_chk229 (v2922 : BitVec 32) : Prop :=
  (∀ a, (k1_off229 v2922) a + S1x64.size a ≤ S100000x64.size a)
instance k1_chk229.dec : ∀ (v2922 : BitVec 32), Decidable (k1_chk229 v2922) := fun v2922 => decidable_of_iff' _ (Iff.of_eq (k1_chk229.eq_1 v2922))
theorem k1_off229_inb : ∀ (v2922 : BitVec 32) (k1_hw229 : k1_chk229 v2922), ∀ a, (k1_off229 v2922) a + S1x64.size a ≤ S100000x64.size a := fun v2922 k1_hw229 => k1_hw229

def k1_off230 (v2935 : BitVec 32) : Fin 2 → Nat :=
  let c0_i32_1799 : BitVec 32 := 0#32
  ![v2935.toNat, 0]

def k1_chk230 (v2935 : BitVec 32) : Prop :=
  (∀ a, (k1_off230 v2935) a + S1x64.size a ≤ S100000x64.size a)
instance k1_chk230.dec : ∀ (v2935 : BitVec 32), Decidable (k1_chk230 v2935) := fun v2935 => decidable_of_iff' _ (Iff.of_eq (k1_chk230.eq_1 v2935))
theorem k1_off230_inb : ∀ (v2935 : BitVec 32) (k1_hw230 : k1_chk230 v2935), ∀ a, (k1_off230 v2935) a + S1x64.size a ≤ S100000x64.size a := fun v2935 k1_hw230 => k1_hw230

def k1_off231 (v2948 : BitVec 32) : Fin 2 → Nat :=
  let c0_i32_1807 : BitVec 32 := 0#32
  ![v2948.toNat, 0]

def k1_chk231 (v2948 : BitVec 32) : Prop :=
  (∀ a, (k1_off231 v2948) a + S1x64.size a ≤ S100000x64.size a)
instance k1_chk231.dec : ∀ (v2948 : BitVec 32), Decidable (k1_chk231 v2948) := fun v2948 => decidable_of_iff' _ (Iff.of_eq (k1_chk231.eq_1 v2948))
theorem k1_off231_inb : ∀ (v2948 : BitVec 32) (k1_hw231 : k1_chk231 v2948), ∀ a, (k1_off231 v2948) a + S1x64.size a ≤ S100000x64.size a := fun v2948 k1_hw231 => k1_hw231

def k1_off232 (v2961 : BitVec 32) : Fin 2 → Nat :=
  let c0_i32_1815 : BitVec 32 := 0#32
  ![v2961.toNat, 0]

def k1_chk232 (v2961 : BitVec 32) : Prop :=
  (∀ a, (k1_off232 v2961) a + S1x64.size a ≤ S100000x64.size a)
instance k1_chk232.dec : ∀ (v2961 : BitVec 32), Decidable (k1_chk232 v2961) := fun v2961 => decidable_of_iff' _ (Iff.of_eq (k1_chk232.eq_1 v2961))
theorem k1_off232_inb : ∀ (v2961 : BitVec 32) (k1_hw232 : k1_chk232 v2961), ∀ a, (k1_off232 v2961) a + S1x64.size a ≤ S100000x64.size a := fun v2961 k1_hw232 => k1_hw232

def k1_off233 (v2974 : BitVec 32) : Fin 2 → Nat :=
  let c0_i32_1823 : BitVec 32 := 0#32
  ![v2974.toNat, 0]

def k1_chk233 (v2974 : BitVec 32) : Prop :=
  (∀ a, (k1_off233 v2974) a + S1x64.size a ≤ S100000x64.size a)
instance k1_chk233.dec : ∀ (v2974 : BitVec 32), Decidable (k1_chk233 v2974) := fun v2974 => decidable_of_iff' _ (Iff.of_eq (k1_chk233.eq_1 v2974))
theorem k1_off233_inb : ∀ (v2974 : BitVec 32) (k1_hw233 : k1_chk233 v2974), ∀ a, (k1_off233 v2974) a + S1x64.size a ≤ S100000x64.size a := fun v2974 k1_hw233 => k1_hw233

def k1_off234 (v2987 : BitVec 32) : Fin 2 → Nat :=
  let c0_i32_1831 : BitVec 32 := 0#32
  ![v2987.toNat, 0]

def k1_chk234 (v2987 : BitVec 32) : Prop :=
  (∀ a, (k1_off234 v2987) a + S1x64.size a ≤ S100000x64.size a)
instance k1_chk234.dec : ∀ (v2987 : BitVec 32), Decidable (k1_chk234 v2987) := fun v2987 => decidable_of_iff' _ (Iff.of_eq (k1_chk234.eq_1 v2987))
theorem k1_off234_inb : ∀ (v2987 : BitVec 32) (k1_hw234 : k1_chk234 v2987), ∀ a, (k1_off234 v2987) a + S1x64.size a ≤ S100000x64.size a := fun v2987 k1_hw234 => k1_hw234

def k1_off235 (v3000 : BitVec 32) : Fin 2 → Nat :=
  let c0_i32_1839 : BitVec 32 := 0#32
  ![v3000.toNat, 0]

def k1_chk235 (v3000 : BitVec 32) : Prop :=
  (∀ a, (k1_off235 v3000) a + S1x64.size a ≤ S100000x64.size a)
instance k1_chk235.dec : ∀ (v3000 : BitVec 32), Decidable (k1_chk235 v3000) := fun v3000 => decidable_of_iff' _ (Iff.of_eq (k1_chk235.eq_1 v3000))
theorem k1_off235_inb : ∀ (v3000 : BitVec 32) (k1_hw235 : k1_chk235 v3000), ∀ a, (k1_off235 v3000) a + S1x64.size a ≤ S100000x64.size a := fun v3000 k1_hw235 => k1_hw235

def k1_off236 (v3013 : BitVec 32) : Fin 2 → Nat :=
  let c0_i32_1847 : BitVec 32 := 0#32
  ![v3013.toNat, 0]

def k1_chk236 (v3013 : BitVec 32) : Prop :=
  (∀ a, (k1_off236 v3013) a + S1x64.size a ≤ S100000x64.size a)
instance k1_chk236.dec : ∀ (v3013 : BitVec 32), Decidable (k1_chk236 v3013) := fun v3013 => decidable_of_iff' _ (Iff.of_eq (k1_chk236.eq_1 v3013))
theorem k1_off236_inb : ∀ (v3013 : BitVec 32) (k1_hw236 : k1_chk236 v3013), ∀ a, (k1_off236 v3013) a + S1x64.size a ≤ S100000x64.size a := fun v3013 k1_hw236 => k1_hw236

def k1_off237 (v3026 : BitVec 32) : Fin 2 → Nat :=
  let c0_i32_1855 : BitVec 32 := 0#32
  ![v3026.toNat, 0]

def k1_chk237 (v3026 : BitVec 32) : Prop :=
  (∀ a, (k1_off237 v3026) a + S1x64.size a ≤ S100000x64.size a)
instance k1_chk237.dec : ∀ (v3026 : BitVec 32), Decidable (k1_chk237 v3026) := fun v3026 => decidable_of_iff' _ (Iff.of_eq (k1_chk237.eq_1 v3026))
theorem k1_off237_inb : ∀ (v3026 : BitVec 32) (k1_hw237 : k1_chk237 v3026), ∀ a, (k1_off237 v3026) a + S1x64.size a ≤ S100000x64.size a := fun v3026 k1_hw237 => k1_hw237

def k1_off238 (v3039 : BitVec 32) : Fin 2 → Nat :=
  let c0_i32_1863 : BitVec 32 := 0#32
  ![v3039.toNat, 0]

def k1_chk238 (v3039 : BitVec 32) : Prop :=
  (∀ a, (k1_off238 v3039) a + S1x64.size a ≤ S100000x64.size a)
instance k1_chk238.dec : ∀ (v3039 : BitVec 32), Decidable (k1_chk238 v3039) := fun v3039 => decidable_of_iff' _ (Iff.of_eq (k1_chk238.eq_1 v3039))
theorem k1_off238_inb : ∀ (v3039 : BitVec 32) (k1_hw238 : k1_chk238 v3039), ∀ a, (k1_off238 v3039) a + S1x64.size a ≤ S100000x64.size a := fun v3039 k1_hw238 => k1_hw238

def k1_off239 (v3052 : BitVec 32) : Fin 2 → Nat :=
  let c0_i32_1871 : BitVec 32 := 0#32
  ![v3052.toNat, 0]

def k1_chk239 (v3052 : BitVec 32) : Prop :=
  (∀ a, (k1_off239 v3052) a + S1x64.size a ≤ S100000x64.size a)
instance k1_chk239.dec : ∀ (v3052 : BitVec 32), Decidable (k1_chk239 v3052) := fun v3052 => decidable_of_iff' _ (Iff.of_eq (k1_chk239.eq_1 v3052))
theorem k1_off239_inb : ∀ (v3052 : BitVec 32) (k1_hw239 : k1_chk239 v3052), ∀ a, (k1_off239 v3052) a + S1x64.size a ≤ S100000x64.size a := fun v3052 k1_hw239 => k1_hw239

def k1_off240 (v3065 : BitVec 32) : Fin 2 → Nat :=
  let c0_i32_1879 : BitVec 32 := 0#32
  ![v3065.toNat, 0]

def k1_chk240 (v3065 : BitVec 32) : Prop :=
  (∀ a, (k1_off240 v3065) a + S1x64.size a ≤ S100000x64.size a)
instance k1_chk240.dec : ∀ (v3065 : BitVec 32), Decidable (k1_chk240 v3065) := fun v3065 => decidable_of_iff' _ (Iff.of_eq (k1_chk240.eq_1 v3065))
theorem k1_off240_inb : ∀ (v3065 : BitVec 32) (k1_hw240 : k1_chk240 v3065), ∀ a, (k1_off240 v3065) a + S1x64.size a ≤ S100000x64.size a := fun v3065 k1_hw240 => k1_hw240

def k1_off241 (v3078 : BitVec 32) : Fin 2 → Nat :=
  let c0_i32_1887 : BitVec 32 := 0#32
  ![v3078.toNat, 0]

def k1_chk241 (v3078 : BitVec 32) : Prop :=
  (∀ a, (k1_off241 v3078) a + S1x64.size a ≤ S100000x64.size a)
instance k1_chk241.dec : ∀ (v3078 : BitVec 32), Decidable (k1_chk241 v3078) := fun v3078 => decidable_of_iff' _ (Iff.of_eq (k1_chk241.eq_1 v3078))
theorem k1_off241_inb : ∀ (v3078 : BitVec 32) (k1_hw241 : k1_chk241 v3078), ∀ a, (k1_off241 v3078) a + S1x64.size a ≤ S100000x64.size a := fun v3078 k1_hw241 => k1_hw241

def k1_off242 (v3091 : BitVec 32) : Fin 2 → Nat :=
  let c0_i32_1895 : BitVec 32 := 0#32
  ![v3091.toNat, 0]

def k1_chk242 (v3091 : BitVec 32) : Prop :=
  (∀ a, (k1_off242 v3091) a + S1x64.size a ≤ S100000x64.size a)
instance k1_chk242.dec : ∀ (v3091 : BitVec 32), Decidable (k1_chk242 v3091) := fun v3091 => decidable_of_iff' _ (Iff.of_eq (k1_chk242.eq_1 v3091))
theorem k1_off242_inb : ∀ (v3091 : BitVec 32) (k1_hw242 : k1_chk242 v3091), ∀ a, (k1_off242 v3091) a + S1x64.size a ≤ S100000x64.size a := fun v3091 k1_hw242 => k1_hw242

def k1_off243 (v3104 : BitVec 32) : Fin 2 → Nat :=
  let c0_i32_1903 : BitVec 32 := 0#32
  ![v3104.toNat, 0]

def k1_chk243 (v3104 : BitVec 32) : Prop :=
  (∀ a, (k1_off243 v3104) a + S1x64.size a ≤ S100000x64.size a)
instance k1_chk243.dec : ∀ (v3104 : BitVec 32), Decidable (k1_chk243 v3104) := fun v3104 => decidable_of_iff' _ (Iff.of_eq (k1_chk243.eq_1 v3104))
theorem k1_off243_inb : ∀ (v3104 : BitVec 32) (k1_hw243 : k1_chk243 v3104), ∀ a, (k1_off243 v3104) a + S1x64.size a ≤ S100000x64.size a := fun v3104 k1_hw243 => k1_hw243

def k1_off244 (v3117 : BitVec 32) : Fin 2 → Nat :=
  let c0_i32_1911 : BitVec 32 := 0#32
  ![v3117.toNat, 0]

def k1_chk244 (v3117 : BitVec 32) : Prop :=
  (∀ a, (k1_off244 v3117) a + S1x64.size a ≤ S100000x64.size a)
instance k1_chk244.dec : ∀ (v3117 : BitVec 32), Decidable (k1_chk244 v3117) := fun v3117 => decidable_of_iff' _ (Iff.of_eq (k1_chk244.eq_1 v3117))
theorem k1_off244_inb : ∀ (v3117 : BitVec 32) (k1_hw244 : k1_chk244 v3117), ∀ a, (k1_off244 v3117) a + S1x64.size a ≤ S100000x64.size a := fun v3117 k1_hw244 => k1_hw244

def k1_off245 (v3130 : BitVec 32) : Fin 2 → Nat :=
  let c0_i32_1919 : BitVec 32 := 0#32
  ![v3130.toNat, 0]

def k1_chk245 (v3130 : BitVec 32) : Prop :=
  (∀ a, (k1_off245 v3130) a + S1x64.size a ≤ S100000x64.size a)
instance k1_chk245.dec : ∀ (v3130 : BitVec 32), Decidable (k1_chk245 v3130) := fun v3130 => decidable_of_iff' _ (Iff.of_eq (k1_chk245.eq_1 v3130))
theorem k1_off245_inb : ∀ (v3130 : BitVec 32) (k1_hw245 : k1_chk245 v3130), ∀ a, (k1_off245 v3130) a + S1x64.size a ≤ S100000x64.size a := fun v3130 k1_hw245 => k1_hw245

def k1_off246 (v3143 : BitVec 32) : Fin 2 → Nat :=
  let c0_i32_1927 : BitVec 32 := 0#32
  ![v3143.toNat, 0]

def k1_chk246 (v3143 : BitVec 32) : Prop :=
  (∀ a, (k1_off246 v3143) a + S1x64.size a ≤ S100000x64.size a)
instance k1_chk246.dec : ∀ (v3143 : BitVec 32), Decidable (k1_chk246 v3143) := fun v3143 => decidable_of_iff' _ (Iff.of_eq (k1_chk246.eq_1 v3143))
theorem k1_off246_inb : ∀ (v3143 : BitVec 32) (k1_hw246 : k1_chk246 v3143), ∀ a, (k1_off246 v3143) a + S1x64.size a ≤ S100000x64.size a := fun v3143 k1_hw246 => k1_hw246

def k1_off247 (v3156 : BitVec 32) : Fin 2 → Nat :=
  let c0_i32_1935 : BitVec 32 := 0#32
  ![v3156.toNat, 0]

def k1_chk247 (v3156 : BitVec 32) : Prop :=
  (∀ a, (k1_off247 v3156) a + S1x64.size a ≤ S100000x64.size a)
instance k1_chk247.dec : ∀ (v3156 : BitVec 32), Decidable (k1_chk247 v3156) := fun v3156 => decidable_of_iff' _ (Iff.of_eq (k1_chk247.eq_1 v3156))
theorem k1_off247_inb : ∀ (v3156 : BitVec 32) (k1_hw247 : k1_chk247 v3156), ∀ a, (k1_off247 v3156) a + S1x64.size a ≤ S100000x64.size a := fun v3156 k1_hw247 => k1_hw247

def k1_off248 (v3169 : BitVec 32) : Fin 2 → Nat :=
  let c0_i32_1943 : BitVec 32 := 0#32
  ![v3169.toNat, 0]

def k1_chk248 (v3169 : BitVec 32) : Prop :=
  (∀ a, (k1_off248 v3169) a + S1x64.size a ≤ S100000x64.size a)
instance k1_chk248.dec : ∀ (v3169 : BitVec 32), Decidable (k1_chk248 v3169) := fun v3169 => decidable_of_iff' _ (Iff.of_eq (k1_chk248.eq_1 v3169))
theorem k1_off248_inb : ∀ (v3169 : BitVec 32) (k1_hw248 : k1_chk248 v3169), ∀ a, (k1_off248 v3169) a + S1x64.size a ≤ S100000x64.size a := fun v3169 k1_hw248 => k1_hw248

def k1_off249 (v3182 : BitVec 32) : Fin 2 → Nat :=
  let c0_i32_1951 : BitVec 32 := 0#32
  ![v3182.toNat, 0]

def k1_chk249 (v3182 : BitVec 32) : Prop :=
  (∀ a, (k1_off249 v3182) a + S1x64.size a ≤ S100000x64.size a)
instance k1_chk249.dec : ∀ (v3182 : BitVec 32), Decidable (k1_chk249 v3182) := fun v3182 => decidable_of_iff' _ (Iff.of_eq (k1_chk249.eq_1 v3182))
theorem k1_off249_inb : ∀ (v3182 : BitVec 32) (k1_hw249 : k1_chk249 v3182), ∀ a, (k1_off249 v3182) a + S1x64.size a ≤ S100000x64.size a := fun v3182 k1_hw249 => k1_hw249

def k1_off250 (v3195 : BitVec 32) : Fin 2 → Nat :=
  let c0_i32_1959 : BitVec 32 := 0#32
  ![v3195.toNat, 0]

def k1_chk250 (v3195 : BitVec 32) : Prop :=
  (∀ a, (k1_off250 v3195) a + S1x64.size a ≤ S100000x64.size a)
instance k1_chk250.dec : ∀ (v3195 : BitVec 32), Decidable (k1_chk250 v3195) := fun v3195 => decidable_of_iff' _ (Iff.of_eq (k1_chk250.eq_1 v3195))
theorem k1_off250_inb : ∀ (v3195 : BitVec 32) (k1_hw250 : k1_chk250 v3195), ∀ a, (k1_off250 v3195) a + S1x64.size a ≤ S100000x64.size a := fun v3195 k1_hw250 => k1_hw250

def k1_off251 (v3208 : BitVec 32) : Fin 2 → Nat :=
  let c0_i32_1967 : BitVec 32 := 0#32
  ![v3208.toNat, 0]

def k1_chk251 (v3208 : BitVec 32) : Prop :=
  (∀ a, (k1_off251 v3208) a + S1x64.size a ≤ S100000x64.size a)
instance k1_chk251.dec : ∀ (v3208 : BitVec 32), Decidable (k1_chk251 v3208) := fun v3208 => decidable_of_iff' _ (Iff.of_eq (k1_chk251.eq_1 v3208))
theorem k1_off251_inb : ∀ (v3208 : BitVec 32) (k1_hw251 : k1_chk251 v3208), ∀ a, (k1_off251 v3208) a + S1x64.size a ≤ S100000x64.size a := fun v3208 k1_hw251 => k1_hw251

def k1_off252 (v3221 : BitVec 32) : Fin 2 → Nat :=
  let c0_i32_1975 : BitVec 32 := 0#32
  ![v3221.toNat, 0]

def k1_chk252 (v3221 : BitVec 32) : Prop :=
  (∀ a, (k1_off252 v3221) a + S1x64.size a ≤ S100000x64.size a)
instance k1_chk252.dec : ∀ (v3221 : BitVec 32), Decidable (k1_chk252 v3221) := fun v3221 => decidable_of_iff' _ (Iff.of_eq (k1_chk252.eq_1 v3221))
theorem k1_off252_inb : ∀ (v3221 : BitVec 32) (k1_hw252 : k1_chk252 v3221), ∀ a, (k1_off252 v3221) a + S1x64.size a ≤ S100000x64.size a := fun v3221 k1_hw252 => k1_hw252

def k1_off253 (v3234 : BitVec 32) : Fin 2 → Nat :=
  let c0_i32_1983 : BitVec 32 := 0#32
  ![v3234.toNat, 0]

def k1_chk253 (v3234 : BitVec 32) : Prop :=
  (∀ a, (k1_off253 v3234) a + S1x64.size a ≤ S100000x64.size a)
instance k1_chk253.dec : ∀ (v3234 : BitVec 32), Decidable (k1_chk253 v3234) := fun v3234 => decidable_of_iff' _ (Iff.of_eq (k1_chk253.eq_1 v3234))
theorem k1_off253_inb : ∀ (v3234 : BitVec 32) (k1_hw253 : k1_chk253 v3234), ∀ a, (k1_off253 v3234) a + S1x64.size a ≤ S100000x64.size a := fun v3234 k1_hw253 => k1_hw253

def k1_off254 (v3247 : BitVec 32) : Fin 2 → Nat :=
  let c0_i32_1991 : BitVec 32 := 0#32
  ![v3247.toNat, 0]

def k1_chk254 (v3247 : BitVec 32) : Prop :=
  (∀ a, (k1_off254 v3247) a + S1x64.size a ≤ S100000x64.size a)
instance k1_chk254.dec : ∀ (v3247 : BitVec 32), Decidable (k1_chk254 v3247) := fun v3247 => decidable_of_iff' _ (Iff.of_eq (k1_chk254.eq_1 v3247))
theorem k1_off254_inb : ∀ (v3247 : BitVec 32) (k1_hw254 : k1_chk254 v3247), ∀ a, (k1_off254 v3247) a + S1x64.size a ≤ S100000x64.size a := fun v3247 k1_hw254 => k1_hw254

def k1_off255 (v3260 : BitVec 32) : Fin 2 → Nat :=
  let c0_i32_1999 : BitVec 32 := 0#32
  ![v3260.toNat, 0]

def k1_chk255 (v3260 : BitVec 32) : Prop :=
  (∀ a, (k1_off255 v3260) a + S1x64.size a ≤ S100000x64.size a)
instance k1_chk255.dec : ∀ (v3260 : BitVec 32), Decidable (k1_chk255 v3260) := fun v3260 => decidable_of_iff' _ (Iff.of_eq (k1_chk255.eq_1 v3260))
theorem k1_off255_inb : ∀ (v3260 : BitVec 32) (k1_hw255 : k1_chk255 v3260), ∀ a, (k1_off255 v3260) a + S1x64.size a ≤ S100000x64.size a := fun v3260 k1_hw255 => k1_hw255

def k1_off256 (v3273 : BitVec 32) : Fin 2 → Nat :=
  let c0_i32_2007 : BitVec 32 := 0#32
  ![v3273.toNat, 0]

def k1_chk256 (v3273 : BitVec 32) : Prop :=
  (∀ a, (k1_off256 v3273) a + S1x64.size a ≤ S100000x64.size a)
instance k1_chk256.dec : ∀ (v3273 : BitVec 32), Decidable (k1_chk256 v3273) := fun v3273 => decidable_of_iff' _ (Iff.of_eq (k1_chk256.eq_1 v3273))
theorem k1_off256_inb : ∀ (v3273 : BitVec 32) (k1_hw256 : k1_chk256 v3273), ∀ a, (k1_off256 v3273) a + S1x64.size a ≤ S100000x64.size a := fun v3273 k1_hw256 => k1_hw256

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .smem S256 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S1600000_S1600000x1 : S1600000.ShapeCasts S1600000x1
  inb_S256_S1_0 : ∀ a, (![0] : Fin 1 → Nat) a + S1.size a ≤ S256.size a
  numel1_S1 : S1.numel = 1
  inb_S8_S1_0 : ∀ a, (![0] : Fin 1 → Nat) a + S1.size a ≤ S8.size a
  squeezes_S1_S_ : S1.Squeezes S_
  inb_S256x64_S1x64_0_0 : ∀ a, (![0, 0] : Fin 2 → Nat) a + S1x64.size a ≤ S256x64.size a
  squeezes_S1x64_S64 : S1x64.Squeezes S64
  inb_S256_S1_1 : ∀ a, (![1] : Fin 1 → Nat) a + S1.size a ≤ S256.size a
  inb_S8_S1_1 : ∀ a, (![1] : Fin 1 → Nat) a + S1.size a ≤ S8.size a
  inb_S256x64_S1x64_1_0 : ∀ a, (![1, 0] : Fin 2 → Nat) a + S1x64.size a ≤ S256x64.size a
  inb_S256_S1_2 : ∀ a, (![2] : Fin 1 → Nat) a + S1.size a ≤ S256.size a
  inb_S8_S1_2 : ∀ a, (![2] : Fin 1 → Nat) a + S1.size a ≤ S8.size a
  inb_S256x64_S1x64_2_0 : ∀ a, (![2, 0] : Fin 2 → Nat) a + S1x64.size a ≤ S256x64.size a
  inb_S256_S1_3 : ∀ a, (![3] : Fin 1 → Nat) a + S1.size a ≤ S256.size a
  inb_S8_S1_3 : ∀ a, (![3] : Fin 1 → Nat) a + S1.size a ≤ S8.size a
  inb_S256x64_S1x64_3_0 : ∀ a, (![3, 0] : Fin 2 → Nat) a + S1x64.size a ≤ S256x64.size a
  inb_S256_S1_4 : ∀ a, (![4] : Fin 1 → Nat) a + S1.size a ≤ S256.size a
  inb_S8_S1_4 : ∀ a, (![4] : Fin 1 → Nat) a + S1.size a ≤ S8.size a
  inb_S256x64_S1x64_4_0 : ∀ a, (![4, 0] : Fin 2 → Nat) a + S1x64.size a ≤ S256x64.size a
  inb_S256_S1_5 : ∀ a, (![5] : Fin 1 → Nat) a + S1.size a ≤ S256.size a
  inb_S8_S1_5 : ∀ a, (![5] : Fin 1 → Nat) a + S1.size a ≤ S8.size a
  inb_S256x64_S1x64_5_0 : ∀ a, (![5, 0] : Fin 2 → Nat) a + S1x64.size a ≤ S256x64.size a
  inb_S256_S1_6 : ∀ a, (![6] : Fin 1 → Nat) a + S1.size a ≤ S256.size a
  inb_S8_S1_6 : ∀ a, (![6] : Fin 1 → Nat) a + S1.size a ≤ S8.size a
  inb_S256x64_S1x64_6_0 : ∀ a, (![6, 0] : Fin 2 → Nat) a + S1x64.size a ≤ S256x64.size a
  inb_S256_S1_7 : ∀ a, (![7] : Fin 1 → Nat) a + S1.size a ≤ S256.size a
  inb_S8_S1_7 : ∀ a, (![7] : Fin 1 → Nat) a + S1.size a ≤ S8.size a
  inb_S256x64_S1x64_7_0 : ∀ a, (![7, 0] : Fin 2 → Nat) a + S1x64.size a ≤ S256x64.size a
  inb_S100000x64_S1x64_0_0 : ∀ a, (![0, 0] : Fin 2 → Nat) a + S1x64.size a ≤ S100000x64.size a
  inb_S256_S1_8 : ∀ a, (![8] : Fin 1 → Nat) a + S1.size a ≤ S256.size a
  inb_S256x64_S1x64_8_0 : ∀ a, (![8, 0] : Fin 2 → Nat) a + S1x64.size a ≤ S256x64.size a
  inb_S256_S1_9 : ∀ a, (![9] : Fin 1 → Nat) a + S1.size a ≤ S256.size a
  inb_S256x64_S1x64_9_0 : ∀ a, (![9, 0] : Fin 2 → Nat) a + S1x64.size a ≤ S256x64.size a
  inb_S256_S1_10 : ∀ a, (![10] : Fin 1 → Nat) a + S1.size a ≤ S256.size a
  inb_S256x64_S1x64_10_0 : ∀ a, (![10, 0] : Fin 2 → Nat) a + S1x64.size a ≤ S256x64.size a
  inb_S256_S1_11 : ∀ a, (![11] : Fin 1 → Nat) a + S1.size a ≤ S256.size a
  inb_S256x64_S1x64_11_0 : ∀ a, (![11, 0] : Fin 2 → Nat) a + S1x64.size a ≤ S256x64.size a
  inb_S256_S1_12 : ∀ a, (![12] : Fin 1 → Nat) a + S1.size a ≤ S256.size a
  inb_S256x64_S1x64_12_0 : ∀ a, (![12, 0] : Fin 2 → Nat) a + S1x64.size a ≤ S256x64.size a
  inb_S256_S1_13 : ∀ a, (![13] : Fin 1 → Nat) a + S1.size a ≤ S256.size a
  inb_S256x64_S1x64_13_0 : ∀ a, (![13, 0] : Fin 2 → Nat) a + S1x64.size a ≤ S256x64.size a
  inb_S256_S1_14 : ∀ a, (![14] : Fin 1 → Nat) a + S1.size a ≤ S256.size a
  inb_S256x64_S1x64_14_0 : ∀ a, (![14, 0] : Fin 2 → Nat) a + S1x64.size a ≤ S256x64.size a
  inb_S256_S1_15 : ∀ a, (![15] : Fin 1 → Nat) a + S1.size a ≤ S256.size a
  inb_S256x64_S1x64_15_0 : ∀ a, (![15, 0] : Fin 2 → Nat) a + S1x64.size a ≤ S256x64.size a
  inb_S256_S1_16 : ∀ a, (![16] : Fin 1 → Nat) a + S1.size a ≤ S256.size a
  inb_S256x64_S1x64_16_0 : ∀ a, (![16, 0] : Fin 2 → Nat) a + S1x64.size a ≤ S256x64.size a
  inb_S256_S1_17 : ∀ a, (![17] : Fin 1 → Nat) a + S1.size a ≤ S256.size a
  inb_S256x64_S1x64_17_0 : ∀ a, (![17, 0] : Fin 2 → Nat) a + S1x64.size a ≤ S256x64.size a
  inb_S256_S1_18 : ∀ a, (![18] : Fin 1 → Nat) a + S1.size a ≤ S256.size a
  inb_S256x64_S1x64_18_0 : ∀ a, (![18, 0] : Fin 2 → Nat) a + S1x64.size a ≤ S256x64.size a
  inb_S256_S1_19 : ∀ a, (![19] : Fin 1 → Nat) a + S1.size a ≤ S256.size a
  inb_S256x64_S1x64_19_0 : ∀ a, (![19, 0] : Fin 2 → Nat) a + S1x64.size a ≤ S256x64.size a
  inb_S256_S1_20 : ∀ a, (![20] : Fin 1 → Nat) a + S1.size a ≤ S256.size a
  inb_S256x64_S1x64_20_0 : ∀ a, (![20, 0] : Fin 2 → Nat) a + S1x64.size a ≤ S256x64.size a
  inb_S256_S1_21 : ∀ a, (![21] : Fin 1 → Nat) a + S1.size a ≤ S256.size a
  inb_S256x64_S1x64_21_0 : ∀ a, (![21, 0] : Fin 2 → Nat) a + S1x64.size a ≤ S256x64.size a
  inb_S256_S1_22 : ∀ a, (![22] : Fin 1 → Nat) a + S1.size a ≤ S256.size a
  inb_S256x64_S1x64_22_0 : ∀ a, (![22, 0] : Fin 2 → Nat) a + S1x64.size a ≤ S256x64.size a
  inb_S256_S1_23 : ∀ a, (![23] : Fin 1 → Nat) a + S1.size a ≤ S256.size a
  inb_S256x64_S1x64_23_0 : ∀ a, (![23, 0] : Fin 2 → Nat) a + S1x64.size a ≤ S256x64.size a
  inb_S256_S1_24 : ∀ a, (![24] : Fin 1 → Nat) a + S1.size a ≤ S256.size a
  inb_S256x64_S1x64_24_0 : ∀ a, (![24, 0] : Fin 2 → Nat) a + S1x64.size a ≤ S256x64.size a
  inb_S256_S1_25 : ∀ a, (![25] : Fin 1 → Nat) a + S1.size a ≤ S256.size a
  inb_S256x64_S1x64_25_0 : ∀ a, (![25, 0] : Fin 2 → Nat) a + S1x64.size a ≤ S256x64.size a
  inb_S256_S1_26 : ∀ a, (![26] : Fin 1 → Nat) a + S1.size a ≤ S256.size a
  inb_S256x64_S1x64_26_0 : ∀ a, (![26, 0] : Fin 2 → Nat) a + S1x64.size a ≤ S256x64.size a
  inb_S256_S1_27 : ∀ a, (![27] : Fin 1 → Nat) a + S1.size a ≤ S256.size a
  inb_S256x64_S1x64_27_0 : ∀ a, (![27, 0] : Fin 2 → Nat) a + S1x64.size a ≤ S256x64.size a
  inb_S256_S1_28 : ∀ a, (![28] : Fin 1 → Nat) a + S1.size a ≤ S256.size a
  inb_S256x64_S1x64_28_0 : ∀ a, (![28, 0] : Fin 2 → Nat) a + S1x64.size a ≤ S256x64.size a
  inb_S256_S1_29 : ∀ a, (![29] : Fin 1 → Nat) a + S1.size a ≤ S256.size a
  inb_S256x64_S1x64_29_0 : ∀ a, (![29, 0] : Fin 2 → Nat) a + S1x64.size a ≤ S256x64.size a
  inb_S256_S1_30 : ∀ a, (![30] : Fin 1 → Nat) a + S1.size a ≤ S256.size a
  inb_S256x64_S1x64_30_0 : ∀ a, (![30, 0] : Fin 2 → Nat) a + S1x64.size a ≤ S256x64.size a
  inb_S256_S1_31 : ∀ a, (![31] : Fin 1 → Nat) a + S1.size a ≤ S256.size a
  inb_S256x64_S1x64_31_0 : ∀ a, (![31, 0] : Fin 2 → Nat) a + S1x64.size a ≤ S256x64.size a
  inb_S256_S1_32 : ∀ a, (![32] : Fin 1 → Nat) a + S1.size a ≤ S256.size a
  inb_S256x64_S1x64_32_0 : ∀ a, (![32, 0] : Fin 2 → Nat) a + S1x64.size a ≤ S256x64.size a
  inb_S256_S1_33 : ∀ a, (![33] : Fin 1 → Nat) a + S1.size a ≤ S256.size a
  inb_S256x64_S1x64_33_0 : ∀ a, (![33, 0] : Fin 2 → Nat) a + S1x64.size a ≤ S256x64.size a
  inb_S256_S1_34 : ∀ a, (![34] : Fin 1 → Nat) a + S1.size a ≤ S256.size a
  inb_S256x64_S1x64_34_0 : ∀ a, (![34, 0] : Fin 2 → Nat) a + S1x64.size a ≤ S256x64.size a
  inb_S256_S1_35 : ∀ a, (![35] : Fin 1 → Nat) a + S1.size a ≤ S256.size a
  inb_S256x64_S1x64_35_0 : ∀ a, (![35, 0] : Fin 2 → Nat) a + S1x64.size a ≤ S256x64.size a
  inb_S256_S1_36 : ∀ a, (![36] : Fin 1 → Nat) a + S1.size a ≤ S256.size a
  inb_S256x64_S1x64_36_0 : ∀ a, (![36, 0] : Fin 2 → Nat) a + S1x64.size a ≤ S256x64.size a
  inb_S256_S1_37 : ∀ a, (![37] : Fin 1 → Nat) a + S1.size a ≤ S256.size a
  inb_S256x64_S1x64_37_0 : ∀ a, (![37, 0] : Fin 2 → Nat) a + S1x64.size a ≤ S256x64.size a
  inb_S256_S1_38 : ∀ a, (![38] : Fin 1 → Nat) a + S1.size a ≤ S256.size a
  inb_S256x64_S1x64_38_0 : ∀ a, (![38, 0] : Fin 2 → Nat) a + S1x64.size a ≤ S256x64.size a
  inb_S256_S1_39 : ∀ a, (![39] : Fin 1 → Nat) a + S1.size a ≤ S256.size a
  inb_S256x64_S1x64_39_0 : ∀ a, (![39, 0] : Fin 2 → Nat) a + S1x64.size a ≤ S256x64.size a
  inb_S256_S1_40 : ∀ a, (![40] : Fin 1 → Nat) a + S1.size a ≤ S256.size a
  inb_S256x64_S1x64_40_0 : ∀ a, (![40, 0] : Fin 2 → Nat) a + S1x64.size a ≤ S256x64.size a
  inb_S256_S1_41 : ∀ a, (![41] : Fin 1 → Nat) a + S1.size a ≤ S256.size a
  inb_S256x64_S1x64_41_0 : ∀ a, (![41, 0] : Fin 2 → Nat) a + S1x64.size a ≤ S256x64.size a
  inb_S256_S1_42 : ∀ a, (![42] : Fin 1 → Nat) a + S1.size a ≤ S256.size a
  inb_S256x64_S1x64_42_0 : ∀ a, (![42, 0] : Fin 2 → Nat) a + S1x64.size a ≤ S256x64.size a
  inb_S256_S1_43 : ∀ a, (![43] : Fin 1 → Nat) a + S1.size a ≤ S256.size a
  inb_S256x64_S1x64_43_0 : ∀ a, (![43, 0] : Fin 2 → Nat) a + S1x64.size a ≤ S256x64.size a
  inb_S256_S1_44 : ∀ a, (![44] : Fin 1 → Nat) a + S1.size a ≤ S256.size a
  inb_S256x64_S1x64_44_0 : ∀ a, (![44, 0] : Fin 2 → Nat) a + S1x64.size a ≤ S256x64.size a
  inb_S256_S1_45 : ∀ a, (![45] : Fin 1 → Nat) a + S1.size a ≤ S256.size a
  inb_S256x64_S1x64_45_0 : ∀ a, (![45, 0] : Fin 2 → Nat) a + S1x64.size a ≤ S256x64.size a
  inb_S256_S1_46 : ∀ a, (![46] : Fin 1 → Nat) a + S1.size a ≤ S256.size a
  inb_S256x64_S1x64_46_0 : ∀ a, (![46, 0] : Fin 2 → Nat) a + S1x64.size a ≤ S256x64.size a
  inb_S256_S1_47 : ∀ a, (![47] : Fin 1 → Nat) a + S1.size a ≤ S256.size a
  inb_S256x64_S1x64_47_0 : ∀ a, (![47, 0] : Fin 2 → Nat) a + S1x64.size a ≤ S256x64.size a
  inb_S256_S1_48 : ∀ a, (![48] : Fin 1 → Nat) a + S1.size a ≤ S256.size a
  inb_S256x64_S1x64_48_0 : ∀ a, (![48, 0] : Fin 2 → Nat) a + S1x64.size a ≤ S256x64.size a
  inb_S256_S1_49 : ∀ a, (![49] : Fin 1 → Nat) a + S1.size a ≤ S256.size a
  inb_S256x64_S1x64_49_0 : ∀ a, (![49, 0] : Fin 2 → Nat) a + S1x64.size a ≤ S256x64.size a
  inb_S256_S1_50 : ∀ a, (![50] : Fin 1 → Nat) a + S1.size a ≤ S256.size a
  inb_S256x64_S1x64_50_0 : ∀ a, (![50, 0] : Fin 2 → Nat) a + S1x64.size a ≤ S256x64.size a
  inb_S256_S1_51 : ∀ a, (![51] : Fin 1 → Nat) a + S1.size a ≤ S256.size a
  inb_S256x64_S1x64_51_0 : ∀ a, (![51, 0] : Fin 2 → Nat) a + S1x64.size a ≤ S256x64.size a
  inb_S256_S1_52 : ∀ a, (![52] : Fin 1 → Nat) a + S1.size a ≤ S256.size a
  inb_S256x64_S1x64_52_0 : ∀ a, (![52, 0] : Fin 2 → Nat) a + S1x64.size a ≤ S256x64.size a
  inb_S256_S1_53 : ∀ a, (![53] : Fin 1 → Nat) a + S1.size a ≤ S256.size a
  inb_S256x64_S1x64_53_0 : ∀ a, (![53, 0] : Fin 2 → Nat) a + S1x64.size a ≤ S256x64.size a
  inb_S256_S1_54 : ∀ a, (![54] : Fin 1 → Nat) a + S1.size a ≤ S256.size a
  inb_S256x64_S1x64_54_0 : ∀ a, (![54, 0] : Fin 2 → Nat) a + S1x64.size a ≤ S256x64.size a
  inb_S256_S1_55 : ∀ a, (![55] : Fin 1 → Nat) a + S1.size a ≤ S256.size a
  inb_S256x64_S1x64_55_0 : ∀ a, (![55, 0] : Fin 2 → Nat) a + S1x64.size a ≤ S256x64.size a
  inb_S256_S1_56 : ∀ a, (![56] : Fin 1 → Nat) a + S1.size a ≤ S256.size a
  inb_S256x64_S1x64_56_0 : ∀ a, (![56, 0] : Fin 2 → Nat) a + S1x64.size a ≤ S256x64.size a
  inb_S256_S1_57 : ∀ a, (![57] : Fin 1 → Nat) a + S1.size a ≤ S256.size a
  inb_S256x64_S1x64_57_0 : ∀ a, (![57, 0] : Fin 2 → Nat) a + S1x64.size a ≤ S256x64.size a
  inb_S256_S1_58 : ∀ a, (![58] : Fin 1 → Nat) a + S1.size a ≤ S256.size a
  inb_S256x64_S1x64_58_0 : ∀ a, (![58, 0] : Fin 2 → Nat) a + S1x64.size a ≤ S256x64.size a
  inb_S256_S1_59 : ∀ a, (![59] : Fin 1 → Nat) a + S1.size a ≤ S256.size a
  inb_S256x64_S1x64_59_0 : ∀ a, (![59, 0] : Fin 2 → Nat) a + S1x64.size a ≤ S256x64.size a
  inb_S256_S1_60 : ∀ a, (![60] : Fin 1 → Nat) a + S1.size a ≤ S256.size a
  inb_S256x64_S1x64_60_0 : ∀ a, (![60, 0] : Fin 2 → Nat) a + S1x64.size a ≤ S256x64.size a
  inb_S256_S1_61 : ∀ a, (![61] : Fin 1 → Nat) a + S1.size a ≤ S256.size a
  inb_S256x64_S1x64_61_0 : ∀ a, (![61, 0] : Fin 2 → Nat) a + S1x64.size a ≤ S256x64.size a
  inb_S256_S1_62 : ∀ a, (![62] : Fin 1 → Nat) a + S1.size a ≤ S256.size a
  inb_S256x64_S1x64_62_0 : ∀ a, (![62, 0] : Fin 2 → Nat) a + S1x64.size a ≤ S256x64.size a
  inb_S256_S1_63 : ∀ a, (![63] : Fin 1 → Nat) a + S1.size a ≤ S256.size a
  inb_S256x64_S1x64_63_0 : ∀ a, (![63, 0] : Fin 2 → Nat) a + S1x64.size a ≤ S256x64.size a
  inb_S256_S1_64 : ∀ a, (![64] : Fin 1 → Nat) a + S1.size a ≤ S256.size a
  inb_S256x64_S1x64_64_0 : ∀ a, (![64, 0] : Fin 2 → Nat) a + S1x64.size a ≤ S256x64.size a
  inb_S256_S1_65 : ∀ a, (![65] : Fin 1 → Nat) a + S1.size a ≤ S256.size a
  inb_S256x64_S1x64_65_0 : ∀ a, (![65, 0] : Fin 2 → Nat) a + S1x64.size a ≤ S256x64.size a
  inb_S256_S1_66 : ∀ a, (![66] : Fin 1 → Nat) a + S1.size a ≤ S256.size a
  inb_S256x64_S1x64_66_0 : ∀ a, (![66, 0] : Fin 2 → Nat) a + S1x64.size a ≤ S256x64.size a
  inb_S256_S1_67 : ∀ a, (![67] : Fin 1 → Nat) a + S1.size a ≤ S256.size a
  inb_S256x64_S1x64_67_0 : ∀ a, (![67, 0] : Fin 2 → Nat) a + S1x64.size a ≤ S256x64.size a
  inb_S256_S1_68 : ∀ a, (![68] : Fin 1 → Nat) a + S1.size a ≤ S256.size a
  inb_S256x64_S1x64_68_0 : ∀ a, (![68, 0] : Fin 2 → Nat) a + S1x64.size a ≤ S256x64.size a
  inb_S256_S1_69 : ∀ a, (![69] : Fin 1 → Nat) a + S1.size a ≤ S256.size a
  inb_S256x64_S1x64_69_0 : ∀ a, (![69, 0] : Fin 2 → Nat) a + S1x64.size a ≤ S256x64.size a
  inb_S256_S1_70 : ∀ a, (![70] : Fin 1 → Nat) a + S1.size a ≤ S256.size a
  inb_S256x64_S1x64_70_0 : ∀ a, (![70, 0] : Fin 2 → Nat) a + S1x64.size a ≤ S256x64.size a
  inb_S256_S1_71 : ∀ a, (![71] : Fin 1 → Nat) a + S1.size a ≤ S256.size a
  inb_S256x64_S1x64_71_0 : ∀ a, (![71, 0] : Fin 2 → Nat) a + S1x64.size a ≤ S256x64.size a
  inb_S256_S1_72 : ∀ a, (![72] : Fin 1 → Nat) a + S1.size a ≤ S256.size a
  inb_S256x64_S1x64_72_0 : ∀ a, (![72, 0] : Fin 2 → Nat) a + S1x64.size a ≤ S256x64.size a
  inb_S256_S1_73 : ∀ a, (![73] : Fin 1 → Nat) a + S1.size a ≤ S256.size a
  inb_S256x64_S1x64_73_0 : ∀ a, (![73, 0] : Fin 2 → Nat) a + S1x64.size a ≤ S256x64.size a
  inb_S256_S1_74 : ∀ a, (![74] : Fin 1 → Nat) a + S1.size a ≤ S256.size a
  inb_S256x64_S1x64_74_0 : ∀ a, (![74, 0] : Fin 2 → Nat) a + S1x64.size a ≤ S256x64.size a
  inb_S256_S1_75 : ∀ a, (![75] : Fin 1 → Nat) a + S1.size a ≤ S256.size a
  inb_S256x64_S1x64_75_0 : ∀ a, (![75, 0] : Fin 2 → Nat) a + S1x64.size a ≤ S256x64.size a
  inb_S256_S1_76 : ∀ a, (![76] : Fin 1 → Nat) a + S1.size a ≤ S256.size a
  inb_S256x64_S1x64_76_0 : ∀ a, (![76, 0] : Fin 2 → Nat) a + S1x64.size a ≤ S256x64.size a
  inb_S256_S1_77 : ∀ a, (![77] : Fin 1 → Nat) a + S1.size a ≤ S256.size a
  inb_S256x64_S1x64_77_0 : ∀ a, (![77, 0] : Fin 2 → Nat) a + S1x64.size a ≤ S256x64.size a
  inb_S256_S1_78 : ∀ a, (![78] : Fin 1 → Nat) a + S1.size a ≤ S256.size a
  inb_S256x64_S1x64_78_0 : ∀ a, (![78, 0] : Fin 2 → Nat) a + S1x64.size a ≤ S256x64.size a
  inb_S256_S1_79 : ∀ a, (![79] : Fin 1 → Nat) a + S1.size a ≤ S256.size a
  inb_S256x64_S1x64_79_0 : ∀ a, (![79, 0] : Fin 2 → Nat) a + S1x64.size a ≤ S256x64.size a
  inb_S256_S1_80 : ∀ a, (![80] : Fin 1 → Nat) a + S1.size a ≤ S256.size a
  inb_S256x64_S1x64_80_0 : ∀ a, (![80, 0] : Fin 2 → Nat) a + S1x64.size a ≤ S256x64.size a
  inb_S256_S1_81 : ∀ a, (![81] : Fin 1 → Nat) a + S1.size a ≤ S256.size a
  inb_S256x64_S1x64_81_0 : ∀ a, (![81, 0] : Fin 2 → Nat) a + S1x64.size a ≤ S256x64.size a
  inb_S256_S1_82 : ∀ a, (![82] : Fin 1 → Nat) a + S1.size a ≤ S256.size a
  inb_S256x64_S1x64_82_0 : ∀ a, (![82, 0] : Fin 2 → Nat) a + S1x64.size a ≤ S256x64.size a
  inb_S256_S1_83 : ∀ a, (![83] : Fin 1 → Nat) a + S1.size a ≤ S256.size a
  inb_S256x64_S1x64_83_0 : ∀ a, (![83, 0] : Fin 2 → Nat) a + S1x64.size a ≤ S256x64.size a
  inb_S256_S1_84 : ∀ a, (![84] : Fin 1 → Nat) a + S1.size a ≤ S256.size a
  inb_S256x64_S1x64_84_0 : ∀ a, (![84, 0] : Fin 2 → Nat) a + S1x64.size a ≤ S256x64.size a
  inb_S256_S1_85 : ∀ a, (![85] : Fin 1 → Nat) a + S1.size a ≤ S256.size a
  inb_S256x64_S1x64_85_0 : ∀ a, (![85, 0] : Fin 2 → Nat) a + S1x64.size a ≤ S256x64.size a
  inb_S256_S1_86 : ∀ a, (![86] : Fin 1 → Nat) a + S1.size a ≤ S256.size a
  inb_S256x64_S1x64_86_0 : ∀ a, (![86, 0] : Fin 2 → Nat) a + S1x64.size a ≤ S256x64.size a
  inb_S256_S1_87 : ∀ a, (![87] : Fin 1 → Nat) a + S1.size a ≤ S256.size a
  inb_S256x64_S1x64_87_0 : ∀ a, (![87, 0] : Fin 2 → Nat) a + S1x64.size a ≤ S256x64.size a
  inb_S256_S1_88 : ∀ a, (![88] : Fin 1 → Nat) a + S1.size a ≤ S256.size a
  inb_S256x64_S1x64_88_0 : ∀ a, (![88, 0] : Fin 2 → Nat) a + S1x64.size a ≤ S256x64.size a
  inb_S256_S1_89 : ∀ a, (![89] : Fin 1 → Nat) a + S1.size a ≤ S256.size a
  inb_S256x64_S1x64_89_0 : ∀ a, (![89, 0] : Fin 2 → Nat) a + S1x64.size a ≤ S256x64.size a
  inb_S256_S1_90 : ∀ a, (![90] : Fin 1 → Nat) a + S1.size a ≤ S256.size a
  inb_S256x64_S1x64_90_0 : ∀ a, (![90, 0] : Fin 2 → Nat) a + S1x64.size a ≤ S256x64.size a
  inb_S256_S1_91 : ∀ a, (![91] : Fin 1 → Nat) a + S1.size a ≤ S256.size a
  inb_S256x64_S1x64_91_0 : ∀ a, (![91, 0] : Fin 2 → Nat) a + S1x64.size a ≤ S256x64.size a
  inb_S256_S1_92 : ∀ a, (![92] : Fin 1 → Nat) a + S1.size a ≤ S256.size a
  inb_S256x64_S1x64_92_0 : ∀ a, (![92, 0] : Fin 2 → Nat) a + S1x64.size a ≤ S256x64.size a
  inb_S256_S1_93 : ∀ a, (![93] : Fin 1 → Nat) a + S1.size a ≤ S256.size a
  inb_S256x64_S1x64_93_0 : ∀ a, (![93, 0] : Fin 2 → Nat) a + S1x64.size a ≤ S256x64.size a
  inb_S256_S1_94 : ∀ a, (![94] : Fin 1 → Nat) a + S1.size a ≤ S256.size a
  inb_S256x64_S1x64_94_0 : ∀ a, (![94, 0] : Fin 2 → Nat) a + S1x64.size a ≤ S256x64.size a
  inb_S256_S1_95 : ∀ a, (![95] : Fin 1 → Nat) a + S1.size a ≤ S256.size a
  inb_S256x64_S1x64_95_0 : ∀ a, (![95, 0] : Fin 2 → Nat) a + S1x64.size a ≤ S256x64.size a
  inb_S256_S1_96 : ∀ a, (![96] : Fin 1 → Nat) a + S1.size a ≤ S256.size a
  inb_S256x64_S1x64_96_0 : ∀ a, (![96, 0] : Fin 2 → Nat) a + S1x64.size a ≤ S256x64.size a
  inb_S256_S1_97 : ∀ a, (![97] : Fin 1 → Nat) a + S1.size a ≤ S256.size a
  inb_S256x64_S1x64_97_0 : ∀ a, (![97, 0] : Fin 2 → Nat) a + S1x64.size a ≤ S256x64.size a
  inb_S256_S1_98 : ∀ a, (![98] : Fin 1 → Nat) a + S1.size a ≤ S256.size a
  inb_S256x64_S1x64_98_0 : ∀ a, (![98, 0] : Fin 2 → Nat) a + S1x64.size a ≤ S256x64.size a
  inb_S256_S1_99 : ∀ a, (![99] : Fin 1 → Nat) a + S1.size a ≤ S256.size a
  inb_S256x64_S1x64_99_0 : ∀ a, (![99, 0] : Fin 2 → Nat) a + S1x64.size a ≤ S256x64.size a
  inb_S256_S1_100 : ∀ a, (![100] : Fin 1 → Nat) a + S1.size a ≤ S256.size a
  inb_S256x64_S1x64_100_0 : ∀ a, (![100, 0] : Fin 2 → Nat) a + S1x64.size a ≤ S256x64.size a
  inb_S256_S1_101 : ∀ a, (![101] : Fin 1 → Nat) a + S1.size a ≤ S256.size a
  inb_S256x64_S1x64_101_0 : ∀ a, (![101, 0] : Fin 2 → Nat) a + S1x64.size a ≤ S256x64.size a
  inb_S256_S1_102 : ∀ a, (![102] : Fin 1 → Nat) a + S1.size a ≤ S256.size a
  inb_S256x64_S1x64_102_0 : ∀ a, (![102, 0] : Fin 2 → Nat) a + S1x64.size a ≤ S256x64.size a
  inb_S256_S1_103 : ∀ a, (![103] : Fin 1 → Nat) a + S1.size a ≤ S256.size a
  inb_S256x64_S1x64_103_0 : ∀ a, (![103, 0] : Fin 2 → Nat) a + S1x64.size a ≤ S256x64.size a
  inb_S256_S1_104 : ∀ a, (![104] : Fin 1 → Nat) a + S1.size a ≤ S256.size a
  inb_S256x64_S1x64_104_0 : ∀ a, (![104, 0] : Fin 2 → Nat) a + S1x64.size a ≤ S256x64.size a
  inb_S256_S1_105 : ∀ a, (![105] : Fin 1 → Nat) a + S1.size a ≤ S256.size a
  inb_S256x64_S1x64_105_0 : ∀ a, (![105, 0] : Fin 2 → Nat) a + S1x64.size a ≤ S256x64.size a
  inb_S256_S1_106 : ∀ a, (![106] : Fin 1 → Nat) a + S1.size a ≤ S256.size a
  inb_S256x64_S1x64_106_0 : ∀ a, (![106, 0] : Fin 2 → Nat) a + S1x64.size a ≤ S256x64.size a
  inb_S256_S1_107 : ∀ a, (![107] : Fin 1 → Nat) a + S1.size a ≤ S256.size a
  inb_S256x64_S1x64_107_0 : ∀ a, (![107, 0] : Fin 2 → Nat) a + S1x64.size a ≤ S256x64.size a
  inb_S256_S1_108 : ∀ a, (![108] : Fin 1 → Nat) a + S1.size a ≤ S256.size a
  inb_S256x64_S1x64_108_0 : ∀ a, (![108, 0] : Fin 2 → Nat) a + S1x64.size a ≤ S256x64.size a
  inb_S256_S1_109 : ∀ a, (![109] : Fin 1 → Nat) a + S1.size a ≤ S256.size a
  inb_S256x64_S1x64_109_0 : ∀ a, (![109, 0] : Fin 2 → Nat) a + S1x64.size a ≤ S256x64.size a
  inb_S256_S1_110 : ∀ a, (![110] : Fin 1 → Nat) a + S1.size a ≤ S256.size a
  inb_S256x64_S1x64_110_0 : ∀ a, (![110, 0] : Fin 2 → Nat) a + S1x64.size a ≤ S256x64.size a
  inb_S256_S1_111 : ∀ a, (![111] : Fin 1 → Nat) a + S1.size a ≤ S256.size a
  inb_S256x64_S1x64_111_0 : ∀ a, (![111, 0] : Fin 2 → Nat) a + S1x64.size a ≤ S256x64.size a
  inb_S256_S1_112 : ∀ a, (![112] : Fin 1 → Nat) a + S1.size a ≤ S256.size a
  inb_S256x64_S1x64_112_0 : ∀ a, (![112, 0] : Fin 2 → Nat) a + S1x64.size a ≤ S256x64.size a
  inb_S256_S1_113 : ∀ a, (![113] : Fin 1 → Nat) a + S1.size a ≤ S256.size a
  inb_S256x64_S1x64_113_0 : ∀ a, (![113, 0] : Fin 2 → Nat) a + S1x64.size a ≤ S256x64.size a
  inb_S256_S1_114 : ∀ a, (![114] : Fin 1 → Nat) a + S1.size a ≤ S256.size a
  inb_S256x64_S1x64_114_0 : ∀ a, (![114, 0] : Fin 2 → Nat) a + S1x64.size a ≤ S256x64.size a
  inb_S256_S1_115 : ∀ a, (![115] : Fin 1 → Nat) a + S1.size a ≤ S256.size a
  inb_S256x64_S1x64_115_0 : ∀ a, (![115, 0] : Fin 2 → Nat) a + S1x64.size a ≤ S256x64.size a
  inb_S256_S1_116 : ∀ a, (![116] : Fin 1 → Nat) a + S1.size a ≤ S256.size a
  inb_S256x64_S1x64_116_0 : ∀ a, (![116, 0] : Fin 2 → Nat) a + S1x64.size a ≤ S256x64.size a
  inb_S256_S1_117 : ∀ a, (![117] : Fin 1 → Nat) a + S1.size a ≤ S256.size a
  inb_S256x64_S1x64_117_0 : ∀ a, (![117, 0] : Fin 2 → Nat) a + S1x64.size a ≤ S256x64.size a
  inb_S256_S1_118 : ∀ a, (![118] : Fin 1 → Nat) a + S1.size a ≤ S256.size a
  inb_S256x64_S1x64_118_0 : ∀ a, (![118, 0] : Fin 2 → Nat) a + S1x64.size a ≤ S256x64.size a
  inb_S256_S1_119 : ∀ a, (![119] : Fin 1 → Nat) a + S1.size a ≤ S256.size a
  inb_S256x64_S1x64_119_0 : ∀ a, (![119, 0] : Fin 2 → Nat) a + S1x64.size a ≤ S256x64.size a
  inb_S256_S1_120 : ∀ a, (![120] : Fin 1 → Nat) a + S1.size a ≤ S256.size a
  inb_S256x64_S1x64_120_0 : ∀ a, (![120, 0] : Fin 2 → Nat) a + S1x64.size a ≤ S256x64.size a
  inb_S256_S1_121 : ∀ a, (![121] : Fin 1 → Nat) a + S1.size a ≤ S256.size a
  inb_S256x64_S1x64_121_0 : ∀ a, (![121, 0] : Fin 2 → Nat) a + S1x64.size a ≤ S256x64.size a
  inb_S256_S1_122 : ∀ a, (![122] : Fin 1 → Nat) a + S1.size a ≤ S256.size a
  inb_S256x64_S1x64_122_0 : ∀ a, (![122, 0] : Fin 2 → Nat) a + S1x64.size a ≤ S256x64.size a
  inb_S256_S1_123 : ∀ a, (![123] : Fin 1 → Nat) a + S1.size a ≤ S256.size a
  inb_S256x64_S1x64_123_0 : ∀ a, (![123, 0] : Fin 2 → Nat) a + S1x64.size a ≤ S256x64.size a
  inb_S256_S1_124 : ∀ a, (![124] : Fin 1 → Nat) a + S1.size a ≤ S256.size a
  inb_S256x64_S1x64_124_0 : ∀ a, (![124, 0] : Fin 2 → Nat) a + S1x64.size a ≤ S256x64.size a
  inb_S256_S1_125 : ∀ a, (![125] : Fin 1 → Nat) a + S1.size a ≤ S256.size a
  inb_S256x64_S1x64_125_0 : ∀ a, (![125, 0] : Fin 2 → Nat) a + S1x64.size a ≤ S256x64.size a
  inb_S256_S1_126 : ∀ a, (![126] : Fin 1 → Nat) a + S1.size a ≤ S256.size a
  inb_S256x64_S1x64_126_0 : ∀ a, (![126, 0] : Fin 2 → Nat) a + S1x64.size a ≤ S256x64.size a
  inb_S256_S1_127 : ∀ a, (![127] : Fin 1 → Nat) a + S1.size a ≤ S256.size a
  inb_S256x64_S1x64_127_0 : ∀ a, (![127, 0] : Fin 2 → Nat) a + S1x64.size a ≤ S256x64.size a
  inb_S256_S1_128 : ∀ a, (![128] : Fin 1 → Nat) a + S1.size a ≤ S256.size a
  inb_S256x64_S1x64_128_0 : ∀ a, (![128, 0] : Fin 2 → Nat) a + S1x64.size a ≤ S256x64.size a
  inb_S256_S1_129 : ∀ a, (![129] : Fin 1 → Nat) a + S1.size a ≤ S256.size a
  inb_S256x64_S1x64_129_0 : ∀ a, (![129, 0] : Fin 2 → Nat) a + S1x64.size a ≤ S256x64.size a
  inb_S256_S1_130 : ∀ a, (![130] : Fin 1 → Nat) a + S1.size a ≤ S256.size a
  inb_S256x64_S1x64_130_0 : ∀ a, (![130, 0] : Fin 2 → Nat) a + S1x64.size a ≤ S256x64.size a
  inb_S256_S1_131 : ∀ a, (![131] : Fin 1 → Nat) a + S1.size a ≤ S256.size a
  inb_S256x64_S1x64_131_0 : ∀ a, (![131, 0] : Fin 2 → Nat) a + S1x64.size a ≤ S256x64.size a
  inb_S256_S1_132 : ∀ a, (![132] : Fin 1 → Nat) a + S1.size a ≤ S256.size a
  inb_S256x64_S1x64_132_0 : ∀ a, (![132, 0] : Fin 2 → Nat) a + S1x64.size a ≤ S256x64.size a
  inb_S256_S1_133 : ∀ a, (![133] : Fin 1 → Nat) a + S1.size a ≤ S256.size a
  inb_S256x64_S1x64_133_0 : ∀ a, (![133, 0] : Fin 2 → Nat) a + S1x64.size a ≤ S256x64.size a
  inb_S256_S1_134 : ∀ a, (![134] : Fin 1 → Nat) a + S1.size a ≤ S256.size a
  inb_S256x64_S1x64_134_0 : ∀ a, (![134, 0] : Fin 2 → Nat) a + S1x64.size a ≤ S256x64.size a
  inb_S256_S1_135 : ∀ a, (![135] : Fin 1 → Nat) a + S1.size a ≤ S256.size a
  inb_S256x64_S1x64_135_0 : ∀ a, (![135, 0] : Fin 2 → Nat) a + S1x64.size a ≤ S256x64.size a
  inb_S256_S1_136 : ∀ a, (![136] : Fin 1 → Nat) a + S1.size a ≤ S256.size a
  inb_S256x64_S1x64_136_0 : ∀ a, (![136, 0] : Fin 2 → Nat) a + S1x64.size a ≤ S256x64.size a
  inb_S256_S1_137 : ∀ a, (![137] : Fin 1 → Nat) a + S1.size a ≤ S256.size a
  inb_S256x64_S1x64_137_0 : ∀ a, (![137, 0] : Fin 2 → Nat) a + S1x64.size a ≤ S256x64.size a
  inb_S256_S1_138 : ∀ a, (![138] : Fin 1 → Nat) a + S1.size a ≤ S256.size a
  inb_S256x64_S1x64_138_0 : ∀ a, (![138, 0] : Fin 2 → Nat) a + S1x64.size a ≤ S256x64.size a
  inb_S256_S1_139 : ∀ a, (![139] : Fin 1 → Nat) a + S1.size a ≤ S256.size a
  inb_S256x64_S1x64_139_0 : ∀ a, (![139, 0] : Fin 2 → Nat) a + S1x64.size a ≤ S256x64.size a
  inb_S256_S1_140 : ∀ a, (![140] : Fin 1 → Nat) a + S1.size a ≤ S256.size a
  inb_S256x64_S1x64_140_0 : ∀ a, (![140, 0] : Fin 2 → Nat) a + S1x64.size a ≤ S256x64.size a
  inb_S256_S1_141 : ∀ a, (![141] : Fin 1 → Nat) a + S1.size a ≤ S256.size a
  inb_S256x64_S1x64_141_0 : ∀ a, (![141, 0] : Fin 2 → Nat) a + S1x64.size a ≤ S256x64.size a
  inb_S256_S1_142 : ∀ a, (![142] : Fin 1 → Nat) a + S1.size a ≤ S256.size a
  inb_S256x64_S1x64_142_0 : ∀ a, (![142, 0] : Fin 2 → Nat) a + S1x64.size a ≤ S256x64.size a
  inb_S256_S1_143 : ∀ a, (![143] : Fin 1 → Nat) a + S1.size a ≤ S256.size a
  inb_S256x64_S1x64_143_0 : ∀ a, (![143, 0] : Fin 2 → Nat) a + S1x64.size a ≤ S256x64.size a
  inb_S256_S1_144 : ∀ a, (![144] : Fin 1 → Nat) a + S1.size a ≤ S256.size a
  inb_S256x64_S1x64_144_0 : ∀ a, (![144, 0] : Fin 2 → Nat) a + S1x64.size a ≤ S256x64.size a
  inb_S256_S1_145 : ∀ a, (![145] : Fin 1 → Nat) a + S1.size a ≤ S256.size a
  inb_S256x64_S1x64_145_0 : ∀ a, (![145, 0] : Fin 2 → Nat) a + S1x64.size a ≤ S256x64.size a
  inb_S256_S1_146 : ∀ a, (![146] : Fin 1 → Nat) a + S1.size a ≤ S256.size a
  inb_S256x64_S1x64_146_0 : ∀ a, (![146, 0] : Fin 2 → Nat) a + S1x64.size a ≤ S256x64.size a
  inb_S256_S1_147 : ∀ a, (![147] : Fin 1 → Nat) a + S1.size a ≤ S256.size a
  inb_S256x64_S1x64_147_0 : ∀ a, (![147, 0] : Fin 2 → Nat) a + S1x64.size a ≤ S256x64.size a
  inb_S256_S1_148 : ∀ a, (![148] : Fin 1 → Nat) a + S1.size a ≤ S256.size a
  inb_S256x64_S1x64_148_0 : ∀ a, (![148, 0] : Fin 2 → Nat) a + S1x64.size a ≤ S256x64.size a
  inb_S256_S1_149 : ∀ a, (![149] : Fin 1 → Nat) a + S1.size a ≤ S256.size a
  inb_S256x64_S1x64_149_0 : ∀ a, (![149, 0] : Fin 2 → Nat) a + S1x64.size a ≤ S256x64.size a
  inb_S256_S1_150 : ∀ a, (![150] : Fin 1 → Nat) a + S1.size a ≤ S256.size a
  inb_S256x64_S1x64_150_0 : ∀ a, (![150, 0] : Fin 2 → Nat) a + S1x64.size a ≤ S256x64.size a
  inb_S256_S1_151 : ∀ a, (![151] : Fin 1 → Nat) a + S1.size a ≤ S256.size a
  inb_S256x64_S1x64_151_0 : ∀ a, (![151, 0] : Fin 2 → Nat) a + S1x64.size a ≤ S256x64.size a
  inb_S256_S1_152 : ∀ a, (![152] : Fin 1 → Nat) a + S1.size a ≤ S256.size a
  inb_S256x64_S1x64_152_0 : ∀ a, (![152, 0] : Fin 2 → Nat) a + S1x64.size a ≤ S256x64.size a
  inb_S256_S1_153 : ∀ a, (![153] : Fin 1 → Nat) a + S1.size a ≤ S256.size a
  inb_S256x64_S1x64_153_0 : ∀ a, (![153, 0] : Fin 2 → Nat) a + S1x64.size a ≤ S256x64.size a
  inb_S256_S1_154 : ∀ a, (![154] : Fin 1 → Nat) a + S1.size a ≤ S256.size a
  inb_S256x64_S1x64_154_0 : ∀ a, (![154, 0] : Fin 2 → Nat) a + S1x64.size a ≤ S256x64.size a
  inb_S256_S1_155 : ∀ a, (![155] : Fin 1 → Nat) a + S1.size a ≤ S256.size a
  inb_S256x64_S1x64_155_0 : ∀ a, (![155, 0] : Fin 2 → Nat) a + S1x64.size a ≤ S256x64.size a
  inb_S256_S1_156 : ∀ a, (![156] : Fin 1 → Nat) a + S1.size a ≤ S256.size a
  inb_S256x64_S1x64_156_0 : ∀ a, (![156, 0] : Fin 2 → Nat) a + S1x64.size a ≤ S256x64.size a
  inb_S256_S1_157 : ∀ a, (![157] : Fin 1 → Nat) a + S1.size a ≤ S256.size a
  inb_S256x64_S1x64_157_0 : ∀ a, (![157, 0] : Fin 2 → Nat) a + S1x64.size a ≤ S256x64.size a
  inb_S256_S1_158 : ∀ a, (![158] : Fin 1 → Nat) a + S1.size a ≤ S256.size a
  inb_S256x64_S1x64_158_0 : ∀ a, (![158, 0] : Fin 2 → Nat) a + S1x64.size a ≤ S256x64.size a
  inb_S256_S1_159 : ∀ a, (![159] : Fin 1 → Nat) a + S1.size a ≤ S256.size a
  inb_S256x64_S1x64_159_0 : ∀ a, (![159, 0] : Fin 2 → Nat) a + S1x64.size a ≤ S256x64.size a
  inb_S256_S1_160 : ∀ a, (![160] : Fin 1 → Nat) a + S1.size a ≤ S256.size a
  inb_S256x64_S1x64_160_0 : ∀ a, (![160, 0] : Fin 2 → Nat) a + S1x64.size a ≤ S256x64.size a
  inb_S256_S1_161 : ∀ a, (![161] : Fin 1 → Nat) a + S1.size a ≤ S256.size a
  inb_S256x64_S1x64_161_0 : ∀ a, (![161, 0] : Fin 2 → Nat) a + S1x64.size a ≤ S256x64.size a
  inb_S256_S1_162 : ∀ a, (![162] : Fin 1 → Nat) a + S1.size a ≤ S256.size a
  inb_S256x64_S1x64_162_0 : ∀ a, (![162, 0] : Fin 2 → Nat) a + S1x64.size a ≤ S256x64.size a
  inb_S256_S1_163 : ∀ a, (![163] : Fin 1 → Nat) a + S1.size a ≤ S256.size a
  inb_S256x64_S1x64_163_0 : ∀ a, (![163, 0] : Fin 2 → Nat) a + S1x64.size a ≤ S256x64.size a
  inb_S256_S1_164 : ∀ a, (![164] : Fin 1 → Nat) a + S1.size a ≤ S256.size a
  inb_S256x64_S1x64_164_0 : ∀ a, (![164, 0] : Fin 2 → Nat) a + S1x64.size a ≤ S256x64.size a
  inb_S256_S1_165 : ∀ a, (![165] : Fin 1 → Nat) a + S1.size a ≤ S256.size a
  inb_S256x64_S1x64_165_0 : ∀ a, (![165, 0] : Fin 2 → Nat) a + S1x64.size a ≤ S256x64.size a
  inb_S256_S1_166 : ∀ a, (![166] : Fin 1 → Nat) a + S1.size a ≤ S256.size a
  inb_S256x64_S1x64_166_0 : ∀ a, (![166, 0] : Fin 2 → Nat) a + S1x64.size a ≤ S256x64.size a
  inb_S256_S1_167 : ∀ a, (![167] : Fin 1 → Nat) a + S1.size a ≤ S256.size a
  inb_S256x64_S1x64_167_0 : ∀ a, (![167, 0] : Fin 2 → Nat) a + S1x64.size a ≤ S256x64.size a
  inb_S256_S1_168 : ∀ a, (![168] : Fin 1 → Nat) a + S1.size a ≤ S256.size a
  inb_S256x64_S1x64_168_0 : ∀ a, (![168, 0] : Fin 2 → Nat) a + S1x64.size a ≤ S256x64.size a
  inb_S256_S1_169 : ∀ a, (![169] : Fin 1 → Nat) a + S1.size a ≤ S256.size a
  inb_S256x64_S1x64_169_0 : ∀ a, (![169, 0] : Fin 2 → Nat) a + S1x64.size a ≤ S256x64.size a
  inb_S256_S1_170 : ∀ a, (![170] : Fin 1 → Nat) a + S1.size a ≤ S256.size a
  inb_S256x64_S1x64_170_0 : ∀ a, (![170, 0] : Fin 2 → Nat) a + S1x64.size a ≤ S256x64.size a
  inb_S256_S1_171 : ∀ a, (![171] : Fin 1 → Nat) a + S1.size a ≤ S256.size a
  inb_S256x64_S1x64_171_0 : ∀ a, (![171, 0] : Fin 2 → Nat) a + S1x64.size a ≤ S256x64.size a
  inb_S256_S1_172 : ∀ a, (![172] : Fin 1 → Nat) a + S1.size a ≤ S256.size a
  inb_S256x64_S1x64_172_0 : ∀ a, (![172, 0] : Fin 2 → Nat) a + S1x64.size a ≤ S256x64.size a
  inb_S256_S1_173 : ∀ a, (![173] : Fin 1 → Nat) a + S1.size a ≤ S256.size a
  inb_S256x64_S1x64_173_0 : ∀ a, (![173, 0] : Fin 2 → Nat) a + S1x64.size a ≤ S256x64.size a
  inb_S256_S1_174 : ∀ a, (![174] : Fin 1 → Nat) a + S1.size a ≤ S256.size a
  inb_S256x64_S1x64_174_0 : ∀ a, (![174, 0] : Fin 2 → Nat) a + S1x64.size a ≤ S256x64.size a
  inb_S256_S1_175 : ∀ a, (![175] : Fin 1 → Nat) a + S1.size a ≤ S256.size a
  inb_S256x64_S1x64_175_0 : ∀ a, (![175, 0] : Fin 2 → Nat) a + S1x64.size a ≤ S256x64.size a
  inb_S256_S1_176 : ∀ a, (![176] : Fin 1 → Nat) a + S1.size a ≤ S256.size a
  inb_S256x64_S1x64_176_0 : ∀ a, (![176, 0] : Fin 2 → Nat) a + S1x64.size a ≤ S256x64.size a
  inb_S256_S1_177 : ∀ a, (![177] : Fin 1 → Nat) a + S1.size a ≤ S256.size a
  inb_S256x64_S1x64_177_0 : ∀ a, (![177, 0] : Fin 2 → Nat) a + S1x64.size a ≤ S256x64.size a
  inb_S256_S1_178 : ∀ a, (![178] : Fin 1 → Nat) a + S1.size a ≤ S256.size a
  inb_S256x64_S1x64_178_0 : ∀ a, (![178, 0] : Fin 2 → Nat) a + S1x64.size a ≤ S256x64.size a
  inb_S256_S1_179 : ∀ a, (![179] : Fin 1 → Nat) a + S1.size a ≤ S256.size a
  inb_S256x64_S1x64_179_0 : ∀ a, (![179, 0] : Fin 2 → Nat) a + S1x64.size a ≤ S256x64.size a
  inb_S256_S1_180 : ∀ a, (![180] : Fin 1 → Nat) a + S1.size a ≤ S256.size a
  inb_S256x64_S1x64_180_0 : ∀ a, (![180, 0] : Fin 2 → Nat) a + S1x64.size a ≤ S256x64.size a
  inb_S256_S1_181 : ∀ a, (![181] : Fin 1 → Nat) a + S1.size a ≤ S256.size a
  inb_S256x64_S1x64_181_0 : ∀ a, (![181, 0] : Fin 2 → Nat) a + S1x64.size a ≤ S256x64.size a
  inb_S256_S1_182 : ∀ a, (![182] : Fin 1 → Nat) a + S1.size a ≤ S256.size a
  inb_S256x64_S1x64_182_0 : ∀ a, (![182, 0] : Fin 2 → Nat) a + S1x64.size a ≤ S256x64.size a
  inb_S256_S1_183 : ∀ a, (![183] : Fin 1 → Nat) a + S1.size a ≤ S256.size a
  inb_S256x64_S1x64_183_0 : ∀ a, (![183, 0] : Fin 2 → Nat) a + S1x64.size a ≤ S256x64.size a
  inb_S256_S1_184 : ∀ a, (![184] : Fin 1 → Nat) a + S1.size a ≤ S256.size a
  inb_S256x64_S1x64_184_0 : ∀ a, (![184, 0] : Fin 2 → Nat) a + S1x64.size a ≤ S256x64.size a
  inb_S256_S1_185 : ∀ a, (![185] : Fin 1 → Nat) a + S1.size a ≤ S256.size a
  inb_S256x64_S1x64_185_0 : ∀ a, (![185, 0] : Fin 2 → Nat) a + S1x64.size a ≤ S256x64.size a
  inb_S256_S1_186 : ∀ a, (![186] : Fin 1 → Nat) a + S1.size a ≤ S256.size a
  inb_S256x64_S1x64_186_0 : ∀ a, (![186, 0] : Fin 2 → Nat) a + S1x64.size a ≤ S256x64.size a
  inb_S256_S1_187 : ∀ a, (![187] : Fin 1 → Nat) a + S1.size a ≤ S256.size a
  inb_S256x64_S1x64_187_0 : ∀ a, (![187, 0] : Fin 2 → Nat) a + S1x64.size a ≤ S256x64.size a
  inb_S256_S1_188 : ∀ a, (![188] : Fin 1 → Nat) a + S1.size a ≤ S256.size a
  inb_S256x64_S1x64_188_0 : ∀ a, (![188, 0] : Fin 2 → Nat) a + S1x64.size a ≤ S256x64.size a
  inb_S256_S1_189 : ∀ a, (![189] : Fin 1 → Nat) a + S1.size a ≤ S256.size a
  inb_S256x64_S1x64_189_0 : ∀ a, (![189, 0] : Fin 2 → Nat) a + S1x64.size a ≤ S256x64.size a
  inb_S256_S1_190 : ∀ a, (![190] : Fin 1 → Nat) a + S1.size a ≤ S256.size a
  inb_S256x64_S1x64_190_0 : ∀ a, (![190, 0] : Fin 2 → Nat) a + S1x64.size a ≤ S256x64.size a
  inb_S256_S1_191 : ∀ a, (![191] : Fin 1 → Nat) a + S1.size a ≤ S256.size a
  inb_S256x64_S1x64_191_0 : ∀ a, (![191, 0] : Fin 2 → Nat) a + S1x64.size a ≤ S256x64.size a
  inb_S256_S1_192 : ∀ a, (![192] : Fin 1 → Nat) a + S1.size a ≤ S256.size a
  inb_S256x64_S1x64_192_0 : ∀ a, (![192, 0] : Fin 2 → Nat) a + S1x64.size a ≤ S256x64.size a
  inb_S256_S1_193 : ∀ a, (![193] : Fin 1 → Nat) a + S1.size a ≤ S256.size a
  inb_S256x64_S1x64_193_0 : ∀ a, (![193, 0] : Fin 2 → Nat) a + S1x64.size a ≤ S256x64.size a
  inb_S256_S1_194 : ∀ a, (![194] : Fin 1 → Nat) a + S1.size a ≤ S256.size a
  inb_S256x64_S1x64_194_0 : ∀ a, (![194, 0] : Fin 2 → Nat) a + S1x64.size a ≤ S256x64.size a
  inb_S256_S1_195 : ∀ a, (![195] : Fin 1 → Nat) a + S1.size a ≤ S256.size a
  inb_S256x64_S1x64_195_0 : ∀ a, (![195, 0] : Fin 2 → Nat) a + S1x64.size a ≤ S256x64.size a
  inb_S256_S1_196 : ∀ a, (![196] : Fin 1 → Nat) a + S1.size a ≤ S256.size a
  inb_S256x64_S1x64_196_0 : ∀ a, (![196, 0] : Fin 2 → Nat) a + S1x64.size a ≤ S256x64.size a
  inb_S256_S1_197 : ∀ a, (![197] : Fin 1 → Nat) a + S1.size a ≤ S256.size a
  inb_S256x64_S1x64_197_0 : ∀ a, (![197, 0] : Fin 2 → Nat) a + S1x64.size a ≤ S256x64.size a
  inb_S256_S1_198 : ∀ a, (![198] : Fin 1 → Nat) a + S1.size a ≤ S256.size a
  inb_S256x64_S1x64_198_0 : ∀ a, (![198, 0] : Fin 2 → Nat) a + S1x64.size a ≤ S256x64.size a
  inb_S256_S1_199 : ∀ a, (![199] : Fin 1 → Nat) a + S1.size a ≤ S256.size a
  inb_S256x64_S1x64_199_0 : ∀ a, (![199, 0] : Fin 2 → Nat) a + S1x64.size a ≤ S256x64.size a
  inb_S256_S1_200 : ∀ a, (![200] : Fin 1 → Nat) a + S1.size a ≤ S256.size a
  inb_S256x64_S1x64_200_0 : ∀ a, (![200, 0] : Fin 2 → Nat) a + S1x64.size a ≤ S256x64.size a
  inb_S256_S1_201 : ∀ a, (![201] : Fin 1 → Nat) a + S1.size a ≤ S256.size a
  inb_S256x64_S1x64_201_0 : ∀ a, (![201, 0] : Fin 2 → Nat) a + S1x64.size a ≤ S256x64.size a
  inb_S256_S1_202 : ∀ a, (![202] : Fin 1 → Nat) a + S1.size a ≤ S256.size a
  inb_S256x64_S1x64_202_0 : ∀ a, (![202, 0] : Fin 2 → Nat) a + S1x64.size a ≤ S256x64.size a
  inb_S256_S1_203 : ∀ a, (![203] : Fin 1 → Nat) a + S1.size a ≤ S256.size a
  inb_S256x64_S1x64_203_0 : ∀ a, (![203, 0] : Fin 2 → Nat) a + S1x64.size a ≤ S256x64.size a
  inb_S256_S1_204 : ∀ a, (![204] : Fin 1 → Nat) a + S1.size a ≤ S256.size a
  inb_S256x64_S1x64_204_0 : ∀ a, (![204, 0] : Fin 2 → Nat) a + S1x64.size a ≤ S256x64.size a
  inb_S256_S1_205 : ∀ a, (![205] : Fin 1 → Nat) a + S1.size a ≤ S256.size a
  inb_S256x64_S1x64_205_0 : ∀ a, (![205, 0] : Fin 2 → Nat) a + S1x64.size a ≤ S256x64.size a
  inb_S256_S1_206 : ∀ a, (![206] : Fin 1 → Nat) a + S1.size a ≤ S256.size a
  inb_S256x64_S1x64_206_0 : ∀ a, (![206, 0] : Fin 2 → Nat) a + S1x64.size a ≤ S256x64.size a
  inb_S256_S1_207 : ∀ a, (![207] : Fin 1 → Nat) a + S1.size a ≤ S256.size a
  inb_S256x64_S1x64_207_0 : ∀ a, (![207, 0] : Fin 2 → Nat) a + S1x64.size a ≤ S256x64.size a
  inb_S256_S1_208 : ∀ a, (![208] : Fin 1 → Nat) a + S1.size a ≤ S256.size a
  inb_S256x64_S1x64_208_0 : ∀ a, (![208, 0] : Fin 2 → Nat) a + S1x64.size a ≤ S256x64.size a
  inb_S256_S1_209 : ∀ a, (![209] : Fin 1 → Nat) a + S1.size a ≤ S256.size a
  inb_S256x64_S1x64_209_0 : ∀ a, (![209, 0] : Fin 2 → Nat) a + S1x64.size a ≤ S256x64.size a
  inb_S256_S1_210 : ∀ a, (![210] : Fin 1 → Nat) a + S1.size a ≤ S256.size a
  inb_S256x64_S1x64_210_0 : ∀ a, (![210, 0] : Fin 2 → Nat) a + S1x64.size a ≤ S256x64.size a
  inb_S256_S1_211 : ∀ a, (![211] : Fin 1 → Nat) a + S1.size a ≤ S256.size a
  inb_S256x64_S1x64_211_0 : ∀ a, (![211, 0] : Fin 2 → Nat) a + S1x64.size a ≤ S256x64.size a
  inb_S256_S1_212 : ∀ a, (![212] : Fin 1 → Nat) a + S1.size a ≤ S256.size a
  inb_S256x64_S1x64_212_0 : ∀ a, (![212, 0] : Fin 2 → Nat) a + S1x64.size a ≤ S256x64.size a
  inb_S256_S1_213 : ∀ a, (![213] : Fin 1 → Nat) a + S1.size a ≤ S256.size a
  inb_S256x64_S1x64_213_0 : ∀ a, (![213, 0] : Fin 2 → Nat) a + S1x64.size a ≤ S256x64.size a
  inb_S256_S1_214 : ∀ a, (![214] : Fin 1 → Nat) a + S1.size a ≤ S256.size a
  inb_S256x64_S1x64_214_0 : ∀ a, (![214, 0] : Fin 2 → Nat) a + S1x64.size a ≤ S256x64.size a
  inb_S256_S1_215 : ∀ a, (![215] : Fin 1 → Nat) a + S1.size a ≤ S256.size a
  inb_S256x64_S1x64_215_0 : ∀ a, (![215, 0] : Fin 2 → Nat) a + S1x64.size a ≤ S256x64.size a
  inb_S256_S1_216 : ∀ a, (![216] : Fin 1 → Nat) a + S1.size a ≤ S256.size a
  inb_S256x64_S1x64_216_0 : ∀ a, (![216, 0] : Fin 2 → Nat) a + S1x64.size a ≤ S256x64.size a
  inb_S256_S1_217 : ∀ a, (![217] : Fin 1 → Nat) a + S1.size a ≤ S256.size a
  inb_S256x64_S1x64_217_0 : ∀ a, (![217, 0] : Fin 2 → Nat) a + S1x64.size a ≤ S256x64.size a
  inb_S256_S1_218 : ∀ a, (![218] : Fin 1 → Nat) a + S1.size a ≤ S256.size a
  inb_S256x64_S1x64_218_0 : ∀ a, (![218, 0] : Fin 2 → Nat) a + S1x64.size a ≤ S256x64.size a
  inb_S256_S1_219 : ∀ a, (![219] : Fin 1 → Nat) a + S1.size a ≤ S256.size a
  inb_S256x64_S1x64_219_0 : ∀ a, (![219, 0] : Fin 2 → Nat) a + S1x64.size a ≤ S256x64.size a
  inb_S256_S1_220 : ∀ a, (![220] : Fin 1 → Nat) a + S1.size a ≤ S256.size a
  inb_S256x64_S1x64_220_0 : ∀ a, (![220, 0] : Fin 2 → Nat) a + S1x64.size a ≤ S256x64.size a
  inb_S256_S1_221 : ∀ a, (![221] : Fin 1 → Nat) a + S1.size a ≤ S256.size a
  inb_S256x64_S1x64_221_0 : ∀ a, (![221, 0] : Fin 2 → Nat) a + S1x64.size a ≤ S256x64.size a
  inb_S256_S1_222 : ∀ a, (![222] : Fin 1 → Nat) a + S1.size a ≤ S256.size a
  inb_S256x64_S1x64_222_0 : ∀ a, (![222, 0] : Fin 2 → Nat) a + S1x64.size a ≤ S256x64.size a
  inb_S256_S1_223 : ∀ a, (![223] : Fin 1 → Nat) a + S1.size a ≤ S256.size a
  inb_S256x64_S1x64_223_0 : ∀ a, (![223, 0] : Fin 2 → Nat) a + S1x64.size a ≤ S256x64.size a
  inb_S256_S1_224 : ∀ a, (![224] : Fin 1 → Nat) a + S1.size a ≤ S256.size a
  inb_S256x64_S1x64_224_0 : ∀ a, (![224, 0] : Fin 2 → Nat) a + S1x64.size a ≤ S256x64.size a
  inb_S256_S1_225 : ∀ a, (![225] : Fin 1 → Nat) a + S1.size a ≤ S256.size a
  inb_S256x64_S1x64_225_0 : ∀ a, (![225, 0] : Fin 2 → Nat) a + S1x64.size a ≤ S256x64.size a
  inb_S256_S1_226 : ∀ a, (![226] : Fin 1 → Nat) a + S1.size a ≤ S256.size a
  inb_S256x64_S1x64_226_0 : ∀ a, (![226, 0] : Fin 2 → Nat) a + S1x64.size a ≤ S256x64.size a
  inb_S256_S1_227 : ∀ a, (![227] : Fin 1 → Nat) a + S1.size a ≤ S256.size a
  inb_S256x64_S1x64_227_0 : ∀ a, (![227, 0] : Fin 2 → Nat) a + S1x64.size a ≤ S256x64.size a
  inb_S256_S1_228 : ∀ a, (![228] : Fin 1 → Nat) a + S1.size a ≤ S256.size a
  inb_S256x64_S1x64_228_0 : ∀ a, (![228, 0] : Fin 2 → Nat) a + S1x64.size a ≤ S256x64.size a
  inb_S256_S1_229 : ∀ a, (![229] : Fin 1 → Nat) a + S1.size a ≤ S256.size a
  inb_S256x64_S1x64_229_0 : ∀ a, (![229, 0] : Fin 2 → Nat) a + S1x64.size a ≤ S256x64.size a
  inb_S256_S1_230 : ∀ a, (![230] : Fin 1 → Nat) a + S1.size a ≤ S256.size a
  inb_S256x64_S1x64_230_0 : ∀ a, (![230, 0] : Fin 2 → Nat) a + S1x64.size a ≤ S256x64.size a
  inb_S256_S1_231 : ∀ a, (![231] : Fin 1 → Nat) a + S1.size a ≤ S256.size a
  inb_S256x64_S1x64_231_0 : ∀ a, (![231, 0] : Fin 2 → Nat) a + S1x64.size a ≤ S256x64.size a
  inb_S256_S1_232 : ∀ a, (![232] : Fin 1 → Nat) a + S1.size a ≤ S256.size a
  inb_S256x64_S1x64_232_0 : ∀ a, (![232, 0] : Fin 2 → Nat) a + S1x64.size a ≤ S256x64.size a
  inb_S256_S1_233 : ∀ a, (![233] : Fin 1 → Nat) a + S1.size a ≤ S256.size a
  inb_S256x64_S1x64_233_0 : ∀ a, (![233, 0] : Fin 2 → Nat) a + S1x64.size a ≤ S256x64.size a
  inb_S256_S1_234 : ∀ a, (![234] : Fin 1 → Nat) a + S1.size a ≤ S256.size a
  inb_S256x64_S1x64_234_0 : ∀ a, (![234, 0] : Fin 2 → Nat) a + S1x64.size a ≤ S256x64.size a
  inb_S256_S1_235 : ∀ a, (![235] : Fin 1 → Nat) a + S1.size a ≤ S256.size a
  inb_S256x64_S1x64_235_0 : ∀ a, (![235, 0] : Fin 2 → Nat) a + S1x64.size a ≤ S256x64.size a
  inb_S256_S1_236 : ∀ a, (![236] : Fin 1 → Nat) a + S1.size a ≤ S256.size a
  inb_S256x64_S1x64_236_0 : ∀ a, (![236, 0] : Fin 2 → Nat) a + S1x64.size a ≤ S256x64.size a
  inb_S256_S1_237 : ∀ a, (![237] : Fin 1 → Nat) a + S1.size a ≤ S256.size a
  inb_S256x64_S1x64_237_0 : ∀ a, (![237, 0] : Fin 2 → Nat) a + S1x64.size a ≤ S256x64.size a
  inb_S256_S1_238 : ∀ a, (![238] : Fin 1 → Nat) a + S1.size a ≤ S256.size a
  inb_S256x64_S1x64_238_0 : ∀ a, (![238, 0] : Fin 2 → Nat) a + S1x64.size a ≤ S256x64.size a
  inb_S256_S1_239 : ∀ a, (![239] : Fin 1 → Nat) a + S1.size a ≤ S256.size a
  inb_S256x64_S1x64_239_0 : ∀ a, (![239, 0] : Fin 2 → Nat) a + S1x64.size a ≤ S256x64.size a
  inb_S256_S1_240 : ∀ a, (![240] : Fin 1 → Nat) a + S1.size a ≤ S256.size a
  inb_S256x64_S1x64_240_0 : ∀ a, (![240, 0] : Fin 2 → Nat) a + S1x64.size a ≤ S256x64.size a
  inb_S256_S1_241 : ∀ a, (![241] : Fin 1 → Nat) a + S1.size a ≤ S256.size a
  inb_S256x64_S1x64_241_0 : ∀ a, (![241, 0] : Fin 2 → Nat) a + S1x64.size a ≤ S256x64.size a
  inb_S256_S1_242 : ∀ a, (![242] : Fin 1 → Nat) a + S1.size a ≤ S256.size a
  inb_S256x64_S1x64_242_0 : ∀ a, (![242, 0] : Fin 2 → Nat) a + S1x64.size a ≤ S256x64.size a
  inb_S256_S1_243 : ∀ a, (![243] : Fin 1 → Nat) a + S1.size a ≤ S256.size a
  inb_S256x64_S1x64_243_0 : ∀ a, (![243, 0] : Fin 2 → Nat) a + S1x64.size a ≤ S256x64.size a
  inb_S256_S1_244 : ∀ a, (![244] : Fin 1 → Nat) a + S1.size a ≤ S256.size a
  inb_S256x64_S1x64_244_0 : ∀ a, (![244, 0] : Fin 2 → Nat) a + S1x64.size a ≤ S256x64.size a
  inb_S256_S1_245 : ∀ a, (![245] : Fin 1 → Nat) a + S1.size a ≤ S256.size a
  inb_S256x64_S1x64_245_0 : ∀ a, (![245, 0] : Fin 2 → Nat) a + S1x64.size a ≤ S256x64.size a
  inb_S256_S1_246 : ∀ a, (![246] : Fin 1 → Nat) a + S1.size a ≤ S256.size a
  inb_S256x64_S1x64_246_0 : ∀ a, (![246, 0] : Fin 2 → Nat) a + S1x64.size a ≤ S256x64.size a
  inb_S256_S1_247 : ∀ a, (![247] : Fin 1 → Nat) a + S1.size a ≤ S256.size a
  inb_S256x64_S1x64_247_0 : ∀ a, (![247, 0] : Fin 2 → Nat) a + S1x64.size a ≤ S256x64.size a
  inb_S256_S1_248 : ∀ a, (![248] : Fin 1 → Nat) a + S1.size a ≤ S256.size a
  inb_S256x64_S1x64_248_0 : ∀ a, (![248, 0] : Fin 2 → Nat) a + S1x64.size a ≤ S256x64.size a
  inb_S256_S1_249 : ∀ a, (![249] : Fin 1 → Nat) a + S1.size a ≤ S256.size a
  inb_S256x64_S1x64_249_0 : ∀ a, (![249, 0] : Fin 2 → Nat) a + S1x64.size a ≤ S256x64.size a
  inb_S256_S1_250 : ∀ a, (![250] : Fin 1 → Nat) a + S1.size a ≤ S256.size a
  inb_S256x64_S1x64_250_0 : ∀ a, (![250, 0] : Fin 2 → Nat) a + S1x64.size a ≤ S256x64.size a
  inb_S256_S1_251 : ∀ a, (![251] : Fin 1 → Nat) a + S1.size a ≤ S256.size a
  inb_S256x64_S1x64_251_0 : ∀ a, (![251, 0] : Fin 2 → Nat) a + S1x64.size a ≤ S256x64.size a
  inb_S256_S1_252 : ∀ a, (![252] : Fin 1 → Nat) a + S1.size a ≤ S256.size a
  inb_S256x64_S1x64_252_0 : ∀ a, (![252, 0] : Fin 2 → Nat) a + S1x64.size a ≤ S256x64.size a
  inb_S256_S1_253 : ∀ a, (![253] : Fin 1 → Nat) a + S1.size a ≤ S256.size a
  inb_S256x64_S1x64_253_0 : ∀ a, (![253, 0] : Fin 2 → Nat) a + S1x64.size a ≤ S256x64.size a
  inb_S256_S1_254 : ∀ a, (![254] : Fin 1 → Nat) a + S1.size a ≤ S256.size a
  inb_S256x64_S1x64_254_0 : ∀ a, (![254, 0] : Fin 2 → Nat) a + S1x64.size a ≤ S256x64.size a
  inb_S256_S1_255 : ∀ a, (![255] : Fin 1 → Nat) a + S1.size a ≤ S256.size a
  inb_S256x64_S1x64_255_0 : ∀ a, (![255, 0] : Fin 2 → Nat) a + S1x64.size a ≤ S256x64.size a
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x64 : S256x1.Broadcasts S256x64
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x1_S5000x64 : S1x1.Broadcasts S5000x64
  scatter_S100000x64_S1600000x1_S1600000x64_1_0_0_1_wf : ScatterDims.WF S100000x64 S1600000x1 S1600000x64 [1] [0] [0] 1
  hcc0_scratch0 : 6 + S8.numel ≤ 35
  hcc1_scratch0 : 20 + S8.numel ≤ 35
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256.size a ≤ S1600000.size a
  hwx0_0 : ∀ i : grid0.Coords, EltTy.bits .i32 = 32 ∨ (Rect.block (s := S1600000) S256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S1600000x1.size a
  hwx0_1 : ∀ i : grid0.Coords, EltTy.bits .f32 = 32 ∨ (Rect.block (s := S1600000x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S256x64.size a ≤ S1600000x64.size a
  hwx0_2 : ∀ i : grid0.Coords, EltTy.bits .f32 = 32 ∨ (Rect.block (s := S1600000x64) S256x64.size (cc0_transform_3 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256.size a ≤ S1600000.size a
  hwx1_0 : ∀ i : grid1.Coords, EltTy.bits .i32 = 32 ∨ (Rect.block (s := S1600000) S256.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S1600000x1.size a
  hwx1_1 : ∀ i : grid1.Coords, EltTy.bits .f32 = 32 ∨ (Rect.block (s := S1600000x1) S256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_3 i = cc1_transform_3 i'
  hinb1_2 : ∀ (i : grid1.Coords) a, (cc1_transform_3 i a + 1) * S256x64.size a ≤ S1600000x64.size a
  hwx1_2 : ∀ i : grid1.Coords, EltTy.bits .f32 = 32 ∨ (Rect.block (s := S1600000x64) S256x64.size (cc1_transform_3 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

abbrev cc0_scratch0 : DmaSems sig S8 := SemArray.consecutive 6 S8 hcc0_scratch0
abbrev cc1_scratch0 : DmaSems sig S8 := SemArray.consecutive 20 S8 hcc1_scratch0
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg4) S256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x64.size cc0_transform_3 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg4) S256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S256x64.size cc1_transform_3 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v8) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S_ : Shape := ⟨0, ![]⟩
abbrev S1600000 : Shape := ⟨1, ![1600000]⟩
abbrev S1600000x1 : Shape := ⟨2, ![1600000, 1]⟩
abbrev S1600000x64 : Shape := ⟨2, ![1600000, 64]⟩

abbrev nBuf : Space → Nat
  | .hbm => 79
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S_, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1600000x1, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S1600000x64, .f32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S1600000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S1600000x64, .f32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S100000x64, .i1⟩
  | .hbm, ⟨56, _⟩ => ⟨S_, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .i1⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .i1⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_cst_9 : Ref sig .tc := ⟨.hbm, 53, rfl⟩
abbrev main_cst_10 : Ref sig .tc := ⟨.hbm, 54, rfl⟩
abbrev main_call1_v0 : Ref sig .tc := ⟨.hbm, 55, rfl⟩
abbrev main_call1_v1 : Ref sig .tc := ⟨.hbm, 56, rfl⟩
abbrev main_call1_call0_v0 : Ref sig .tc := ⟨.hbm, 57, rfl⟩
abbrev main_call1_v2 : Ref sig .tc := ⟨.hbm, 58, rfl⟩
abbrev main_call1_cst : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_call1_v0 : Ref sig .tc := ⟨.hbm, 63, rfl⟩
abbrev main_call1_v6 : Ref sig .tc := ⟨.hbm, 64, rfl⟩
abbrev main_call1_cst_0 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_call2_v0 : Ref sig .tc := ⟨.hbm, 69, rfl⟩
abbrev main_v34 : Ref sig .tc := ⟨.hbm, 70, rfl⟩
abbrev main_cst_11 : Ref sig .tc := ⟨.hbm, 71, rfl⟩
abbrev main_cst_12 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_v35 : Ref sig .tc := ⟨.hbm, 78, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Pre.lean ====
import proofs.«423446_j56083682951492_1_alg».proof.Defs
import Idealize.ShloMosaic.Lib.ReduceAll

noncomputable section

namespace Cert.Proof.PreFacts

open Idealize.ShloMosaic

theorem toNat_lt_of_signed (w : BitVec 32) (h0 : (0#32 : BitVec 32).toInt ≤ w.toInt)
    (h1 : w.toInt < (100000#32 : BitVec 32).toInt) : w.toNat < 100000 := by
  have e0 : (0#32 : BitVec 32).toInt = 0 := by decide
  have e1 : (100000#32 : BitVec 32).toInt = 100000 := by decide
  rw [e0] at h0
  rw [e1] at h1
  have h32 := w.isLt
  have hc := BitVec.toInt_eq_toNat_cond w
  split at hc <;> omega

instance : Subsingleton Cert.Pre_finite_inputs.S_.Idx := ⟨fun a b => funext fun d => d.elim0⟩

section Decode

variable [Cert.Pre_finite_inputs.Facts]

open Cert.Pre_finite_inputs in
theorem cols_lt {F : FTy → Type} [FloatOps F] (a0 : FVec F S100000x64 .f32) (a1 : FVec F S_ .f32)
    (a2 : FVec F S1600000 .f32) (a3 : IVec S1600000 32) (a4 : IVec S1600000 32)
    (h : Cert.Pre_finite_inputs.fn (F := F) a0 a1 a2 a3 a4 = fun _ => 1#1) :
    ∀ e : S1600000.Idx, (a4 e).toNat < 100000 := by
  intro e
  have h0 := congrFun h (fun a => a.elim0)
  dsimp only [Cert.Pre_finite_inputs.fn, Cert.Pre_finite_inputs.fn_part1] at h0
  obtain ⟨h16, h19⟩ := IntOp.andi_eq_one.1 h0
  obtain ⟨-, h15⟩ := IntOp.andi_eq_one.1 h16
  have hge : IntOp.cmpi .sge (a4 e) (0#32) = 1#1 := Host.reduce_andi_all _ _ _ _ _ h15 e
  have hlt : IntOp.cmpi .slt (a4 e) (100000#32) = 1#1 := Host.reduce_andi_all _ _ _ _ _ h19 e
  exact toNat_lt_of_signed _ (IntOp.cmpi_sge.1 hge) (IntOp.cmpi_slt.1 hlt)

end Decode

end Cert.Proof.PreFacts

end
-- ==== Proof.KI.Common.lean ====
import proofs.«423446_j56083682951492_1_alg».proof.Proof.Gen.KernelIdeal.Launch
import proofs.«423446_j56083682951492_1_alg».proof.Proof.Gen.KernelIdeal.Skeleton
import proofs.«423446_j56083682951492_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WholeRead

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev HbBuf (c : Dev nD) {sp : Space} {S : Shape} {e : EltTy} (M : Memref sig .tc sp S e) : Type :=
  Buf (Elt F) (M.view.loc (c : Thread nD τ))

abbrev hbPt (c : Dev nD) {sp : Space} {S : Shape} {e : EltTy} (M : Memref sig .tc sp S e) (f : HbBuf (F := F) c M) : sProp 𝕄 :=
  M.view.loc (c : Thread nD τ) ↦{fullShare} f

abbrev hb_src0 : Memref sig .tc .hbm S100000x64 .f32 := Memref.whole main_arg0

abbrev hb_src1 : Memref sig .tc .hbm S100000x64 .f32 := Memref.whole main_v4

abbrev dcell (n : ℕ) (h : n < 35 := by decide) : DmaSem sig := ⟨n, h⟩

abbrev sems0 (c : Dev nD) : sProp 𝕄 :=
  iprop(semVal ((c : Thread nD τ), SemLoc.dma (dcell 6)) 0 ∗ semVal ((c : Thread nD τ), SemLoc.dma (dcell 7)) 0
    ∗ semVal ((c : Thread nD τ), SemLoc.dma (dcell 8)) 0 ∗ semVal ((c : Thread nD τ), SemLoc.dma (dcell 9)) 0
    ∗ semVal ((c : Thread nD τ), SemLoc.dma (dcell 10)) 0 ∗ semVal ((c : Thread nD τ), SemLoc.dma (dcell 11)) 0
    ∗ semVal ((c : Thread nD τ), SemLoc.dma (dcell 12)) 0 ∗ semVal ((c : Thread nD τ), SemLoc.dma (dcell 13)) 0)

abbrev sems1 (c : Dev nD) : sProp 𝕄 :=
  iprop(semVal ((c : Thread nD τ), SemLoc.dma (dcell 20)) 0 ∗ semVal ((c : Thread nD τ), SemLoc.dma (dcell 21)) 0
    ∗ semVal ((c : Thread nD τ), SemLoc.dma (dcell 22)) 0 ∗ semVal ((c : Thread nD τ), SemLoc.dma (dcell 23)) 0
    ∗ semVal ((c : Thread nD τ), SemLoc.dma (dcell 24)) 0 ∗ semVal ((c : Thread nD τ), SemLoc.dma (dcell 25)) 0
    ∗ semVal ((c : Thread nD τ), SemLoc.dma (dcell 26)) 0 ∗ semVal ((c : Thread nD τ), SemLoc.dma (dcell 27)) 0)

def RowsOK (x : Vec F S256 .i32) : Prop := ∀ j, (x j).toNat < 100000

abbrev Rr (c : Dev nD) : sProp 𝕄 :=
  iprop((∃ r, prngReg c r) ∗ ∃ W, owes (c : Thread nD τ) (0 : CellTallies nD τ sig Unit) W)

end Cert.KernelIdeal.Hand

end
-- ==== Proof.KI.GatherRead.lean ====
import proofs.«423446_j56083682951492_1_alg».proof.Proof.KI.Common
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx

variable {Val : EltTy → Type}

theorem reshape_S64_S1x64 (h : S64.numel = S1x64.numel) (q : Fin 64) :
    Shape.reshapeEquiv h (ix1 q) = ix2 (0 : Fin 1) q :=
  Shape.reshapeEquiv_eq_of_rowMajor h (by
    rw [Shape.rowMajor_val_two, Shape.rowMajor_val_one]
    show 0 * 64 + q.val = q.val
    omega)

theorem row_emb {sp : Space} (m : Memref sig .tc sp S256x64 .f32) (k : ℕ)
    (hk : ∀ a, (![k, 0] : Fin 2 → ℕ) a + S1x64.size a ≤ S256x64.size a)
    (hs : ∀ a, (Rect.unit (s := S256x64) ![k, 0] S1x64.size hk).stride a = 1) (hq : S1x64.Squeezes S64)
    (p : Fin 256) (hp : p.val = k) (q : Fin 64) :
    ((m.slice (Rect.unit (s := S256x64) ![k, 0] S1x64.size hk) hs).squeeze S64 hq).view.emb (ix1 q)
      = m.view.emb (ix2 p q) := by
  show m.view.emb ((Rect.unit (s := S256x64) ![k, 0] S1x64.size hk).emb (Shape.reshapeEquiv hq.numel_eq (ix1 q))) = _
  rw [reshape_S64_S1x64]
  congr 1
  funext a
  apply Fin.ext
  match a with
  | ⟨0, _⟩ => show k + 1 * 0 = p.val; omega
  | ⟨1, _⟩ => show 0 + 1 * q.val = q.val; omega

theorem read_write_row {sp : Space} (m : Memref sig .tc sp S256x64 .f32) (k : ℕ)
    (hk : ∀ a, (![k, 0] : Fin 2 → ℕ) a + S1x64.size a ≤ S256x64.size a)
    (hs : ∀ a, (Rect.unit (s := S256x64) ![k, 0] S1x64.size hk).stride a = 1) (hq : S1x64.Squeezes S64)
    (g : m.view.ty.Contents Val) (pay : S64.Idx → Val .f32) (p : Fin 256) (q : Fin 64) :
    m.view.read Val
        (((m.slice (Rect.unit (s := S256x64) ![k, 0] S1x64.size hk) hs).squeeze S64 hq).view.write Val g pay Finset.univ)
        (ix2 p q)
      = if p.val = k then pay (ix1 q) else m.view.read Val g (ix2 p q) := by
  by_cases hp : p.val = k
  · rw [if_pos hp, View.read_apply, ← row_emb m k hk hs hq p hp q, View.write_emb_of_mem _ _ (Finset.mem_univ _),
      cast_cast, cast_eq]
  · rw [if_neg hp, View.read_apply, View.read_apply, View.write_of_not_mem]
    intro hmem
    obtain ⟨x, -, hx⟩ := Finset.mem_map.mp hmem
    have hx' : m.view.emb ((Rect.unit (s := S256x64) ![k, 0] S1x64.size hk).emb (Shape.reshapeEquiv hq.numel_eq x))
        = m.view.emb (ix2 p q) := hx
    have h0 := congrArg (fun i : S256x64.Idx => (i 0).val) (m.view.emb.injective hx')
    have h1 : ((Shape.reshapeEquiv hq.numel_eq x) 0).val < 1 := (Shape.reshapeEquiv hq.numel_eq x 0).isLt
    have h2 : k + 1 * ((Shape.reshapeEquiv hq.numel_eq x) 0).val = p.val := h0
    omega

theorem read_row_slice {sp : Space} (m : Memref sig .tc sp S100000x64 .f32) (off : Fin 2 → ℕ)
    (h : ∀ a, off a + S1x64.size a ≤ S100000x64.size a)
    (hs : ∀ a, (Rect.unit (s := S100000x64) off S1x64.size h).stride a = 1) (hq : S1x64.Squeezes S64)
    (f : m.view.ty.Contents Val) (q : Fin 64) (r : Fin 100000) (hr : off 0 = r.val) (h1 : off 1 = 0) :
    ((m.slice (Rect.unit (s := S100000x64) off S1x64.size h) hs).squeeze S64 hq).view.read Val f (ix1 q)
      = m.view.read Val f (ix2 r q) := by
  have hidx : (Rect.unit (s := S100000x64) off S1x64.size h).emb (Shape.reshapeEquiv hq.numel_eq (ix1 q)) = ix2 r q := by
    rw [reshape_S64_S1x64]
    funext a
    apply Fin.ext
    match a with
    | ⟨0, _⟩ => show off 0 + 1 * 0 = r.val; omega
    | ⟨1, _⟩ => show off 1 + 1 * q.val = q.val; omega
  show _root_.cast _ (f (m.view.emb ((Rect.unit (s := S100000x64) off S1x64.size h).emb
      (Shape.reshapeEquiv hq.numel_eq (ix1 q))))) = _root_.cast _ (f (m.view.emb (ix2 r q)))
  rw [hidx]

variable {F : FTy → Type} [FloatOps F]

theorem read_src0_row (c : Dev nD) (off : Fin 2 → ℕ) (h : ∀ a, off a + S1x64.size a ≤ S100000x64.size a)
    (hs : ∀ a, (Rect.unit (s := S100000x64) off S1x64.size h).stride a = 1) (hq : S1x64.Squeezes S64)
    (fsrc : HbBuf (F := F) c hb_src0) (q : Fin 64) (r : Fin 100000) (hr : off 0 = r.val) (h1 : off 1 = 0) :
    View.read (Elt F) (((Memref.whole main_arg0).slice (Rect.unit (s := S100000x64) off S1x64.size h) hs).squeeze S64 hq).view
        fsrc (ix1 q)
      = (fsrc : S100000x64.Idx → Elt F .f32) (ix2 r q) :=
  (read_row_slice (Memref.whole main_arg0) off h hs hq fsrc q r hr h1).trans rfl

theorem read_src1_row (c : Dev nD) (off : Fin 2 → ℕ) (h : ∀ a, off a + S1x64.size a ≤ S100000x64.size a)
    (hs : ∀ a, (Rect.unit (s := S100000x64) off S1x64.size h).stride a = 1) (hq : S1x64.Squeezes S64)
    (fsrc : HbBuf (F := F) c hb_src1) (q : Fin 64) (r : Fin 100000) (hr : off 0 = r.val) (h1 : off 1 = 0) :
    View.read (Elt F) (((Memref.whole main_v4).slice (Rect.unit (s := S100000x64) off S1x64.size h) hs).squeeze S64 hq).view
        fsrc (ix1 q)
      = (fsrc : S100000x64.Idx → Elt F .f32) (ix2 r q) :=
  (read_row_slice (Memref.whole main_v4) off h hs hq fsrc q r hr h1).trans rfl

theorem pay_src0_row (c : Dev nD) (off : Fin 2 → ℕ) (h : ∀ a, off a + S1x64.size a ≤ S100000x64.size a)
    (hs : ∀ a, (Rect.unit (s := S100000x64) off S1x64.size h).stride a = 1) (hq : S1x64.Squeezes S64)
    (fsrc : HbBuf (F := F) c hb_src0) (q : Fin 64) (r : Fin 100000) (hr : off 0 = r.val) (h1 : off 1 = 0) :
    (ReadAs.same : ReadAs (Elt F) S64 .f32 S64 .f32).apply
        (View.read (Elt F) (((Memref.whole main_arg0).slice (Rect.unit (s := S100000x64) off S1x64.size h) hs).squeeze S64 hq).view
          fsrc) (ix1 q)
      = (fsrc : S100000x64.Idx → Elt F .f32) (ix2 r q) :=
  read_src0_row c off h hs hq fsrc q r hr h1

theorem pay_src1_row (c : Dev nD) (off : Fin 2 → ℕ) (h : ∀ a, off a + S1x64.size a ≤ S100000x64.size a)
    (hs : ∀ a, (Rect.unit (s := S100000x64) off S1x64.size h).stride a = 1) (hq : S1x64.Squeezes S64)
    (fsrc : HbBuf (F := F) c hb_src1) (q : Fin 64) (r : Fin 100000) (hr : off 0 = r.val) (h1 : off 1 = 0) :
    (ReadAs.same : ReadAs (Elt F) S64 .f32 S64 .f32).apply
        (View.read (Elt F) (((Memref.whole main_v4).slice (Rect.unit (s := S100000x64) off S1x64.size h) hs).squeeze S64 hq).view
          fsrc) (ix1 q)
      = (fsrc : S100000x64.Idx → Elt F .f32) (ix2 r q) :=
  read_src1_row c off h hs hq fsrc q r hr h1

end Cert.KernelIdeal.Hand

end
-- ==== Proof.KI.GatherRows.lean ====
import proofs.«423446_j56083682951492_1_alg».proof.Proof.KI.GatherRead
import Idealize.ShloMosaic.Lib.SparseCore.Stream

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev rowM {sp : Space} (m : Memref sig .tc sp S256x64 .f32) (k : ℕ)
    (hk : ∀ a, (![k, 0] : Fin 2 → ℕ) a + S1x64.size a ≤ S256x64.size a) : Memref sig .tc sp S64 .f32 :=
  (m.slice (Rect.unit (s := S256x64) ![k, 0] S1x64.size hk) (fun _ => rfl)).squeeze S64 squeezes_S1x64_S64

theorem row_inb (k : Fin (S256x64.size 0)) : ∀ a, (![k.val, 0] : Fin 2 → ℕ) a + S1x64.size a ≤ S256x64.size a := by
  have : k.val < 256 := k.isLt
  intro a; fin_cases a
  · show k.val + 1 ≤ 256; omega
  · show 0 + 64 ≤ 64; omega

theorem row_rect_set (k : Fin (S256x64.size 0)) (hk) :
    (Rect.unit (s := S256x64) ![k.val, 0] S1x64.size hk).set = (S256x64.rowRect 0 k).set := by
  ext i
  have h2 : i ∈ (S256x64.rowRect 0 k).set ↔ ∀ a : Fin 2, (if a = 0 then k.val else 0) ≤ (i a : ℕ)
      ∧ (i a : ℕ) < (if a = 0 then k.val else 0) + (S256x64.rowShape 0).size a := Rect.mem_set_unit
  rw [Rect.mem_set_unit, h2]
  refine forall_congr' fun a => ?_
  fin_cases a <;> rfl

theorem rowM_set {sp : Space} (m : Memref sig .tc sp S256x64 .f32) (k : Fin (S256x64.size 0)) (hk) :
    (rowM m k.val hk).view.set = (m.view.slice (S256x64.rowRect 0 k)).set := by
  show ((m.view.slice (Rect.unit (s := S256x64) ![k.val, 0] S1x64.size hk)).reshape S64 _).set = _
  rw [View.set_reshape, View.set_slice, View.set_slice, row_rect_set]

theorem rows_join (c : Dev nD) (m : Memref sig .tc .vmem S256x64 .f32) (hm : m.IsWhole)
    (g : Buf (Elt F) (m.view.loc (c : Thread nD τ))) (w : Fin (S256x64.size 0) → S64.Idx → Elt F .f32) :
    BI.bigSep Finset.univ (fun k : Fin (S256x64.size 0) =>
        (m.view.loc (c : Thread nD τ) ↦[(rowM m k.val (row_inb k)).view.set]{fullShare}
          ((rowM m k.val (row_inb k)).view.write (Elt F) g (w k) Finset.univ) : sProp 𝕄))
      ⊢ (m.view.loc (c : Thread nD τ) ↦[m.view.set]{fullShare}
          hm.unread (fun idx : S256x64.Idx => w (idx 0) (ix1 (idx 1))) : sProp 𝕄) := by
  have hK : ∀ k : Fin (S256x64.size 0),
      (rowM m k.val (row_inb k)).view.set = (m.view.slice (S256x64.rowRect 0 k)).set := fun k => rowM_set m k _
  have hj := pointsTo_biUnion_join (Ix := Unit) (Name := ℕ) (U := Pipeline.UD sig nD τ) (Lvl := ℕ)
    (ℓ := m.view.loc (c : Thread nD τ)) (q := fullShare) Finset.univ
    (fun k : Fin (S256x64.size 0) => (rowM m k.val (row_inb k)).view.set)
    (fun k : Fin (S256x64.size 0) => (rowM m k.val (row_inb k)).view.write (Elt F) g (w k) Finset.univ) g
    (fun k _ k' _ h => by rw [hK, hK]; exact m.view.disjoint_rows 0 h)
  refine hj.trans ?_
  iintro ⟨%g', %hg', H⟩
  have hset : m.view.set = Finset.univ.biUnion (fun k : Fin (S256x64.size 0) => (rowM m k.val (row_inb k)).view.set) := by
    rw [m.view.set_eq_biUnion_rows 0]
    exact Finset.biUnion_congr rfl fun k _ => (hK k).symm
  have hc : ∀ i ∈ Finset.univ.biUnion (fun k : Fin (S256x64.size 0) => (rowM m k.val (row_inb k)).view.set),
      g' i = hm.unread (fun idx : S256x64.Idx => w (idx 0) (ix1 (idx 1))) i := fun i hi => by
    obtain ⟨k, -, hk⟩ := Finset.mem_biUnion.mp hi
    rw [hg' k (Finset.mem_univ k) i hk]
    obtain ⟨x, -, rfl⟩ := Finset.mem_map.mp hk
    obtain ⟨q, rfl⟩ : ∃ q : Fin 64, x = ix1 q := ⟨x 0, eq_ix1 x⟩
    rw [View.write_emb_of_mem _ _ (Finset.mem_univ _), row_emb m k.val (row_inb k) _ squeezes_S1x64_S64 k rfl q]
    have hr : _root_.cast (congrArg (Elt F) m.view.elt_eq)
        (hm.unread (fun idx : S256x64.Idx => w (idx 0) (ix1 (idx 1))) (m.view.emb (ix2 (k : Fin 256) q))) = w k (ix1 q) :=
      congrFun (hm.read_unread (fun idx : S256x64.Idx => w (idx 0) (ix1 (idx 1)))) (ix2 (k : Fin 256) q)
    rw [← hr, cast_cast, cast_eq]
  rw [hset, ← pointsTo_congr hc]
  iexact H

section Whole
variable {Val : EltTy → Type} {κ : Kind} {sp : Space} {s : Shape} {e : EltTy}

theorem write_slice_whole_univ (v : View sig κ sp s e) (f : v.ty.Contents Val) (w : s.Idx → Val e) :
    (v.slice (Rect.whole s)).write Val f w Finset.univ = v.write Val f w Finset.univ := by
  funext i
  by_cases hi : i ∈ v.set
  · obtain ⟨x, -, rfl⟩ := Finset.mem_map.mp hi
    have hx : v.emb x = (v.slice (Rect.whole s)).emb x := by
      show _ = v.emb ((Rect.whole s).emb x)
      rw [Rect.emb_whole_apply]
    conv_lhs => rw [hx, View.write_emb_of_mem _ _ (Finset.mem_univ _)]
    rw [View.write_emb_of_mem _ _ (Finset.mem_univ _)]
  · have hs : (v.slice (Rect.whole s)).set = v.set := by
      rw [View.set_slice, Rect.set_whole]; rfl
    rw [View.write_of_not_mem _ _ _ (by rwa [View.setOn_univ, hs]), View.write_of_not_mem _ _ _ (by rwa [View.setOn_univ])]

theorem read_writes_unit_zero (v : View sig κ sp s e) (f : v.ty.Contents Val) {off : Fin s.rank → ℕ} (h0 : ∀ a, off a = 0)
    (inb : ∀ a, off a + s.size a ≤ s.size a) (P : s.Idx → Val e) :
    v.read Val (v.writes Val f [⟨Rect.unit off s.size inb, P⟩]) = P := by
  funext x
  have hx : (Rect.unit off s.size inb).emb x = x := by
    funext a
    apply Fin.ext
    show off a + 1 * (x a : ℕ) = x a
    rw [h0]; omega
  have h := View.read_writes_cons_emb v f (Rect.unit off s.size inb) P [] x
  rw [hx] at h
  exact h

end Whole

theorem read_writes_block {Val : EltTy → Type} {sp : Space} (m : Memref sig .tc sp S256x64 .f32) (f : m.view.ty.Contents Val)
    (inb : ∀ a, (![0, 0] : Fin 2 → ℕ) a + S256x64.size a ≤ S256x64.size a) (P : S256x64.Idx → Val .f32) :
    m.view.read Val (m.view.writes Val f [⟨Rect.unit (s := S256x64) ![0, 0] S256x64.size inb, P⟩]) = P :=
  read_writes_unit_zero m.view f (fun a => by fin_cases a <;> rfl) inb P

theorem rows_join_writes (c : Dev nD) (m : Memref sig .tc .vmem S256x64 .f32) (hm : m.IsWhole)
    (g : Buf (Elt F) (m.view.loc (c : Thread nD τ))) (w : Fin (S256x64.size 0) → S64.Idx → Elt F .f32) :
    BI.bigSep Finset.univ (fun k : Fin (S256x64.size 0) =>
        (m.view.loc (c : Thread nD τ) ↦[(rowM m k.val (row_inb k)).view.set]{fullShare}
          ((rowM m k.val (row_inb k)).view.writes (Elt F) g [⟨Rect.whole S64, w k⟩]) : sProp 𝕄))
      ⊢ (m.view.loc (c : Thread nD τ) ↦[m.view.set]{fullShare}
          hm.unread (fun idx : S256x64.Idx => w (idx 0) (ix1 (idx 1))) : sProp 𝕄) := by
  have h : ∀ k : Fin (S256x64.size 0),
      (rowM m k.val (row_inb k)).view.writes (Elt F) g [⟨Rect.whole S64, w k⟩]
        = (rowM m k.val (row_inb k)).view.write (Elt F) g (w k) Finset.univ :=
    fun k => write_slice_whole_univ (rowM m k.val (row_inb k)).view g (w k)
  simp only [h]
  exact rows_join c m hm g w

end Cert.KernelIdeal.Hand

end
-- ==== Proof.KI.GatherBase.lean ====
import proofs.«423446_j56083682951492_1_alg».proof.Proof.KI.Common
import proofs.«423446_j56083682951492_1_alg».proof.Proof.KI.GatherRows

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem chk_of_rows (arg1 : Memref sig .tc .smem S256 .i32) (harg1 : arg1.IsWhole) (x0 : Vec F S256 .i32) (hx0 : RowsOK x0)
    (B : LoadRect S256) (x : B.shape.Idx) :
    ∀ a : Fin 2, (![(View.readAt (Elt F) arg1.view B (harg1.unread x0) x).toNat, 0] : Fin 2 → ℕ) a + S1x64.size a ≤ S100000x64.size a := by
  obtain ⟨y, hy⟩ := harg1.exists_readAt_unread x0 B x
  rw [hy]
  have := hx0 y
  intro a; fin_cases a
  · show (x0 y).toNat + 1 ≤ 100000; omega
  · show 0 + 64 ≤ 64; omega

theorem row_inbN (k : ℕ) (h : k < 256) : ∀ a, (![k, 0] : Fin 2 → ℕ) a + S1x64.size a ≤ S256x64.size a :=
  row_inb ⟨k, h⟩

def sepList : List (sProp 𝕄) → sProp 𝕄
  | [] => iprop(emp)
  | P :: Ps => iprop(P ∗ sepList Ps)

theorem bigSep_fin_list : ∀ (n : ℕ) (Φ : Fin n → sProp 𝕄), BI.bigSep Finset.univ Φ = sepList (List.ofFn Φ)
  | 0, Φ => by rw [List.ofFn_zero, Finset.univ_eq_empty, BI.bigSep_empty]; rfl
  | n + 1, Φ => by
    rw [bigSep_univ_succ, List.ofFn_succ, bigSep_fin_list n]; rfl

abbrev rowPt (c : Dev nD) (m : Memref sig .tc .vmem S256x64 .f32) (k : ℕ) (hk : k < 256)
    (f : Buf (Elt F) (m.view.loc (c : Thread nD τ))) : sProp 𝕄 :=
  (rowM m k (row_inbN k hk)).view.loc (c : Thread nD τ) ↦[(rowM m k (row_inbN k hk)).view.set]{fullShare} f

theorem rowPt_eq (c : Dev nD) (m : Memref sig .tc .vmem S256x64 .f32) (k : Fin (S256x64.size 0))
    (f : Buf (Elt F) (m.view.loc (c : Thread nD τ))) :
    (m.view.loc (c : Thread nD τ) ↦[(m.view.slice (S256x64.rowRect 0 k)).set]{fullShare} f : sProp 𝕄) = rowPt c m k.val k.isLt f :=
  congrArg (fun S => (m.view.loc (c : Thread nD τ) ↦[S]{fullShare} f : sProp 𝕄)) (rowM_set m k (row_inbN k.val k.isLt)).symm

theorem rows_list (c : Dev nD) (m : Memref sig .tc .vmem S256x64 .f32) (g : Buf (Elt F) (m.view.loc (c : Thread nD τ))) :
    (m.view.loc (c : Thread nD τ) ↦[m.view.set]{fullShare} g : sProp 𝕄)
      = sepList (List.ofFn fun k : Fin (S256x64.size 0) => rowPt c m k.val k.isLt g) :=
  (pointsTo_rows (c : Thread nD τ) m.view 0 fullShare g).trans
    ((bigSep_fin_list _ _).trans (congrArg sepList (congrArg List.ofFn (funext fun k => rowPt_eq c m k g))))

theorem rows_chain (c : Dev nD) (m : Memref sig .tc .vmem S256x64 .f32) (g : Buf (Elt F) (m.view.loc (c : Thread nD τ))) :
    (m.view.loc (c : Thread nD τ) ↦[m.view.set]{fullShare} g : sProp 𝕄)
      = iprop(rowPt c m 0 (by decide) g
      ∗ rowPt c m 1 (by decide) g
      ∗ rowPt c m 2 (by decide) g
      ∗ rowPt c m 3 (by decide) g
      ∗ rowPt c m 4 (by decide) g
      ∗ rowPt c m 5 (by decide) g
      ∗ rowPt c m 6 (by decide) g
      ∗ rowPt c m 7 (by decide) g
      ∗ rowPt c m 8 (by decide) g
      ∗ rowPt c m 9 (by decide) g
      ∗ rowPt c m 10 (by decide) g
      ∗ rowPt c m 11 (by decide) g
      ∗ rowPt c m 12 (by decide) g
      ∗ rowPt c m 13 (by decide) g
      ∗ rowPt c m 14 (by decide) g
      ∗ rowPt c m 15 (by decide) g
      ∗ rowPt c m 16 (by decide) g
      ∗ rowPt c m 17 (by decide) g
      ∗ rowPt c m 18 (by decide) g
      ∗ rowPt c m 19 (by decide) g
      ∗ rowPt c m 20 (by decide) g
      ∗ rowPt c m 21 (by decide) g
      ∗ rowPt c m 22 (by decide) g
      ∗ rowPt c m 23 (by decide) g
      ∗ rowPt c m 24 (by decide) g
      ∗ rowPt c m 25 (by decide) g
      ∗ rowPt c m 26 (by decide) g
      ∗ rowPt c m 27 (by decide) g
      ∗ rowPt c m 28 (by decide) g
      ∗ rowPt c m 29 (by decide) g
      ∗ rowPt c m 30 (by decide) g
      ∗ rowPt c m 31 (by decide) g
      ∗ rowPt c m 32 (by decide) g
      ∗ rowPt c m 33 (by decide) g
      ∗ rowPt c m 34 (by decide) g
      ∗ rowPt c m 35 (by decide) g
      ∗ rowPt c m 36 (by decide) g
      ∗ rowPt c m 37 (by decide) g
      ∗ rowPt c m 38 (by decide) g
      ∗ rowPt c m 39 (by decide) g
      ∗ rowPt c m 40 (by decide) g
      ∗ rowPt c m 41 (by decide) g
      ∗ rowPt c m 42 (by decide) g
      ∗ rowPt c m 43 (by decide) g
      ∗ rowPt c m 44 (by decide) g
      ∗ rowPt c m 45 (by decide) g
      ∗ rowPt c m 46 (by decide) g
      ∗ rowPt c m 47 (by decide) g
      ∗ rowPt c m 48 (by decide) g
      ∗ rowPt c m 49 (by decide) g
      ∗ rowPt c m 50 (by decide) g
      ∗ rowPt c m 51 (by decide) g
      ∗ rowPt c m 52 (by decide) g
      ∗ rowPt c m 53 (by decide) g
      ∗ rowPt c m 54 (by decide) g
      ∗ rowPt c m 55 (by decide) g
      ∗ rowPt c m 56 (by decide) g
      ∗ rowPt c m 57 (by decide) g
      ∗ rowPt c m 58 (by decide) g
      ∗ rowPt c m 59 (by decide) g
      ∗ rowPt c m 60 (by decide) g
      ∗ rowPt c m 61 (by decide) g
      ∗ rowPt c m 62 (by decide) g
      ∗ rowPt c m 63 (by decide) g
      ∗ rowPt c m 64 (by decide) g
      ∗ rowPt c m 65 (by decide) g
      ∗ rowPt c m 66 (by decide) g
      ∗ rowPt c m 67 (by decide) g
      ∗ rowPt c m 68 (by decide) g
      ∗ rowPt c m 69 (by decide) g
      ∗ rowPt c m 70 (by decide) g
      ∗ rowPt c m 71 (by decide) g
      ∗ rowPt c m 72 (by decide) g
      ∗ rowPt c m 73 (by decide) g
      ∗ rowPt c m 74 (by decide) g
      ∗ rowPt c m 75 (by decide) g
      ∗ rowPt c m 76 (by decide) g
      ∗ rowPt c m 77 (by decide) g
      ∗ rowPt c m 78 (by decide) g
      ∗ rowPt c m 79 (by decide) g
      ∗ rowPt c m 80 (by decide) g
      ∗ rowPt c m 81 (by decide) g
      ∗ rowPt c m 82 (by decide) g
      ∗ rowPt c m 83 (by decide) g
      ∗ rowPt c m 84 (by decide) g
      ∗ rowPt c m 85 (by decide) g
      ∗ rowPt c m 86 (by decide) g
      ∗ rowPt c m 87 (by decide) g
      ∗ rowPt c m 88 (by decide) g
      ∗ rowPt c m 89 (by decide) g
      ∗ rowPt c m 90 (by decide) g
      ∗ rowPt c m 91 (by decide) g
      ∗ rowPt c m 92 (by decide) g
      ∗ rowPt c m 93 (by decide) g
      ∗ rowPt c m 94 (by decide) g
      ∗ rowPt c m 95 (by decide) g
      ∗ rowPt c m 96 (by decide) g
      ∗ rowPt c m 97 (by decide) g
      ∗ rowPt c m 98 (by decide) g
      ∗ rowPt c m 99 (by decide) g
      ∗ rowPt c m 100 (by decide) g
      ∗ rowPt c m 101 (by decide) g
      ∗ rowPt c m 102 (by decide) g
      ∗ rowPt c m 103 (by decide) g
      ∗ rowPt c m 104 (by decide) g
      ∗ rowPt c m 105 (by decide) g
      ∗ rowPt c m 106 (by decide) g
      ∗ rowPt c m 107 (by decide) g
      ∗ rowPt c m 108 (by decide) g
      ∗ rowPt c m 109 (by decide) g
      ∗ rowPt c m 110 (by decide) g
      ∗ rowPt c m 111 (by decide) g
      ∗ rowPt c m 112 (by decide) g
      ∗ rowPt c m 113 (by decide) g
      ∗ rowPt c m 114 (by decide) g
      ∗ rowPt c m 115 (by decide) g
      ∗ rowPt c m 116 (by decide) g
      ∗ rowPt c m 117 (by decide) g
      ∗ rowPt c m 118 (by decide) g
      ∗ rowPt c m 119 (by decide) g
      ∗ rowPt c m 120 (by decide) g
      ∗ rowPt c m 121 (by decide) g
      ∗ rowPt c m 122 (by decide) g
      ∗ rowPt c m 123 (by decide) g
      ∗ rowPt c m 124 (by decide) g
      ∗ rowPt c m 125 (by decide) g
      ∗ rowPt c m 126 (by decide) g
      ∗ rowPt c m 127 (by decide) g
      ∗ rowPt c m 128 (by decide) g
      ∗ rowPt c m 129 (by decide) g
      ∗ rowPt c m 130 (by decide) g
      ∗ rowPt c m 131 (by decide) g
      ∗ rowPt c m 132 (by decide) g
      ∗ rowPt c m 133 (by decide) g
      ∗ rowPt c m 134 (by decide) g
      ∗ rowPt c m 135 (by decide) g
      ∗ rowPt c m 136 (by decide) g
      ∗ rowPt c m 137 (by decide) g
      ∗ rowPt c m 138 (by decide) g
      ∗ rowPt c m 139 (by decide) g
      ∗ rowPt c m 140 (by decide) g
      ∗ rowPt c m 141 (by decide) g
      ∗ rowPt c m 142 (by decide) g
      ∗ rowPt c m 143 (by decide) g
      ∗ rowPt c m 144 (by decide) g
      ∗ rowPt c m 145 (by decide) g
      ∗ rowPt c m 146 (by decide) g
      ∗ rowPt c m 147 (by decide) g
      ∗ rowPt c m 148 (by decide) g
      ∗ rowPt c m 149 (by decide) g
      ∗ rowPt c m 150 (by decide) g
      ∗ rowPt c m 151 (by decide) g
      ∗ rowPt c m 152 (by decide) g
      ∗ rowPt c m 153 (by decide) g
      ∗ rowPt c m 154 (by decide) g
      ∗ rowPt c m 155 (by decide) g
      ∗ rowPt c m 156 (by decide) g
      ∗ rowPt c m 157 (by decide) g
      ∗ rowPt c m 158 (by decide) g
      ∗ rowPt c m 159 (by decide) g
      ∗ rowPt c m 160 (by decide) g
      ∗ rowPt c m 161 (by decide) g
      ∗ rowPt c m 162 (by decide) g
      ∗ rowPt c m 163 (by decide) g
      ∗ rowPt c m 164 (by decide) g
      ∗ rowPt c m 165 (by decide) g
      ∗ rowPt c m 166 (by decide) g
      ∗ rowPt c m 167 (by decide) g
      ∗ rowPt c m 168 (by decide) g
      ∗ rowPt c m 169 (by decide) g
      ∗ rowPt c m 170 (by decide) g
      ∗ rowPt c m 171 (by decide) g
      ∗ rowPt c m 172 (by decide) g
      ∗ rowPt c m 173 (by decide) g
      ∗ rowPt c m 174 (by decide) g
      ∗ rowPt c m 175 (by decide) g
      ∗ rowPt c m 176 (by decide) g
      ∗ rowPt c m 177 (by decide) g
      ∗ rowPt c m 178 (by decide) g
      ∗ rowPt c m 179 (by decide) g
      ∗ rowPt c m 180 (by decide) g
      ∗ rowPt c m 181 (by decide) g
      ∗ rowPt c m 182 (by decide) g
      ∗ rowPt c m 183 (by decide) g
      ∗ rowPt c m 184 (by decide) g
      ∗ rowPt c m 185 (by decide) g
      ∗ rowPt c m 186 (by decide) g
      ∗ rowPt c m 187 (by decide) g
      ∗ rowPt c m 188 (by decide) g
      ∗ rowPt c m 189 (by decide) g
      ∗ rowPt c m 190 (by decide) g
      ∗ rowPt c m 191 (by decide) g
      ∗ rowPt c m 192 (by decide) g
      ∗ rowPt c m 193 (by decide) g
      ∗ rowPt c m 194 (by decide) g
      ∗ rowPt c m 195 (by decide) g
      ∗ rowPt c m 196 (by decide) g
      ∗ rowPt c m 197 (by decide) g
      ∗ rowPt c m 198 (by decide) g
      ∗ rowPt c m 199 (by decide) g
      ∗ rowPt c m 200 (by decide) g
      ∗ rowPt c m 201 (by decide) g
      ∗ rowPt c m 202 (by decide) g
      ∗ rowPt c m 203 (by decide) g
      ∗ rowPt c m 204 (by decide) g
      ∗ rowPt c m 205 (by decide) g
      ∗ rowPt c m 206 (by decide) g
      ∗ rowPt c m 207 (by decide) g
      ∗ rowPt c m 208 (by decide) g
      ∗ rowPt c m 209 (by decide) g
      ∗ rowPt c m 210 (by decide) g
      ∗ rowPt c m 211 (by decide) g
      ∗ rowPt c m 212 (by decide) g
      ∗ rowPt c m 213 (by decide) g
      ∗ rowPt c m 214 (by decide) g
      ∗ rowPt c m 215 (by decide) g
      ∗ rowPt c m 216 (by decide) g
      ∗ rowPt c m 217 (by decide) g
      ∗ rowPt c m 218 (by decide) g
      ∗ rowPt c m 219 (by decide) g
      ∗ rowPt c m 220 (by decide) g
      ∗ rowPt c m 221 (by decide) g
      ∗ rowPt c m 222 (by decide) g
      ∗ rowPt c m 223 (by decide) g
      ∗ rowPt c m 224 (by decide) g
      ∗ rowPt c m 225 (by decide) g
      ∗ rowPt c m 226 (by decide) g
      ∗ rowPt c m 227 (by decide) g
      ∗ rowPt c m 228 (by decide) g
      ∗ rowPt c m 229 (by decide) g
      ∗ rowPt c m 230 (by decide) g
      ∗ rowPt c m 231 (by decide) g
      ∗ rowPt c m 232 (by decide) g
      ∗ rowPt c m 233 (by decide) g
      ∗ rowPt c m 234 (by decide) g
      ∗ rowPt c m 235 (by decide) g
      ∗ rowPt c m 236 (by decide) g
      ∗ rowPt c m 237 (by decide) g
      ∗ rowPt c m 238 (by decide) g
      ∗ rowPt c m 239 (by decide) g
      ∗ rowPt c m 240 (by decide) g
      ∗ rowPt c m 241 (by decide) g
      ∗ rowPt c m 242 (by decide) g
      ∗ rowPt c m 243 (by decide) g
      ∗ rowPt c m 244 (by decide) g
      ∗ rowPt c m 245 (by decide) g
      ∗ rowPt c m 246 (by decide) g
      ∗ rowPt c m 247 (by decide) g
      ∗ rowPt c m 248 (by decide) g
      ∗ rowPt c m 249 (by decide) g
      ∗ rowPt c m 250 (by decide) g
      ∗ rowPt c m 251 (by decide) g
      ∗ rowPt c m 252 (by decide) g
      ∗ rowPt c m 253 (by decide) g
      ∗ rowPt c m 254 (by decide) g
      ∗ rowPt c m 255 (by decide) g
      ∗ emp) :=
  (rows_list c m g).trans (by sl_kernel_rfl)

abbrev rowWPt (c : Dev nD) (m : Memref sig .tc .vmem S256x64 .f32) (k : ℕ) (hk : k < 256)
    (g : Buf (Elt F) (m.view.loc (c : Thread nD τ))) (w : S64.Idx → Elt F .f32) : sProp 𝕄 :=
  rowPt c m k hk ((rowM m k (row_inbN k hk)).view.writes (Elt F) g [⟨Rect.whole S64, w⟩])

theorem rows_join_list (c : Dev nD) (m : Memref sig .tc .vmem S256x64 .f32) (hm : m.IsWhole) (g : Buf (Elt F) (m.view.loc (c : Thread nD τ)))
    (ws : List (S64.Idx → Elt F .f32)) (d0 : S64.Idx → Elt F .f32) :
    sepList (List.ofFn fun k : Fin (S256x64.size 0) => rowWPt c m k.val k.isLt g (ws.getD k.val d0))
      ⊢ (m.view.loc (c : Thread nD τ) ↦[m.view.set]{fullShare}
          hm.unread (fun idx : S256x64.Idx => ws.getD (idx 0).val d0 (ix1 (idx 1))) : sProp 𝕄) :=
  (Entails.of_eq (bigSep_fin_list _ _).symm).trans (rows_join_writes c m hm g (fun k => ws.getD k.val d0))

theorem rows_join_chain (c : Dev nD) (m : Memref sig .tc .vmem S256x64 .f32) (hm : m.IsWhole) (g : Buf (Elt F) (m.view.loc (c : Thread nD τ)))
    {w0 w1 w2 w3 w4 w5 w6 w7 w8 w9 w10 w11 w12 w13 w14 w15 w16 w17 w18 w19 w20 w21 w22 w23 w24 w25 w26 w27 w28 w29 w30 w31 w32 w33 w34 w35 w36 w37 w38 w39 w40 w41 w42 w43 w44 w45 w46 w47 w48 w49 w50 w51 w52 w53 w54 w55 w56 w57 w58 w59 w60 w61 w62 w63 w64 w65 w66 w67 w68 w69 w70 w71 w72 w73 w74 w75 w76 w77 w78 w79 w80 w81 w82 w83 w84 w85 w86 w87 w88 w89 w90 w91 w92 w93 w94 w95 w96 w97 w98 w99 w100 w101 w102 w103 w104 w105 w106 w107 w108 w109 w110 w111 w112 w113 w114 w115 w116 w117 w118 w119 w120 w121 w122 w123 w124 w125 w126 w127 w128 w129 w130 w131 w132 w133 w134 w135 w136 w137 w138 w139 w140 w141 w142 w143 w144 w145 w146 w147 w148 w149 w150 w151 w152 w153 w154 w155 w156 w157 w158 w159 w160 w161 w162 w163 w164 w165 w166 w167 w168 w169 w170 w171 w172 w173 w174 w175 w176 w177 w178 w179 w180 w181 w182 w183 w184 w185 w186 w187 w188 w189 w190 w191 w192 w193 w194 w195 w196 w197 w198 w199 w200 w201 w202 w203 w204 w205 w206 w207 w208 w209 w210 w211 w212 w213 w214 w215 w216 w217 w218 w219 w220 w221 w222 w223 w224 w225 w226 w227 w228 w229 w230 w231 w232 w233 w234 w235 w236 w237 w238 w239 w240 w241 w242 w243 w244 w245 w246 w247 w248 w249 w250 w251 w252 w253 w254 w255 : S64.Idx → Elt F .f32} :
    iprop(rowWPt c m 0 (by decide) g w0
      ∗ rowWPt c m 1 (by decide) g w1
      ∗ rowWPt c m 2 (by decide) g w2
      ∗ rowWPt c m 3 (by decide) g w3
      ∗ rowWPt c m 4 (by decide) g w4
      ∗ rowWPt c m 5 (by decide) g w5
      ∗ rowWPt c m 6 (by decide) g w6
      ∗ rowWPt c m 7 (by decide) g w7
      ∗ rowWPt c m 8 (by decide) g w8
      ∗ rowWPt c m 9 (by decide) g w9
      ∗ rowWPt c m 10 (by decide) g w10
      ∗ rowWPt c m 11 (by decide) g w11
      ∗ rowWPt c m 12 (by decide) g w12
      ∗ rowWPt c m 13 (by decide) g w13
      ∗ rowWPt c m 14 (by decide) g w14
      ∗ rowWPt c m 15 (by decide) g w15
      ∗ rowWPt c m 16 (by decide) g w16
      ∗ rowWPt c m 17 (by decide) g w17
      ∗ rowWPt c m 18 (by decide) g w18
      ∗ rowWPt c m 19 (by decide) g w19
      ∗ rowWPt c m 20 (by decide) g w20
      ∗ rowWPt c m 21 (by decide) g w21
      ∗ rowWPt c m 22 (by decide) g w22
      ∗ rowWPt c m 23 (by decide) g w23
      ∗ rowWPt c m 24 (by decide) g w24
      ∗ rowWPt c m 25 (by decide) g w25
      ∗ rowWPt c m 26 (by decide) g w26
      ∗ rowWPt c m 27 (by decide) g w27
      ∗ rowWPt c m 28 (by decide) g w28
      ∗ rowWPt c m 29 (by decide) g w29
      ∗ rowWPt c m 30 (by decide) g w30
      ∗ rowWPt c m 31 (by decide) g w31
      ∗ rowWPt c m 32 (by decide) g w32
      ∗ rowWPt c m 33 (by decide) g w33
      ∗ rowWPt c m 34 (by decide) g w34
      ∗ rowWPt c m 35 (by decide) g w35
      ∗ rowWPt c m 36 (by decide) g w36
      ∗ rowWPt c m 37 (by decide) g w37
      ∗ rowWPt c m 38 (by decide) g w38
      ∗ rowWPt c m 39 (by decide) g w39
      ∗ rowWPt c m 40 (by decide) g w40
      ∗ rowWPt c m 41 (by decide) g w41
      ∗ rowWPt c m 42 (by decide) g w42
      ∗ rowWPt c m 43 (by decide) g w43
      ∗ rowWPt c m 44 (by decide) g w44
      ∗ rowWPt c m 45 (by decide) g w45
      ∗ rowWPt c m 46 (by decide) g w46
      ∗ rowWPt c m 47 (by decide) g w47
      ∗ rowWPt c m 48 (by decide) g w48
      ∗ rowWPt c m 49 (by decide) g w49
      ∗ rowWPt c m 50 (by decide) g w50
      ∗ rowWPt c m 51 (by decide) g w51
      ∗ rowWPt c m 52 (by decide) g w52
      ∗ rowWPt c m 53 (by decide) g w53
      ∗ rowWPt c m 54 (by decide) g w54
      ∗ rowWPt c m 55 (by decide) g w55
      ∗ rowWPt c m 56 (by decide) g w56
      ∗ rowWPt c m 57 (by decide) g w57
      ∗ rowWPt c m 58 (by decide) g w58
      ∗ rowWPt c m 59 (by decide) g w59
      ∗ rowWPt c m 60 (by decide) g w60
      ∗ rowWPt c m 61 (by decide) g w61
      ∗ rowWPt c m 62 (by decide) g w62
      ∗ rowWPt c m 63 (by decide) g w63
      ∗ rowWPt c m 64 (by decide) g w64
      ∗ rowWPt c m 65 (by decide) g w65
      ∗ rowWPt c m 66 (by decide) g w66
      ∗ rowWPt c m 67 (by decide) g w67
      ∗ rowWPt c m 68 (by decide) g w68
      ∗ rowWPt c m 69 (by decide) g w69
      ∗ rowWPt c m 70 (by decide) g w70
      ∗ rowWPt c m 71 (by decide) g w71
      ∗ rowWPt c m 72 (by decide) g w72
      ∗ rowWPt c m 73 (by decide) g w73
      ∗ rowWPt c m 74 (by decide) g w74
      ∗ rowWPt c m 75 (by decide) g w75
      ∗ rowWPt c m 76 (by decide) g w76
      ∗ rowWPt c m 77 (by decide) g w77
      ∗ rowWPt c m 78 (by decide) g w78
      ∗ rowWPt c m 79 (by decide) g w79
      ∗ rowWPt c m 80 (by decide) g w80
      ∗ rowWPt c m 81 (by decide) g w81
      ∗ rowWPt c m 82 (by decide) g w82
      ∗ rowWPt c m 83 (by decide) g w83
      ∗ rowWPt c m 84 (by decide) g w84
      ∗ rowWPt c m 85 (by decide) g w85
      ∗ rowWPt c m 86 (by decide) g w86
      ∗ rowWPt c m 87 (by decide) g w87
      ∗ rowWPt c m 88 (by decide) g w88
      ∗ rowWPt c m 89 (by decide) g w89
      ∗ rowWPt c m 90 (by decide) g w90
      ∗ rowWPt c m 91 (by decide) g w91
      ∗ rowWPt c m 92 (by decide) g w92
      ∗ rowWPt c m 93 (by decide) g w93
      ∗ rowWPt c m 94 (by decide) g w94
      ∗ rowWPt c m 95 (by decide) g w95
      ∗ rowWPt c m 96 (by decide) g w96
      ∗ rowWPt c m 97 (by decide) g w97
      ∗ rowWPt c m 98 (by decide) g w98
      ∗ rowWPt c m 99 (by decide) g w99
      ∗ rowWPt c m 100 (by decide) g w100
      ∗ rowWPt c m 101 (by decide) g w101
      ∗ rowWPt c m 102 (by decide) g w102
      ∗ rowWPt c m 103 (by decide) g w103
      ∗ rowWPt c m 104 (by decide) g w104
      ∗ rowWPt c m 105 (by decide) g w105
      ∗ rowWPt c m 106 (by decide) g w106
      ∗ rowWPt c m 107 (by decide) g w107
      ∗ rowWPt c m 108 (by decide) g w108
      ∗ rowWPt c m 109 (by decide) g w109
      ∗ rowWPt c m 110 (by decide) g w110
      ∗ rowWPt c m 111 (by decide) g w111
      ∗ rowWPt c m 112 (by decide) g w112
      ∗ rowWPt c m 113 (by decide) g w113
      ∗ rowWPt c m 114 (by decide) g w114
      ∗ rowWPt c m 115 (by decide) g w115
      ∗ rowWPt c m 116 (by decide) g w116
      ∗ rowWPt c m 117 (by decide) g w117
      ∗ rowWPt c m 118 (by decide) g w118
      ∗ rowWPt c m 119 (by decide) g w119
      ∗ rowWPt c m 120 (by decide) g w120
      ∗ rowWPt c m 121 (by decide) g w121
      ∗ rowWPt c m 122 (by decide) g w122
      ∗ rowWPt c m 123 (by decide) g w123
      ∗ rowWPt c m 124 (by decide) g w124
      ∗ rowWPt c m 125 (by decide) g w125
      ∗ rowWPt c m 126 (by decide) g w126
      ∗ rowWPt c m 127 (by decide) g w127
      ∗ rowWPt c m 128 (by decide) g w128
      ∗ rowWPt c m 129 (by decide) g w129
      ∗ rowWPt c m 130 (by decide) g w130
      ∗ rowWPt c m 131 (by decide) g w131
      ∗ rowWPt c m 132 (by decide) g w132
      ∗ rowWPt c m 133 (by decide) g w133
      ∗ rowWPt c m 134 (by decide) g w134
      ∗ rowWPt c m 135 (by decide) g w135
      ∗ rowWPt c m 136 (by decide) g w136
      ∗ rowWPt c m 137 (by decide) g w137
      ∗ rowWPt c m 138 (by decide) g w138
      ∗ rowWPt c m 139 (by decide) g w139
      ∗ rowWPt c m 140 (by decide) g w140
      ∗ rowWPt c m 141 (by decide) g w141
      ∗ rowWPt c m 142 (by decide) g w142
      ∗ rowWPt c m 143 (by decide) g w143
      ∗ rowWPt c m 144 (by decide) g w144
      ∗ rowWPt c m 145 (by decide) g w145
      ∗ rowWPt c m 146 (by decide) g w146
      ∗ rowWPt c m 147 (by decide) g w147
      ∗ rowWPt c m 148 (by decide) g w148
      ∗ rowWPt c m 149 (by decide) g w149
      ∗ rowWPt c m 150 (by decide) g w150
      ∗ rowWPt c m 151 (by decide) g w151
      ∗ rowWPt c m 152 (by decide) g w152
      ∗ rowWPt c m 153 (by decide) g w153
      ∗ rowWPt c m 154 (by decide) g w154
      ∗ rowWPt c m 155 (by decide) g w155
      ∗ rowWPt c m 156 (by decide) g w156
      ∗ rowWPt c m 157 (by decide) g w157
      ∗ rowWPt c m 158 (by decide) g w158
      ∗ rowWPt c m 159 (by decide) g w159
      ∗ rowWPt c m 160 (by decide) g w160
      ∗ rowWPt c m 161 (by decide) g w161
      ∗ rowWPt c m 162 (by decide) g w162
      ∗ rowWPt c m 163 (by decide) g w163
      ∗ rowWPt c m 164 (by decide) g w164
      ∗ rowWPt c m 165 (by decide) g w165
      ∗ rowWPt c m 166 (by decide) g w166
      ∗ rowWPt c m 167 (by decide) g w167
      ∗ rowWPt c m 168 (by decide) g w168
      ∗ rowWPt c m 169 (by decide) g w169
      ∗ rowWPt c m 170 (by decide) g w170
      ∗ rowWPt c m 171 (by decide) g w171
      ∗ rowWPt c m 172 (by decide) g w172
      ∗ rowWPt c m 173 (by decide) g w173
      ∗ rowWPt c m 174 (by decide) g w174
      ∗ rowWPt c m 175 (by decide) g w175
      ∗ rowWPt c m 176 (by decide) g w176
      ∗ rowWPt c m 177 (by decide) g w177
      ∗ rowWPt c m 178 (by decide) g w178
      ∗ rowWPt c m 179 (by decide) g w179
      ∗ rowWPt c m 180 (by decide) g w180
      ∗ rowWPt c m 181 (by decide) g w181
      ∗ rowWPt c m 182 (by decide) g w182
      ∗ rowWPt c m 183 (by decide) g w183
      ∗ rowWPt c m 184 (by decide) g w184
      ∗ rowWPt c m 185 (by decide) g w185
      ∗ rowWPt c m 186 (by decide) g w186
      ∗ rowWPt c m 187 (by decide) g w187
      ∗ rowWPt c m 188 (by decide) g w188
      ∗ rowWPt c m 189 (by decide) g w189
      ∗ rowWPt c m 190 (by decide) g w190
      ∗ rowWPt c m 191 (by decide) g w191
      ∗ rowWPt c m 192 (by decide) g w192
      ∗ rowWPt c m 193 (by decide) g w193
      ∗ rowWPt c m 194 (by decide) g w194
      ∗ rowWPt c m 195 (by decide) g w195
      ∗ rowWPt c m 196 (by decide) g w196
      ∗ rowWPt c m 197 (by decide) g w197
      ∗ rowWPt c m 198 (by decide) g w198
      ∗ rowWPt c m 199 (by decide) g w199
      ∗ rowWPt c m 200 (by decide) g w200
      ∗ rowWPt c m 201 (by decide) g w201
      ∗ rowWPt c m 202 (by decide) g w202
      ∗ rowWPt c m 203 (by decide) g w203
      ∗ rowWPt c m 204 (by decide) g w204
      ∗ rowWPt c m 205 (by decide) g w205
      ∗ rowWPt c m 206 (by decide) g w206
      ∗ rowWPt c m 207 (by decide) g w207
      ∗ rowWPt c m 208 (by decide) g w208
      ∗ rowWPt c m 209 (by decide) g w209
      ∗ rowWPt c m 210 (by decide) g w210
      ∗ rowWPt c m 211 (by decide) g w211
      ∗ rowWPt c m 212 (by decide) g w212
      ∗ rowWPt c m 213 (by decide) g w213
      ∗ rowWPt c m 214 (by decide) g w214
      ∗ rowWPt c m 215 (by decide) g w215
      ∗ rowWPt c m 216 (by decide) g w216
      ∗ rowWPt c m 217 (by decide) g w217
      ∗ rowWPt c m 218 (by decide) g w218
      ∗ rowWPt c m 219 (by decide) g w219
      ∗ rowWPt c m 220 (by decide) g w220
      ∗ rowWPt c m 221 (by decide) g w221
      ∗ rowWPt c m 222 (by decide) g w222
      ∗ rowWPt c m 223 (by decide) g w223
      ∗ rowWPt c m 224 (by decide) g w224
      ∗ rowWPt c m 225 (by decide) g w225
      ∗ rowWPt c m 226 (by decide) g w226
      ∗ rowWPt c m 227 (by decide) g w227
      ∗ rowWPt c m 228 (by decide) g w228
      ∗ rowWPt c m 229 (by decide) g w229
      ∗ rowWPt c m 230 (by decide) g w230
      ∗ rowWPt c m 231 (by decide) g w231
      ∗ rowWPt c m 232 (by decide) g w232
      ∗ rowWPt c m 233 (by decide) g w233
      ∗ rowWPt c m 234 (by decide) g w234
      ∗ rowWPt c m 235 (by decide) g w235
      ∗ rowWPt c m 236 (by decide) g w236
      ∗ rowWPt c m 237 (by decide) g w237
      ∗ rowWPt c m 238 (by decide) g w238
      ∗ rowWPt c m 239 (by decide) g w239
      ∗ rowWPt c m 240 (by decide) g w240
      ∗ rowWPt c m 241 (by decide) g w241
      ∗ rowWPt c m 242 (by decide) g w242
      ∗ rowWPt c m 243 (by decide) g w243
      ∗ rowWPt c m 244 (by decide) g w244
      ∗ rowWPt c m 245 (by decide) g w245
      ∗ rowWPt c m 246 (by decide) g w246
      ∗ rowWPt c m 247 (by decide) g w247
      ∗ rowWPt c m 248 (by decide) g w248
      ∗ rowWPt c m 249 (by decide) g w249
      ∗ rowWPt c m 250 (by decide) g w250
      ∗ rowWPt c m 251 (by decide) g w251
      ∗ rowWPt c m 252 (by decide) g w252
      ∗ rowWPt c m 253 (by decide) g w253
      ∗ rowWPt c m 254 (by decide) g w254
      ∗ rowWPt c m 255 (by decide) g w255
      ∗ emp)
      ⊢ (m.view.loc (c : Thread nD τ) ↦[m.view.set]{fullShare}
          hm.unread (fun idx : S256x64.Idx => ([w0, w1, w2, w3, w4, w5, w6, w7, w8, w9, w10, w11, w12, w13, w14, w15, w16, w17, w18, w19, w20, w21, w22, w23, w24, w25, w26, w27, w28, w29, w30, w31, w32, w33, w34, w35, w36, w37, w38, w39, w40, w41, w42, w43, w44, w45, w46, w47, w48, w49, w50, w51, w52, w53, w54, w55, w56, w57, w58, w59, w60, w61, w62, w63, w64, w65, w66, w67, w68, w69, w70, w71, w72, w73, w74, w75, w76, w77, w78, w79, w80, w81, w82, w83, w84, w85, w86, w87, w88, w89, w90, w91, w92, w93, w94, w95, w96, w97, w98, w99, w100, w101, w102, w103, w104, w105, w106, w107, w108, w109, w110, w111, w112, w113, w114, w115, w116, w117, w118, w119, w120, w121, w122, w123, w124, w125, w126, w127, w128, w129, w130, w131, w132, w133, w134, w135, w136, w137, w138, w139, w140, w141, w142, w143, w144, w145, w146, w147, w148, w149, w150, w151, w152, w153, w154, w155, w156, w157, w158, w159, w160, w161, w162, w163, w164, w165, w166, w167, w168, w169, w170, w171, w172, w173, w174, w175, w176, w177, w178, w179, w180, w181, w182, w183, w184, w185, w186, w187, w188, w189, w190, w191, w192, w193, w194, w195, w196, w197, w198, w199, w200, w201, w202, w203, w204, w205, w206, w207, w208, w209, w210, w211, w212, w213, w214, w215, w216, w217, w218, w219, w220, w221, w222, w223, w224, w225, w226, w227, w228, w229, w230, w231, w232, w233, w234, w235, w236, w237, w238, w239, w240, w241, w242, w243, w244, w245, w246, w247, w248, w249, w250, w251, w252, w253, w254, w255] : List (S64.Idx → Elt F .f32)).getD (idx 0).val w0 (ix1 (idx 1))) : sProp 𝕄) :=
  (Entails.of_eq (by sl_kernel_rfl)).trans (rows_join_list c m hm g [w0, w1, w2, w3, w4, w5, w6, w7, w8, w9, w10, w11, w12, w13, w14, w15, w16, w17, w18, w19, w20, w21, w22, w23, w24, w25, w26, w27, w28, w29, w30, w31, w32, w33, w34, w35, w36, w37, w38, w39, w40, w41, w42, w43, w44, w45, w46, w47, w48, w49, w50, w51, w52, w53, w54, w55, w56, w57, w58, w59, w60, w61, w62, w63, w64, w65, w66, w67, w68, w69, w70, w71, w72, w73, w74, w75, w76, w77, w78, w79, w80, w81, w82, w83, w84, w85, w86, w87, w88, w89, w90, w91, w92, w93, w94, w95, w96, w97, w98, w99, w100, w101, w102, w103, w104, w105, w106, w107, w108, w109, w110, w111, w112, w113, w114, w115, w116, w117, w118, w119, w120, w121, w122, w123, w124, w125, w126, w127, w128, w129, w130, w131, w132, w133, w134, w135, w136, w137, w138, w139, w140, w141, w142, w143, w144, w145, w146, w147, w148, w149, w150, w151, w152, w153, w154, w155, w156, w157, w158, w159, w160, w161, w162, w163, w164, w165, w166, w167, w168, w169, w170, w171, w172, w173, w174, w175, w176, w177, w178, w179, w180, w181, w182, w183, w184, w185, w186, w187, w188, w189, w190, w191, w192, w193, w194, w195, w196, w197, w198, w199, w200, w201, w202, w203, w204, w205, w206, w207, w208, w209, w210, w211, w212, w213, w214, w215, w216, w217, w218, w219, w220, w221, w222, w223, w224, w225, w226, w227, w228, w229, w230, w231, w232, w233, w234, w235, w236, w237, w238, w239, w240, w241, w242, w243, w244, w245, w246, w247, w248, w249, w250, w251, w252, w253, w254, w255] w0)

end Cert.KernelIdeal.Hand

end
-- ==== Proof.KI.Gather0Run.lean ====
import proofs.«423446_j56083682951492_1_alg».proof.Proof.KI.GatherBase

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev tok0 (c : Dev nD) (k : ℕ) (fsrc : HbBuf (F := F) c hb_src0) : sProp 𝕄 :=
  hb_src0.view.loc (c : Thread nD τ) ↦[Finset.univ]{Transfers.shareTokN fullShare k} fsrc

abbrev drop0 (c : Dev nD) (k : ℕ) (fsrc : HbBuf (F := F) c hb_src0) : sProp 𝕄 :=
  hb_src0.view.loc (c : Thread nD τ) ↦[Finset.univ]{Transfers.shareDrop fullShare k} fsrc

abbrev low0 (c : Dev nD) (fsrc : HbBuf (F := F) c hb_src0) : sProp 𝕄 :=
  BI.bigSep (Finset.range 6) (fun k => hb_src0.view.loc (c : Thread nD τ) ↦[Finset.univ]{Transfers.shareTokN fullShare k} fsrc)

theorem src_toks0 (c : Dev nD) (fsrc : HbBuf (F := F) c hb_src0) :
    hbPt c hb_src0 fsrc ⊣⊢ iprop(((((((((drop0 c 14 fsrc ∗ tok0 c 13 fsrc) ∗ tok0 c 12 fsrc) ∗ tok0 c 11 fsrc) ∗ tok0 c 10 fsrc) ∗ tok0 c 9 fsrc) ∗ tok0 c 8 fsrc) ∗ tok0 c 7 fsrc) ∗ tok0 c 6 fsrc) ∗ low0 c fsrc) := by
  have hs : ∀ k : ℕ, drop0 c k fsrc ⊣⊢ iprop(drop0 c (k + 1) fsrc ∗ tok0 c k fsrc) :=
    fun k => pointsTo_share (PosShare.mem_left_op_right _)
  have h0 : hbPt c hb_src0 fsrc ⊣⊢ iprop(drop0 c 6 fsrc ∗ low0 c fsrc) :=
    Transfers.pointsTo_toks_range fullShare 6
  exact h0.trans (sep_congr_left ((hs 6).trans (sep_congr_left ((hs 7).trans (sep_congr_left ((hs 8).trans (sep_congr_left ((hs 9).trans (sep_congr_left ((hs 10).trans (sep_congr_left ((hs 11).trans (sep_congr_left ((hs 12).trans (sep_congr_left (hs 13))))))))))))))))

set_option maxHeartbeats 400000000 in
noncomputable def gatherRun0 (c : Dev nD) (i : grid0.Coords) (arg1 : Memref sig .tc .smem S256 .i32) (harg1 : arg1.IsWhole) (x0 : Vec F S256 .i32) (hx0 : RowsOK x0)
     (arg2 : Memref sig .tc .vmem S256x1 .f32) (harg2 : arg2.IsWhole) (x1 : Vec F S256x1 .f32) (arg4 : Memref sig .tc .vmem S256x64 .f32) (harg4 : arg4.IsWhole) (fsrc : HbBuf (F := F) c hb_src0) :
     { fo : Vec F S256x64 .f32 // ∀ (K : PUnit → sProp 𝕄),
        iprop(owns (c : Thread nD τ) arg1 fullShare x0 ∗ owns (c : Thread nD τ) arg2 fullShare x1 ∗ (∃ d, owns (c : Thread nD τ) arg4 fullShare d) ∗ hbPt c hb_src0 fsrc ∗ sems0 c ∗ (∃ W, owes (c : Thread nD τ) 0 W)
          ∗ (iprop(owns (c : Thread nD τ) arg1 fullShare x0 ∗ owns (c : Thread nD τ) arg2 fullShare x1 ∗ owns (c : Thread nD τ) arg4 fullShare fo ∗ hbPt c hb_src0 fsrc ∗ sems0 c ∗ (∃ W, owes (c : Thread nD τ) 0 W)) -∗ K ⟨⟩))
        ⊢ wp frame (wpE (defs₀ (F := F)) Variants.none c none) Set.univ (cc0__gather_scale_kernel i arg1 harg1 arg2 harg2 (Memref.whole main_arg0) (Memref.isWhole_whole _) arg4 harg4 cc0_scratch0) K } := by
  refine ⟨?_, fun K => ?run⟩
  case run =>
    simp only [cc0__gather_scale_kernel_eq_skeleton]; unfold cc0__gather_scale_kernel_skel
    unfold owns
    iintro ⟨⟨%g1, %hg1, H1⟩, ⟨%g2, %hg2, H2⟩, ⟨%d, %g4, %hg4, H4⟩, Hsrc, ⟨C6, C7, C8, C9, C10, C11, C12, C13⟩, ⟨%W, HO⟩, Hk⟩
    obtain rfl := harg1.eq_unread hg1
    obtain rfl := harg2.eq_unread hg2
    icases (src_toks0 c fsrc).1 $$ Hsrc with ⟨⟨⟨⟨⟨⟨⟨⟨⟨Hd, T13⟩, T12⟩, T11⟩, T10⟩, T9⟩, T8⟩, T7⟩, T6⟩, Hlow⟩
    icases (Entails.of_eq (rows_chain c arg4 g4)) $$ H4 with ⟨R0, R1, R2, R3, R4, R5, R6, R7, R8, R9, R10, R11, R12, R13, R14, R15, R16, R17, R18, R19, R20, R21, R22, R23, R24, R25, R26, R27, R28, R29, R30, R31, R32, R33, R34, R35, R36, R37, R38, R39, R40, R41, R42, R43, R44, R45, R46, R47, R48, R49, R50, R51, R52, R53, R54, R55, R56, R57, R58, R59, R60, R61, R62, R63, R64, R65, R66, R67, R68, R69, R70, R71, R72, R73, R74, R75, R76, R77, R78, R79, R80, R81, R82, R83, R84, R85, R86, R87, R88, R89, R90, R91, R92, R93, R94, R95, R96, R97, R98, R99, R100, R101, R102, R103, R104, R105, R106, R107, R108, R109, R110, R111, R112, R113, R114, R115, R116, R117, R118, R119, R120, R121, R122, R123, R124, R125, R126, R127, R128, R129, R130, R131, R132, R133, R134, R135, R136, R137, R138, R139, R140, R141, R142, R143, R144, R145, R146, R147, R148, R149, R150, R151, R152, R153, R154, R155, R156, R157, R158, R159, R160, R161, R162, R163, R164, R165, R166, R167, R168, R169, R170, R171, R172, R173, R174, R175, R176, R177, R178, R179, R180, R181, R182, R183, R184, R185, R186, R187, R188, R189, R190, R191, R192, R193, R194, R195, R196, R197, R198, R199, R200, R201, R202, R203, R204, R205, R206, R207, R208, R209, R210, R211, R212, R213, R214, R215, R216, R217, R218, R219, R220, R221, R222, R223, R224, R225, R226, R227, R228, R229, R230, R231, R232, R233, R234, R235, R236, R237, R238, R239, R240, R241, R242, R243, R244, R245, R246, R247, R248, R249, R250, R251, R252, R253, R254, R255, -⟩
    sl_exec_parts (disch := first | exact chk_of_rows _ _ _ hx0 _ _)
    ihave H4 := (rows_join_chain c arg4 harg4 g4) $$ [R0 R1 R2 R3 R4 R5 R6 R7 R8 R9 R10 R11 R12 R13 R14 R15 R16 R17 R18 R19 R20 R21 R22 R23 R24 R25 R26 R27 R28 R29 R30 R31 R32 R33 R34 R35 R36 R37 R38 R39 R40 R41 R42 R43 R44 R45 R46 R47 R48 R49 R50 R51 R52 R53 R54 R55 R56 R57 R58 R59 R60 R61 R62 R63 R64 R65 R66 R67 R68 R69 R70 R71 R72 R73 R74 R75 R76 R77 R78 R79 R80 R81 R82 R83 R84 R85 R86 R87 R88 R89 R90 R91 R92 R93 R94 R95 R96 R97 R98 R99 R100 R101 R102 R103 R104 R105 R106 R107 R108 R109 R110 R111 R112 R113 R114 R115 R116 R117 R118 R119 R120 R121 R122 R123 R124 R125 R126 R127 R128 R129 R130 R131 R132 R133 R134 R135 R136 R137 R138 R139 R140 R141 R142 R143 R144 R145 R146 R147 R148 R149 R150 R151 R152 R153 R154 R155 R156 R157 R158 R159 R160 R161 R162 R163 R164 R165 R166 R167 R168 R169 R170 R171 R172 R173 R174 R175 R176 R177 R178 R179 R180 R181 R182 R183 R184 R185 R186 R187 R188 R189 R190 R191 R192 R193 R194 R195 R196 R197 R198 R199 R200 R201 R202 R203 R204 R205 R206 R207 R208 R209 R210 R211 R212 R213 R214 R215 R216 R217 R218 R219 R220 R221 R222 R223 R224 R225 R226 R227 R228 R229 R230 R231 R232 R233 R234 R235 R236 R237 R238 R239 R240 R241 R242 R243 R244 R245 R246 R247 R248 R249 R250 R251 R252 R253 R254 R255]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [R16]; · iexact R16
      isplitl [R17]; · iexact R17
      isplitl [R18]; · iexact R18
      isplitl [R19]; · iexact R19
      isplitl [R20]; · iexact R20
      isplitl [R21]; · iexact R21
      isplitl [R22]; · iexact R22
      isplitl [R23]; · iexact R23
      isplitl [R24]; · iexact R24
      isplitl [R25]; · iexact R25
      isplitl [R26]; · iexact R26
      isplitl [R27]; · iexact R27
      isplitl [R28]; · iexact R28
      isplitl [R29]; · iexact R29
      isplitl [R30]; · iexact R30
      isplitl [R31]; · iexact R31
      isplitl [R32]; · iexact R32
      isplitl [R33]; · iexact R33
      isplitl [R34]; · iexact R34
      isplitl [R35]; · iexact R35
      isplitl [R36]; · iexact R36
      isplitl [R37]; · iexact R37
      isplitl [R38]; · iexact R38
      isplitl [R39]; · iexact R39
      isplitl [R40]; · iexact R40
      isplitl [R41]; · iexact R41
      isplitl [R42]; · iexact R42
      isplitl [R43]; · iexact R43
      isplitl [R44]; · iexact R44
      isplitl [R45]; · iexact R45
      isplitl [R46]; · iexact R46
      isplitl [R47]; · iexact R47
      isplitl [R48]; · iexact R48
      isplitl [R49]; · iexact R49
      isplitl [R50]; · iexact R50
      isplitl [R51]; · iexact R51
      isplitl [R52]; · iexact R52
      isplitl [R53]; · iexact R53
      isplitl [R54]; · iexact R54
      isplitl [R55]; · iexact R55
      isplitl [R56]; · iexact R56
      isplitl [R57]; · iexact R57
      isplitl [R58]; · iexact R58
      isplitl [R59]; · iexact R59
      isplitl [R60]; · iexact R60
      isplitl [R61]; · iexact R61
      isplitl [R62]; · iexact R62
      isplitl [R63]; · iexact R63
      isplitl [R64]; · iexact R64
      isplitl [R65]; · iexact R65
      isplitl [R66]; · iexact R66
      isplitl [R67]; · iexact R67
      isplitl [R68]; · iexact R68
      isplitl [R69]; · iexact R69
      isplitl [R70]; · iexact R70
      isplitl [R71]; · iexact R71
      isplitl [R72]; · iexact R72
      isplitl [R73]; · iexact R73
      isplitl [R74]; · iexact R74
      isplitl [R75]; · iexact R75
      isplitl [R76]; · iexact R76
      isplitl [R77]; · iexact R77
      isplitl [R78]; · iexact R78
      isplitl [R79]; · iexact R79
      isplitl [R80]; · iexact R80
      isplitl [R81]; · iexact R81
      isplitl [R82]; · iexact R82
      isplitl [R83]; · iexact R83
      isplitl [R84]; · iexact R84
      isplitl [R85]; · iexact R85
      isplitl [R86]; · iexact R86
      isplitl [R87]; · iexact R87
      isplitl [R88]; · iexact R88
      isplitl [R89]; · iexact R89
      isplitl [R90]; · iexact R90
      isplitl [R91]; · iexact R91
      isplitl [R92]; · iexact R92
      isplitl [R93]; · iexact R93
      isplitl [R94]; · iexact R94
      isplitl [R95]; · iexact R95
      isplitl [R96]; · iexact R96
      isplitl [R97]; · iexact R97
      isplitl [R98]; · iexact R98
      isplitl [R99]; · iexact R99
      isplitl [R100]; · iexact R100
      isplitl [R101]; · iexact R101
      isplitl [R102]; · iexact R102
      isplitl [R103]; · iexact R103
      isplitl [R104]; · iexact R104
      isplitl [R105]; · iexact R105
      isplitl [R106]; · iexact R106
      isplitl [R107]; · iexact R107
      isplitl [R108]; · iexact R108
      isplitl [R109]; · iexact R109
      isplitl [R110]; · iexact R110
      isplitl [R111]; · iexact R111
      isplitl [R112]; · iexact R112
      isplitl [R113]; · iexact R113
      isplitl [R114]; · iexact R114
      isplitl [R115]; · iexact R115
      isplitl [R116]; · iexact R116
      isplitl [R117]; · iexact R117
      isplitl [R118]; · iexact R118
      isplitl [R119]; · iexact R119
      isplitl [R120]; · iexact R120
      isplitl [R121]; · iexact R121
      isplitl [R122]; · iexact R122
      isplitl [R123]; · iexact R123
      isplitl [R124]; · iexact R124
      isplitl [R125]; · iexact R125
      isplitl [R126]; · iexact R126
      isplitl [R127]; · iexact R127
      isplitl [R128]; · iexact R128
      isplitl [R129]; · iexact R129
      isplitl [R130]; · iexact R130
      isplitl [R131]; · iexact R131
      isplitl [R132]; · iexact R132
      isplitl [R133]; · iexact R133
      isplitl [R134]; · iexact R134
      isplitl [R135]; · iexact R135
      isplitl [R136]; · iexact R136
      isplitl [R137]; · iexact R137
      isplitl [R138]; · iexact R138
      isplitl [R139]; · iexact R139
      isplitl [R140]; · iexact R140
      isplitl [R141]; · iexact R141
      isplitl [R142]; · iexact R142
      isplitl [R143]; · iexact R143
      isplitl [R144]; · iexact R144
      isplitl [R145]; · iexact R145
      isplitl [R146]; · iexact R146
      isplitl [R147]; · iexact R147
      isplitl [R148]; · iexact R148
      isplitl [R149]; · iexact R149
      isplitl [R150]; · iexact R150
      isplitl [R151]; · iexact R151
      isplitl [R152]; · iexact R152
      isplitl [R153]; · iexact R153
      isplitl [R154]; · iexact R154
      isplitl [R155]; · iexact R155
      isplitl [R156]; · iexact R156
      isplitl [R157]; · iexact R157
      isplitl [R158]; · iexact R158
      isplitl [R159]; · iexact R159
      isplitl [R160]; · iexact R160
      isplitl [R161]; · iexact R161
      isplitl [R162]; · iexact R162
      isplitl [R163]; · iexact R163
      isplitl [R164]; · iexact R164
      isplitl [R165]; · iexact R165
      isplitl [R166]; · iexact R166
      isplitl [R167]; · iexact R167
      isplitl [R168]; · iexact R168
      isplitl [R169]; · iexact R169
      isplitl [R170]; · iexact R170
      isplitl [R171]; · iexact R171
      isplitl [R172]; · iexact R172
      isplitl [R173]; · iexact R173
      isplitl [R174]; · iexact R174
      isplitl [R175]; · iexact R175
      isplitl [R176]; · iexact R176
      isplitl [R177]; · iexact R177
      isplitl [R178]; · iexact R178
      isplitl [R179]; · iexact R179
      isplitl [R180]; · iexact R180
      isplitl [R181]; · iexact R181
      isplitl [R182]; · iexact R182
      isplitl [R183]; · iexact R183
      isplitl [R184]; · iexact R184
      isplitl [R185]; · iexact R185
      isplitl [R186]; · iexact R186
      isplitl [R187]; · iexact R187
      isplitl [R188]; · iexact R188
      isplitl [R189]; · iexact R189
      isplitl [R190]; · iexact R190
      isplitl [R191]; · iexact R191
      isplitl [R192]; · iexact R192
      isplitl [R193]; · iexact R193
      isplitl [R194]; · iexact R194
      isplitl [R195]; · iexact R195
      isplitl [R196]; · iexact R196
      isplitl [R197]; · iexact R197
      isplitl [R198]; · iexact R198
      isplitl [R199]; · iexact R199
      isplitl [R200]; · iexact R200
      isplitl [R201]; · iexact R201
      isplitl [R202]; · iexact R202
      isplitl [R203]; · iexact R203
      isplitl [R204]; · iexact R204
      isplitl [R205]; · iexact R205
      isplitl [R206]; · iexact R206
      isplitl [R207]; · iexact R207
      isplitl [R208]; · iexact R208
      isplitl [R209]; · iexact R209
      isplitl [R210]; · iexact R210
      isplitl [R211]; · iexact R211
      isplitl [R212]; · iexact R212
      isplitl [R213]; · iexact R213
      isplitl [R214]; · iexact R214
      isplitl [R215]; · iexact R215
      isplitl [R216]; · iexact R216
      isplitl [R217]; · iexact R217
      isplitl [R218]; · iexact R218
      isplitl [R219]; · iexact R219
      isplitl [R220]; · iexact R220
      isplitl [R221]; · iexact R221
      isplitl [R222]; · iexact R222
      isplitl [R223]; · iexact R223
      isplitl [R224]; · iexact R224
      isplitl [R225]; · iexact R225
      isplitl [R226]; · iexact R226
      isplitl [R227]; · iexact R227
      isplitl [R228]; · iexact R228
      isplitl [R229]; · iexact R229
      isplitl [R230]; · iexact R230
      isplitl [R231]; · iexact R231
      isplitl [R232]; · iexact R232
      isplitl [R233]; · iexact R233
      isplitl [R234]; · iexact R234
      isplitl [R235]; · iexact R235
      isplitl [R236]; · iexact R236
      isplitl [R237]; · iexact R237
      isplitl [R238]; · iexact R238
      isplitl [R239]; · iexact R239
      isplitl [R240]; · iexact R240
      isplitl [R241]; · iexact R241
      isplitl [R242]; · iexact R242
      isplitl [R243]; · iexact R243
      isplitl [R244]; · iexact R244
      isplitl [R245]; · iexact R245
      isplitl [R246]; · iexact R246
      isplitl [R247]; · iexact R247
      isplitl [R248]; · iexact R248
      isplitl [R249]; · iexact R249
      isplitl [R250]; · iexact R250
      isplitl [R251]; · iexact R251
      isplitl [R252]; · iexact R252
      isplitl [R253]; · iexact R253
      isplitl [R254]; · iexact R254
      isplitl [R255]; · iexact R255
      iempintro
    sl_exec_parts (disch := first | exact chk_of_rows _ _ _ hx0 _ _)
    sl_step
    iapply Hk
    isplitl [H1]
    · iexists _; isplitr; · ipureintro; exact harg1.read_unread _
      iexact H1
    isplitl [H2]
    · iexists _; isplitr; · ipureintro; exact harg2.read_unread _
      iexact H2
    isplitl [H4]
    · iexists _; isplitr; · ipureintro; rfl
      iexact H4
    isplitl [Hd T13 T12 T11 T10 T9 T8 T7 T6 Hlow]
    · iapply (src_toks0 c fsrc).2
      isplitr [Hlow]
      · isplitr [T6]
        · isplitr [T7]
          · isplitr [T8]
            · isplitr [T9]
              · isplitr [T10]
                · isplitr [T11]
                  · isplitr [T12]
                    · isplitr [T13]
                      · iexact Hd
                      · iexact T13
                    · iexact T12
                  · iexact T11
                · iexact T10
              · iexact T9
            · iexact T8
          · iexact T7
        · iexact T6
      · iexact Hlow
    isplitl [C6 C7 C8 C9 C10 C11 C12 C13]
    · isplitl [C6]; · iexact C6
      isplitl [C7]; · iexact C7
      isplitl [C8]; · iexact C8
      isplitl [C9]; · iexact C9
      isplitl [C10]; · iexact C10
      isplitl [C11]; · iexact C11
      isplitl [C12]; · iexact C12
      iexact C13
    iexists _; iexact HO

end Cert.KernelIdeal.Hand

end
-- ==== Proof.KI.Gather0Dat.lean ====
import proofs.«423446_j56083682951492_1_alg».proof.Proof.KI.Gather0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

def Hyps0 : Prop := ∀ (c : Dev nD) (t : Fin cfg0.N), RowsOK (F := F) (iblk0 V c 0 t)

noncomputable def out0 (hH : Hyps0 V) (c : Dev nD) (t : Fin cfg0.N) : Vec F S256x64 .f32 :=
  (gatherRun0 c (grid0.coords t) (st0_0 t) (launch0.stage_whole 0 (cfg0.slots t 0)) (iblk0 V c 0 t) (hH c t)
    (st0_1 t) (launch0.stage_whole 1 (cfg0.slots t 1)) (iblk0 V c 1 t)
    (st0_2 t) (launch0.stage_whole 2 (cfg0.slots t 2)) (V c main_arg0)).1

def dat0 (hH : Hyps0 V) (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0 V hH c t
  Φ _ := iprop(Pipeline.ΦA spec0 c ∗ hbPt c hb_src0 (V c main_arg0) ∗ sems0 c)
  q _ := fullShare
  owed _ := 0

theorem A_eq0 (hH : Hyps0 V) (c : Dev nD) (w : Fin cfg0.W) : (dat0 V hH c).A w = V c (Pipeline.arrRef spec0 w) := by
  dsimp only [dat0]

theorem after0_0 (hH : Hyps0 V) (c : Dev nD) (t : Fin cfg0.N) : (dat0 V hH c).after 0 t = iblk0 V c 0 t := by dsimp only [dat0]
theorem after0_1 (hH : Hyps0 V) (c : Dev nD) (t : Fin cfg0.N) : (dat0 V hH c).after 1 t = iblk0 V c 1 t := by dsimp only [dat0]
theorem after0_2 (hH : Hyps0 V) (c : Dev nD) (t : Fin cfg0.N) : (dat0 V hH c).after 2 t = out0 V hH c t := by dsimp only [dat0]

theorem Φ_eq0 (hH : Hyps0 V) (c : Dev nD) (t : Fin (cfg0.N + 1)) :
    (dat0 V hH c).Φ t = iprop(Pipeline.ΦA spec0 c ∗ hbPt c hb_src0 (V c main_arg0) ∗ sems0 c) := rfl

theorem q_eq0 (hH : Hyps0 V) (c : Dev nD) (w : Fin cfg0.W) : (dat0 V hH c).q w = fullShare := rfl
theorem owed_eq0 (hH : Hyps0 V) (c : Dev nD) (t : Fin (cfg0.N + 1)) : (dat0 V hH c).owed t = 0 := rfl
theorem recorded_eq0 (hH : Hyps0 V) (c : Dev nD) (t : Fin (cfg0.N + 1)) : (dat0 V hH c).recorded t = Set.univ := rfl

theorem before0_0 (hH : Hyps0 V) (c : Dev nD) (t : Fin cfg0.N) (d) : (dat0 V hH c).before 0 t d = iblk0 V c 0 t :=
  before0_0_of V (dat0 V hH c) (A_eq0 V hH c 0) (after0_0 V hH c) t d
theorem before0_1 (hH : Hyps0 V) (c : Dev nD) (t : Fin cfg0.N) (d) : (dat0 V hH c).before 1 t d = iblk0 V c 1 t :=
  before0_1_of V (dat0 V hH c) (A_eq0 V hH c 1) (after0_1 V hH c) t d

def bodyPre0 (hH : Hyps0 V) (c : Dev nD) (t : Fin cfg0.N) : sProp 𝕄 :=
  iprop((dat0 V hH c).Φ t.castSucc ∗ (dat0 V hH c).owesAt () t.castSucc
    ∗ (∃ d, owns (c : Thread nD τ) (st0_0 t) fullShare ((dat0 V hH c).before 0 t d))
    ∗ (∃ d, owns (c : Thread nD τ) (st0_1 t) fullShare ((dat0 V hH c).before 1 t d))
    ∗ (∃ d, owns (c : Thread nD τ) (st0_2 t) fullShare ((dat0 V hH c).before 2 t d)))

def bodyPost0 (hH : Hyps0 V) (c : Dev nD) (t : Fin cfg0.N) : sProp 𝕄 :=
  iprop((dat0 V hH c).Φ t.succ ∗ (dat0 V hH c).owesAt () t.succ
    ∗ owns (c : Thread nD τ) (st0_0 t) fullShare ((dat0 V hH c).after 0 t)
    ∗ owns (c : Thread nD τ) (st0_1 t) fullShare ((dat0 V hH c).after 1 t)
    ∗ owns (c : Thread nD τ) (st0_2 t) fullShare ((dat0 V hH c).after 2 t))

theorem body_run0 (hH : Hyps0 V) (c : Dev nD) (t : Fin cfg0.N) (K : PUnit → sProp 𝕄) :
    iprop(bodyPre0 V hH c t ∗ (bodyPost0 V hH c t -∗ K ⟨⟩))
      ⊢ wp frame (wpE (defs₀ (F := F)) Variants.none c none) Set.univ (bodyAt0 t) K := by
  unfold bodyPre0 bodyPost0 bodyAt0
  simp only [before0_0, before0_1]
  rw [show (dat0 V hH c).Φ t.succ = (dat0 V hH c).Φ t.castSucc from rfl,
    show (dat0 V hH c).owesAt () t.succ = (dat0 V hH c).owesAt () t.castSucc from rfl,
    after0_0, after0_1, after0_2, Φ_eq0]
  unfold Dat.owesAt Pipeline.owesWithin out0
  rw [owed_eq0]
  iintro ⟨⟨⟨HA, Hsrc, Hsem⟩, ⟨%W, %hW, Ho⟩, ⟨%d0, H0⟩, ⟨%d1, H1⟩, ⟨%d2, H2⟩⟩, Hk⟩
  iapply ((gatherRun0 c (grid0.coords t) (st0_0 t) (launch0.stage_whole 0 (cfg0.slots t 0)) (iblk0 V c 0 t) (hH c t)
    (st0_1 t) (launch0.stage_whole 1 (cfg0.slots t 1)) (iblk0 V c 1 t)
    (st0_2 t) (launch0.stage_whole 2 (cfg0.slots t 2)) (V c main_arg0)).2 _)
  isplitl [H0]; · iexact H0
  isplitl [H1]; · iexact H1
  isplitl [H2]; · iexists _; iexact H2
  isplitl [Hsrc]; · iexact Hsrc
  isplitl [Hsem]; · iexact Hsem
  isplitl [Ho]; · iexists W; iexact Ho
  iintro ⟨H0, H1, H2, Hsrc, Hsem, ⟨%W', Ho⟩⟩
  iapply Hk
  isplitl [HA Hsrc Hsem]
  · isplitl [HA]; · iexact HA
    isplitl [Hsrc]; · iexact Hsrc
    iexact Hsem
  isplitl [Ho]
  · iexists W'; isplitr; · ipureintro; exact fun _ _ => Or.inl trivial
    iexact Ho
  isplitl [H0]; · iexact H0
  isplitl [H1]; · iexact H1
  iexact H2

theorem sound_body0 (hH : Hyps0 V) (c : Dev nD) (t : Fin cfg0.N) :
    bodyPre0 V hH c t ⊢ wp frame (wpE (defs₀ (F := F)) Variants.none c none) Set.univ (bodyAt0 t) (fun _ => bodyPost0 V hH c t) := by
  iintro H
  iapply (body_run0 V hH c t _)
  isplitl [H]; · iexact H
  iintro H; iexact H

theorem bodyAt_eq0 (t : Fin cfg0.N) : defs₀ (F := F) .tc cfg0.body (cfg0.bodyArgs t (cfg0.slots t)) = bodyAt0 t := rfl

theorem idle0 (w : Fin cfg0.W) (i : cfg0.grid.Coords) : cfg0.idle w i = false := rfl

set_option maxHeartbeats 400000 in
theorem body_obligation0 (hH : Hyps0 V) (c : Dev nD) : BodyObligation (dat0 (F := F) V hH c) (defs₀ (F := F)) Variants.none () Set.univ := fun t => by
  rw [bigSep_W0, bigSep_W0, bodyAt_eq0]
  simp only [idle0]
  iintro H
  iapply (body_run0 V hH c t _)
  unfold bodyPre0 bodyPost0
  isplitl [H]; · iexact H
  iintro H; iexact H

end Region

end Cert.KernelIdeal.Hand

end
-- ==== Proof.KI.Gather1Run.lean ====
import proofs.«423446_j56083682951492_1_alg».proof.Proof.KI.GatherBase

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev tok1 (c : Dev nD) (k : ℕ) (fsrc : HbBuf (F := F) c hb_src1) : sProp 𝕄 :=
  hb_src1.view.loc (c : Thread nD τ) ↦[Finset.univ]{Transfers.shareTokN fullShare k} fsrc

abbrev drop1 (c : Dev nD) (k : ℕ) (fsrc : HbBuf (F := F) c hb_src1) : sProp 𝕄 :=
  hb_src1.view.loc (c : Thread nD τ) ↦[Finset.univ]{Transfers.shareDrop fullShare k} fsrc

abbrev low1 (c : Dev nD) (fsrc : HbBuf (F := F) c hb_src1) : sProp 𝕄 :=
  BI.bigSep (Finset.range 20) (fun k => hb_src1.view.loc (c : Thread nD τ) ↦[Finset.univ]{Transfers.shareTokN fullShare k} fsrc)

theorem src_toks1 (c : Dev nD) (fsrc : HbBuf (F := F) c hb_src1) :
    hbPt c hb_src1 fsrc ⊣⊢ iprop(((((((((drop1 c 28 fsrc ∗ tok1 c 27 fsrc) ∗ tok1 c 26 fsrc) ∗ tok1 c 25 fsrc) ∗ tok1 c 24 fsrc) ∗ tok1 c 23 fsrc) ∗ tok1 c 22 fsrc) ∗ tok1 c 21 fsrc) ∗ tok1 c 20 fsrc) ∗ low1 c fsrc) := by
  have hs : ∀ k : ℕ, drop1 c k fsrc ⊣⊢ iprop(drop1 c (k + 1) fsrc ∗ tok1 c k fsrc) :=
    fun k => pointsTo_share (PosShare.mem_left_op_right _)
  have h0 : hbPt c hb_src1 fsrc ⊣⊢ iprop(drop1 c 20 fsrc ∗ low1 c fsrc) :=
    Transfers.pointsTo_toks_range fullShare 20
  exact h0.trans (sep_congr_left ((hs 20).trans (sep_congr_left ((hs 21).trans (sep_congr_left ((hs 22).trans (sep_congr_left ((hs 23).trans (sep_congr_left ((hs 24).trans (sep_congr_left ((hs 25).trans (sep_congr_left ((hs 26).trans (sep_congr_left (hs 27))))))))))))))))

set_option maxHeartbeats 400000000 in
noncomputable def gatherRun1 (c : Dev nD) (i : grid1.Coords) (arg1 : Memref sig .tc .smem S256 .i32) (harg1 : arg1.IsWhole) (x0 : Vec F S256 .i32) (hx0 : RowsOK x0)
     (arg2 : Memref sig .tc .vmem S256x1 .f32) (harg2 : arg2.IsWhole) (x1 : Vec F S256x1 .f32) (arg4 : Memref sig .tc .vmem S256x64 .f32) (harg4 : arg4.IsWhole) (fsrc : HbBuf (F := F) c hb_src1) :
     { fo : Vec F S256x64 .f32 // ∀ (K : PUnit → sProp 𝕄),
        iprop(owns (c : Thread nD τ) arg1 fullShare x0 ∗ owns (c : Thread nD τ) arg2 fullShare x1 ∗ (∃ d, owns (c : Thread nD τ) arg4 fullShare d) ∗ hbPt c hb_src1 fsrc ∗ sems1 c ∗ (∃ W, owes (c : Thread nD τ) 0 W)
          ∗ (iprop(owns (c : Thread nD τ) arg1 fullShare x0 ∗ owns (c : Thread nD τ) arg2 fullShare x1 ∗ owns (c : Thread nD τ) arg4 fullShare fo ∗ hbPt c hb_src1 fsrc ∗ sems1 c ∗ (∃ W, owes (c : Thread nD τ) 0 W)) -∗ K ⟨⟩))
        ⊢ wp frame (wpE (defs₀ (F := F)) Variants.none c none) Set.univ (cc1__gather_scale_kernel i arg1 harg1 arg2 harg2 (Memref.whole main_v4) (Memref.isWhole_whole _) arg4 harg4 cc1_scratch0) K } := by
  refine ⟨?_, fun K => ?run⟩
  case run =>
    simp only [cc1__gather_scale_kernel_eq_skeleton]; unfold cc1__gather_scale_kernel_skel
    unfold owns
    iintro ⟨⟨%g1, %hg1, H1⟩, ⟨%g2, %hg2, H2⟩, ⟨%d, %g4, %hg4, H4⟩, Hsrc, ⟨C6, C7, C8, C9, C10, C11, C12, C13⟩, ⟨%W, HO⟩, Hk⟩
    obtain rfl := harg1.eq_unread hg1
    obtain rfl := harg2.eq_unread hg2
    icases (src_toks1 c fsrc).1 $$ Hsrc with ⟨⟨⟨⟨⟨⟨⟨⟨⟨Hd, T13⟩, T12⟩, T11⟩, T10⟩, T9⟩, T8⟩, T7⟩, T6⟩, Hlow⟩
    icases (Entails.of_eq (rows_chain c arg4 g4)) $$ H4 with ⟨R0, R1, R2, R3, R4, R5, R6, R7, R8, R9, R10, R11, R12, R13, R14, R15, R16, R17, R18, R19, R20, R21, R22, R23, R24, R25, R26, R27, R28, R29, R30, R31, R32, R33, R34, R35, R36, R37, R38, R39, R40, R41, R42, R43, R44, R45, R46, R47, R48, R49, R50, R51, R52, R53, R54, R55, R56, R57, R58, R59, R60, R61, R62, R63, R64, R65, R66, R67, R68, R69, R70, R71, R72, R73, R74, R75, R76, R77, R78, R79, R80, R81, R82, R83, R84, R85, R86, R87, R88, R89, R90, R91, R92, R93, R94, R95, R96, R97, R98, R99, R100, R101, R102, R103, R104, R105, R106, R107, R108, R109, R110, R111, R112, R113, R114, R115, R116, R117, R118, R119, R120, R121, R122, R123, R124, R125, R126, R127, R128, R129, R130, R131, R132, R133, R134, R135, R136, R137, R138, R139, R140, R141, R142, R143, R144, R145, R146, R147, R148, R149, R150, R151, R152, R153, R154, R155, R156, R157, R158, R159, R160, R161, R162, R163, R164, R165, R166, R167, R168, R169, R170, R171, R172, R173, R174, R175, R176, R177, R178, R179, R180, R181, R182, R183, R184, R185, R186, R187, R188, R189, R190, R191, R192, R193, R194, R195, R196, R197, R198, R199, R200, R201, R202, R203, R204, R205, R206, R207, R208, R209, R210, R211, R212, R213, R214, R215, R216, R217, R218, R219, R220, R221, R222, R223, R224, R225, R226, R227, R228, R229, R230, R231, R232, R233, R234, R235, R236, R237, R238, R239, R240, R241, R242, R243, R244, R245, R246, R247, R248, R249, R250, R251, R252, R253, R254, R255, -⟩
    sl_exec_parts (disch := first | exact chk_of_rows _ _ _ hx0 _ _)
    ihave H4 := (rows_join_chain c arg4 harg4 g4) $$ [R0 R1 R2 R3 R4 R5 R6 R7 R8 R9 R10 R11 R12 R13 R14 R15 R16 R17 R18 R19 R20 R21 R22 R23 R24 R25 R26 R27 R28 R29 R30 R31 R32 R33 R34 R35 R36 R37 R38 R39 R40 R41 R42 R43 R44 R45 R46 R47 R48 R49 R50 R51 R52 R53 R54 R55 R56 R57 R58 R59 R60 R61 R62 R63 R64 R65 R66 R67 R68 R69 R70 R71 R72 R73 R74 R75 R76 R77 R78 R79 R80 R81 R82 R83 R84 R85 R86 R87 R88 R89 R90 R91 R92 R93 R94 R95 R96 R97 R98 R99 R100 R101 R102 R103 R104 R105 R106 R107 R108 R109 R110 R111 R112 R113 R114 R115 R116 R117 R118 R119 R120 R121 R122 R123 R124 R125 R126 R127 R128 R129 R130 R131 R132 R133 R134 R135 R136 R137 R138 R139 R140 R141 R142 R143 R144 R145 R146 R147 R148 R149 R150 R151 R152 R153 R154 R155 R156 R157 R158 R159 R160 R161 R162 R163 R164 R165 R166 R167 R168 R169 R170 R171 R172 R173 R174 R175 R176 R177 R178 R179 R180 R181 R182 R183 R184 R185 R186 R187 R188 R189 R190 R191 R192 R193 R194 R195 R196 R197 R198 R199 R200 R201 R202 R203 R204 R205 R206 R207 R208 R209 R210 R211 R212 R213 R214 R215 R216 R217 R218 R219 R220 R221 R222 R223 R224 R225 R226 R227 R228 R229 R230 R231 R232 R233 R234 R235 R236 R237 R238 R239 R240 R241 R242 R243 R244 R245 R246 R247 R248 R249 R250 R251 R252 R253 R254 R255]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [R16]; · iexact R16
      isplitl [R17]; · iexact R17
      isplitl [R18]; · iexact R18
      isplitl [R19]; · iexact R19
      isplitl [R20]; · iexact R20
      isplitl [R21]; · iexact R21
      isplitl [R22]; · iexact R22
      isplitl [R23]; · iexact R23
      isplitl [R24]; · iexact R24
      isplitl [R25]; · iexact R25
      isplitl [R26]; · iexact R26
      isplitl [R27]; · iexact R27
      isplitl [R28]; · iexact R28
      isplitl [R29]; · iexact R29
      isplitl [R30]; · iexact R30
      isplitl [R31]; · iexact R31
      isplitl [R32]; · iexact R32
      isplitl [R33]; · iexact R33
      isplitl [R34]; · iexact R34
      isplitl [R35]; · iexact R35
      isplitl [R36]; · iexact R36
      isplitl [R37]; · iexact R37
      isplitl [R38]; · iexact R38
      isplitl [R39]; · iexact R39
      isplitl [R40]; · iexact R40
      isplitl [R41]; · iexact R41
      isplitl [R42]; · iexact R42
      isplitl [R43]; · iexact R43
      isplitl [R44]; · iexact R44
      isplitl [R45]; · iexact R45
      isplitl [R46]; · iexact R46
      isplitl [R47]; · iexact R47
      isplitl [R48]; · iexact R48
      isplitl [R49]; · iexact R49
      isplitl [R50]; · iexact R50
      isplitl [R51]; · iexact R51
      isplitl [R52]; · iexact R52
      isplitl [R53]; · iexact R53
      isplitl [R54]; · iexact R54
      isplitl [R55]; · iexact R55
      isplitl [R56]; · iexact R56
      isplitl [R57]; · iexact R57
      isplitl [R58]; · iexact R58
      isplitl [R59]; · iexact R59
      isplitl [R60]; · iexact R60
      isplitl [R61]; · iexact R61
      isplitl [R62]; · iexact R62
      isplitl [R63]; · iexact R63
      isplitl [R64]; · iexact R64
      isplitl [R65]; · iexact R65
      isplitl [R66]; · iexact R66
      isplitl [R67]; · iexact R67
      isplitl [R68]; · iexact R68
      isplitl [R69]; · iexact R69
      isplitl [R70]; · iexact R70
      isplitl [R71]; · iexact R71
      isplitl [R72]; · iexact R72
      isplitl [R73]; · iexact R73
      isplitl [R74]; · iexact R74
      isplitl [R75]; · iexact R75
      isplitl [R76]; · iexact R76
      isplitl [R77]; · iexact R77
      isplitl [R78]; · iexact R78
      isplitl [R79]; · iexact R79
      isplitl [R80]; · iexact R80
      isplitl [R81]; · iexact R81
      isplitl [R82]; · iexact R82
      isplitl [R83]; · iexact R83
      isplitl [R84]; · iexact R84
      isplitl [R85]; · iexact R85
      isplitl [R86]; · iexact R86
      isplitl [R87]; · iexact R87
      isplitl [R88]; · iexact R88
      isplitl [R89]; · iexact R89
      isplitl [R90]; · iexact R90
      isplitl [R91]; · iexact R91
      isplitl [R92]; · iexact R92
      isplitl [R93]; · iexact R93
      isplitl [R94]; · iexact R94
      isplitl [R95]; · iexact R95
      isplitl [R96]; · iexact R96
      isplitl [R97]; · iexact R97
      isplitl [R98]; · iexact R98
      isplitl [R99]; · iexact R99
      isplitl [R100]; · iexact R100
      isplitl [R101]; · iexact R101
      isplitl [R102]; · iexact R102
      isplitl [R103]; · iexact R103
      isplitl [R104]; · iexact R104
      isplitl [R105]; · iexact R105
      isplitl [R106]; · iexact R106
      isplitl [R107]; · iexact R107
      isplitl [R108]; · iexact R108
      isplitl [R109]; · iexact R109
      isplitl [R110]; · iexact R110
      isplitl [R111]; · iexact R111
      isplitl [R112]; · iexact R112
      isplitl [R113]; · iexact R113
      isplitl [R114]; · iexact R114
      isplitl [R115]; · iexact R115
      isplitl [R116]; · iexact R116
      isplitl [R117]; · iexact R117
      isplitl [R118]; · iexact R118
      isplitl [R119]; · iexact R119
      isplitl [R120]; · iexact R120
      isplitl [R121]; · iexact R121
      isplitl [R122]; · iexact R122
      isplitl [R123]; · iexact R123
      isplitl [R124]; · iexact R124
      isplitl [R125]; · iexact R125
      isplitl [R126]; · iexact R126
      isplitl [R127]; · iexact R127
      isplitl [R128]; · iexact R128
      isplitl [R129]; · iexact R129
      isplitl [R130]; · iexact R130
      isplitl [R131]; · iexact R131
      isplitl [R132]; · iexact R132
      isplitl [R133]; · iexact R133
      isplitl [R134]; · iexact R134
      isplitl [R135]; · iexact R135
      isplitl [R136]; · iexact R136
      isplitl [R137]; · iexact R137
      isplitl [R138]; · iexact R138
      isplitl [R139]; · iexact R139
      isplitl [R140]; · iexact R140
      isplitl [R141]; · iexact R141
      isplitl [R142]; · iexact R142
      isplitl [R143]; · iexact R143
      isplitl [R144]; · iexact R144
      isplitl [R145]; · iexact R145
      isplitl [R146]; · iexact R146
      isplitl [R147]; · iexact R147
      isplitl [R148]; · iexact R148
      isplitl [R149]; · iexact R149
      isplitl [R150]; · iexact R150
      isplitl [R151]; · iexact R151
      isplitl [R152]; · iexact R152
      isplitl [R153]; · iexact R153
      isplitl [R154]; · iexact R154
      isplitl [R155]; · iexact R155
      isplitl [R156]; · iexact R156
      isplitl [R157]; · iexact R157
      isplitl [R158]; · iexact R158
      isplitl [R159]; · iexact R159
      isplitl [R160]; · iexact R160
      isplitl [R161]; · iexact R161
      isplitl [R162]; · iexact R162
      isplitl [R163]; · iexact R163
      isplitl [R164]; · iexact R164
      isplitl [R165]; · iexact R165
      isplitl [R166]; · iexact R166
      isplitl [R167]; · iexact R167
      isplitl [R168]; · iexact R168
      isplitl [R169]; · iexact R169
      isplitl [R170]; · iexact R170
      isplitl [R171]; · iexact R171
      isplitl [R172]; · iexact R172
      isplitl [R173]; · iexact R173
      isplitl [R174]; · iexact R174
      isplitl [R175]; · iexact R175
      isplitl [R176]; · iexact R176
      isplitl [R177]; · iexact R177
      isplitl [R178]; · iexact R178
      isplitl [R179]; · iexact R179
      isplitl [R180]; · iexact R180
      isplitl [R181]; · iexact R181
      isplitl [R182]; · iexact R182
      isplitl [R183]; · iexact R183
      isplitl [R184]; · iexact R184
      isplitl [R185]; · iexact R185
      isplitl [R186]; · iexact R186
      isplitl [R187]; · iexact R187
      isplitl [R188]; · iexact R188
      isplitl [R189]; · iexact R189
      isplitl [R190]; · iexact R190
      isplitl [R191]; · iexact R191
      isplitl [R192]; · iexact R192
      isplitl [R193]; · iexact R193
      isplitl [R194]; · iexact R194
      isplitl [R195]; · iexact R195
      isplitl [R196]; · iexact R196
      isplitl [R197]; · iexact R197
      isplitl [R198]; · iexact R198
      isplitl [R199]; · iexact R199
      isplitl [R200]; · iexact R200
      isplitl [R201]; · iexact R201
      isplitl [R202]; · iexact R202
      isplitl [R203]; · iexact R203
      isplitl [R204]; · iexact R204
      isplitl [R205]; · iexact R205
      isplitl [R206]; · iexact R206
      isplitl [R207]; · iexact R207
      isplitl [R208]; · iexact R208
      isplitl [R209]; · iexact R209
      isplitl [R210]; · iexact R210
      isplitl [R211]; · iexact R211
      isplitl [R212]; · iexact R212
      isplitl [R213]; · iexact R213
      isplitl [R214]; · iexact R214
      isplitl [R215]; · iexact R215
      isplitl [R216]; · iexact R216
      isplitl [R217]; · iexact R217
      isplitl [R218]; · iexact R218
      isplitl [R219]; · iexact R219
      isplitl [R220]; · iexact R220
      isplitl [R221]; · iexact R221
      isplitl [R222]; · iexact R222
      isplitl [R223]; · iexact R223
      isplitl [R224]; · iexact R224
      isplitl [R225]; · iexact R225
      isplitl [R226]; · iexact R226
      isplitl [R227]; · iexact R227
      isplitl [R228]; · iexact R228
      isplitl [R229]; · iexact R229
      isplitl [R230]; · iexact R230
      isplitl [R231]; · iexact R231
      isplitl [R232]; · iexact R232
      isplitl [R233]; · iexact R233
      isplitl [R234]; · iexact R234
      isplitl [R235]; · iexact R235
      isplitl [R236]; · iexact R236
      isplitl [R237]; · iexact R237
      isplitl [R238]; · iexact R238
      isplitl [R239]; · iexact R239
      isplitl [R240]; · iexact R240
      isplitl [R241]; · iexact R241
      isplitl [R242]; · iexact R242
      isplitl [R243]; · iexact R243
      isplitl [R244]; · iexact R244
      isplitl [R245]; · iexact R245
      isplitl [R246]; · iexact R246
      isplitl [R247]; · iexact R247
      isplitl [R248]; · iexact R248
      isplitl [R249]; · iexact R249
      isplitl [R250]; · iexact R250
      isplitl [R251]; · iexact R251
      isplitl [R252]; · iexact R252
      isplitl [R253]; · iexact R253
      isplitl [R254]; · iexact R254
      isplitl [R255]; · iexact R255
      iempintro
    sl_exec_parts (disch := first | exact chk_of_rows _ _ _ hx0 _ _)
    sl_step
    iapply Hk
    isplitl [H1]
    · iexists _; isplitr; · ipureintro; exact harg1.read_unread _
      iexact H1
    isplitl [H2]
    · iexists _; isplitr; · ipureintro; exact harg2.read_unread _
      iexact H2
    isplitl [H4]
    · iexists _; isplitr; · ipureintro; rfl
      iexact H4
    isplitl [Hd T13 T12 T11 T10 T9 T8 T7 T6 Hlow]
    · iapply (src_toks1 c fsrc).2
      isplitr [Hlow]
      · isplitr [T6]
        · isplitr [T7]
          · isplitr [T8]
            · isplitr [T9]
              · isplitr [T10]
                · isplitr [T11]
                  · isplitr [T12]
                    · isplitr [T13]
                      · iexact Hd
                      · iexact T13
                    · iexact T12
                  · iexact T11
                · iexact T10
              · iexact T9
            · iexact T8
          · iexact T7
        · iexact T6
      · iexact Hlow
    isplitl [C6 C7 C8 C9 C10 C11 C12 C13]
    · isplitl [C6]; · iexact C6
      isplitl [C7]; · iexact C7
      isplitl [C8]; · iexact C8
      isplitl [C9]; · iexact C9
      isplitl [C10]; · iexact C10
      isplitl [C11]; · iexact C11
      isplitl [C12]; · iexact C12
      iexact C13
    iexists _; iexact HO

end Cert.KernelIdeal.Hand

end
-- ==== Proof.KI.Gather1Dat.lean ====
import proofs.«423446_j56083682951492_1_alg».proof.Proof.KI.Gather1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

def Hyps1 : Prop := ∀ (c : Dev nD) (t : Fin cfg1.N), RowsOK (F := F) (iblk1 V c 0 t)

noncomputable def out1 (hH : Hyps1 V) (c : Dev nD) (t : Fin cfg1.N) : Vec F S256x64 .f32 :=
  (gatherRun1 c (grid1.coords t) (st1_0 t) (launch1.stage_whole 0 (cfg1.slots t 0)) (iblk1 V c 0 t) (hH c t)
    (st1_1 t) (launch1.stage_whole 1 (cfg1.slots t 1)) (iblk1 V c 1 t)
    (st1_2 t) (launch1.stage_whole 2 (cfg1.slots t 2)) (V c main_v4)).1

def dat1 (hH : Hyps1 V) (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1 V hH c t
  Φ _ := iprop(Pipeline.ΦA spec1 c ∗ hbPt c hb_src1 (V c main_v4) ∗ sems1 c)
  q _ := fullShare
  owed _ := 0

theorem A_eq1 (hH : Hyps1 V) (c : Dev nD) (w : Fin cfg1.W) : (dat1 V hH c).A w = V c (Pipeline.arrRef spec1 w) := by
  dsimp only [dat1]

theorem after1_0 (hH : Hyps1 V) (c : Dev nD) (t : Fin cfg1.N) : (dat1 V hH c).after 0 t = iblk1 V c 0 t := by dsimp only [dat1]
theorem after1_1 (hH : Hyps1 V) (c : Dev nD) (t : Fin cfg1.N) : (dat1 V hH c).after 1 t = iblk1 V c 1 t := by dsimp only [dat1]
theorem after1_2 (hH : Hyps1 V) (c : Dev nD) (t : Fin cfg1.N) : (dat1 V hH c).after 2 t = out1 V hH c t := by dsimp only [dat1]

theorem Φ_eq1 (hH : Hyps1 V) (c : Dev nD) (t : Fin (cfg1.N + 1)) :
    (dat1 V hH c).Φ t = iprop(Pipeline.ΦA spec1 c ∗ hbPt c hb_src1 (V c main_v4) ∗ sems1 c) := rfl

theorem q_eq1 (hH : Hyps1 V) (c : Dev nD) (w : Fin cfg1.W) : (dat1 V hH c).q w = fullShare := rfl
theorem owed_eq1 (hH : Hyps1 V) (c : Dev nD) (t : Fin (cfg1.N + 1)) : (dat1 V hH c).owed t = 0 := rfl
theorem recorded_eq1 (hH : Hyps1 V) (c : Dev nD) (t : Fin (cfg1.N + 1)) : (dat1 V hH c).recorded t = Set.univ := rfl

theorem before1_0 (hH : Hyps1 V) (c : Dev nD) (t : Fin cfg1.N) (d) : (dat1 V hH c).before 0 t d = iblk1 V c 0 t :=
  before1_0_of V (dat1 V hH c) (A_eq1 V hH c 0) (after1_0 V hH c) t d
theorem before1_1 (hH : Hyps1 V) (c : Dev nD) (t : Fin cfg1.N) (d) : (dat1 V hH c).before 1 t d = iblk1 V c 1 t :=
  before1_1_of V (dat1 V hH c) (A_eq1 V hH c 1) (after1_1 V hH c) t d

def bodyPre1 (hH : Hyps1 V) (c : Dev nD) (t : Fin cfg1.N) : sProp 𝕄 :=
  iprop((dat1 V hH c).Φ t.castSucc ∗ (dat1 V hH c).owesAt () t.castSucc
    ∗ (∃ d, owns (c : Thread nD τ) (st1_0 t) fullShare ((dat1 V hH c).before 0 t d))
    ∗ (∃ d, owns (c : Thread nD τ) (st1_1 t) fullShare ((dat1 V hH c).before 1 t d))
    ∗ (∃ d, owns (c : Thread nD τ) (st1_2 t) fullShare ((dat1 V hH c).before 2 t d)))

def bodyPost1 (hH : Hyps1 V) (c : Dev nD) (t : Fin cfg1.N) : sProp 𝕄 :=
  iprop((dat1 V hH c).Φ t.succ ∗ (dat1 V hH c).owesAt () t.succ
    ∗ owns (c : Thread nD τ) (st1_0 t) fullShare ((dat1 V hH c).after 0 t)
    ∗ owns (c : Thread nD τ) (st1_1 t) fullShare ((dat1 V hH c).after 1 t)
    ∗ owns (c : Thread nD τ) (st1_2 t) fullShare ((dat1 V hH c).after 2 t))

theorem body_run1 (hH : Hyps1 V) (c : Dev nD) (t : Fin cfg1.N) (K : PUnit → sProp 𝕄) :
    iprop(bodyPre1 V hH c t ∗ (bodyPost1 V hH c t -∗ K ⟨⟩))
      ⊢ wp frame (wpE (defs₀ (F := F)) Variants.none c none) Set.univ (bodyAt1 t) K := by
  unfold bodyPre1 bodyPost1 bodyAt1
  simp only [before1_0, before1_1]
  rw [show (dat1 V hH c).Φ t.succ = (dat1 V hH c).Φ t.castSucc from rfl,
    show (dat1 V hH c).owesAt () t.succ = (dat1 V hH c).owesAt () t.castSucc from rfl,
    after1_0, after1_1, after1_2, Φ_eq1]
  unfold Dat.owesAt Pipeline.owesWithin out1
  rw [owed_eq1]
  iintro ⟨⟨⟨HA, Hsrc, Hsem⟩, ⟨%W, %hW, Ho⟩, ⟨%d0, H0⟩, ⟨%d1, H1⟩, ⟨%d2, H2⟩⟩, Hk⟩
  iapply ((gatherRun1 c (grid1.coords t) (st1_0 t) (launch1.stage_whole 0 (cfg1.slots t 0)) (iblk1 V c 0 t) (hH c t)
    (st1_1 t) (launch1.stage_whole 1 (cfg1.slots t 1)) (iblk1 V c 1 t)
    (st1_2 t) (launch1.stage_whole 2 (cfg1.slots t 2)) (V c main_v4)).2 _)
  isplitl [H0]; · iexact H0
  isplitl [H1]; · iexact H1
  isplitl [H2]; · iexists _; iexact H2
  isplitl [Hsrc]; · iexact Hsrc
  isplitl [Hsem]; · iexact Hsem
  isplitl [Ho]; · iexists W; iexact Ho
  iintro ⟨H0, H1, H2, Hsrc, Hsem, ⟨%W', Ho⟩⟩
  iapply Hk
  isplitl [HA Hsrc Hsem]
  · isplitl [HA]; · iexact HA
    isplitl [Hsrc]; · iexact Hsrc
    iexact Hsem
  isplitl [Ho]
  · iexists W'; isplitr; · ipureintro; exact fun _ _ => Or.inl trivial
    iexact Ho
  isplitl [H0]; · iexact H0
  isplitl [H1]; · iexact H1
  iexact H2

theorem sound_body1 (hH : Hyps1 V) (c : Dev nD) (t : Fin cfg1.N) :
    bodyPre1 V hH c t ⊢ wp frame (wpE (defs₀ (F := F)) Variants.none c none) Set.univ (bodyAt1 t) (fun _ => bodyPost1 V hH c t) := by
  iintro H
  iapply (body_run1 V hH c t _)
  isplitl [H]; · iexact H
  iintro H; iexact H

theorem bodyAt_eq1 (t : Fin cfg1.N) : defs₀ (F := F) .tc cfg1.body (cfg1.bodyArgs t (cfg1.slots t)) = bodyAt1 t := rfl

theorem idle1 (w : Fin cfg1.W) (i : cfg1.grid.Coords) : cfg1.idle w i = false := rfl

set_option maxHeartbeats 400000 in
theorem body_obligation1 (hH : Hyps1 V) (c : Dev nD) : BodyObligation (dat1 (F := F) V hH c) (defs₀ (F := F)) Variants.none () Set.univ := fun t => by
  rw [bigSep_W1, bigSep_W1, bodyAt_eq1]
  simp only [idle1]
  iintro H
  iapply (body_run1 V hH c t _)
  unfold bodyPre1 bodyPost1
  isplitl [H]; · iexact H
  iintro H; iexact H

end Region

end Cert.KernelIdeal.Hand

end
-- ==== Proof.KI.Finalize.lean ====
import proofs.«423446_j56083682951492_1_alg».proof.Proof.Gen.KernelIdeal.Launch
import proofs.«423446_j56083682951492_1_alg».proof.Proof.Gen.KernelIdeal.Skeleton
import proofs.«423446_j56083682951492_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem off2_zero : (![0, 0] : Fin 2 → Nat) = fun _ => 0 := funext fun a => by fin_cases a <;> rfl

def out2_3 (x0 : Vec F S5000x64 .f32) (x1 : Vec F S5000x64 .f32) (x2 : Vec F S1x1 .f32) : Vec F S5000x64 .f32 :=
  k2_pay1 x2 x0 x1

theorem out2_3_eq (x0 : Vec F S5000x64 .f32) (x1 : Vec F S5000x64 .f32) (x2 : Vec F S1x1 .f32) :
    out2_3 x0 x1 x2 = k2_pay1 x2 x0 x1 := rfl

set_option maxHeartbeats 1000000 in
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S1x1 .f32) (harg3 : arg3.IsWhole) (arg4 : Memref sig .tc .vmem S5000x64 .f32) (harg4 : arg4.IsWhole)
    (x0 : Vec F S5000x64 .f32) (x1 : Vec F S5000x64 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__finalize_kernel i arg1 harg1 arg2 harg2 arg3 harg3 arg4 harg4) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero off2_zero inb_S5000x64_S5000x64_0_0 y⟩),
    View.canon_unit_zero off2_zero]
  show k2_pay1 (View.ld (View.read (Elt F) arg3.view f2) (Rect.unit ![0, 0] S1x1.size inb_S1x1_S1x1_0_0))
      (View.ld (View.read (Elt F) arg1.view f0) (Rect.unit ![0, 0] S5000x64.size inb_S5000x64_S5000x64_0_0))
      (View.ld (View.read (Elt F) arg2.view f1) (Rect.unit ![0, 0] S5000x64.size inb_S5000x64_S5000x64_0_0)) = _
  rw [View.ld_unit_zero off2_zero, View.ld_unit_zero off2_zero, View.ld_unit_zero off2_zero]
  rfl

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

theorem q_eq2 (c : Dev nD) (w : Fin cfg2.W) : (dat2 V c).q w = fullShare := by dsimp only [dat2]
theorem owed_eq2 (c : Dev nD) (t : Fin (cfg2.N + 1)) : (dat2 V c).owed t = 0 := by dsimp only [dat2]
theorem recorded_eq2 (c : Dev nD) (t : Fin (cfg2.N + 1)) : (dat2 V c).recorded t = Set.univ := by dsimp only [dat2]
theorem Φ_eq2 (c : Dev nD) (t : Fin (cfg2.N + 1)) : (dat2 V c).Φ t = Pipeline.ΦA spec2 c := by dsimp only [dat2]
theorem Φin2 (c : Dev nD) : (Pipeline.ΦA spec2 c : sProp 𝕄) ⊢ (dat2 V c).Φ 0 := by rw [Φ_eq2]
theorem Φout2 (c : Dev nD) : (dat2 V c).Φ (Fin.last cfg2.N) ⊢ (Pipeline.ΦA spec2 c : sProp 𝕄) := by rw [Φ_eq2]

end Region2

end Cert.KernelIdeal.Hand

end
-- ==== Proof.KI.Regs.lean ====
import proofs.«423446_j56083682951492_1_alg».proof.Proof.KI.Common
import proofs.«423446_j56083682951492_1_alg».proof.Proof.KI.Gather0Dat
import proofs.«423446_j56083682951492_1_alg».proof.Proof.KI.Gather1Dat
import proofs.«423446_j56083682951492_1_alg».proof.Proof.KI.Finalize
import proofs.«423446_j56083682951492_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

abbrev Conts : Type := (c : Dev nD) → (b : Ref sig .tc) → Buf (Elt F) ((c : Thread nD τ).loc b)

def E0 : Conts (F := F) := fun c b => Gen.V1 m c (Proc.devRef .tc b)

def arr0 (h0 : Hyps0 (E0 m)) (c : Dev nD) : Buf (Elt F) ((c : Thread nD τ).loc main_v1) := (dat0 (E0 m) h0 c).arrAt 2 cfg0.N

def U2 (h0 : Hyps0 (E0 m)) (c : Dev nD) : Valuation τ sig (Elt F) := Function.update (Gen.V1 m c) main_v1 (arr0 m h0 c)

def U3 (h0 : Hyps0 (E0 m)) (c : Dev nD) : Valuation τ sig (Elt F) := StableHlo.after hostOps1 (U2 m h0 c)

def E1 (h0 : Hyps0 (E0 m)) : Conts (F := F) := fun c b => U3 m h0 c (Proc.devRef .tc b)

structure HypsAll : Prop where
  h0 : Hyps0 (E0 m)
  h1 : Hyps1 (E1 m h0)

def arr1 (hH : HypsAll m) (c : Dev nD) : Buf (Elt F) ((c : Thread nD τ).loc main_v5) := (dat1 (E1 m hH.h0) hH.h1 c).arrAt 2 cfg1.N

def U4 (hH : HypsAll m) (c : Dev nD) : Valuation τ sig (Elt F) :=
  Function.update (Function.update (U3 m hH.h0 c) main_v5 (arr1 m hH c)) main_v4 (U3 m hH.h0 c main_v4)

def U7 (hH : HypsAll m) (c : Dev nD) : Valuation τ sig (Elt F) :=
  StableHlo.after hostOps2_2 (StableHlo.after hostOps2_1 (StableHlo.after hostOps2 (U4 m hH c)))

def E2 (hH : HypsAll m) : Conts (F := F) := fun c b => U7 m hH c (Proc.devRef .tc b)

def arr2 (hH : HypsAll m) (c : Dev nD) : Buf (Elt F) ((c : Thread nD τ).loc main_v15) := (dat2 (E2 m hH) c).arrAt 3 cfg2.N

def outs (hH : HypsAll m) : Gen.Outs (F := F) := fun J r c =>
  match J with
  | 2 => U2 m hH.h0 c (Proc.devRef .tc r)
  | 4 => U4 m hH c (Proc.devRef .tc r)
  | 8 => Function.update (U7 m hH c) main_v15 (arr2 m hH c) (Proc.devRef .tc r)
  | _ => Gen.V1 m c (Proc.devRef .tc r)

theorem outs_2_main_v1 (hH : HypsAll m) (c : Dev nD) : outs m hH 2 main_v1 c = (dat0 (E0 m) hH.h0 c).arrAt 2 cfg0.N := by
  show Function.update (Gen.V1 m c) main_v1 (arr0 m hH.h0 c) main_v1 = _
  rw [Function.update_self]; rfl
theorem outs_4_main_v5 (hH : HypsAll m) (c : Dev nD) : outs m hH 4 main_v5 c = (dat1 (E1 m hH.h0) hH.h1 c).arrAt 2 cfg1.N := by
  show Function.update (Function.update (U3 m hH.h0 c) main_v5 (arr1 m hH c)) main_v4 (U3 m hH.h0 c main_v4) main_v5 = _
  rw [Function.update_of_ne (StableHlo.devRef_ne_of_ne (by decide)), Function.update_self]; rfl
theorem outs_4_main_v4 (hH : HypsAll m) (c : Dev nD) : outs m hH 4 main_v4 c = E1 m hH.h0 c main_v4 := by
  show Function.update (Function.update (U3 m hH.h0 c) main_v5 (arr1 m hH c)) main_v4 (U3 m hH.h0 c main_v4) main_v4 = _
  rw [Function.update_self]; rfl
theorem outs_8_main_v15 (hH : HypsAll m) (c : Dev nD) : outs m hH 8 main_v15 c = (dat2 (E2 m hH) c).arrAt 3 cfg2.N := by
  show Function.update (U7 m hH c) main_v15 (arr2 m hH c) main_v15 = _
  rw [Function.update_self]; rfl

theorem V2_outs (hH : HypsAll m) (c : Dev nD) : Gen.V2 m (outs m hH) c = U2 m hH.h0 c := by
  show Function.update (Gen.V1 m c) main_v1 (outs m hH 2 main_v1 c) = _
  rw [outs_2_main_v1]; rfl
theorem V3_outs (hH : HypsAll m) (c : Dev nD) : Gen.V3 m (outs m hH) c = U3 m hH.h0 c := by
  show StableHlo.after hostOps1 (Gen.V2 m (outs m hH) c) = _
  rw [V2_outs]; rfl
theorem V4_outs (hH : HypsAll m) (c : Dev nD) : Gen.V4 m (outs m hH) c = U4 m hH c := by
  show Function.update (Function.update (Gen.V3 m (outs m hH) c) main_v5 (outs m hH 4 main_v5 c)) main_v4 (outs m hH 4 main_v4 c) = _
  rw [V3_outs, outs_4_main_v5, outs_4_main_v4]; rfl
theorem V7_outs (hH : HypsAll m) (c : Dev nD) : Gen.V7 m (outs m hH) c = U7 m hH c := by
  show StableHlo.after hostOps2_2 (StableHlo.after hostOps2_1 (StableHlo.after hostOps2 (Gen.V4 m (outs m hH) c))) = _
  rw [V4_outs]; rfl
theorem V8_outs (hH : HypsAll m) (c : Dev nD) : Gen.V8 m (outs m hH) c = Function.update (U7 m hH c) main_v15 (arr2 m hH c) := by
  show Function.update (Gen.V7 m (outs m hH) c) main_v15 (outs m hH 8 main_v15 c) = _
  rw [V7_outs, outs_8_main_v15]; rfl
theorem E1_eq (hH : HypsAll m) (c : Dev nD) (b : Ref sig .tc) : E1 m hH.h0 c b = Gen.V3 m (outs m hH) c (Proc.devRef .tc b) := by
  rw [V3_outs]; rfl
theorem E2_eq (hH : HypsAll m) (c : Dev nD) (b : Ref sig .tc) : E2 m hH c b = Gen.V7 m (outs m hH) c (Proc.devRef .tc b) := by
  rw [V7_outs]; rfl

theorem E0_main_arg4 (c : Dev nD) : E0 m c main_arg4 = m ((c : Thread nD τ).loc main_arg4) :=
  Gen.V1_of m c main_arg4 (by decide)
theorem E1_main_arg4 (h0 : Hyps0 (E0 m)) (c : Dev nD) : E1 m h0 c main_arg4 = m ((c : Thread nD τ).loc main_arg4) := by
  show StableHlo.after hostOps1 (U2 m h0 c) main_arg4 = _
  rw [StableHlo.after_of_writes_sub hostOps1 _ hostOps1_writes (by decide : main_arg4 ∉ hostOps1_W)]
  show Function.update (Gen.V1 m c) main_v1 (arr0 m h0 c) main_arg4 = _
  rw [Function.update_of_ne (StableHlo.devRef_ne_of_ne (by decide))]
  exact Gen.V1_of m c main_arg4 (by decide)

local notation "𝒱₀" => Variants.none
local notation "𝐋" => (fun _ => ∅ : GSem nD τ sig → Finset Unit)
local notation "𝐥𝐯" => (fun _ _ => 0 : GSem nD τ sig → Unit → ℕ)

def pdats (hH : HypsAll m) : (p : Fin 3) → (c : Dev nD) → Dat τ (Elt F) Unit ℕ (Pipeline.UD sig nD τ) ℕ (Pipeline.pin (pcfgs (F := F)) adm p) c
  | ⟨0, _⟩ => fun c => dat0 (E0 m) hH.h0 c
  | ⟨1, _⟩ => fun c => dat1 (E1 m hH.h0) hH.h1 c
  | ⟨2, _⟩ => fun c => dat2 (E2 m hH) c

theorem pinEq0 : (Pipeline.pin (pcfgs (F := F)) adm 0) = cfg0 := Pipeline.Cfg.toPCfg_at (cfgs 0) (adm 0)

def osem0 : Fin 8 → SemLoc sig := fun k => SemLoc.dma (dcell (6 + k.val) (by omega))

theorem ownFacts0 : Pipeline.OwnSemFacts spec0 osem0 := by decide

theorem ownSems_eq0 (c : Dev nD) :
    (Pipeline.ownSems0 (Ix := Unit) (Name := ℕ) (U := Pipeline.UD sig nD τ) (Lvl := ℕ) (Val := Elt F) osem0 c : sProp 𝕄) = sems0 c := by
  unfold Pipeline.ownSems0
  rw [bigSep_univ_eq_bigSepL [(0 : Fin 8), 1, 2, 3, 4, 5, 6, 7] (by decide) (by decide)]; rfl

abbrev rest0 : Finset (Ref sig .tc) := (Finset.univ.filter fun b : Ref sig .tc => ¬ b.isScoped) \ Finset.univ.image (Pipeline.arrRef spec0)
theorem src_mem_rest0 : main_arg0 ∈ rest0 := by decide

abbrev bypass0 (c : Dev nD) (V : (b : Ref sig .tc) → Buf (Elt F) ((c : Thread nD τ).loc b)) : sProp 𝕄 :=
  bigSep (rest0.erase main_arg0) fun b => ((c : Thread nD τ).loc b) ↦{fullShare} V b

theorem urest_split0 (c : Dev nD) (V : (b : Ref sig .tc) → Buf (Elt F) ((c : Thread nD τ).loc b)) :
    (Pipeline.unscopedRest (Ix := Unit) (Name := ℕ) (U := Pipeline.UD sig nD τ) (Lvl := ℕ) (Pipeline.pin (pcfgs (F := F)) adm 0).spec c V : sProp 𝕄)
      = iprop(hbPt c hb_src0 (V main_arg0) ∗ bypass0 c V) := by
  rw [pinEq0]
  show bigSep rest0 _ = _
  rw [bigSep_erase src_mem_rest0]; rfl

theorem hF0 (hH : HypsAll m) (c : Dev nD) (w : Fin cfg0.W) :
    (pdats m hH 0 c).arrAt w cfg0.N = U2 m hH.h0 c (Pipeline.arrRef spec0 w) := by
  fin_cases w
  · refine ((pdats m hH 0 c).arrAt_in _ rfl _).trans ?_
    show _ = Function.update (Gen.V1 m c) main_v1 (arr0 m hH.h0 c) main_arg4
    rw [Function.update_of_ne (StableHlo.devRef_ne_of_ne (by decide))]; rfl
  · refine ((pdats m hH 0 c).arrAt_in _ rfl _).trans ?_
    show _ = Function.update (Gen.V1 m c) main_v1 (arr0 m hH.h0 c) main_v0
    rw [Function.update_of_ne (StableHlo.devRef_ne_of_ne (by decide))]; rfl
  · show _ = Function.update (Gen.V1 m c) main_v1 (arr0 m hH.h0 c) main_v1
    rw [Function.update_self]; rfl
theorem hrest0 (hH : HypsAll m) (c : Dev nD) (b : Ref sig .tc) (hb : b ∉ Finset.univ.image (Pipeline.arrRef spec0)) :
    U2 m hH.h0 c b = Gen.V1 m c b := by
  have h1 : b ≠ main_v1 := fun e => hb (Finset.mem_image.mpr ⟨2, Finset.mem_univ _, e.symm⟩)
  show Function.update (Gen.V1 m c) main_v1 (arr0 m hH.h0 c) b = _
  rw [Function.update_of_ne (StableHlo.devRef_ne_of_ne h1)]

set_option backward.isDefEq.respectTransparency.types false in
def reg0 (hH : HypsAll m) : Pipeline.RegionSeg (pcfgs (F := F)) adm (pdats m hH) () defs₀ 𝒱₀ 𝐋 𝐥𝐯 0 where
  win := launch0.win.to₀
  block_pos := launch0.block_pos
  stage_whole := launch0.stage_whole
  K := Fin 8
  osem := osem0
  ho := ownFacts0
  hbody c := (body_obligation0 (E0 m) hH.h0 c).loose
  hwaits := Pipeline.hwaits_of_owed_zero _ _ _ _ 𝐋 𝐥𝐯 0 fun _ _ => rfl
  pre c := iprop(StableHlo.held (c : Thread nD τ) (Pipeline.ucRefs τ sig) (Gen.V1 m c) ∗ Rr c)
  post c := iprop(StableHlo.held (c : Thread nD τ) (Pipeline.ucRefs τ sig) (Gen.V2 m (outs m hH) c) ∗ Rr c)
  X c := iprop((∃ r, prngReg c r) ∗ hbPt c hb_src0 (E0 m c main_arg0) ∗ sems0 c)
  Y c := iprop((∃ r, prngReg c r) ∗ hbPt c hb_src0 (E0 m c main_arg0))
  Z c := bypass0 c (E0 m c)
  hentry c := by
    have hsplit := Pipeline.arrays_of_unscopedBufs (p := 0) (pcfgs (F := F)) adm (pdats m hH) launch0.win launch0.arr_whole c
      ((pdats m hH 0 c).share_full fun _ => rfl) (fun b => Gen.V1 m c b) fun _ => rfl
    rw [Pipeline.unscopedBufs_held, urest_split0] at hsplit
    rw [ownSems_eq0]
    iintro ⟨⟨Hub, Hp, HO⟩, Hs, -⟩
    ihave H := hsplit $$ Hub
    icases H with ⟨Ha, Hsrc, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hsrc Hs]
    · isplitl [Hp]; · iexact Hp
      isplitl [Hsrc]; · iexact Hsrc
      iexact Hs
    iexact Hz
  hin c := by
    rw [show (pdats m hH 0 c).Φ 0 = iprop(Pipeline.ΦA spec0 c ∗ hbPt c hb_src0 (E0 m c main_arg0) ∗ sems0 c) from rfl]; unfold Pipeline.ΦA
    iintro ⟨⟨Hp, HX⟩, -, Hr⟩
    isplitl [Hr Hp]
    · isplitl [Hr]; · iexact Hr
      iexact Hp
    iexact HX
  hout c := by
    rw [ownSems_eq0, show (pdats m hH 0 c).Φ (Fin.last _) = iprop(Pipeline.ΦA spec0 c ∗ hbPt c hb_src0 (E0 m c main_arg0) ∗ sems0 c) from rfl]; unfold Pipeline.ΦA
    iintro ⟨⟨Hr, Hp⟩, Hsrc, Hs⟩
    isplitl [Hp Hsrc]
    · isplitl [Hp]; · iexact Hp
      iexact Hsrc
    isplitl [Hs]; · iexact Hs
    iexact Hr
  hexit c := by
    rw [V2_outs m hH c]
    have hjoin := Pipeline.unscopedBufs_of_arrays (p := 0) (pcfgs (F := F)) adm (Ix := Unit) (Name := ℕ) (U := Pipeline.UD sig nD τ) (Lvl := ℕ)
      launch0.win launch0.arr_whole c (pdats m hH) ((pdats m hH 0 c).share_full fun _ => rfl)
      (fun b => Gen.V1 m c b) (fun b => U2 m hH.h0 c b) ((pdats m hH 0 c).arrAt · cfg0.N) (hF0 m hH c) (hrest0 m hH c)
    rw [Pipeline.unscopedBufs_held, urest_split0] at hjoin
    iintro ⟨Ha, HO, ⟨Hp, Hsrc⟩, Hz⟩
    imodintro
    isplitl [Ha Hsrc Hz]
    · iapply hjoin
      isplitl [Ha]; · iexact Ha
      isplitl [Hsrc]; · iexact Hsrc
      iexact Hz
    isplitl [Hp]; · iexact Hp
    unfold Pipeline.Dat.owesAt Pipeline.owesWithin
    icases HO with ⟨%W, -, HO⟩; iexists W; iexact HO

theorem reg0_pre (hH : HypsAll m) (c : Dev nD) :
    (reg0 m hH).pre c = iprop(StableHlo.held (c : Thread nD τ) (Pipeline.ucRefs τ sig) (Gen.V1 m c) ∗ Rr c) := rfl
theorem reg0_post (hH : HypsAll m) (c : Dev nD) :
    (reg0 m hH).post c = iprop(StableHlo.held (c : Thread nD τ) (Pipeline.ucRefs τ sig) (Gen.V2 m (outs m hH) c) ∗ Rr c) := rfl

theorem pinEq1 : (Pipeline.pin (pcfgs (F := F)) adm 1) = cfg1 := Pipeline.Cfg.toPCfg_at (cfgs 1) (adm 1)

def osem1 : Fin 8 → SemLoc sig := fun k => SemLoc.dma (dcell (20 + k.val) (by omega))

theorem ownFacts1 : Pipeline.OwnSemFacts spec1 osem1 := by decide

theorem ownSems_eq1 (c : Dev nD) :
    (Pipeline.ownSems0 (Ix := Unit) (Name := ℕ) (U := Pipeline.UD sig nD τ) (Lvl := ℕ) (Val := Elt F) osem1 c : sProp 𝕄) = sems1 c := by
  unfold Pipeline.ownSems0
  rw [bigSep_univ_eq_bigSepL [(0 : Fin 8), 1, 2, 3, 4, 5, 6, 7] (by decide) (by decide)]; rfl

abbrev rest1 : Finset (Ref sig .tc) := (Finset.univ.filter fun b : Ref sig .tc => ¬ b.isScoped) \ Finset.univ.image (Pipeline.arrRef spec1)
theorem src_mem_rest1 : main_v4 ∈ rest1 := by decide

abbrev bypass1 (c : Dev nD) (V : (b : Ref sig .tc) → Buf (Elt F) ((c : Thread nD τ).loc b)) : sProp 𝕄 :=
  bigSep (rest1.erase main_v4) fun b => ((c : Thread nD τ).loc b) ↦{fullShare} V b

theorem urest_split1 (c : Dev nD) (V : (b : Ref sig .tc) → Buf (Elt F) ((c : Thread nD τ).loc b)) :
    (Pipeline.unscopedRest (Ix := Unit) (Name := ℕ) (U := Pipeline.UD sig nD τ) (Lvl := ℕ) (Pipeline.pin (pcfgs (F := F)) adm 1).spec c V : sProp 𝕄)
      = iprop(hbPt c hb_src1 (V main_v4) ∗ bypass1 c V) := by
  rw [pinEq1]
  show bigSep rest1 _ = _
  rw [bigSep_erase src_mem_rest1]; rfl

theorem hF1 (hH : HypsAll m) (c : Dev nD) (w : Fin cfg1.W) :
    (pdats m hH 1 c).arrAt w cfg1.N = U4 m hH c (Pipeline.arrRef spec1 w) := by
  fin_cases w
  · refine ((pdats m hH 1 c).arrAt_in _ rfl _).trans ?_
    show _ = Function.update (Function.update (U3 m hH.h0 c) main_v5 (arr1 m hH c)) main_v4 (U3 m hH.h0 c main_v4) main_arg4
    rw [Function.update_of_ne (StableHlo.devRef_ne_of_ne (by decide)), Function.update_of_ne (StableHlo.devRef_ne_of_ne (by decide))]; rfl
  · refine ((pdats m hH 1 c).arrAt_in _ rfl _).trans ?_
    show _ = Function.update (Function.update (U3 m hH.h0 c) main_v5 (arr1 m hH c)) main_v4 (U3 m hH.h0 c main_v4) main_v0
    rw [Function.update_of_ne (StableHlo.devRef_ne_of_ne (by decide)), Function.update_of_ne (StableHlo.devRef_ne_of_ne (by decide))]; rfl
  · show _ = Function.update (Function.update (U3 m hH.h0 c) main_v5 (arr1 m hH c)) main_v4 (U3 m hH.h0 c main_v4) main_v5
    rw [Function.update_of_ne (StableHlo.devRef_ne_of_ne (by decide)), Function.update_self]; rfl
theorem hrest1 (hH : HypsAll m) (c : Dev nD) (b : Ref sig .tc) (hb : b ∉ Finset.univ.image (Pipeline.arrRef spec1)) :
    U4 m hH c b = U3 m hH.h0 c b := by
  have h5 : b ≠ main_v5 := fun e => hb (Finset.mem_image.mpr ⟨2, Finset.mem_univ _, e.symm⟩)
  show Function.update (Function.update (U3 m hH.h0 c) main_v5 (arr1 m hH c)) main_v4 (U3 m hH.h0 c main_v4) b = _
  by_cases h4 : b = main_v4
  · subst h4; rw [Function.update_self]
  · rw [Function.update_of_ne (StableHlo.devRef_ne_of_ne h4), Function.update_of_ne (StableHlo.devRef_ne_of_ne h5)]

set_option backward.isDefEq.respectTransparency.types false in
def reg1 (hH : HypsAll m) : Pipeline.RegionSeg (pcfgs (F := F)) adm (pdats m hH) () defs₀ 𝒱₀ 𝐋 𝐥𝐯 1 where
  win := launch1.win.to₀
  block_pos := launch1.block_pos
  stage_whole := launch1.stage_whole
  K := Fin 8
  osem := osem1
  ho := ownFacts1
  hbody c := (body_obligation1 (E1 m hH.h0) hH.h1 c).loose
  hwaits := Pipeline.hwaits_of_owed_zero _ _ _ _ 𝐋 𝐥𝐯 1 fun _ _ => rfl
  pre c := iprop(StableHlo.held (c : Thread nD τ) (Pipeline.ucRefs τ sig) (Gen.V3 m (outs m hH) c) ∗ Rr c)
  post c := iprop(StableHlo.held (c : Thread nD τ) (Pipeline.ucRefs τ sig) (Gen.V4 m (outs m hH) c) ∗ Rr c)
  X c := iprop((∃ r, prngReg c r) ∗ hbPt c hb_src1 (E1 m hH.h0 c main_v4) ∗ sems1 c)
  Y c := iprop((∃ r, prngReg c r) ∗ hbPt c hb_src1 (E1 m hH.h0 c main_v4))
  Z c := bypass1 c (E1 m hH.h0 c)
  hentry c := by
    rw [V3_outs m hH c]
    have hsplit := Pipeline.arrays_of_unscopedBufs (p := 1) (pcfgs (F := F)) adm (pdats m hH) launch1.win launch1.arr_whole c
      ((pdats m hH 1 c).share_full fun _ => rfl) (fun b => U3 m hH.h0 c b) fun _ => rfl
    rw [Pipeline.unscopedBufs_held, urest_split1] at hsplit
    rw [ownSems_eq1]
    iintro ⟨⟨Hub, Hp, HO⟩, Hs, -⟩
    ihave H := hsplit $$ Hub
    icases H with ⟨Ha, Hsrc, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hsrc Hs]
    · isplitl [Hp]; · iexact Hp
      isplitl [Hsrc]; · iexact Hsrc
      iexact Hs
    iexact Hz
  hin c := by
    rw [show (pdats m hH 1 c).Φ 0 = iprop(Pipeline.ΦA spec1 c ∗ hbPt c hb_src1 (E1 m hH.h0 c main_v4) ∗ sems1 c) from rfl]; unfold Pipeline.ΦA
    iintro ⟨⟨Hp, HX⟩, -, Hr⟩
    isplitl [Hr Hp]
    · isplitl [Hr]; · iexact Hr
      iexact Hp
    iexact HX
  hout c := by
    rw [ownSems_eq1, show (pdats m hH 1 c).Φ (Fin.last _) = iprop(Pipeline.ΦA spec1 c ∗ hbPt c hb_src1 (E1 m hH.h0 c main_v4) ∗ sems1 c) from rfl]; unfold Pipeline.ΦA
    iintro ⟨⟨Hr, Hp⟩, Hsrc, Hs⟩
    isplitl [Hp Hsrc]
    · isplitl [Hp]; · iexact Hp
      iexact Hsrc
    isplitl [Hs]; · iexact Hs
    iexact Hr
  hexit c := by
    rw [V4_outs m hH c]
    have hjoin := Pipeline.unscopedBufs_of_arrays (p := 1) (pcfgs (F := F)) adm (Ix := Unit) (Name := ℕ) (U := Pipeline.UD sig nD τ) (Lvl := ℕ)
      launch1.win launch1.arr_whole c (pdats m hH) ((pdats m hH 1 c).share_full fun _ => rfl)
      (fun b => U3 m hH.h0 c b) (fun b => U4 m hH c b) ((pdats m hH 1 c).arrAt · cfg1.N) (hF1 m hH c) (hrest1 m hH c)
    rw [Pipeline.unscopedBufs_held, urest_split1] at hjoin
    iintro ⟨Ha, HO, ⟨Hp, Hsrc⟩, Hz⟩
    imodintro
    isplitl [Ha Hsrc Hz]
    · iapply hjoin
      isplitl [Ha]; · iexact Ha
      isplitl [Hsrc]; · iexact Hsrc
      iexact Hz
    isplitl [Hp]; · iexact Hp
    unfold Pipeline.Dat.owesAt Pipeline.owesWithin
    icases HO with ⟨%W, -, HO⟩; iexists W; iexact HO

theorem reg1_pre (hH : HypsAll m) (c : Dev nD) :
    (reg1 m hH).pre c = iprop(StableHlo.held (c : Thread nD τ) (Pipeline.ucRefs τ sig) (Gen.V3 m (outs m hH) c) ∗ Rr c) := rfl
theorem reg1_post (hH : HypsAll m) (c : Dev nD) :
    (reg1 m hH).post c = iprop(StableHlo.held (c : Thread nD τ) (Pipeline.ucRefs τ sig) (Gen.V4 m (outs m hH) c) ∗ Rr c) := rfl

theorem hF2 (hH : HypsAll m) (c : Dev nD) (w : Fin cfg2.W) :
    (pdats m hH 2 c).arrAt w cfg2.N = Function.update (U7 m hH c) main_v15 (arr2 m hH c) (Pipeline.arrRef spec2 w) := by
  fin_cases w
  · refine ((pdats m hH 2 c).arrAt_in _ rfl _).trans ?_
    show _ = Function.update (U7 m hH c) main_v15 (arr2 m hH c) main_v8
    rw [Function.update_of_ne (StableHlo.devRef_ne_of_ne (by decide))]; rfl
  · refine ((pdats m hH 2 c).arrAt_in _ rfl _).trans ?_
    show _ = Function.update (U7 m hH c) main_v15 (arr2 m hH c) main_arg0
    rw [Function.update_of_ne (StableHlo.devRef_ne_of_ne (by decide))]; rfl
  · refine ((pdats m hH 2 c).arrAt_in _ rfl _).trans ?_
    show _ = Function.update (U7 m hH c) main_v15 (arr2 m hH c) main_v14
    rw [Function.update_of_ne (StableHlo.devRef_ne_of_ne (by decide))]; rfl
  · show _ = Function.update (U7 m hH c) main_v15 (arr2 m hH c) main_v15
    rw [Function.update_self]; rfl
theorem hrest2 (hH : HypsAll m) (c : Dev nD) (b : Ref sig .tc) (hb : b ∉ Finset.univ.image (Pipeline.arrRef spec2)) :
    Function.update (U7 m hH c) main_v15 (arr2 m hH c) b = U7 m hH c b := by
  have h15 : b ≠ main_v15 := fun e => hb (Finset.mem_image.mpr ⟨3, Finset.mem_univ _, e.symm⟩)
  rw [Function.update_of_ne (StableHlo.devRef_ne_of_ne h15)]

set_option backward.isDefEq.respectTransparency.types false in
def reg2 (hH : HypsAll m) : Pipeline.RegionSeg (pcfgs (F := F)) adm (pdats m hH) () defs₀ 𝒱₀ 𝐋 𝐥𝐯 2 where
  win := launch2.win.to₀
  block_pos := launch2.block_pos
  stage_whole := launch2.stage_whole
  K := PEmpty
  osem k := k.elim
  ho := Pipeline.OwnSemFacts.none _
  hbody c := (body_obligation2 (E2 m hH) c).loose
  hwaits := Pipeline.hwaits_of_owed_zero _ _ _ _ 𝐋 𝐥𝐯 2 fun _ _ => rfl
  pre c := iprop(StableHlo.held (c : Thread nD τ) (Pipeline.ucRefs τ sig) (Gen.V7 m (outs m hH) c) ∗ Rr c)
  post c := iprop(StableHlo.held (c : Thread nD τ) (Pipeline.ucRefs τ sig) (Gen.V8 m (outs m hH) c) ∗ Rr c)
  X c := iprop(∃ r, prngReg c r)
  Y c := iprop(∃ r, prngReg c r)
  Z c := Pipeline.unscopedRest (Ix := Unit) (Name := ℕ) (U := Pipeline.UD sig nD τ) (Lvl := ℕ) spec2 c (E2 m hH c)
  hentry c := by
    rw [V7_outs m hH c, Pipeline.ownSems0_none]
    have hsplit := Pipeline.arrays_of_unscopedBufs (p := 2) (pcfgs (F := F)) adm (pdats m hH) launch2.win launch2.arr_whole c
      ((pdats m hH 2 c).share_full fun _ => rfl) (fun b => U7 m hH c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hH 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m hH 2 c).Φ (Fin.last _) = Pipeline.ΦA spec2 c from rfl]; unfold Pipeline.ΦA
    iintro ⟨Hr, Hp⟩
    isplitl [Hp]; · iexact Hp
    isplitr; · iempintro
    iexact Hr
  hexit c := by
    rw [V8_outs m hH c]
    have hjoin := Pipeline.unscopedBufs_of_arrays (p := 2) (pcfgs (F := F)) adm (Ix := Unit) (Name := ℕ) (U := Pipeline.UD sig nD τ) (Lvl := ℕ)
      launch2.win launch2.arr_whole c (pdats m hH) ((pdats m hH 2 c).share_full fun _ => rfl)
      (fun b => U7 m hH c b) (fun b => Function.update (U7 m hH c) main_v15 (arr2 m hH c) b) ((pdats m hH 2 c).arrAt · cfg2.N) (hF2 m hH c) (hrest2 m hH c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

theorem reg2_pre (hH : HypsAll m) (c : Dev nD) :
    (reg2 m hH).pre c = iprop(StableHlo.held (c : Thread nD τ) (Pipeline.ucRefs τ sig) (Gen.V7 m (outs m hH) c) ∗ Rr c) := rfl
theorem reg2_post (hH : HypsAll m) (c : Dev nD) :
    (reg2 m hH).post c = iprop(StableHlo.held (c : Thread nD τ) (Pipeline.ucRefs τ sig) (Gen.V8 m (outs m hH) c) ∗ Rr c) := rfl

end Cert.KernelIdeal.Hand

end
-- ==== Proof.PreHyps.lean ====
import proofs.«423446_j56083682951492_1_alg».proof.Proof.Pre
import proofs.«423446_j56083682951492_1_alg».proof.Proof.KI.Regs

noncomputable section

namespace Cert.Proof.PreFacts

open Cert.KernelIdeal Cert.KernelIdeal.Gen Cert.KernelIdeal.Hand
open Idealize.ShloMosaic Idealize.ShloMosaic.TcCoe

variable {F : FTy → Type} [FloatOps F]

/-- A block read through a view is the array at re-indexed places, so a bound on every word of the array bounds the block's. -/
theorem rows0 (c : Dev nD) (A : Buf (Elt F) ((c : Thread nD τ).loc (Pipeline.arrRef spec0 0)))
    (hA : ∀ e : S1600000.Idx, ((A : IVec S1600000 32) e).toNat < 100000) (t : Fin cfg0.N) :
    RowsOK (F := F) (((cfg0.win 0).blk t).view.read (Elt F) A) :=
  fun j => hA (((cfg0.win 0).blk t).view.emb j)

theorem rows1 (c : Dev nD) (A : Buf (Elt F) ((c : Thread nD τ).loc (Pipeline.arrRef spec1 0)))
    (hA : ∀ e : S1600000.Idx, ((A : IVec S1600000 32) e).toNat < 100000) (t : Fin cfg1.N) :
    RowsOK (F := F) (((cfg1.win 0).blk t).view.read (Elt F) A) :=
  fun j => hA (((cfg1.win 0).blk t).view.emb j)

variable [Cert.Pre_finite_inputs.Facts]

/-- The precondition over the kernel's five argument arrays, at any reading `F` of the floats. -/
def PreAt (m : (ℓ : Loc nD τ sig) → Buf (Elt F) ℓ) : Prop :=
  ∀ c : Dev nD, Cert.Pre_finite_inputs.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1

theorem cols_lt_at (m : (ℓ : Loc nD τ sig) → Buf (Elt F) ℓ) (h : PreAt m) (c : Dev nD) :
    ∀ e, (m ((c.tc : Thread nD τ).loc main_arg4) e).toNat < 100000 :=
  cols_lt _ _ _ _ _ (h c)

/-- Nothing writes the column array before either gather, so both read the launch memory's words, which the precondition bounds. -/
theorem hypsAll (m : (ℓ : Loc nD τ sig) → Buf (Elt F) ℓ) (h : PreAt m) : HypsAll m :=
  have h0 : Hyps0 (E0 m) := fun c t =>
    rows0 c (E0 m c main_arg4) (by rw [E0_main_arg4]; exact cols_lt_at m h c) t
  ⟨h0, fun c t => rows1 c (E1 m h0 c main_arg4) (by rw [E1_main_arg4]; exact cols_lt_at m h c) t⟩

end Cert.Proof.PreFacts

end
-- ==== Proof.KI.Run.lean ====
import proofs.«423446_j56083682951492_1_alg».proof.Proof.KI.Regs
import Idealize.ShloMosaic.Lib.Pipeline.Frame
import Idealize.ShloMosaic.Lib.Pipeline.Regions
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

namespace Run

abbrev E : Fin 4 → Dev nD → sProp 𝕄 := fun _ c => Rr c

theorem Rr_owes (c : Dev nD) : (Rr (F := F) c) ⊢ (iprop(∃ W, owes (c : Thread nD τ) (0 : CellTallies nD τ sig Unit) W) : sProp 𝕄) := by
  iintro ⟨-, HO⟩
  iexact HO

abbrev segs (hH : HypsAll (F := F) m) (c : Dev nD) :
    List (Seg (pcfgs (F := F)) adm (pdats m hH) () defs₀ Variants.none (fun _ => ∅) (fun _ _ => 0)) :=
  Gen.segs m (outs m hH) Variants.none (fun _ => ∅) (fun _ _ => 0) (E (F := F)) () (pdats m hH) (reg0 m hH) (reg1 m hH) (reg2 m hH) c

theorem main_run (hH : HypsAll (F := F) m) (c : Dev nD) : main (F := F) c = Seg.run (segs m hH c) :=
  (main_chain c).trans (by chain_rfl)

theorem mem_uc (b : Ref sig .tc) (h : (Proc.devRef .tc b : DevRef τ sig).isScoped = false) : Proc.devRef .tc b ∈ Pipeline.ucRefs τ sig :=
  Finset.mem_filter.mpr ⟨StableHlo.devRef_mem_tcRefs b, by simpa using h⟩

theorem V8_main_v15 (outs : Gen.Outs (F := F)) (c : Dev nD) : Gen.V8 m outs c main_v15 = outs 8 main_v15 c :=
  Function.update_self _ _ _

end Run

open Run

set_option backward.isDefEq.respectTransparency.types false in
theorem run (hH : HypsAll (F := F) m) :
    θ_run (defs (F := F)) (onTc (τ := τ) (main (F := F))) ⟨m, fun _ => 0, ρ⟩
      (fun r => ∀ c : Dev nD, ∀ b ∈ Pipeline.ucRefs τ sig, r.2.mem ((c : Thread nD τ).1, b) = Gen.V8 m (outs m hH) c b) :=
  Pipeline.θ_run_regions_kit_dev (pcfgs (F := F)) adm (pdats m hH) () cellOf_inj embL defs₀ Variants.none (fun _ => ∅) (fun _ _ => 0) m ρ main
    (Run.segs m hH)
    (fun c Q => by rw [main_run m hH c])
    (fun c => by simp only [Run.segs, Gen.segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => StableHlo.held (c : Thread nD τ) (Pipeline.ucRefs τ sig) (Gen.V8 m (outs m hH) c))
    (hch := fun c => ⟨.rfl, Entails.of_eq (reg0_pre m hH c).symm, Entails.of_eq (reg0_post m hH c),
      Entails.of_eq (reg1_pre m hH c).symm, Entails.of_eq (reg1_post m hH c), .rfl, .rfl,
      Entails.of_eq (reg2_pre m hH c).symm, (Entails.of_eq (reg2_post m hH c)).trans (sep_mono .rfl (Rr_owes c))⟩)
    (hinit := by
      refine Pipeline.initEach _ _ fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V8 m (outs m hH) c b)
    (hfin := fun c s' => by
      iintro ⟨Hh, HSI⟩
      unfold StableHlo.held
      imodintro
      iapply (pointsTo_read_all (Pipeline.ucRefs τ sig) (fun b => ((c : Thread nD τ).1, b)) (Gen.V8 m (outs m hH) c) s')
      isplitl [Hh] <;> iassumption)
    (hQ := fun s h => h)

theorem run_value (hH : HypsAll (F := F) m) :
    θ_run (defs (F := F)) (onTc (τ := τ) (main (F := F))) ⟨m, fun _ => 0, ρ⟩ (fun r => ∀ c : Dev nD,
      r.2.mem ((c.tc : Thread nD τ).loc main_v15) = outs m hH 8 main_v15 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := F)) _ _).mono (fun r h c =>
    ⟨(h c _ (mem_uc main_v15 (by decide))).trans (V8_main_v15 m (outs m hH) c),
     (h c _ (mem_uc main_arg0 (by decide))).trans (Gen.V8_main_arg0 m (outs m hH) c),
     (h c _ (mem_uc main_arg1 (by decide))).trans (Gen.V8_main_arg1 m (outs m hH) c),
     (h c _ (mem_uc main_arg2 (by decide))).trans (Gen.V8_main_arg2 m (outs m hH) c),
     (h c _ (mem_uc main_arg3 (by decide))).trans (Gen.V8_main_arg3 m (outs m hH) c),
     (h c _ (mem_uc main_arg4 (by decide))).trans (Gen.V8_main_arg4 m (outs m hH) c)⟩) (run m ρ hH)

theorem frame (hH : HypsAll (F := F) m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := F)) _ _).mono (fun r h c => (h c).2) (run_value m ρ hH)

end Cert.KernelIdeal.Hand

end
-- ==== Proof.KI.Gather0RunValue.lean ====
import proofs.«423446_j56083682951492_1_alg».proof.Proof.KI.Gather0Run
import proofs.«423446_j56083682951492_1_alg».proof.Proof.KI.GatherRows
import Idealize.ShloMosaic.Lib.Pipeline.Value
import Idealize.ShloMosaic.Lib.WholeRead
import Idealize.ShloMosaic.PureOps.Ideal

noncomputable section

namespace Cert.KernelIdeal.Hand

open Cert.KernelIdeal Cert.KernelIdeal.Gen
open Idealize.ShloMosaic Idealize.ShloMosaic.TcCoe Idealize.ShloMosaic.ValueIdx

theorem k0_pay1_apply (A : Vec Ideal S256x64 .f32) (B : Vec Ideal S256x1 .f32) (p : Fin 256) (q : Fin 64) :
    k0_pay1 (F := Ideal) A B (ix2 p q) = A (ix2 p q) * B (ix2 p (0 : Fin 1)) := by
  unfold k0_pay1
  show shapeCast S256x64 A shapeCasts_S256x64_S256x64 (ix2 p q)
      * broadcastTo S256x64 (shapeCast S256x1 B shapeCasts_S256x1_S256x1) broadcasts_S256x1_S256x64 (ix2 p q) = _
  rw [shapeCast_self, shapeCast_self,
    broadcastTo_apply B broadcasts_S256x1_S256x64 (ix2 p q) (ix2 p (0 : Fin 1)) (fun a => by
      match a with
      | ⟨0, _⟩ => rfl
      | ⟨1, _⟩ => rfl)]

section AnyValues
variable {Val : EltTy → Type} {κ : Kind} {sp : Space} {s : Shape} {e : EltTy}

theorem unit_zero_idx {off : Fin s.rank → ℕ} (h0 : ∀ a, off a = 0) (inb : ∀ a, off a + s.size a ≤ s.size a)
    (x : s.Idx) : (Rect.unit (s := s) off s.size inb).toLoadRect.idx x = x := by
  funext a
  apply Fin.ext
  show off a + 1 * (x a : ℕ) = x a
  rw [h0]; omega

theorem readAt_unit_zero_unread (m : Memref sig κ sp s e) (hm : m.IsWhole) (X : s.Idx → Val e) {off : Fin s.rank → ℕ}
    (h0 : ∀ a, off a = 0) (inb : ∀ a, off a + s.size a ≤ s.size a) (x : s.Idx) :
    View.readAt Val m.view (Rect.unit (s := s) off s.size inb).toLoadRect (hm.unread X) x = X x := by
  rw [hm.readAt_unread, unit_zero_idx h0 inb x]

end AnyValues

variable {F : FTy → Type} [FloatOps F]

theorem word_read (arg1 : Memref sig .tc .smem S256 .i32) (harg1 : arg1.IsWhole) (x0 : Vec F S256 .i32) (k : ℕ)
    (hk : ∀ a, (![k] : Fin 1 → ℕ) a + S1.size a ≤ S256.size a)
    (x : (Rect.unit (s := S256) ![k] S1.size hk).toLoadRect.shape.Idx) (p : Fin 256) (hp : p.val = k) :
    View.readAt (Elt F) arg1.view (Rect.unit (s := S256) ![k] S1.size hk).toLoadRect (harg1.unread x0) x = x0 (ix1 p) := by
  rw [harg1.readAt_unread]
  congr 1
  funext a
  apply Fin.ext
  match a with
  | ⟨0, _⟩ =>
    have h1 : (x 0).val < 1 := (x 0).isLt
    show k + 1 * (x 0).val = p.val
    omega

theorem row_value (c : Dev nD) (arg1 : Memref sig .tc .smem S256 .i32) (harg1 : arg1.IsWhole) (x0 : Vec F S256 .i32)
    (hx0 : RowsOK x0) (fsrc : HbBuf (F := F) c hb_src0) (q : Fin 64) (k : ℕ) (hk256 : k < 256)
    (off : Fin 2 → ℕ) (h : ∀ a, off a + S1x64.size a ≤ S100000x64.size a)
    (hs : ∀ a, (Rect.unit (s := S100000x64) off S1x64.size h).stride a = 1) (hq : S1x64.Squeezes S64)
    (hk : ∀ a, (![k] : Fin 1 → ℕ) a + S1.size a ≤ S256.size a)
    (x : (Rect.unit (s := S256) ![k] S1.size hk).toLoadRect.shape.Idx)
    (hoff : off = ![(View.readAt (Elt F) arg1.view (Rect.unit (s := S256) ![k] S1.size hk).toLoadRect (harg1.unread x0) x).toNat, 0]) :
    (ReadAs.same : ReadAs (Elt F) S64 .f32 S64 .f32).apply
        (View.read (Elt F) (((Memref.whole main_arg0).slice (Rect.unit (s := S100000x64) off S1x64.size h) hs).squeeze S64 hq).view
          fsrc) (ix1 q)
      = (fsrc : S100000x64.Idx → Elt F .f32) (ix2 (⟨(x0 (ix1 (⟨k, hk256⟩ : Fin 256))).toNat, hx0 _⟩ : Fin 100000) q) := by
  refine pay_src0_row c off h hs hq fsrc q _ ?_ ?_
  · rw [hoff, word_read arg1 harg1 x0 k hk x ⟨k, hk256⟩ rfl]; rfl
  · rw [hoff]; rfl

set_option maxHeartbeats 8000000 in
theorem gatherRun0_apply (c : Dev nD) (i : grid0.Coords) (arg1 : Memref sig .tc .smem S256 .i32) (harg1 : arg1.IsWhole)
    (x0 : Vec Ideal S256 .i32) (hx0 : RowsOK x0) (arg2 : Memref sig .tc .vmem S256x1 .f32) (harg2 : arg2.IsWhole)
    (x1 : Vec Ideal S256x1 .f32) (arg4 : Memref sig .tc .vmem S256x64 .f32) (harg4 : arg4.IsWhole)
    (fsrc : HbBuf (F := Ideal) c hb_src0) (p : Fin 256) (q : Fin 64) :
    (gatherRun0 (F := Ideal) c i arg1 harg1 x0 hx0 arg2 harg2 x1 arg4 harg4 fsrc).1 (ix2 p q)
      = (show FVec Ideal S100000x64 .f32 from fsrc) (ix2 ⟨(x0 (ix1 p)).toNat, hx0 _⟩ q) * x1 (ix2 p 0) := by
  unfold gatherRun0
  dsimp only
  rw [read_writes_block]
  unfold gatherRun0.sl.r_256
  rw [k0_pay1_apply]
  unfold gatherRun0.sl.v
  rw [readAt_unit_zero_unread arg4 harg4 _ (fun a => by fin_cases a <;> rfl),
    readAt_unit_zero_unread arg2 harg2 x1 (fun a => by fin_cases a <;> rfl)]
  refine congrArg (· * x1 (ix2 p (0 : Fin 1))) ?_
  obtain ⟨k, hk⟩ := p
  interval_cases k
  · show gatherRun0.sl.dma1 c arg1 harg1 x0 hx0 fsrc (ix1 q) = _
    exact row_value c arg1 harg1 x0 hx0 fsrc q 0 hk _ _ _ _ _ _ rfl
  · show gatherRun0.sl.dma2 c arg1 harg1 x0 hx0 fsrc (ix1 q) = _
    exact row_value c arg1 harg1 x0 hx0 fsrc q 1 hk _ _ _ _ _ _ rfl
  · show gatherRun0.sl.dma3 c arg1 harg1 x0 hx0 fsrc (ix1 q) = _
    exact row_value c arg1 harg1 x0 hx0 fsrc q 2 hk _ _ _ _ _ _ rfl
  · show gatherRun0.sl.dma4 c arg1 harg1 x0 hx0 fsrc (ix1 q) = _
    exact row_value c arg1 harg1 x0 hx0 fsrc q 3 hk _ _ _ _ _ _ rfl
  · show gatherRun0.sl.dma5 c arg1 harg1 x0 hx0 fsrc (ix1 q) = _
    exact row_value c arg1 harg1 x0 hx0 fsrc q 4 hk _ _ _ _ _ _ rfl
  · show gatherRun0.sl.dma6 c arg1 harg1 x0 hx0 fsrc (ix1 q) = _
    exact row_value c arg1 harg1 x0 hx0 fsrc q 5 hk _ _ _ _ _ _ rfl
  · show gatherRun0.sl.dma7 c arg1 harg1 x0 hx0 fsrc (ix1 q) = _
    exact row_value c arg1 harg1 x0 hx0 fsrc q 6 hk _ _ _ _ _ _ rfl
  · show gatherRun0.sl.dma8 c arg1 harg1 x0 hx0 fsrc (ix1 q) = _
    exact row_value c arg1 harg1 x0 hx0 fsrc q 7 hk _ _ _ _ _ _ rfl
  · show gatherRun0.sl.dma9 c arg1 harg1 x0 hx0 fsrc (ix1 q) = _
    exact row_value c arg1 harg1 x0 hx0 fsrc q 8 hk _ _ _ _ _ _ rfl
  · show gatherRun0.sl.dma10 c arg1 harg1 x0 hx0 fsrc (ix1 q) = _
    exact row_value c arg1 harg1 x0 hx0 fsrc q 9 hk _ _ _ _ _ _ rfl
  · show gatherRun0.sl.dma11 c arg1 harg1 x0 hx0 fsrc (ix1 q) = _
    exact row_value c arg1 harg1 x0 hx0 fsrc q 10 hk _ _ _ _ _ _ rfl
  · show gatherRun0.sl.dma12 c arg1 harg1 x0 hx0 fsrc (ix1 q) = _
    exact row_value c arg1 harg1 x0 hx0 fsrc q 11 hk _ _ _ _ _ _ rfl
  · show gatherRun0.sl.dma13 c arg1 harg1 x0 hx0 fsrc (ix1 q) = _
    exact row_value c arg1 harg1 x0 hx0 fsrc q 12 hk _ _ _ _ _ _ rfl
  · show gatherRun0.sl.dma14 c arg1 harg1 x0 hx0 fsrc (ix1 q) = _
    exact row_value c arg1 harg1 x0 hx0 fsrc q 13 hk _ _ _ _ _ _ rfl
  · show gatherRun0.sl.dma15 c arg1 harg1 x0 hx0 fsrc (ix1 q) = _
    exact row_value c arg1 harg1 x0 hx0 fsrc q 14 hk _ _ _ _ _ _ rfl
  · show gatherRun0.sl.dma16 c arg1 harg1 x0 hx0 fsrc (ix1 q) = _
    exact row_value c arg1 harg1 x0 hx0 fsrc q 15 hk _ _ _ _ _ _ rfl
  · show gatherRun0.sl.dma17 c arg1 harg1 x0 hx0 fsrc (ix1 q) = _
    exact row_value c arg1 harg1 x0 hx0 fsrc q 16 hk _ _ _ _ _ _ rfl
  · show gatherRun0.sl.dma18 c arg1 harg1 x0 hx0 fsrc (ix1 q) = _
    exact row_value c arg1 harg1 x0 hx0 fsrc q 17 hk _ _ _ _ _ _ rfl
  · show gatherRun0.sl.dma19 c arg1 harg1 x0 hx0 fsrc (ix1 q) = _
    exact row_value c arg1 harg1 x0 hx0 fsrc q 18 hk _ _ _ _ _ _ rfl
  · show gatherRun0.sl.dma20 c arg1 harg1 x0 hx0 fsrc (ix1 q) = _
    exact row_value c arg1 harg1 x0 hx0 fsrc q 19 hk _ _ _ _ _ _ rfl
  · show gatherRun0.sl.dma21 c arg1 harg1 x0 hx0 fsrc (ix1 q) = _
    exact row_value c arg1 harg1 x0 hx0 fsrc q 20 hk _ _ _ _ _ _ rfl
  · show gatherRun0.sl.dma22 c arg1 harg1 x0 hx0 fsrc (ix1 q) = _
    exact row_value c arg1 harg1 x0 hx0 fsrc q 21 hk _ _ _ _ _ _ rfl
  · show gatherRun0.sl.dma23 c arg1 harg1 x0 hx0 fsrc (ix1 q) = _
    exact row_value c arg1 harg1 x0 hx0 fsrc q 22 hk _ _ _ _ _ _ rfl
  · show gatherRun0.sl.dma24 c arg1 harg1 x0 hx0 fsrc (ix1 q) = _
    exact row_value c arg1 harg1 x0 hx0 fsrc q 23 hk _ _ _ _ _ _ rfl
  · show gatherRun0.sl.dma25 c arg1 harg1 x0 hx0 fsrc (ix1 q) = _
    exact row_value c arg1 harg1 x0 hx0 fsrc q 24 hk _ _ _ _ _ _ rfl
  · show gatherRun0.sl.dma26 c arg1 harg1 x0 hx0 fsrc (ix1 q) = _
    exact row_value c arg1 harg1 x0 hx0 fsrc q 25 hk _ _ _ _ _ _ rfl
  · show gatherRun0.sl.dma27 c arg1 harg1 x0 hx0 fsrc (ix1 q) = _
    exact row_value c arg1 harg1 x0 hx0 fsrc q 26 hk _ _ _ _ _ _ rfl
  · show gatherRun0.sl.dma28 c arg1 harg1 x0 hx0 fsrc (ix1 q) = _
    exact row_value c arg1 harg1 x0 hx0 fsrc q 27 hk _ _ _ _ _ _ rfl
  · show gatherRun0.sl.dma29 c arg1 harg1 x0 hx0 fsrc (ix1 q) = _
    exact row_value c arg1 harg1 x0 hx0 fsrc q 28 hk _ _ _ _ _ _ rfl
  · show gatherRun0.sl.dma30 c arg1 harg1 x0 hx0 fsrc (ix1 q) = _
    exact row_value c arg1 harg1 x0 hx0 fsrc q 29 hk _ _ _ _ _ _ rfl
  · show gatherRun0.sl.dma31 c arg1 harg1 x0 hx0 fsrc (ix1 q) = _
    exact row_value c arg1 harg1 x0 hx0 fsrc q 30 hk _ _ _ _ _ _ rfl
  · show gatherRun0.sl.dma32 c arg1 harg1 x0 hx0 fsrc (ix1 q) = _
    exact row_value c arg1 harg1 x0 hx0 fsrc q 31 hk _ _ _ _ _ _ rfl
  · show gatherRun0.sl.dma33 c arg1 harg1 x0 hx0 fsrc (ix1 q) = _
    exact row_value c arg1 harg1 x0 hx0 fsrc q 32 hk _ _ _ _ _ _ rfl
  · show gatherRun0.sl.dma34 c arg1 harg1 x0 hx0 fsrc (ix1 q) = _
    exact row_value c arg1 harg1 x0 hx0 fsrc q 33 hk _ _ _ _ _ _ rfl
  · show gatherRun0.sl.dma35 c arg1 harg1 x0 hx0 fsrc (ix1 q) = _
    exact row_value c arg1 harg1 x0 hx0 fsrc q 34 hk _ _ _ _ _ _ rfl
  · show gatherRun0.sl.dma36 c arg1 harg1 x0 hx0 fsrc (ix1 q) = _
    exact row_value c arg1 harg1 x0 hx0 fsrc q 35 hk _ _ _ _ _ _ rfl
  · show gatherRun0.sl.dma37 c arg1 harg1 x0 hx0 fsrc (ix1 q) = _
    exact row_value c arg1 harg1 x0 hx0 fsrc q 36 hk _ _ _ _ _ _ rfl
  · show gatherRun0.sl.dma38 c arg1 harg1 x0 hx0 fsrc (ix1 q) = _
    exact row_value c arg1 harg1 x0 hx0 fsrc q 37 hk _ _ _ _ _ _ rfl
  · show gatherRun0.sl.dma39 c arg1 harg1 x0 hx0 fsrc (ix1 q) = _
    exact row_value c arg1 harg1 x0 hx0 fsrc q 38 hk _ _ _ _ _ _ rfl
  · show gatherRun0.sl.dma40 c arg1 harg1 x0 hx0 fsrc (ix1 q) = _
    exact row_value c arg1 harg1 x0 hx0 fsrc q 39 hk _ _ _ _ _ _ rfl
  · show gatherRun0.sl.dma41 c arg1 harg1 x0 hx0 fsrc (ix1 q) = _
    exact row_value c arg1 harg1 x0 hx0 fsrc q 40 hk _ _ _ _ _ _ rfl
  · show gatherRun0.sl.dma42 c arg1 harg1 x0 hx0 fsrc (ix1 q) = _
    exact row_value c arg1 harg1 x0 hx0 fsrc q 41 hk _ _ _ _ _ _ rfl
  · show gatherRun0.sl.dma43 c arg1 harg1 x0 hx0 fsrc (ix1 q) = _
    exact row_value c arg1 harg1 x0 hx0 fsrc q 42 hk _ _ _ _ _ _ rfl
  · show gatherRun0.sl.dma44 c arg1 harg1 x0 hx0 fsrc (ix1 q) = _
    exact row_value c arg1 harg1 x0 hx0 fsrc q 43 hk _ _ _ _ _ _ rfl
  · show gatherRun0.sl.dma45 c arg1 harg1 x0 hx0 fsrc (ix1 q) = _
    exact row_value c arg1 harg1 x0 hx0 fsrc q 44 hk _ _ _ _ _ _ rfl
  · show gatherRun0.sl.dma46 c arg1 harg1 x0 hx0 fsrc (ix1 q) = _
    exact row_value c arg1 harg1 x0 hx0 fsrc q 45 hk _ _ _ _ _ _ rfl
  · show gatherRun0.sl.dma47 c arg1 harg1 x0 hx0 fsrc (ix1 q) = _
    exact row_value c arg1 harg1 x0 hx0 fsrc q 46 hk _ _ _ _ _ _ rfl
  · show gatherRun0.sl.dma48 c arg1 harg1 x0 hx0 fsrc (ix1 q) = _
    exact row_value c arg1 harg1 x0 hx0 fsrc q 47 hk _ _ _ _ _ _ rfl
  · show gatherRun0.sl.dma49 c arg1 harg1 x0 hx0 fsrc (ix1 q) = _
    exact row_value c arg1 harg1 x0 hx0 fsrc q 48 hk _ _ _ _ _ _ rfl
  · show gatherRun0.sl.dma50 c arg1 harg1 x0 hx0 fsrc (ix1 q) = _
    exact row_value c arg1 harg1 x0 hx0 fsrc q 49 hk _ _ _ _ _ _ rfl
  · show gatherRun0.sl.dma51 c arg1 harg1 x0 hx0 fsrc (ix1 q) = _
    exact row_value c arg1 harg1 x0 hx0 fsrc q 50 hk _ _ _ _ _ _ rfl
  · show gatherRun0.sl.dma52 c arg1 harg1 x0 hx0 fsrc (ix1 q) = _
    exact row_value c arg1 harg1 x0 hx0 fsrc q 51 hk _ _ _ _ _ _ rfl
  · show gatherRun0.sl.dma53 c arg1 harg1 x0 hx0 fsrc (ix1 q) = _
    exact row_value c arg1 harg1 x0 hx0 fsrc q 52 hk _ _ _ _ _ _ rfl
  · show gatherRun0.sl.dma54 c arg1 harg1 x0 hx0 fsrc (ix1 q) = _
    exact row_value c arg1 harg1 x0 hx0 fsrc q 53 hk _ _ _ _ _ _ rfl
  · show gatherRun0.sl.dma55 c arg1 harg1 x0 hx0 fsrc (ix1 q) = _
    exact row_value c arg1 harg1 x0 hx0 fsrc q 54 hk _ _ _ _ _ _ rfl
  · show gatherRun0.sl.dma56 c arg1 harg1 x0 hx0 fsrc (ix1 q) = _
    exact row_value c arg1 harg1 x0 hx0 fsrc q 55 hk _ _ _ _ _ _ rfl
  · show gatherRun0.sl.dma57 c arg1 harg1 x0 hx0 fsrc (ix1 q) = _
    exact row_value c arg1 harg1 x0 hx0 fsrc q 56 hk _ _ _ _ _ _ rfl
  · show gatherRun0.sl.dma58 c arg1 harg1 x0 hx0 fsrc (ix1 q) = _
    exact row_value c arg1 harg1 x0 hx0 fsrc q 57 hk _ _ _ _ _ _ rfl
  · show gatherRun0.sl.dma59 c arg1 harg1 x0 hx0 fsrc (ix1 q) = _
    exact row_value c arg1 harg1 x0 hx0 fsrc q 58 hk _ _ _ _ _ _ rfl
  · show gatherRun0.sl.dma60 c arg1 harg1 x0 hx0 fsrc (ix1 q) = _
    exact row_value c arg1 harg1 x0 hx0 fsrc q 59 hk _ _ _ _ _ _ rfl
  · show gatherRun0.sl.dma61 c arg1 harg1 x0 hx0 fsrc (ix1 q) = _
    exact row_value c arg1 harg1 x0 hx0 fsrc q 60 hk _ _ _ _ _ _ rfl
  · show gatherRun0.sl.dma62 c arg1 harg1 x0 hx0 fsrc (ix1 q) = _
    exact row_value c arg1 harg1 x0 hx0 fsrc q 61 hk _ _ _ _ _ _ rfl
  · show gatherRun0.sl.dma63 c arg1 harg1 x0 hx0 fsrc (ix1 q) = _
    exact row_value c arg1 harg1 x0 hx0 fsrc q 62 hk _ _ _ _ _ _ rfl
  · show gatherRun0.sl.dma64 c arg1 harg1 x0 hx0 fsrc (ix1 q) = _
    exact row_value c arg1 harg1 x0 hx0 fsrc q 63 hk _ _ _ _ _ _ rfl
  · show gatherRun0.sl.dma65 c arg1 harg1 x0 hx0 fsrc (ix1 q) = _
    exact row_value c arg1 harg1 x0 hx0 fsrc q 64 hk _ _ _ _ _ _ rfl
  · show gatherRun0.sl.dma66 c arg1 harg1 x0 hx0 fsrc (ix1 q) = _
    exact row_value c arg1 harg1 x0 hx0 fsrc q 65 hk _ _ _ _ _ _ rfl
  · show gatherRun0.sl.dma67 c arg1 harg1 x0 hx0 fsrc (ix1 q) = _
    exact row_value c arg1 harg1 x0 hx0 fsrc q 66 hk _ _ _ _ _ _ rfl
  · show gatherRun0.sl.dma68 c arg1 harg1 x0 hx0 fsrc (ix1 q) = _
    exact row_value c arg1 harg1 x0 hx0 fsrc q 67 hk _ _ _ _ _ _ rfl
  · show gatherRun0.sl.dma69 c arg1 harg1 x0 hx0 fsrc (ix1 q) = _
    exact row_value c arg1 harg1 x0 hx0 fsrc q 68 hk _ _ _ _ _ _ rfl
  · show gatherRun0.sl.dma70 c arg1 harg1 x0 hx0 fsrc (ix1 q) = _
    exact row_value c arg1 harg1 x0 hx0 fsrc q 69 hk _ _ _ _ _ _ rfl
  · show gatherRun0.sl.dma71 c arg1 harg1 x0 hx0 fsrc (ix1 q) = _
    exact row_value c arg1 harg1 x0 hx0 fsrc q 70 hk _ _ _ _ _ _ rfl
  · show gatherRun0.sl.dma72 c arg1 harg1 x0 hx0 fsrc (ix1 q) = _
    exact row_value c arg1 harg1 x0 hx0 fsrc q 71 hk _ _ _ _ _ _ rfl
  · show gatherRun0.sl.dma73 c arg1 harg1 x0 hx0 fsrc (ix1 q) = _
    exact row_value c arg1 harg1 x0 hx0 fsrc q 72 hk _ _ _ _ _ _ rfl
  · show gatherRun0.sl.dma74 c arg1 harg1 x0 hx0 fsrc (ix1 q) = _
    exact row_value c arg1 harg1 x0 hx0 fsrc q 73 hk _ _ _ _ _ _ rfl
  · show gatherRun0.sl.dma75 c arg1 harg1 x0 hx0 fsrc (ix1 q) = _
    exact row_value c arg1 harg1 x0 hx0 fsrc q 74 hk _ _ _ _ _ _ rfl
  · show gatherRun0.sl.dma76 c arg1 harg1 x0 hx0 fsrc (ix1 q) = _
    exact row_value c arg1 harg1 x0 hx0 fsrc q 75 hk _ _ _ _ _ _ rfl
  · show gatherRun0.sl.dma77 c arg1 harg1 x0 hx0 fsrc (ix1 q) = _
    exact row_value c arg1 harg1 x0 hx0 fsrc q 76 hk _ _ _ _ _ _ rfl
  · show gatherRun0.sl.dma78 c arg1 harg1 x0 hx0 fsrc (ix1 q) = _
    exact row_value c arg1 harg1 x0 hx0 fsrc q 77 hk _ _ _ _ _ _ rfl
  · show gatherRun0.sl.dma79 c arg1 harg1 x0 hx0 fsrc (ix1 q) = _
    exact row_value c arg1 harg1 x0 hx0 fsrc q 78 hk _ _ _ _ _ _ rfl
  · show gatherRun0.sl.dma80 c arg1 harg1 x0 hx0 fsrc (ix1 q) = _
    exact row_value c arg1 harg1 x0 hx0 fsrc q 79 hk _ _ _ _ _ _ rfl
  · show gatherRun0.sl.dma81 c arg1 harg1 x0 hx0 fsrc (ix1 q) = _
    exact row_value c arg1 harg1 x0 hx0 fsrc q 80 hk _ _ _ _ _ _ rfl
  · show gatherRun0.sl.dma82 c arg1 harg1 x0 hx0 fsrc (ix1 q) = _
    exact row_value c arg1 harg1 x0 hx0 fsrc q 81 hk _ _ _ _ _ _ rfl
  · show gatherRun0.sl.dma83 c arg1 harg1 x0 hx0 fsrc (ix1 q) = _
    exact row_value c arg1 harg1 x0 hx0 fsrc q 82 hk _ _ _ _ _ _ rfl
  · show gatherRun0.sl.dma84 c arg1 harg1 x0 hx0 fsrc (ix1 q) = _
    exact row_value c arg1 harg1 x0 hx0 fsrc q 83 hk _ _ _ _ _ _ rfl
  · show gatherRun0.sl.dma85 c arg1 harg1 x0 hx0 fsrc (ix1 q) = _
    exact row_value c arg1 harg1 x0 hx0 fsrc q 84 hk _ _ _ _ _ _ rfl
  · show gatherRun0.sl.dma86 c arg1 harg1 x0 hx0 fsrc (ix1 q) = _
    exact row_value c arg1 harg1 x0 hx0 fsrc q 85 hk _ _ _ _ _ _ rfl
  · show gatherRun0.sl.dma87 c arg1 harg1 x0 hx0 fsrc (ix1 q) = _
    exact row_value c arg1 harg1 x0 hx0 fsrc q 86 hk _ _ _ _ _ _ rfl
  · show gatherRun0.sl.dma88 c arg1 harg1 x0 hx0 fsrc (ix1 q) = _
    exact row_value c arg1 harg1 x0 hx0 fsrc q 87 hk _ _ _ _ _ _ rfl
  · show gatherRun0.sl.dma89 c arg1 harg1 x0 hx0 fsrc (ix1 q) = _
    exact row_value c arg1 harg1 x0 hx0 fsrc q 88 hk _ _ _ _ _ _ rfl
  · show gatherRun0.sl.dma90 c arg1 harg1 x0 hx0 fsrc (ix1 q) = _
    exact row_value c arg1 harg1 x0 hx0 fsrc q 89 hk _ _ _ _ _ _ rfl
  · show gatherRun0.sl.dma91 c arg1 harg1 x0 hx0 fsrc (ix1 q) = _
    exact row_value c arg1 harg1 x0 hx0 fsrc q 90 hk _ _ _ _ _ _ rfl
  · show gatherRun0.sl.dma92 c arg1 harg1 x0 hx0 fsrc (ix1 q) = _
    exact row_value c arg1 harg1 x0 hx0 fsrc q 91 hk _ _ _ _ _ _ rfl
  · show gatherRun0.sl.dma93 c arg1 harg1 x0 hx0 fsrc (ix1 q) = _
    exact row_value c arg1 harg1 x0 hx0 fsrc q 92 hk _ _ _ _ _ _ rfl
  · show gatherRun0.sl.dma94 c arg1 harg1 x0 hx0 fsrc (ix1 q) = _
    exact row_value c arg1 harg1 x0 hx0 fsrc q 93 hk _ _ _ _ _ _ rfl
  · show gatherRun0.sl.dma95 c arg1 harg1 x0 hx0 fsrc (ix1 q) = _
    exact row_value c arg1 harg1 x0 hx0 fsrc q 94 hk _ _ _ _ _ _ rfl
  · show gatherRun0.sl.dma96 c arg1 harg1 x0 hx0 fsrc (ix1 q) = _
    exact row_value c arg1 harg1 x0 hx0 fsrc q 95 hk _ _ _ _ _ _ rfl
  · show gatherRun0.sl.dma97 c arg1 harg1 x0 hx0 fsrc (ix1 q) = _
    exact row_value c arg1 harg1 x0 hx0 fsrc q 96 hk _ _ _ _ _ _ rfl
  · show gatherRun0.sl.dma98 c arg1 harg1 x0 hx0 fsrc (ix1 q) = _
    exact row_value c arg1 harg1 x0 hx0 fsrc q 97 hk _ _ _ _ _ _ rfl
  · show gatherRun0.sl.dma99 c arg1 harg1 x0 hx0 fsrc (ix1 q) = _
    exact row_value c arg1 harg1 x0 hx0 fsrc q 98 hk _ _ _ _ _ _ rfl
  · show gatherRun0.sl.dma100 c arg1 harg1 x0 hx0 fsrc (ix1 q) = _
    exact row_value c arg1 harg1 x0 hx0 fsrc q 99 hk _ _ _ _ _ _ rfl
  · show gatherRun0.sl.dma101 c arg1 harg1 x0 hx0 fsrc (ix1 q) = _
    exact row_value c arg1 harg1 x0 hx0 fsrc q 100 hk _ _ _ _ _ _ rfl
  · show gatherRun0.sl.dma102 c arg1 harg1 x0 hx0 fsrc (ix1 q) = _
    exact row_value c arg1 harg1 x0 hx0 fsrc q 101 hk _ _ _ _ _ _ rfl
  · show gatherRun0.sl.dma103 c arg1 harg1 x0 hx0 fsrc (ix1 q) = _
    exact row_value c arg1 harg1 x0 hx0 fsrc q 102 hk _ _ _ _ _ _ rfl
  · show gatherRun0.sl.dma104 c arg1 harg1 x0 hx0 fsrc (ix1 q) = _
    exact row_value c arg1 harg1 x0 hx0 fsrc q 103 hk _ _ _ _ _ _ rfl
  · show gatherRun0.sl.dma105 c arg1 harg1 x0 hx0 fsrc (ix1 q) = _
    exact row_value c arg1 harg1 x0 hx0 fsrc q 104 hk _ _ _ _ _ _ rfl
  · show gatherRun0.sl.dma106 c arg1 harg1 x0 hx0 fsrc (ix1 q) = _
    exact row_value c arg1 harg1 x0 hx0 fsrc q 105 hk _ _ _ _ _ _ rfl
  · show gatherRun0.sl.dma107 c arg1 harg1 x0 hx0 fsrc (ix1 q) = _
    exact row_value c arg1 harg1 x0 hx0 fsrc q 106 hk _ _ _ _ _ _ rfl
  · show gatherRun0.sl.dma108 c arg1 harg1 x0 hx0 fsrc (ix1 q) = _
    exact row_value c arg1 harg1 x0 hx0 fsrc q 107 hk _ _ _ _ _ _ rfl
  · show gatherRun0.sl.dma109 c arg1 harg1 x0 hx0 fsrc (ix1 q) = _
    exact row_value c arg1 harg1 x0 hx0 fsrc q 108 hk _ _ _ _ _ _ rfl
  · show gatherRun0.sl.dma110 c arg1 harg1 x0 hx0 fsrc (ix1 q) = _
    exact row_value c arg1 harg1 x0 hx0 fsrc q 109 hk _ _ _ _ _ _ rfl
  · show gatherRun0.sl.dma111 c arg1 harg1 x0 hx0 fsrc (ix1 q) = _
    exact row_value c arg1 harg1 x0 hx0 fsrc q 110 hk _ _ _ _ _ _ rfl
  · show gatherRun0.sl.dma112 c arg1 harg1 x0 hx0 fsrc (ix1 q) = _
    exact row_value c arg1 harg1 x0 hx0 fsrc q 111 hk _ _ _ _ _ _ rfl
  · show gatherRun0.sl.dma113 c arg1 harg1 x0 hx0 fsrc (ix1 q) = _
    exact row_value c arg1 harg1 x0 hx0 fsrc q 112 hk _ _ _ _ _ _ rfl
  · show gatherRun0.sl.dma114 c arg1 harg1 x0 hx0 fsrc (ix1 q) = _
    exact row_value c arg1 harg1 x0 hx0 fsrc q 113 hk _ _ _ _ _ _ rfl
  · show gatherRun0.sl.dma115 c arg1 harg1 x0 hx0 fsrc (ix1 q) = _
    exact row_value c arg1 harg1 x0 hx0 fsrc q 114 hk _ _ _ _ _ _ rfl
  · show gatherRun0.sl.dma116 c arg1 harg1 x0 hx0 fsrc (ix1 q) = _
    exact row_value c arg1 harg1 x0 hx0 fsrc q 115 hk _ _ _ _ _ _ rfl
  · show gatherRun0.sl.dma117 c arg1 harg1 x0 hx0 fsrc (ix1 q) = _
    exact row_value c arg1 harg1 x0 hx0 fsrc q 116 hk _ _ _ _ _ _ rfl
  · show gatherRun0.sl.dma118 c arg1 harg1 x0 hx0 fsrc (ix1 q) = _
    exact row_value c arg1 harg1 x0 hx0 fsrc q 117 hk _ _ _ _ _ _ rfl
  · show gatherRun0.sl.dma119 c arg1 harg1 x0 hx0 fsrc (ix1 q) = _
    exact row_value c arg1 harg1 x0 hx0 fsrc q 118 hk _ _ _ _ _ _ rfl
  · show gatherRun0.sl.dma120 c arg1 harg1 x0 hx0 fsrc (ix1 q) = _
    exact row_value c arg1 harg1 x0 hx0 fsrc q 119 hk _ _ _ _ _ _ rfl
  · show gatherRun0.sl.dma121 c arg1 harg1 x0 hx0 fsrc (ix1 q) = _
    exact row_value c arg1 harg1 x0 hx0 fsrc q 120 hk _ _ _ _ _ _ rfl
  · show gatherRun0.sl.dma122 c arg1 harg1 x0 hx0 fsrc (ix1 q) = _
    exact row_value c arg1 harg1 x0 hx0 fsrc q 121 hk _ _ _ _ _ _ rfl
  · show gatherRun0.sl.dma123 c arg1 harg1 x0 hx0 fsrc (ix1 q) = _
    exact row_value c arg1 harg1 x0 hx0 fsrc q 122 hk _ _ _ _ _ _ rfl
  · show gatherRun0.sl.dma124 c arg1 harg1 x0 hx0 fsrc (ix1 q) = _
    exact row_value c arg1 harg1 x0 hx0 fsrc q 123 hk _ _ _ _ _ _ rfl
  · show gatherRun0.sl.dma125 c arg1 harg1 x0 hx0 fsrc (ix1 q) = _
    exact row_value c arg1 harg1 x0 hx0 fsrc q 124 hk _ _ _ _ _ _ rfl
  · show gatherRun0.sl.dma126 c arg1 harg1 x0 hx0 fsrc (ix1 q) = _
    exact row_value c arg1 harg1 x0 hx0 fsrc q 125 hk _ _ _ _ _ _ rfl
  · show gatherRun0.sl.dma127 c arg1 harg1 x0 hx0 fsrc (ix1 q) = _
    exact row_value c arg1 harg1 x0 hx0 fsrc q 126 hk _ _ _ _ _ _ rfl
  · show gatherRun0.sl.dma128 c arg1 harg1 x0 hx0 fsrc (ix1 q) = _
    exact row_value c arg1 harg1 x0 hx0 fsrc q 127 hk _ _ _ _ _ _ rfl
  · show gatherRun0.sl.dma129 c arg1 harg1 x0 hx0 fsrc (ix1 q) = _
    exact row_value c arg1 harg1 x0 hx0 fsrc q 128 hk _ _ _ _ _ _ rfl
  · show gatherRun0.sl.dma130 c arg1 harg1 x0 hx0 fsrc (ix1 q) = _
    exact row_value c arg1 harg1 x0 hx0 fsrc q 129 hk _ _ _ _ _ _ rfl
  · show gatherRun0.sl.dma131 c arg1 harg1 x0 hx0 fsrc (ix1 q) = _
    exact row_value c arg1 harg1 x0 hx0 fsrc q 130 hk _ _ _ _ _ _ rfl
  · show gatherRun0.sl.dma132 c arg1 harg1 x0 hx0 fsrc (ix1 q) = _
    exact row_value c arg1 harg1 x0 hx0 fsrc q 131 hk _ _ _ _ _ _ rfl
  · show gatherRun0.sl.dma133 c arg1 harg1 x0 hx0 fsrc (ix1 q) = _
    exact row_value c arg1 harg1 x0 hx0 fsrc q 132 hk _ _ _ _ _ _ rfl
  · show gatherRun0.sl.dma134 c arg1 harg1 x0 hx0 fsrc (ix1 q) = _
    exact row_value c arg1 harg1 x0 hx0 fsrc q 133 hk _ _ _ _ _ _ rfl
  · show gatherRun0.sl.dma135 c arg1 harg1 x0 hx0 fsrc (ix1 q) = _
    exact row_value c arg1 harg1 x0 hx0 fsrc q 134 hk _ _ _ _ _ _ rfl
  · show gatherRun0.sl.dma136 c arg1 harg1 x0 hx0 fsrc (ix1 q) = _
    exact row_value c arg1 harg1 x0 hx0 fsrc q 135 hk _ _ _ _ _ _ rfl
  · show gatherRun0.sl.dma137 c arg1 harg1 x0 hx0 fsrc (ix1 q) = _
    exact row_value c arg1 harg1 x0 hx0 fsrc q 136 hk _ _ _ _ _ _ rfl
  · show gatherRun0.sl.dma138 c arg1 harg1 x0 hx0 fsrc (ix1 q) = _
    exact row_value c arg1 harg1 x0 hx0 fsrc q 137 hk _ _ _ _ _ _ rfl
  · show gatherRun0.sl.dma139 c arg1 harg1 x0 hx0 fsrc (ix1 q) = _
    exact row_value c arg1 harg1 x0 hx0 fsrc q 138 hk _ _ _ _ _ _ rfl
  · show gatherRun0.sl.dma140 c arg1 harg1 x0 hx0 fsrc (ix1 q) = _
    exact row_value c arg1 harg1 x0 hx0 fsrc q 139 hk _ _ _ _ _ _ rfl
  · show gatherRun0.sl.dma141 c arg1 harg1 x0 hx0 fsrc (ix1 q) = _
    exact row_value c arg1 harg1 x0 hx0 fsrc q 140 hk _ _ _ _ _ _ rfl
  · show gatherRun0.sl.dma142 c arg1 harg1 x0 hx0 fsrc (ix1 q) = _
    exact row_value c arg1 harg1 x0 hx0 fsrc q 141 hk _ _ _ _ _ _ rfl
  · show gatherRun0.sl.dma143 c arg1 harg1 x0 hx0 fsrc (ix1 q) = _
    exact row_value c arg1 harg1 x0 hx0 fsrc q 142 hk _ _ _ _ _ _ rfl
  · show gatherRun0.sl.dma144 c arg1 harg1 x0 hx0 fsrc (ix1 q) = _
    exact row_value c arg1 harg1 x0 hx0 fsrc q 143 hk _ _ _ _ _ _ rfl
  · show gatherRun0.sl.dma145 c arg1 harg1 x0 hx0 fsrc (ix1 q) = _
    exact row_value c arg1 harg1 x0 hx0 fsrc q 144 hk _ _ _ _ _ _ rfl
  · show gatherRun0.sl.dma146 c arg1 harg1 x0 hx0 fsrc (ix1 q) = _
    exact row_value c arg1 harg1 x0 hx0 fsrc q 145 hk _ _ _ _ _ _ rfl
  · show gatherRun0.sl.dma147 c arg1 harg1 x0 hx0 fsrc (ix1 q) = _
    exact row_value c arg1 harg1 x0 hx0 fsrc q 146 hk _ _ _ _ _ _ rfl
  · show gatherRun0.sl.dma148 c arg1 harg1 x0 hx0 fsrc (ix1 q) = _
    exact row_value c arg1 harg1 x0 hx0 fsrc q 147 hk _ _ _ _ _ _ rfl
  · show gatherRun0.sl.dma149 c arg1 harg1 x0 hx0 fsrc (ix1 q) = _
    exact row_value c arg1 harg1 x0 hx0 fsrc q 148 hk _ _ _ _ _ _ rfl
  · show gatherRun0.sl.dma150 c arg1 harg1 x0 hx0 fsrc (ix1 q) = _
    exact row_value c arg1 harg1 x0 hx0 fsrc q 149 hk _ _ _ _ _ _ rfl
  · show gatherRun0.sl.dma151 c arg1 harg1 x0 hx0 fsrc (ix1 q) = _
    exact row_value c arg1 harg1 x0 hx0 fsrc q 150 hk _ _ _ _ _ _ rfl
  · show gatherRun0.sl.dma152 c arg1 harg1 x0 hx0 fsrc (ix1 q) = _
    exact row_value c arg1 harg1 x0 hx0 fsrc q 151 hk _ _ _ _ _ _ rfl
  · show gatherRun0.sl.dma153 c arg1 harg1 x0 hx0 fsrc (ix1 q) = _
    exact row_value c arg1 harg1 x0 hx0 fsrc q 152 hk _ _ _ _ _ _ rfl
  · show gatherRun0.sl.dma154 c arg1 harg1 x0 hx0 fsrc (ix1 q) = _
    exact row_value c arg1 harg1 x0 hx0 fsrc q 153 hk _ _ _ _ _ _ rfl
  · show gatherRun0.sl.dma155 c arg1 harg1 x0 hx0 fsrc (ix1 q) = _
    exact row_value c arg1 harg1 x0 hx0 fsrc q 154 hk _ _ _ _ _ _ rfl
  · show gatherRun0.sl.dma156 c arg1 harg1 x0 hx0 fsrc (ix1 q) = _
    exact row_value c arg1 harg1 x0 hx0 fsrc q 155 hk _ _ _ _ _ _ rfl
  · show gatherRun0.sl.dma157 c arg1 harg1 x0 hx0 fsrc (ix1 q) = _
    exact row_value c arg1 harg1 x0 hx0 fsrc q 156 hk _ _ _ _ _ _ rfl
  · show gatherRun0.sl.dma158 c arg1 harg1 x0 hx0 fsrc (ix1 q) = _
    exact row_value c arg1 harg1 x0 hx0 fsrc q 157 hk _ _ _ _ _ _ rfl
  · show gatherRun0.sl.dma159 c arg1 harg1 x0 hx0 fsrc (ix1 q) = _
    exact row_value c arg1 harg1 x0 hx0 fsrc q 158 hk _ _ _ _ _ _ rfl
  · show gatherRun0.sl.dma160 c arg1 harg1 x0 hx0 fsrc (ix1 q) = _
    exact row_value c arg1 harg1 x0 hx0 fsrc q 159 hk _ _ _ _ _ _ rfl
  · show gatherRun0.sl.dma161 c arg1 harg1 x0 hx0 fsrc (ix1 q) = _
    exact row_value c arg1 harg1 x0 hx0 fsrc q 160 hk _ _ _ _ _ _ rfl
  · show gatherRun0.sl.dma162 c arg1 harg1 x0 hx0 fsrc (ix1 q) = _
    exact row_value c arg1 harg1 x0 hx0 fsrc q 161 hk _ _ _ _ _ _ rfl
  · show gatherRun0.sl.dma163 c arg1 harg1 x0 hx0 fsrc (ix1 q) = _
    exact row_value c arg1 harg1 x0 hx0 fsrc q 162 hk _ _ _ _ _ _ rfl
  · show gatherRun0.sl.dma164 c arg1 harg1 x0 hx0 fsrc (ix1 q) = _
    exact row_value c arg1 harg1 x0 hx0 fsrc q 163 hk _ _ _ _ _ _ rfl
  · show gatherRun0.sl.dma165 c arg1 harg1 x0 hx0 fsrc (ix1 q) = _
    exact row_value c arg1 harg1 x0 hx0 fsrc q 164 hk _ _ _ _ _ _ rfl
  · show gatherRun0.sl.dma166 c arg1 harg1 x0 hx0 fsrc (ix1 q) = _
    exact row_value c arg1 harg1 x0 hx0 fsrc q 165 hk _ _ _ _ _ _ rfl
  · show gatherRun0.sl.dma167 c arg1 harg1 x0 hx0 fsrc (ix1 q) = _
    exact row_value c arg1 harg1 x0 hx0 fsrc q 166 hk _ _ _ _ _ _ rfl
  · show gatherRun0.sl.dma168 c arg1 harg1 x0 hx0 fsrc (ix1 q) = _
    exact row_value c arg1 harg1 x0 hx0 fsrc q 167 hk _ _ _ _ _ _ rfl
  · show gatherRun0.sl.dma169 c arg1 harg1 x0 hx0 fsrc (ix1 q) = _
    exact row_value c arg1 harg1 x0 hx0 fsrc q 168 hk _ _ _ _ _ _ rfl
  · show gatherRun0.sl.dma170 c arg1 harg1 x0 hx0 fsrc (ix1 q) = _
    exact row_value c arg1 harg1 x0 hx0 fsrc q 169 hk _ _ _ _ _ _ rfl
  · show gatherRun0.sl.dma171 c arg1 harg1 x0 hx0 fsrc (ix1 q) = _
    exact row_value c arg1 harg1 x0 hx0 fsrc q 170 hk _ _ _ _ _ _ rfl
  · show gatherRun0.sl.dma172 c arg1 harg1 x0 hx0 fsrc (ix1 q) = _
    exact row_value c arg1 harg1 x0 hx0 fsrc q 171 hk _ _ _ _ _ _ rfl
  · show gatherRun0.sl.dma173 c arg1 harg1 x0 hx0 fsrc (ix1 q) = _
    exact row_value c arg1 harg1 x0 hx0 fsrc q 172 hk _ _ _ _ _ _ rfl
  · show gatherRun0.sl.dma174 c arg1 harg1 x0 hx0 fsrc (ix1 q) = _
    exact row_value c arg1 harg1 x0 hx0 fsrc q 173 hk _ _ _ _ _ _ rfl
  · show gatherRun0.sl.dma175 c arg1 harg1 x0 hx0 fsrc (ix1 q) = _
    exact row_value c arg1 harg1 x0 hx0 fsrc q 174 hk _ _ _ _ _ _ rfl
  · show gatherRun0.sl.dma176 c arg1 harg1 x0 hx0 fsrc (ix1 q) = _
    exact row_value c arg1 harg1 x0 hx0 fsrc q 175 hk _ _ _ _ _ _ rfl
  · show gatherRun0.sl.dma177 c arg1 harg1 x0 hx0 fsrc (ix1 q) = _
    exact row_value c arg1 harg1 x0 hx0 fsrc q 176 hk _ _ _ _ _ _ rfl
  · show gatherRun0.sl.dma178 c arg1 harg1 x0 hx0 fsrc (ix1 q) = _
    exact row_value c arg1 harg1 x0 hx0 fsrc q 177 hk _ _ _ _ _ _ rfl
  · show gatherRun0.sl.dma179 c arg1 harg1 x0 hx0 fsrc (ix1 q) = _
    exact row_value c arg1 harg1 x0 hx0 fsrc q 178 hk _ _ _ _ _ _ rfl
  · show gatherRun0.sl.dma180 c arg1 harg1 x0 hx0 fsrc (ix1 q) = _
    exact row_value c arg1 harg1 x0 hx0 fsrc q 179 hk _ _ _ _ _ _ rfl
  · show gatherRun0.sl.dma181 c arg1 harg1 x0 hx0 fsrc (ix1 q) = _
    exact row_value c arg1 harg1 x0 hx0 fsrc q 180 hk _ _ _ _ _ _ rfl
  · show gatherRun0.sl.dma182 c arg1 harg1 x0 hx0 fsrc (ix1 q) = _
    exact row_value c arg1 harg1 x0 hx0 fsrc q 181 hk _ _ _ _ _ _ rfl
  · show gatherRun0.sl.dma183 c arg1 harg1 x0 hx0 fsrc (ix1 q) = _
    exact row_value c arg1 harg1 x0 hx0 fsrc q 182 hk _ _ _ _ _ _ rfl
  · show gatherRun0.sl.dma184 c arg1 harg1 x0 hx0 fsrc (ix1 q) = _
    exact row_value c arg1 harg1 x0 hx0 fsrc q 183 hk _ _ _ _ _ _ rfl
  · show gatherRun0.sl.dma185 c arg1 harg1 x0 hx0 fsrc (ix1 q) = _
    exact row_value c arg1 harg1 x0 hx0 fsrc q 184 hk _ _ _ _ _ _ rfl
  · show gatherRun0.sl.dma186 c arg1 harg1 x0 hx0 fsrc (ix1 q) = _
    exact row_value c arg1 harg1 x0 hx0 fsrc q 185 hk _ _ _ _ _ _ rfl
  · show gatherRun0.sl.dma187 c arg1 harg1 x0 hx0 fsrc (ix1 q) = _
    exact row_value c arg1 harg1 x0 hx0 fsrc q 186 hk _ _ _ _ _ _ rfl
  · show gatherRun0.sl.dma188 c arg1 harg1 x0 hx0 fsrc (ix1 q) = _
    exact row_value c arg1 harg1 x0 hx0 fsrc q 187 hk _ _ _ _ _ _ rfl
  · show gatherRun0.sl.dma189 c arg1 harg1 x0 hx0 fsrc (ix1 q) = _
    exact row_value c arg1 harg1 x0 hx0 fsrc q 188 hk _ _ _ _ _ _ rfl
  · show gatherRun0.sl.dma190 c arg1 harg1 x0 hx0 fsrc (ix1 q) = _
    exact row_value c arg1 harg1 x0 hx0 fsrc q 189 hk _ _ _ _ _ _ rfl
  · show gatherRun0.sl.dma191 c arg1 harg1 x0 hx0 fsrc (ix1 q) = _
    exact row_value c arg1 harg1 x0 hx0 fsrc q 190 hk _ _ _ _ _ _ rfl
  · show gatherRun0.sl.dma192 c arg1 harg1 x0 hx0 fsrc (ix1 q) = _
    exact row_value c arg1 harg1 x0 hx0 fsrc q 191 hk _ _ _ _ _ _ rfl
  · show gatherRun0.sl.dma193 c arg1 harg1 x0 hx0 fsrc (ix1 q) = _
    exact row_value c arg1 harg1 x0 hx0 fsrc q 192 hk _ _ _ _ _ _ rfl
  · show gatherRun0.sl.dma194 c arg1 harg1 x0 hx0 fsrc (ix1 q) = _
    exact row_value c arg1 harg1 x0 hx0 fsrc q 193 hk _ _ _ _ _ _ rfl
  · show gatherRun0.sl.dma195 c arg1 harg1 x0 hx0 fsrc (ix1 q) = _
    exact row_value c arg1 harg1 x0 hx0 fsrc q 194 hk _ _ _ _ _ _ rfl
  · show gatherRun0.sl.dma196 c arg1 harg1 x0 hx0 fsrc (ix1 q) = _
    exact row_value c arg1 harg1 x0 hx0 fsrc q 195 hk _ _ _ _ _ _ rfl
  · show gatherRun0.sl.dma197 c arg1 harg1 x0 hx0 fsrc (ix1 q) = _
    exact row_value c arg1 harg1 x0 hx0 fsrc q 196 hk _ _ _ _ _ _ rfl
  · show gatherRun0.sl.dma198 c arg1 harg1 x0 hx0 fsrc (ix1 q) = _
    exact row_value c arg1 harg1 x0 hx0 fsrc q 197 hk _ _ _ _ _ _ rfl
  · show gatherRun0.sl.dma199 c arg1 harg1 x0 hx0 fsrc (ix1 q) = _
    exact row_value c arg1 harg1 x0 hx0 fsrc q 198 hk _ _ _ _ _ _ rfl
  · show gatherRun0.sl.dma200 c arg1 harg1 x0 hx0 fsrc (ix1 q) = _
    exact row_value c arg1 harg1 x0 hx0 fsrc q 199 hk _ _ _ _ _ _ rfl
  · show gatherRun0.sl.dma201 c arg1 harg1 x0 hx0 fsrc (ix1 q) = _
    exact row_value c arg1 harg1 x0 hx0 fsrc q 200 hk _ _ _ _ _ _ rfl
  · show gatherRun0.sl.dma202 c arg1 harg1 x0 hx0 fsrc (ix1 q) = _
    exact row_value c arg1 harg1 x0 hx0 fsrc q 201 hk _ _ _ _ _ _ rfl
  · show gatherRun0.sl.dma203 c arg1 harg1 x0 hx0 fsrc (ix1 q) = _
    exact row_value c arg1 harg1 x0 hx0 fsrc q 202 hk _ _ _ _ _ _ rfl
  · show gatherRun0.sl.dma204 c arg1 harg1 x0 hx0 fsrc (ix1 q) = _
    exact row_value c arg1 harg1 x0 hx0 fsrc q 203 hk _ _ _ _ _ _ rfl
  · show gatherRun0.sl.dma205 c arg1 harg1 x0 hx0 fsrc (ix1 q) = _
    exact row_value c arg1 harg1 x0 hx0 fsrc q 204 hk _ _ _ _ _ _ rfl
  · show gatherRun0.sl.dma206 c arg1 harg1 x0 hx0 fsrc (ix1 q) = _
    exact row_value c arg1 harg1 x0 hx0 fsrc q 205 hk _ _ _ _ _ _ rfl
  · show gatherRun0.sl.dma207 c arg1 harg1 x0 hx0 fsrc (ix1 q) = _
    exact row_value c arg1 harg1 x0 hx0 fsrc q 206 hk _ _ _ _ _ _ rfl
  · show gatherRun0.sl.dma208 c arg1 harg1 x0 hx0 fsrc (ix1 q) = _
    exact row_value c arg1 harg1 x0 hx0 fsrc q 207 hk _ _ _ _ _ _ rfl
  · show gatherRun0.sl.dma209 c arg1 harg1 x0 hx0 fsrc (ix1 q) = _
    exact row_value c arg1 harg1 x0 hx0 fsrc q 208 hk _ _ _ _ _ _ rfl
  · show gatherRun0.sl.dma210 c arg1 harg1 x0 hx0 fsrc (ix1 q) = _
    exact row_value c arg1 harg1 x0 hx0 fsrc q 209 hk _ _ _ _ _ _ rfl
  · show gatherRun0.sl.dma211 c arg1 harg1 x0 hx0 fsrc (ix1 q) = _
    exact row_value c arg1 harg1 x0 hx0 fsrc q 210 hk _ _ _ _ _ _ rfl
  · show gatherRun0.sl.dma212 c arg1 harg1 x0 hx0 fsrc (ix1 q) = _
    exact row_value c arg1 harg1 x0 hx0 fsrc q 211 hk _ _ _ _ _ _ rfl
  · show gatherRun0.sl.dma213 c arg1 harg1 x0 hx0 fsrc (ix1 q) = _
    exact row_value c arg1 harg1 x0 hx0 fsrc q 212 hk _ _ _ _ _ _ rfl
  · show gatherRun0.sl.dma214 c arg1 harg1 x0 hx0 fsrc (ix1 q) = _
    exact row_value c arg1 harg1 x0 hx0 fsrc q 213 hk _ _ _ _ _ _ rfl
  · show gatherRun0.sl.dma215 c arg1 harg1 x0 hx0 fsrc (ix1 q) = _
    exact row_value c arg1 harg1 x0 hx0 fsrc q 214 hk _ _ _ _ _ _ rfl
  · show gatherRun0.sl.dma216 c arg1 harg1 x0 hx0 fsrc (ix1 q) = _
    exact row_value c arg1 harg1 x0 hx0 fsrc q 215 hk _ _ _ _ _ _ rfl
  · show gatherRun0.sl.dma217 c arg1 harg1 x0 hx0 fsrc (ix1 q) = _
    exact row_value c arg1 harg1 x0 hx0 fsrc q 216 hk _ _ _ _ _ _ rfl
  · show gatherRun0.sl.dma218 c arg1 harg1 x0 hx0 fsrc (ix1 q) = _
    exact row_value c arg1 harg1 x0 hx0 fsrc q 217 hk _ _ _ _ _ _ rfl
  · show gatherRun0.sl.dma219 c arg1 harg1 x0 hx0 fsrc (ix1 q) = _
    exact row_value c arg1 harg1 x0 hx0 fsrc q 218 hk _ _ _ _ _ _ rfl
  · show gatherRun0.sl.dma220 c arg1 harg1 x0 hx0 fsrc (ix1 q) = _
    exact row_value c arg1 harg1 x0 hx0 fsrc q 219 hk _ _ _ _ _ _ rfl
  · show gatherRun0.sl.dma221 c arg1 harg1 x0 hx0 fsrc (ix1 q) = _
    exact row_value c arg1 harg1 x0 hx0 fsrc q 220 hk _ _ _ _ _ _ rfl
  · show gatherRun0.sl.dma222 c arg1 harg1 x0 hx0 fsrc (ix1 q) = _
    exact row_value c arg1 harg1 x0 hx0 fsrc q 221 hk _ _ _ _ _ _ rfl
  · show gatherRun0.sl.dma223 c arg1 harg1 x0 hx0 fsrc (ix1 q) = _
    exact row_value c arg1 harg1 x0 hx0 fsrc q 222 hk _ _ _ _ _ _ rfl
  · show gatherRun0.sl.dma224 c arg1 harg1 x0 hx0 fsrc (ix1 q) = _
    exact row_value c arg1 harg1 x0 hx0 fsrc q 223 hk _ _ _ _ _ _ rfl
  · show gatherRun0.sl.dma225 c arg1 harg1 x0 hx0 fsrc (ix1 q) = _
    exact row_value c arg1 harg1 x0 hx0 fsrc q 224 hk _ _ _ _ _ _ rfl
  · show gatherRun0.sl.dma226 c arg1 harg1 x0 hx0 fsrc (ix1 q) = _
    exact row_value c arg1 harg1 x0 hx0 fsrc q 225 hk _ _ _ _ _ _ rfl
  · show gatherRun0.sl.dma227 c arg1 harg1 x0 hx0 fsrc (ix1 q) = _
    exact row_value c arg1 harg1 x0 hx0 fsrc q 226 hk _ _ _ _ _ _ rfl
  · show gatherRun0.sl.dma228 c arg1 harg1 x0 hx0 fsrc (ix1 q) = _
    exact row_value c arg1 harg1 x0 hx0 fsrc q 227 hk _ _ _ _ _ _ rfl
  · show gatherRun0.sl.dma229 c arg1 harg1 x0 hx0 fsrc (ix1 q) = _
    exact row_value c arg1 harg1 x0 hx0 fsrc q 228 hk _ _ _ _ _ _ rfl
  · show gatherRun0.sl.dma230 c arg1 harg1 x0 hx0 fsrc (ix1 q) = _
    exact row_value c arg1 harg1 x0 hx0 fsrc q 229 hk _ _ _ _ _ _ rfl
  · show gatherRun0.sl.dma231 c arg1 harg1 x0 hx0 fsrc (ix1 q) = _
    exact row_value c arg1 harg1 x0 hx0 fsrc q 230 hk _ _ _ _ _ _ rfl
  · show gatherRun0.sl.dma232 c arg1 harg1 x0 hx0 fsrc (ix1 q) = _
    exact row_value c arg1 harg1 x0 hx0 fsrc q 231 hk _ _ _ _ _ _ rfl
  · show gatherRun0.sl.dma233 c arg1 harg1 x0 hx0 fsrc (ix1 q) = _
    exact row_value c arg1 harg1 x0 hx0 fsrc q 232 hk _ _ _ _ _ _ rfl
  · show gatherRun0.sl.dma234 c arg1 harg1 x0 hx0 fsrc (ix1 q) = _
    exact row_value c arg1 harg1 x0 hx0 fsrc q 233 hk _ _ _ _ _ _ rfl
  · show gatherRun0.sl.dma235 c arg1 harg1 x0 hx0 fsrc (ix1 q) = _
    exact row_value c arg1 harg1 x0 hx0 fsrc q 234 hk _ _ _ _ _ _ rfl
  · show gatherRun0.sl.dma236 c arg1 harg1 x0 hx0 fsrc (ix1 q) = _
    exact row_value c arg1 harg1 x0 hx0 fsrc q 235 hk _ _ _ _ _ _ rfl
  · show gatherRun0.sl.dma237 c arg1 harg1 x0 hx0 fsrc (ix1 q) = _
    exact row_value c arg1 harg1 x0 hx0 fsrc q 236 hk _ _ _ _ _ _ rfl
  · show gatherRun0.sl.dma238 c arg1 harg1 x0 hx0 fsrc (ix1 q) = _
    exact row_value c arg1 harg1 x0 hx0 fsrc q 237 hk _ _ _ _ _ _ rfl
  · show gatherRun0.sl.dma239 c arg1 harg1 x0 hx0 fsrc (ix1 q) = _
    exact row_value c arg1 harg1 x0 hx0 fsrc q 238 hk _ _ _ _ _ _ rfl
  · show gatherRun0.sl.dma240 c arg1 harg1 x0 hx0 fsrc (ix1 q) = _
    exact row_value c arg1 harg1 x0 hx0 fsrc q 239 hk _ _ _ _ _ _ rfl
  · show gatherRun0.sl.dma241 c arg1 harg1 x0 hx0 fsrc (ix1 q) = _
    exact row_value c arg1 harg1 x0 hx0 fsrc q 240 hk _ _ _ _ _ _ rfl
  · show gatherRun0.sl.dma242 c arg1 harg1 x0 hx0 fsrc (ix1 q) = _
    exact row_value c arg1 harg1 x0 hx0 fsrc q 241 hk _ _ _ _ _ _ rfl
  · show gatherRun0.sl.dma243 c arg1 harg1 x0 hx0 fsrc (ix1 q) = _
    exact row_value c arg1 harg1 x0 hx0 fsrc q 242 hk _ _ _ _ _ _ rfl
  · show gatherRun0.sl.dma244 c arg1 harg1 x0 hx0 fsrc (ix1 q) = _
    exact row_value c arg1 harg1 x0 hx0 fsrc q 243 hk _ _ _ _ _ _ rfl
  · show gatherRun0.sl.dma245 c arg1 harg1 x0 hx0 fsrc (ix1 q) = _
    exact row_value c arg1 harg1 x0 hx0 fsrc q 244 hk _ _ _ _ _ _ rfl
  · show gatherRun0.sl.dma246 c arg1 harg1 x0 hx0 fsrc (ix1 q) = _
    exact row_value c arg1 harg1 x0 hx0 fsrc q 245 hk _ _ _ _ _ _ rfl
  · show gatherRun0.sl.dma247 c arg1 harg1 x0 hx0 fsrc (ix1 q) = _
    exact row_value c arg1 harg1 x0 hx0 fsrc q 246 hk _ _ _ _ _ _ rfl
  · show gatherRun0.sl.dma248 c arg1 harg1 x0 hx0 fsrc (ix1 q) = _
    exact row_value c arg1 harg1 x0 hx0 fsrc q 247 hk _ _ _ _ _ _ rfl
  · show gatherRun0.sl.dma249 c arg1 harg1 x0 hx0 fsrc (ix1 q) = _
    exact row_value c arg1 harg1 x0 hx0 fsrc q 248 hk _ _ _ _ _ _ rfl
  · show gatherRun0.sl.dma250 c arg1 harg1 x0 hx0 fsrc (ix1 q) = _
    exact row_value c arg1 harg1 x0 hx0 fsrc q 249 hk _ _ _ _ _ _ rfl
  · show gatherRun0.sl.dma251 c arg1 harg1 x0 hx0 fsrc (ix1 q) = _
    exact row_value c arg1 harg1 x0 hx0 fsrc q 250 hk _ _ _ _ _ _ rfl
  · show gatherRun0.sl.dma252 c arg1 harg1 x0 hx0 fsrc (ix1 q) = _
    exact row_value c arg1 harg1 x0 hx0 fsrc q 251 hk _ _ _ _ _ _ rfl
  · show gatherRun0.sl.dma253 c arg1 harg1 x0 hx0 fsrc (ix1 q) = _
    exact row_value c arg1 harg1 x0 hx0 fsrc q 252 hk _ _ _ _ _ _ rfl
  · show gatherRun0.sl.dma254 c arg1 harg1 x0 hx0 fsrc (ix1 q) = _
    exact row_value c arg1 harg1 x0 hx0 fsrc q 253 hk _ _ _ _ _ _ rfl
  · show gatherRun0.sl.dma255 c arg1 harg1 x0 hx0 fsrc (ix1 q) = _
    exact row_value c arg1 harg1 x0 hx0 fsrc q 254 hk _ _ _ _ _ _ rfl
  · show gatherRun0.sl.dma256 c arg1 harg1 x0 hx0 fsrc (ix1 q) = _
    exact row_value c arg1 harg1 x0 hx0 fsrc q 255 hk _ _ _ _ _ _ rfl

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SN : Shape := ⟨2, ![100000, 64]⟩

abbrev SE : Shape := ⟨1, ![1600000]⟩

abbrev SEF : Shape := ⟨2, ![1600000, 64]⟩

abbrev S0 : Shape := ⟨0, ![]⟩

def rowOf (w : BitVec 32) : Fin 100000 := ⟨w.toNat % 100000, Nat.mod_lt _ (by norm_num)⟩

theorem rowOf_val {w : BitVec 32} (h : w.toNat < 100000) : (rowOf w).val = w.toNat :=
  Nat.mod_eq_of_lt h

def gmsg (y : FVec Ideal SN .f32) (vals : FVec Ideal SE .f32) (cols : IVec SE 32) : FVec Ideal SEF .f32 :=
  fun i => y (ix2 (rowOf (cols (ix1 (i 0 : Fin 1600000)))) (i 1 : Fin 64)) * vals (ix1 (i 0 : Fin 1600000))

theorem gmsg_apply (y : FVec Ideal SN .f32) (vals : FVec Ideal SE .f32) (cols : IVec SE 32)
    (e : Fin 1600000) (f : Fin 64) :
    gmsg y vals cols (ix2 e f) = y (ix2 (rowOf (cols (ix1 e))) f) * vals (ix1 e) := rfl

def finS (a s x : EReal) : EReal :=
  let v : EReal := a * s - x
  let v1 : EReal := Scalar.select (Ideal.cmp .une v v) (Ideal.ofBits .f32 0x00000000#32) v
  let v2 : EReal := Scalar.select (Ideal.cmp .oeq v1 (Ideal.ofBits .f32 0x7F800000#32)) (Ideal.ofBits .f32 0x47C35000#32) v1
  let v3 : EReal := Scalar.select (Ideal.cmp .oeq v2 (Ideal.ofBits .f32 0xFF800000#32)) (Ideal.ofBits .f32 0xC7C35000#32) v2
  min (Ideal.ofBits .f32 0x41200000#32) (max (Ideal.ofBits .f32 0xC1200000#32) v3)

theorem cmp_une_self (v : EReal) : Ideal.cmp .une v v = 0#1 := by
  simp [Ideal.cmp]

theorem cmp_one_self (v : EReal) : Ideal.cmp .one v v = 0#1 := by
  simp [Ideal.cmp]

theorem cmp_one_eq_une (v w : EReal) : Ideal.cmp .one v w = Ideal.cmp .une v w := rfl

theorem finS_eq (a s x : EReal) :
    finS a s x =
      (let v : EReal := a * s - x
       let v2 : EReal := Scalar.select (Ideal.cmp .oeq v (Ideal.ofBits .f32 0x7F800000#32)) (Ideal.ofBits .f32 0x47C35000#32) v
       let v3 : EReal := Scalar.select (Ideal.cmp .oeq v2 (Ideal.ofBits .f32 0xFF800000#32)) (Ideal.ofBits .f32 0xC7C35000#32) v2
       min (Ideal.ofBits .f32 0x41200000#32) (max (Ideal.ofBits .f32 0xC1200000#32) v3)) := by
  simp only [finS, cmp_une_self, select_zero]

def fin (a : FVec Ideal S0 .f32) (s x : FVec Ideal SN .f32) : FVec Ideal SN .f32 :=
  fun i => finS (a ix0) (s i) (x i)

theorem fin_apply (a : FVec Ideal S0 .f32) (s x : FVec Ideal SN .f32) (i : SN.Idx) :
    fin a s x i = finS (a ix0) (s i) (x i) := rfl

def alph (al : FVec Ideal S0 .f32) : FVec Ideal S0 .f32 :=
  minimumf (constant (F := Ideal) S0 .f32 0x3F7FFFFE#32)
    (maximumf (constant (F := Ideal) S0 .f32 0x33D6BF95#32)
      (Host.divf (constant (F := Ideal) S0 .f32 0x3F800000#32)
        (addf (constant (F := Ideal) S0 .f32 0x3F800000#32) (Host.exp (Host.negf al)))))

def result (sc : FVec Ideal SEF .f32 → FVec Ideal SN .f32) (x : FVec Ideal SN .f32) (al : FVec Ideal S0 .f32)
    (vals : FVec Ideal SE .f32) (cols : IVec SE 32) : FVec Ideal SN .f32 :=
  fin (alph al) (sc (gmsg (sc (gmsg x vals cols)) vals cols)) x

end Cert.Spec

end
-- ==== Proof.KI.ValueGather0.lean ====
import proofs.«423446_j56083682951492_1_alg».proof.Proof.KI.Gather0RunValue
import proofs.«423446_j56083682951492_1_alg».proof.Proof.KI.Gather0Dat
import proofs.«423446_j56083682951492_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Value
variable (V : (c : Dev nD) → (b : Ref sig .tc) → Buf (Elt Ideal) ((c : Thread nD τ).loc b))

theorem idx_facts0 : ∀ t : Fin cfg0.N, win0_0.index t (0 : Fin 1) = t.val
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem N0_val (t : Fin cfg0.N) : t.val < 6250 := by
  have h1 := t.isLt
  have h2 : cfg0.N = 6250 := N_0
  omega

theorem iblk0_0_apply (c : Dev nD) (t : Fin cfg0.N) (p : Fin 256) (k : S1600000.Idx) (hk : (k 0).val = 256 * t.val + p.val) :
    (iblk0 V c 0 t : Vec Ideal S256 .i32) (ix1 p) = (V c main_arg4 : S1600000.Idx → Elt Ideal .i32) k := by
  obtain ⟨e0, -, -, -, -⟩ := idx_facts0 t
  unfold iblk0
  rw [View.read_apply]
  show V c main_arg4 _ = V c main_arg4 _
  congr 1
  funext a
  apply Fin.ext
  match a with
  | ⟨0, _⟩ => show win0_0.index t 0 * 256 + 1 * p.val = (k 0).val; rw [e0, hk]; omega

theorem iblk0_1_apply (c : Dev nD) (t : Fin cfg0.N) (p : Fin 256) (k : S1600000x1.Idx) (hk : (k 0).val = 256 * t.val + p.val) :
    (iblk0 V c 1 t : Vec Ideal S256x1 .f32) (ix2 p 0) = (V c main_v0 : S1600000x1.Idx → Elt Ideal .f32) k := by
  obtain ⟨-, e0, e1, -, -⟩ := idx_facts0 t
  unfold iblk0
  rw [View.read_apply]
  show V c main_v0 _ = V c main_v0 _
  congr 1
  funext a
  apply Fin.ext
  match a with
  | ⟨0, _⟩ => show win0_1.index t 0 * 256 + 1 * p.val = (k 0).val; rw [e0, hk]; omega
  | ⟨1, _⟩ => show win0_1.index t 1 * 1 + 1 * 0 = (k 1).val; have h1 : (k 1).val < 1 := (k 1).isLt; rw [e1]; omega

theorem out0_apply (hH : Hyps0 V) (c : Dev nD) (t : Fin cfg0.N) (p : Fin 256) (q : Fin 64) :
    out0 V hH c t (ix2 p q)
      = (show FVec Ideal S100000x64 .f32 from V c main_arg0) (ix2 ⟨((iblk0 V c 0 t : Vec Ideal S256 .i32) (ix1 p)).toNat, hH c t _⟩ q)
        * (iblk0 V c 1 t : Vec Ideal S256x1 .f32) (ix2 p 0) := by
  unfold out0
  exact gatherRun0_apply _ _ _ _ _ _ _ _ _ _ _ _ p q

theorem flushed0_eq (hH : Hyps0 V) (c : Dev nD) (t : Fin cfg0.N) :
    (dat0 V hH c).flushed 2 t = ((cfg0.win 2).blk t).view.read (Elt Ideal)
      (Cert.Spec.gmsg (V c main_arg0) (fun e => (V c main_v0 : S1600000x1.Idx → Elt Ideal .f32) (ix2 (e 0 : Fin 1600000) 0)) (V c main_arg4)) := by
  show (cfg0.win 2).cut (grid0.coords t) ((dat0 V hH c).after 2 t) = _
  rw [after0_2]
  funext j
  obtain ⟨p, q, rfl⟩ : ∃ (p : Fin 256) (q : Fin 64), j = ix2 p q := ⟨j 0, j 1, eq_ix2 j⟩
  obtain ⟨-, -, -, e0, e1⟩ := idx_facts0 t
  have ht := N0_val t
  have hp := p.isLt
  have hrow : 256 * t.val + p.val < 1600000 := by omega
  have hemb : ((cfg0.win 2).blk t).view.emb (ix2 p q) = ix2 (⟨256 * t.val + p.val, hrow⟩ : Fin 1600000) q := by
    funext a; apply Fin.ext
    match a with
    | ⟨0, _⟩ => show win0_2.index t 0 * 256 + 1 * p.val = 256 * t.val + p.val; rw [e0]; omega
    | ⟨1, _⟩ => show win0_2.index t 1 * 64 + 1 * q.val = q.val; rw [e1]; omega
  rw [View.read_apply, hemb, cast_eq]
  show out0 V hH c t (ix2 p q) = _
  rw [out0_apply V hH c t p q, Cert.Spec.gmsg_apply, iblk0_1_apply V c t p (ix2 ⟨256 * t.val + p.val, hrow⟩ 0) rfl]
  have hw := iblk0_0_apply V c t p (ix1 ⟨256 * t.val + p.val, hrow⟩) rfl
  have hidx : (⟨((iblk0 V c 0 t : Vec Ideal S256 .i32) (ix1 p)).toNat, hH c t _⟩ : Fin 100000)
      = Cert.Spec.rowOf ((V c main_arg4 : S1600000.Idx → Elt Ideal .i32) (ix1 ⟨256 * t.val + p.val, hrow⟩)) :=
    Fin.ext (by
      show _ = _ % 100000
      rw [← hw]
      exact (Nat.mod_eq_of_lt (hH c t _)).symm)
  rw [hidx]

theorem mem_blk0 (t : Fin cfg0.N) (i : S1600000x64.Idx) :
    i ∈ ((cfg0.win 2).blk t).view.set ↔ ∀ a : Fin 2, win0_2.index t a * S256x64.size a ≤ (i a).val ∧ (i a).val < win0_2.index t a * S256x64.size a + S256x64.size a := by
  show i ∈ ((View.whole main_v1).slice (win0_2.rect t)).set ↔ _
  rw [View.set_slice_whole, Rect.mem_set_unit]
  exact Iff.rfl

theorem cover0 (i : S1600000x64.Idx) : ∃ t : Fin cfg0.N, (cfg0.win 2).flush t = true ∧ i ∈ ((cfg0.win 2).blk t).view.set := by
  have h0 : (i 0).val < 1600000 := (i 0).isLt
  have h1 : (i 1).val < 64 := (i 1).isLt
  have hN : cfg0.N = 6250 := N_0
  obtain ⟨t, ht⟩ : ∃ t : Fin cfg0.N, t.val = (i 0).val / 256 := ⟨⟨(i 0).val / 256, by rw [hN]; omega⟩, rfl⟩
  obtain ⟨-, -, -, e0, e1⟩ := idx_facts0 t
  refine ⟨t, flush0_2 t, ?_⟩
  rw [mem_blk0]
  intro a
  match a with
  | ⟨0, _⟩ => show win0_2.index t 0 * 256 ≤ (i 0).val ∧ (i 0).val < win0_2.index t 0 * 256 + 256; rw [e0, ht]; omega
  | ⟨1, _⟩ => show win0_2.index t 1 * 64 ≤ (i 1).val ∧ (i 1).val < win0_2.index t 1 * 64 + 64; rw [e1]; omega

theorem gather0_final (hH : Hyps0 V) (c : Dev nD) :
    (dat0 V hH c).arrAt 2 cfg0.N
      = Cert.Spec.gmsg (V c main_arg0) (fun e => (V c main_v0 : S1600000x1.Idx → Elt Ideal .f32) (ix2 (e 0 : Fin 1600000) 0)) (V c main_arg4) :=
  (dat0 V hH c).arrAt_eq_of_cover 2 _ (fun t _ => flushed0_eq V hH c t) cover0

end Value

end Cert.KernelIdeal.Hand
end
-- ==== Proof.KI.Gather1RunValue.lean ====
import proofs.«423446_j56083682951492_1_alg».proof.Proof.KI.Gather1Run
import proofs.«423446_j56083682951492_1_alg».proof.Proof.KI.Gather0RunValue

noncomputable section

namespace Cert.KernelIdeal.Hand

open Cert.KernelIdeal Cert.KernelIdeal.Gen
open Idealize.ShloMosaic Idealize.ShloMosaic.TcCoe Idealize.ShloMosaic.ValueIdx

theorem k1_pay1_apply (A : Vec Ideal S256x64 .f32) (B : Vec Ideal S256x1 .f32) (p : Fin 256) (q : Fin 64) :
    k1_pay1 (F := Ideal) A B (ix2 p q) = A (ix2 p q) * B (ix2 p (0 : Fin 1)) := by
  unfold k1_pay1
  show shapeCast S256x64 A shapeCasts_S256x64_S256x64 (ix2 p q)
      * broadcastTo S256x64 (shapeCast S256x1 B shapeCasts_S256x1_S256x1) broadcasts_S256x1_S256x64 (ix2 p q) = _
  rw [shapeCast_self, shapeCast_self,
    broadcastTo_apply B broadcasts_S256x1_S256x64 (ix2 p q) (ix2 p (0 : Fin 1)) (fun a => by
      match a with
      | ⟨0, _⟩ => rfl
      | ⟨1, _⟩ => rfl)]

variable {F : FTy → Type} [FloatOps F]

theorem row_value1 (c : Dev nD) (arg1 : Memref sig .tc .smem S256 .i32) (harg1 : arg1.IsWhole) (x0 : Vec F S256 .i32)
    (hx0 : RowsOK x0) (fsrc : HbBuf (F := F) c hb_src1) (q : Fin 64) (k : ℕ) (hk256 : k < 256)
    (off : Fin 2 → ℕ) (h : ∀ a, off a + S1x64.size a ≤ S100000x64.size a)
    (hs : ∀ a, (Rect.unit (s := S100000x64) off S1x64.size h).stride a = 1) (hq : S1x64.Squeezes S64)
    (hk : ∀ a, (![k] : Fin 1 → ℕ) a + S1.size a ≤ S256.size a)
    (x : (Rect.unit (s := S256) ![k] S1.size hk).toLoadRect.shape.Idx)
    (hoff : off = ![(View.readAt (Elt F) arg1.view (Rect.unit (s := S256) ![k] S1.size hk).toLoadRect (harg1.unread x0) x).toNat, 0]) :
    (ReadAs.same : ReadAs (Elt F) S64 .f32 S64 .f32).apply
        (View.read (Elt F) (((Memref.whole main_v4).slice (Rect.unit (s := S100000x64) off S1x64.size h) hs).squeeze S64 hq).view
          fsrc) (ix1 q)
      = (fsrc : S100000x64.Idx → Elt F .f32) (ix2 (⟨(x0 (ix1 (⟨k, hk256⟩ : Fin 256))).toNat, hx0 _⟩ : Fin 100000) q) := by
  refine pay_src1_row c off h hs hq fsrc q _ ?_ ?_
  · rw [hoff, word_read arg1 harg1 x0 k hk x ⟨k, hk256⟩ rfl]; rfl
  · rw [hoff]; rfl

set_option maxHeartbeats 8000000 in
theorem gatherRun1_apply (c : Dev nD) (i : grid1.Coords) (arg1 : Memref sig .tc .smem S256 .i32) (harg1 : arg1.IsWhole)
    (x0 : Vec Ideal S256 .i32) (hx0 : RowsOK x0) (arg2 : Memref sig .tc .vmem S256x1 .f32) (harg2 : arg2.IsWhole)
    (x1 : Vec Ideal S256x1 .f32) (arg4 : Memref sig .tc .vmem S256x64 .f32) (harg4 : arg4.IsWhole)
    (fsrc : HbBuf (F := Ideal) c hb_src1) (p : Fin 256) (q : Fin 64) :
    (gatherRun1 (F := Ideal) c i arg1 harg1 x0 hx0 arg2 harg2 x1 arg4 harg4 fsrc).1 (ix2 p q)
      = (show FVec Ideal S100000x64 .f32 from fsrc) (ix2 ⟨(x0 (ix1 p)).toNat, hx0 _⟩ q) * x1 (ix2 p 0) := by
  unfold gatherRun1
  dsimp only
  rw [read_writes_block]
  unfold gatherRun1.sl.r_256
  rw [k1_pay1_apply]
  unfold gatherRun1.sl.v
  rw [readAt_unit_zero_unread arg4 harg4 _ (fun a => by fin_cases a <;> rfl),
    readAt_unit_zero_unread arg2 harg2 x1 (fun a => by fin_cases a <;> rfl)]
  refine congrArg (· * x1 (ix2 p (0 : Fin 1))) ?_
  obtain ⟨k, hk⟩ := p
  interval_cases k
  · show gatherRun1.sl.dma1 c arg1 harg1 x0 hx0 fsrc (ix1 q) = _
    exact row_value1 c arg1 harg1 x0 hx0 fsrc q 0 hk _ _ _ _ _ _ rfl
  · show gatherRun1.sl.dma2 c arg1 harg1 x0 hx0 fsrc (ix1 q) = _
    exact row_value1 c arg1 harg1 x0 hx0 fsrc q 1 hk _ _ _ _ _ _ rfl
  · show gatherRun1.sl.dma3 c arg1 harg1 x0 hx0 fsrc (ix1 q) = _
    exact row_value1 c arg1 harg1 x0 hx0 fsrc q 2 hk _ _ _ _ _ _ rfl
  · show gatherRun1.sl.dma4 c arg1 harg1 x0 hx0 fsrc (ix1 q) = _
    exact row_value1 c arg1 harg1 x0 hx0 fsrc q 3 hk _ _ _ _ _ _ rfl
  · show gatherRun1.sl.dma5 c arg1 harg1 x0 hx0 fsrc (ix1 q) = _
    exact row_value1 c arg1 harg1 x0 hx0 fsrc q 4 hk _ _ _ _ _ _ rfl
  · show gatherRun1.sl.dma6 c arg1 harg1 x0 hx0 fsrc (ix1 q) = _
    exact row_value1 c arg1 harg1 x0 hx0 fsrc q 5 hk _ _ _ _ _ _ rfl
  · show gatherRun1.sl.dma7 c arg1 harg1 x0 hx0 fsrc (ix1 q) = _
    exact row_value1 c arg1 harg1 x0 hx0 fsrc q 6 hk _ _ _ _ _ _ rfl
  · show gatherRun1.sl.dma8 c arg1 harg1 x0 hx0 fsrc (ix1 q) = _
    exact row_value1 c arg1 harg1 x0 hx0 fsrc q 7 hk _ _ _ _ _ _ rfl
  · show gatherRun1.sl.dma9 c arg1 harg1 x0 hx0 fsrc (ix1 q) = _
    exact row_value1 c arg1 harg1 x0 hx0 fsrc q 8 hk _ _ _ _ _ _ rfl
  · show gatherRun1.sl.dma10 c arg1 harg1 x0 hx0 fsrc (ix1 q) = _
    exact row_value1 c arg1 harg1 x0 hx0 fsrc q 9 hk _ _ _ _ _ _ rfl
  · show gatherRun1.sl.dma11 c arg1 harg1 x0 hx0 fsrc (ix1 q) = _
    exact row_value1 c arg1 harg1 x0 hx0 fsrc q 10 hk _ _ _ _ _ _ rfl
  · show gatherRun1.sl.dma12 c arg1 harg1 x0 hx0 fsrc (ix1 q) = _
    exact row_value1 c arg1 harg1 x0 hx0 fsrc q 11 hk _ _ _ _ _ _ rfl
  · show gatherRun1.sl.dma13 c arg1 harg1 x0 hx0 fsrc (ix1 q) = _
    exact row_value1 c arg1 harg1 x0 hx0 fsrc q 12 hk _ _ _ _ _ _ rfl
  · show gatherRun1.sl.dma14 c arg1 harg1 x0 hx0 fsrc (ix1 q) = _
    exact row_value1 c arg1 harg1 x0 hx0 fsrc q 13 hk _ _ _ _ _ _ rfl
  · show gatherRun1.sl.dma15 c arg1 harg1 x0 hx0 fsrc (ix1 q) = _
    exact row_value1 c arg1 harg1 x0 hx0 fsrc q 14 hk _ _ _ _ _ _ rfl
  · show gatherRun1.sl.dma16 c arg1 harg1 x0 hx0 fsrc (ix1 q) = _
    exact row_value1 c arg1 harg1 x0 hx0 fsrc q 15 hk _ _ _ _ _ _ rfl
  · show gatherRun1.sl.dma17 c arg1 harg1 x0 hx0 fsrc (ix1 q) = _
    exact row_value1 c arg1 harg1 x0 hx0 fsrc q 16 hk _ _ _ _ _ _ rfl
  · show gatherRun1.sl.dma18 c arg1 harg1 x0 hx0 fsrc (ix1 q) = _
    exact row_value1 c arg1 harg1 x0 hx0 fsrc q 17 hk _ _ _ _ _ _ rfl
  · show gatherRun1.sl.dma19 c arg1 harg1 x0 hx0 fsrc (ix1 q) = _
    exact row_value1 c arg1 harg1 x0 hx0 fsrc q 18 hk _ _ _ _ _ _ rfl
  · show gatherRun1.sl.dma20 c arg1 harg1 x0 hx0 fsrc (ix1 q) = _
    exact row_value1 c arg1 harg1 x0 hx0 fsrc q 19 hk _ _ _ _ _ _ rfl
  · show gatherRun1.sl.dma21 c arg1 harg1 x0 hx0 fsrc (ix1 q) = _
    exact row_value1 c arg1 harg1 x0 hx0 fsrc q 20 hk _ _ _ _ _ _ rfl
  · show gatherRun1.sl.dma22 c arg1 harg1 x0 hx0 fsrc (ix1 q) = _
    exact row_value1 c arg1 harg1 x0 hx0 fsrc q 21 hk _ _ _ _ _ _ rfl
  · show gatherRun1.sl.dma23 c arg1 harg1 x0 hx0 fsrc (ix1 q) = _
    exact row_value1 c arg1 harg1 x0 hx0 fsrc q 22 hk _ _ _ _ _ _ rfl
  · show gatherRun1.sl.dma24 c arg1 harg1 x0 hx0 fsrc (ix1 q) = _
    exact row_value1 c arg1 harg1 x0 hx0 fsrc q 23 hk _ _ _ _ _ _ rfl
  · show gatherRun1.sl.dma25 c arg1 harg1 x0 hx0 fsrc (ix1 q) = _
    exact row_value1 c arg1 harg1 x0 hx0 fsrc q 24 hk _ _ _ _ _ _ rfl
  · show gatherRun1.sl.dma26 c arg1 harg1 x0 hx0 fsrc (ix1 q) = _
    exact row_value1 c arg1 harg1 x0 hx0 fsrc q 25 hk _ _ _ _ _ _ rfl
  · show gatherRun1.sl.dma27 c arg1 harg1 x0 hx0 fsrc (ix1 q) = _
    exact row_value1 c arg1 harg1 x0 hx0 fsrc q 26 hk _ _ _ _ _ _ rfl
  · show gatherRun1.sl.dma28 c arg1 harg1 x0 hx0 fsrc (ix1 q) = _
    exact row_value1 c arg1 harg1 x0 hx0 fsrc q 27 hk _ _ _ _ _ _ rfl
  · show gatherRun1.sl.dma29 c arg1 harg1 x0 hx0 fsrc (ix1 q) = _
    exact row_value1 c arg1 harg1 x0 hx0 fsrc q 28 hk _ _ _ _ _ _ rfl
  · show gatherRun1.sl.dma30 c arg1 harg1 x0 hx0 fsrc (ix1 q) = _
    exact row_value1 c arg1 harg1 x0 hx0 fsrc q 29 hk _ _ _ _ _ _ rfl
  · show gatherRun1.sl.dma31 c arg1 harg1 x0 hx0 fsrc (ix1 q) = _
    exact row_value1 c arg1 harg1 x0 hx0 fsrc q 30 hk _ _ _ _ _ _ rfl
  · show gatherRun1.sl.dma32 c arg1 harg1 x0 hx0 fsrc (ix1 q) = _
    exact row_value1 c arg1 harg1 x0 hx0 fsrc q 31 hk _ _ _ _ _ _ rfl
  · show gatherRun1.sl.dma33 c arg1 harg1 x0 hx0 fsrc (ix1 q) = _
    exact row_value1 c arg1 harg1 x0 hx0 fsrc q 32 hk _ _ _ _ _ _ rfl
  · show gatherRun1.sl.dma34 c arg1 harg1 x0 hx0 fsrc (ix1 q) = _
    exact row_value1 c arg1 harg1 x0 hx0 fsrc q 33 hk _ _ _ _ _ _ rfl
  · show gatherRun1.sl.dma35 c arg1 harg1 x0 hx0 fsrc (ix1 q) = _
    exact row_value1 c arg1 harg1 x0 hx0 fsrc q 34 hk _ _ _ _ _ _ rfl
  · show gatherRun1.sl.dma36 c arg1 harg1 x0 hx0 fsrc (ix1 q) = _
    exact row_value1 c arg1 harg1 x0 hx0 fsrc q 35 hk _ _ _ _ _ _ rfl
  · show gatherRun1.sl.dma37 c arg1 harg1 x0 hx0 fsrc (ix1 q) = _
    exact row_value1 c arg1 harg1 x0 hx0 fsrc q 36 hk _ _ _ _ _ _ rfl
  · show gatherRun1.sl.dma38 c arg1 harg1 x0 hx0 fsrc (ix1 q) = _
    exact row_value1 c arg1 harg1 x0 hx0 fsrc q 37 hk _ _ _ _ _ _ rfl
  · show gatherRun1.sl.dma39 c arg1 harg1 x0 hx0 fsrc (ix1 q) = _
    exact row_value1 c arg1 harg1 x0 hx0 fsrc q 38 hk _ _ _ _ _ _ rfl
  · show gatherRun1.sl.dma40 c arg1 harg1 x0 hx0 fsrc (ix1 q) = _
    exact row_value1 c arg1 harg1 x0 hx0 fsrc q 39 hk _ _ _ _ _ _ rfl
  · show gatherRun1.sl.dma41 c arg1 harg1 x0 hx0 fsrc (ix1 q) = _
    exact row_value1 c arg1 harg1 x0 hx0 fsrc q 40 hk _ _ _ _ _ _ rfl
  · show gatherRun1.sl.dma42 c arg1 harg1 x0 hx0 fsrc (ix1 q) = _
    exact row_value1 c arg1 harg1 x0 hx0 fsrc q 41 hk _ _ _ _ _ _ rfl
  · show gatherRun1.sl.dma43 c arg1 harg1 x0 hx0 fsrc (ix1 q) = _
    exact row_value1 c arg1 harg1 x0 hx0 fsrc q 42 hk _ _ _ _ _ _ rfl
  · show gatherRun1.sl.dma44 c arg1 harg1 x0 hx0 fsrc (ix1 q) = _
    exact row_value1 c arg1 harg1 x0 hx0 fsrc q 43 hk _ _ _ _ _ _ rfl
  · show gatherRun1.sl.dma45 c arg1 harg1 x0 hx0 fsrc (ix1 q) = _
    exact row_value1 c arg1 harg1 x0 hx0 fsrc q 44 hk _ _ _ _ _ _ rfl
  · show gatherRun1.sl.dma46 c arg1 harg1 x0 hx0 fsrc (ix1 q) = _
    exact row_value1 c arg1 harg1 x0 hx0 fsrc q 45 hk _ _ _ _ _ _ rfl
  · show gatherRun1.sl.dma47 c arg1 harg1 x0 hx0 fsrc (ix1 q) = _
    exact row_value1 c arg1 harg1 x0 hx0 fsrc q 46 hk _ _ _ _ _ _ rfl
  · show gatherRun1.sl.dma48 c arg1 harg1 x0 hx0 fsrc (ix1 q) = _
    exact row_value1 c arg1 harg1 x0 hx0 fsrc q 47 hk _ _ _ _ _ _ rfl
  · show gatherRun1.sl.dma49 c arg1 harg1 x0 hx0 fsrc (ix1 q) = _
    exact row_value1 c arg1 harg1 x0 hx0 fsrc q 48 hk _ _ _ _ _ _ rfl
  · show gatherRun1.sl.dma50 c arg1 harg1 x0 hx0 fsrc (ix1 q) = _
    exact row_value1 c arg1 harg1 x0 hx0 fsrc q 49 hk _ _ _ _ _ _ rfl
  · show gatherRun1.sl.dma51 c arg1 harg1 x0 hx0 fsrc (ix1 q) = _
    exact row_value1 c arg1 harg1 x0 hx0 fsrc q 50 hk _ _ _ _ _ _ rfl
  · show gatherRun1.sl.dma52 c arg1 harg1 x0 hx0 fsrc (ix1 q) = _
    exact row_value1 c arg1 harg1 x0 hx0 fsrc q 51 hk _ _ _ _ _ _ rfl
  · show gatherRun1.sl.dma53 c arg1 harg1 x0 hx0 fsrc (ix1 q) = _
    exact row_value1 c arg1 harg1 x0 hx0 fsrc q 52 hk _ _ _ _ _ _ rfl
  · show gatherRun1.sl.dma54 c arg1 harg1 x0 hx0 fsrc (ix1 q) = _
    exact row_value1 c arg1 harg1 x0 hx0 fsrc q 53 hk _ _ _ _ _ _ rfl
  · show gatherRun1.sl.dma55 c arg1 harg1 x0 hx0 fsrc (ix1 q) = _
    exact row_value1 c arg1 harg1 x0 hx0 fsrc q 54 hk _ _ _ _ _ _ rfl
  · show gatherRun1.sl.dma56 c arg1 harg1 x0 hx0 fsrc (ix1 q) = _
    exact row_value1 c arg1 harg1 x0 hx0 fsrc q 55 hk _ _ _ _ _ _ rfl
  · show gatherRun1.sl.dma57 c arg1 harg1 x0 hx0 fsrc (ix1 q) = _
    exact row_value1 c arg1 harg1 x0 hx0 fsrc q 56 hk _ _ _ _ _ _ rfl
  · show gatherRun1.sl.dma58 c arg1 harg1 x0 hx0 fsrc (ix1 q) = _
    exact row_value1 c arg1 harg1 x0 hx0 fsrc q 57 hk _ _ _ _ _ _ rfl
  · show gatherRun1.sl.dma59 c arg1 harg1 x0 hx0 fsrc (ix1 q) = _
    exact row_value1 c arg1 harg1 x0 hx0 fsrc q 58 hk _ _ _ _ _ _ rfl
  · show gatherRun1.sl.dma60 c arg1 harg1 x0 hx0 fsrc (ix1 q) = _
    exact row_value1 c arg1 harg1 x0 hx0 fsrc q 59 hk _ _ _ _ _ _ rfl
  · show gatherRun1.sl.dma61 c arg1 harg1 x0 hx0 fsrc (ix1 q) = _
    exact row_value1 c arg1 harg1 x0 hx0 fsrc q 60 hk _ _ _ _ _ _ rfl
  · show gatherRun1.sl.dma62 c arg1 harg1 x0 hx0 fsrc (ix1 q) = _
    exact row_value1 c arg1 harg1 x0 hx0 fsrc q 61 hk _ _ _ _ _ _ rfl
  · show gatherRun1.sl.dma63 c arg1 harg1 x0 hx0 fsrc (ix1 q) = _
    exact row_value1 c arg1 harg1 x0 hx0 fsrc q 62 hk _ _ _ _ _ _ rfl
  · show gatherRun1.sl.dma64 c arg1 harg1 x0 hx0 fsrc (ix1 q) = _
    exact row_value1 c arg1 harg1 x0 hx0 fsrc q 63 hk _ _ _ _ _ _ rfl
  · show gatherRun1.sl.dma65 c arg1 harg1 x0 hx0 fsrc (ix1 q) = _
    exact row_value1 c arg1 harg1 x0 hx0 fsrc q 64 hk _ _ _ _ _ _ rfl
  · show gatherRun1.sl.dma66 c arg1 harg1 x0 hx0 fsrc (ix1 q) = _
    exact row_value1 c arg1 harg1 x0 hx0 fsrc q 65 hk _ _ _ _ _ _ rfl
  · show gatherRun1.sl.dma67 c arg1 harg1 x0 hx0 fsrc (ix1 q) = _
    exact row_value1 c arg1 harg1 x0 hx0 fsrc q 66 hk _ _ _ _ _ _ rfl
  · show gatherRun1.sl.dma68 c arg1 harg1 x0 hx0 fsrc (ix1 q) = _
    exact row_value1 c arg1 harg1 x0 hx0 fsrc q 67 hk _ _ _ _ _ _ rfl
  · show gatherRun1.sl.dma69 c arg1 harg1 x0 hx0 fsrc (ix1 q) = _
    exact row_value1 c arg1 harg1 x0 hx0 fsrc q 68 hk _ _ _ _ _ _ rfl
  · show gatherRun1.sl.dma70 c arg1 harg1 x0 hx0 fsrc (ix1 q) = _
    exact row_value1 c arg1 harg1 x0 hx0 fsrc q 69 hk _ _ _ _ _ _ rfl
  · show gatherRun1.sl.dma71 c arg1 harg1 x0 hx0 fsrc (ix1 q) = _
    exact row_value1 c arg1 harg1 x0 hx0 fsrc q 70 hk _ _ _ _ _ _ rfl
  · show gatherRun1.sl.dma72 c arg1 harg1 x0 hx0 fsrc (ix1 q) = _
    exact row_value1 c arg1 harg1 x0 hx0 fsrc q 71 hk _ _ _ _ _ _ rfl
  · show gatherRun1.sl.dma73 c arg1 harg1 x0 hx0 fsrc (ix1 q) = _
    exact row_value1 c arg1 harg1 x0 hx0 fsrc q 72 hk _ _ _ _ _ _ rfl
  · show gatherRun1.sl.dma74 c arg1 harg1 x0 hx0 fsrc (ix1 q) = _
    exact row_value1 c arg1 harg1 x0 hx0 fsrc q 73 hk _ _ _ _ _ _ rfl
  · show gatherRun1.sl.dma75 c arg1 harg1 x0 hx0 fsrc (ix1 q) = _
    exact row_value1 c arg1 harg1 x0 hx0 fsrc q 74 hk _ _ _ _ _ _ rfl
  · show gatherRun1.sl.dma76 c arg1 harg1 x0 hx0 fsrc (ix1 q) = _
    exact row_value1 c arg1 harg1 x0 hx0 fsrc q 75 hk _ _ _ _ _ _ rfl
  · show gatherRun1.sl.dma77 c arg1 harg1 x0 hx0 fsrc (ix1 q) = _
    exact row_value1 c arg1 harg1 x0 hx0 fsrc q 76 hk _ _ _ _ _ _ rfl
  · show gatherRun1.sl.dma78 c arg1 harg1 x0 hx0 fsrc (ix1 q) = _
    exact row_value1 c arg1 harg1 x0 hx0 fsrc q 77 hk _ _ _ _ _ _ rfl
  · show gatherRun1.sl.dma79 c arg1 harg1 x0 hx0 fsrc (ix1 q) = _
    exact row_value1 c arg1 harg1 x0 hx0 fsrc q 78 hk _ _ _ _ _ _ rfl
  · show gatherRun1.sl.dma80 c arg1 harg1 x0 hx0 fsrc (ix1 q) = _
    exact row_value1 c arg1 harg1 x0 hx0 fsrc q 79 hk _ _ _ _ _ _ rfl
  · show gatherRun1.sl.dma81 c arg1 harg1 x0 hx0 fsrc (ix1 q) = _
    exact row_value1 c arg1 harg1 x0 hx0 fsrc q 80 hk _ _ _ _ _ _ rfl
  · show gatherRun1.sl.dma82 c arg1 harg1 x0 hx0 fsrc (ix1 q) = _
    exact row_value1 c arg1 harg1 x0 hx0 fsrc q 81 hk _ _ _ _ _ _ rfl
  · show gatherRun1.sl.dma83 c arg1 harg1 x0 hx0 fsrc (ix1 q) = _
    exact row_value1 c arg1 harg1 x0 hx0 fsrc q 82 hk _ _ _ _ _ _ rfl
  · show gatherRun1.sl.dma84 c arg1 harg1 x0 hx0 fsrc (ix1 q) = _
    exact row_value1 c arg1 harg1 x0 hx0 fsrc q 83 hk _ _ _ _ _ _ rfl
  · show gatherRun1.sl.dma85 c arg1 harg1 x0 hx0 fsrc (ix1 q) = _
    exact row_value1 c arg1 harg1 x0 hx0 fsrc q 84 hk _ _ _ _ _ _ rfl
  · show gatherRun1.sl.dma86 c arg1 harg1 x0 hx0 fsrc (ix1 q) = _
    exact row_value1 c arg1 harg1 x0 hx0 fsrc q 85 hk _ _ _ _ _ _ rfl
  · show gatherRun1.sl.dma87 c arg1 harg1 x0 hx0 fsrc (ix1 q) = _
    exact row_value1 c arg1 harg1 x0 hx0 fsrc q 86 hk _ _ _ _ _ _ rfl
  · show gatherRun1.sl.dma88 c arg1 harg1 x0 hx0 fsrc (ix1 q) = _
    exact row_value1 c arg1 harg1 x0 hx0 fsrc q 87 hk _ _ _ _ _ _ rfl
  · show gatherRun1.sl.dma89 c arg1 harg1 x0 hx0 fsrc (ix1 q) = _
    exact row_value1 c arg1 harg1 x0 hx0 fsrc q 88 hk _ _ _ _ _ _ rfl
  · show gatherRun1.sl.dma90 c arg1 harg1 x0 hx0 fsrc (ix1 q) = _
    exact row_value1 c arg1 harg1 x0 hx0 fsrc q 89 hk _ _ _ _ _ _ rfl
  · show gatherRun1.sl.dma91 c arg1 harg1 x0 hx0 fsrc (ix1 q) = _
    exact row_value1 c arg1 harg1 x0 hx0 fsrc q 90 hk _ _ _ _ _ _ rfl
  · show gatherRun1.sl.dma92 c arg1 harg1 x0 hx0 fsrc (ix1 q) = _
    exact row_value1 c arg1 harg1 x0 hx0 fsrc q 91 hk _ _ _ _ _ _ rfl
  · show gatherRun1.sl.dma93 c arg1 harg1 x0 hx0 fsrc (ix1 q) = _
    exact row_value1 c arg1 harg1 x0 hx0 fsrc q 92 hk _ _ _ _ _ _ rfl
  · show gatherRun1.sl.dma94 c arg1 harg1 x0 hx0 fsrc (ix1 q) = _
    exact row_value1 c arg1 harg1 x0 hx0 fsrc q 93 hk _ _ _ _ _ _ rfl
  · show gatherRun1.sl.dma95 c arg1 harg1 x0 hx0 fsrc (ix1 q) = _
    exact row_value1 c arg1 harg1 x0 hx0 fsrc q 94 hk _ _ _ _ _ _ rfl
  · show gatherRun1.sl.dma96 c arg1 harg1 x0 hx0 fsrc (ix1 q) = _
    exact row_value1 c arg1 harg1 x0 hx0 fsrc q 95 hk _ _ _ _ _ _ rfl
  · show gatherRun1.sl.dma97 c arg1 harg1 x0 hx0 fsrc (ix1 q) = _
    exact row_value1 c arg1 harg1 x0 hx0 fsrc q 96 hk _ _ _ _ _ _ rfl
  · show gatherRun1.sl.dma98 c arg1 harg1 x0 hx0 fsrc (ix1 q) = _
    exact row_value1 c arg1 harg1 x0 hx0 fsrc q 97 hk _ _ _ _ _ _ rfl
  · show gatherRun1.sl.dma99 c arg1 harg1 x0 hx0 fsrc (ix1 q) = _
    exact row_value1 c arg1 harg1 x0 hx0 fsrc q 98 hk _ _ _ _ _ _ rfl
  · show gatherRun1.sl.dma100 c arg1 harg1 x0 hx0 fsrc (ix1 q) = _
    exact row_value1 c arg1 harg1 x0 hx0 fsrc q 99 hk _ _ _ _ _ _ rfl
  · show gatherRun1.sl.dma101 c arg1 harg1 x0 hx0 fsrc (ix1 q) = _
    exact row_value1 c arg1 harg1 x0 hx0 fsrc q 100 hk _ _ _ _ _ _ rfl
  · show gatherRun1.sl.dma102 c arg1 harg1 x0 hx0 fsrc (ix1 q) = _
    exact row_value1 c arg1 harg1 x0 hx0 fsrc q 101 hk _ _ _ _ _ _ rfl
  · show gatherRun1.sl.dma103 c arg1 harg1 x0 hx0 fsrc (ix1 q) = _
    exact row_value1 c arg1 harg1 x0 hx0 fsrc q 102 hk _ _ _ _ _ _ rfl
  · show gatherRun1.sl.dma104 c arg1 harg1 x0 hx0 fsrc (ix1 q) = _
    exact row_value1 c arg1 harg1 x0 hx0 fsrc q 103 hk _ _ _ _ _ _ rfl
  · show gatherRun1.sl.dma105 c arg1 harg1 x0 hx0 fsrc (ix1 q) = _
    exact row_value1 c arg1 harg1 x0 hx0 fsrc q 104 hk _ _ _ _ _ _ rfl
  · show gatherRun1.sl.dma106 c arg1 harg1 x0 hx0 fsrc (ix1 q) = _
    exact row_value1 c arg1 harg1 x0 hx0 fsrc q 105 hk _ _ _ _ _ _ rfl
  · show gatherRun1.sl.dma107 c arg1 harg1 x0 hx0 fsrc (ix1 q) = _
    exact row_value1 c arg1 harg1 x0 hx0 fsrc q 106 hk _ _ _ _ _ _ rfl
  · show gatherRun1.sl.dma108 c arg1 harg1 x0 hx0 fsrc (ix1 q) = _
    exact row_value1 c arg1 harg1 x0 hx0 fsrc q 107 hk _ _ _ _ _ _ rfl
  · show gatherRun1.sl.dma109 c arg1 harg1 x0 hx0 fsrc (ix1 q) = _
    exact row_value1 c arg1 harg1 x0 hx0 fsrc q 108 hk _ _ _ _ _ _ rfl
  · show gatherRun1.sl.dma110 c arg1 harg1 x0 hx0 fsrc (ix1 q) = _
    exact row_value1 c arg1 harg1 x0 hx0 fsrc q 109 hk _ _ _ _ _ _ rfl
  · show gatherRun1.sl.dma111 c arg1 harg1 x0 hx0 fsrc (ix1 q) = _
    exact row_value1 c arg1 harg1 x0 hx0 fsrc q 110 hk _ _ _ _ _ _ rfl
  · show gatherRun1.sl.dma112 c arg1 harg1 x0 hx0 fsrc (ix1 q) = _
    exact row_value1 c arg1 harg1 x0 hx0 fsrc q 111 hk _ _ _ _ _ _ rfl
  · show gatherRun1.sl.dma113 c arg1 harg1 x0 hx0 fsrc (ix1 q) = _
    exact row_value1 c arg1 harg1 x0 hx0 fsrc q 112 hk _ _ _ _ _ _ rfl
  · show gatherRun1.sl.dma114 c arg1 harg1 x0 hx0 fsrc (ix1 q) = _
    exact row_value1 c arg1 harg1 x0 hx0 fsrc q 113 hk _ _ _ _ _ _ rfl
  · show gatherRun1.sl.dma115 c arg1 harg1 x0 hx0 fsrc (ix1 q) = _
    exact row_value1 c arg1 harg1 x0 hx0 fsrc q 114 hk _ _ _ _ _ _ rfl
  · show gatherRun1.sl.dma116 c arg1 harg1 x0 hx0 fsrc (ix1 q) = _
    exact row_value1 c arg1 harg1 x0 hx0 fsrc q 115 hk _ _ _ _ _ _ rfl
  · show gatherRun1.sl.dma117 c arg1 harg1 x0 hx0 fsrc (ix1 q) = _
    exact row_value1 c arg1 harg1 x0 hx0 fsrc q 116 hk _ _ _ _ _ _ rfl
  · show gatherRun1.sl.dma118 c arg1 harg1 x0 hx0 fsrc (ix1 q) = _
    exact row_value1 c arg1 harg1 x0 hx0 fsrc q 117 hk _ _ _ _ _ _ rfl
  · show gatherRun1.sl.dma119 c arg1 harg1 x0 hx0 fsrc (ix1 q) = _
    exact row_value1 c arg1 harg1 x0 hx0 fsrc q 118 hk _ _ _ _ _ _ rfl
  · show gatherRun1.sl.dma120 c arg1 harg1 x0 hx0 fsrc (ix1 q) = _
    exact row_value1 c arg1 harg1 x0 hx0 fsrc q 119 hk _ _ _ _ _ _ rfl
  · show gatherRun1.sl.dma121 c arg1 harg1 x0 hx0 fsrc (ix1 q) = _
    exact row_value1 c arg1 harg1 x0 hx0 fsrc q 120 hk _ _ _ _ _ _ rfl
  · show gatherRun1.sl.dma122 c arg1 harg1 x0 hx0 fsrc (ix1 q) = _
    exact row_value1 c arg1 harg1 x0 hx0 fsrc q 121 hk _ _ _ _ _ _ rfl
  · show gatherRun1.sl.dma123 c arg1 harg1 x0 hx0 fsrc (ix1 q) = _
    exact row_value1 c arg1 harg1 x0 hx0 fsrc q 122 hk _ _ _ _ _ _ rfl
  · show gatherRun1.sl.dma124 c arg1 harg1 x0 hx0 fsrc (ix1 q) = _
    exact row_value1 c arg1 harg1 x0 hx0 fsrc q 123 hk _ _ _ _ _ _ rfl
  · show gatherRun1.sl.dma125 c arg1 harg1 x0 hx0 fsrc (ix1 q) = _
    exact row_value1 c arg1 harg1 x0 hx0 fsrc q 124 hk _ _ _ _ _ _ rfl
  · show gatherRun1.sl.dma126 c arg1 harg1 x0 hx0 fsrc (ix1 q) = _
    exact row_value1 c arg1 harg1 x0 hx0 fsrc q 125 hk _ _ _ _ _ _ rfl
  · show gatherRun1.sl.dma127 c arg1 harg1 x0 hx0 fsrc (ix1 q) = _
    exact row_value1 c arg1 harg1 x0 hx0 fsrc q 126 hk _ _ _ _ _ _ rfl
  · show gatherRun1.sl.dma128 c arg1 harg1 x0 hx0 fsrc (ix1 q) = _
    exact row_value1 c arg1 harg1 x0 hx0 fsrc q 127 hk _ _ _ _ _ _ rfl
  · show gatherRun1.sl.dma129 c arg1 harg1 x0 hx0 fsrc (ix1 q) = _
    exact row_value1 c arg1 harg1 x0 hx0 fsrc q 128 hk _ _ _ _ _ _ rfl
  · show gatherRun1.sl.dma130 c arg1 harg1 x0 hx0 fsrc (ix1 q) = _
    exact row_value1 c arg1 harg1 x0 hx0 fsrc q 129 hk _ _ _ _ _ _ rfl
  · show gatherRun1.sl.dma131 c arg1 harg1 x0 hx0 fsrc (ix1 q) = _
    exact row_value1 c arg1 harg1 x0 hx0 fsrc q 130 hk _ _ _ _ _ _ rfl
  · show gatherRun1.sl.dma132 c arg1 harg1 x0 hx0 fsrc (ix1 q) = _
    exact row_value1 c arg1 harg1 x0 hx0 fsrc q 131 hk _ _ _ _ _ _ rfl
  · show gatherRun1.sl.dma133 c arg1 harg1 x0 hx0 fsrc (ix1 q) = _
    exact row_value1 c arg1 harg1 x0 hx0 fsrc q 132 hk _ _ _ _ _ _ rfl
  · show gatherRun1.sl.dma134 c arg1 harg1 x0 hx0 fsrc (ix1 q) = _
    exact row_value1 c arg1 harg1 x0 hx0 fsrc q 133 hk _ _ _ _ _ _ rfl
  · show gatherRun1.sl.dma135 c arg1 harg1 x0 hx0 fsrc (ix1 q) = _
    exact row_value1 c arg1 harg1 x0 hx0 fsrc q 134 hk _ _ _ _ _ _ rfl
  · show gatherRun1.sl.dma136 c arg1 harg1 x0 hx0 fsrc (ix1 q) = _
    exact row_value1 c arg1 harg1 x0 hx0 fsrc q 135 hk _ _ _ _ _ _ rfl
  · show gatherRun1.sl.dma137 c arg1 harg1 x0 hx0 fsrc (ix1 q) = _
    exact row_value1 c arg1 harg1 x0 hx0 fsrc q 136 hk _ _ _ _ _ _ rfl
  · show gatherRun1.sl.dma138 c arg1 harg1 x0 hx0 fsrc (ix1 q) = _
    exact row_value1 c arg1 harg1 x0 hx0 fsrc q 137 hk _ _ _ _ _ _ rfl
  · show gatherRun1.sl.dma139 c arg1 harg1 x0 hx0 fsrc (ix1 q) = _
    exact row_value1 c arg1 harg1 x0 hx0 fsrc q 138 hk _ _ _ _ _ _ rfl
  · show gatherRun1.sl.dma140 c arg1 harg1 x0 hx0 fsrc (ix1 q) = _
    exact row_value1 c arg1 harg1 x0 hx0 fsrc q 139 hk _ _ _ _ _ _ rfl
  · show gatherRun1.sl.dma141 c arg1 harg1 x0 hx0 fsrc (ix1 q) = _
    exact row_value1 c arg1 harg1 x0 hx0 fsrc q 140 hk _ _ _ _ _ _ rfl
  · show gatherRun1.sl.dma142 c arg1 harg1 x0 hx0 fsrc (ix1 q) = _
    exact row_value1 c arg1 harg1 x0 hx0 fsrc q 141 hk _ _ _ _ _ _ rfl
  · show gatherRun1.sl.dma143 c arg1 harg1 x0 hx0 fsrc (ix1 q) = _
    exact row_value1 c arg1 harg1 x0 hx0 fsrc q 142 hk _ _ _ _ _ _ rfl
  · show gatherRun1.sl.dma144 c arg1 harg1 x0 hx0 fsrc (ix1 q) = _
    exact row_value1 c arg1 harg1 x0 hx0 fsrc q 143 hk _ _ _ _ _ _ rfl
  · show gatherRun1.sl.dma145 c arg1 harg1 x0 hx0 fsrc (ix1 q) = _
    exact row_value1 c arg1 harg1 x0 hx0 fsrc q 144 hk _ _ _ _ _ _ rfl
  · show gatherRun1.sl.dma146 c arg1 harg1 x0 hx0 fsrc (ix1 q) = _
    exact row_value1 c arg1 harg1 x0 hx0 fsrc q 145 hk _ _ _ _ _ _ rfl
  · show gatherRun1.sl.dma147 c arg1 harg1 x0 hx0 fsrc (ix1 q) = _
    exact row_value1 c arg1 harg1 x0 hx0 fsrc q 146 hk _ _ _ _ _ _ rfl
  · show gatherRun1.sl.dma148 c arg1 harg1 x0 hx0 fsrc (ix1 q) = _
    exact row_value1 c arg1 harg1 x0 hx0 fsrc q 147 hk _ _ _ _ _ _ rfl
  · show gatherRun1.sl.dma149 c arg1 harg1 x0 hx0 fsrc (ix1 q) = _
    exact row_value1 c arg1 harg1 x0 hx0 fsrc q 148 hk _ _ _ _ _ _ rfl
  · show gatherRun1.sl.dma150 c arg1 harg1 x0 hx0 fsrc (ix1 q) = _
    exact row_value1 c arg1 harg1 x0 hx0 fsrc q 149 hk _ _ _ _ _ _ rfl
  · show gatherRun1.sl.dma151 c arg1 harg1 x0 hx0 fsrc (ix1 q) = _
    exact row_value1 c arg1 harg1 x0 hx0 fsrc q 150 hk _ _ _ _ _ _ rfl
  · show gatherRun1.sl.dma152 c arg1 harg1 x0 hx0 fsrc (ix1 q) = _
    exact row_value1 c arg1 harg1 x0 hx0 fsrc q 151 hk _ _ _ _ _ _ rfl
  · show gatherRun1.sl.dma153 c arg1 harg1 x0 hx0 fsrc (ix1 q) = _
    exact row_value1 c arg1 harg1 x0 hx0 fsrc q 152 hk _ _ _ _ _ _ rfl
  · show gatherRun1.sl.dma154 c arg1 harg1 x0 hx0 fsrc (ix1 q) = _
    exact row_value1 c arg1 harg1 x0 hx0 fsrc q 153 hk _ _ _ _ _ _ rfl
  · show gatherRun1.sl.dma155 c arg1 harg1 x0 hx0 fsrc (ix1 q) = _
    exact row_value1 c arg1 harg1 x0 hx0 fsrc q 154 hk _ _ _ _ _ _ rfl
  · show gatherRun1.sl.dma156 c arg1 harg1 x0 hx0 fsrc (ix1 q) = _
    exact row_value1 c arg1 harg1 x0 hx0 fsrc q 155 hk _ _ _ _ _ _ rfl
  · show gatherRun1.sl.dma157 c arg1 harg1 x0 hx0 fsrc (ix1 q) = _
    exact row_value1 c arg1 harg1 x0 hx0 fsrc q 156 hk _ _ _ _ _ _ rfl
  · show gatherRun1.sl.dma158 c arg1 harg1 x0 hx0 fsrc (ix1 q) = _
    exact row_value1 c arg1 harg1 x0 hx0 fsrc q 157 hk _ _ _ _ _ _ rfl
  · show gatherRun1.sl.dma159 c arg1 harg1 x0 hx0 fsrc (ix1 q) = _
    exact row_value1 c arg1 harg1 x0 hx0 fsrc q 158 hk _ _ _ _ _ _ rfl
  · show gatherRun1.sl.dma160 c arg1 harg1 x0 hx0 fsrc (ix1 q) = _
    exact row_value1 c arg1 harg1 x0 hx0 fsrc q 159 hk _ _ _ _ _ _ rfl
  · show gatherRun1.sl.dma161 c arg1 harg1 x0 hx0 fsrc (ix1 q) = _
    exact row_value1 c arg1 harg1 x0 hx0 fsrc q 160 hk _ _ _ _ _ _ rfl
  · show gatherRun1.sl.dma162 c arg1 harg1 x0 hx0 fsrc (ix1 q) = _
    exact row_value1 c arg1 harg1 x0 hx0 fsrc q 161 hk _ _ _ _ _ _ rfl
  · show gatherRun1.sl.dma163 c arg1 harg1 x0 hx0 fsrc (ix1 q) = _
    exact row_value1 c arg1 harg1 x0 hx0 fsrc q 162 hk _ _ _ _ _ _ rfl
  · show gatherRun1.sl.dma164 c arg1 harg1 x0 hx0 fsrc (ix1 q) = _
    exact row_value1 c arg1 harg1 x0 hx0 fsrc q 163 hk _ _ _ _ _ _ rfl
  · show gatherRun1.sl.dma165 c arg1 harg1 x0 hx0 fsrc (ix1 q) = _
    exact row_value1 c arg1 harg1 x0 hx0 fsrc q 164 hk _ _ _ _ _ _ rfl
  · show gatherRun1.sl.dma166 c arg1 harg1 x0 hx0 fsrc (ix1 q) = _
    exact row_value1 c arg1 harg1 x0 hx0 fsrc q 165 hk _ _ _ _ _ _ rfl
  · show gatherRun1.sl.dma167 c arg1 harg1 x0 hx0 fsrc (ix1 q) = _
    exact row_value1 c arg1 harg1 x0 hx0 fsrc q 166 hk _ _ _ _ _ _ rfl
  · show gatherRun1.sl.dma168 c arg1 harg1 x0 hx0 fsrc (ix1 q) = _
    exact row_value1 c arg1 harg1 x0 hx0 fsrc q 167 hk _ _ _ _ _ _ rfl
  · show gatherRun1.sl.dma169 c arg1 harg1 x0 hx0 fsrc (ix1 q) = _
    exact row_value1 c arg1 harg1 x0 hx0 fsrc q 168 hk _ _ _ _ _ _ rfl
  · show gatherRun1.sl.dma170 c arg1 harg1 x0 hx0 fsrc (ix1 q) = _
    exact row_value1 c arg1 harg1 x0 hx0 fsrc q 169 hk _ _ _ _ _ _ rfl
  · show gatherRun1.sl.dma171 c arg1 harg1 x0 hx0 fsrc (ix1 q) = _
    exact row_value1 c arg1 harg1 x0 hx0 fsrc q 170 hk _ _ _ _ _ _ rfl
  · show gatherRun1.sl.dma172 c arg1 harg1 x0 hx0 fsrc (ix1 q) = _
    exact row_value1 c arg1 harg1 x0 hx0 fsrc q 171 hk _ _ _ _ _ _ rfl
  · show gatherRun1.sl.dma173 c arg1 harg1 x0 hx0 fsrc (ix1 q) = _
    exact row_value1 c arg1 harg1 x0 hx0 fsrc q 172 hk _ _ _ _ _ _ rfl
  · show gatherRun1.sl.dma174 c arg1 harg1 x0 hx0 fsrc (ix1 q) = _
    exact row_value1 c arg1 harg1 x0 hx0 fsrc q 173 hk _ _ _ _ _ _ rfl
  · show gatherRun1.sl.dma175 c arg1 harg1 x0 hx0 fsrc (ix1 q) = _
    exact row_value1 c arg1 harg1 x0 hx0 fsrc q 174 hk _ _ _ _ _ _ rfl
  · show gatherRun1.sl.dma176 c arg1 harg1 x0 hx0 fsrc (ix1 q) = _
    exact row_value1 c arg1 harg1 x0 hx0 fsrc q 175 hk _ _ _ _ _ _ rfl
  · show gatherRun1.sl.dma177 c arg1 harg1 x0 hx0 fsrc (ix1 q) = _
    exact row_value1 c arg1 harg1 x0 hx0 fsrc q 176 hk _ _ _ _ _ _ rfl
  · show gatherRun1.sl.dma178 c arg1 harg1 x0 hx0 fsrc (ix1 q) = _
    exact row_value1 c arg1 harg1 x0 hx0 fsrc q 177 hk _ _ _ _ _ _ rfl
  · show gatherRun1.sl.dma179 c arg1 harg1 x0 hx0 fsrc (ix1 q) = _
    exact row_value1 c arg1 harg1 x0 hx0 fsrc q 178 hk _ _ _ _ _ _ rfl
  · show gatherRun1.sl.dma180 c arg1 harg1 x0 hx0 fsrc (ix1 q) = _
    exact row_value1 c arg1 harg1 x0 hx0 fsrc q 179 hk _ _ _ _ _ _ rfl
  · show gatherRun1.sl.dma181 c arg1 harg1 x0 hx0 fsrc (ix1 q) = _
    exact row_value1 c arg1 harg1 x0 hx0 fsrc q 180 hk _ _ _ _ _ _ rfl
  · show gatherRun1.sl.dma182 c arg1 harg1 x0 hx0 fsrc (ix1 q) = _
    exact row_value1 c arg1 harg1 x0 hx0 fsrc q 181 hk _ _ _ _ _ _ rfl
  · show gatherRun1.sl.dma183 c arg1 harg1 x0 hx0 fsrc (ix1 q) = _
    exact row_value1 c arg1 harg1 x0 hx0 fsrc q 182 hk _ _ _ _ _ _ rfl
  · show gatherRun1.sl.dma184 c arg1 harg1 x0 hx0 fsrc (ix1 q) = _
    exact row_value1 c arg1 harg1 x0 hx0 fsrc q 183 hk _ _ _ _ _ _ rfl
  · show gatherRun1.sl.dma185 c arg1 harg1 x0 hx0 fsrc (ix1 q) = _
    exact row_value1 c arg1 harg1 x0 hx0 fsrc q 184 hk _ _ _ _ _ _ rfl
  · show gatherRun1.sl.dma186 c arg1 harg1 x0 hx0 fsrc (ix1 q) = _
    exact row_value1 c arg1 harg1 x0 hx0 fsrc q 185 hk _ _ _ _ _ _ rfl
  · show gatherRun1.sl.dma187 c arg1 harg1 x0 hx0 fsrc (ix1 q) = _
    exact row_value1 c arg1 harg1 x0 hx0 fsrc q 186 hk _ _ _ _ _ _ rfl
  · show gatherRun1.sl.dma188 c arg1 harg1 x0 hx0 fsrc (ix1 q) = _
    exact row_value1 c arg1 harg1 x0 hx0 fsrc q 187 hk _ _ _ _ _ _ rfl
  · show gatherRun1.sl.dma189 c arg1 harg1 x0 hx0 fsrc (ix1 q) = _
    exact row_value1 c arg1 harg1 x0 hx0 fsrc q 188 hk _ _ _ _ _ _ rfl
  · show gatherRun1.sl.dma190 c arg1 harg1 x0 hx0 fsrc (ix1 q) = _
    exact row_value1 c arg1 harg1 x0 hx0 fsrc q 189 hk _ _ _ _ _ _ rfl
  · show gatherRun1.sl.dma191 c arg1 harg1 x0 hx0 fsrc (ix1 q) = _
    exact row_value1 c arg1 harg1 x0 hx0 fsrc q 190 hk _ _ _ _ _ _ rfl
  · show gatherRun1.sl.dma192 c arg1 harg1 x0 hx0 fsrc (ix1 q) = _
    exact row_value1 c arg1 harg1 x0 hx0 fsrc q 191 hk _ _ _ _ _ _ rfl
  · show gatherRun1.sl.dma193 c arg1 harg1 x0 hx0 fsrc (ix1 q) = _
    exact row_value1 c arg1 harg1 x0 hx0 fsrc q 192 hk _ _ _ _ _ _ rfl
  · show gatherRun1.sl.dma194 c arg1 harg1 x0 hx0 fsrc (ix1 q) = _
    exact row_value1 c arg1 harg1 x0 hx0 fsrc q 193 hk _ _ _ _ _ _ rfl
  · show gatherRun1.sl.dma195 c arg1 harg1 x0 hx0 fsrc (ix1 q) = _
    exact row_value1 c arg1 harg1 x0 hx0 fsrc q 194 hk _ _ _ _ _ _ rfl
  · show gatherRun1.sl.dma196 c arg1 harg1 x0 hx0 fsrc (ix1 q) = _
    exact row_value1 c arg1 harg1 x0 hx0 fsrc q 195 hk _ _ _ _ _ _ rfl
  · show gatherRun1.sl.dma197 c arg1 harg1 x0 hx0 fsrc (ix1 q) = _
    exact row_value1 c arg1 harg1 x0 hx0 fsrc q 196 hk _ _ _ _ _ _ rfl
  · show gatherRun1.sl.dma198 c arg1 harg1 x0 hx0 fsrc (ix1 q) = _
    exact row_value1 c arg1 harg1 x0 hx0 fsrc q 197 hk _ _ _ _ _ _ rfl
  · show gatherRun1.sl.dma199 c arg1 harg1 x0 hx0 fsrc (ix1 q) = _
    exact row_value1 c arg1 harg1 x0 hx0 fsrc q 198 hk _ _ _ _ _ _ rfl
  · show gatherRun1.sl.dma200 c arg1 harg1 x0 hx0 fsrc (ix1 q) = _
    exact row_value1 c arg1 harg1 x0 hx0 fsrc q 199 hk _ _ _ _ _ _ rfl
  · show gatherRun1.sl.dma201 c arg1 harg1 x0 hx0 fsrc (ix1 q) = _
    exact row_value1 c arg1 harg1 x0 hx0 fsrc q 200 hk _ _ _ _ _ _ rfl
  · show gatherRun1.sl.dma202 c arg1 harg1 x0 hx0 fsrc (ix1 q) = _
    exact row_value1 c arg1 harg1 x0 hx0 fsrc q 201 hk _ _ _ _ _ _ rfl
  · show gatherRun1.sl.dma203 c arg1 harg1 x0 hx0 fsrc (ix1 q) = _
    exact row_value1 c arg1 harg1 x0 hx0 fsrc q 202 hk _ _ _ _ _ _ rfl
  · show gatherRun1.sl.dma204 c arg1 harg1 x0 hx0 fsrc (ix1 q) = _
    exact row_value1 c arg1 harg1 x0 hx0 fsrc q 203 hk _ _ _ _ _ _ rfl
  · show gatherRun1.sl.dma205 c arg1 harg1 x0 hx0 fsrc (ix1 q) = _
    exact row_value1 c arg1 harg1 x0 hx0 fsrc q 204 hk _ _ _ _ _ _ rfl
  · show gatherRun1.sl.dma206 c arg1 harg1 x0 hx0 fsrc (ix1 q) = _
    exact row_value1 c arg1 harg1 x0 hx0 fsrc q 205 hk _ _ _ _ _ _ rfl
  · show gatherRun1.sl.dma207 c arg1 harg1 x0 hx0 fsrc (ix1 q) = _
    exact row_value1 c arg1 harg1 x0 hx0 fsrc q 206 hk _ _ _ _ _ _ rfl
  · show gatherRun1.sl.dma208 c arg1 harg1 x0 hx0 fsrc (ix1 q) = _
    exact row_value1 c arg1 harg1 x0 hx0 fsrc q 207 hk _ _ _ _ _ _ rfl
  · show gatherRun1.sl.dma209 c arg1 harg1 x0 hx0 fsrc (ix1 q) = _
    exact row_value1 c arg1 harg1 x0 hx0 fsrc q 208 hk _ _ _ _ _ _ rfl
  · show gatherRun1.sl.dma210 c arg1 harg1 x0 hx0 fsrc (ix1 q) = _
    exact row_value1 c arg1 harg1 x0 hx0 fsrc q 209 hk _ _ _ _ _ _ rfl
  · show gatherRun1.sl.dma211 c arg1 harg1 x0 hx0 fsrc (ix1 q) = _
    exact row_value1 c arg1 harg1 x0 hx0 fsrc q 210 hk _ _ _ _ _ _ rfl
  · show gatherRun1.sl.dma212 c arg1 harg1 x0 hx0 fsrc (ix1 q) = _
    exact row_value1 c arg1 harg1 x0 hx0 fsrc q 211 hk _ _ _ _ _ _ rfl
  · show gatherRun1.sl.dma213 c arg1 harg1 x0 hx0 fsrc (ix1 q) = _
    exact row_value1 c arg1 harg1 x0 hx0 fsrc q 212 hk _ _ _ _ _ _ rfl
  · show gatherRun1.sl.dma214 c arg1 harg1 x0 hx0 fsrc (ix1 q) = _
    exact row_value1 c arg1 harg1 x0 hx0 fsrc q 213 hk _ _ _ _ _ _ rfl
  · show gatherRun1.sl.dma215 c arg1 harg1 x0 hx0 fsrc (ix1 q) = _
    exact row_value1 c arg1 harg1 x0 hx0 fsrc q 214 hk _ _ _ _ _ _ rfl
  · show gatherRun1.sl.dma216 c arg1 harg1 x0 hx0 fsrc (ix1 q) = _
    exact row_value1 c arg1 harg1 x0 hx0 fsrc q 215 hk _ _ _ _ _ _ rfl
  · show gatherRun1.sl.dma217 c arg1 harg1 x0 hx0 fsrc (ix1 q) = _
    exact row_value1 c arg1 harg1 x0 hx0 fsrc q 216 hk _ _ _ _ _ _ rfl
  · show gatherRun1.sl.dma218 c arg1 harg1 x0 hx0 fsrc (ix1 q) = _
    exact row_value1 c arg1 harg1 x0 hx0 fsrc q 217 hk _ _ _ _ _ _ rfl
  · show gatherRun1.sl.dma219 c arg1 harg1 x0 hx0 fsrc (ix1 q) = _
    exact row_value1 c arg1 harg1 x0 hx0 fsrc q 218 hk _ _ _ _ _ _ rfl
  · show gatherRun1.sl.dma220 c arg1 harg1 x0 hx0 fsrc (ix1 q) = _
    exact row_value1 c arg1 harg1 x0 hx0 fsrc q 219 hk _ _ _ _ _ _ rfl
  · show gatherRun1.sl.dma221 c arg1 harg1 x0 hx0 fsrc (ix1 q) = _
    exact row_value1 c arg1 harg1 x0 hx0 fsrc q 220 hk _ _ _ _ _ _ rfl
  · show gatherRun1.sl.dma222 c arg1 harg1 x0 hx0 fsrc (ix1 q) = _
    exact row_value1 c arg1 harg1 x0 hx0 fsrc q 221 hk _ _ _ _ _ _ rfl
  · show gatherRun1.sl.dma223 c arg1 harg1 x0 hx0 fsrc (ix1 q) = _
    exact row_value1 c arg1 harg1 x0 hx0 fsrc q 222 hk _ _ _ _ _ _ rfl
  · show gatherRun1.sl.dma224 c arg1 harg1 x0 hx0 fsrc (ix1 q) = _
    exact row_value1 c arg1 harg1 x0 hx0 fsrc q 223 hk _ _ _ _ _ _ rfl
  · show gatherRun1.sl.dma225 c arg1 harg1 x0 hx0 fsrc (ix1 q) = _
    exact row_value1 c arg1 harg1 x0 hx0 fsrc q 224 hk _ _ _ _ _ _ rfl
  · show gatherRun1.sl.dma226 c arg1 harg1 x0 hx0 fsrc (ix1 q) = _
    exact row_value1 c arg1 harg1 x0 hx0 fsrc q 225 hk _ _ _ _ _ _ rfl
  · show gatherRun1.sl.dma227 c arg1 harg1 x0 hx0 fsrc (ix1 q) = _
    exact row_value1 c arg1 harg1 x0 hx0 fsrc q 226 hk _ _ _ _ _ _ rfl
  · show gatherRun1.sl.dma228 c arg1 harg1 x0 hx0 fsrc (ix1 q) = _
    exact row_value1 c arg1 harg1 x0 hx0 fsrc q 227 hk _ _ _ _ _ _ rfl
  · show gatherRun1.sl.dma229 c arg1 harg1 x0 hx0 fsrc (ix1 q) = _
    exact row_value1 c arg1 harg1 x0 hx0 fsrc q 228 hk _ _ _ _ _ _ rfl
  · show gatherRun1.sl.dma230 c arg1 harg1 x0 hx0 fsrc (ix1 q) = _
    exact row_value1 c arg1 harg1 x0 hx0 fsrc q 229 hk _ _ _ _ _ _ rfl
  · show gatherRun1.sl.dma231 c arg1 harg1 x0 hx0 fsrc (ix1 q) = _
    exact row_value1 c arg1 harg1 x0 hx0 fsrc q 230 hk _ _ _ _ _ _ rfl
  · show gatherRun1.sl.dma232 c arg1 harg1 x0 hx0 fsrc (ix1 q) = _
    exact row_value1 c arg1 harg1 x0 hx0 fsrc q 231 hk _ _ _ _ _ _ rfl
  · show gatherRun1.sl.dma233 c arg1 harg1 x0 hx0 fsrc (ix1 q) = _
    exact row_value1 c arg1 harg1 x0 hx0 fsrc q 232 hk _ _ _ _ _ _ rfl
  · show gatherRun1.sl.dma234 c arg1 harg1 x0 hx0 fsrc (ix1 q) = _
    exact row_value1 c arg1 harg1 x0 hx0 fsrc q 233 hk _ _ _ _ _ _ rfl
  · show gatherRun1.sl.dma235 c arg1 harg1 x0 hx0 fsrc (ix1 q) = _
    exact row_value1 c arg1 harg1 x0 hx0 fsrc q 234 hk _ _ _ _ _ _ rfl
  · show gatherRun1.sl.dma236 c arg1 harg1 x0 hx0 fsrc (ix1 q) = _
    exact row_value1 c arg1 harg1 x0 hx0 fsrc q 235 hk _ _ _ _ _ _ rfl
  · show gatherRun1.sl.dma237 c arg1 harg1 x0 hx0 fsrc (ix1 q) = _
    exact row_value1 c arg1 harg1 x0 hx0 fsrc q 236 hk _ _ _ _ _ _ rfl
  · show gatherRun1.sl.dma238 c arg1 harg1 x0 hx0 fsrc (ix1 q) = _
    exact row_value1 c arg1 harg1 x0 hx0 fsrc q 237 hk _ _ _ _ _ _ rfl
  · show gatherRun1.sl.dma239 c arg1 harg1 x0 hx0 fsrc (ix1 q) = _
    exact row_value1 c arg1 harg1 x0 hx0 fsrc q 238 hk _ _ _ _ _ _ rfl
  · show gatherRun1.sl.dma240 c arg1 harg1 x0 hx0 fsrc (ix1 q) = _
    exact row_value1 c arg1 harg1 x0 hx0 fsrc q 239 hk _ _ _ _ _ _ rfl
  · show gatherRun1.sl.dma241 c arg1 harg1 x0 hx0 fsrc (ix1 q) = _
    exact row_value1 c arg1 harg1 x0 hx0 fsrc q 240 hk _ _ _ _ _ _ rfl
  · show gatherRun1.sl.dma242 c arg1 harg1 x0 hx0 fsrc (ix1 q) = _
    exact row_value1 c arg1 harg1 x0 hx0 fsrc q 241 hk _ _ _ _ _ _ rfl
  · show gatherRun1.sl.dma243 c arg1 harg1 x0 hx0 fsrc (ix1 q) = _
    exact row_value1 c arg1 harg1 x0 hx0 fsrc q 242 hk _ _ _ _ _ _ rfl
  · show gatherRun1.sl.dma244 c arg1 harg1 x0 hx0 fsrc (ix1 q) = _
    exact row_value1 c arg1 harg1 x0 hx0 fsrc q 243 hk _ _ _ _ _ _ rfl
  · show gatherRun1.sl.dma245 c arg1 harg1 x0 hx0 fsrc (ix1 q) = _
    exact row_value1 c arg1 harg1 x0 hx0 fsrc q 244 hk _ _ _ _ _ _ rfl
  · show gatherRun1.sl.dma246 c arg1 harg1 x0 hx0 fsrc (ix1 q) = _
    exact row_value1 c arg1 harg1 x0 hx0 fsrc q 245 hk _ _ _ _ _ _ rfl
  · show gatherRun1.sl.dma247 c arg1 harg1 x0 hx0 fsrc (ix1 q) = _
    exact row_value1 c arg1 harg1 x0 hx0 fsrc q 246 hk _ _ _ _ _ _ rfl
  · show gatherRun1.sl.dma248 c arg1 harg1 x0 hx0 fsrc (ix1 q) = _
    exact row_value1 c arg1 harg1 x0 hx0 fsrc q 247 hk _ _ _ _ _ _ rfl
  · show gatherRun1.sl.dma249 c arg1 harg1 x0 hx0 fsrc (ix1 q) = _
    exact row_value1 c arg1 harg1 x0 hx0 fsrc q 248 hk _ _ _ _ _ _ rfl
  · show gatherRun1.sl.dma250 c arg1 harg1 x0 hx0 fsrc (ix1 q) = _
    exact row_value1 c arg1 harg1 x0 hx0 fsrc q 249 hk _ _ _ _ _ _ rfl
  · show gatherRun1.sl.dma251 c arg1 harg1 x0 hx0 fsrc (ix1 q) = _
    exact row_value1 c arg1 harg1 x0 hx0 fsrc q 250 hk _ _ _ _ _ _ rfl
  · show gatherRun1.sl.dma252 c arg1 harg1 x0 hx0 fsrc (ix1 q) = _
    exact row_value1 c arg1 harg1 x0 hx0 fsrc q 251 hk _ _ _ _ _ _ rfl
  · show gatherRun1.sl.dma253 c arg1 harg1 x0 hx0 fsrc (ix1 q) = _
    exact row_value1 c arg1 harg1 x0 hx0 fsrc q 252 hk _ _ _ _ _ _ rfl
  · show gatherRun1.sl.dma254 c arg1 harg1 x0 hx0 fsrc (ix1 q) = _
    exact row_value1 c arg1 harg1 x0 hx0 fsrc q 253 hk _ _ _ _ _ _ rfl
  · show gatherRun1.sl.dma255 c arg1 harg1 x0 hx0 fsrc (ix1 q) = _
    exact row_value1 c arg1 harg1 x0 hx0 fsrc q 254 hk _ _ _ _ _ _ rfl
  · show gatherRun1.sl.dma256 c arg1 harg1 x0 hx0 fsrc (ix1 q) = _
    exact row_value1 c arg1 harg1 x0 hx0 fsrc q 255 hk _ _ _ _ _ _ rfl

end Cert.KernelIdeal.Hand

end
-- ==== Proof.KI.ValueGather1.lean ====
import proofs.«423446_j56083682951492_1_alg».proof.Proof.KI.Gather1RunValue
import proofs.«423446_j56083682951492_1_alg».proof.Proof.KI.Gather1Dat
import proofs.«423446_j56083682951492_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Value
variable (V : (c : Dev nD) → (b : Ref sig .tc) → Buf (Elt Ideal) ((c : Thread nD τ).loc b))

theorem idx_facts1 : ∀ t : Fin cfg1.N, win1_0.index t (0 : Fin 1) = t.val
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem N1_val (t : Fin cfg1.N) : t.val < 6250 := by
  have h1 := t.isLt
  have h2 : cfg1.N = 6250 := N_1
  omega

theorem iblk1_0_apply (c : Dev nD) (t : Fin cfg1.N) (p : Fin 256) (k : S1600000.Idx) (hk : (k 0).val = 256 * t.val + p.val) :
    (iblk1 V c 0 t : Vec Ideal S256 .i32) (ix1 p) = (V c main_arg4 : S1600000.Idx → Elt Ideal .i32) k := by
  obtain ⟨e0, -, -, -, -⟩ := idx_facts1 t
  unfold iblk1
  rw [View.read_apply]
  show V c main_arg4 _ = V c main_arg4 _
  congr 1
  funext a
  apply Fin.ext
  match a with
  | ⟨0, _⟩ => show win1_0.index t 0 * 256 + 1 * p.val = (k 0).val; rw [e0, hk]; omega

theorem iblk1_1_apply (c : Dev nD) (t : Fin cfg1.N) (p : Fin 256) (k : S1600000x1.Idx) (hk : (k 0).val = 256 * t.val + p.val) :
    (iblk1 V c 1 t : Vec Ideal S256x1 .f32) (ix2 p 0) = (V c main_v0 : S1600000x1.Idx → Elt Ideal .f32) k := by
  obtain ⟨-, e0, e1, -, -⟩ := idx_facts1 t
  unfold iblk1
  rw [View.read_apply]
  show V c main_v0 _ = V c main_v0 _
  congr 1
  funext a
  apply Fin.ext
  match a with
  | ⟨0, _⟩ => show win1_1.index t 0 * 256 + 1 * p.val = (k 0).val; rw [e0, hk]; omega
  | ⟨1, _⟩ => show win1_1.index t 1 * 1 + 1 * 0 = (k 1).val; have h1 : (k 1).val < 1 := (k 1).isLt; rw [e1]; omega

theorem out1_apply (hH : Hyps1 V) (c : Dev nD) (t : Fin cfg1.N) (p : Fin 256) (q : Fin 64) :
    out1 V hH c t (ix2 p q)
      = (show FVec Ideal S100000x64 .f32 from V c main_v4) (ix2 ⟨((iblk1 V c 0 t : Vec Ideal S256 .i32) (ix1 p)).toNat, hH c t _⟩ q)
        * (iblk1 V c 1 t : Vec Ideal S256x1 .f32) (ix2 p 0) := by
  unfold out1
  exact gatherRun1_apply _ _ _ _ _ _ _ _ _ _ _ _ p q

theorem flushed1_eq (hH : Hyps1 V) (c : Dev nD) (t : Fin cfg1.N) :
    (dat1 V hH c).flushed 2 t = ((cfg1.win 2).blk t).view.read (Elt Ideal)
      (Cert.Spec.gmsg (V c main_v4) (fun e => (V c main_v0 : S1600000x1.Idx → Elt Ideal .f32) (ix2 (e 0 : Fin 1600000) 0)) (V c main_arg4)) := by
  show (cfg1.win 2).cut (grid1.coords t) ((dat1 V hH c).after 2 t) = _
  rw [after1_2]
  funext j
  obtain ⟨p, q, rfl⟩ : ∃ (p : Fin 256) (q : Fin 64), j = ix2 p q := ⟨j 0, j 1, eq_ix2 j⟩
  obtain ⟨-, -, -, e0, e1⟩ := idx_facts1 t
  have ht := N1_val t
  have hp := p.isLt
  have hrow : 256 * t.val + p.val < 1600000 := by omega
  have hemb : ((cfg1.win 2).blk t).view.emb (ix2 p q) = ix2 (⟨256 * t.val + p.val, hrow⟩ : Fin 1600000) q := by
    funext a; apply Fin.ext
    match a with
    | ⟨0, _⟩ => show win1_2.index t 0 * 256 + 1 * p.val = 256 * t.val + p.val; rw [e0]; omega
    | ⟨1, _⟩ => show win1_2.index t 1 * 64 + 1 * q.val = q.val; rw [e1]; omega
  rw [View.read_apply, hemb, cast_eq]
  show out1 V hH c t (ix2 p q) = _
  rw [out1_apply V hH c t p q, Cert.Spec.gmsg_apply, iblk1_1_apply V c t p (ix2 ⟨256 * t.val + p.val, hrow⟩ 0) rfl]
  have hw := iblk1_0_apply V c t p (ix1 ⟨256 * t.val + p.val, hrow⟩) rfl
  have hidx : (⟨((iblk1 V c 0 t : Vec Ideal S256 .i32) (ix1 p)).toNat, hH c t _⟩ : Fin 100000)
      = Cert.Spec.rowOf ((V c main_arg4 : S1600000.Idx → Elt Ideal .i32) (ix1 ⟨256 * t.val + p.val, hrow⟩)) :=
    Fin.ext (by
      show _ = _ % 100000
      rw [← hw]
      exact (Nat.mod_eq_of_lt (hH c t _)).symm)
  rw [hidx]

theorem mem_blk1 (t : Fin cfg1.N) (i : S1600000x64.Idx) :
    i ∈ ((cfg1.win 2).blk t).view.set ↔ ∀ a : Fin 2, win1_2.index t a * S256x64.size a ≤ (i a).val ∧ (i a).val < win1_2.index t a * S256x64.size a + S256x64.size a := by
  show i ∈ ((View.whole main_v5).slice (win1_2.rect t)).set ↔ _
  rw [View.set_slice_whole, Rect.mem_set_unit]
  exact Iff.rfl

theorem cover1 (i : S1600000x64.Idx) : ∃ t : Fin cfg1.N, (cfg1.win 2).flush t = true ∧ i ∈ ((cfg1.win 2).blk t).view.set := by
  have h0 : (i 0).val < 1600000 := (i 0).isLt
  have h1 : (i 1).val < 64 := (i 1).isLt
  have hN : cfg1.N = 6250 := N_1
  obtain ⟨t, ht⟩ : ∃ t : Fin cfg1.N, t.val = (i 0).val / 256 := ⟨⟨(i 0).val / 256, by rw [hN]; omega⟩, rfl⟩
  obtain ⟨-, -, -, e0, e1⟩ := idx_facts1 t
  refine ⟨t, flush1_2 t, ?_⟩
  rw [mem_blk1]
  intro a
  match a with
  | ⟨0, _⟩ => show win1_2.index t 0 * 256 ≤ (i 0).val ∧ (i 0).val < win1_2.index t 0 * 256 + 256; rw [e0, ht]; omega
  | ⟨1, _⟩ => show win1_2.index t 1 * 64 ≤ (i 1).val ∧ (i 1).val < win1_2.index t 1 * 64 + 64; rw [e1]; omega

theorem gather1_final (hH : Hyps1 V) (c : Dev nD) :
    (dat1 V hH c).arrAt 2 cfg1.N
      = Cert.Spec.gmsg (V c main_v4) (fun e => (V c main_v0 : S1600000x1.Idx → Elt Ideal .f32) (ix2 (e 0 : Fin 1600000) 0)) (V c main_arg4) :=
  (dat1 V hH c).arrAt_eq_of_cover 2 _ (fun t _ => flushed1_eq V hH c t) cover1

end Value

end Cert.KernelIdeal.Hand
end
-- ==== Proof.KI.FinalizeValue.lean ====
import proofs.«423446_j56083682951492_1_alg».proof.Proof.KI.Finalize
import proofs.«423446_j56083682951492_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx

theorem k2_pay1_apply (x0 x1 : Vec Ideal S5000x64 .f32) (x2 : Vec Ideal S1x1 .f32) (p : Fin 5000) (q : Fin 64) :
    k2_pay1 (F := Ideal) x2 x0 x1 (ix2 p q) = Cert.Spec.finS (x2 (ix2 0 0)) (x0 (ix2 p q)) (x1 (ix2 p q)) := by
  have hb : broadcastTo S5000x64 x2 broadcasts_S1x1_S5000x64 (ix2 p q) = x2 (ix2 0 0) :=
    broadcastTo_apply _ _ _ _ (fun a => by fin_cases a <;> rfl)
  unfold k2_pay1 Cert.Spec.finS
  dsimp only
  simp only [minimumf, maximumf, select, cmpf, broadcast, subf, mulf, shapeCast_self, hb]
  rfl

theorem out2_3_apply (x0 x1 : Vec Ideal S5000x64 .f32) (x2 : Vec Ideal S1x1 .f32) (p : Fin 5000) (q : Fin 64) :
    out2_3 x0 x1 x2 (ix2 p q) = Cert.Spec.finS (x2 (ix2 0 0)) (x0 (ix2 p q)) (x1 (ix2 p q)) := by
  rw [out2_3_eq]
  exact k2_pay1_apply x0 x1 x2 p q

end Cert.KernelIdeal.Hand

end
-- ==== Proof.KI.ValueFinal.lean ====
import proofs.«423446_j56083682951492_1_alg».proof.Proof.KI.FinalizeValue
import proofs.«423446_j56083682951492_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem N2_val (t : Fin cfg2.N) : t.val < 20 := by
  have h1 := t.isLt
  have h2 : cfg2.N = 20 := N_2
  omega

theorem iblk2_0_apply (c : Dev nD) (t : Fin cfg2.N) (p : Fin 5000) (q : Fin 64) (k : S100000x64.Idx)
    (hk0 : (k 0).val = 5000 * t.val + p.val) (hk1 : (k 1).val = q.val) :
    (iblk2 V c 0 t : Vec Ideal S5000x64 .f32) (ix2 p q) = (V c main_v8 : S100000x64.Idx → Elt Ideal .f32) k := by
  obtain ⟨e0, e1, -, -, -, -, -, -⟩ := idx_facts2 t
  unfold iblk2
  rw [View.read_apply]
  show V c main_v8 _ = V c main_v8 _
  congr 1
  funext a
  apply Fin.ext
  match a with
  | ⟨0, _⟩ => show win2_0.index t 0 * 5000 + 1 * p.val = (k 0).val; rw [e0, hk0]; omega
  | ⟨1, _⟩ => show win2_0.index t 1 * 64 + 1 * q.val = (k 1).val; rw [e1, hk1]; omega

theorem iblk2_1_apply (c : Dev nD) (t : Fin cfg2.N) (p : Fin 5000) (q : Fin 64) (k : S100000x64.Idx)
    (hk0 : (k 0).val = 5000 * t.val + p.val) (hk1 : (k 1).val = q.val) :
    (iblk2 V c 1 t : Vec Ideal S5000x64 .f32) (ix2 p q) = (V c main_arg0 : S100000x64.Idx → Elt Ideal .f32) k := by
  obtain ⟨-, -, e0, e1, -, -, -, -⟩ := idx_facts2 t
  unfold iblk2
  rw [View.read_apply]
  show V c main_arg0 _ = V c main_arg0 _
  congr 1
  funext a
  apply Fin.ext
  match a with
  | ⟨0, _⟩ => show win2_1.index t 0 * 5000 + 1 * p.val = (k 0).val; rw [e0, hk0]; omega
  | ⟨1, _⟩ => show win2_1.index t 1 * 64 + 1 * q.val = (k 1).val; rw [e1, hk1]; omega

theorem iblk2_2_apply (c : Dev nD) (t : Fin cfg2.N) :
    (iblk2 V c 2 t : Vec Ideal S1x1 .f32) (ix2 0 0) = (V c main_v14 : S1x1.Idx → Elt Ideal .f32) (ix2 0 0) := by
  obtain ⟨-, -, -, -, e0, e1, -, -⟩ := idx_facts2 t
  unfold iblk2
  rw [View.read_apply]
  show V c main_v14 _ = V c main_v14 _
  congr 1
  funext a
  apply Fin.ext
  match a with
  | ⟨0, _⟩ => show win2_2.index t 0 * 1 + 1 * 0 = 0; rw [e0]
  | ⟨1, _⟩ => show win2_2.index t 1 * 1 + 1 * 0 = 0; rw [e1]

theorem flushed2_eq (c : Dev nD) (t : Fin cfg2.N) :
    (dat2 V c).flushed 3 t = ((cfg2.win 3).blk t).view.read (Elt Ideal)
      (Cert.Spec.fin (fun _ => (V c main_v14 : S1x1.Idx → Elt Ideal .f32) (ix2 0 0)) (V c main_v8) (V c main_arg0)) := by
  show (cfg2.win 3).cut (grid2.coords t) ((dat2 V c).after 3 t) = _
  rw [after2_3]
  funext j
  obtain ⟨p, q, rfl⟩ : ∃ (p : Fin 5000) (q : Fin 64), j = ix2 p q := ⟨j 0, j 1, eq_ix2 j⟩
  obtain ⟨-, -, -, -, -, -, e0, e1⟩ := idx_facts2 t
  have ht := N2_val t
  have hp := p.isLt
  have hrow : 5000 * t.val + p.val < 100000 := by omega
  have hemb : ((cfg2.win 3).blk t).view.emb (ix2 p q) = ix2 (⟨5000 * t.val + p.val, hrow⟩ : Fin 100000) q := by
    funext a; apply Fin.ext
    match a with
    | ⟨0, _⟩ => show win2_3.index t 0 * 5000 + 1 * p.val = 5000 * t.val + p.val; rw [e0]; omega
    | ⟨1, _⟩ => show win2_3.index t 1 * 64 + 1 * q.val = q.val; rw [e1]; omega
  rw [View.read_apply, hemb, cast_eq]
  show out2_3 (iblk2 V c 0 t) (iblk2 V c 1 t) (iblk2 V c 2 t) (ix2 p q) = _
  rw [out2_3_apply, Cert.Spec.fin_apply, iblk2_0_apply V c t p q (ix2 ⟨5000 * t.val + p.val, hrow⟩ q) rfl rfl,
    iblk2_1_apply V c t p q (ix2 ⟨5000 * t.val + p.val, hrow⟩ q) rfl rfl, iblk2_2_apply V c t]

theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v15).slice (win2_3.rect t)).set ↔ _
  rw [View.set_slice_whole, Rect.mem_set_unit]
  exact Iff.rfl

theorem cover2 (i : S100000x64.Idx) : ∃ t : Fin cfg2.N, (cfg2.win 3).flush t = true ∧ i ∈ ((cfg2.win 3).blk t).view.set := by
  have h0 : (i 0).val < 100000 := (i 0).isLt
  have h1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, e0, e1⟩ := idx_facts2 t
  refine ⟨t, flush2_3 t, ?_⟩
  rw [mem_blk2]
  intro a
  match a with
  | ⟨0, _⟩ => show win2_3.index t 0 * 5000 ≤ (i 0).val ∧ (i 0).val < win2_3.index t 0 * 5000 + 5000; rw [e0, ht]; omega
  | ⟨1, _⟩ => show win2_3.index t 1 * 64 ≤ (i 1).val ∧ (i 1).val < win2_3.index t 1 * 64 + 64; rw [e1]; omega

theorem final2 (c : Dev nD) :
    (dat2 V c).arrAt 3 cfg2.N
      = Cert.Spec.fin (fun _ => (V c main_v14 : S1x1.Idx → Elt Ideal .f32) (ix2 0 0)) (V c main_v8) (V c main_arg0) :=
  (dat2 V c).arrAt_eq_of_cover 3 _ (fun t _ => flushed2_eq V c t) cover2

end Cert.KernelIdeal.Hand

end
-- ==== Proof.KI.ValueHost.lean ====
import proofs.«423446_j56083682951492_1_alg».proof.Proof.Gen.KernelIdeal.Regions
import proofs.«423446_j56083682951492_1_alg».proof.Proof.Spec
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (outs : Outs (F := Ideal))

abbrev zeros : FVec Ideal S100000x64 .f32 :=
  broadcastInDim S100000x64 ![] bcast_S_S100000x64 (constant (F := Ideal) S_ .f32 0x00000000#32)

abbrev rows (c : Dev nD) : IVec S1600000x1 32 :=
  broadcastInDim S1600000x1 ![0] bcast_S1600000_S1600000x1_0 (m ((c : Thread nD τ).loc main_arg3) : IVec S1600000 32)

abbrev scat (c : Dev nD) (u : FVec Ideal S1600000x64 .f32) : FVec Ideal S100000x64 .f32 :=
  Host.scatterAdd scatter_S100000x64_S1600000x1_S1600000x64_1_0_0_1 zeros (rows m c) u

theorem V1_main_v0 (c : Dev nD) : V1 m c main_v0 = shapeCast S1600000x1 (m ((c : Thread nD τ).loc main_arg2)) shapeCasts_S1600000_S1600000x1 := by
  show StableHlo.after hostOps0 _ (Proc.devRef .tc main_v0) = _
  after_results
  rfl

theorem V1_main_v0_apply (c : Dev nD) (i : S1600000x1.Idx) :
    (V1 m c main_v0 : S1600000x1.Idx → Elt Ideal .f32) i = (m ((c : Thread nD τ).loc main_arg2) : S1600000.Idx → Elt Ideal .f32) (ix1 (i 0)) := by
  rw [V1_main_v0]
  refine shapeCast_apply _ _ i (ix1 (i 0)) ?_
  rw [Shape.rowMajor_val_one, Shape.rowMajor_val_two]
  have h1 : (i 1).val < 1 := (i 1).isLt
  show (i 0).val = (i 0).val * 1 + (i 1).val
  omega

theorem V1_main_arg0 (c : Dev nD) : V1 m c main_arg0 = m ((c : Thread nD τ).loc main_arg0) := V1_of m c main_arg0 (by decide)
theorem V1_main_arg4 (c : Dev nD) : V1 m c main_arg4 = m ((c : Thread nD τ).loc main_arg4) := V1_of m c main_arg4 (by decide)

theorem V3_main_v4 (c : Dev nD) : V3 m outs c main_v4 = scat m c (outs 2 main_v1 c) := by
  show StableHlo.after hostOps1 _ (Proc.devRef .tc main_v4) = _
  after_results
  rfl

theorem V3_main_v0 (c : Dev nD) : V3 m outs c main_v0 = V1 m c main_v0 :=
  (V3_of m outs c main_v0 (by decide)).trans (V2_of m outs c main_v0 (by decide))
theorem V3_main_arg4 (c : Dev nD) : V3 m outs c main_arg4 = m ((c : Thread nD τ).loc main_arg4) :=
  (V3_of m outs c main_arg4 (by decide)).trans <| (V2_of m outs c main_arg4 (by decide)).trans (V1_main_arg4 m c)

theorem V7_main_v8 (c : Dev nD) : V7 m outs c main_v8 = scat m c (outs 4 main_v5 c) := by
  rw [V7_of m outs c main_v8 (by decide), V6_of m outs c main_v8 (by decide)]
  show StableHlo.after hostOps2 _ (Proc.devRef .tc main_v8) = _
  after_results
  rfl

theorem V7_main_v14 (c : Dev nD) :
    V7 m outs c main_v14 = shapeCast S1x1 (Cert.Spec.alph (m ((c : Thread nD τ).loc main_arg1))) shapeCasts_S_S1x1 := by
  show StableHlo.after hostOps2_2 (StableHlo.after hostOps2_1 (StableHlo.after hostOps2 _)) (Proc.devRef .tc main_v14) = _
  after_results
  rfl

theorem V7_main_v14_apply (c : Dev nD) (j : S1x1.Idx) :
    (V7 m outs c main_v14 : S1x1.Idx → Elt Ideal .f32) j = Cert.Spec.alph (m ((c : Thread nD τ).loc main_arg1)) ix0 := by
  rw [V7_main_v14]
  refine shapeCast_apply _ _ j ix0 ?_
  rw [Shape.rowMajor_val_two]
  have h0 : (j 0).val < 1 := (j 0).isLt
  have h1 : (j 1).val < 1 := (j 1).isLt
  have hz : ((S_ : Shape).rowMajor ix0).val = 0 := Shape.rowMajorPi_zero _ _
  rw [hz]
  show 0 = (j 0).val * 1 + (j 1).val
  omega

theorem V7_main_arg0 (c : Dev nD) : V7 m outs c main_arg0 = m ((c : Thread nD τ).loc main_arg0) :=
  (V7_of m outs c main_arg0 (by decide)).trans <| (V6_of m outs c main_arg0 (by decide)).trans <| (V5_of m outs c main_arg0 (by decide)).trans <|
    (V4_of m outs c main_arg0 (by decide)).trans <| (V3_of m outs c main_arg0 (by decide)).trans <| (V2_of m outs c main_arg0 (by decide)).trans (V1_main_arg0 m c)

end Cert.KernelIdeal.Hand

end
-- ==== Proof.KI.ValueOf.lean ====
import proofs.«423446_j56083682951492_1_alg».proof.Proof.KI.ValueHost

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (outs : Outs (F := Ideal))

theorem V1_vals (c : Dev nD) :
    (fun e : Cert.Spec.SE.Idx => (V1 m c main_v0 : S1600000x1.Idx → Elt Ideal .f32) (ix2 (e 0 : Fin 1600000) 0))
      = m ((c : Thread nD τ).loc main_arg2) :=
  funext fun e => by
    rw [V1_main_v0_apply]
    exact congrArg _ (eq_ix1 e).symm

theorem V7_alph (c : Dev nD) :
    (fun _ : Cert.Spec.S0.Idx => (V7 m outs c main_v14 : S1x1.Idx → Elt Ideal .f32) (ix2 0 0))
      = Cert.Spec.alph (m ((c : Thread nD τ).loc main_arg1)) :=
  funext fun j => by
    rw [V7_main_v14_apply, eq_ix0 j]

theorem kernel_value_of
    (h2 : ∀ c : Dev nD, outs 2 main_v1 c = Cert.Spec.gmsg (V1 m c main_arg0)
      (fun e => (V1 m c main_v0 : S1600000x1.Idx → Elt Ideal .f32) (ix2 (e 0 : Fin 1600000) 0)) (V1 m c main_arg4))
    (h4 : ∀ c : Dev nD, outs 4 main_v5 c = Cert.Spec.gmsg (V3 m outs c main_v4)
      (fun e => (V3 m outs c main_v0 : S1600000x1.Idx → Elt Ideal .f32) (ix2 (e 0 : Fin 1600000) 0)) (V3 m outs c main_arg4))
    (h8 : ∀ c : Dev nD, outs 8 main_v15 c = Cert.Spec.fin
      (fun _ => (V7 m outs c main_v14 : S1x1.Idx → Elt Ideal .f32) (ix2 0 0)) (V7 m outs c main_v8) (V7 m outs c main_arg0))
    (c : Dev nD) :
    outs 8 main_v15 c = Cert.Spec.result (scat m c) (m ((c : Thread nD τ).loc main_arg0)) (m ((c : Thread nD τ).loc main_arg1))
      (m ((c : Thread nD τ).loc main_arg2)) (m ((c : Thread nD τ).loc main_arg4)) := by
  rw [h8 c, V7_alph, V7_main_v8, V7_main_arg0, h4 c, V3_main_v4, V3_main_v0, V3_main_arg4, h2 c, V1_main_arg0, V1_main_arg4, V1_vals]
  rfl

end Cert.KernelIdeal.Hand

end
-- ==== Proof.KI.Value.lean ====
import proofs.«423446_j56083682951492_1_alg».proof.Proof.KI.Regs
import proofs.«423446_j56083682951492_1_alg».proof.Proof.KI.ValueGather0
import proofs.«423446_j56083682951492_1_alg».proof.Proof.KI.ValueGather1
import proofs.«423446_j56083682951492_1_alg».proof.Proof.KI.ValueFinal
import proofs.«423446_j56083682951492_1_alg».proof.Proof.KI.ValueOf

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

theorem kernel_value (hH : HypsAll (F := Ideal) m) (c : Dev nD) :
    outs m hH 8 main_v15 c = Cert.Spec.result (scat m c) (m ((c : Thread nD τ).loc main_arg0)) (m ((c : Thread nD τ).loc main_arg1))
      (m ((c : Thread nD τ).loc main_arg2)) (m ((c : Thread nD τ).loc main_arg4)) :=
  kernel_value_of m (outs m hH)
    (fun c => (outs_2_main_v1 m hH c).trans (gather0_final (E0 m) hH.h0 c))
    (fun c => (outs_4_main_v5 m hH c).trans <| (gather1_final (E1 m hH.h0) hH.h1 c).trans <| by
      rw [E1_eq m hH c main_v4, E1_eq m hH c main_v0, E1_eq m hH c main_arg4])
    (fun c => (outs_8_main_v15 m hH c).trans <| (final2 (E2 m hH) c).trans <| by
      rw [E2_eq m hH c main_v14, E2_eq m hH c main_v8, E2_eq m hH c main_arg0])
    c

end Cert.KernelIdeal.Hand

end
-- ==== Proof.RefRun.lean ====
import proofs.«423446_j56083682951492_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [
    StableHlo.unary main_arg1 main_v0 (Host.negf : (⟨S_, .f32⟩ : BufTy).Contents (Elt F) → (⟨S_, .f32⟩ : BufTy).Contents (Elt F)),
    StableHlo.unary main_v0 main_v1 (Host.exp : (⟨S_, .f32⟩ : BufTy).Contents (Elt F) → (⟨S_, .f32⟩ : BufTy).Contents (Elt F)),
    StableHlo.nullary main_cst (constant S_ .f32 0x3F800000#32),
    StableHlo.binary main_cst main_v1 main_v2 (addf : (⟨S_, .f32⟩ : BufTy).Contents (Elt F) → (⟨S_, .f32⟩ : BufTy).Contents (Elt F) → (⟨S_, .f32⟩ : BufTy).Contents (Elt F)),
    StableHlo.nullary main_cst_0 (constant S_ .f32 0x3F800000#32),
    StableHlo.binary main_cst_0 main_v2 main_v3 (Host.divf : (⟨S_, .f32⟩ : BufTy).Contents (Elt F) → (⟨S_, .f32⟩ : BufTy).Contents (Elt F) → (⟨S_, .f32⟩ : BufTy).Contents (Elt F)),
    StableHlo.nullary main_cst_1 (constant S_ .f32 0x33D6BF95#32),
    StableHlo.nullary main_cst_2 (constant S_ .f32 0x3F7FFFFE#32),
    StableHlo.TRef.unary (.of main_cst_1) main_call0.v0 id,
    StableHlo.TRef.binary main_call0.v0 (.of main_v3) main_call0.v1 maximumf,
    StableHlo.TRef.unary (.of main_cst_2) main_call0.v2 id,
    StableHlo.TRef.binary main_call0.v2 main_call0.v1 main_call0.v3 minimumf,
    StableHlo.unary main_arg2 main_v5 (broadcastInDim S1600000x1 ![0] bcast_S1600000_S1600000x1_0 : (⟨S1600000, .f32⟩ : BufTy).Contents (Elt F) → (⟨S1600000x1, .f32⟩ : BufTy).Contents (Elt F)),
    StableHlo.nullary main_c (constantI S_ 32 0#32),
    StableHlo.unary main_c main_v6 (broadcastInDim S1600000 ![] bcast_S_S1600000 : (⟨S_, .i32⟩ : BufTy).Contents (Elt F) → (⟨S1600000, .i32⟩ : BufTy).Contents (Elt F)),
    StableHlo.binary main_arg4 main_v6 main_v7 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v8 (broadcastInDim S1600000 ![] bcast_S_S1600000 : (⟨S_, .i32⟩ : BufTy).Contents (Elt F) → (⟨S1600000, .i32⟩ : BufTy).Contents (Elt F)),
    StableHlo.binary main_arg4 main_v8 main_v9 (addi : (⟨S1600000, .i32⟩ : BufTy).Contents (Elt F) → (⟨S1600000, .i32⟩ : BufTy).Contents (Elt F) → (⟨S1600000, .i32⟩ : BufTy).Contents (Elt F)),
    StableHlo.ternary main_v7 main_v9 main_arg4 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v10 main_v11 (broadcastInDim S1600000x1 ![0] bcast_S1600000_S1600000x1_0 : (⟨S1600000, .i32⟩ : BufTy).Contents (Elt F) → (⟨S1600000x1, .i32⟩ : BufTy).Contents (Elt F)),
    StableHlo.binary main_arg0 main_v11 main_v12 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v5 main_v13 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v13 main_v12 main_v14 (mulf : (⟨S1600000x64, .f32⟩ : BufTy).Contents (Elt F) → (⟨S1600000x64, .f32⟩ : BufTy).Contents (Elt F) → (⟨S1600000x64, .f32⟩ : BufTy).Contents (Elt F)),
    StableHlo.nullary main_cst_4 (constant S_ .f32 0x00000000#32),
    StableHlo.unary main_cst_4 main_v15 (broadcastInDim S100000x64 ![] bcast_S_S100000x64 : (⟨S_, .f32⟩ : BufTy).Contents (Elt F) → (⟨S100000x64, .f32⟩ : BufTy).Contents (Elt F)),
    StableHlo.unary main_arg3 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg2 main_v18 (broadcastInDim S1600000x1 ![0] bcast_S1600000_S1600000x1_0 : (⟨S1600000, .f32⟩ : BufTy).Contents (Elt F) → (⟨S1600000x1, .f32⟩ : BufTy).Contents (Elt F)),
    StableHlo.nullary main_c_5 (constantI S_ 32 0#32),
    StableHlo.unary main_c_5 main_v19 (broadcastInDim S1600000 ![] bcast_S_S1600000 : (⟨S_, .i32⟩ : BufTy).Contents (Elt F) → (⟨S1600000, .i32⟩ : BufTy).Contents (Elt F)),
    StableHlo.binary main_arg4 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v21 (broadcastInDim S1600000 ![] bcast_S_S1600000 : (⟨S_, .i32⟩ : BufTy).Contents (Elt F) → (⟨S1600000, .i32⟩ : BufTy).Contents (Elt F)),
    StableHlo.binary main_arg4 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_arg4 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v17 main_v24 main_v25 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v18 main_v26 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v26 main_v25 main_v27 (mulf : (⟨S1600000x64, .f32⟩ : BufTy).Contents (Elt F) → (⟨S1600000x64, .f32⟩ : BufTy).Contents (Elt F) → (⟨S1600000x64, .f32⟩ : BufTy).Contents (Elt F)),
    StableHlo.nullary main_cst_7 (constant S_ .f32 0x00000000#32),
    StableHlo.unary main_cst_7 main_v28 (broadcastInDim S100000x64 ![] bcast_S_S100000x64 : (⟨S_, .f32⟩ : BufTy).Contents (Elt F) → (⟨S100000x64, .f32⟩ : BufTy).Contents (Elt F)),
    StableHlo.unary main_arg3 main_v29 (broadcastInDim S1600000x1 ![0] bcast_S1600000_S1600000x1_0 : (⟨S1600000, .i32⟩ : BufTy).Contents (Elt F) → (⟨S1600000x1, .i32⟩ : BufTy).Contents (Elt F)),
    StableHlo.ternary main_v28 main_v29 main_v27 main_v30 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v4 main_v31 (broadcastInDim S100000x64 ![] bcast_S_S100000x64 : (⟨S_, .f32⟩ : BufTy).Contents (Elt F) → (⟨S100000x64, .f32⟩ : BufTy).Contents (Elt F)),
    StableHlo.binary main_v31 main_v30 main_v32 (mulf : (⟨S100000x64, .f32⟩ : BufTy).Contents (Elt F) → (⟨S100000x64, .f32⟩ : BufTy).Contents (Elt F) → (⟨S100000x64, .f32⟩ : BufTy).Contents (Elt F)),
    StableHlo.binary main_v32 main_arg0 main_v33 (subf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x00000000#32),
    StableHlo.nullary main_cst_9 (constant S_ .f32 0xC7C35000#32),
    StableHlo.nullary main_cst_10 (constant S_ .f32 0x47C35000#32),
    StableHlo.TRef.binary (.of main_v33) (.of main_v33) main_call1.v0 (cmpf .une),
    StableHlo.TRef.unary (.of main_cst_8) main_call1.v1 id,
    StableHlo.TRef.unary main_call1.v1 main_call1.call0.v0 (broadcastInDim S100000x64 ![] bcast_S_S100000x64),
    StableHlo.TRef.ternary main_call1.v0 main_call1.call0.v0 (.of main_v33) main_call1.call0.v1 select,
    StableHlo.TRef.nullary main_call1.cst (constant S_ .f32 0x7F800000#32),
    StableHlo.TRef.unary main_call1.cst main_call1.v3 (broadcastInDim S100000x64 ![] bcast_S_S100000x64),
    StableHlo.TRef.binary main_call1.call0.v1 main_call1.v3 main_call1.v4 (cmpf .oeq),
    StableHlo.TRef.unary (.of main_cst_10) main_call1.v5 id,
    StableHlo.TRef.unary main_call1.v5 main_call1.call1.v0 (broadcastInDim S100000x64 ![] bcast_S_S100000x64),
    StableHlo.TRef.ternary main_call1.v4 main_call1.call1.v0 main_call1.call0.v1 main_call1.call1.v1 select,
    StableHlo.TRef.nullary main_call1.cst_0 (constant S_ .f32 0xFF800000#32),
    StableHlo.TRef.unary main_call1.cst_0 main_call1.v7 (broadcastInDim S100000x64 ![] bcast_S_S100000x64),
    StableHlo.TRef.binary main_call1.call1.v1 main_call1.v7 main_call1.v8 (cmpf .oeq),
    StableHlo.TRef.unary (.of main_cst_9) main_call1.v9 id,
    StableHlo.TRef.unary main_call1.v9 main_call1.call2.v0 (broadcastInDim S100000x64 ![] bcast_S_S100000x64),
    StableHlo.TRef.ternary main_call1.v8 main_call1.call2.v0 main_call1.call1.v1 main_call1.call2.v1 select,
    StableHlo.nullary main_cst_11 (constant S_ .f32 0xC1200000#32),
    StableHlo.nullary main_cst_12 (constant S_ .f32 0x41200000#32),
    StableHlo.TRef.unary (.of main_cst_11) main_call2.v0 id,
    StableHlo.TRef.unary main_call2.v0 main_call2.v1 (broadcastInDim S100000x64 ![] bcast_S_S100000x64),
    StableHlo.TRef.binary main_call2.v1 (.of main_v34) main_call2.v2 maximumf,
    StableHlo.TRef.unary (.of main_cst_12) main_call2.v3 id,
    StableHlo.TRef.unary main_call2.v3 main_call2.v4 (broadcastInDim S100000x64 ![] bcast_S_S100000x64),
    StableHlo.TRef.binary main_call2.v4 main_call2.v2 main_call2.v5 minimumf ]

set_option maxRecDepth 65536 in
set_option maxHeartbeats 1600000 in
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., unary_bufs_sub .., nullary_bufs_sub .., binary_bufs_sub .., nullary_bufs_sub .., binary_bufs_sub ..,
    nullary_bufs_sub .., nullary_bufs_sub .., unary_bufs_sub .., binary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., unary_bufs_sub .., binary_bufs_sub .., binary_bufs_sub .., nullary_bufs_sub ..,
    nullary_bufs_sub .., nullary_bufs_sub .., binary_bufs_sub .., unary_bufs_sub .., unary_bufs_sub .., ternary_bufs_sub ..,
    nullary_bufs_sub .., unary_bufs_sub .., binary_bufs_sub .., unary_bufs_sub .., unary_bufs_sub .., ternary_bufs_sub ..,
    nullary_bufs_sub .., unary_bufs_sub .., binary_bufs_sub .., unary_bufs_sub .., unary_bufs_sub .., ternary_bufs_sub ..,
    nullary_bufs_sub .., nullary_bufs_sub .., unary_bufs_sub .., unary_bufs_sub .., binary_bufs_sub .., unary_bufs_sub ..,
    unary_bufs_sub .., binary_bufs_sub ..⟩

def alphR (a1 : FVec F S_ .f32) : FVec F S_ .f32 :=
  minimumf (constant (F := F) S_ .f32 0x3F7FFFFE#32)
    (maximumf (constant (F := F) S_ .f32 0x33D6BF95#32)
      (Host.divf (constant (F := F) S_ .f32 0x3F800000#32)
        (addf (constant (F := F) S_ .f32 0x3F800000#32) (Host.exp (Host.negf a1)))))

def colsR (a4 : IVec S1600000 32) : IVec S1600000 32 :=
  select (cmpi .slt a4 (broadcastInDim S1600000 ![] bcast_S_S1600000 (constantI S_ 32 0#32)))
    (addi a4 (broadcastInDim S1600000 ![] bcast_S_S1600000 (constantI S_ 32 100000#32))) a4

def msgR (y : FVec F S100000x64 .f32) (a2 : FVec F S1600000 .f32) (a4 : IVec S1600000 32) : FVec F S1600000x64 .f32 :=
  mulf
    (broadcastInDim S1600000x64 ![0, 1] bcast_S1600000x1_S1600000x64_0_1
      (broadcastInDim S1600000x1 ![0] bcast_S1600000_S1600000x1_0 a2))
    (Host.gather gather_S100000x64_S1600000x1_S1600000x64_1_0_n_n_0_1_164 y
      (broadcastInDim S1600000x1 ![0] bcast_S1600000_S1600000x1_0 (colsR a4)))

def scR (a3 : IVec S1600000 32) (u : FVec F S1600000x64 .f32) : FVec F S100000x64 .f32 :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 a3) u

def splatR (w : BitVec 32) : FVec F S100000x64 .f32 :=
  broadcastInDim S100000x64 ![] bcast_S_S100000x64 (constant (F := F) S_ .f32 w)

def nanToNumR (v : FVec F S100000x64 .f32) : FVec F S100000x64 .f32 :=
  let v2 : FVec F S100000x64 .f32 := select (cmpf .une v v) (splatR 0x00000000#32) v
  let v6 : FVec F S100000x64 .f32 := select (cmpf .oeq v2 (splatR 0x7F800000#32)) (splatR 0x47C35000#32) v2
  select (cmpf .oeq v6 (splatR 0xFF800000#32)) (splatR 0xC7C35000#32) v6

def clipR (v : FVec F S100000x64 .f32) : FVec F S100000x64 .f32 :=
  minimumf (splatR 0x41200000#32) (maximumf (splatR 0xC1200000#32) v)

def RvalOf (a0 : FVec F S100000x64 .f32) (a1 : FVec F S_ .f32) (a2 : FVec F S1600000 .f32) (a3 a4 : IVec S1600000 32) :
    FVec F S100000x64 .f32 :=
  clipR (nanToNumR (subf
    (mulf (broadcastInDim S100000x64 ![] bcast_S_S100000x64 (alphR a1)) (scR a3 (msgR (scR a3 (msgR a0 a2 a4)) a2 a4))) a0))

def Rval (m : (ℓ : Loc nD τ sig) → Buf (Elt F) ℓ) (c : Dev nD) : FVec F S100000x64 .f32 :=
  RvalOf (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4))

attribute [local irreducible] Host.gather Host.scatterAdd in
set_option maxRecDepth 65536 in
set_option maxHeartbeats 1600000 in
theorem out_eq (V : Valuation τ sig (Elt F)) :
    after ops V (main_v35 : DevRef τ sig)
      = RvalOf (V (main_arg0 : DevRef τ sig)) (V (main_arg1 : DevRef τ sig)) (V (main_arg2 : DevRef τ sig))
          (V (main_arg3 : DevRef τ sig)) (V (main_arg4 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r => ∀ c : Dev nD,
      r.2.mem ((c.tc : Thread nD τ).loc main_v35) = Rval m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v35).trans (out_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.ReferenceIdeal.Hand

end
-- ==== Proof.RefValue.lean ====
import proofs.«423446_j56083682951492_1_alg».proof.Proof.RefRun
import proofs.«423446_j56083682951492_1_alg».proof.Proof.Spec
import Idealize.ShloMosaic.Lib.StableHlo.Predicate

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

section Reads
variable {α : Type}

theorem bcast_rows_apply (v : S1600000.Idx → α) (e : Fin 1600000) (f : Fin 64) :
    broadcastInDim S1600000x64 ![0, 1] bcast_S1600000x1_S1600000x64_0_1
      (broadcastInDim S1600000x1 ![0] bcast_S1600000_S1600000x1_0 v) (ix2 e f) = v (ix1 e) := by
  simp only [broadcastInDim]
  congr 1
  funext a
  have ha : a = 0 := Subsingleton.elim _ _
  subst ha
  apply Fin.ext
  split
  · next h1 => exact absurd h1 (by decide)
  · split
    · next h2 => exact absurd h2 (by decide)
    · rfl

theorem bcast_col_apply (v : S1600000.Idx → α) (e : Fin 1600000) :
    broadcastInDim S1600000x1 ![0] bcast_S1600000_S1600000x1_0 v (ix2 e (0 : Fin 1)) = v (ix1 e) := by
  simp only [broadcastInDim]
  congr 1
  funext a
  have ha : a = 0 := Subsingleton.elim _ _
  subst ha
  apply Fin.ext
  split
  · next h1 => exact absurd h1 (by decide)
  · rfl

theorem bcast_scalar_apply (v : S_.Idx → α) (i : S100000x64.Idx) :
    broadcastInDim S100000x64 ![] bcast_S_S100000x64 v i = v ix0 := by
  simp only [broadcastInDim]
  congr 1
  funext a
  exact Fin.elim0 a

theorem gather_rows_apply {w : Nat} (y : S100000x64.Idx → α) (idx : IVec S1600000x1 w) (e : Fin 1600000) (f : Fin 64)
    (r : Fin 100000) (hr : r.val = min (idx (ix2 e (0 : Fin 1))).toInt.toNat (100000 - 1)) :
    Host.gather gather_S100000x64_S1600000x1_S1600000x64_1_0_n_n_0_1_164 y idx (ix2 e f) = y (ix2 r f) := by
  unfold Host.gather
  congr 1
  funext a
  match a with
  | ⟨0, _⟩ =>
    refine Fin.ext ?_
    show gather_S100000x64_S1600000x1_S1600000x64_1_0_n_n_0_1_164.start (ix2 e f) idx 0
        + gather_S100000x64_S1600000x1_S1600000x64_1_0_n_n_0_1_164.batchCoord (ix2 e f) 0
        + gather_S100000x64_S1600000x1_S1600000x64_1_0_n_n_0_1_164.offCoord (ix2 e f) 0 = r.val
    rw [hr, GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S1600000x1_S1600000x64_1_0_n_n_0_1_164.startIndexMap from
      List.mem_singleton.mpr rfl)]
    have hsi : gather_S100000x64_S1600000x1_S1600000x64_1_0_n_n_0_1_164.siIdx (ix2 e f)
        ⟨List.idxOf (0 : Fin 2) gather_S100000x64_S1600000x1_S1600000x64_1_0_n_n_0_1_164.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    refine Fin.ext ?_
    show gather_S100000x64_S1600000x1_S1600000x64_1_0_n_n_0_1_164.start (ix2 e f) idx 1
        + gather_S100000x64_S1600000x1_S1600000x64_1_0_n_n_0_1_164.batchCoord (ix2 e f) 1
        + gather_S100000x64_S1600000x1_S1600000x64_1_0_n_n_0_1_164.offCoord (ix2 e f) 1 = f.val
    rw [GatherDims.batchCoord_eq_zero _ _ _ List.not_mem_nil]
    unfold GatherDims.start
    rw [dif_neg (show (1 : Fin 2) ∉ gather_S100000x64_S1600000x1_S1600000x64_1_0_n_n_0_1_164.startIndexMap from by decide)]
    unfold GatherDims.offCoord
    rw [dif_pos (show (1 : Fin 2) ∈ gather_S100000x64_S1600000x1_S1600000x64_1_0_n_n_0_1_164.sKept from by decide)]
    simp only [Nat.zero_add, Nat.add_zero]
    rfl

end Reads

theorem colsR_apply (a4 : IVec S1600000 32) (e : Fin 1600000) (h : (a4 (ix1 e)).toNat < 100000) :
    colsR a4 (ix1 e) = a4 (ix1 e) := by
  have hint : (a4 (ix1 e)).toInt = ((a4 (ix1 e)).toNat : Int) :=
    Predicate.toInt_eq_toNat_of_lt (by omega)
  have hz : (0#32 : BitVec 32).toInt = 0 := by decide
  have hlt : ¬ ((a4 (ix1 e)).toInt < (0#32 : BitVec 32).toInt) := by
    rw [hint, hz]; omega
  show Scalar.select (BitVec.ofBool (decide ((a4 (ix1 e)).toInt < (0#32 : BitVec 32).toInt)))
      (IntOp.addi (a4 (ix1 e)) 100000#32) (a4 (ix1 e)) = a4 (ix1 e)
  rw [decide_eq_false hlt]
  exact select_zero _ _

theorem msgR_eq (y : FVec Ideal S100000x64 .f32) (a2 : FVec Ideal S1600000 .f32) (a4 : IVec S1600000 32)
    (hc : ∀ e : S1600000.Idx, (a4 e).toNat < 100000) : msgR y a2 a4 = Cert.Spec.gmsg y a2 a4 := by
  funext i
  obtain ⟨e, f, rfl⟩ : ∃ (e : Fin 1600000) (f : Fin 64), i = ix2 e f := ⟨i 0, i 1, eq_ix2 i⟩
  rw [Cert.Spec.gmsg_apply]
  show (broadcastInDim S1600000x64 ![0, 1] bcast_S1600000x1_S1600000x64_0_1
          (broadcastInDim S1600000x1 ![0] bcast_S1600000_S1600000x1_0 a2)) (ix2 e f)
      * Host.gather gather_S100000x64_S1600000x1_S1600000x64_1_0_n_n_0_1_164 y
          (broadcastInDim S1600000x1 ![0] bcast_S1600000_S1600000x1_0 (colsR a4)) (ix2 e f) = _
  have hr : (Cert.Spec.rowOf (a4 (ix1 e))).val
      = min ((broadcastInDim S1600000x1 ![0] bcast_S1600000_S1600000x1_0 (colsR a4)) (ix2 e (0 : Fin 1))).toInt.toNat
          (100000 - 1) := by
    have h := hc (ix1 e)
    rw [bcast_col_apply, colsR_apply a4 e h, Cert.Spec.rowOf_val h, Predicate.toInt_eq_toNat_of_lt (by omega),
      Int.toNat_natCast]
    omega
  rw [bcast_rows_apply, gather_rows_apply y _ e f _ hr, mul_comm]

theorem tail_apply (al : FVec Ideal S_ .f32) (s x : FVec Ideal S100000x64 .f32) (i : S100000x64.Idx) :
    clipR (nanToNumR (subf (mulf (broadcastInDim S100000x64 ![] bcast_S_S100000x64 al) s) x)) i
      = Cert.Spec.finS (al ix0) (s i) (x i) := by
  have hb : broadcastInDim S100000x64 ![] bcast_S_S100000x64 al i = al ix0 := bcast_scalar_apply al i
  show Cert.Spec.finS (broadcastInDim S100000x64 ![] bcast_S_S100000x64 al i) (s i) (x i) = _
  rw [hb]

theorem Rval_eq (m : (ℓ : Loc nD τ sig) → Buf (Elt Ideal) ℓ) (c : Dev nD)
    (hc : ∀ e : S1600000.Idx, ((m ((c.tc : Thread nD τ).loc main_arg4) : IVec S1600000 32) e).toNat < 100000) :
    Rval (F := Ideal) m c = Cert.Spec.result
      (fun u => Host.scatterAdd Cert.ReferenceIdeal.scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (m ((c.tc : Thread nD τ).loc main_arg3))) u)
      (m ((c.tc : Thread nD τ).loc main_arg0)) (m ((c.tc : Thread nD τ).loc main_arg1))
      (m ((c.tc : Thread nD τ).loc main_arg2)) (m ((c.tc : Thread nD τ).loc main_arg4)) := by
  unfold Rval RvalOf
  rw [msgR_eq _ _ _ hc, msgR_eq _ _ _ hc]
  funext i
  rw [tail_apply]
  rfl

end Cert.ReferenceIdeal.Hand

end
-- ==== Proof.Bridge.lean ====
import proofs.«423446_j56083682951492_1_alg».proof.Proof.RefValue
import proofs.«423446_j56083682951492_1_alg».proof.Proof.KI.ValueHost

noncomputable section

namespace Cert.Proof.Bridge

open Idealize.ShloMosaic Idealize.ShloMosaic.TcCoe Idealize.SL.Sem

theorem scat_eq (m : (ℓ : Loc Cert.KernelIdeal.nD Cert.KernelIdeal.τ Cert.KernelIdeal.sig) → Buf (Elt Ideal) ℓ)
    (c : Dev Cert.KernelIdeal.nD) :
    (fun u : FVec Ideal Cert.ReferenceIdeal.S1600000x64 .f32 =>
      Host.scatterAdd Cert.ReferenceIdeal.scatter_S100000x64_S1600000x1_S1600000x64_1_0_0_1
        (broadcastInDim Cert.ReferenceIdeal.S100000x64 ![] Cert.ReferenceIdeal.Gen.bcast_S_S100000x64
          (constant (F := Ideal) Cert.ReferenceIdeal.S_ .f32 0x00000000#32))
        (broadcastInDim Cert.ReferenceIdeal.S1600000x1 ![0] Cert.ReferenceIdeal.Gen.bcast_S1600000_S1600000x1_0
          (m ((c.tc : Thread Cert.KernelIdeal.nD Cert.KernelIdeal.τ).loc Cert.KernelIdeal.main_arg3)
            : IVec Cert.ReferenceIdeal.S1600000 32)) u)
      = Cert.KernelIdeal.Hand.scat m c := rfl

theorem Rval_eq_kernel
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (hc : ∀ (c : Dev Cert.KernelIdeal.nD) (e : Cert.KernelIdeal.S1600000.Idx),
      ((m ((c.tc : Thread Cert.KernelIdeal.nD Cert.KernelIdeal.τ).loc Cert.KernelIdeal.main_arg4)
        : IVec Cert.KernelIdeal.S1600000 32) e).toNat < 100000)
    (c : Dev Cert.KernelIdeal.nD) :
    Cert.ReferenceIdeal.Hand.Rval (F := Ideal) m' c
      = Cert.Spec.result (Cert.KernelIdeal.Hand.scat m c)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg4)) := by
  obtain ⟨h0, h1, h2, h3, h4⟩ := hagree c
  have hc' : ∀ e : Cert.ReferenceIdeal.S1600000.Idx,
      ((m' ((c.tc : Thread Cert.ReferenceIdeal.nD Cert.ReferenceIdeal.τ).loc Cert.ReferenceIdeal.main_arg4)
        : IVec Cert.ReferenceIdeal.S1600000 32) e).toNat < 100000 := by
    intro e
    rw [h4]
    exact hc c e
  rw [Cert.ReferenceIdeal.Hand.Rval_eq m' c hc', h0, h1, h2, h3, h4]
  exact congrArg (fun sc => Cert.Spec.result sc _ _ _ _) (scat_eq m c)

end Cert.Proof.Bridge

end
-- ==== Proof.lean ====
/-
  Two-hop sparse propagation: out = clip(nan_to_num(α · A (A x) − x)), where (A y)[r, :] is the sum over the edges e with
  rows e = r of vals e · y[cols e, :].  The kernel copies row cols e of y into row e of a block and scales it, a host
  scatter-add sums the rows per target, twice, and a pointwise pass finishes; the reference gathers, scales and sums on the
  host.  Under the precondition every column index is a row of the table, so the copied row is the gathered row.
-/
import proofs.«423446_j56083682951492_1_alg».proof.Defs
import proofs.«423446_j56083682951492_1_alg».proof.Proof.Gen.Kernel
import proofs.«423446_j56083682951492_1_alg».proof.Proof.Gen.KernelIdeal
import proofs.«423446_j56083682951492_1_alg».proof.Proof.Gen.ReferenceIdeal
import proofs.«423446_j56083682951492_1_alg».proof.Proof.Gen.Pre_finite_inputs
import proofs.«423446_j56083682951492_1_alg».proof.Proof.PreHyps
import proofs.«423446_j56083682951492_1_alg».proof.Proof.KI.Run
import proofs.«423446_j56083682951492_1_alg».proof.Proof.KI.Value
import proofs.«423446_j56083682951492_1_alg».proof.Proof.RefRun
import proofs.«423446_j56083682951492_1_alg».proof.Proof.RefValue
import proofs.«423446_j56083682951492_1_alg».proof.Proof.Bridge
import Idealize.ShloMosaic.Adequacy
import Idealize.ShloMosaic.Init

noncomputable section

namespace Cert.Proof

open Idealize.ShloMosaic Idealize.SL.Sem Idealize.ShloMosaic.Tactic

theorem frame_KI : Cert.frame_KernelIdeal := fun m ρ h =>
  Cert.KernelIdeal.Hand.frame m ρ (PreFacts.hypsAll m h)

/-- The word-level program is the idealized program's text at another reading of the floats, and the run holds at every reading. -/
theorem frame_K : Cert.frame_Kernel :=
  cast (by sl_kernel_rfl) fun (m : (ℓ : Loc Cert.KernelIdeal.nD Cert.KernelIdeal.τ Cert.KernelIdeal.sig) → Buf (Elt Bits) ℓ) ρ
    (h : PreFacts.PreAt m) => Cert.KernelIdeal.Hand.frame m ρ (PreFacts.hypsAll m h)

theorem frame_R : Cert.frame_ReferenceIdeal := fun m ρ _ =>
  (θ_run _ _ _).mono (fun _ h c => (h c).2) (Cert.ReferenceIdeal.Hand.run m ρ)

theorem algebraic : Cert.algebraic_KernelIdeal_ReferenceIdeal := by
  intro m ρ m' ρ' hpre hagree
  have hH := PreFacts.hypsAll m hpre
  refine ⟨fun c => Cert.KernelIdeal.Hand.outs m hH 8 Cert.KernelIdeal.main_v15 c, Cert.KernelIdeal.Hand.run_value m ρ hH, ?_⟩
  exact (θ_run _ _ _).mono
    (fun r h c => ⟨((h c).1.trans (Bridge.Rval_eq_kernel m m' hagree (PreFacts.cols_lt_at m hpre) c)).trans
      (Cert.KernelIdeal.Hand.kernel_value m hH c).symm, (h c).2⟩)
    (Cert.ReferenceIdeal.Hand.run m' ρ')

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
